-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S128x50257 : Shape := ⟨2, ![128, 50257]⟩
abbrev S128 : Shape := ⟨1, ![128]⟩
abbrev S_ : Shape := ⟨0, ![]⟩

class Facts : Prop where
  bcast_S_S128x50257 : S_.BroadcastsInDim S128x50257 (![] : Fin 0 → Fin S128x50257.rank)
  reducesTo_S128x50257_S_d0_1 : S128x50257.ReducesTo [0, 1] S_
  h_S_ : 0 < S_.numel
  bcast_S_S128 : S_.BroadcastsInDim S128 (![] : Fin 0 → Fin S128.rank)
  reducesTo_S128_S_d0 : S128.ReducesTo [0] S_
  bcast_S_S64x4096 : S_.BroadcastsInDim S64x4096 (![] : Fin 0 → Fin S64x4096.rank)
  reducesTo_S64x4096_S_d0_1 : S64x4096.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S64x4096 32) (main_arg1 : FVec F S128x50257 .f32) (main_arg2 : FVec F S128 .f32) : IVec S_ 1 :=
  let main_v0 : FVec F S128x50257 .f32 := Host.absf main_arg1
  let main_cst : FVec F S_ .f32 := constant S_ .f32 0x7F800000#32
  let main_v1 : FVec F S128x50257 .f32 := broadcastInDim S128x50257 ![] bcast_S_S128x50257 main_cst
  let main_v2 : IVec S128x50257 1 := cmpf .olt main_v0 main_v1
  let main_c : IVec S_ 1 := constantI S_ 1 1#1
  let main_v3 : IVec S_ 1 := (fun x v => Host.reduce IntOp.andi x v reducesTo_S128x50257_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S64x4096 32 := broadcastInDim S64x4096 ![] bcast_S_S64x4096 main_c_2
  let main_v10 : IVec S64x4096 1 := cmpi .sge main_arg0 main_v9
  let main_c_3 : IVec S_ 1 := constantI S_ 1 1#1
  let main_v11 : IVec S_ 1 := (fun x v => Host.reduce IntOp.andi x v reducesTo_S64x4096_S_d0_1 h_S_) main_v10 main_c_3
  let main_v12 : IVec S_ 1 := andi main_v8 main_v11
  let main_c_4 : IVec S_ 32 := constantI S_ 32 50257#32
  let main_v13 : IVec S64x4096 32 := broadcastInDim S64x4096 ![] bcast_S_S64x4096 main_c_4
  let main_v14 : IVec S64x4096 1 := cmpi .slt main_arg0 main_v13
  let main_c_5 : IVec S_ 1 := constantI S_ 1 1#1
  let main_v15 : IVec S_ 1 := (fun x v => Host.reduce IntOp.andi x v reducesTo_S64x4096_S_d0_1 h_S_) main_v14 main_c_5
  fn_part1 (F := F) main_v12 main_v15
-- ==== Kernel.lean ====
abbrev S64x4096 : Shape := ⟨2, ![64, 4096]⟩
abbrev S128x50257 : Shape := ⟨2, ![128, 50257]⟩
abbrev S128 : Shape := ⟨1, ![128]⟩
abbrev S50257x128 : Shape := ⟨2, ![50257, 128]⟩
abbrev S262144 : Shape := ⟨1, ![262144]⟩
abbrev S1x128 : Shape := ⟨2, ![1, 128]⟩
abbrev S32768 : Shape := ⟨1, ![32768]⟩
abbrev S32768x128 : Shape := ⟨2, ![32768, 128]⟩
abbrev S8x128 : Shape := ⟨2, ![8, 128]⟩
abbrev S8 : Shape := ⟨1, ![8]⟩
abbrev S1 : Shape := ⟨1, ![1]⟩
abbrev S_ : Shape := ⟨0, ![]⟩
abbrev S262144x128 : Shape := ⟨2, ![262144, 128]⟩
abbrev S64x4096x128 : Shape := ⟨3, ![64, 4096, 128]⟩

abbrev nBuf : Space → Nat
  | .hbm => 16
  | .vmem => 32
  | .smem => 8
  | _ => 0

abbrev bufTy : (tb : Table) → Fin (tcTables nBuf tb) → BufTy
  | .hbm, ⟨0, _⟩ => ⟨S64x4096, .i32⟩
  | .hbm, ⟨1, _⟩ => ⟨S128x50257, .f32⟩
  | .hbm, ⟨2, _⟩ => ⟨S128, .f32⟩
  | .hbm, ⟨3, _⟩ => ⟨S50257x128, .f32⟩
  | .hbm, ⟨4, _⟩ => ⟨S262144, .i32⟩
  | .hbm, ⟨5, _⟩ => ⟨S1x128, .f32⟩
  | .hbm, ⟨6, _⟩ => ⟨S32768x128, .f32⟩
  | .hbm, ⟨7, _⟩ => ⟨S32768x128, .f32⟩
  | .hbm, ⟨8, _⟩ => ⟨S32768x128, .f32⟩
  | .hbm, ⟨9, _⟩ => ⟨S32768x128, .f32⟩
  | .hbm, ⟨10, _⟩ => ⟨S32768x128, .f32⟩
  | .hbm, ⟨11, _⟩ => ⟨S32768x128, .f32⟩
  | .hbm, ⟨12, _⟩ => ⟨S32768x128, .f32⟩
  | .hbm, ⟨13, _⟩ => ⟨S32768x128, .f32⟩
  | .hbm, ⟨14, _⟩ => ⟨S262144x128, .f32⟩
  | .hbm, ⟨15, _⟩ => ⟨S64x4096x128, .f32⟩
  | .local _ .vmem, ⟨0, _⟩ => ⟨S1x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S1x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S1x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S1x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S1x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S1x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S1x128, .f32⟩
  | .local _ .vmem, ⟨25, _⟩ => ⟨S8x128, .f32⟩
  | .local _ .vmem, ⟨26, _⟩ => ⟨S8x128, .f32⟩
  | .local _ .vmem, ⟨27, _⟩ => ⟨S8x128, .f32⟩
  | .local _ .vmem, ⟨28, _⟩ => ⟨S1x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .smem, ⟨0, _⟩ => ⟨S32768, .i32⟩
  | .local _ .smem, ⟨1, _⟩ => ⟨S32768, .i32⟩
  | .local _ .smem, ⟨2, _⟩ => ⟨S32768, .i32⟩
  | .local _ .smem, ⟨3, _⟩ => ⟨S32768, .i32⟩
  | .local _ .smem, ⟨4, _⟩ => ⟨S32768, .i32⟩
  | .local _ .smem, ⟨5, _⟩ => ⟨S32768, .i32⟩
  | .local _ .smem, ⟨6, _⟩ => ⟨S32768, .i32⟩
  | .local _ .smem, ⟨7, _⟩ => ⟨S32768, .i32⟩
  | _, _ => ⟨S64x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v4 : Ref sig .tc := ⟨.hbm, 6, rfl⟩
abbrev main_v6 : Ref sig .tc := ⟨.hbm, 7, rfl⟩
abbrev main_v8 : Ref sig .tc := ⟨.hbm, 8, rfl⟩
abbrev main_v10 : Ref sig .tc := ⟨.hbm, 9, rfl⟩
abbrev main_v12 : Ref sig .tc := ⟨.hbm, 10, rfl⟩
abbrev main_v14 : Ref sig .tc := ⟨.hbm, 11, rfl⟩
abbrev main_v16 : Ref sig .tc := ⟨.hbm, 12, rfl⟩
abbrev main_v18 : Ref sig .tc := ⟨.hbm, 13, rfl⟩
abbrev main_v19 : Ref sig .tc := ⟨.hbm, 14, rfl⟩
abbrev main_v20 : Ref sig .tc := ⟨.hbm, 15, rfl⟩
abbrev main_v3 : Ref sig .tc := ⟨.smem, 0, rfl⟩
abbrev main_v5 : Ref sig .tc := ⟨.smem, 1, rfl⟩
abbrev main_v7 : Ref sig .tc := ⟨.smem, 2, rfl⟩
abbrev main_v9 : Ref sig .tc := ⟨.smem, 3, rfl⟩
abbrev main_v11 : Ref sig .tc := ⟨.smem, 4, rfl⟩
abbrev main_v13 : Ref sig .tc := ⟨.smem, 5, rfl⟩
abbrev main_v15 : Ref sig .tc := ⟨.smem, 6, rfl⟩
abbrev main_v17 : Ref sig .tc := ⟨.smem, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_scratch0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_scratch0 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg1_1 : Ref sig .tc := ⟨.vmem, 14, rfl⟩
abbrev cc3_scratch0 : Ref sig .tc := ⟨.vmem, 15, rfl⟩
abbrev cc4_stg0_0 : Ref sig .tc := ⟨.vmem, 16, rfl⟩
abbrev cc4_stg1_0 : Ref sig .tc := ⟨.vmem, 17, rfl⟩
abbrev cc4_stg1_1 : Ref sig .tc := ⟨.vmem, 18, rfl⟩
abbrev cc4_scratch0 : Ref sig .tc := ⟨.vmem, 19, rfl⟩
abbrev cc5_stg0_0 : Ref sig .tc := ⟨.vmem, 20, rfl⟩
abbrev cc5_stg1_0 : Ref sig .tc := ⟨.vmem, 21, rfl⟩
abbrev cc5_stg1_1 : Ref sig .tc := ⟨.vmem, 22, rfl⟩
abbrev cc5_scratch0 : Ref sig .tc := ⟨.vmem, 23, rfl⟩
abbrev cc6_stg0_0 : Ref sig .tc := ⟨.vmem, 24, rfl⟩
abbrev cc6_stg1_0 : Ref sig .tc := ⟨.vmem, 25, rfl⟩
abbrev cc6_stg1_1 : Ref sig .tc := ⟨.vmem, 26, rfl⟩
abbrev cc6_scratch0 : Ref sig .tc := ⟨.vmem, 27, rfl⟩
abbrev cc7_stg0_0 : Ref sig .tc := ⟨.vmem, 28, rfl⟩
abbrev cc7_stg1_0 : Ref sig .tc := ⟨.vmem, 29, rfl⟩
abbrev cc7_stg1_1 : Ref sig .tc := ⟨.vmem, 30, rfl⟩
abbrev cc7_scratch0 : Ref sig .tc := ⟨.vmem, 31, rfl⟩
abbrev cc0_sem0_0 : DmaSem sig := 0
abbrev cc0_sem1_0 : DmaSem sig := 1
abbrev cc0_sem1_1 : DmaSem sig := 2
abbrev cc1_sem0_0 : DmaSem sig := 11
abbrev cc1_sem1_0 : DmaSem sig := 12
abbrev cc1_sem1_1 : DmaSem sig := 13
abbrev cc2_sem0_0 : DmaSem sig := 22
abbrev cc2_sem1_0 : DmaSem sig := 23
abbrev cc2_sem1_1 : DmaSem sig := 24
abbrev cc3_sem0_0 : DmaSem sig := 33
abbrev cc3_sem1_0 : DmaSem sig := 34
abbrev cc3_sem1_1 : DmaSem sig := 35
abbrev cc4_sem0_0 : DmaSem sig := 44
abbrev cc4_sem1_0 : DmaSem sig := 45
abbrev cc4_sem1_1 : DmaSem sig := 46
abbrev cc5_sem0_0 : DmaSem sig := 55
abbrev cc5_sem1_0 : DmaSem sig := 56
abbrev cc5_sem1_1 : DmaSem sig := 57
abbrev cc6_sem0_0 : DmaSem sig := 66
abbrev cc6_sem1_0 : DmaSem sig := 67
abbrev cc6_sem1_1 : DmaSem sig := 68
abbrev cc7_sem0_0 : DmaSem sig := 77
abbrev cc7_sem1_0 : DmaSem sig := 78
abbrev cc7_sem1_1 : DmaSem sig := 79

abbrev nD : Nat := 1
abbrev τ : Topo := Topo.v7x

variable {F : FTy → Type} [FloatOps F]

abbrev grid0 : Pipeline.Grid := ⟨1, ![4096], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_off5 (i : grid0.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_off7 (i : grid0.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_off9 (i : grid0.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_off11 (i : grid0.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_off13 (i : grid0.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_off15 (i : grid0.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_chk8 (v66 : BitVec 32) : Prop :=
  (∀ a, (k0_off16 v66) a + S1x128.size a ≤ S50257x128.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x128.size a ≤ S50257x128.size a := fun v66 k0_hw8 => k0_hw8

def k0_off17 (v3 : BitVec 32) : Fin 2 → Nat :=
  let c0_i32_35 : BitVec 32 := 0#32
  ![v3.toNat, 0]

def k0_chk1 (v3 : BitVec 32) : Prop :=
  (∀ a, (k0_off2 v3) a + S1x128.size a ≤ S50257x128.size a) ∧
  (∀ a, (k0_off17 v3) a + S1x128.size a ≤ S50257x128.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x128.size a ≤ S50257x128.size a := fun v3 k0_hw1 => k0_hw1.1
theorem k0_off17_inb : ∀ (v3 : BitVec 32) (k0_hw1 : k0_chk1 v3), ∀ a, (k0_off17 v3) a + S1x128.size a ≤ S50257x128.size a := fun v3 k0_hw1 => k0_hw1.2

def k0_off18 (v12 : BitVec 32) : Fin 2 → Nat :=
  let c0_i32_39 : BitVec 32 := 0#32
  ![v12.toNat, 0]

def k0_chk2 (v12 : BitVec 32) : Prop :=
  (∀ a, (k0_off4 v12) a + S1x128.size a ≤ S50257x128.size a) ∧
  (∀ a, (k0_off18 v12) a + S1x128.size a ≤ S50257x128.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x128.size a ≤ S50257x128.size a := fun v12 k0_hw2 => k0_hw2.1
theorem k0_off18_inb : ∀ (v12 : BitVec 32) (k0_hw2 : k0_chk2 v12), ∀ a, (k0_off18 v12) a + S1x128.size a ≤ S50257x128.size a := fun v12 k0_hw2 => k0_hw2.2

def k0_off19 (v21 : BitVec 32) : Fin 2 → Nat :=
  let c0_i32_43 : BitVec 32 := 0#32
  ![v21.toNat, 0]

def k0_chk3 (v21 : BitVec 32) : Prop :=
  (∀ a, (k0_off6 v21) a + S1x128.size a ≤ S50257x128.size a) ∧
  (∀ a, (k0_off19 v21) a + S1x128.size a ≤ S50257x128.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x128.size a ≤ S50257x128.size a := fun v21 k0_hw3 => k0_hw3.1
theorem k0_off19_inb : ∀ (v21 : BitVec 32) (k0_hw3 : k0_chk3 v21), ∀ a, (k0_off19 v21) a + S1x128.size a ≤ S50257x128.size a := fun v21 k0_hw3 => k0_hw3.2

def k0_off20 (v30 : BitVec 32) : Fin 2 → Nat :=
  let c0_i32_47 : BitVec 32 := 0#32
  ![v30.toNat, 0]

def k0_chk4 (v30 : BitVec 32) : Prop :=
  (∀ a, (k0_off8 v30) a + S1x128.size a ≤ S50257x128.size a) ∧
  (∀ a, (k0_off20 v30) a + S1x128.size a ≤ S50257x128.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x128.size a ≤ S50257x128.size a := fun v30 k0_hw4 => k0_hw4.1
theorem k0_off20_inb : ∀ (v30 : BitVec 32) (k0_hw4 : k0_chk4 v30), ∀ a, (k0_off20 v30) a + S1x128.size a ≤ S50257x128.size a := fun v30 k0_hw4 => k0_hw4.2

def k0_off21 (v39 : BitVec 32) : Fin 2 → Nat :=
  let c0_i32_51 : BitVec 32 := 0#32
  ![v39.toNat, 0]

def k0_chk5 (v39 : BitVec 32) : Prop :=
  (∀ a, (k0_off10 v39) a + S1x128.size a ≤ S50257x128.size a) ∧
  (∀ a, (k0_off21 v39) a + S1x128.size a ≤ S50257x128.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x128.size a ≤ S50257x128.size a := fun v39 k0_hw5 => k0_hw5.1
theorem k0_off21_inb : ∀ (v39 : BitVec 32) (k0_hw5 : k0_chk5 v39), ∀ a, (k0_off21 v39) a + S1x128.size a ≤ S50257x128.size a := fun v39 k0_hw5 => k0_hw5.2

def k0_off22 (v48 : BitVec 32) : Fin 2 → Nat :=
  let c0_i32_55 : BitVec 32 := 0#32
  ![v48.toNat, 0]

def k0_chk6 (v48 : BitVec 32) : Prop :=
  (∀ a, (k0_off12 v48) a + S1x128.size a ≤ S50257x128.size a) ∧
  (∀ a, (k0_off22 v48) a + S1x128.size a ≤ S50257x128.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x128.size a ≤ S50257x128.size a := fun v48 k0_hw6 => k0_hw6.1
theorem k0_off22_inb : ∀ (v48 : BitVec 32) (k0_hw6 : k0_chk6 v48), ∀ a, (k0_off22 v48) a + S1x128.size a ≤ S50257x128.size a := fun v48 k0_hw6 => k0_hw6.2

def k0_off23 (v57 : BitVec 32) : Fin 2 → Nat :=
  let c0_i32_59 : BitVec 32 := 0#32
  ![v57.toNat, 0]

def k0_chk7 (v57 : BitVec 32) : Prop :=
  (∀ a, (k0_off14 v57) a + S1x128.size a ≤ S50257x128.size a) ∧
  (∀ a, (k0_off23 v57) a + S1x128.size a ≤ S50257x128.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x128.size a ≤ S50257x128.size a := fun v57 k0_hw7 => k0_hw7.1
theorem k0_off23_inb : ∀ (v57 : BitVec 32) (k0_hw7 : k0_chk7 v57), ∀ a, (k0_off23 v57) a + S1x128.size a ≤ S50257x128.size a := fun v57 k0_hw7 => k0_hw7.2

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4096], ![false]⟩

abbrev pre1 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_off3 (i : grid1.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k1_off4 (v12 : BitVec 32) : Fin 2 → Nat :=
  let c0_i32_7 : BitVec 32 := 0#32
  ![v12.toNat, 0]

def k1_off5 (i : grid1.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k1_off6 (v21 : BitVec 32) : Fin 2 → Nat :=
  let c0_i32_11 : BitVec 32 := 0#32
  ![v21.toNat, 0]

def k1_off7 (i : grid1.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k1_off8 (v30 : BitVec 32) : Fin 2 → Nat :=
  let c0_i32_15 : BitVec 32 := 0#32
  ![v30.toNat, 0]

def k1_off9 (i : grid1.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k1_off10 (v39 : BitVec 32) : Fin 2 → Nat :=
  let c0_i32_19 : BitVec 32 := 0#32
  ![v39.toNat, 0]

def k1_off11 (i : grid1.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k1_off12 (v48 : BitVec 32) : Fin 2 → Nat :=
  let c0_i32_23 : BitVec 32 := 0#32
  ![v48.toNat, 0]

def k1_off13 (i : grid1.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k1_off14 (v57 : BitVec 32) : Fin 2 → Nat :=
  let c0_i32_27 : BitVec 32 := 0#32
  ![v57.toNat, 0]

def k1_off15 (i : grid1.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k1_off16 (v66 : BitVec 32) : Fin 2 → Nat :=
  let c0_i32_31 : BitVec 32 := 0#32
  ![v66.toNat, 0]

def k1_chk8 (v66 : BitVec 32) : Prop :=
  (∀ a, (k1_off16 v66) a + S1x128.size a ≤ S50257x128.size a)
instance k1_chk8.dec : ∀ (v66 : BitVec 32), Decidable (k1_chk8 v66) := fun v66 => decidable_of_iff' _ (Iff.of_eq (k1_chk8.eq_1 v66))
theorem k1_off16_inb : ∀ (v66 : BitVec 32) (k1_hw8 : k1_chk8 v66), ∀ a, (k1_off16 v66) a + S1x128.size a ≤ S50257x128.size a := fun v66 k1_hw8 => k1_hw8

def k1_off17 (v3 : BitVec 32) : Fin 2 → Nat :=
  let c0_i32_35 : BitVec 32 := 0#32
  ![v3.toNat, 0]

def k1_chk1 (v3 : BitVec 32) : Prop :=
  (∀ a, (k1_off2 v3) a + S1x128.size a ≤ S50257x128.size a) ∧
  (∀ a, (k1_off17 v3) a + S1x128.size a ≤ S50257x128.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x128.size a ≤ S50257x128.size a := fun v3 k1_hw1 => k1_hw1.1
theorem k1_off17_inb : ∀ (v3 : BitVec 32) (k1_hw1 : k1_chk1 v3), ∀ a, (k1_off17 v3) a + S1x128.size a ≤ S50257x128.size a := fun v3 k1_hw1 => k1_hw1.2

def k1_off18 (v12 : BitVec 32) : Fin 2 → Nat :=
  let c0_i32_39 : BitVec 32 := 0#32
  ![v12.toNat, 0]

def k1_chk2 (v12 : BitVec 32) : Prop :=
  (∀ a, (k1_off4 v12) a + S1x128.size a ≤ S50257x128.size a) ∧
  (∀ a, (k1_off18 v12) a + S1x128.size a ≤ S50257x128.size a)
instance k1_chk2.dec : ∀ (v12 : BitVec 32), Decidable (k1_chk2 v12) := fun v12 => decidable_of_iff' _ (Iff.of_eq (k1_chk2.eq_1 v12))
theorem k1_off4_inb : ∀ (v12 : BitVec 32) (k1_hw2 : k1_chk2 v12), ∀ a, (k1_off4 v12) a + S1x128.size a ≤ S50257x128.size a := fun v12 k1_hw2 => k1_hw2.1
theorem k1_off18_inb : ∀ (v12 : BitVec 32) (k1_hw2 : k1_chk2 v12), ∀ a, (k1_off18 v12) a + S1x128.size a ≤ S50257x128.size a := fun v12 k1_hw2 => k1_hw2.2

def k1_off19 (v21 : BitVec 32) : Fin 2 → Nat :=
  let c0_i32_43 : BitVec 32 := 0#32
  ![v21.toNat, 0]

def k1_chk3 (v21 : BitVec 32) : Prop :=
  (∀ a, (k1_off6 v21) a + S1x128.size a ≤ S50257x128.size a) ∧
  (∀ a, (k1_off19 v21) a + S1x128.size a ≤ S50257x128.size a)
instance k1_chk3.dec : ∀ (v21 : BitVec 32), Decidable (k1_chk3 v21) := fun v21 => decidable_of_iff' _ (Iff.of_eq (k1_chk3.eq_1 v21))
theorem k1_off6_inb : ∀ (v21 : BitVec 32) (k1_hw3 : k1_chk3 v21), ∀ a, (k1_off6 v21) a + S1x128.size a ≤ S50257x128.size a := fun v21 k1_hw3 => k1_hw3.1
theorem k1_off19_inb : ∀ (v21 : BitVec 32) (k1_hw3 : k1_chk3 v21), ∀ a, (k1_off19 v21) a + S1x128.size a ≤ S50257x128.size a := fun v21 k1_hw3 => k1_hw3.2

def k1_off20 (v30 : BitVec 32) : Fin 2 → Nat :=
  let c0_i32_47 : BitVec 32 := 0#32
  ![v30.toNat, 0]

def k1_chk4 (v30 : BitVec 32) : Prop :=
  (∀ a, (k1_off8 v30) a + S1x128.size a ≤ S50257x128.size a) ∧
  (∀ a, (k1_off20 v30) a + S1x128.size a ≤ S50257x128.size a)
instance k1_chk4.dec : ∀ (v30 : BitVec 32), Decidable (k1_chk4 v30) := fun v30 => decidable_of_iff' _ (Iff.of_eq (k1_chk4.eq_1 v30))
theorem k1_off8_inb : ∀ (v30 : BitVec 32) (k1_hw4 : k1_chk4 v30), ∀ a, (k1_off8 v30) a + S1x128.size a ≤ S50257x128.size a := fun v30 k1_hw4 => k1_hw4.1
theorem k1_off20_inb : ∀ (v30 : BitVec 32) (k1_hw4 : k1_chk4 v30), ∀ a, (k1_off20 v30) a + S1x128.size a ≤ S50257x128.size a := fun v30 k1_hw4 => k1_hw4.2

def k1_off21 (v39 : BitVec 32) : Fin 2 → Nat :=
  let c0_i32_51 : BitVec 32 := 0#32
  ![v39.toNat, 0]

def k1_chk5 (v39 : BitVec 32) : Prop :=
  (∀ a, (k1_off10 v39) a + S1x128.size a ≤ S50257x128.size a) ∧
  (∀ a, (k1_off21 v39) a + S1x128.size a ≤ S50257x128.size a)
instance k1_chk5.dec : ∀ (v39 : BitVec 32), Decidable (k1_chk5 v39) := fun v39 => decidable_of_iff' _ (Iff.of_eq (k1_chk5.eq_1 v39))
theorem k1_off10_inb : ∀ (v39 : BitVec 32) (k1_hw5 : k1_chk5 v39), ∀ a, (k1_off10 v39) a + S1x128.size a ≤ S50257x128.size a := fun v39 k1_hw5 => k1_hw5.1
theorem k1_off21_inb : ∀ (v39 : BitVec 32) (k1_hw5 : k1_chk5 v39), ∀ a, (k1_off21 v39) a + S1x128.size a ≤ S50257x128.size a := fun v39 k1_hw5 => k1_hw5.2

def k1_off22 (v48 : BitVec 32) : Fin 2 → Nat :=
  let c0_i32_55 : BitVec 32 := 0#32
  ![v48.toNat, 0]

def k1_chk6 (v48 : BitVec 32) : Prop :=
  (∀ a, (k1_off12 v48) a + S1x128.size a ≤ S50257x128.size a) ∧
  (∀ a, (k1_off22 v48) a + S1x128.size a ≤ S50257x128.size a)
instance k1_chk6.dec : ∀ (v48 : BitVec 32), Decidable (k1_chk6 v48) := fun v48 => decidable_of_iff' _ (Iff.of_eq (k1_chk6.eq_1 v48))
theorem k1_off12_inb : ∀ (v48 : BitVec 32) (k1_hw6 : k1_chk6 v48), ∀ a, (k1_off12 v48) a + S1x128.size a ≤ S50257x128.size a := fun v48 k1_hw6 => k1_hw6.1
theorem k1_off22_inb : ∀ (v48 : BitVec 32) (k1_hw6 : k1_chk6 v48), ∀ a, (k1_off22 v48) a + S1x128.size a ≤ S50257x128.size a := fun v48 k1_hw6 => k1_hw6.2

def k1_off23 (v57 : BitVec 32) : Fin 2 → Nat :=
  let c0_i32_59 : BitVec 32 := 0#32
  ![v57.toNat, 0]

def k1_chk7 (v57 : BitVec 32) : Prop :=
  (∀ a, (k1_off14 v57) a + S1x128.size a ≤ S50257x128.size a) ∧
  (∀ a, (k1_off23 v57) a + S1x128.size a ≤ S50257x128.size a)
instance k1_chk7.dec : ∀ (v57 : BitVec 32), Decidable (k1_chk7 v57) := fun v57 => decidable_of_iff' _ (Iff.of_eq (k1_chk7.eq_1 v57))
theorem k1_off14_inb : ∀ (v57 : BitVec 32) (k1_hw7 : k1_chk7 v57), ∀ a, (k1_off14 v57) a + S1x128.size a ≤ S50257x128.size a := fun v57 k1_hw7 => k1_hw7.1
theorem k1_off23_inb : ∀ (v57 : BitVec 32) (k1_hw7 : k1_chk7 v57), ∀ a, (k1_off23 v57) a + S1x128.size a ≤ S50257x128.size a := fun v57 k1_hw7 => k1_hw7.2

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![4096], ![false]⟩

abbrev pre2 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k2_off2 (v3 : BitVec 32) : Fin 2 → Nat :=
  let c0_i32_3 : BitVec 32 := 0#32
  ![v3.toNat, 0]

def k2_off3 (i : grid2.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k2_off4 (v12 : BitVec 32) : Fin 2 → Nat :=
  let c0_i32_7 : BitVec 32 := 0#32
  ![v12.toNat, 0]

def k2_off5 (i : grid2.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k2_off6 (v21 : BitVec 32) : Fin 2 → Nat :=
  let c0_i32_11 : BitVec 32 := 0#32
  ![v21.toNat, 0]

def k2_off7 (i : grid2.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k2_off8 (v30 : BitVec 32) : Fin 2 → Nat :=
  let c0_i32_15 : BitVec 32 := 0#32
  ![v30.toNat, 0]

def k2_off9 (i : grid2.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k2_off10 (v39 : BitVec 32) : Fin 2 → Nat :=
  let c0_i32_19 : BitVec 32 := 0#32
  ![v39.toNat, 0]

def k2_off11 (i : grid2.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k2_off12 (v48 : BitVec 32) : Fin 2 → Nat :=
  let c0_i32_23 : BitVec 32 := 0#32
  ![v48.toNat, 0]

def k2_off13 (i : grid2.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k2_off14 (v57 : BitVec 32) : Fin 2 → Nat :=
  let c0_i32_27 : BitVec 32 := 0#32
  ![v57.toNat, 0]

def k2_off15 (i : grid2.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k2_off16 (v66 : BitVec 32) : Fin 2 → Nat :=
  let c0_i32_31 : BitVec 32 := 0#32
  ![v66.toNat, 0]

def k2_chk8 (v66 : BitVec 32) : Prop :=
  (∀ a, (k2_off16 v66) a + S1x128.size a ≤ S50257x128.size a)
instance k2_chk8.dec : ∀ (v66 : BitVec 32), Decidable (k2_chk8 v66) := fun v66 => decidable_of_iff' _ (Iff.of_eq (k2_chk8.eq_1 v66))
theorem k2_off16_inb : ∀ (v66 : BitVec 32) (k2_hw8 : k2_chk8 v66), ∀ a, (k2_off16 v66) a + S1x128.size a ≤ S50257x128.size a := fun v66 k2_hw8 => k2_hw8

def k2_off17 (v3 : BitVec 32) : Fin 2 → Nat :=
  let c0_i32_35 : BitVec 32 := 0#32
  ![v3.toNat, 0]

def k2_chk1 (v3 : BitVec 32) : Prop :=
  (∀ a, (k2_off2 v3) a + S1x128.size a ≤ S50257x128.size a) ∧
  (∀ a, (k2_off17 v3) a + S1x128.size a ≤ S50257x128.size a)
instance k2_chk1.dec : ∀ (v3 : BitVec 32), Decidable (k2_chk1 v3) := fun v3 => decidable_of_iff' _ (Iff.of_eq (k2_chk1.eq_1 v3))
theorem k2_off2_inb : ∀ (v3 : BitVec 32) (k2_hw1 : k2_chk1 v3), ∀ a, (k2_off2 v3) a + S1x128.size a ≤ S50257x128.size a := fun v3 k2_hw1 => k2_hw1.1
theorem k2_off17_inb : ∀ (v3 : BitVec 32) (k2_hw1 : k2_chk1 v3), ∀ a, (k2_off17 v3) a + S1x128.size a ≤ S50257x128.size a := fun v3 k2_hw1 => k2_hw1.2

def k2_off18 (v12 : BitVec 32) : Fin 2 → Nat :=
  let c0_i32_39 : BitVec 32 := 0#32
  ![v12.toNat, 0]

def k2_chk2 (v12 : BitVec 32) : Prop :=
  (∀ a, (k2_off4 v12) a + S1x128.size a ≤ S50257x128.size a) ∧
  (∀ a, (k2_off18 v12) a + S1x128.size a ≤ S50257x128.size a)
instance k2_chk2.dec : ∀ (v12 : BitVec 32), Decidable (k2_chk2 v12) := fun v12 => decidable_of_iff' _ (Iff.of_eq (k2_chk2.eq_1 v12))
theorem k2_off4_inb : ∀ (v12 : BitVec 32) (k2_hw2 : k2_chk2 v12), ∀ a, (k2_off4 v12) a + S1x128.size a ≤ S50257x128.size a := fun v12 k2_hw2 => k2_hw2.1
theorem k2_off18_inb : ∀ (v12 : BitVec 32) (k2_hw2 : k2_chk2 v12), ∀ a, (k2_off18 v12) a + S1x128.size a ≤ S50257x128.size a := fun v12 k2_hw2 => k2_hw2.2

def k2_off19 (v21 : BitVec 32) : Fin 2 → Nat :=
  let c0_i32_43 : BitVec 32 := 0#32
  ![v21.toNat, 0]

def k2_chk3 (v21 : BitVec 32) : Prop :=
  (∀ a, (k2_off6 v21) a + S1x128.size a ≤ S50257x128.size a) ∧
  (∀ a, (k2_off19 v21) a + S1x128.size a ≤ S50257x128.size a)
instance k2_chk3.dec : ∀ (v21 : BitVec 32), Decidable (k2_chk3 v21) := fun v21 => decidable_of_iff' _ (Iff.of_eq (k2_chk3.eq_1 v21))
theorem k2_off6_inb : ∀ (v21 : BitVec 32) (k2_hw3 : k2_chk3 v21), ∀ a, (k2_off6 v21) a + S1x128.size a ≤ S50257x128.size a := fun v21 k2_hw3 => k2_hw3.1
theorem k2_off19_inb : ∀ (v21 : BitVec 32) (k2_hw3 : k2_chk3 v21), ∀ a, (k2_off19 v21) a + S1x128.size a ≤ S50257x128.size a := fun v21 k2_hw3 => k2_hw3.2

def k2_off20 (v30 : BitVec 32) : Fin 2 → Nat :=
  let c0_i32_47 : BitVec 32 := 0#32
  ![v30.toNat, 0]

def k2_chk4 (v30 : BitVec 32) : Prop :=
  (∀ a, (k2_off8 v30) a + S1x128.size a ≤ S50257x128.size a) ∧
  (∀ a, (k2_off20 v30) a + S1x128.size a ≤ S50257x128.size a)
instance k2_chk4.dec : ∀ (v30 : BitVec 32), Decidable (k2_chk4 v30) := fun v30 => decidable_of_iff' _ (Iff.of_eq (k2_chk4.eq_1 v30))
theorem k2_off8_inb : ∀ (v30 : BitVec 32) (k2_hw4 : k2_chk4 v30), ∀ a, (k2_off8 v30) a + S1x128.size a ≤ S50257x128.size a := fun v30 k2_hw4 => k2_hw4.1
theorem k2_off20_inb : ∀ (v30 : BitVec 32) (k2_hw4 : k2_chk4 v30), ∀ a, (k2_off20 v30) a + S1x128.size a ≤ S50257x128.size a := fun v30 k2_hw4 => k2_hw4.2

def k2_off21 (v39 : BitVec 32) : Fin 2 → Nat :=
  let c0_i32_51 : BitVec 32 := 0#32
  ![v39.toNat, 0]

def k2_chk5 (v39 : BitVec 32) : Prop :=
  (∀ a, (k2_off10 v39) a + S1x128.size a ≤ S50257x128.size a) ∧
  (∀ a, (k2_off21 v39) a + S1x128.size a ≤ S50257x128.size a)
instance k2_chk5.dec : ∀ (v39 : BitVec 32), Decidable (k2_chk5 v39) := fun v39 => decidable_of_iff' _ (Iff.of_eq (k2_chk5.eq_1 v39))
theorem k2_off10_inb : ∀ (v39 : BitVec 32) (k2_hw5 : k2_chk5 v39), ∀ a, (k2_off10 v39) a + S1x128.size a ≤ S50257x128.size a := fun v39 k2_hw5 => k2_hw5.1
theorem k2_off21_inb : ∀ (v39 : BitVec 32) (k2_hw5 : k2_chk5 v39), ∀ a, (k2_off21 v39) a + S1x128.size a ≤ S50257x128.size a := fun v39 k2_hw5 => k2_hw5.2

def k2_off22 (v48 : BitVec 32) : Fin 2 → Nat :=
  let c0_i32_55 : BitVec 32 := 0#32
  ![v48.toNat, 0]

def k2_chk6 (v48 : BitVec 32) : Prop :=
  (∀ a, (k2_off12 v48) a + S1x128.size a ≤ S50257x128.size a) ∧
  (∀ a, (k2_off22 v48) a + S1x128.size a ≤ S50257x128.size a)
instance k2_chk6.dec : ∀ (v48 : BitVec 32), Decidable (k2_chk6 v48) := fun v48 => decidable_of_iff' _ (Iff.of_eq (k2_chk6.eq_1 v48))
theorem k2_off12_inb : ∀ (v48 : BitVec 32) (k2_hw6 : k2_chk6 v48), ∀ a, (k2_off12 v48) a + S1x128.size a ≤ S50257x128.size a := fun v48 k2_hw6 => k2_hw6.1
theorem k2_off22_inb : ∀ (v48 : BitVec 32) (k2_hw6 : k2_chk6 v48), ∀ a, (k2_off22 v48) a + S1x128.size a ≤ S50257x128.size a := fun v48 k2_hw6 => k2_hw6.2

def k2_off23 (v57 : BitVec 32) : Fin 2 → Nat :=
  let c0_i32_59 : BitVec 32 := 0#32
  ![v57.toNat, 0]

def k2_chk7 (v57 : BitVec 32) : Prop :=
  (∀ a, (k2_off14 v57) a + S1x128.size a ≤ S50257x128.size a) ∧
  (∀ a, (k2_off23 v57) a + S1x128.size a ≤ S50257x128.size a)
instance k2_chk7.dec : ∀ (v57 : BitVec 32), Decidable (k2_chk7 v57) := fun v57 => decidable_of_iff' _ (Iff.of_eq (k2_chk7.eq_1 v57))
theorem k2_off14_inb : ∀ (v57 : BitVec 32) (k2_hw7 : k2_chk7 v57), ∀ a, (k2_off14 v57) a + S1x128.size a ≤ S50257x128.size a := fun v57 k2_hw7 => k2_hw7.1
theorem k2_off23_inb : ∀ (v57 : BitVec 32) (k2_hw7 : k2_chk7 v57), ∀ a, (k2_off23 v57) a + S1x128.size a ≤ S50257x128.size a := fun v57 k2_hw7 => k2_hw7.2

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S8x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![4096], ![false]⟩

abbrev pre3 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k3_off2 (v3 : BitVec 32) : Fin 2 → Nat :=
  let c0_i32_3 : BitVec 32 := 0#32
  ![v3.toNat, 0]

def k3_off3 (i : grid3.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k3_off4 (v12 : BitVec 32) : Fin 2 → Nat :=
  let c0_i32_7 : BitVec 32 := 0#32
  ![v12.toNat, 0]

def k3_off5 (i : grid3.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k3_off6 (v21 : BitVec 32) : Fin 2 → Nat :=
  let c0_i32_11 : BitVec 32 := 0#32
  ![v21.toNat, 0]

def k3_off7 (i : grid3.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k3_off8 (v30 : BitVec 32) : Fin 2 → Nat :=
  let c0_i32_15 : BitVec 32 := 0#32
  ![v30.toNat, 0]

def k3_off9 (i : grid3.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k3_off10 (v39 : BitVec 32) : Fin 2 → Nat :=
  let c0_i32_19 : BitVec 32 := 0#32
  ![v39.toNat, 0]

def k3_off11 (i : grid3.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k3_off12 (v48 : BitVec 32) : Fin 2 → Nat :=
  let c0_i32_23 : BitVec 32 := 0#32
  ![v48.toNat, 0]

def k3_off13 (i : grid3.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k3_off14 (v57 : BitVec 32) : Fin 2 → Nat :=
  let c0_i32_27 : BitVec 32 := 0#32
  ![v57.toNat, 0]

def k3_off15 (i : grid3.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k3_off16 (v66 : BitVec 32) : Fin 2 → Nat :=
  let c0_i32_31 : BitVec 32 := 0#32
  ![v66.toNat, 0]

def k3_chk8 (v66 : BitVec 32) : Prop :=
  (∀ a, (k3_off16 v66) a + S1x128.size a ≤ S50257x128.size a)
instance k3_chk8.dec : ∀ (v66 : BitVec 32), Decidable (k3_chk8 v66) := fun v66 => decidable_of_iff' _ (Iff.of_eq (k3_chk8.eq_1 v66))
theorem k3_off16_inb : ∀ (v66 : BitVec 32) (k3_hw8 : k3_chk8 v66), ∀ a, (k3_off16 v66) a + S1x128.size a ≤ S50257x128.size a := fun v66 k3_hw8 => k3_hw8

def k3_off17 (v3 : BitVec 32) : Fin 2 → Nat :=
  let c0_i32_35 : BitVec 32 := 0#32
  ![v3.toNat, 0]

def k3_chk1 (v3 : BitVec 32) : Prop :=
  (∀ a, (k3_off2 v3) a + S1x128.size a ≤ S50257x128.size a) ∧
  (∀ a, (k3_off17 v3) a + S1x128.size a ≤ S50257x128.size a)
instance k3_chk1.dec : ∀ (v3 : BitVec 32), Decidable (k3_chk1 v3) := fun v3 => decidable_of_iff' _ (Iff.of_eq (k3_chk1.eq_1 v3))
theorem k3_off2_inb : ∀ (v3 : BitVec 32) (k3_hw1 : k3_chk1 v3), ∀ a, (k3_off2 v3) a + S1x128.size a ≤ S50257x128.size a := fun v3 k3_hw1 => k3_hw1.1
theorem k3_off17_inb : ∀ (v3 : BitVec 32) (k3_hw1 : k3_chk1 v3), ∀ a, (k3_off17 v3) a + S1x128.size a ≤ S50257x128.size a := fun v3 k3_hw1 => k3_hw1.2

def k3_off18 (v12 : BitVec 32) : Fin 2 → Nat :=
  let c0_i32_39 : BitVec 32 := 0#32
  ![v12.toNat, 0]

def k3_chk2 (v12 : BitVec 32) : Prop :=
  (∀ a, (k3_off4 v12) a + S1x128.size a ≤ S50257x128.size a) ∧
  (∀ a, (k3_off18 v12) a + S1x128.size a ≤ S50257x128.size a)
instance k3_chk2.dec : ∀ (v12 : BitVec 32), Decidable (k3_chk2 v12) := fun v12 => decidable_of_iff' _ (Iff.of_eq (k3_chk2.eq_1 v12))
theorem k3_off4_inb : ∀ (v12 : BitVec 32) (k3_hw2 : k3_chk2 v12), ∀ a, (k3_off4 v12) a + S1x128.size a ≤ S50257x128.size a := fun v12 k3_hw2 => k3_hw2.1
theorem k3_off18_inb : ∀ (v12 : BitVec 32) (k3_hw2 : k3_chk2 v12), ∀ a, (k3_off18 v12) a + S1x128.size a ≤ S50257x128.size a := fun v12 k3_hw2 => k3_hw2.2

def k3_off19 (v21 : BitVec 32) : Fin 2 → Nat :=
  let c0_i32_43 : BitVec 32 := 0#32
  ![v21.toNat, 0]

def k3_chk3 (v21 : BitVec 32) : Prop :=
  (∀ a, (k3_off6 v21) a + S1x128.size a ≤ S50257x128.size a) ∧
  (∀ a, (k3_off19 v21) a + S1x128.size a ≤ S50257x128.size a)
instance k3_chk3.dec : ∀ (v21 : BitVec 32), Decidable (k3_chk3 v21) := fun v21 => decidable_of_iff' _ (Iff.of_eq (k3_chk3.eq_1 v21))
theorem k3_off6_inb : ∀ (v21 : BitVec 32) (k3_hw3 : k3_chk3 v21), ∀ a, (k3_off6 v21) a + S1x128.size a ≤ S50257x128.size a := fun v21 k3_hw3 => k3_hw3.1
theorem k3_off19_inb : ∀ (v21 : BitVec 32) (k3_hw3 : k3_chk3 v21), ∀ a, (k3_off19 v21) a + S1x128.size a ≤ S50257x128.size a := fun v21 k3_hw3 => k3_hw3.2

def k3_off20 (v30 : BitVec 32) : Fin 2 → Nat :=
  let c0_i32_47 : BitVec 32 := 0#32
  ![v30.toNat, 0]

def k3_chk4 (v30 : BitVec 32) : Prop :=
  (∀ a, (k3_off8 v30) a + S1x128.size a ≤ S50257x128.size a) ∧
  (∀ a, (k3_off20 v30) a + S1x128.size a ≤ S50257x128.size a)
instance k3_chk4.dec : ∀ (v30 : BitVec 32), Decidable (k3_chk4 v30) := fun v30 => decidable_of_iff' _ (Iff.of_eq (k3_chk4.eq_1 v30))
theorem k3_off8_inb : ∀ (v30 : BitVec 32) (k3_hw4 : k3_chk4 v30), ∀ a, (k3_off8 v30) a + S1x128.size a ≤ S50257x128.size a := fun v30 k3_hw4 => k3_hw4.1
theorem k3_off20_inb : ∀ (v30 : BitVec 32) (k3_hw4 : k3_chk4 v30), ∀ a, (k3_off20 v30) a + S1x128.size a ≤ S50257x128.size a := fun v30 k3_hw4 => k3_hw4.2

def k3_off21 (v39 : BitVec 32) : Fin 2 → Nat :=
  let c0_i32_51 : BitVec 32 := 0#32
  ![v39.toNat, 0]

def k3_chk5 (v39 : BitVec 32) : Prop :=
  (∀ a, (k3_off10 v39) a + S1x128.size a ≤ S50257x128.size a) ∧
  (∀ a, (k3_off21 v39) a + S1x128.size a ≤ S50257x128.size a)
instance k3_chk5.dec : ∀ (v39 : BitVec 32), Decidable (k3_chk5 v39) := fun v39 => decidable_of_iff' _ (Iff.of_eq (k3_chk5.eq_1 v39))
theorem k3_off10_inb : ∀ (v39 : BitVec 32) (k3_hw5 : k3_chk5 v39), ∀ a, (k3_off10 v39) a + S1x128.size a ≤ S50257x128.size a := fun v39 k3_hw5 => k3_hw5.1
theorem k3_off21_inb : ∀ (v39 : BitVec 32) (k3_hw5 : k3_chk5 v39), ∀ a, (k3_off21 v39) a + S1x128.size a ≤ S50257x128.size a := fun v39 k3_hw5 => k3_hw5.2

def k3_off22 (v48 : BitVec 32) : Fin 2 → Nat :=
  let c0_i32_55 : BitVec 32 := 0#32
  ![v48.toNat, 0]

def k3_chk6 (v48 : BitVec 32) : Prop :=
  (∀ a, (k3_off12 v48) a + S1x128.size a ≤ S50257x128.size a) ∧
  (∀ a, (k3_off22 v48) a + S1x128.size a ≤ S50257x128.size a)
instance k3_chk6.dec : ∀ (v48 : BitVec 32), Decidable (k3_chk6 v48) := fun v48 => decidable_of_iff' _ (Iff.of_eq (k3_chk6.eq_1 v48))
theorem k3_off12_inb : ∀ (v48 : BitVec 32) (k3_hw6 : k3_chk6 v48), ∀ a, (k3_off12 v48) a + S1x128.size a ≤ S50257x128.size a := fun v48 k3_hw6 => k3_hw6.1
theorem k3_off22_inb : ∀ (v48 : BitVec 32) (k3_hw6 : k3_chk6 v48), ∀ a, (k3_off22 v48) a + S1x128.size a ≤ S50257x128.size a := fun v48 k3_hw6 => k3_hw6.2

def k3_off23 (v57 : BitVec 32) : Fin 2 → Nat :=
  let c0_i32_59 : BitVec 32 := 0#32
  ![v57.toNat, 0]

def k3_chk7 (v57 : BitVec 32) : Prop :=
  (∀ a, (k3_off14 v57) a + S1x128.size a ≤ S50257x128.size a) ∧
  (∀ a, (k3_off23 v57) a + S1x128.size a ≤ S50257x128.size a)
instance k3_chk7.dec : ∀ (v57 : BitVec 32), Decidable (k3_chk7 v57) := fun v57 => decidable_of_iff' _ (Iff.of_eq (k3_chk7.eq_1 v57))
theorem k3_off14_inb : ∀ (v57 : BitVec 32) (k3_hw7 : k3_chk7 v57), ∀ a, (k3_off14 v57) a + S1x128.size a ≤ S50257x128.size a := fun v57 k3_hw7 => k3_hw7.1
theorem k3_off23_inb : ∀ (v57 : BitVec 32) (k3_hw7 : k3_chk7 v57), ∀ a, (k3_off23 v57) a + S1x128.size a ≤ S50257x128.size a := fun v57 k3_hw7 => k3_hw7.2

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S8x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![4096], ![false]⟩

abbrev pre4 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k4_off2 (v3 : BitVec 32) : Fin 2 → Nat :=
  let c0_i32_3 : BitVec 32 := 0#32
  ![v3.toNat, 0]

def k4_off3 (i : grid4.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k4_off4 (v12 : BitVec 32) : Fin 2 → Nat :=
  let c0_i32_7 : BitVec 32 := 0#32
  ![v12.toNat, 0]

def k4_off5 (i : grid4.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k4_off6 (v21 : BitVec 32) : Fin 2 → Nat :=
  let c0_i32_11 : BitVec 32 := 0#32
  ![v21.toNat, 0]

def k4_off7 (i : grid4.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k4_off8 (v30 : BitVec 32) : Fin 2 → Nat :=
  let c0_i32_15 : BitVec 32 := 0#32
  ![v30.toNat, 0]

def k4_off9 (i : grid4.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k4_off10 (v39 : BitVec 32) : Fin 2 → Nat :=
  let c0_i32_19 : BitVec 32 := 0#32
  ![v39.toNat, 0]

def k4_off11 (i : grid4.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k4_off12 (v48 : BitVec 32) : Fin 2 → Nat :=
  let c0_i32_23 : BitVec 32 := 0#32
  ![v48.toNat, 0]

def k4_off13 (i : grid4.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k4_off14 (v57 : BitVec 32) : Fin 2 → Nat :=
  let c0_i32_27 : BitVec 32 := 0#32
  ![v57.toNat, 0]

def k4_off15 (i : grid4.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k4_off16 (v66 : BitVec 32) : Fin 2 → Nat :=
  let c0_i32_31 : BitVec 32 := 0#32
  ![v66.toNat, 0]

def k4_chk8 (v66 : BitVec 32) : Prop :=
  (∀ a, (k4_off16 v66) a + S1x128.size a ≤ S50257x128.size a)
instance k4_chk8.dec : ∀ (v66 : BitVec 32), Decidable (k4_chk8 v66) := fun v66 => decidable_of_iff' _ (Iff.of_eq (k4_chk8.eq_1 v66))
theorem k4_off16_inb : ∀ (v66 : BitVec 32) (k4_hw8 : k4_chk8 v66), ∀ a, (k4_off16 v66) a + S1x128.size a ≤ S50257x128.size a := fun v66 k4_hw8 => k4_hw8

def k4_off17 (v3 : BitVec 32) : Fin 2 → Nat :=
  let c0_i32_35 : BitVec 32 := 0#32
  ![v3.toNat, 0]

def k4_chk1 (v3 : BitVec 32) : Prop :=
  (∀ a, (k4_off2 v3) a + S1x128.size a ≤ S50257x128.size a) ∧
  (∀ a, (k4_off17 v3) a + S1x128.size a ≤ S50257x128.size a)
instance k4_chk1.dec : ∀ (v3 : BitVec 32), Decidable (k4_chk1 v3) := fun v3 => decidable_of_iff' _ (Iff.of_eq (k4_chk1.eq_1 v3))
theorem k4_off2_inb : ∀ (v3 : BitVec 32) (k4_hw1 : k4_chk1 v3), ∀ a, (k4_off2 v3) a + S1x128.size a ≤ S50257x128.size a := fun v3 k4_hw1 => k4_hw1.1
theorem k4_off17_inb : ∀ (v3 : BitVec 32) (k4_hw1 : k4_chk1 v3), ∀ a, (k4_off17 v3) a + S1x128.size a ≤ S50257x128.size a := fun v3 k4_hw1 => k4_hw1.2

def k4_off18 (v12 : BitVec 32) : Fin 2 → Nat :=
  let c0_i32_39 : BitVec 32 := 0#32
  ![v12.toNat, 0]

def k4_chk2 (v12 : BitVec 32) : Prop :=
  (∀ a, (k4_off4 v12) a + S1x128.size a ≤ S50257x128.size a) ∧
  (∀ a, (k4_off18 v12) a + S1x128.size a ≤ S50257x128.size a)
instance k4_chk2.dec : ∀ (v12 : BitVec 32), Decidable (k4_chk2 v12) := fun v12 => decidable_of_iff' _ (Iff.of_eq (k4_chk2.eq_1 v12))
theorem k4_off4_inb : ∀ (v12 : BitVec 32) (k4_hw2 : k4_chk2 v12), ∀ a, (k4_off4 v12) a + S1x128.size a ≤ S50257x128.size a := fun v12 k4_hw2 => k4_hw2.1
theorem k4_off18_inb : ∀ (v12 : BitVec 32) (k4_hw2 : k4_chk2 v12), ∀ a, (k4_off18 v12) a + S1x128.size a ≤ S50257x128.size a := fun v12 k4_hw2 => k4_hw2.2

def k4_off19 (v21 : BitVec 32) : Fin 2 → Nat :=
  let c0_i32_43 : BitVec 32 := 0#32
  ![v21.toNat, 0]

def k4_chk3 (v21 : BitVec 32) : Prop :=
  (∀ a, (k4_off6 v21) a + S1x128.size a ≤ S50257x128.size a) ∧
  (∀ a, (k4_off19 v21) a + S1x128.size a ≤ S50257x128.size a)
instance k4_chk3.dec : ∀ (v21 : BitVec 32), Decidable (k4_chk3 v21) := fun v21 => decidable_of_iff' _ (Iff.of_eq (k4_chk3.eq_1 v21))
theorem k4_off6_inb : ∀ (v21 : BitVec 32) (k4_hw3 : k4_chk3 v21), ∀ a, (k4_off6 v21) a + S1x128.size a ≤ S50257x128.size a := fun v21 k4_hw3 => k4_hw3.1
theorem k4_off19_inb : ∀ (v21 : BitVec 32) (k4_hw3 : k4_chk3 v21), ∀ a, (k4_off19 v21) a + S1x128.size a ≤ S50257x128.size a := fun v21 k4_hw3 => k4_hw3.2

def k4_off20 (v30 : BitVec 32) : Fin 2 → Nat :=
  let c0_i32_47 : BitVec 32 := 0#32
  ![v30.toNat, 0]

def k4_chk4 (v30 : BitVec 32) : Prop :=
  (∀ a, (k4_off8 v30) a + S1x128.size a ≤ S50257x128.size a) ∧
  (∀ a, (k4_off20 v30) a + S1x128.size a ≤ S50257x128.size a)
instance k4_chk4.dec : ∀ (v30 : BitVec 32), Decidable (k4_chk4 v30) := fun v30 => decidable_of_iff' _ (Iff.of_eq (k4_chk4.eq_1 v30))
theorem k4_off8_inb : ∀ (v30 : BitVec 32) (k4_hw4 : k4_chk4 v30), ∀ a, (k4_off8 v30) a + S1x128.size a ≤ S50257x128.size a := fun v30 k4_hw4 => k4_hw4.1
theorem k4_off20_inb : ∀ (v30 : BitVec 32) (k4_hw4 : k4_chk4 v30), ∀ a, (k4_off20 v30) a + S1x128.size a ≤ S50257x128.size a := fun v30 k4_hw4 => k4_hw4.2

def k4_off21 (v39 : BitVec 32) : Fin 2 → Nat :=
  let c0_i32_51 : BitVec 32 := 0#32
  ![v39.toNat, 0]

def k4_chk5 (v39 : BitVec 32) : Prop :=
  (∀ a, (k4_off10 v39) a + S1x128.size a ≤ S50257x128.size a) ∧
  (∀ a, (k4_off21 v39) a + S1x128.size a ≤ S50257x128.size a)
instance k4_chk5.dec : ∀ (v39 : BitVec 32), Decidable (k4_chk5 v39) := fun v39 => decidable_of_iff' _ (Iff.of_eq (k4_chk5.eq_1 v39))
theorem k4_off10_inb : ∀ (v39 : BitVec 32) (k4_hw5 : k4_chk5 v39), ∀ a, (k4_off10 v39) a + S1x128.size a ≤ S50257x128.size a := fun v39 k4_hw5 => k4_hw5.1
theorem k4_off21_inb : ∀ (v39 : BitVec 32) (k4_hw5 : k4_chk5 v39), ∀ a, (k4_off21 v39) a + S1x128.size a ≤ S50257x128.size a := fun v39 k4_hw5 => k4_hw5.2

def k4_off22 (v48 : BitVec 32) : Fin 2 → Nat :=
  let c0_i32_55 : BitVec 32 := 0#32
  ![v48.toNat, 0]

def k4_chk6 (v48 : BitVec 32) : Prop :=
  (∀ a, (k4_off12 v48) a + S1x128.size a ≤ S50257x128.size a) ∧
  (∀ a, (k4_off22 v48) a + S1x128.size a ≤ S50257x128.size a)
instance k4_chk6.dec : ∀ (v48 : BitVec 32), Decidable (k4_chk6 v48) := fun v48 => decidable_of_iff' _ (Iff.of_eq (k4_chk6.eq_1 v48))
theorem k4_off12_inb : ∀ (v48 : BitVec 32) (k4_hw6 : k4_chk6 v48), ∀ a, (k4_off12 v48) a + S1x128.size a ≤ S50257x128.size a := fun v48 k4_hw6 => k4_hw6.1
theorem k4_off22_inb : ∀ (v48 : BitVec 32) (k4_hw6 : k4_chk6 v48), ∀ a, (k4_off22 v48) a + S1x128.size a ≤ S50257x128.size a := fun v48 k4_hw6 => k4_hw6.2

def k4_off23 (v57 : BitVec 32) : Fin 2 → Nat :=
  let c0_i32_59 : BitVec 32 := 0#32
  ![v57.toNat, 0]

def k4_chk7 (v57 : BitVec 32) : Prop :=
  (∀ a, (k4_off14 v57) a + S1x128.size a ≤ S50257x128.size a) ∧
  (∀ a, (k4_off23 v57) a + S1x128.size a ≤ S50257x128.size a)
instance k4_chk7.dec : ∀ (v57 : BitVec 32), Decidable (k4_chk7 v57) := fun v57 => decidable_of_iff' _ (Iff.of_eq (k4_chk7.eq_1 v57))
theorem k4_off14_inb : ∀ (v57 : BitVec 32) (k4_hw7 : k4_chk7 v57), ∀ a, (k4_off14 v57) a + S1x128.size a ≤ S50257x128.size a := fun v57 k4_hw7 => k4_hw7.1
theorem k4_off23_inb : ∀ (v57 : BitVec 32) (k4_hw7 : k4_chk7 v57), ∀ a, (k4_off23 v57) a + S1x128.size a ≤ S50257x128.size a := fun v57 k4_hw7 => k4_hw7.2

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S1x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S8x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![4096], ![false]⟩

abbrev pre5 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k5_off2 (v3 : BitVec 32) : Fin 2 → Nat :=
  let c0_i32_3 : BitVec 32 := 0#32
  ![v3.toNat, 0]

def k5_off3 (i : grid5.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k5_off4 (v12 : BitVec 32) : Fin 2 → Nat :=
  let c0_i32_7 : BitVec 32 := 0#32
  ![v12.toNat, 0]

def k5_off5 (i : grid5.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k5_off6 (v21 : BitVec 32) : Fin 2 → Nat :=
  let c0_i32_11 : BitVec 32 := 0#32
  ![v21.toNat, 0]

def k5_off7 (i : grid5.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k5_off8 (v30 : BitVec 32) : Fin 2 → Nat :=
  let c0_i32_15 : BitVec 32 := 0#32
  ![v30.toNat, 0]

def k5_off9 (i : grid5.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k5_off10 (v39 : BitVec 32) : Fin 2 → Nat :=
  let c0_i32_19 : BitVec 32 := 0#32
  ![v39.toNat, 0]

def k5_off11 (i : grid5.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k5_off12 (v48 : BitVec 32) : Fin 2 → Nat :=
  let c0_i32_23 : BitVec 32 := 0#32
  ![v48.toNat, 0]

def k5_off13 (i : grid5.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k5_off14 (v57 : BitVec 32) : Fin 2 → Nat :=
  let c0_i32_27 : BitVec 32 := 0#32
  ![v57.toNat, 0]

def k5_off15 (i : grid5.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k5_off16 (v66 : BitVec 32) : Fin 2 → Nat :=
  let c0_i32_31 : BitVec 32 := 0#32
  ![v66.toNat, 0]

def k5_chk8 (v66 : BitVec 32) : Prop :=
  (∀ a, (k5_off16 v66) a + S1x128.size a ≤ S50257x128.size a)
instance k5_chk8.dec : ∀ (v66 : BitVec 32), Decidable (k5_chk8 v66) := fun v66 => decidable_of_iff' _ (Iff.of_eq (k5_chk8.eq_1 v66))
theorem k5_off16_inb : ∀ (v66 : BitVec 32) (k5_hw8 : k5_chk8 v66), ∀ a, (k5_off16 v66) a + S1x128.size a ≤ S50257x128.size a := fun v66 k5_hw8 => k5_hw8

def k5_off17 (v3 : BitVec 32) : Fin 2 → Nat :=
  let c0_i32_35 : BitVec 32 := 0#32
  ![v3.toNat, 0]

def k5_chk1 (v3 : BitVec 32) : Prop :=
  (∀ a, (k5_off2 v3) a + S1x128.size a ≤ S50257x128.size a) ∧
  (∀ a, (k5_off17 v3) a + S1x128.size a ≤ S50257x128.size a)
instance k5_chk1.dec : ∀ (v3 : BitVec 32), Decidable (k5_chk1 v3) := fun v3 => decidable_of_iff' _ (Iff.of_eq (k5_chk1.eq_1 v3))
theorem k5_off2_inb : ∀ (v3 : BitVec 32) (k5_hw1 : k5_chk1 v3), ∀ a, (k5_off2 v3) a + S1x128.size a ≤ S50257x128.size a := fun v3 k5_hw1 => k5_hw1.1
theorem k5_off17_inb : ∀ (v3 : BitVec 32) (k5_hw1 : k5_chk1 v3), ∀ a, (k5_off17 v3) a + S1x128.size a ≤ S50257x128.size a := fun v3 k5_hw1 => k5_hw1.2

def k5_off18 (v12 : BitVec 32) : Fin 2 → Nat :=
  let c0_i32_39 : BitVec 32 := 0#32
  ![v12.toNat, 0]

def k5_chk2 (v12 : BitVec 32) : Prop :=
  (∀ a, (k5_off4 v12) a + S1x128.size a ≤ S50257x128.size a) ∧
  (∀ a, (k5_off18 v12) a + S1x128.size a ≤ S50257x128.size a)
instance k5_chk2.dec : ∀ (v12 : BitVec 32), Decidable (k5_chk2 v12) := fun v12 => decidable_of_iff' _ (Iff.of_eq (k5_chk2.eq_1 v12))
theorem k5_off4_inb : ∀ (v12 : BitVec 32) (k5_hw2 : k5_chk2 v12), ∀ a, (k5_off4 v12) a + S1x128.size a ≤ S50257x128.size a := fun v12 k5_hw2 => k5_hw2.1
theorem k5_off18_inb : ∀ (v12 : BitVec 32) (k5_hw2 : k5_chk2 v12), ∀ a, (k5_off18 v12) a + S1x128.size a ≤ S50257x128.size a := fun v12 k5_hw2 => k5_hw2.2

def k5_off19 (v21 : BitVec 32) : Fin 2 → Nat :=
  let c0_i32_43 : BitVec 32 := 0#32
  ![v21.toNat, 0]

def k5_chk3 (v21 : BitVec 32) : Prop :=
  (∀ a, (k5_off6 v21) a + S1x128.size a ≤ S50257x128.size a) ∧
  (∀ a, (k5_off19 v21) a + S1x128.size a ≤ S50257x128.size a)
instance k5_chk3.dec : ∀ (v21 : BitVec 32), Decidable (k5_chk3 v21) := fun v21 => decidable_of_iff' _ (Iff.of_eq (k5_chk3.eq_1 v21))
theorem k5_off6_inb : ∀ (v21 : BitVec 32) (k5_hw3 : k5_chk3 v21), ∀ a, (k5_off6 v21) a + S1x128.size a ≤ S50257x128.size a := fun v21 k5_hw3 => k5_hw3.1
theorem k5_off19_inb : ∀ (v21 : BitVec 32) (k5_hw3 : k5_chk3 v21), ∀ a, (k5_off19 v21) a + S1x128.size a ≤ S50257x128.size a := fun v21 k5_hw3 => k5_hw3.2

def k5_off20 (v30 : BitVec 32) : Fin 2 → Nat :=
  let c0_i32_47 : BitVec 32 := 0#32
  ![v30.toNat, 0]

def k5_chk4 (v30 : BitVec 32) : Prop :=
  (∀ a, (k5_off8 v30) a + S1x128.size a ≤ S50257x128.size a) ∧
  (∀ a, (k5_off20 v30) a + S1x128.size a ≤ S50257x128.size a)
instance k5_chk4.dec : ∀ (v30 : BitVec 32), Decidable (k5_chk4 v30) := fun v30 => decidable_of_iff' _ (Iff.of_eq (k5_chk4.eq_1 v30))
theorem k5_off8_inb : ∀ (v30 : BitVec 32) (k5_hw4 : k5_chk4 v30), ∀ a, (k5_off8 v30) a + S1x128.size a ≤ S50257x128.size a := fun v30 k5_hw4 => k5_hw4.1
theorem k5_off20_inb : ∀ (v30 : BitVec 32) (k5_hw4 : k5_chk4 v30), ∀ a, (k5_off20 v30) a + S1x128.size a ≤ S50257x128.size a := fun v30 k5_hw4 => k5_hw4.2

def k5_off21 (v39 : BitVec 32) : Fin 2 → Nat :=
  let c0_i32_51 : BitVec 32 := 0#32
  ![v39.toNat, 0]

def k5_chk5 (v39 : BitVec 32) : Prop :=
  (∀ a, (k5_off10 v39) a + S1x128.size a ≤ S50257x128.size a) ∧
  (∀ a, (k5_off21 v39) a + S1x128.size a ≤ S50257x128.size a)
instance k5_chk5.dec : ∀ (v39 : BitVec 32), Decidable (k5_chk5 v39) := fun v39 => decidable_of_iff' _ (Iff.of_eq (k5_chk5.eq_1 v39))
theorem k5_off10_inb : ∀ (v39 : BitVec 32) (k5_hw5 : k5_chk5 v39), ∀ a, (k5_off10 v39) a + S1x128.size a ≤ S50257x128.size a := fun v39 k5_hw5 => k5_hw5.1
theorem k5_off21_inb : ∀ (v39 : BitVec 32) (k5_hw5 : k5_chk5 v39), ∀ a, (k5_off21 v39) a + S1x128.size a ≤ S50257x128.size a := fun v39 k5_hw5 => k5_hw5.2

def k5_off22 (v48 : BitVec 32) : Fin 2 → Nat :=
  let c0_i32_55 : BitVec 32 := 0#32
  ![v48.toNat, 0]

def k5_chk6 (v48 : BitVec 32) : Prop :=
  (∀ a, (k5_off12 v48) a + S1x128.size a ≤ S50257x128.size a) ∧
  (∀ a, (k5_off22 v48) a + S1x128.size a ≤ S50257x128.size a)
instance k5_chk6.dec : ∀ (v48 : BitVec 32), Decidable (k5_chk6 v48) := fun v48 => decidable_of_iff' _ (Iff.of_eq (k5_chk6.eq_1 v48))
theorem k5_off12_inb : ∀ (v48 : BitVec 32) (k5_hw6 : k5_chk6 v48), ∀ a, (k5_off12 v48) a + S1x128.size a ≤ S50257x128.size a := fun v48 k5_hw6 => k5_hw6.1
theorem k5_off22_inb : ∀ (v48 : BitVec 32) (k5_hw6 : k5_chk6 v48), ∀ a, (k5_off22 v48) a + S1x128.size a ≤ S50257x128.size a := fun v48 k5_hw6 => k5_hw6.2

def k5_off23 (v57 : BitVec 32) : Fin 2 → Nat :=
  let c0_i32_59 : BitVec 32 := 0#32
  ![v57.toNat, 0]

def k5_chk7 (v57 : BitVec 32) : Prop :=
  (∀ a, (k5_off14 v57) a + S1x128.size a ≤ S50257x128.size a) ∧
  (∀ a, (k5_off23 v57) a + S1x128.size a ≤ S50257x128.size a)
instance k5_chk7.dec : ∀ (v57 : BitVec 32), Decidable (k5_chk7 v57) := fun v57 => decidable_of_iff' _ (Iff.of_eq (k5_chk7.eq_1 v57))
theorem k5_off14_inb : ∀ (v57 : BitVec 32) (k5_hw7 : k5_chk7 v57), ∀ a, (k5_off14 v57) a + S1x128.size a ≤ S50257x128.size a := fun v57 k5_hw7 => k5_hw7.1
theorem k5_off23_inb : ∀ (v57 : BitVec 32) (k5_hw7 : k5_chk7 v57), ∀ a, (k5_off23 v57) a + S1x128.size a ≤ S50257x128.size a := fun v57 k5_hw7 => k5_hw7.2

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S1x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S8x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![4096], ![false]⟩

abbrev pre6 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k6_off2 (v3 : BitVec 32) : Fin 2 → Nat :=
  let c0_i32_3 : BitVec 32 := 0#32
  ![v3.toNat, 0]

def k6_off3 (i : grid6.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k6_off4 (v12 : BitVec 32) : Fin 2 → Nat :=
  let c0_i32_7 : BitVec 32 := 0#32
  ![v12.toNat, 0]

def k6_off5 (i : grid6.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k6_off6 (v21 : BitVec 32) : Fin 2 → Nat :=
  let c0_i32_11 : BitVec 32 := 0#32
  ![v21.toNat, 0]

def k6_off7 (i : grid6.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k6_off8 (v30 : BitVec 32) : Fin 2 → Nat :=
  let c0_i32_15 : BitVec 32 := 0#32
  ![v30.toNat, 0]

def k6_off9 (i : grid6.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k6_off10 (v39 : BitVec 32) : Fin 2 → Nat :=
  let c0_i32_19 : BitVec 32 := 0#32
  ![v39.toNat, 0]

def k6_off11 (i : grid6.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k6_off12 (v48 : BitVec 32) : Fin 2 → Nat :=
  let c0_i32_23 : BitVec 32 := 0#32
  ![v48.toNat, 0]

def k6_off13 (i : grid6.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k6_off14 (v57 : BitVec 32) : Fin 2 → Nat :=
  let c0_i32_27 : BitVec 32 := 0#32
  ![v57.toNat, 0]

def k6_off15 (i : grid6.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k6_off16 (v66 : BitVec 32) : Fin 2 → Nat :=
  let c0_i32_31 : BitVec 32 := 0#32
  ![v66.toNat, 0]

def k6_chk8 (v66 : BitVec 32) : Prop :=
  (∀ a, (k6_off16 v66) a + S1x128.size a ≤ S50257x128.size a)
instance k6_chk8.dec : ∀ (v66 : BitVec 32), Decidable (k6_chk8 v66) := fun v66 => decidable_of_iff' _ (Iff.of_eq (k6_chk8.eq_1 v66))
theorem k6_off16_inb : ∀ (v66 : BitVec 32) (k6_hw8 : k6_chk8 v66), ∀ a, (k6_off16 v66) a + S1x128.size a ≤ S50257x128.size a := fun v66 k6_hw8 => k6_hw8

def k6_off17 (v3 : BitVec 32) : Fin 2 → Nat :=
  let c0_i32_35 : BitVec 32 := 0#32
  ![v3.toNat, 0]

def k6_chk1 (v3 : BitVec 32) : Prop :=
  (∀ a, (k6_off2 v3) a + S1x128.size a ≤ S50257x128.size a) ∧
  (∀ a, (k6_off17 v3) a + S1x128.size a ≤ S50257x128.size a)
instance k6_chk1.dec : ∀ (v3 : BitVec 32), Decidable (k6_chk1 v3) := fun v3 => decidable_of_iff' _ (Iff.of_eq (k6_chk1.eq_1 v3))
theorem k6_off2_inb : ∀ (v3 : BitVec 32) (k6_hw1 : k6_chk1 v3), ∀ a, (k6_off2 v3) a + S1x128.size a ≤ S50257x128.size a := fun v3 k6_hw1 => k6_hw1.1
theorem k6_off17_inb : ∀ (v3 : BitVec 32) (k6_hw1 : k6_chk1 v3), ∀ a, (k6_off17 v3) a + S1x128.size a ≤ S50257x128.size a := fun v3 k6_hw1 => k6_hw1.2

def k6_off18 (v12 : BitVec 32) : Fin 2 → Nat :=
  let c0_i32_39 : BitVec 32 := 0#32
  ![v12.toNat, 0]

def k6_chk2 (v12 : BitVec 32) : Prop :=
  (∀ a, (k6_off4 v12) a + S1x128.size a ≤ S50257x128.size a) ∧
  (∀ a, (k6_off18 v12) a + S1x128.size a ≤ S50257x128.size a)
instance k6_chk2.dec : ∀ (v12 : BitVec 32), Decidable (k6_chk2 v12) := fun v12 => decidable_of_iff' _ (Iff.of_eq (k6_chk2.eq_1 v12))
theorem k6_off4_inb : ∀ (v12 : BitVec 32) (k6_hw2 : k6_chk2 v12), ∀ a, (k6_off4 v12) a + S1x128.size a ≤ S50257x128.size a := fun v12 k6_hw2 => k6_hw2.1
theorem k6_off18_inb : ∀ (v12 : BitVec 32) (k6_hw2 : k6_chk2 v12), ∀ a, (k6_off18 v12) a + S1x128.size a ≤ S50257x128.size a := fun v12 k6_hw2 => k6_hw2.2

def k6_off19 (v21 : BitVec 32) : Fin 2 → Nat :=
  let c0_i32_43 : BitVec 32 := 0#32
  ![v21.toNat, 0]

def k6_chk3 (v21 : BitVec 32) : Prop :=
  (∀ a, (k6_off6 v21) a + S1x128.size a ≤ S50257x128.size a) ∧
  (∀ a, (k6_off19 v21) a + S1x128.size a ≤ S50257x128.size a)
instance k6_chk3.dec : ∀ (v21 : BitVec 32), Decidable (k6_chk3 v21) := fun v21 => decidable_of_iff' _ (Iff.of_eq (k6_chk3.eq_1 v21))
theorem k6_off6_inb : ∀ (v21 : BitVec 32) (k6_hw3 : k6_chk3 v21), ∀ a, (k6_off6 v21) a + S1x128.size a ≤ S50257x128.size a := fun v21 k6_hw3 => k6_hw3.1
theorem k6_off19_inb : ∀ (v21 : BitVec 32) (k6_hw3 : k6_chk3 v21), ∀ a, (k6_off19 v21) a + S1x128.size a ≤ S50257x128.size a := fun v21 k6_hw3 => k6_hw3.2

def k6_off20 (v30 : BitVec 32) : Fin 2 → Nat :=
  let c0_i32_47 : BitVec 32 := 0#32
  ![v30.toNat, 0]

def k6_chk4 (v30 : BitVec 32) : Prop :=
  (∀ a, (k6_off8 v30) a + S1x128.size a ≤ S50257x128.size a) ∧
  (∀ a, (k6_off20 v30) a + S1x128.size a ≤ S50257x128.size a)
instance k6_chk4.dec : ∀ (v30 : BitVec 32), Decidable (k6_chk4 v30) := fun v30 => decidable_of_iff' _ (Iff.of_eq (k6_chk4.eq_1 v30))
theorem k6_off8_inb : ∀ (v30 : BitVec 32) (k6_hw4 : k6_chk4 v30), ∀ a, (k6_off8 v30) a + S1x128.size a ≤ S50257x128.size a := fun v30 k6_hw4 => k6_hw4.1
theorem k6_off20_inb : ∀ (v30 : BitVec 32) (k6_hw4 : k6_chk4 v30), ∀ a, (k6_off20 v30) a + S1x128.size a ≤ S50257x128.size a := fun v30 k6_hw4 => k6_hw4.2

def k6_off21 (v39 : BitVec 32) : Fin 2 → Nat :=
  let c0_i32_51 : BitVec 32 := 0#32
  ![v39.toNat, 0]

def k6_chk5 (v39 : BitVec 32) : Prop :=
  (∀ a, (k6_off10 v39) a + S1x128.size a ≤ S50257x128.size a) ∧
  (∀ a, (k6_off21 v39) a + S1x128.size a ≤ S50257x128.size a)
instance k6_chk5.dec : ∀ (v39 : BitVec 32), Decidable (k6_chk5 v39) := fun v39 => decidable_of_iff' _ (Iff.of_eq (k6_chk5.eq_1 v39))
theorem k6_off10_inb : ∀ (v39 : BitVec 32) (k6_hw5 : k6_chk5 v39), ∀ a, (k6_off10 v39) a + S1x128.size a ≤ S50257x128.size a := fun v39 k6_hw5 => k6_hw5.1
theorem k6_off21_inb : ∀ (v39 : BitVec 32) (k6_hw5 : k6_chk5 v39), ∀ a, (k6_off21 v39) a + S1x128.size a ≤ S50257x128.size a := fun v39 k6_hw5 => k6_hw5.2

def k6_off22 (v48 : BitVec 32) : Fin 2 → Nat :=
  let c0_i32_55 : BitVec 32 := 0#32
  ![v48.toNat, 0]

def k6_chk6 (v48 : BitVec 32) : Prop :=
  (∀ a, (k6_off12 v48) a + S1x128.size a ≤ S50257x128.size a) ∧
  (∀ a, (k6_off22 v48) a + S1x128.size a ≤ S50257x128.size a)
instance k6_chk6.dec : ∀ (v48 : BitVec 32), Decidable (k6_chk6 v48) := fun v48 => decidable_of_iff' _ (Iff.of_eq (k6_chk6.eq_1 v48))
theorem k6_off12_inb : ∀ (v48 : BitVec 32) (k6_hw6 : k6_chk6 v48), ∀ a, (k6_off12 v48) a + S1x128.size a ≤ S50257x128.size a := fun v48 k6_hw6 => k6_hw6.1
theorem k6_off22_inb : ∀ (v48 : BitVec 32) (k6_hw6 : k6_chk6 v48), ∀ a, (k6_off22 v48) a + S1x128.size a ≤ S50257x128.size a := fun v48 k6_hw6 => k6_hw6.2

def k6_off23 (v57 : BitVec 32) : Fin 2 → Nat :=
  let c0_i32_59 : BitVec 32 := 0#32
  ![v57.toNat, 0]

def k6_chk7 (v57 : BitVec 32) : Prop :=
  (∀ a, (k6_off14 v57) a + S1x128.size a ≤ S50257x128.size a) ∧
  (∀ a, (k6_off23 v57) a + S1x128.size a ≤ S50257x128.size a)
instance k6_chk7.dec : ∀ (v57 : BitVec 32), Decidable (k6_chk7 v57) := fun v57 => decidable_of_iff' _ (Iff.of_eq (k6_chk7.eq_1 v57))
theorem k6_off14_inb : ∀ (v57 : BitVec 32) (k6_hw7 : k6_chk7 v57), ∀ a, (k6_off14 v57) a + S1x128.size a ≤ S50257x128.size a := fun v57 k6_hw7 => k6_hw7.1
theorem k6_off23_inb : ∀ (v57 : BitVec 32) (k6_hw7 : k6_chk7 v57), ∀ a, (k6_off23 v57) a + S1x128.size a ≤ S50257x128.size a := fun v57 k6_hw7 => k6_hw7.2

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S1x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S8x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![4096], ![false]⟩

abbrev pre7 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k7_off2 (v3 : BitVec 32) : Fin 2 → Nat :=
  let c0_i32_3 : BitVec 32 := 0#32
  ![v3.toNat, 0]

def k7_off3 (i : grid7.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v10 : BitVec 32 := Scalar.addi v0 c1_i32
  let v11 : Index := Scalar.indexCast v10
  ![v11.toNat]
def k7_off4 (v12 : BitVec 32) : Fin 2 → Nat :=
  let c0_i32_7 : BitVec 32 := 0#32
  ![v12.toNat, 0]

def k7_off5 (i : grid7.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v19 : BitVec 32 := Scalar.addi v0 c2_i32
  let v20 : Index := Scalar.indexCast v19
  ![v20.toNat]
def k7_off6 (v21 : BitVec 32) : Fin 2 → Nat :=
  let c0_i32_11 : BitVec 32 := 0#32
  ![v21.toNat, 0]

def k7_off7 (i : grid7.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v28 : BitVec 32 := Scalar.addi v0 c3_i32
  let v29 : Index := Scalar.indexCast v28
  ![v29.toNat]
def k7_off8 (v30 : BitVec 32) : Fin 2 → Nat :=
  let c0_i32_15 : BitVec 32 := 0#32
  ![v30.toNat, 0]

def k7_off9 (i : grid7.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v37 : BitVec 32 := Scalar.addi v0 c4_i32
  let v38 : Index := Scalar.indexCast v37
  ![v38.toNat]
def k7_off10 (v39 : BitVec 32) : Fin 2 → Nat :=
  let c0_i32_19 : BitVec 32 := 0#32
  ![v39.toNat, 0]

def k7_off11 (i : grid7.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v46 : BitVec 32 := Scalar.addi v0 c5_i32
  let v47 : Index := Scalar.indexCast v46
  ![v47.toNat]
def k7_off12 (v48 : BitVec 32) : Fin 2 → Nat :=
  let c0_i32_23 : BitVec 32 := 0#32
  ![v48.toNat, 0]

def k7_off13 (i : grid7.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v55 : BitVec 32 := Scalar.addi v0 c6_i32
  let v56 : Index := Scalar.indexCast v55
  ![v56.toNat]
def k7_off14 (v57 : BitVec 32) : Fin 2 → Nat :=
  let c0_i32_27 : BitVec 32 := 0#32
  ![v57.toNat, 0]

def k7_off15 (i : grid7.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v64 : BitVec 32 := Scalar.addi v0 c7_i32
  let v65 : Index := Scalar.indexCast v64
  ![v65.toNat]
def k7_off16 (v66 : BitVec 32) : Fin 2 → Nat :=
  let c0_i32_31 : BitVec 32 := 0#32
  ![v66.toNat, 0]

def k7_chk8 (v66 : BitVec 32) : Prop :=
  (∀ a, (k7_off16 v66) a + S1x128.size a ≤ S50257x128.size a)
instance k7_chk8.dec : ∀ (v66 : BitVec 32), Decidable (k7_chk8 v66) := fun v66 => decidable_of_iff' _ (Iff.of_eq (k7_chk8.eq_1 v66))
theorem k7_off16_inb : ∀ (v66 : BitVec 32) (k7_hw8 : k7_chk8 v66), ∀ a, (k7_off16 v66) a + S1x128.size a ≤ S50257x128.size a := fun v66 k7_hw8 => k7_hw8

def k7_off17 (v3 : BitVec 32) : Fin 2 → Nat :=
  let c0_i32_35 : BitVec 32 := 0#32
  ![v3.toNat, 0]

def k7_chk1 (v3 : BitVec 32) : Prop :=
  (∀ a, (k7_off2 v3) a + S1x128.size a ≤ S50257x128.size a) ∧
  (∀ a, (k7_off17 v3) a + S1x128.size a ≤ S50257x128.size a)
instance k7_chk1.dec : ∀ (v3 : BitVec 32), Decidable (k7_chk1 v3) := fun v3 => decidable_of_iff' _ (Iff.of_eq (k7_chk1.eq_1 v3))
theorem k7_off2_inb : ∀ (v3 : BitVec 32) (k7_hw1 : k7_chk1 v3), ∀ a, (k7_off2 v3) a + S1x128.size a ≤ S50257x128.size a := fun v3 k7_hw1 => k7_hw1.1
theorem k7_off17_inb : ∀ (v3 : BitVec 32) (k7_hw1 : k7_chk1 v3), ∀ a, (k7_off17 v3) a + S1x128.size a ≤ S50257x128.size a := fun v3 k7_hw1 => k7_hw1.2

def k7_off18 (v12 : BitVec 32) : Fin 2 → Nat :=
  let c0_i32_39 : BitVec 32 := 0#32
  ![v12.toNat, 0]

def k7_chk2 (v12 : BitVec 32) : Prop :=
  (∀ a, (k7_off4 v12) a + S1x128.size a ≤ S50257x128.size a) ∧
  (∀ a, (k7_off18 v12) a + S1x128.size a ≤ S50257x128.size a)
instance k7_chk2.dec : ∀ (v12 : BitVec 32), Decidable (k7_chk2 v12) := fun v12 => decidable_of_iff' _ (Iff.of_eq (k7_chk2.eq_1 v12))
theorem k7_off4_inb : ∀ (v12 : BitVec 32) (k7_hw2 : k7_chk2 v12), ∀ a, (k7_off4 v12) a + S1x128.size a ≤ S50257x128.size a := fun v12 k7_hw2 => k7_hw2.1
theorem k7_off18_inb : ∀ (v12 : BitVec 32) (k7_hw2 : k7_chk2 v12), ∀ a, (k7_off18 v12) a + S1x128.size a ≤ S50257x128.size a := fun v12 k7_hw2 => k7_hw2.2

def k7_off19 (v21 : BitVec 32) : Fin 2 → Nat :=
  let c0_i32_43 : BitVec 32 := 0#32
  ![v21.toNat, 0]

def k7_chk3 (v21 : BitVec 32) : Prop :=
  (∀ a, (k7_off6 v21) a + S1x128.size a ≤ S50257x128.size a) ∧
  (∀ a, (k7_off19 v21) a + S1x128.size a ≤ S50257x128.size a)
instance k7_chk3.dec : ∀ (v21 : BitVec 32), Decidable (k7_chk3 v21) := fun v21 => decidable_of_iff' _ (Iff.of_eq (k7_chk3.eq_1 v21))
theorem k7_off6_inb : ∀ (v21 : BitVec 32) (k7_hw3 : k7_chk3 v21), ∀ a, (k7_off6 v21) a + S1x128.size a ≤ S50257x128.size a := fun v21 k7_hw3 => k7_hw3.1
theorem k7_off19_inb : ∀ (v21 : BitVec 32) (k7_hw3 : k7_chk3 v21), ∀ a, (k7_off19 v21) a + S1x128.size a ≤ S50257x128.size a := fun v21 k7_hw3 => k7_hw3.2

def k7_off20 (v30 : BitVec 32) : Fin 2 → Nat :=
  let c0_i32_47 : BitVec 32 := 0#32
  ![v30.toNat, 0]

def k7_chk4 (v30 : BitVec 32) : Prop :=
  (∀ a, (k7_off8 v30) a + S1x128.size a ≤ S50257x128.size a) ∧
  (∀ a, (k7_off20 v30) a + S1x128.size a ≤ S50257x128.size a)
instance k7_chk4.dec : ∀ (v30 : BitVec 32), Decidable (k7_chk4 v30) := fun v30 => decidable_of_iff' _ (Iff.of_eq (k7_chk4.eq_1 v30))
theorem k7_off8_inb : ∀ (v30 : BitVec 32) (k7_hw4 : k7_chk4 v30), ∀ a, (k7_off8 v30) a + S1x128.size a ≤ S50257x128.size a := fun v30 k7_hw4 => k7_hw4.1
theorem k7_off20_inb : ∀ (v30 : BitVec 32) (k7_hw4 : k7_chk4 v30), ∀ a, (k7_off20 v30) a + S1x128.size a ≤ S50257x128.size a := fun v30 k7_hw4 => k7_hw4.2

def k7_off21 (v39 : BitVec 32) : Fin 2 → Nat :=
  let c0_i32_51 : BitVec 32 := 0#32
  ![v39.toNat, 0]

def k7_chk5 (v39 : BitVec 32) : Prop :=
  (∀ a, (k7_off10 v39) a + S1x128.size a ≤ S50257x128.size a) ∧
  (∀ a, (k7_off21 v39) a + S1x128.size a ≤ S50257x128.size a)
instance k7_chk5.dec : ∀ (v39 : BitVec 32), Decidable (k7_chk5 v39) := fun v39 => decidable_of_iff' _ (Iff.of_eq (k7_chk5.eq_1 v39))
theorem k7_off10_inb : ∀ (v39 : BitVec 32) (k7_hw5 : k7_chk5 v39), ∀ a, (k7_off10 v39) a + S1x128.size a ≤ S50257x128.size a := fun v39 k7_hw5 => k7_hw5.1
theorem k7_off21_inb : ∀ (v39 : BitVec 32) (k7_hw5 : k7_chk5 v39), ∀ a, (k7_off21 v39) a + S1x128.size a ≤ S50257x128.size a := fun v39 k7_hw5 => k7_hw5.2

def k7_off22 (v48 : BitVec 32) : Fin 2 → Nat :=
  let c0_i32_55 : BitVec 32 := 0#32
  ![v48.toNat, 0]

def k7_chk6 (v48 : BitVec 32) : Prop :=
  (∀ a, (k7_off12 v48) a + S1x128.size a ≤ S50257x128.size a) ∧
  (∀ a, (k7_off22 v48) a + S1x128.size a ≤ S50257x128.size a)
instance k7_chk6.dec : ∀ (v48 : BitVec 32), Decidable (k7_chk6 v48) := fun v48 => decidable_of_iff' _ (Iff.of_eq (k7_chk6.eq_1 v48))
theorem k7_off12_inb : ∀ (v48 : BitVec 32) (k7_hw6 : k7_chk6 v48), ∀ a, (k7_off12 v48) a + S1x128.size a ≤ S50257x128.size a := fun v48 k7_hw6 => k7_hw6.1
theorem k7_off22_inb : ∀ (v48 : BitVec 32) (k7_hw6 : k7_chk6 v48), ∀ a, (k7_off22 v48) a + S1x128.size a ≤ S50257x128.size a := fun v48 k7_hw6 => k7_hw6.2

def k7_off23 (v57 : BitVec 32) : Fin 2 → Nat :=
  let c0_i32_59 : BitVec 32 := 0#32
  ![v57.toNat, 0]

def k7_chk7 (v57 : BitVec 32) : Prop :=
  (∀ a, (k7_off14 v57) a + S1x128.size a ≤ S50257x128.size a) ∧
  (∀ a, (k7_off23 v57) a + S1x128.size a ≤ S50257x128.size a)
instance k7_chk7.dec : ∀ (v57 : BitVec 32), Decidable (k7_chk7 v57) := fun v57 => decidable_of_iff' _ (Iff.of_eq (k7_chk7.eq_1 v57))
theorem k7_off14_inb : ∀ (v57 : BitVec 32) (k7_hw7 : k7_chk7 v57), ∀ a, (k7_off14 v57) a + S1x128.size a ≤ S50257x128.size a := fun v57 k7_hw7 => k7_hw7.1
theorem k7_off23_inb : ∀ (v57 : BitVec 32) (k7_hw7 : k7_chk7 v57), ∀ a, (k7_off23 v57) a + S1x128.size a ≤ S50257x128.size a := fun v57 k7_hw7 => k7_hw7.2

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S1x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S8x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

class Facts₀ : Prop where
  transposes_S128x50257_S50257x128_1_0 : S128x50257.Transposes [1, 0] S50257x128
  shapeCasts_S64x4096_S262144 : S64x4096.ShapeCasts S262144
  shapeCasts_S128_S1x128 : S128.ShapeCasts S1x128
  slices_S262144_S32768_0 : S262144.Slices ![0] S32768
  numel1_S1 : S1.numel = 1
  inb_S8_S1_0 : ∀ a, (![0] : Fin 1 → Nat) a + S1.size a ≤ S8.size a
  squeezes_S1_S_ : S1.Squeezes S_
  inb_S8x128_S1x128_0_0 : ∀ a, (![0, 0] : Fin 2 → Nat) a + S1x128.size a ≤ S8x128.size a
  squeezes_S1x128_S128 : S1x128.Squeezes S128
  inb_S8_S1_1 : ∀ a, (![1] : Fin 1 → Nat) a + S1.size a ≤ S8.size a
  inb_S8x128_S1x128_1_0 : ∀ a, (![1, 0] : Fin 2 → Nat) a + S1x128.size a ≤ S8x128.size a
  inb_S8_S1_2 : ∀ a, (![2] : Fin 1 → Nat) a + S1.size a ≤ S8.size a
  inb_S8x128_S1x128_2_0 : ∀ a, (![2, 0] : Fin 2 → Nat) a + S1x128.size a ≤ S8x128.size a
  inb_S8_S1_3 : ∀ a, (![3] : Fin 1 → Nat) a + S1.size a ≤ S8.size a
  inb_S8x128_S1x128_3_0 : ∀ a, (![3, 0] : Fin 2 → Nat) a + S1x128.size a ≤ S8x128.size a
  inb_S8_S1_4 : ∀ a, (![4] : Fin 1 → Nat) a + S1.size a ≤ S8.size a
  inb_S8x128_S1x128_4_0 : ∀ a, (![4, 0] : Fin 2 → Nat) a + S1x128.size a ≤ S8x128.size a
  inb_S8_S1_5 : ∀ a, (![5] : Fin 1 → Nat) a + S1.size a ≤ S8.size a
  inb_S8x128_S1x128_5_0 : ∀ a, (![5, 0] : Fin 2 → Nat) a + S1x128.size a ≤ S8x128.size a
  inb_S8_S1_6 : ∀ a, (![6] : Fin 1 → Nat) a + S1.size a ≤ S8.size a
  inb_S8x128_S1x128_6_0 : ∀ a, (![6, 0] : Fin 2 → Nat) a + S1x128.size a ≤ S8x128.size a
  inb_S8_S1_7 : ∀ a, (![7] : Fin 1 → Nat) a + S1.size a ≤ S8.size a
  inb_S8x128_S1x128_7_0 : ∀ a, (![7, 0] : Fin 2 → Nat) a + S1x128.size a ≤ S8x128.size a
  inb_S8x128_S8x128_0_0 : ∀ a, (![0, 0] : Fin 2 → Nat) a + S8x128.size a ≤ S8x128.size a
  h_S8x128 : 0 < S8x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8x128 : S1x128.Broadcasts S8x128
  slices_S262144_S32768_32768 : S262144.Slices ![32768] S32768
  slices_S262144_S32768_65536 : S262144.Slices ![65536] S32768
  slices_S262144_S32768_98304 : S262144.Slices ![98304] S32768
  slices_S262144_S32768_131072 : S262144.Slices ![131072] S32768
  slices_S262144_S32768_163840 : S262144.Slices ![163840] S32768
  slices_S262144_S32768_196608 : S262144.Slices ![196608] S32768
  slices_S262144_S32768_229376 : S262144.Slices ![229376] S32768
  concatenates_S32768x128_S32768x128_S32768x128_S32768x128_S32768x128_S32768x128_S32768x128_S32768x128_S262144x128_d0 : Shape.Concatenates [S32768x128, S32768x128, S32768x128, S32768x128, S32768x128, S32768x128, S32768x128, S32768x128] S262144x128 0
  shapeCasts_S262144x128_S64x4096x128 : S262144x128.ShapeCasts S64x4096x128
  hcc0_scratch1 : 3 + S8.numel ≤ 88
  hcc1_scratch1 : 14 + S8.numel ≤ 88
  hcc2_scratch1 : 25 + S8.numel ≤ 88
  hcc3_scratch1 : 36 + S8.numel ≤ 88
  hcc4_scratch1 : 47 + S8.numel ≤ 88
  hcc5_scratch1 : 58 + S8.numel ≤ 88
  hcc6_scratch1 : 69 + S8.numel ≤ 88
  hcc7_scratch1 : 80 + S8.numel ≤ 88
  hrank0 : 0 < grid0.rank
  k0_off1_inb : ∀ i : grid0.Coords, ∀ a, (k0_off1 i) a + S1.size a ≤ S32768.size a
  k0_off3_inb : ∀ i : grid0.Coords, ∀ a, (k0_off3 i) a + S1.size a ≤ S32768.size a
  k0_off5_inb : ∀ i : grid0.Coords, ∀ a, (k0_off5 i) a + S1.size a ≤ S32768.size a
  k0_off7_inb : ∀ i : grid0.Coords, ∀ a, (k0_off7 i) a + S1.size a ≤ S32768.size a
  k0_off9_inb : ∀ i : grid0.Coords, ∀ a, (k0_off9 i) a + S1.size a ≤ S32768.size a
  k0_off11_inb : ∀ i : grid0.Coords, ∀ a, (k0_off11 i) a + S1.size a ≤ S32768.size a
  k0_off13_inb : ∀ i : grid0.Coords, ∀ a, (k0_off13 i) a + S1.size a ≤ S32768.size a
  k0_off15_inb : ∀ i : grid0.Coords, ∀ a, (k0_off15 i) a + S1.size a ≤ S32768.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S1x128.size a ≤ S1x128.size a
  hwx0_0 : ∀ i : grid0.Coords, EltTy.bits .f32 = 32 ∨ (Rect.block (s := S1x128) S1x128.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S8x128.size a ≤ S32768x128.size a
  hwx0_1 : ∀ i : grid0.Coords, EltTy.bits .f32 = 32 ∨ (Rect.block (s := S32768x128) S8x128.size (cc0_transform_2 i) (hinb0_1 i)).WholeWords (EltTy.packing .f32)
  hrank1 : 0 < grid1.rank
  k1_off1_inb : ∀ i : grid1.Coords, ∀ a, (k1_off1 i) a + S1.size a ≤ S32768.size a
  k1_off3_inb : ∀ i : grid1.Coords, ∀ a, (k1_off3 i) a + S1.size a ≤ S32768.size a
  k1_off5_inb : ∀ i : grid1.Coords, ∀ a, (k1_off5 i) a + S1.size a ≤ S32768.size a
  k1_off7_inb : ∀ i : grid1.Coords, ∀ a, (k1_off7 i) a + S1.size a ≤ S32768.size a
  k1_off9_inb : ∀ i : grid1.Coords, ∀ a, (k1_off9 i) a + S1.size a ≤ S32768.size a
  k1_off11_inb : ∀ i : grid1.Coords, ∀ a, (k1_off11 i) a + S1.size a ≤ S32768.size a
  k1_off13_inb : ∀ i : grid1.Coords, ∀ a, (k1_off13 i) a + S1.size a ≤ S32768.size a
  k1_off15_inb : ∀ i : grid1.Coords, ∀ a, (k1_off15 i) a + S1.size a ≤ S32768.size a
  hstage1_0 : ∀ j, (stage1_0 j).IsWhole
  nbuf1_0 : grid1.bufCount reads1_0 true = 1
  hreads1_0 : ∀ i i' : grid1.Coords, (∀ a, reads1_0 a = true → i a = i' a) → cc1_transform_1 i = cc1_transform_1 i'
  hinb1_0 : ∀ (i : grid1.Coords) a, (cc1_transform_1 i a + 1) * S1x128.size a ≤ S1x128.size a
  hwx1_0 : ∀ i : grid1.Coords, EltTy.bits .f32 = 32 ∨ (Rect.block (s := S1x128) S1x128.size (cc1_transform_1 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S8x128.size a ≤ S32768x128.size a
  hwx1_1 : ∀ i : grid1.Coords, EltTy.bits .f32 = 32 ∨ (Rect.block (s := S32768x128) S8x128.size (cc1_transform_2 i) (hinb1_1 i)).WholeWords (EltTy.packing .f32)
  hrank2 : 0 < grid2.rank
  k2_off1_inb : ∀ i : grid2.Coords, ∀ a, (k2_off1 i) a + S1.size a ≤ S32768.size a
  k2_off3_inb : ∀ i : grid2.Coords, ∀ a, (k2_off3 i) a + S1.size a ≤ S32768.size a
  k2_off5_inb : ∀ i : grid2.Coords, ∀ a, (k2_off5 i) a + S1.size a ≤ S32768.size a
  k2_off7_inb : ∀ i : grid2.Coords, ∀ a, (k2_off7 i) a + S1.size a ≤ S32768.size a
  k2_off9_inb : ∀ i : grid2.Coords, ∀ a, (k2_off9 i) a + S1.size a ≤ S32768.size a
  k2_off11_inb : ∀ i : grid2.Coords, ∀ a, (k2_off11 i) a + S1.size a ≤ S32768.size a
  k2_off13_inb : ∀ i : grid2.Coords, ∀ a, (k2_off13 i) a + S1.size a ≤ S32768.size a
  k2_off15_inb : ∀ i : grid2.Coords, ∀ a, (k2_off15 i) a + S1.size a ≤ S32768.size a
  hstage2_0 : ∀ j, (stage2_0 j).IsWhole
  nbuf2_0 : grid2.bufCount reads2_0 true = 1
  hreads2_0 : ∀ i i' : grid2.Coords, (∀ a, reads2_0 a = true → i a = i' a) → cc2_transform_1 i = cc2_transform_1 i'
  hinb2_0 : ∀ (i : grid2.Coords) a, (cc2_transform_1 i a + 1) * S1x128.size a ≤ S1x128.size a
  hwx2_0 : ∀ i : grid2.Coords, EltTy.bits .f32 = 32 ∨ (Rect.block (s := S1x128) S1x128.size (cc2_transform_1 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_2 i = cc2_transform_2 i'
  hinb2_1 : ∀ (i : grid2.Coords) a, (cc2_transform_2 i a + 1) * S8x128.size a ≤ S32768x128.size a
  hwx2_1 : ∀ i : grid2.Coords, EltTy.bits .f32 = 32 ∨ (Rect.block (s := S32768x128) S8x128.size (cc2_transform_2 i) (hinb2_1 i)).WholeWords (EltTy.packing .f32)
  hrank3 : 0 < grid3.rank
  k3_off1_inb : ∀ i : grid3.Coords, ∀ a, (k3_off1 i) a + S1.size a ≤ S32768.size a
  k3_off3_inb : ∀ i : grid3.Coords, ∀ a, (k3_off3 i) a + S1.size a ≤ S32768.size a
  k3_off5_inb : ∀ i : grid3.Coords, ∀ a, (k3_off5 i) a + S1.size a ≤ S32768.size a
  k3_off7_inb : ∀ i : grid3.Coords, ∀ a, (k3_off7 i) a + S1.size a ≤ S32768.size a
  k3_off9_inb : ∀ i : grid3.Coords, ∀ a, (k3_off9 i) a + S1.size a ≤ S32768.size a
  k3_off11_inb : ∀ i : grid3.Coords, ∀ a, (k3_off11 i) a + S1.size a ≤ S32768.size a
  k3_off13_inb : ∀ i : grid3.Coords, ∀ a, (k3_off13 i) a + S1.size a ≤ S32768.size a
  k3_off15_inb : ∀ i : grid3.Coords, ∀ a, (k3_off15 i) a + S1.size a ≤ S32768.size a
  hstage3_0 : ∀ j, (stage3_0 j).IsWhole
  nbuf3_0 : grid3.bufCount reads3_0 true = 1
  hreads3_0 : ∀ i i' : grid3.Coords, (∀ a, reads3_0 a = true → i a = i' a) → cc3_transform_1 i = cc3_transform_1 i'
  hinb3_0 : ∀ (i : grid3.Coords) a, (cc3_transform_1 i a + 1) * S1x128.size a ≤ S1x128.size a
  hwx3_0 : ∀ i : grid3.Coords, EltTy.bits .f32 = 32 ∨ (Rect.block (s := S1x128) S1x128.size (cc3_transform_1 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_2 i = cc3_transform_2 i'
  hinb3_1 : ∀ (i : grid3.Coords) a, (cc3_transform_2 i a + 1) * S8x128.size a ≤ S32768x128.size a
  hwx3_1 : ∀ i : grid3.Coords, EltTy.bits .f32 = 32 ∨ (Rect.block (s := S32768x128) S8x128.size (cc3_transform_2 i) (hinb3_1 i)).WholeWords (EltTy.packing .f32)
  hrank4 : 0 < grid4.rank
  k4_off1_inb : ∀ i : grid4.Coords, ∀ a, (k4_off1 i) a + S1.size a ≤ S32768.size a
  k4_off3_inb : ∀ i : grid4.Coords, ∀ a, (k4_off3 i) a + S1.size a ≤ S32768.size a
  k4_off5_inb : ∀ i : grid4.Coords, ∀ a, (k4_off5 i) a + S1.size a ≤ S32768.size a
  k4_off7_inb : ∀ i : grid4.Coords, ∀ a, (k4_off7 i) a + S1.size a ≤ S32768.size a
  k4_off9_inb : ∀ i : grid4.Coords, ∀ a, (k4_off9 i) a + S1.size a ≤ S32768.size a
  k4_off11_inb : ∀ i : grid4.Coords, ∀ a, (k4_off11 i) a + S1.size a ≤ S32768.size a
  k4_off13_inb : ∀ i : grid4.Coords, ∀ a, (k4_off13 i) a + S1.size a ≤ S32768.size a
  k4_off15_inb : ∀ i : grid4.Coords, ∀ a, (k4_off15 i) a + S1.size a ≤ S32768.size a
  hstage4_0 : ∀ j, (stage4_0 j).IsWhole
  nbuf4_0 : grid4.bufCount reads4_0 true = 1
  hreads4_0 : ∀ i i' : grid4.Coords, (∀ a, reads4_0 a = true → i a = i' a) → cc4_transform_1 i = cc4_transform_1 i'
  hinb4_0 : ∀ (i : grid4.Coords) a, (cc4_transform_1 i a + 1) * S1x128.size a ≤ S1x128.size a
  hwx4_0 : ∀ i : grid4.Coords, EltTy.bits .f32 = 32 ∨ (Rect.block (s := S1x128) S1x128.size (cc4_transform_1 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_2 i = cc4_transform_2 i'
  hinb4_1 : ∀ (i : grid4.Coords) a, (cc4_transform_2 i a + 1) * S8x128.size a ≤ S32768x128.size a
  hwx4_1 : ∀ i : grid4.Coords, EltTy.bits .f32 = 32 ∨ (Rect.block (s := S32768x128) S8x128.size (cc4_transform_2 i) (hinb4_1 i)).WholeWords (EltTy.packing .f32)
  hrank5 : 0 < grid5.rank
  k5_off1_inb : ∀ i : grid5.Coords, ∀ a, (k5_off1 i) a + S1.size a ≤ S32768.size a
  k5_off3_inb : ∀ i : grid5.Coords, ∀ a, (k5_off3 i) a + S1.size a ≤ S32768.size a
  k5_off5_inb : ∀ i : grid5.Coords, ∀ a, (k5_off5 i) a + S1.size a ≤ S32768.size a
  k5_off7_inb : ∀ i : grid5.Coords, ∀ a, (k5_off7 i) a + S1.size a ≤ S32768.size a
  k5_off9_inb : ∀ i : grid5.Coords, ∀ a, (k5_off9 i) a + S1.size a ≤ S32768.size a
  k5_off11_inb : ∀ i : grid5.Coords, ∀ a, (k5_off11 i) a + S1.size a ≤ S32768.size a
  k5_off13_inb : ∀ i : grid5.Coords, ∀ a, (k5_off13 i) a + S1.size a ≤ S32768.size a
  k5_off15_inb : ∀ i : grid5.Coords, ∀ a, (k5_off15 i) a + S1.size a ≤ S32768.size a
  hstage5_0 : ∀ j, (stage5_0 j).IsWhole
  nbuf5_0 : grid5.bufCount reads5_0 true = 1
  hreads5_0 : ∀ i i' : grid5.Coords, (∀ a, reads5_0 a = true → i a = i' a) → cc5_transform_1 i = cc5_transform_1 i'
  hinb5_0 : ∀ (i : grid5.Coords) a, (cc5_transform_1 i a + 1) * S1x128.size a ≤ S1x128.size a
  hwx5_0 : ∀ i : grid5.Coords, EltTy.bits .f32 = 32 ∨ (Rect.block (s := S1x128) S1x128.size (cc5_transform_1 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_2 i = cc5_transform_2 i'
  hinb5_1 : ∀ (i : grid5.Coords) a, (cc5_transform_2 i a + 1) * S8x128.size a ≤ S32768x128.size a
  hwx5_1 : ∀ i : grid5.Coords, EltTy.bits .f32 = 32 ∨ (Rect.block (s := S32768x128) S8x128.size (cc5_transform_2 i) (hinb5_1 i)).WholeWords (EltTy.packing .f32)
  hrank6 : 0 < grid6.rank
  k6_off1_inb : ∀ i : grid6.Coords, ∀ a, (k6_off1 i) a + S1.size a ≤ S32768.size a
  k6_off3_inb : ∀ i : grid6.Coords, ∀ a, (k6_off3 i) a + S1.size a ≤ S32768.size a
  k6_off5_inb : ∀ i : grid6.Coords, ∀ a, (k6_off5 i) a + S1.size a ≤ S32768.size a
  k6_off7_inb : ∀ i : grid6.Coords, ∀ a, (k6_off7 i) a + S1.size a ≤ S32768.size a
  k6_off9_inb : ∀ i : grid6.Coords, ∀ a, (k6_off9 i) a + S1.size a ≤ S32768.size a
  k6_off11_inb : ∀ i : grid6.Coords, ∀ a, (k6_off11 i) a + S1.size a ≤ S32768.size a
  k6_off13_inb : ∀ i : grid6.Coords, ∀ a, (k6_off13 i) a + S1.size a ≤ S32768.size a
  k6_off15_inb : ∀ i : grid6.Coords, ∀ a, (k6_off15 i) a + S1.size a ≤ S32768.size a
  hstage6_0 : ∀ j, (stage6_0 j).IsWhole
  nbuf6_0 : grid6.bufCount reads6_0 true = 1
  hreads6_0 : ∀ i i' : grid6.Coords, (∀ a, reads6_0 a = true → i a = i' a) → cc6_transform_1 i = cc6_transform_1 i'
  hinb6_0 : ∀ (i : grid6.Coords) a, (cc6_transform_1 i a + 1) * S1x128.size a ≤ S1x128.size a
  hwx6_0 : ∀ i : grid6.Coords, EltTy.bits .f32 = 32 ∨ (Rect.block (s := S1x128) S1x128.size (cc6_transform_1 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_2 i = cc6_transform_2 i'
  hinb6_1 : ∀ (i : grid6.Coords) a, (cc6_transform_2 i a + 1) * S8x128.size a ≤ S32768x128.size a
  hwx6_1 : ∀ i : grid6.Coords, EltTy.bits .f32 = 32 ∨ (Rect.block (s := S32768x128) S8x128.size (cc6_transform_2 i) (hinb6_1 i)).WholeWords (EltTy.packing .f32)
  hrank7 : 0 < grid7.rank
  k7_off1_inb : ∀ i : grid7.Coords, ∀ a, (k7_off1 i) a + S1.size a ≤ S32768.size a
  k7_off3_inb : ∀ i : grid7.Coords, ∀ a, (k7_off3 i) a + S1.size a ≤ S32768.size a
  k7_off5_inb : ∀ i : grid7.Coords, ∀ a, (k7_off5 i) a + S1.size a ≤ S32768.size a
  k7_off7_inb : ∀ i : grid7.Coords, ∀ a, (k7_off7 i) a + S1.size a ≤ S32768.size a
  k7_off9_inb : ∀ i : grid7.Coords, ∀ a, (k7_off9 i) a + S1.size a ≤ S32768.size a
  k7_off11_inb : ∀ i : grid7.Coords, ∀ a, (k7_off11 i) a + S1.size a ≤ S32768.size a
  k7_off13_inb : ∀ i : grid7.Coords, ∀ a, (k7_off13 i) a + S1.size a ≤ S32768.size a
  k7_off15_inb : ∀ i : grid7.Coords, ∀ a, (k7_off15 i) a + S1.size a ≤ S32768.size a
  hstage7_0 : ∀ j, (stage7_0 j).IsWhole
  nbuf7_0 : grid7.bufCount reads7_0 true = 1
  hreads7_0 : ∀ i i' : grid7.Coords, (∀ a, reads7_0 a = true → i a = i' a) → cc7_transform_1 i = cc7_transform_1 i'
  hinb7_0 : ∀ (i : grid7.Coords) a, (cc7_transform_1 i a + 1) * S1x128.size a ≤ S1x128.size a
  hwx7_0 : ∀ i : grid7.Coords, EltTy.bits .f32 = 32 ∨ (Rect.block (s := S1x128) S1x128.size (cc7_transform_1 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_2 i = cc7_transform_2 i'
  hinb7_1 : ∀ (i : grid7.Coords) a, (cc7_transform_2 i a + 1) * S8x128.size a ≤ S32768x128.size a
  hwx7_1 : ∀ i : grid7.Coords, EltTy.bits .f32 = 32 ∨ (Rect.block (s := S32768x128) S8x128.size (cc7_transform_2 i) (hinb7_1 i)).WholeWords (EltTy.packing .f32)

variable [Facts₀]

abbrev cc0_scratch1 : DmaSems sig S8 := SemArray.consecutive 3 S8 hcc0_scratch1
abbrev cc1_scratch1 : DmaSems sig S8 := SemArray.consecutive 14 S8 hcc1_scratch1
abbrev cc2_scratch1 : DmaSems sig S8 := SemArray.consecutive 25 S8 hcc2_scratch1
abbrev cc3_scratch1 : DmaSems sig S8 := SemArray.consecutive 36 S8 hcc3_scratch1
abbrev cc4_scratch1 : DmaSems sig S8 := SemArray.consecutive 47 S8 hcc4_scratch1
abbrev cc5_scratch1 : DmaSems sig S8 := SemArray.consecutive 58 S8 hcc5_scratch1
abbrev cc6_scratch1 : DmaSems sig S8 := SemArray.consecutive 69 S8 hcc6_scratch1
abbrev cc7_scratch1 : DmaSems sig S8 := SemArray.consecutive 80 S8 hcc7_scratch1

abbrev spec0_0 : Pipeline.WinSpec sig grid0.rank :=
  Pipeline.WinSpec.ofSpec (Memref.whole main_v2) S1x128.size reads0_0 false true 1 stage0_0 sem0_0 nbuf0_0 hstage0_0

abbrev spec0_1 : Pipeline.WinSpec sig grid0.rank :=
  Pipeline.WinSpec.ofSpec (Memref.whole main_v4) S8x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_1 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev spec1_0 : Pipeline.WinSpec sig grid1.rank :=
  Pipeline.WinSpec.ofSpec (Memref.whole main_v2) S1x128.size reads1_0 false true 1 stage1_0 sem1_0 nbuf1_0 hstage1_0

abbrev spec1_1 : Pipeline.WinSpec sig grid1.rank :=
  Pipeline.WinSpec.ofSpec (Memref.whole main_v6) S8x128.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_1 | 1 => cc1_transform_2 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | ⟨_ + 2, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | ⟨_ + 2, h⟩ => absurd h (Nat.not_lt.2 (Nat.le_add_left _ _))
abbrev spec2_0 : Pipeline.WinSpec sig grid2.rank :=
  Pipeline.WinSpec.ofSpec (Memref.whole main_v2) S1x128.size reads2_0 false true 1 stage2_0 sem2_0 nbuf2_0 hstage2_0

abbrev spec2_1 : Pipeline.WinSpec sig grid2.rank :=
  Pipeline.WinSpec.ofSpec (Memref.whole main_v8) S8x128.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_1 | 1 => cc2_transform_2 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | ⟨_ + 2, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | ⟨_ + 2, h⟩ => absurd h (Nat.not_lt.2 (Nat.le_add_left _ _))
abbrev spec3_0 : Pipeline.WinSpec sig grid3.rank :=
  Pipeline.WinSpec.ofSpec (Memref.whole main_v2) S1x128.size reads3_0 false true 1 stage3_0 sem3_0 nbuf3_0 hstage3_0

abbrev spec3_1 : Pipeline.WinSpec sig grid3.rank :=
  Pipeline.WinSpec.ofSpec (Memref.whole main_v10) S8x128.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_1 | 1 => cc3_transform_2 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | ⟨_ + 2, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | ⟨_ + 2, h⟩ => absurd h (Nat.not_lt.2 (Nat.le_add_left _ _))
abbrev spec4_0 : Pipeline.WinSpec sig grid4.rank :=
  Pipeline.WinSpec.ofSpec (Memref.whole main_v2) S1x128.size reads4_0 false true 1 stage4_0 sem4_0 nbuf4_0 hstage4_0

abbrev spec4_1 : Pipeline.WinSpec sig grid4.rank :=
  Pipeline.WinSpec.ofSpec (Memref.whole main_v12) S8x128.size reads4_1 true false 2 stage4_1 sem4_1 nbuf4_1 hstage4_1

abbrev spec4 : Fin 2 → Pipeline.WinSpec sig grid4.rank := fun | 0 => spec4_0 | 1 => spec4_1 | ⟨_ + 2, h⟩ => absurd h (Nat.not_lt.2 (Nat.le_add_left _ _))
theorem hcount4 : ∀ w, grid4.bufCount (spec4 w).reads (spec4 w).sync = (spec4 w).nbuf := fun | 0 => nbuf4_0 | 1 => nbuf4_1 | ⟨_ + 2, h⟩ => absurd h (Nat.not_lt.2 (Nat.le_add_left _ _))
abbrev ix4 (pf : pre4.Contents (Elt F)) : (w : Fin 2) → grid4.Coords → Fin (spec4 w).shape.rank → Nat := fun | 0 => cc4_transform_1 | 1 => cc4_transform_2 | ⟨_ + 2, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | ⟨_ + 2, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | ⟨_ + 2, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | ⟨_ + 2, h⟩ => absurd h (Nat.not_lt.2 (Nat.le_add_left _ _))
abbrev spec5_0 : Pipeline.WinSpec sig grid5.rank :=
  Pipeline.WinSpec.ofSpec (Memref.whole main_v2) S1x128.size reads5_0 false true 1 stage5_0 sem5_0 nbuf5_0 hstage5_0

abbrev spec5_1 : Pipeline.WinSpec sig grid5.rank :=
  Pipeline.WinSpec.ofSpec (Memref.whole main_v14) S8x128.size reads5_1 true false 2 stage5_1 sem5_1 nbuf5_1 hstage5_1

abbrev spec5 : Fin 2 → Pipeline.WinSpec sig grid5.rank := fun | 0 => spec5_0 | 1 => spec5_1 | ⟨_ + 2, h⟩ => absurd h (Nat.not_lt.2 (Nat.le_add_left _ _))
theorem hcount5 : ∀ w, grid5.bufCount (spec5 w).reads (spec5 w).sync = (spec5 w).nbuf := fun | 0 => nbuf5_0 | 1 => nbuf5_1 | ⟨_ + 2, h⟩ => absurd h (Nat.not_lt.2 (Nat.le_add_left _ _))
abbrev ix5 (pf : pre5.Contents (Elt F)) : (w : Fin 2) → grid5.Coords → Fin (spec5 w).shape.rank → Nat := fun | 0 => cc5_transform_1 | 1 => cc5_transform_2 | ⟨_ + 2, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | 1 => hreads5_1 | ⟨_ + 2, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | 1 => hinb5_1 | ⟨_ + 2, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | 1 => hwx5_1 | ⟨_ + 2, h⟩ => absurd h (Nat.not_lt.2 (Nat.le_add_left _ _))
abbrev spec6_0 : Pipeline.WinSpec sig grid6.rank :=
  Pipeline.WinSpec.ofSpec (Memref.whole main_v2) S1x128.size reads6_0 false true 1 stage6_0 sem6_0 nbuf6_0 hstage6_0

abbrev spec6_1 : Pipeline.WinSpec sig grid6.rank :=
  Pipeline.WinSpec.ofSpec (Memref.whole main_v16) S8x128.size reads6_1 true false 2 stage6_1 sem6_1 nbuf6_1 hstage6_1

abbrev spec6 : Fin 2 → Pipeline.WinSpec sig grid6.rank := fun | 0 => spec6_0 | 1 => spec6_1 | ⟨_ + 2, h⟩ => absurd h (Nat.not_lt.2 (Nat.le_add_left _ _))
theorem hcount6 : ∀ w, grid6.bufCount (spec6 w).reads (spec6 w).sync = (spec6 w).nbuf := fun | 0 => nbuf6_0 | 1 => nbuf6_1 | ⟨_ + 2, h⟩ => absurd h (Nat.not_lt.2 (Nat.le_add_left _ _))
abbrev ix6 (pf : pre6.Contents (Elt F)) : (w : Fin 2) → grid6.Coords → Fin (spec6 w).shape.rank → Nat := fun | 0 => cc6_transform_1 | 1 => cc6_transform_2 | ⟨_ + 2, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 | 1 => hreads6_1 | ⟨_ + 2, h⟩ => absurd h (Nat.not_lt.2 (Nat.le_add_left _ _))
def ok6 (_ : pre6.Contents (Elt F)) : Prop :=
  True
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun _ _ => fun | 0 => hinb6_0 | 1 => hinb6_1 | ⟨_ + 2, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun _ _ => fun | 0 => hwx6_0 | 1 => hwx6_1 | ⟨_ + 2, h⟩ => absurd h (Nat.not_lt.2 (Nat.le_add_left _ _))
abbrev spec7_0 : Pipeline.WinSpec sig grid7.rank :=
  Pipeline.WinSpec.ofSpec (Memref.whole main_v2) S1x128.size reads7_0 false true 1 stage7_0 sem7_0 nbuf7_0 hstage7_0

abbrev spec7_1 : Pipeline.WinSpec sig grid7.rank :=
  Pipeline.WinSpec.ofSpec (Memref.whole main_v18) S8x128.size reads7_1 true false 2 stage7_1 sem7_1 nbuf7_1 hstage7_1

abbrev spec7 : Fin 2 → Pipeline.WinSpec sig grid7.rank := fun | 0 => spec7_0 | 1 => spec7_1 | ⟨_ + 2, h⟩ => absurd h (Nat.not_lt.2 (Nat.le_add_left _ _))
theorem hcount7 : ∀ w, grid7.bufCount (spec7 w).reads (spec7 w).sync = (spec7 w).nbuf := fun | 0 => nbuf7_0 | 1 => nbuf7_1 | ⟨_ + 2, h⟩ => absurd h (Nat.not_lt.2 (Nat.le_add_left _ _))
abbrev ix7 (pf : pre7.Contents (Elt F)) : (w : Fin 2) → grid7.Coords → Fin (spec7 w).shape.rank → Nat := fun | 0 => cc7_transform_1 | 1 => cc7_transform_2 | ⟨_ + 2, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | 1 => hreads7_1 | ⟨_ + 2, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | 1 => hinb7_1 | ⟨_ + 2, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | 1 => hwx7_1 | ⟨_ + 2, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole

variable [Facts]
-- ==== ReferenceIdeal.lean ====
abbrev S64x4096 : Shape := ⟨2, ![64, 4096]⟩
abbrev S128x50257 : Shape := ⟨2, ![128, 50257]⟩
abbrev S128 : Shape := ⟨1, ![128]⟩
abbrev S50257x128 : Shape := ⟨2, ![50257, 128]⟩
abbrev S_ : Shape := ⟨0, ![]⟩
abbrev S64x4096x1 : Shape := ⟨3, ![64, 4096, 1]⟩
abbrev S64x4096x128 : Shape := ⟨3, ![64, 4096, 128]⟩
abbrev S1x1x128 : Shape := ⟨3, ![1, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S64x4096, .i32⟩
  | .hbm, ⟨1, _⟩ => ⟨S128x50257, .f32⟩
  | .hbm, ⟨2, _⟩ => ⟨S128, .f32⟩
  | .hbm, ⟨3, _⟩ => ⟨S50257x128, .f32⟩
  | .hbm, ⟨4, _⟩ => ⟨S_, .i32⟩
  | .hbm, ⟨5, _⟩ => ⟨S64x4096, .i32⟩
  | .hbm, ⟨6, _⟩ => ⟨S64x4096, .i1⟩
  | .hbm, ⟨7, _⟩ => ⟨S_, .i32⟩
  | .hbm, ⟨8, _⟩ => ⟨S64x4096, .i32⟩
  | .hbm, ⟨9, _⟩ => ⟨S64x4096, .i32⟩
  | .hbm, ⟨10, _⟩ => ⟨S64x4096, .i32⟩
  | .hbm, ⟨11, _⟩ => ⟨S64x4096x1, .i32⟩
  | .hbm, ⟨12, _⟩ => ⟨S64x4096x128, .f32⟩
  | .hbm, ⟨13, _⟩ => ⟨S1x1x128, .f32⟩
  | .hbm, ⟨14, _⟩ => ⟨S64x4096x128, .f32⟩
  | .hbm, ⟨15, _⟩ => ⟨S64x4096x128, .f32⟩
  | _, _ => ⟨S64x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  transposes_S128x50257_S50257x128_1_0 : S128x50257.Transposes [1, 0] S50257x128
  bcast_S_S64x4096 : S_.BroadcastsInDim S64x4096 (![] : Fin 0 → Fin S64x4096.rank)
  bcast_S64x4096_S64x4096x1_0_1 : S64x4096.BroadcastsInDim S64x4096x1 (![0, 1] : Fin 2 → Fin S64x4096x1.rank)
  bcast_S128_S1x1x128_2 : S128.BroadcastsInDim S1x1x128 (![2] : Fin 1 → Fin S1x1x128.rank)
  bcast_S1x1x128_S64x4096x128_0_1_2 : S1x1x128.BroadcastsInDim S64x4096x128 (![0, 1, 2] : Fin 3 → Fin S64x4096x128.rank)
  gather_S50257x128_S64x4096x1_S64x4096x128_2_0_n_n_0_2_1128_wf : GatherDims.WF S50257x128 S64x4096x1 S64x4096x128 [2] [0] [] [0] [] 2 ![1, 128]

variable [Facts₀]

def gather_S50257x128_S64x4096x1_S64x4096x128_2_0_n_n_0_2_1128 : GatherDims S50257x128 S64x4096x1 S64x4096x128 where
  offsetDims := [2]
  collapsedSliceDims := [0]
  operandBatchingDims := []
  startIndicesBatchingDims := []
  startIndexMap := [0]
  indexVectorDim := 2
  sliceSizes := ![1, 128]
  wf := gather_S50257x128_S64x4096x1_S64x4096x128_2_0_n_n_0_2_1128_wf

class Facts : Prop extends Facts₀ where

variable [Facts]
-- ==== Proof.PreRange.lean ====
import proofs.«418142_j33036888441229_2_alg».proof.Pre_finite_inputs
import proofs.«418142_j33036888441229_2_alg».proof.Proof.Gen.Pre_finite_inputs
import Idealize.ShloMosaic.Lib.ReduceAll
import Idealize.ShloMosaic.Lib.StableHlo.Predicate
import Idealize.ShloMosaic.Lib.ValueIdx

namespace Cert.PreRange

open Idealize.ShloMosaic

instance subsingleton_S_ : Subsingleton Cert.Pre_finite_inputs.S_.Idx := ⟨fun a b => funext fun d => d.elim0⟩

/-- Signed-at-least 0 and signed-below 50257 give, unsigned, below 50257. -/
theorem toNat_lt_of_signed (a : BitVec 32) (h0 : IntOp.cmpi .sge a 0#32 = 1#1) (h1 : IntOp.cmpi .slt a 50257#32 = 1#1) :
    a.toNat < 50257 := by
  have hge : (0#32 : BitVec 32).toInt ≤ a.toInt := IntOp.cmpi_sge.1 h0
  have hlt : a.toInt < (50257#32 : BitVec 32).toInt := IntOp.cmpi_slt.1 h1
  rw [show (0#32 : BitVec 32).toInt = 0 from by decide] at hge
  rw [show (50257#32 : BitVec 32).toInt = 50257 from by decide] at hlt
  have hc := BitVec.toInt_eq_toNat_cond a
  split at hc <;> omega

/-- The precondition puts every token id below 50257. -/
theorem toNat_lt_of_pre {F : FTy → Type} [FloatOps F] [Cert.Pre_finite_inputs.Facts]
    (x : IVec Cert.Pre_finite_inputs.S64x4096 32) (W : FVec F Cert.Pre_finite_inputs.S128x50257 .f32) (b : FVec F Cert.Pre_finite_inputs.S128 .f32)
    (h : Cert.Pre_finite_inputs.fn (F := F) x W b = fun _ => 1#1) (j : Cert.Pre_finite_inputs.S64x4096.Idx) :
    (x j).toNat < 50257 := by
  have h0 := congrFun h ValueIdx.ix0
  dsimp only [Cert.Pre_finite_inputs.fn, Cert.Pre_finite_inputs.fn_part1] at h0

  obtain ⟨h123, h4⟩ := IntOp.andi_eq_one.1 h0
  obtain ⟨_, h3⟩ := IntOp.andi_eq_one.1 h123

  have hge := Host.reduce_andi_all _ _ _ _ _ h3 j
  have hlt := Host.reduce_andi_all _ _ _ _ _ h4 j

  exact toNat_lt_of_signed (x j) hge hlt

end Cert.PreRange
-- ==== Proof.Spec.lean ====
import Idealize.ShloMosaic.PureOps.Ideal
import Idealize.ShloMosaic.Lib.ValueIdx

noncomputable section

namespace Cert.Spec

open Idealize.ShloMosaic Idealize.ShloMosaic.ValueIdx

abbrev vocab : ℕ := 50257

/-- A token id as a column of the weight, reduced modulo the vocabulary so that the lookup is total. -/
def colOf (w : BitVec 32) : Fin vocab := ⟨w.toNat % vocab, Nat.mod_lt _ (by decide)⟩

theorem colOf_val {w : BitVec 32} (h : w.toNat < vocab) : (colOf w).val = w.toNat := Nat.mod_eq_of_lt h

/-- The lookup: W[j, x[b, s]] + bias[j] at (b, s, j). -/
def G (x : (⟨2, ![64, 4096]⟩ : Shape).Idx → BitVec 32) (W : (⟨2, ![128, 50257]⟩ : Shape).Idx → EReal)
    (bias : (⟨1, ![128]⟩ : Shape).Idx → EReal) : (⟨3, ![64, 4096, 128]⟩ : Shape).Idx → EReal :=
  fun i => W (ix2 (⟨(i 2).val, (i 2).isLt⟩ : Fin 128) (colOf (x (ix2 (⟨(i 0).val, (i 0).isLt⟩ : Fin 64) (⟨(i 1).val, (i 1).isLt⟩ : Fin 4096)))))
    + bias (ix1 (⟨(i 2).val, (i 2).isLt⟩ : Fin 128))

end Cert.Spec

end
-- ==== Proof.RefValue.lean ====
import proofs.«418142_j33036888441229_2_alg».proof.Defs
import proofs.«418142_j33036888441229_2_alg».proof.Proof.Gen.ReferenceIdeal
import proofs.«418142_j33036888441229_2_alg».proof.Proof.Gen.ReferenceIdeal.Run
import proofs.«418142_j33036888441229_2_alg».proof.Proof.Gen.ReferenceIdeal.Read
import proofs.«418142_j33036888441229_2_alg».proof.Proof.Spec
import Idealize.ShloMosaic.Lib.ValueIdx
import Idealize.ShloMosaic.Lib.Pipeline.Value
import Idealize.ShloMosaic.Lib.StableHlo.Run

noncomputable section

namespace Cert.ReferenceIdeal.RefValue

open Idealize.ShloMosaic Idealize.ShloMosaic.TcCoe Idealize.SL.Sem Idealize.ShloMosaic.ValueIdx
open Cert.ReferenceIdeal Cert.ReferenceIdeal.Read

/-- Below 50257 a word's signed and unsigned readings agree. -/
theorem toInt_toNat_of_lt (w : BitVec 32) (h : w.toNat < Cert.Spec.vocab) : w.toInt.toNat = w.toNat := by
  have h' : w.toNat < 50257 := h
  have e := BitVec.toInt_eq_toNat_cond w
  omega

/-- Such a word is not negative. -/
theorem slt_zero_of_lt (w : BitVec 32) (h : w.toNat < Cert.Spec.vocab) : IntOp.cmpi .slt w 0#32 = 0#1 := by
  have h' : w.toNat < 50257 := h
  have e := BitVec.toInt_eq_toNat_cond w
  have hf : w.slt 0#32 = false := by
    simp only [BitVec.slt, BitVec.toInt_zero, decide_eq_false_iff_not]
    omega
  show BitVec.ofBool (w.slt 0#32) = 0#1
  rw [hf]
  rfl

abbrev GD : GatherDims S50257x128 S64x4096x1 S64x4096x128 := gather_S50257x128_S64x4096x1_S64x4096x128_2_0_n_n_0_2_1128

abbrev startIdx (i : S64x4096x128.Idx) : S64x4096x1.Idx := fun a => match a with
  | ⟨0, _⟩ => ⟨(i 0).val, (i 0).isLt⟩
  | ⟨1, _⟩ => ⟨(i 1).val, (i 1).isLt⟩
  | ⟨2, _⟩ => ⟨0, Nat.one_pos⟩

/-- The gather reads the operand at the clamped start row, column j. -/
theorem gather_apply {α : Type} (x : S50257x128.Idx → α) (idx : IVec S64x4096x1 32) (i : S64x4096x128.Idx) :
    Host.gather GD x idx i
      = x (ix2 (⟨min (idx (startIdx i)).toInt.toNat 50256, by omega⟩ : Fin 50257) (⟨(i 2).val, (i 2).isLt⟩ : Fin 128)) := by
  unfold Host.gather
  congr 1
  funext a
  refine Fin.ext ?_
  match a with
  | ⟨0, _⟩ =>
    show GD.start i idx 0 + GD.batchCoord i 0 + GD.offCoord i 0 = min (idx (startIdx i)).toInt.toNat 50256
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl)]
    have hsi : GD.siIdx i ⟨List.idxOf (0 : Fin 2) GD.startIndexMap,
        List.idxOf_lt_length_iff.2 (List.mem_singleton.mpr rfl)⟩ = startIdx i := by
      funext b; refine Fin.ext ?_
      match b with
      | ⟨0, _⟩ => rfl
      | ⟨1, _⟩ => rfl
      | ⟨2, _⟩ => rfl
    rw [hsi]
    rfl
  | ⟨1, _⟩ =>
    show GD.start i idx 1 + GD.batchCoord i 1 + GD.offCoord i 1 = (i 2).val
    have hs : GD.start i idx 1 = 0 := by
      unfold GatherDims.start
      rw [dif_neg (show (1 : Fin 2) ∉ GD.startIndexMap by decide)]
    have ho : GD.offCoord i 1 = (i 2).val := by
      unfold GatherDims.offCoord
      rw [dif_pos ((GatherDims.mem_sKept _ _).mpr ⟨by decide, List.not_mem_nil⟩)]
      rfl
    rw [hs, GatherDims.batchCoord_eq_zero _ _ _ List.not_mem_nil, ho, Nat.add_zero, Nat.zero_add]

section Stages
variable (x0 : (⟨S64x4096, .i32⟩ : BufTy).Contents (Elt Ideal)) (x1 : (⟨S128x50257, .f32⟩ : BufTy).Contents (Elt Ideal))
  (x2 : (⟨S128, .f32⟩ : BufTy).Contents (Elt Ideal))

/-- An id inside the vocabulary is not wrapped. -/
theorem v5_apply (j : S64x4096.Idx) (h : (x0 j).toNat < Cert.Spec.vocab) : val_main_v5 (F := Ideal) x0 j = x0 j := by
  rw [val_main_v5_apply, val_main_v2_apply, val_main_v1_apply, val_main_c_apply, slt_zero_of_lt _ h, select_zero]

theorem v6_apply (hx : ∀ j : S64x4096.Idx, (x0 j).toNat < Cert.Spec.vocab) (i : S64x4096x128.Idx) :
    val_main_v6 (F := Ideal) x0 (startIdx i)
      = x0 (ix2 (⟨(i 0).val, (i 0).isLt⟩ : Fin 64) (⟨(i 1).val, (i 1).isLt⟩ : Fin 4096)) := by
  rw [val_main_v6_apply, v5_apply x0 _ (hx _)]
  congr 1
  funext a
  match a with
  | ⟨0, _⟩ => rfl
  | ⟨1, _⟩ => rfl

/-- The gathered entry (b, s, j) is the weight at (j, x[b, s]): the clamp leaves an id inside the vocabulary alone. -/
theorem v7_apply (hx : ∀ j : S64x4096.Idx, (x0 j).toNat < Cert.Spec.vocab) (i : S64x4096x128.Idx) :
    val_main_v7 (F := Ideal) x0 x1 i
      = x1 (ix2 (⟨(i 2).val, (i 2).isLt⟩ : Fin 128)
          (Cert.Spec.colOf (x0 (ix2 (⟨(i 0).val, (i 0).isLt⟩ : Fin 64) (⟨(i 1).val, (i 1).isLt⟩ : Fin 4096))))) := by
  unfold val_main_v7
  rw [gather_apply, val_main_v0_apply]
  congr 1
  funext a
  match a with
  | ⟨0, _⟩ => rfl
  | ⟨1, _⟩ =>
    refine Fin.ext ?_
    show min (val_main_v6 (F := Ideal) x0 (startIdx i)).toInt.toNat 50256 = (Cert.Spec.colOf _).val
    have h := hx (ix2 (⟨(i 0).val, (i 0).isLt⟩ : Fin 64) (⟨(i 1).val, (i 1).isLt⟩ : Fin 4096))
    rw [v6_apply x0 hx, toInt_toNat_of_lt _ h, Cert.Spec.colOf_val h]
    have h' : (x0 (ix2 (⟨(i 0).val, (i 0).isLt⟩ : Fin 64) (⟨(i 1).val, (i 1).isLt⟩ : Fin 4096))).toNat < 50257 := h
    omega

theorem v9_apply (i : S64x4096x128.Idx) :
    val_main_v9 (F := Ideal) x2 i = x2 (ix1 (⟨(i 2).val, (i 2).isLt⟩ : Fin 128)) := by
  rw [val_main_v9_apply, val_main_v8_apply]
  congr 1
  funext a
  match a with
  | ⟨0, _⟩ => rfl

/-- The reference's term is the specification on ids inside the vocabulary. -/
theorem result_eq (hx : ∀ j : S64x4096.Idx, (x0 j).toNat < Cert.Spec.vocab) :
    val_main_v10 (F := Ideal) x0 x1 x2 = Cert.Spec.G x0 x1 x2 := by
  funext i
  rw [val_main_v10_apply]
  show val_main_v7 (F := Ideal) x0 x1 i + val_main_v9 (F := Ideal) x2 i = _
  rw [v7_apply x0 x1 hx, v9_apply]
  rfl

end Stages

/-- The reference ends with its result at the specification and its arguments unchanged. -/
theorem run_spec [Cert.ReferenceIdeal.Facts] (m' : (ℓ : Loc nD τ sig) → Buf (Elt Ideal) ℓ) (ρ' : Dev nD → PrngReg)
    (hx : ∀ (c : Dev nD) (j : S64x4096.Idx), (m' ((c.tc : Thread nD τ).loc main_arg0) j).toNat < Cert.Spec.vocab) :
    θ_run (defs (F := Ideal)) (onTc (τ := τ) (main (F := Ideal))) ⟨m', fun _ => 0, ρ'⟩ (fun r => ∀ c : Dev nD,
      r.2.mem ((c.tc : Thread nD τ).loc main_v10)
          = Cert.Spec.G (m' ((c.tc : Thread nD τ).loc main_arg0)) (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) := by
  refine (θ_run (defs (F := Ideal)) _ _).mono (fun r h c => ⟨(h c).1.trans ?_, (h c).2⟩)
    (Cert.ReferenceIdeal.Value.run (F := Ideal) m' ρ')
  exact (val_main_v10_eq _ _ _).trans (result_eq _ _ _ (hx c))

end Cert.ReferenceIdeal.RefValue

end
-- ==== Proof.Kernel.Common.lean ====
import proofs.«418142_j33036888441229_2_alg».proof.Proof.Gen.Kernel.Launch
import proofs.«418142_j33036888441229_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The gather table: the weight transposed, one row of 128 per vocabulary entry. -/
abbrev hbM : Memref sig .tc .hbm S50257x128 .f32 := Memref.whole main_v0
abbrev hhbM : hbM.IsWhole := Memref.isWhole_whole _

abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (f : MBuf (F := F) c M) : sProp 𝕄 :=
  M.view.loc (c : Thread nD τ) ↦{fullShare} f
abbrev rawPt (c : Dev nD) {sp : Space} {S : Shape} {e : EltTy} (M : Memref sig .tc sp S e) (f : MBuf (F := F) c M) : sProp 𝕄 :=
  M.view.loc (c : Thread nD τ) ↦[M.view.set]{fullShare} f
abbrev tokPt (c : Dev nD) {sp : Space} {S : Shape} {e : EltTy} (M : Memref sig .tc sp S e) (k : ℕ) (f : MBuf (F := F) c M) : sProp 𝕄 :=
  M.view.loc (c : Thread nD τ) ↦{Transfers.shareTokN fullShare k} f

theorem scr_open (c : Dev nD) {sp : Space} {S : Shape} {e : EltTy} (M : Memref sig .tc sp S e) :
    (iprop(∃ d, owns (c : Thread nD τ) M fullShare d) : sProp 𝕄) ⊢ iprop(∃ f, rawPt c M f) := by
  unfold owns
  iintro ⟨%d, %f, -, H⟩
  iexists f; iexact H

theorem scr_close (c : Dev nD) {sp : Space} {S : Shape} {e : EltTy} (M : Memref sig .tc sp S e) :
    (iprop(∃ f, rawPt c M f) : sProp 𝕄) ⊢ iprop(∃ d, owns (c : Thread nD τ) M fullShare d) := by
  unfold owns
  iintro ⟨%f, H⟩
  iexists _, f; isplitr; · ipureintro; rfl
  iexact H

end Cert.Kernel.Emb

end
-- ==== Proof.Kernel.Run0.lean ====
import proofs.«418142_j33036888441229_2_alg».proof.Proof.Kernel.Common

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR0 : Memref sig .tc .smem S32768 .i32 := Memref.whole main_v3
abbrev htbMR0 : tbMR0.IsWhole := Memref.isWhole_whole _
abbrev scMR0 : Memref sig .tc .vmem S8x128 .f32 := Memref.whole cc0_scratch0
abbrev hscMR0 : scMR0.IsWhole := Memref.isWhole_whole _

section
variable (c : Dev nD) (i : grid0.Coords) (xt : MBuf (F := F) c tbMR0)

/-- The word of the index table at offsets `off`. -/
abbrev wordR0 (off : Fin 1 → ℕ) (inb : ∀ a, off a + S1.size a ≤ S32768.size a) : Elt F .i32 :=
  tbMR0.view.readAt (Elt F) (Rect.unit (s := S32768) off S1.size inb).toLoadRect xt (Shape.Idx.first (numel1_S1.symm ▸ Nat.one_pos))

/-- Each of the eight token ids the point at `i` reads is a row number of the gather table. -/
def OkR0 : Prop :=
  k0_chk1 (wordR0 c xt (k0_off1 i) (k0_off1_inb i)) ∧ k0_chk2 (wordR0 c xt (k0_off3 i) (k0_off3_inb i)) ∧ k0_chk3 (wordR0 c xt (k0_off5 i) (k0_off5_inb i)) ∧ k0_chk4 (wordR0 c xt (k0_off7 i) (k0_off7_inb i)) ∧ k0_chk5 (wordR0 c xt (k0_off9 i) (k0_off9_inb i)) ∧ k0_chk6 (wordR0 c xt (k0_off11 i) (k0_off11_inb i)) ∧ k0_chk7 (wordR0 c xt (k0_off13 i) (k0_off13_inb i)) ∧ k0_chk8 (wordR0 c xt (k0_off15 i) (k0_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR0 (c : Dev nD) (i : grid0.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR0) (fh : MBuf (F := F) c hbM) (fs0 : MBuf (F := F) c scMR0)
    (h : OkR0 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR0 fs0
            ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0
            ∗ tokPt c hbM 3 fh ∗ tokPt c hbM 4 fh ∗ tokPt c hbM 5 fh ∗ tokPt c hbM 6 fh ∗ tokPt c hbM 7 fh ∗ tokPt c hbM 8 fh ∗ tokPt c hbM 9 fh ∗ tokPt c hbM 10 fh ∗ mPt c tbMR0 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR0 f)
                ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0
                ∗ tokPt c hbM 3 fh ∗ tokPt c hbM 4 fh ∗ tokPt c hbM 5 fh ∗ tokPt c hbM 6 fh ∗ tokPt c hbM 7 fh ∗ tokPt c hbM 8 fh ∗ tokPt c hbM 9 fh ∗ tokPt c hbM 10 fh ∗ mPt c tbMR0 xt ∗ (∃ W', owes (c : Thread nD τ) 0 W')) -∗ K ⟨⟩))
          ⊢ wp frame (wpE (defs₀ (F := F)) Variants.none c none) Set.univ (cc0__embed_kernel i tbMR0 htbMR0 hbM hhbM arg3 harg3 arg4 harg4 scMR0 hscMR0 cc0_scratch1) K } := by
  refine ⟨?_, fun W K => ?run⟩
  case run =>
    simp only [cc0__embed_kernel_eq_skeleton]; unfold cc0__embed_kernel_skel
    simp only [k0_part1_eq_skeleton, k0_part2_eq_skeleton, k0_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid0.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR0) (fh : MBuf (F := F) c hbM) (fs0 : MBuf (F := F) c scMR0) (h : OkR0 c i xt)

/-- The run's one piece is a store of the whole 8 × 128 block. -/
theorem coverR0 (y : S8x128.Idx) : ∃ pc ∈ (kernelRunR0 c i arg3 harg3 arg4 harg4 x0 xt fh fs0 h).1, y ∈ pc.1.set :=
  View.cover_of_tiledL (kernelRunR0 c i arg3 harg3 arg4 harg4 x0 xt fh fs0 h).1 S8x128.size (by sl_kernel_rfl) y

abbrev VOR0 : View sig .tc .vmem S8x128 .f32 := (Memref.whole cc0_stg1_0 : Memref sig .tc .vmem S8x128 .f32).view

/-- What the run leaves in the output block: its pieces read back. -/
def outR0 : Vec F S8x128 .f32 :=
  VOR0.read (Elt F) (VOR0.writes (Elt F) VOR0.junk (kernelRunR0 c i arg3 harg3 arg4 harg4 x0 xt fh fs0 h).1)

end

end Cert.Kernel.Emb

end
-- ==== Proof.RowsLib.lean ====
import proofs.«418142_j33036888441229_2_alg».proof.Proof.Spec
import Idealize.ShloMosaic.Lib.ValueIdx
import Idealize.ShloMosaic.Lib.Pipeline.Value

set_option maxRecDepth 16384

noncomputable section

namespace Cert.Emb

open Idealize.ShloMosaic Idealize.ShloMosaic.ValueIdx

variable {sg : RefSig} {κ : Kind} {sp : Space} {e : EltTy} {Val : EltTy → Type}

abbrev T128 : Shape := ⟨1, ![128]⟩
abbrev T1x128 : Shape := ⟨2, ![1, 128]⟩
abbrev T8x128 : Shape := ⟨2, ![8, 128]⟩
abbrev T1 : Shape := ⟨1, ![1]⟩
abbrev Rows (N : ℕ) : Shape := ⟨2, ![N, 128]⟩

theorem zero2 : (![0, 0] : Fin 2 → ℕ) = fun _ => 0 := by
  funext a
  match a with
  | ⟨0, _⟩ => rfl
  | ⟨1, _⟩ => rfl

/-- Eight vectors of 128 stacked as the rows of an 8 × 128 tile. -/
def rows8 {α : Type} (d0 d1 d2 d3 d4 d5 d6 d7 : T128.Idx → α) : T8x128.Idx → α :=
  fun y => (![d0, d1, d2, d3, d4, d5, d6, d7] : Fin 8 → T128.Idx → α) (y 0) (ix1 (y 1))

section Row
variable {N : ℕ} (v : View sg κ sp (Rows N) e) (off : Fin 2 → ℕ) (inb : ∀ a, off a + T1x128.size a ≤ (Rows N).size a)
  (h : T128.numel = (Rect.unit (s := Rows N) off T1x128.size inb).shape.numel) (k : Fin N) (h0 : off 0 = k.val) (h1 : off 1 = 0)
include h0 h1

/-- Row k, squeezed to a vector, places its column j at the buffer's (k, j): both axes are offset plus coordinate. -/
theorem rowView_emb (j : Fin 128) :
    ((v.slice (Rect.unit (s := Rows N) off T1x128.size inb)).reshape T128 h).emb (ix1 j) = v.emb (ix2 k j) := by
  show v.emb ((Rect.unit (s := Rows N) off T1x128.size inb).emb (Shape.reshapeEquiv h (ix1 j))) = _
  rw [Shape.reshapeEquiv_cons_one (n := 1) (d := ![128]) h (ix1 j)]
  refine congrArg v.emb (funext fun a => Fin.ext ?_)
  match a with
  | ⟨0, _⟩ => show off 0 + 1 * 0 = k.val; omega
  | ⟨1, _⟩ => show off 1 + 1 * j.val = j.val; omega

theorem rowView_read (g : v.ty.Contents Val) (j : Fin 128) :
    View.read Val ((v.slice (Rect.unit (s := Rows N) off T1x128.size inb)).reshape T128 h) g (ix1 j) = v.read Val g (ix2 k j) := by
  rw [View.read_apply, View.read_apply, rowView_emb v off inb h k h0 h1 j]

/-- A row written and read back at the same row gives the payload. -/
theorem rowView_read_hit (g : v.ty.Contents Val) (d : T128.Idx → Val e) (j : Fin 128) :
    v.read Val (View.write Val ((v.slice (Rect.unit (s := Rows N) off T1x128.size inb)).reshape T128 h) g d Finset.univ) (ix2 k j) = d (ix1 j) := by
  rw [View.read_apply, ← rowView_emb v off inb h k h0 h1 j, View.write_emb_of_mem _ _ (Finset.mem_univ _), cast_cast, cast_eq]

/-- A row written leaves every other row as it was: the embedding is injective and the rows differ on axis 0. -/
theorem rowView_read_miss (g : v.ty.Contents Val) (d : T128.Idx → Val e) (r : Fin N) (j : Fin 128) (hr : r ≠ k) :
    v.read Val (View.write Val ((v.slice (Rect.unit (s := Rows N) off T1x128.size inb)).reshape T128 h) g d Finset.univ) (ix2 r j) = v.read Val g (ix2 r j) := by
  rw [View.read_apply, View.read_apply, View.write_of_not_mem]
  intro hm
  obtain ⟨x, -, hx⟩ := Finset.mem_map.mp hm
  have hx' : v.emb (ix2 k (x 0)) = v.emb (ix2 r j) :=
    (rowView_emb v off inb h k h0 h1 (x 0)).symm.trans ((congrArg _ (eq_ix1 x).symm).trans hx)
  exact hr (congrFun (v.emb.injective hx') 0).symm

end Row

/-- Eight rows written one to each row of a tile cover it: reading back gives the stack, whatever the tile held. -/
theorem read_rows8 (v : View sg κ sp T8x128 e)
    (inb0 : ∀ a, (![0, 0] : Fin 2 → ℕ) a + T1x128.size a ≤ T8x128.size a) (inb1 : ∀ a, (![1, 0] : Fin 2 → ℕ) a + T1x128.size a ≤ T8x128.size a)
    (inb2 : ∀ a, (![2, 0] : Fin 2 → ℕ) a + T1x128.size a ≤ T8x128.size a) (inb3 : ∀ a, (![3, 0] : Fin 2 → ℕ) a + T1x128.size a ≤ T8x128.size a)
    (inb4 : ∀ a, (![4, 0] : Fin 2 → ℕ) a + T1x128.size a ≤ T8x128.size a) (inb5 : ∀ a, (![5, 0] : Fin 2 → ℕ) a + T1x128.size a ≤ T8x128.size a)
    (inb6 : ∀ a, (![6, 0] : Fin 2 → ℕ) a + T1x128.size a ≤ T8x128.size a) (inb7 : ∀ a, (![7, 0] : Fin 2 → ℕ) a + T1x128.size a ≤ T8x128.size a)
    (h : T128.numel = T1x128.numel) (f : v.ty.Contents Val) (d0 d1 d2 d3 d4 d5 d6 d7 : T128.Idx → Val e) (r : Fin 8) (j : Fin 128) :
    v.read Val (View.write Val ((v.slice (Rect.unit (s := T8x128) ![7, 0] T1x128.size inb7)).reshape T128 h) (View.write Val ((v.slice (Rect.unit (s := T8x128) ![6, 0] T1x128.size inb6)).reshape T128 h) (View.write Val ((v.slice (Rect.unit (s := T8x128) ![5, 0] T1x128.size inb5)).reshape T128 h) (View.write Val ((v.slice (Rect.unit (s := T8x128) ![4, 0] T1x128.size inb4)).reshape T128 h) (View.write Val ((v.slice (Rect.unit (s := T8x128) ![3, 0] T1x128.size inb3)).reshape T128 h) (View.write Val ((v.slice (Rect.unit (s := T8x128) ![2, 0] T1x128.size inb2)).reshape T128 h) (View.write Val ((v.slice (Rect.unit (s := T8x128) ![1, 0] T1x128.size inb1)).reshape T128 h) (View.write Val ((v.slice (Rect.unit (s := T8x128) ![0, 0] T1x128.size inb0)).reshape T128 h) f d0 Finset.univ) d1 Finset.univ) d2 Finset.univ) d3 Finset.univ) d4 Finset.univ) d5 Finset.univ) d6 Finset.univ) d7 Finset.univ) (ix2 r j) = rows8 d0 d1 d2 d3 d4 d5 d6 d7 (ix2 r j) := by
  fin_cases r <;>
    repeat (first
      | exact rowView_read_hit (N := 8) v _ _ h ⟨_, by decide⟩ rfl rfl _ _ j
      | refine (rowView_read_miss (N := 8) v _ _ h ⟨_, by decide⟩ rfl rfl _ _ _ j (by decide)).trans ?_)

/-- The position of token 8·t + r as computed on 32-bit words, for t below 4096 and r below 8: no wrap. -/
theorem tokenOff_toNat (t r : ℕ) (ht : t < 4096) (hr : r < 8) :
    (Scalar.indexCast (Scalar.addi (Scalar.muli (BitVec.ofNat 32 t) 8#32) (BitVec.ofNat 32 r))).toNat = (8 * t + r) % 32768 := by
  show (BitVec.ofNat 32 t * 8#32 + BitVec.ofNat 32 r).toNat = _
  rw [BitVec.toNat_add, BitVec.toNat_mul, BitVec.toNat_ofNat, BitVec.toNat_ofNat, BitVec.toNat_ofNat]
  omega

theorem wordAt_read {M : ℕ} (v : View sg κ sp (⟨1, ![M]⟩ : Shape) e) (off : Fin 1 → ℕ)
    (inb : ∀ a, off a + T1.size a ≤ (⟨1, ![M]⟩ : Shape).size a)
    (hf : 0 < (Rect.unit (s := (⟨1, ![M]⟩ : Shape)) off T1.size inb).toLoadRect.shape.numel)
    (p : Fin M) (h0 : off 0 = p.val) (f : v.ty.Contents Val) :
    v.readAt Val (Rect.unit (s := (⟨1, ![M]⟩ : Shape)) off T1.size inb).toLoadRect f (Shape.Idx.first hf) = v.read Val f (ix1 p) := by
  rw [View.readAt_apply]
  refine congrArg (v.read Val f) (funext fun a => Fin.ext ?_)
  match a with
  | ⟨0, _⟩ => show off 0 + 1 * 0 = p.val; omega

/-- Row w of the 50257-row table, one row high and 128 wide, lies inside it when w is below 50257. -/
theorem row_inside (w : BitVec 32) (hw : w.toNat < 50257) :
    ∀ a : Fin 2, (![w.toNat, 0] : Fin 2 → ℕ) a + T1x128.size a ≤ (Rows 50257).size a := by
  intro a
  match a with
  | ⟨0, _⟩ => show w.toNat + 1 ≤ 50257; omega
  | ⟨1, _⟩ => show 0 + 128 ≤ 128; omega

/-- A copy's source — the table's row named by the word loaded at position 8·t + r of the index table — reads at j
    what the table reads at (that word's column, j): the word is below 50257 because the row lies inside the table. -/
theorem gathered_read {F : FTy → Type} {κ' : Kind} {sp' : Space} (tv : View sg κ' sp' (⟨1, ![32768]⟩ : Shape) .i32) (hv : View sg κ sp (Rows 50257) e)
    (off1 : Fin 1 → ℕ) (inb1 : ∀ a, off1 a + T1.size a ≤ (⟨1, ![32768]⟩ : Shape).size a)
    (hf : 0 < (Rect.unit (s := (⟨1, ![32768]⟩ : Shape)) off1 T1.size inb1).toLoadRect.shape.numel)
    (xt : tv.ty.Contents (Elt F)) (t r : ℕ) (h10 : off1 0 = (8 * t + r) % 32768)
    (off2 : Fin 2 → ℕ) (inb2 : ∀ a, off2 a + T1x128.size a ≤ (Rows 50257).size a)
    (hq : T128.numel = (Rect.unit (s := Rows 50257) off2 T1x128.size inb2).shape.numel)
    (h20 : off2 0 = BitVec.toNat (tv.readAt (Elt F) (Rect.unit (s := (⟨1, ![32768]⟩ : Shape)) off1 T1.size inb1).toLoadRect xt (Shape.Idx.first hf)))
    (h21 : off2 1 = 0) (fh : hv.ty.Contents (Elt F)) (j : Fin 128) :
    View.read (Elt F) ((hv.slice (Rect.unit (s := Rows 50257) off2 T1x128.size inb2)).reshape T128 hq) fh (ix1 j)
      = hv.read (Elt F) fh (ix2 (Cert.Spec.colOf (tv.read (Elt F) xt (ix1 (⟨(8 * t + r) % 32768, Nat.mod_lt _ (by decide)⟩ : Fin 32768)))) j) := by
  rw [wordAt_read (M := 32768) tv off1 inb1 hf ⟨(8 * t + r) % 32768, Nat.mod_lt _ (by decide)⟩ h10 xt] at h20
  have hb : off2 0 + 1 ≤ 50257 := inb2 0
  refine rowView_read (N := 50257) hv off2 inb2 hq (Cert.Spec.colOf _) (h20.trans (Cert.Spec.colOf_val ?_).symm) h21 fh j
  show BitVec.toNat _ < 50257
  omega

end Cert.Emb

end
-- ==== Proof.Kernel.Rows0.lean ====
import proofs.«418142_j33036888441229_2_alg».proof.Proof.Kernel.Run0
import proofs.«418142_j33036888441229_2_alg».proof.Proof.RowsLib
import Idealize.ShloMosaic.Lib.ValueIdx
import Idealize.ShloMosaic.Lib.Pipeline.Value

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid0.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR0) (fh : MBuf (F := F) c hbM) (fs0 : MBuf (F := F) c scMR0) (h : OkR0 c i xt)

/-- The gathered tile: row r is what the r-th copy brings. -/
def gatherR0 : Vec F S8x128 .f32 :=
  rows8 (kernelRunR0.sl.dma1 c i xt fh h) (kernelRunR0.sl.dma2 c i xt fh h) (kernelRunR0.sl.dma3 c i xt fh h) (kernelRunR0.sl.dma4 c i xt fh h)
    (kernelRunR0.sl.dma5 c i xt fh h) (kernelRunR0.sl.dma6 c i xt fh h) (kernelRunR0.sl.dma7 c i xt fh h) (kernelRunR0.sl.dma8 c i xt fh h)

set_option maxHeartbeats 400000 in
/-- The tile as loaded after the eight copies is the gathered tile: the eight rows cover it, so its earlier contents do not matter. -/
theorem tileR0_eq : kernelRunR0.sl.v121 c i xt fh fs0 h = gatherR0 c i xt fh h := by
  unfold kernelRunR0.sl.v121 gatherR0
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR0.view _ _ _ _ _ _ _ _ squeezes_S1x128_S128.numel_eq fs0 _ _ _ _ _ _ _ _ r j

/-- The block stored: the gathered tile plus the bias row. -/
theorem outR0_eq : outR0 c i arg3 harg3 arg4 harg4 x0 xt fh fs0 h = k0_pay1 (gatherR0 c i xt fh h) x0 := by
  unfold outR0
  rw [View.read_writes_eq_canon _ _ _ (coverR0 c i arg3 harg3 arg4 harg4 x0 xt fh fs0 h)]
  unfold kernelRunR0
  dsimp only
  rw [View.canon_unit_zero (S := S8x128) zero2, tileR0_eq c i xt fh fs0 h,
    View.readAt_eq_ld, harg3.read_unread, View.ld_unit_zero (S := S1x128) zero2]

theorem outR0_indep (fs0' : MBuf (F := F) c scMR0) :
    outR0 c i arg3 harg3 arg4 harg4 x0 xt fh fs0 h = outR0 c i arg3 harg3 arg4 harg4 x0 xt fh fs0' h :=
  (outR0_eq c i arg3 harg3 arg4 harg4 x0 xt fh fs0 h).trans (outR0_eq c i arg3 harg3 arg4 harg4 x0 xt fh fs0' h).symm

end

end Cert.Kernel.Emb

end
-- ==== Proof.LibReadShares.lean ====
import Idealize.ShloMosaic.Lib.Transfers

noncomputable section

namespace Idealize.ShloMosaic.Transfers

open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {ℓ : Loc nD τ sig} {S : Finset (Idx ℓ)} {f : Buf Val ℓ}

/-- q after k halvings is q after k + 1 halvings beside the k-th half split off. -/
theorem pointsTo_drop_succ (q : PosShare TreeShare) (k : ℕ) :
    (ℓ ↦[S]{shareDrop q k} f : sProp 𝕄) ⊣⊢ iprop((ℓ ↦[S]{shareDrop q (k + 1)} f) ∗ ℓ ↦[S]{shareTokN q k} f) :=
  pointsTo_share (PosShare.mem_left_op_right _)

/-- Eight more halvings, split off one at a time. -/
theorem pointsTo_drop_eight_split (q : PosShare TreeShare) (b : ℕ) :
    (ℓ ↦[S]{shareDrop q b} f : sProp 𝕄)
      ⊢ iprop((ℓ ↦[S]{shareDrop q (b + 8)} f) ∗ (ℓ ↦[S]{shareTokN q b} f) ∗ (ℓ ↦[S]{shareTokN q (b + 1)} f) ∗ (ℓ ↦[S]{shareTokN q (b + 2)} f)
          ∗ (ℓ ↦[S]{shareTokN q (b + 3)} f) ∗ (ℓ ↦[S]{shareTokN q (b + 4)} f) ∗ (ℓ ↦[S]{shareTokN q (b + 5)} f) ∗ (ℓ ↦[S]{shareTokN q (b + 6)} f)
          ∗ (ℓ ↦[S]{shareTokN q (b + 7)} f)) := by
  iintro H
  ihave H := (pointsTo_drop_succ (S := S) (f := f) q b).1 $$ H
  icases H with ⟨H, T0⟩
  ihave H := (pointsTo_drop_succ (S := S) (f := f) q (b + 1)).1 $$ H
  icases H with ⟨H, T1⟩
  ihave H := (pointsTo_drop_succ (S := S) (f := f) q (b + 2)).1 $$ H
  icases H with ⟨H, T2⟩
  ihave H := (pointsTo_drop_succ (S := S) (f := f) q (b + 3)).1 $$ H
  icases H with ⟨H, T3⟩
  ihave H := (pointsTo_drop_succ (S := S) (f := f) q (b + 4)).1 $$ H
  icases H with ⟨H, T4⟩
  ihave H := (pointsTo_drop_succ (S := S) (f := f) q (b + 5)).1 $$ H
  icases H with ⟨H, T5⟩
  ihave H := (pointsTo_drop_succ (S := S) (f := f) q (b + 6)).1 $$ H
  icases H with ⟨H, T6⟩
  ihave H := (pointsTo_drop_succ (S := S) (f := f) q (b + 7)).1 $$ H
  icases H with ⟨H, T7⟩
  isplitl [H]; · iexact H
  isplitl [T0]; · iexact T0
  isplitl [T1]; · iexact T1
  isplitl [T2]; · iexact T2
  isplitl [T3]; · iexact T3
  isplitl [T4]; · iexact T4
  isplitl [T5]; · iexact T5
  isplitl [T6]; · iexact T6
  iexact T7

theorem pointsTo_drop_eight_join (q : PosShare TreeShare) (b : ℕ) :
    iprop((ℓ ↦[S]{shareDrop q (b + 8)} f) ∗ (ℓ ↦[S]{shareTokN q b} f) ∗ (ℓ ↦[S]{shareTokN q (b + 1)} f) ∗ (ℓ ↦[S]{shareTokN q (b + 2)} f)
          ∗ (ℓ ↦[S]{shareTokN q (b + 3)} f) ∗ (ℓ ↦[S]{shareTokN q (b + 4)} f) ∗ (ℓ ↦[S]{shareTokN q (b + 5)} f) ∗ (ℓ ↦[S]{shareTokN q (b + 6)} f)
          ∗ (ℓ ↦[S]{shareTokN q (b + 7)} f))
      ⊢ (ℓ ↦[S]{shareDrop q b} f : sProp 𝕄) := by
  iintro ⟨H, T0, T1, T2, T3, T4, T5, T6, T7⟩
  ihave H := (pointsTo_drop_succ (S := S) (f := f) q (b + 7)).2 $$ [H T7]
  · isplitl [H]; · iexact H
    iexact T7
  ihave H := (pointsTo_drop_succ (S := S) (f := f) q (b + 6)).2 $$ [H T6]
  · isplitl [H]; · iexact H
    iexact T6
  ihave H := (pointsTo_drop_succ (S := S) (f := f) q (b + 5)).2 $$ [H T5]
  · isplitl [H]; · iexact H
    iexact T5
  ihave H := (pointsTo_drop_succ (S := S) (f := f) q (b + 4)).2 $$ [H T4]
  · isplitl [H]; · iexact H
    iexact T4
  ihave H := (pointsTo_drop_succ (S := S) (f := f) q (b + 3)).2 $$ [H T3]
  · isplitl [H]; · iexact H
    iexact T3
  ihave H := (pointsTo_drop_succ (S := S) (f := f) q (b + 2)).2 $$ [H T2]
  · isplitl [H]; · iexact H
    iexact T2
  ihave H := (pointsTo_drop_succ (S := S) (f := f) q (b + 1)).2 $$ [H T1]
  · isplitl [H]; · iexact H
    iexact T1
  ihave H := (pointsTo_drop_succ (S := S) (f := f) q b).2 $$ [H T0]
  · isplitl [H]; · iexact H
    iexact T0
  iexact H

/-- q is its halves b … b + 7 beside a remainder: q after b + 8 halvings, and the halves below b. -/
theorem pointsTo_window_split (q : PosShare TreeShare) (b : ℕ) :
    (ℓ ↦[S]{q} f : sProp 𝕄)
      ⊢ iprop(((ℓ ↦[S]{shareDrop q (b + 8)} f) ∗ BI.bigSep (Finset.range b) (fun i => ℓ ↦[S]{shareTokN q i} f)) ∗ (ℓ ↦[S]{shareTokN q b} f) ∗ (ℓ ↦[S]{shareTokN q (b + 1)} f) ∗ (ℓ ↦[S]{shareTokN q (b + 2)} f) ∗ (ℓ ↦[S]{shareTokN q (b + 3)} f) ∗ (ℓ ↦[S]{shareTokN q (b + 4)} f) ∗ (ℓ ↦[S]{shareTokN q (b + 5)} f) ∗ (ℓ ↦[S]{shareTokN q (b + 6)} f) ∗ (ℓ ↦[S]{shareTokN q (b + 7)} f)) := by
  iintro H
  ihave H := (pointsTo_toks_range (S := S) (f := f) q b).1 $$ H
  icases H with ⟨H, Hlow⟩
  ihave H := (pointsTo_drop_eight_split (S := S) (f := f) q b) $$ H
  icases H with ⟨H, T0, T1, T2, T3, T4, T5, T6, T7⟩
  isplitl [H Hlow]
  · isplitl [H]; · iexact H
    iexact Hlow
  isplitl [T0]; · iexact T0
  isplitl [T1]; · iexact T1
  isplitl [T2]; · iexact T2
  isplitl [T3]; · iexact T3
  isplitl [T4]; · iexact T4
  isplitl [T5]; · iexact T5
  isplitl [T6]; · iexact T6
  iexact T7

theorem pointsTo_window_join (q : PosShare TreeShare) (b : ℕ) :
    iprop(((ℓ ↦[S]{shareDrop q (b + 8)} f) ∗ BI.bigSep (Finset.range b) (fun i => ℓ ↦[S]{shareTokN q i} f)) ∗ (ℓ ↦[S]{shareTokN q b} f) ∗ (ℓ ↦[S]{shareTokN q (b + 1)} f) ∗ (ℓ ↦[S]{shareTokN q (b + 2)} f) ∗ (ℓ ↦[S]{shareTokN q (b + 3)} f) ∗ (ℓ ↦[S]{shareTokN q (b + 4)} f) ∗ (ℓ ↦[S]{shareTokN q (b + 5)} f) ∗ (ℓ ↦[S]{shareTokN q (b + 6)} f) ∗ (ℓ ↦[S]{shareTokN q (b + 7)} f))
      ⊢ (ℓ ↦[S]{q} f : sProp 𝕄) := by
  iintro ⟨⟨H, Hlow⟩, T0, T1, T2, T3, T4, T5, T6, T7⟩
  ihave H := (pointsTo_drop_eight_join (S := S) (f := f) q b) $$ [H T0 T1 T2 T3 T4 T5 T6 T7]
  · isplitl [H]; · iexact H
    isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  iapply (pointsTo_toks_range (S := S) (f := f) q b).2
  isplitl [H]; · iexact H
  iexact Hlow

end Idealize.ShloMosaic.Transfers

end
-- ==== Proof.Kernel.Reg0.lean ====
import proofs.«418142_j33036888441229_2_alg».proof.Proof.Kernel.Rows0
import proofs.«418142_j33036888441229_2_alg».proof.Proof.LibReadShares

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR0 : pre0.Contents (Elt F) := fun j => V (0 : Dev nD) (pre0.ref j)
theorem V_preR0 (c : Dev nD) (j : Fin 1) : V c (pre0.ref j) = tblR0 V j := by
  obtain rfl : c = 0 := Subsingleton.elim _ _; rfl

abbrev admR0 : (pcfg0 (F := F)).Adm := ⟨tblR0 V, (ok0.eq_1 (tblR0 V)).mpr trivial⟩
abbrev cfgR0 : Pipeline.Cfg sig Λ₀ := cfg0 (admR0 V)

/-- At every point the eight token ids read are row numbers of the gather table. -/
def HypsR0 : Prop := ∀ (c : Dev nD) (t : Fin (cfgR0 V).N), OkR0 c (grid0.coords t) (tblR0 V 0)

/-- Window w's block at point t, read off its array as entered. -/
def iblkR0 (c : Dev nD) (w : Fin (cfgR0 V).W) (t : Fin (cfgR0 V).N) : (((cfgR0 V).win w).xblock ((cfgR0 V).grid.coords t)).Idx → Elt F ((cfgR0 V).win w).elt :=
  (((cfgR0 V).win w).blk t).view.read (Elt F) (V c (Pipeline.arrRef spec0 w))

theorem beforeR0_0_of {c : Dev nD} (dat : Dat τ (Elt F) Unit ℕ (Pipeline.UD sig nD τ) ℕ (cfgR0 V) c) (hA : dat.A 0 = V c (Pipeline.arrRef spec0 0))
    (hafter : ∀ t, dat.after 0 t = iblkR0 V c 0 t) (t : Fin (cfgR0 V).N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)

abbrev msR0_0 (t : Fin (cfgR0 V).N) : Memref sig .tc .vmem S1x128 .f32 := spec0_0.stage ((cfgR0 V).slots t 0)
abbrev hsR0_0 (t : Fin (cfgR0 V).N) : (msR0_0 V t).IsWhole := hstage0_0 (((cfgR0 V).slots t 0).cast nbuf0_0)
abbrev msR0_1 (t : Fin (cfgR0 V).N) : Memref sig .tc .vmem S8x128 .f32 := spec0_1.stage ((cfgR0 V).slots t 1)
abbrev hsR0_1 (t : Fin (cfgR0 V).N) : (msR0_1 V t).IsWhole := hstage0_1 (((cfgR0 V).slots t 1).cast nbuf0_1)

abbrev bodyAtR0 (t : Fin (cfgR0 V).N) : Prog (TpuEff nD τ sig (Elt F) Λ₀ .tc) PUnit :=
  cc0__embed_kernel (grid0.coords t) (Memref.whole main_v3) (Memref.isWhole_whole _) (Memref.whole main_v0) (Memref.isWhole_whole _)
    (spec0_0.stage ((cfgR0 V).slots t 0)) (hstage0_0 (((cfgR0 V).slots t 0).cast nbuf0_0))
    (spec0_1.stage ((cfgR0 V).slots t 1)) (hstage0_1 (((cfgR0 V).slots t 1).cast nbuf0_1))
    (Memref.whole cc0_scratch0) (Memref.isWhole_whole _) cc0_scratch1

def fsJR0 (c : Dev nD) : MBuf (F := F) c scMR0 := fun _ => Classical.arbitrary _

/-- What point t leaves in its output block. -/
def outsAtR0 (hH : HypsR0 V) (c : Dev nD) (t : Fin (cfgR0 V).N) : Vec F S8x128 .f32 :=
  outR0 c (grid0.coords t) (msR0_0 V t) (hsR0_0 V t) (msR0_1 V t) (hsR0_1 V t) (iblkR0 V c 0 t) (tblR0 V 0) (V c main_v0) (fsJR0 c) (hH c t)

abbrev osemR0 : Fin 8 → SemLoc sig := fun j => (![SemLoc.dma 3, SemLoc.dma 4, SemLoc.dma 5, SemLoc.dma 6, SemLoc.dma 7, SemLoc.dma 8, SemLoc.dma 9, SemLoc.dma 10] : Fin 8 → SemLoc sig) j
theorem ownSemFactsR0 : Pipeline.OwnSemFacts spec0 osemR0 := by decide
theorem ownSemsR0_eq (c : Dev nD) :
    (Pipeline.ownSems0 (Ix := Unit) (Name := ℕ) (U := Pipeline.UD sig nD τ) (Lvl := ℕ) (Val := Elt F) (τ := τ) osemR0 c : sProp 𝕄)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osemR0 [0, 1, 2, 3, 4, 5, 6, 7] (by decide) (by decide)]; rfl

def HR0 : Finset (Ref sig .tc) := {main_v0}
theorem HR0_sub : HR0 ⊆ Pipeline.restRefsP sig pre0 spec0 := by decide
theorem hbmPtsR0_eq (c : Dev nD) :
    (bigSep HR0 (fun b => ((c : Thread nD τ).loc b) ↦{fullShare} V c b) : sProp 𝕄) = iprop(mPt c hbM (V c main_v0)) := by
  rw [BI.bigSep_eq_bigSepL_of_eq [main_v0] (by decide) (by decide)]; rfl
theorem prefR0_eq (c : Dev nD) :
    (Pipeline.prefHeld (Ix := Unit) (Name := ℕ) (U := Pipeline.UD sig nD τ) (Lvl := ℕ) pre0 c (fun _ => fullShare) (tblR0 V) : sProp 𝕄) = iprop(mPt c tbMR0 (tblR0 V 0)) := by
  unfold Pipeline.prefHeld
  rw [show (Finset.univ : Finset (Fin 1)) = {(0 : Fin 1)} from by decide, bigSep_singleton]
  rfl

abbrev PhiR0 (c : Dev nD) : sProp 𝕄 :=
  iprop(Pipeline.ΦD osemR0 spec0 HR0 V c ∗ Pipeline.prefHeld (Ix := Unit) (Name := ℕ) (U := Pipeline.UD sig nD τ) (Lvl := ℕ) pre0 c (fun _ => fullShare) (tblR0 V))

theorem PhiR0_eq (c : Dev nD) :
    (PhiR0 V c : sProp 𝕄)
      = iprop(iprop(iprop((∃ d, owns (c : Thread nD τ) scMR0 fullShare d) ∗ Pipeline.scopedRestBut (Ix := Unit) (Name := ℕ) (U := Pipeline.UD sig nD τ) (Lvl := ℕ) (Val := Elt F) spec0 c [cc0_scratch0])
          ∗ (∃ r, prngReg c r) ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(mPt c hbM (V c main_v0))) ∗ iprop(mPt c tbMR0 (tblR0 V 0))) := by
  unfold PhiR0
  rw [Pipeline.ΦD_eq, scopedRest0_split, ownSemsR0_eq, hbmPtsR0_eq, prefR0_eq]; simp only [scMR0, owns_whole]; try rfl

def datR0 (hH : HypsR0 V) (c : Dev nD) : Dat τ (Elt F) Unit ℕ (Pipeline.UD sig nD τ) ℕ (cfgR0 V) c where
  A w := V c (Pipeline.arrRef spec0 w)
  after w t := match w with
    | ⟨0, _⟩ => iblkR0 V c 0 t
    | ⟨1, _⟩ => outsAtR0 V hH c t
  Φ _ := PhiR0 V c
  q _ := fullShare
  owed _ := 0

theorem A_eqR0 (hH : HypsR0 V) (c : Dev nD) (w : Fin (cfgR0 V).W) : (datR0 V hH c).A w = V c (Pipeline.arrRef spec0 w) := by
  dsimp only [datR0]
theorem afterR0_0 (hH : HypsR0 V) (c : Dev nD) (t : Fin (cfgR0 V).N) : (datR0 V hH c).after 0 t = iblkR0 V c 0 t := by dsimp only [datR0]; try rfl
theorem afterR0_1 (hH : HypsR0 V) (c : Dev nD) (t : Fin (cfgR0 V).N) : (datR0 V hH c).after 1 t = outsAtR0 V hH c t := by dsimp only [datR0]; try rfl
theorem beforeR0_0 (hH : HypsR0 V) (c : Dev nD) (t : Fin (cfgR0 V).N) (d) : (datR0 V hH c).before 0 t d = iblkR0 V c 0 t :=
  beforeR0_0_of V (datR0 V hH c) (A_eqR0 V hH c 0) (afterR0_0 V hH c) t d

abbrev remR0 (c : Dev nD) (f : MBuf (F := F) c hbM) : sProp 𝕄 :=
  iprop((hbM.view.loc (c : Thread nD τ) ↦{Transfers.shareDrop fullShare (3 + 8)} f)
    ∗ BI.bigSep (Finset.range 3) (fun i => hbM.view.loc (c : Thread nD τ) ↦{Transfers.shareTokN fullShare i} f))

theorem tok_splitR0 (c : Dev nD) (f : MBuf (F := F) c hbM) :
    (mPt c hbM f : sProp 𝕄) ⊢ iprop(remR0 c f ∗ tokPt c hbM 3 f ∗ tokPt c hbM 4 f ∗ tokPt c hbM 5 f ∗ tokPt c hbM 6 f ∗ tokPt c hbM 7 f ∗ tokPt c hbM 8 f ∗ tokPt c hbM 9 f ∗ tokPt c hbM 10 f) :=
  Transfers.pointsTo_window_split (Ix := Unit) (Name := ℕ) (U := Pipeline.UD sig nD τ) (Lvl := ℕ) fullShare 3

theorem tok_joinR0 (c : Dev nD) (f : MBuf (F := F) c hbM) :
    iprop(remR0 c f ∗ tokPt c hbM 3 f ∗ tokPt c hbM 4 f ∗ tokPt c hbM 5 f ∗ tokPt c hbM 6 f ∗ tokPt c hbM 7 f ∗ tokPt c hbM 8 f ∗ tokPt c hbM 9 f ∗ tokPt c hbM 10 f) ⊢ (mPt c hbM f : sProp 𝕄) :=
  Transfers.pointsTo_window_join (Ix := Unit) (Name := ℕ) (U := Pipeline.UD sig nD τ) (Lvl := ℕ) fullShare 3

def bodyPreR0 (hH : HypsR0 V) (c : Dev nD) (t : Fin (cfgR0 V).N) : sProp 𝕄 :=
  iprop((datR0 V hH c).Φ t.castSucc ∗ (datR0 V hH c).owesAt () t.castSucc
    ∗ (∃ d, owns (c : Thread nD τ) (msR0_0 V t) fullShare ((datR0 V hH c).before 0 t d))
    ∗ (∃ d, owns (c : Thread nD τ) (msR0_1 V t) fullShare ((datR0 V hH c).before 1 t d)))

def bodyPostR0 (hH : HypsR0 V) (c : Dev nD) (t : Fin (cfgR0 V).N) : sProp 𝕄 :=
  iprop((datR0 V hH c).Φ t.succ ∗ (datR0 V hH c).owesAt () t.succ
    ∗ owns (c : Thread nD τ) (msR0_0 V t) fullShare ((datR0 V hH c).after 0 t)
    ∗ owns (c : Thread nD τ) (msR0_1 V t) fullShare ((datR0 V hH c).after 1 t))

set_option maxHeartbeats 2000000 in
/-- The body at any point leaves the output block at `outsAtR0`, whatever the scratch tile held before. -/
theorem sound_bodyR0 (hH : HypsR0 V) (c : Dev nD) (t : Fin (cfgR0 V).N) :
    bodyPreR0 V hH c t ⊢ wp frame (wpE (defs₀ (F := F)) Variants.none c none) Set.univ (bodyAtR0 V t) (fun _ => bodyPostR0 V hH c t) := by
  unfold bodyPreR0 bodyPostR0 bodyAtR0
  simp only [beforeR0_0]
  rw [show (datR0 V hH c).Φ t.succ = (datR0 V hH c).Φ t.castSucc from rfl, afterR0_0, afterR0_1]
  rw [show (datR0 V hH c).Φ t.castSucc = PhiR0 V c from rfl, PhiR0_eq]
  unfold Dat.owesAt Pipeline.owesWithin
  rw [show (datR0 V hH c).owed t.castSucc = 0 from rfl, show (datR0 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR0) $$ HS0
  icases HS0 with ⟨%fs0, HS0⟩
  ihave Hh := (tok_splitR0 c (V c main_v0)) $$ Hh
  icases Hh with ⟨Hhr, Hh0, Hh1, Hh2, Hh3, Hh4, Hh5, Hh6, Hh7⟩
  iapply ((kernelRunR0 c (grid0.coords t) (msR0_0 V t) (hsR0_0 V t) (msR0_1 V t) (hsR0_1 V t) (iblkR0 V c 0 t) (tblR0 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR0 c (V c main_v0)) $$ [Hhr Hh0 Hh1 Hh2 Hh3 Hh4 Hh5 Hh6 Hh7]
  · iframe
  ihave HS0 := (scr_close c scMR0) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR0
  rw [← outR0_indep c (grid0.coords t) (msR0_0 V t) (hsR0_0 V t) (msR0_1 V t) (hsR0_1 V t) (iblkR0 V c 0 t) (tblR0 V 0) (V c main_v0) fs0 (hH c t) (fsJR0 c)]
  unfold outR0
  exact View.read_writes_of_cover _ _ _ _ _ (coverR0 c (grid0.coords t) (msR0_0 V t) (hsR0_0 V t) (msR0_1 V t) (hsR0_1 V t) (iblkR0 V c 0 t) (tblR0 V 0) (V c main_v0) fs0 (hH c t))

theorem body_obligationR0 (hH : HypsR0 V) (c : Dev nD) :
    BodyObligation (datR0 (F := F) V hH c) (defs₀ (F := F)) Variants.none () Set.univ := fun t => by
  rw [bigSep_W0, bigSep_W0]
  exact sound_bodyR0 V hH c t

end Region

end Cert.Kernel.Emb

end
-- ==== Proof.Kernel.Hyp0.lean ====
import proofs.«418142_j33036888441229_2_alg».proof.Proof.Kernel.Reg0

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR0 (V : (c : Dev nD) → (b : Ref sig .tc) → Buf (Elt F) ((c : Thread nD τ).loc b))
    (h : ∀ p : S32768.Idx, BitVec.toNat (tbMR0.view.read (Elt F) (tblR0 V 0) p) < 50257) : HypsR0 V := by
  intro c t
  have r : ∀ (lr : LoadRect S32768) (i : lr.shape.Idx) (a : Fin 2),
      (![BitVec.toNat (tbMR0.view.readAt (Elt F) lr (tblR0 V 0) i), 0] : Fin 2 → ℕ) a + S1x128.size a ≤ S50257x128.size a :=
    fun lr i => row_inside _ (h (lr.idx i))
  unfold OkR0 k0_chk1 k0_chk2 k0_chk3 k0_chk4 k0_chk5 k0_chk6 k0_chk7 k0_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.Kernel.Emb

end
-- ==== Proof.Kernel.Run1.lean ====
import proofs.«418142_j33036888441229_2_alg».proof.Proof.Kernel.Common

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR1 : Memref sig .tc .smem S32768 .i32 := Memref.whole main_v5
abbrev htbMR1 : tbMR1.IsWhole := Memref.isWhole_whole _
abbrev scMR1 : Memref sig .tc .vmem S8x128 .f32 := Memref.whole cc1_scratch0
abbrev hscMR1 : scMR1.IsWhole := Memref.isWhole_whole _

section
variable (c : Dev nD) (i : grid1.Coords) (xt : MBuf (F := F) c tbMR1)

/-- The word of the index table at offsets `off`. -/
abbrev wordR1 (off : Fin 1 → ℕ) (inb : ∀ a, off a + S1.size a ≤ S32768.size a) : Elt F .i32 :=
  tbMR1.view.readAt (Elt F) (Rect.unit (s := S32768) off S1.size inb).toLoadRect xt (Shape.Idx.first (numel1_S1.symm ▸ Nat.one_pos))

/-- Each of the eight token ids the point at `i` reads is a row number of the gather table. -/
def OkR1 : Prop :=
  k1_chk1 (wordR1 c xt (k1_off1 i) (k1_off1_inb i)) ∧ k1_chk2 (wordR1 c xt (k1_off3 i) (k1_off3_inb i)) ∧ k1_chk3 (wordR1 c xt (k1_off5 i) (k1_off5_inb i)) ∧ k1_chk4 (wordR1 c xt (k1_off7 i) (k1_off7_inb i)) ∧ k1_chk5 (wordR1 c xt (k1_off9 i) (k1_off9_inb i)) ∧ k1_chk6 (wordR1 c xt (k1_off11 i) (k1_off11_inb i)) ∧ k1_chk7 (wordR1 c xt (k1_off13 i) (k1_off13_inb i)) ∧ k1_chk8 (wordR1 c xt (k1_off15 i) (k1_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR1 (c : Dev nD) (i : grid1.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR1) (fh : MBuf (F := F) c hbM) (fs0 : MBuf (F := F) c scMR1)
    (h : OkR1 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR1 fs0
            ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0
            ∗ tokPt c hbM 14 fh ∗ tokPt c hbM 15 fh ∗ tokPt c hbM 16 fh ∗ tokPt c hbM 17 fh ∗ tokPt c hbM 18 fh ∗ tokPt c hbM 19 fh ∗ tokPt c hbM 20 fh ∗ tokPt c hbM 21 fh ∗ mPt c tbMR1 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR1 f)
                ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0
                ∗ tokPt c hbM 14 fh ∗ tokPt c hbM 15 fh ∗ tokPt c hbM 16 fh ∗ tokPt c hbM 17 fh ∗ tokPt c hbM 18 fh ∗ tokPt c hbM 19 fh ∗ tokPt c hbM 20 fh ∗ tokPt c hbM 21 fh ∗ mPt c tbMR1 xt ∗ (∃ W', owes (c : Thread nD τ) 0 W')) -∗ K ⟨⟩))
          ⊢ wp frame (wpE (defs₀ (F := F)) Variants.none c none) Set.univ (cc1__embed_kernel i tbMR1 htbMR1 hbM hhbM arg3 harg3 arg4 harg4 scMR1 hscMR1 cc1_scratch1) K } := by
  refine ⟨?_, fun W K => ?run⟩
  case run =>
    simp only [cc1__embed_kernel_eq_skeleton]; unfold cc1__embed_kernel_skel
    simp only [k1_part1_eq_skeleton, k1_part2_eq_skeleton, k1_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid1.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR1) (fh : MBuf (F := F) c hbM) (fs0 : MBuf (F := F) c scMR1) (h : OkR1 c i xt)

/-- The run's one piece is a store of the whole 8 × 128 block. -/
theorem coverR1 (y : S8x128.Idx) : ∃ pc ∈ (kernelRunR1 c i arg3 harg3 arg4 harg4 x0 xt fh fs0 h).1, y ∈ pc.1.set :=
  View.cover_of_tiledL (kernelRunR1 c i arg3 harg3 arg4 harg4 x0 xt fh fs0 h).1 S8x128.size (by sl_kernel_rfl) y

abbrev VOR1 : View sig .tc .vmem S8x128 .f32 := (Memref.whole cc1_stg1_0 : Memref sig .tc .vmem S8x128 .f32).view

/-- What the run leaves in the output block: its pieces read back. -/
def outR1 : Vec F S8x128 .f32 :=
  VOR1.read (Elt F) (VOR1.writes (Elt F) VOR1.junk (kernelRunR1 c i arg3 harg3 arg4 harg4 x0 xt fh fs0 h).1)

end

end Cert.Kernel.Emb

end
-- ==== Proof.Kernel.Rows1.lean ====
import proofs.«418142_j33036888441229_2_alg».proof.Proof.Kernel.Run1
import proofs.«418142_j33036888441229_2_alg».proof.Proof.RowsLib
import Idealize.ShloMosaic.Lib.ValueIdx
import Idealize.ShloMosaic.Lib.Pipeline.Value

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid1.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR1) (fh : MBuf (F := F) c hbM) (fs0 : MBuf (F := F) c scMR1) (h : OkR1 c i xt)

/-- The gathered tile: row r is what the r-th copy brings. -/
def gatherR1 : Vec F S8x128 .f32 :=
  rows8 (kernelRunR1.sl.dma1 c i xt fh h) (kernelRunR1.sl.dma2 c i xt fh h) (kernelRunR1.sl.dma3 c i xt fh h) (kernelRunR1.sl.dma4 c i xt fh h)
    (kernelRunR1.sl.dma5 c i xt fh h) (kernelRunR1.sl.dma6 c i xt fh h) (kernelRunR1.sl.dma7 c i xt fh h) (kernelRunR1.sl.dma8 c i xt fh h)

set_option maxHeartbeats 400000 in
/-- The tile as loaded after the eight copies is the gathered tile: the eight rows cover it, so its earlier contents do not matter. -/
theorem tileR1_eq : kernelRunR1.sl.v121 c i xt fh fs0 h = gatherR1 c i xt fh h := by
  unfold kernelRunR1.sl.v121 gatherR1
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR1.view _ _ _ _ _ _ _ _ squeezes_S1x128_S128.numel_eq fs0 _ _ _ _ _ _ _ _ r j

/-- The block stored: the gathered tile plus the bias row. -/
theorem outR1_eq : outR1 c i arg3 harg3 arg4 harg4 x0 xt fh fs0 h = k1_pay1 (gatherR1 c i xt fh h) x0 := by
  unfold outR1
  rw [View.read_writes_eq_canon _ _ _ (coverR1 c i arg3 harg3 arg4 harg4 x0 xt fh fs0 h)]
  unfold kernelRunR1
  dsimp only
  rw [View.canon_unit_zero (S := S8x128) zero2, tileR1_eq c i xt fh fs0 h,
    View.readAt_eq_ld, harg3.read_unread, View.ld_unit_zero (S := S1x128) zero2]

theorem outR1_indep (fs0' : MBuf (F := F) c scMR1) :
    outR1 c i arg3 harg3 arg4 harg4 x0 xt fh fs0 h = outR1 c i arg3 harg3 arg4 harg4 x0 xt fh fs0' h :=
  (outR1_eq c i arg3 harg3 arg4 harg4 x0 xt fh fs0 h).trans (outR1_eq c i arg3 harg3 arg4 harg4 x0 xt fh fs0' h).symm

end

end Cert.Kernel.Emb

end
-- ==== Proof.Kernel.Reg1.lean ====
import proofs.«418142_j33036888441229_2_alg».proof.Proof.Kernel.Rows1
import proofs.«418142_j33036888441229_2_alg».proof.Proof.LibReadShares

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR1 : pre1.Contents (Elt F) := fun j => V (0 : Dev nD) (pre1.ref j)
theorem V_preR1 (c : Dev nD) (j : Fin 1) : V c (pre1.ref j) = tblR1 V j := by
  obtain rfl : c = 0 := Subsingleton.elim _ _; rfl

abbrev admR1 : (pcfg1 (F := F)).Adm := ⟨tblR1 V, (ok1.eq_1 (tblR1 V)).mpr trivial⟩
abbrev cfgR1 : Pipeline.Cfg sig Λ₀ := cfg1 (admR1 V)

/-- At every point the eight token ids read are row numbers of the gather table. -/
def HypsR1 : Prop := ∀ (c : Dev nD) (t : Fin (cfgR1 V).N), OkR1 c (grid1.coords t) (tblR1 V 0)

/-- Window w's block at point t, read off its array as entered. -/
def iblkR1 (c : Dev nD) (w : Fin (cfgR1 V).W) (t : Fin (cfgR1 V).N) : (((cfgR1 V).win w).xblock ((cfgR1 V).grid.coords t)).Idx → Elt F ((cfgR1 V).win w).elt :=
  (((cfgR1 V).win w).blk t).view.read (Elt F) (V c (Pipeline.arrRef spec1 w))

theorem beforeR1_0_of {c : Dev nD} (dat : Dat τ (Elt F) Unit ℕ (Pipeline.UD sig nD τ) ℕ (cfgR1 V) c) (hA : dat.A 0 = V c (Pipeline.arrRef spec1 0))
    (hafter : ∀ t, dat.after 0 t = iblkR1 V c 0 t) (t : Fin (cfgR1 V).N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)

abbrev msR1_0 (t : Fin (cfgR1 V).N) : Memref sig .tc .vmem S1x128 .f32 := spec1_0.stage ((cfgR1 V).slots t 0)
abbrev hsR1_0 (t : Fin (cfgR1 V).N) : (msR1_0 V t).IsWhole := hstage1_0 (((cfgR1 V).slots t 0).cast nbuf1_0)
abbrev msR1_1 (t : Fin (cfgR1 V).N) : Memref sig .tc .vmem S8x128 .f32 := spec1_1.stage ((cfgR1 V).slots t 1)
abbrev hsR1_1 (t : Fin (cfgR1 V).N) : (msR1_1 V t).IsWhole := hstage1_1 (((cfgR1 V).slots t 1).cast nbuf1_1)

abbrev bodyAtR1 (t : Fin (cfgR1 V).N) : Prog (TpuEff nD τ sig (Elt F) Λ₀ .tc) PUnit :=
  cc1__embed_kernel (grid1.coords t) (Memref.whole main_v5) (Memref.isWhole_whole _) (Memref.whole main_v0) (Memref.isWhole_whole _)
    (spec1_0.stage ((cfgR1 V).slots t 0)) (hstage1_0 (((cfgR1 V).slots t 0).cast nbuf1_0))
    (spec1_1.stage ((cfgR1 V).slots t 1)) (hstage1_1 (((cfgR1 V).slots t 1).cast nbuf1_1))
    (Memref.whole cc1_scratch0) (Memref.isWhole_whole _) cc1_scratch1

def fsJR1 (c : Dev nD) : MBuf (F := F) c scMR1 := fun _ => Classical.arbitrary _

/-- What point t leaves in its output block. -/
def outsAtR1 (hH : HypsR1 V) (c : Dev nD) (t : Fin (cfgR1 V).N) : Vec F S8x128 .f32 :=
  outR1 c (grid1.coords t) (msR1_0 V t) (hsR1_0 V t) (msR1_1 V t) (hsR1_1 V t) (iblkR1 V c 0 t) (tblR1 V 0) (V c main_v0) (fsJR1 c) (hH c t)

abbrev osemR1 : Fin 8 → SemLoc sig := fun j => (![SemLoc.dma 14, SemLoc.dma 15, SemLoc.dma 16, SemLoc.dma 17, SemLoc.dma 18, SemLoc.dma 19, SemLoc.dma 20, SemLoc.dma 21] : Fin 8 → SemLoc sig) j
theorem ownSemFactsR1 : Pipeline.OwnSemFacts spec1 osemR1 := by decide
theorem ownSemsR1_eq (c : Dev nD) :
    (Pipeline.ownSems0 (Ix := Unit) (Name := ℕ) (U := Pipeline.UD sig nD τ) (Lvl := ℕ) (Val := Elt F) (τ := τ) osemR1 c : sProp 𝕄)
      = iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osemR1 [0, 1, 2, 3, 4, 5, 6, 7] (by decide) (by decide)]; rfl

def HR1 : Finset (Ref sig .tc) := {main_v0}
theorem HR1_sub : HR1 ⊆ Pipeline.restRefsP sig pre1 spec1 := by decide
theorem hbmPtsR1_eq (c : Dev nD) :
    (bigSep HR1 (fun b => ((c : Thread nD τ).loc b) ↦{fullShare} V c b) : sProp 𝕄) = iprop(mPt c hbM (V c main_v0)) := by
  rw [BI.bigSep_eq_bigSepL_of_eq [main_v0] (by decide) (by decide)]; rfl
theorem prefR1_eq (c : Dev nD) :
    (Pipeline.prefHeld (Ix := Unit) (Name := ℕ) (U := Pipeline.UD sig nD τ) (Lvl := ℕ) pre1 c (fun _ => fullShare) (tblR1 V) : sProp 𝕄) = iprop(mPt c tbMR1 (tblR1 V 0)) := by
  unfold Pipeline.prefHeld
  rw [show (Finset.univ : Finset (Fin 1)) = {(0 : Fin 1)} from by decide, bigSep_singleton]
  rfl

abbrev PhiR1 (c : Dev nD) : sProp 𝕄 :=
  iprop(Pipeline.ΦD osemR1 spec1 HR1 V c ∗ Pipeline.prefHeld (Ix := Unit) (Name := ℕ) (U := Pipeline.UD sig nD τ) (Lvl := ℕ) pre1 c (fun _ => fullShare) (tblR1 V))

theorem PhiR1_eq (c : Dev nD) :
    (PhiR1 V c : sProp 𝕄)
      = iprop(iprop(iprop((∃ d, owns (c : Thread nD τ) scMR1 fullShare d) ∗ Pipeline.scopedRestBut (Ix := Unit) (Name := ℕ) (U := Pipeline.UD sig nD τ) (Lvl := ℕ) (Val := Elt F) spec1 c [cc1_scratch0])
          ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(mPt c hbM (V c main_v0))) ∗ iprop(mPt c tbMR1 (tblR1 V 0))) := by
  unfold PhiR1
  rw [Pipeline.ΦD_eq, scopedRest1_split, ownSemsR1_eq, hbmPtsR1_eq, prefR1_eq]; simp only [scMR1, owns_whole]; try rfl

def datR1 (hH : HypsR1 V) (c : Dev nD) : Dat τ (Elt F) Unit ℕ (Pipeline.UD sig nD τ) ℕ (cfgR1 V) c where
  A w := V c (Pipeline.arrRef spec1 w)
  after w t := match w with
    | ⟨0, _⟩ => iblkR1 V c 0 t
    | ⟨1, _⟩ => outsAtR1 V hH c t
  Φ _ := PhiR1 V c
  q _ := fullShare
  owed _ := 0

theorem A_eqR1 (hH : HypsR1 V) (c : Dev nD) (w : Fin (cfgR1 V).W) : (datR1 V hH c).A w = V c (Pipeline.arrRef spec1 w) := by
  dsimp only [datR1]
theorem afterR1_0 (hH : HypsR1 V) (c : Dev nD) (t : Fin (cfgR1 V).N) : (datR1 V hH c).after 0 t = iblkR1 V c 0 t := by dsimp only [datR1]; try rfl
theorem afterR1_1 (hH : HypsR1 V) (c : Dev nD) (t : Fin (cfgR1 V).N) : (datR1 V hH c).after 1 t = outsAtR1 V hH c t := by dsimp only [datR1]; try rfl
theorem beforeR1_0 (hH : HypsR1 V) (c : Dev nD) (t : Fin (cfgR1 V).N) (d) : (datR1 V hH c).before 0 t d = iblkR1 V c 0 t :=
  beforeR1_0_of V (datR1 V hH c) (A_eqR1 V hH c 0) (afterR1_0 V hH c) t d

abbrev remR1 (c : Dev nD) (f : MBuf (F := F) c hbM) : sProp 𝕄 :=
  iprop((hbM.view.loc (c : Thread nD τ) ↦{Transfers.shareDrop fullShare (14 + 8)} f)
    ∗ BI.bigSep (Finset.range 14) (fun i => hbM.view.loc (c : Thread nD τ) ↦{Transfers.shareTokN fullShare i} f))

theorem tok_splitR1 (c : Dev nD) (f : MBuf (F := F) c hbM) :
    (mPt c hbM f : sProp 𝕄) ⊢ iprop(remR1 c f ∗ tokPt c hbM 14 f ∗ tokPt c hbM 15 f ∗ tokPt c hbM 16 f ∗ tokPt c hbM 17 f ∗ tokPt c hbM 18 f ∗ tokPt c hbM 19 f ∗ tokPt c hbM 20 f ∗ tokPt c hbM 21 f) :=
  Transfers.pointsTo_window_split (Ix := Unit) (Name := ℕ) (U := Pipeline.UD sig nD τ) (Lvl := ℕ) fullShare 14

theorem tok_joinR1 (c : Dev nD) (f : MBuf (F := F) c hbM) :
    iprop(remR1 c f ∗ tokPt c hbM 14 f ∗ tokPt c hbM 15 f ∗ tokPt c hbM 16 f ∗ tokPt c hbM 17 f ∗ tokPt c hbM 18 f ∗ tokPt c hbM 19 f ∗ tokPt c hbM 20 f ∗ tokPt c hbM 21 f) ⊢ (mPt c hbM f : sProp 𝕄) :=
  Transfers.pointsTo_window_join (Ix := Unit) (Name := ℕ) (U := Pipeline.UD sig nD τ) (Lvl := ℕ) fullShare 14

def bodyPreR1 (hH : HypsR1 V) (c : Dev nD) (t : Fin (cfgR1 V).N) : sProp 𝕄 :=
  iprop((datR1 V hH c).Φ t.castSucc ∗ (datR1 V hH c).owesAt () t.castSucc
    ∗ (∃ d, owns (c : Thread nD τ) (msR1_0 V t) fullShare ((datR1 V hH c).before 0 t d))
    ∗ (∃ d, owns (c : Thread nD τ) (msR1_1 V t) fullShare ((datR1 V hH c).before 1 t d)))

def bodyPostR1 (hH : HypsR1 V) (c : Dev nD) (t : Fin (cfgR1 V).N) : sProp 𝕄 :=
  iprop((datR1 V hH c).Φ t.succ ∗ (datR1 V hH c).owesAt () t.succ
    ∗ owns (c : Thread nD τ) (msR1_0 V t) fullShare ((datR1 V hH c).after 0 t)
    ∗ owns (c : Thread nD τ) (msR1_1 V t) fullShare ((datR1 V hH c).after 1 t))

set_option maxHeartbeats 2000000 in
/-- The body at any point leaves the output block at `outsAtR1`, whatever the scratch tile held before. -/
theorem sound_bodyR1 (hH : HypsR1 V) (c : Dev nD) (t : Fin (cfgR1 V).N) :
    bodyPreR1 V hH c t ⊢ wp frame (wpE (defs₀ (F := F)) Variants.none c none) Set.univ (bodyAtR1 V t) (fun _ => bodyPostR1 V hH c t) := by
  unfold bodyPreR1 bodyPostR1 bodyAtR1
  simp only [beforeR1_0]
  rw [show (datR1 V hH c).Φ t.succ = (datR1 V hH c).Φ t.castSucc from rfl, afterR1_0, afterR1_1]
  rw [show (datR1 V hH c).Φ t.castSucc = PhiR1 V c from rfl, PhiR1_eq]
  unfold Dat.owesAt Pipeline.owesWithin
  rw [show (datR1 V hH c).owed t.castSucc = 0 from rfl, show (datR1 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR1) $$ HS0
  icases HS0 with ⟨%fs0, HS0⟩
  ihave Hh := (tok_splitR1 c (V c main_v0)) $$ Hh
  icases Hh with ⟨Hhr, Hh0, Hh1, Hh2, Hh3, Hh4, Hh5, Hh6, Hh7⟩
  iapply ((kernelRunR1 c (grid1.coords t) (msR1_0 V t) (hsR1_0 V t) (msR1_1 V t) (hsR1_1 V t) (iblkR1 V c 0 t) (tblR1 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR1 c (V c main_v0)) $$ [Hhr Hh0 Hh1 Hh2 Hh3 Hh4 Hh5 Hh6 Hh7]
  · iframe
  ihave HS0 := (scr_close c scMR1) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR1
  rw [← outR1_indep c (grid1.coords t) (msR1_0 V t) (hsR1_0 V t) (msR1_1 V t) (hsR1_1 V t) (iblkR1 V c 0 t) (tblR1 V 0) (V c main_v0) fs0 (hH c t) (fsJR1 c)]
  unfold outR1
  exact View.read_writes_of_cover _ _ _ _ _ (coverR1 c (grid1.coords t) (msR1_0 V t) (hsR1_0 V t) (msR1_1 V t) (hsR1_1 V t) (iblkR1 V c 0 t) (tblR1 V 0) (V c main_v0) fs0 (hH c t))

theorem body_obligationR1 (hH : HypsR1 V) (c : Dev nD) :
    BodyObligation (datR1 (F := F) V hH c) (defs₀ (F := F)) Variants.none () Set.univ := fun t => by
  rw [bigSep_W1, bigSep_W1]
  exact sound_bodyR1 V hH c t

end Region

end Cert.Kernel.Emb

end
-- ==== Proof.Kernel.Hyp1.lean ====
import proofs.«418142_j33036888441229_2_alg».proof.Proof.Kernel.Reg1

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR1 (V : (c : Dev nD) → (b : Ref sig .tc) → Buf (Elt F) ((c : Thread nD τ).loc b))
    (h : ∀ p : S32768.Idx, BitVec.toNat (tbMR1.view.read (Elt F) (tblR1 V 0) p) < 50257) : HypsR1 V := by
  intro c t
  have r : ∀ (lr : LoadRect S32768) (i : lr.shape.Idx) (a : Fin 2),
      (![BitVec.toNat (tbMR1.view.readAt (Elt F) lr (tblR1 V 0) i), 0] : Fin 2 → ℕ) a + S1x128.size a ≤ S50257x128.size a :=
    fun lr i => row_inside _ (h (lr.idx i))
  unfold OkR1 k1_chk1 k1_chk2 k1_chk3 k1_chk4 k1_chk5 k1_chk6 k1_chk7 k1_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.Kernel.Emb

end
-- ==== Proof.Kernel.Run2.lean ====
import proofs.«418142_j33036888441229_2_alg».proof.Proof.Kernel.Common

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR2 : Memref sig .tc .smem S32768 .i32 := Memref.whole main_v7
abbrev htbMR2 : tbMR2.IsWhole := Memref.isWhole_whole _
abbrev scMR2 : Memref sig .tc .vmem S8x128 .f32 := Memref.whole cc2_scratch0
abbrev hscMR2 : scMR2.IsWhole := Memref.isWhole_whole _

section
variable (c : Dev nD) (i : grid2.Coords) (xt : MBuf (F := F) c tbMR2)

/-- The word of the index table at offsets `off`. -/
abbrev wordR2 (off : Fin 1 → ℕ) (inb : ∀ a, off a + S1.size a ≤ S32768.size a) : Elt F .i32 :=
  tbMR2.view.readAt (Elt F) (Rect.unit (s := S32768) off S1.size inb).toLoadRect xt (Shape.Idx.first (numel1_S1.symm ▸ Nat.one_pos))

/-- Each of the eight token ids the point at `i` reads is a row number of the gather table. -/
def OkR2 : Prop :=
  k2_chk1 (wordR2 c xt (k2_off1 i) (k2_off1_inb i)) ∧ k2_chk2 (wordR2 c xt (k2_off3 i) (k2_off3_inb i)) ∧ k2_chk3 (wordR2 c xt (k2_off5 i) (k2_off5_inb i)) ∧ k2_chk4 (wordR2 c xt (k2_off7 i) (k2_off7_inb i)) ∧ k2_chk5 (wordR2 c xt (k2_off9 i) (k2_off9_inb i)) ∧ k2_chk6 (wordR2 c xt (k2_off11 i) (k2_off11_inb i)) ∧ k2_chk7 (wordR2 c xt (k2_off13 i) (k2_off13_inb i)) ∧ k2_chk8 (wordR2 c xt (k2_off15 i) (k2_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR2 (c : Dev nD) (i : grid2.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR2) (fh : MBuf (F := F) c hbM) (fs0 : MBuf (F := F) c scMR2)
    (h : OkR2 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR2 fs0
            ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0
            ∗ tokPt c hbM 25 fh ∗ tokPt c hbM 26 fh ∗ tokPt c hbM 27 fh ∗ tokPt c hbM 28 fh ∗ tokPt c hbM 29 fh ∗ tokPt c hbM 30 fh ∗ tokPt c hbM 31 fh ∗ tokPt c hbM 32 fh ∗ mPt c tbMR2 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR2 f)
                ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0
                ∗ tokPt c hbM 25 fh ∗ tokPt c hbM 26 fh ∗ tokPt c hbM 27 fh ∗ tokPt c hbM 28 fh ∗ tokPt c hbM 29 fh ∗ tokPt c hbM 30 fh ∗ tokPt c hbM 31 fh ∗ tokPt c hbM 32 fh ∗ mPt c tbMR2 xt ∗ (∃ W', owes (c : Thread nD τ) 0 W')) -∗ K ⟨⟩))
          ⊢ wp frame (wpE (defs₀ (F := F)) Variants.none c none) Set.univ (cc2__embed_kernel i tbMR2 htbMR2 hbM hhbM arg3 harg3 arg4 harg4 scMR2 hscMR2 cc2_scratch1) K } := by
  refine ⟨?_, fun W K => ?run⟩
  case run =>
    simp only [cc2__embed_kernel_eq_skeleton]; unfold cc2__embed_kernel_skel
    simp only [k2_part1_eq_skeleton, k2_part2_eq_skeleton, k2_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid2.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR2) (fh : MBuf (F := F) c hbM) (fs0 : MBuf (F := F) c scMR2) (h : OkR2 c i xt)

/-- The run's one piece is a store of the whole 8 × 128 block. -/
theorem coverR2 (y : S8x128.Idx) : ∃ pc ∈ (kernelRunR2 c i arg3 harg3 arg4 harg4 x0 xt fh fs0 h).1, y ∈ pc.1.set :=
  View.cover_of_tiledL (kernelRunR2 c i arg3 harg3 arg4 harg4 x0 xt fh fs0 h).1 S8x128.size (by sl_kernel_rfl) y

abbrev VOR2 : View sig .tc .vmem S8x128 .f32 := (Memref.whole cc2_stg1_0 : Memref sig .tc .vmem S8x128 .f32).view

/-- What the run leaves in the output block: its pieces read back. -/
def outR2 : Vec F S8x128 .f32 :=
  VOR2.read (Elt F) (VOR2.writes (Elt F) VOR2.junk (kernelRunR2 c i arg3 harg3 arg4 harg4 x0 xt fh fs0 h).1)

end

end Cert.Kernel.Emb

end
-- ==== Proof.Kernel.Rows2.lean ====
import proofs.«418142_j33036888441229_2_alg».proof.Proof.Kernel.Run2
import proofs.«418142_j33036888441229_2_alg».proof.Proof.RowsLib
import Idealize.ShloMosaic.Lib.ValueIdx
import Idealize.ShloMosaic.Lib.Pipeline.Value

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid2.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR2) (fh : MBuf (F := F) c hbM) (fs0 : MBuf (F := F) c scMR2) (h : OkR2 c i xt)

/-- The gathered tile: row r is what the r-th copy brings. -/
def gatherR2 : Vec F S8x128 .f32 :=
  rows8 (kernelRunR2.sl.dma1 c i xt fh h) (kernelRunR2.sl.dma2 c i xt fh h) (kernelRunR2.sl.dma3 c i xt fh h) (kernelRunR2.sl.dma4 c i xt fh h)
    (kernelRunR2.sl.dma5 c i xt fh h) (kernelRunR2.sl.dma6 c i xt fh h) (kernelRunR2.sl.dma7 c i xt fh h) (kernelRunR2.sl.dma8 c i xt fh h)

set_option maxHeartbeats 400000 in
/-- The tile as loaded after the eight copies is the gathered tile: the eight rows cover it, so its earlier contents do not matter. -/
theorem tileR2_eq : kernelRunR2.sl.v121 c i xt fh fs0 h = gatherR2 c i xt fh h := by
  unfold kernelRunR2.sl.v121 gatherR2
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR2.view _ _ _ _ _ _ _ _ squeezes_S1x128_S128.numel_eq fs0 _ _ _ _ _ _ _ _ r j

/-- The block stored: the gathered tile plus the bias row. -/
theorem outR2_eq : outR2 c i arg3 harg3 arg4 harg4 x0 xt fh fs0 h = k2_pay1 (gatherR2 c i xt fh h) x0 := by
  unfold outR2
  rw [View.read_writes_eq_canon _ _ _ (coverR2 c i arg3 harg3 arg4 harg4 x0 xt fh fs0 h)]
  unfold kernelRunR2
  dsimp only
  rw [View.canon_unit_zero (S := S8x128) zero2, tileR2_eq c i xt fh fs0 h,
    View.readAt_eq_ld, harg3.read_unread, View.ld_unit_zero (S := S1x128) zero2]

theorem outR2_indep (fs0' : MBuf (F := F) c scMR2) :
    outR2 c i arg3 harg3 arg4 harg4 x0 xt fh fs0 h = outR2 c i arg3 harg3 arg4 harg4 x0 xt fh fs0' h :=
  (outR2_eq c i arg3 harg3 arg4 harg4 x0 xt fh fs0 h).trans (outR2_eq c i arg3 harg3 arg4 harg4 x0 xt fh fs0' h).symm

end

end Cert.Kernel.Emb

end
-- ==== Proof.Kernel.Reg2.lean ====
import proofs.«418142_j33036888441229_2_alg».proof.Proof.Kernel.Rows2
import proofs.«418142_j33036888441229_2_alg».proof.Proof.LibReadShares

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR2 : pre2.Contents (Elt F) := fun j => V (0 : Dev nD) (pre2.ref j)
theorem V_preR2 (c : Dev nD) (j : Fin 1) : V c (pre2.ref j) = tblR2 V j := by
  obtain rfl : c = 0 := Subsingleton.elim _ _; rfl

abbrev admR2 : (pcfg2 (F := F)).Adm := ⟨tblR2 V, (ok2.eq_1 (tblR2 V)).mpr trivial⟩
abbrev cfgR2 : Pipeline.Cfg sig Λ₀ := cfg2 (admR2 V)

/-- At every point the eight token ids read are row numbers of the gather table. -/
def HypsR2 : Prop := ∀ (c : Dev nD) (t : Fin (cfgR2 V).N), OkR2 c (grid2.coords t) (tblR2 V 0)

/-- Window w's block at point t, read off its array as entered. -/
def iblkR2 (c : Dev nD) (w : Fin (cfgR2 V).W) (t : Fin (cfgR2 V).N) : (((cfgR2 V).win w).xblock ((cfgR2 V).grid.coords t)).Idx → Elt F ((cfgR2 V).win w).elt :=
  (((cfgR2 V).win w).blk t).view.read (Elt F) (V c (Pipeline.arrRef spec2 w))

theorem beforeR2_0_of {c : Dev nD} (dat : Dat τ (Elt F) Unit ℕ (Pipeline.UD sig nD τ) ℕ (cfgR2 V) c) (hA : dat.A 0 = V c (Pipeline.arrRef spec2 0))
    (hafter : ∀ t, dat.after 0 t = iblkR2 V c 0 t) (t : Fin (cfgR2 V).N) (d) : dat.before 0 t d = iblkR2 V c 0 t :=
  (dat.before_in_eq_fetched 0 rfl (fun _ => rfl) (fun _ _ _ => rfl) (fun t => by rw [hafter]; unfold Dat.blockOf iblkR2; rw [hA]; try rfl) t d).trans
    (by unfold Dat.fetched Dat.blockOf iblkR2; rw [hA]; try rfl)

abbrev msR2_0 (t : Fin (cfgR2 V).N) : Memref sig .tc .vmem S1x128 .f32 := spec2_0.stage ((cfgR2 V).slots t 0)
abbrev hsR2_0 (t : Fin (cfgR2 V).N) : (msR2_0 V t).IsWhole := hstage2_0 (((cfgR2 V).slots t 0).cast nbuf2_0)
abbrev msR2_1 (t : Fin (cfgR2 V).N) : Memref sig .tc .vmem S8x128 .f32 := spec2_1.stage ((cfgR2 V).slots t 1)
abbrev hsR2_1 (t : Fin (cfgR2 V).N) : (msR2_1 V t).IsWhole := hstage2_1 (((cfgR2 V).slots t 1).cast nbuf2_1)

abbrev bodyAtR2 (t : Fin (cfgR2 V).N) : Prog (TpuEff nD τ sig (Elt F) Λ₀ .tc) PUnit :=
  cc2__embed_kernel (grid2.coords t) (Memref.whole main_v7) (Memref.isWhole_whole _) (Memref.whole main_v0) (Memref.isWhole_whole _)
    (spec2_0.stage ((cfgR2 V).slots t 0)) (hstage2_0 (((cfgR2 V).slots t 0).cast nbuf2_0))
    (spec2_1.stage ((cfgR2 V).slots t 1)) (hstage2_1 (((cfgR2 V).slots t 1).cast nbuf2_1))
    (Memref.whole cc2_scratch0) (Memref.isWhole_whole _) cc2_scratch1

def fsJR2 (c : Dev nD) : MBuf (F := F) c scMR2 := fun _ => Classical.arbitrary _

/-- What point t leaves in its output block. -/
def outsAtR2 (hH : HypsR2 V) (c : Dev nD) (t : Fin (cfgR2 V).N) : Vec F S8x128 .f32 :=
  outR2 c (grid2.coords t) (msR2_0 V t) (hsR2_0 V t) (msR2_1 V t) (hsR2_1 V t) (iblkR2 V c 0 t) (tblR2 V 0) (V c main_v0) (fsJR2 c) (hH c t)

abbrev osemR2 : Fin 8 → SemLoc sig := fun j => (![SemLoc.dma 25, SemLoc.dma 26, SemLoc.dma 27, SemLoc.dma 28, SemLoc.dma 29, SemLoc.dma 30, SemLoc.dma 31, SemLoc.dma 32] : Fin 8 → SemLoc sig) j
theorem ownSemFactsR2 : Pipeline.OwnSemFacts spec2 osemR2 := by decide
theorem ownSemsR2_eq (c : Dev nD) :
    (Pipeline.ownSems0 (Ix := Unit) (Name := ℕ) (U := Pipeline.UD sig nD τ) (Lvl := ℕ) (Val := Elt F) (τ := τ) osemR2 c : sProp 𝕄)
      = iprop(semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) := by
  rw [Pipeline.ownSems0_eq_of_list c osemR2 [0, 1, 2, 3, 4, 5, 6, 7] (by decide) (by decide)]; rfl

def HR2 : Finset (Ref sig .tc) := {main_v0}
theorem HR2_sub : HR2 ⊆ Pipeline.restRefsP sig pre2 spec2 := by decide
theorem hbmPtsR2_eq (c : Dev nD) :
    (bigSep HR2 (fun b => ((c : Thread nD τ).loc b) ↦{fullShare} V c b) : sProp 𝕄) = iprop(mPt c hbM (V c main_v0)) := by
  rw [BI.bigSep_eq_bigSepL_of_eq [main_v0] (by decide) (by decide)]; rfl
theorem prefR2_eq (c : Dev nD) :
    (Pipeline.prefHeld (Ix := Unit) (Name := ℕ) (U := Pipeline.UD sig nD τ) (Lvl := ℕ) pre2 c (fun _ => fullShare) (tblR2 V) : sProp 𝕄) = iprop(mPt c tbMR2 (tblR2 V 0)) := by
  unfold Pipeline.prefHeld
  rw [show (Finset.univ : Finset (Fin 1)) = {(0 : Fin 1)} from by decide, bigSep_singleton]
  rfl

abbrev PhiR2 (c : Dev nD) : sProp 𝕄 :=
  iprop(Pipeline.ΦD osemR2 spec2 HR2 V c ∗ Pipeline.prefHeld (Ix := Unit) (Name := ℕ) (U := Pipeline.UD sig nD τ) (Lvl := ℕ) pre2 c (fun _ => fullShare) (tblR2 V))

theorem PhiR2_eq (c : Dev nD) :
    (PhiR2 V c : sProp 𝕄)
      = iprop(iprop(iprop((∃ d, owns (c : Thread nD τ) scMR2 fullShare d) ∗ Pipeline.scopedRestBut (Ix := Unit) (Name := ℕ) (U := Pipeline.UD sig nD τ) (Lvl := ℕ) (Val := Elt F) spec2 c [cc2_scratch0])
          ∗ (∃ r, prngReg c r) ∗ iprop(semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(mPt c hbM (V c main_v0))) ∗ iprop(mPt c tbMR2 (tblR2 V 0))) := by
  unfold PhiR2
  rw [Pipeline.ΦD_eq, scopedRest2_split, ownSemsR2_eq, hbmPtsR2_eq, prefR2_eq]; simp only [scMR2, owns_whole]; try rfl

def datR2 (hH : HypsR2 V) (c : Dev nD) : Dat τ (Elt F) Unit ℕ (Pipeline.UD sig nD τ) ℕ (cfgR2 V) c where
  A w := V c (Pipeline.arrRef spec2 w)
  after w t := match w with
    | ⟨0, _⟩ => iblkR2 V c 0 t
    | ⟨1, _⟩ => outsAtR2 V hH c t
  Φ _ := PhiR2 V c
  q _ := fullShare
  owed _ := 0

theorem A_eqR2 (hH : HypsR2 V) (c : Dev nD) (w : Fin (cfgR2 V).W) : (datR2 V hH c).A w = V c (Pipeline.arrRef spec2 w) := by
  dsimp only [datR2]
theorem afterR2_0 (hH : HypsR2 V) (c : Dev nD) (t : Fin (cfgR2 V).N) : (datR2 V hH c).after 0 t = iblkR2 V c 0 t := by dsimp only [datR2]; try rfl
theorem afterR2_1 (hH : HypsR2 V) (c : Dev nD) (t : Fin (cfgR2 V).N) : (datR2 V hH c).after 1 t = outsAtR2 V hH c t := by dsimp only [datR2]; try rfl
theorem beforeR2_0 (hH : HypsR2 V) (c : Dev nD) (t : Fin (cfgR2 V).N) (d) : (datR2 V hH c).before 0 t d = iblkR2 V c 0 t :=
  beforeR2_0_of V (datR2 V hH c) (A_eqR2 V hH c 0) (afterR2_0 V hH c) t d

abbrev remR2 (c : Dev nD) (f : MBuf (F := F) c hbM) : sProp 𝕄 :=
  iprop((hbM.view.loc (c : Thread nD τ) ↦{Transfers.shareDrop fullShare (25 + 8)} f)
    ∗ BI.bigSep (Finset.range 25) (fun i => hbM.view.loc (c : Thread nD τ) ↦{Transfers.shareTokN fullShare i} f))

theorem tok_splitR2 (c : Dev nD) (f : MBuf (F := F) c hbM) :
    (mPt c hbM f : sProp 𝕄) ⊢ iprop(remR2 c f ∗ tokPt c hbM 25 f ∗ tokPt c hbM 26 f ∗ tokPt c hbM 27 f ∗ tokPt c hbM 28 f ∗ tokPt c hbM 29 f ∗ tokPt c hbM 30 f ∗ tokPt c hbM 31 f ∗ tokPt c hbM 32 f) :=
  Transfers.pointsTo_window_split (Ix := Unit) (Name := ℕ) (U := Pipeline.UD sig nD τ) (Lvl := ℕ) fullShare 25

theorem tok_joinR2 (c : Dev nD) (f : MBuf (F := F) c hbM) :
    iprop(remR2 c f ∗ tokPt c hbM 25 f ∗ tokPt c hbM 26 f ∗ tokPt c hbM 27 f ∗ tokPt c hbM 28 f ∗ tokPt c hbM 29 f ∗ tokPt c hbM 30 f ∗ tokPt c hbM 31 f ∗ tokPt c hbM 32 f) ⊢ (mPt c hbM f : sProp 𝕄) :=
  Transfers.pointsTo_window_join (Ix := Unit) (Name := ℕ) (U := Pipeline.UD sig nD τ) (Lvl := ℕ) fullShare 25

def bodyPreR2 (hH : HypsR2 V) (c : Dev nD) (t : Fin (cfgR2 V).N) : sProp 𝕄 :=
  iprop((datR2 V hH c).Φ t.castSucc ∗ (datR2 V hH c).owesAt () t.castSucc
    ∗ (∃ d, owns (c : Thread nD τ) (msR2_0 V t) fullShare ((datR2 V hH c).before 0 t d))
    ∗ (∃ d, owns (c : Thread nD τ) (msR2_1 V t) fullShare ((datR2 V hH c).before 1 t d)))

def bodyPostR2 (hH : HypsR2 V) (c : Dev nD) (t : Fin (cfgR2 V).N) : sProp 𝕄 :=
  iprop((datR2 V hH c).Φ t.succ ∗ (datR2 V hH c).owesAt () t.succ
    ∗ owns (c : Thread nD τ) (msR2_0 V t) fullShare ((datR2 V hH c).after 0 t)
    ∗ owns (c : Thread nD τ) (msR2_1 V t) fullShare ((datR2 V hH c).after 1 t))

set_option maxHeartbeats 2000000 in
/-- The body at any point leaves the output block at `outsAtR2`, whatever the scratch tile held before. -/
theorem sound_bodyR2 (hH : HypsR2 V) (c : Dev nD) (t : Fin (cfgR2 V).N) :
    bodyPreR2 V hH c t ⊢ wp frame (wpE (defs₀ (F := F)) Variants.none c none) Set.univ (bodyAtR2 V t) (fun _ => bodyPostR2 V hH c t) := by
  unfold bodyPreR2 bodyPostR2 bodyAtR2
  simp only [beforeR2_0]
  rw [show (datR2 V hH c).Φ t.succ = (datR2 V hH c).Φ t.castSucc from rfl, afterR2_0, afterR2_1]
  rw [show (datR2 V hH c).Φ t.castSucc = PhiR2 V c from rfl, PhiR2_eq]
  unfold Dat.owesAt Pipeline.owesWithin
  rw [show (datR2 V hH c).owed t.castSucc = 0 from rfl, show (datR2 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR2) $$ HS0
  icases HS0 with ⟨%fs0, HS0⟩
  ihave Hh := (tok_splitR2 c (V c main_v0)) $$ Hh
  icases Hh with ⟨Hhr, Hh0, Hh1, Hh2, Hh3, Hh4, Hh5, Hh6, Hh7⟩
  iapply ((kernelRunR2 c (grid2.coords t) (msR2_0 V t) (hsR2_0 V t) (msR2_1 V t) (hsR2_1 V t) (iblkR2 V c 0 t) (tblR2 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR2 c (V c main_v0)) $$ [Hhr Hh0 Hh1 Hh2 Hh3 Hh4 Hh5 Hh6 Hh7]
  · iframe
  ihave HS0 := (scr_close c scMR2) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR2
  rw [← outR2_indep c (grid2.coords t) (msR2_0 V t) (hsR2_0 V t) (msR2_1 V t) (hsR2_1 V t) (iblkR2 V c 0 t) (tblR2 V 0) (V c main_v0) fs0 (hH c t) (fsJR2 c)]
  unfold outR2
  exact View.read_writes_of_cover _ _ _ _ _ (coverR2 c (grid2.coords t) (msR2_0 V t) (hsR2_0 V t) (msR2_1 V t) (hsR2_1 V t) (iblkR2 V c 0 t) (tblR2 V 0) (V c main_v0) fs0 (hH c t))

theorem body_obligationR2 (hH : HypsR2 V) (c : Dev nD) :
    BodyObligation (datR2 (F := F) V hH c) (defs₀ (F := F)) Variants.none () Set.univ := fun t => by
  rw [bigSep_W2, bigSep_W2]
  exact sound_bodyR2 V hH c t

end Region

end Cert.Kernel.Emb

end
-- ==== Proof.Kernel.Hyp2.lean ====
import proofs.«418142_j33036888441229_2_alg».proof.Proof.Kernel.Reg2

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR2 (V : (c : Dev nD) → (b : Ref sig .tc) → Buf (Elt F) ((c : Thread nD τ).loc b))
    (h : ∀ p : S32768.Idx, BitVec.toNat (tbMR2.view.read (Elt F) (tblR2 V 0) p) < 50257) : HypsR2 V := by
  intro c t
  have r : ∀ (lr : LoadRect S32768) (i : lr.shape.Idx) (a : Fin 2),
      (![BitVec.toNat (tbMR2.view.readAt (Elt F) lr (tblR2 V 0) i), 0] : Fin 2 → ℕ) a + S1x128.size a ≤ S50257x128.size a :=
    fun lr i => row_inside _ (h (lr.idx i))
  unfold OkR2 k2_chk1 k2_chk2 k2_chk3 k2_chk4 k2_chk5 k2_chk6 k2_chk7 k2_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.Kernel.Emb

end
-- ==== Proof.Kernel.Run3.lean ====
import proofs.«418142_j33036888441229_2_alg».proof.Proof.Kernel.Common

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR3 : Memref sig .tc .smem S32768 .i32 := Memref.whole main_v9
abbrev htbMR3 : tbMR3.IsWhole := Memref.isWhole_whole _
abbrev scMR3 : Memref sig .tc .vmem S8x128 .f32 := Memref.whole cc3_scratch0
abbrev hscMR3 : scMR3.IsWhole := Memref.isWhole_whole _

section
variable (c : Dev nD) (i : grid3.Coords) (xt : MBuf (F := F) c tbMR3)

/-- The word of the index table at offsets `off`. -/
abbrev wordR3 (off : Fin 1 → ℕ) (inb : ∀ a, off a + S1.size a ≤ S32768.size a) : Elt F .i32 :=
  tbMR3.view.readAt (Elt F) (Rect.unit (s := S32768) off S1.size inb).toLoadRect xt (Shape.Idx.first (numel1_S1.symm ▸ Nat.one_pos))

/-- Each of the eight token ids the point at `i` reads is a row number of the gather table. -/
def OkR3 : Prop :=
  k3_chk1 (wordR3 c xt (k3_off1 i) (k3_off1_inb i)) ∧ k3_chk2 (wordR3 c xt (k3_off3 i) (k3_off3_inb i)) ∧ k3_chk3 (wordR3 c xt (k3_off5 i) (k3_off5_inb i)) ∧ k3_chk4 (wordR3 c xt (k3_off7 i) (k3_off7_inb i)) ∧ k3_chk5 (wordR3 c xt (k3_off9 i) (k3_off9_inb i)) ∧ k3_chk6 (wordR3 c xt (k3_off11 i) (k3_off11_inb i)) ∧ k3_chk7 (wordR3 c xt (k3_off13 i) (k3_off13_inb i)) ∧ k3_chk8 (wordR3 c xt (k3_off15 i) (k3_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR3 (c : Dev nD) (i : grid3.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR3) (fh : MBuf (F := F) c hbM) (fs0 : MBuf (F := F) c scMR3)
    (h : OkR3 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR3 fs0
            ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0
            ∗ tokPt c hbM 36 fh ∗ tokPt c hbM 37 fh ∗ tokPt c hbM 38 fh ∗ tokPt c hbM 39 fh ∗ tokPt c hbM 40 fh ∗ tokPt c hbM 41 fh ∗ tokPt c hbM 42 fh ∗ tokPt c hbM 43 fh ∗ mPt c tbMR3 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR3 f)
                ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0
                ∗ tokPt c hbM 36 fh ∗ tokPt c hbM 37 fh ∗ tokPt c hbM 38 fh ∗ tokPt c hbM 39 fh ∗ tokPt c hbM 40 fh ∗ tokPt c hbM 41 fh ∗ tokPt c hbM 42 fh ∗ tokPt c hbM 43 fh ∗ mPt c tbMR3 xt ∗ (∃ W', owes (c : Thread nD τ) 0 W')) -∗ K ⟨⟩))
          ⊢ wp frame (wpE (defs₀ (F := F)) Variants.none c none) Set.univ (cc3__embed_kernel i tbMR3 htbMR3 hbM hhbM arg3 harg3 arg4 harg4 scMR3 hscMR3 cc3_scratch1) K } := by
  refine ⟨?_, fun W K => ?run⟩
  case run =>
    simp only [cc3__embed_kernel_eq_skeleton]; unfold cc3__embed_kernel_skel
    simp only [k3_part1_eq_skeleton, k3_part2_eq_skeleton, k3_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid3.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR3) (fh : MBuf (F := F) c hbM) (fs0 : MBuf (F := F) c scMR3) (h : OkR3 c i xt)

/-- The run's one piece is a store of the whole 8 × 128 block. -/
theorem coverR3 (y : S8x128.Idx) : ∃ pc ∈ (kernelRunR3 c i arg3 harg3 arg4 harg4 x0 xt fh fs0 h).1, y ∈ pc.1.set :=
  View.cover_of_tiledL (kernelRunR3 c i arg3 harg3 arg4 harg4 x0 xt fh fs0 h).1 S8x128.size (by sl_kernel_rfl) y

abbrev VOR3 : View sig .tc .vmem S8x128 .f32 := (Memref.whole cc3_stg1_0 : Memref sig .tc .vmem S8x128 .f32).view

/-- What the run leaves in the output block: its pieces read back. -/
def outR3 : Vec F S8x128 .f32 :=
  VOR3.read (Elt F) (VOR3.writes (Elt F) VOR3.junk (kernelRunR3 c i arg3 harg3 arg4 harg4 x0 xt fh fs0 h).1)

end

end Cert.Kernel.Emb

end
-- ==== Proof.Kernel.Rows3.lean ====
import proofs.«418142_j33036888441229_2_alg».proof.Proof.Kernel.Run3
import proofs.«418142_j33036888441229_2_alg».proof.Proof.RowsLib
import Idealize.ShloMosaic.Lib.ValueIdx
import Idealize.ShloMosaic.Lib.Pipeline.Value

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid3.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR3) (fh : MBuf (F := F) c hbM) (fs0 : MBuf (F := F) c scMR3) (h : OkR3 c i xt)

/-- The gathered tile: row r is what the r-th copy brings. -/
def gatherR3 : Vec F S8x128 .f32 :=
  rows8 (kernelRunR3.sl.dma1 c i xt fh h) (kernelRunR3.sl.dma2 c i xt fh h) (kernelRunR3.sl.dma3 c i xt fh h) (kernelRunR3.sl.dma4 c i xt fh h)
    (kernelRunR3.sl.dma5 c i xt fh h) (kernelRunR3.sl.dma6 c i xt fh h) (kernelRunR3.sl.dma7 c i xt fh h) (kernelRunR3.sl.dma8 c i xt fh h)

set_option maxHeartbeats 400000 in
/-- The tile as loaded after the eight copies is the gathered tile: the eight rows cover it, so its earlier contents do not matter. -/
theorem tileR3_eq : kernelRunR3.sl.v121 c i xt fh fs0 h = gatherR3 c i xt fh h := by
  unfold kernelRunR3.sl.v121 gatherR3
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR3.view _ _ _ _ _ _ _ _ squeezes_S1x128_S128.numel_eq fs0 _ _ _ _ _ _ _ _ r j

/-- The block stored: the gathered tile plus the bias row. -/
theorem outR3_eq : outR3 c i arg3 harg3 arg4 harg4 x0 xt fh fs0 h = k3_pay1 (gatherR3 c i xt fh h) x0 := by
  unfold outR3
  rw [View.read_writes_eq_canon _ _ _ (coverR3 c i arg3 harg3 arg4 harg4 x0 xt fh fs0 h)]
  unfold kernelRunR3
  dsimp only
  rw [View.canon_unit_zero (S := S8x128) zero2, tileR3_eq c i xt fh fs0 h,
    View.readAt_eq_ld, harg3.read_unread, View.ld_unit_zero (S := S1x128) zero2]

theorem outR3_indep (fs0' : MBuf (F := F) c scMR3) :
    outR3 c i arg3 harg3 arg4 harg4 x0 xt fh fs0 h = outR3 c i arg3 harg3 arg4 harg4 x0 xt fh fs0' h :=
  (outR3_eq c i arg3 harg3 arg4 harg4 x0 xt fh fs0 h).trans (outR3_eq c i arg3 harg3 arg4 harg4 x0 xt fh fs0' h).symm

end

end Cert.Kernel.Emb

end
-- ==== Proof.Kernel.Reg3.lean ====
import proofs.«418142_j33036888441229_2_alg».proof.Proof.Kernel.Rows3
import proofs.«418142_j33036888441229_2_alg».proof.Proof.LibReadShares

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR3 : pre3.Contents (Elt F) := fun j => V (0 : Dev nD) (pre3.ref j)
theorem V_preR3 (c : Dev nD) (j : Fin 1) : V c (pre3.ref j) = tblR3 V j := by
  obtain rfl : c = 0 := Subsingleton.elim _ _; rfl

abbrev admR3 : (pcfg3 (F := F)).Adm := ⟨tblR3 V, (ok3.eq_1 (tblR3 V)).mpr trivial⟩
abbrev cfgR3 : Pipeline.Cfg sig Λ₀ := cfg3 (admR3 V)

/-- At every point the eight token ids read are row numbers of the gather table. -/
def HypsR3 : Prop := ∀ (c : Dev nD) (t : Fin (cfgR3 V).N), OkR3 c (grid3.coords t) (tblR3 V 0)

/-- Window w's block at point t, read off its array as entered. -/
def iblkR3 (c : Dev nD) (w : Fin (cfgR3 V).W) (t : Fin (cfgR3 V).N) : (((cfgR3 V).win w).xblock ((cfgR3 V).grid.coords t)).Idx → Elt F ((cfgR3 V).win w).elt :=
  (((cfgR3 V).win w).blk t).view.read (Elt F) (V c (Pipeline.arrRef spec3 w))

theorem beforeR3_0_of {c : Dev nD} (dat : Dat τ (Elt F) Unit ℕ (Pipeline.UD sig nD τ) ℕ (cfgR3 V) c) (hA : dat.A 0 = V c (Pipeline.arrRef spec3 0))
    (hafter : ∀ t, dat.after 0 t = iblkR3 V c 0 t) (t : Fin (cfgR3 V).N) (d) : dat.before 0 t d = iblkR3 V c 0 t :=
  (dat.before_in_eq_fetched 0 rfl (fun _ => rfl) (fun _ _ _ => rfl) (fun t => by rw [hafter]; unfold Dat.blockOf iblkR3; rw [hA]; try rfl) t d).trans
    (by unfold Dat.fetched Dat.blockOf iblkR3; rw [hA]; try rfl)

abbrev msR3_0 (t : Fin (cfgR3 V).N) : Memref sig .tc .vmem S1x128 .f32 := spec3_0.stage ((cfgR3 V).slots t 0)
abbrev hsR3_0 (t : Fin (cfgR3 V).N) : (msR3_0 V t).IsWhole := hstage3_0 (((cfgR3 V).slots t 0).cast nbuf3_0)
abbrev msR3_1 (t : Fin (cfgR3 V).N) : Memref sig .tc .vmem S8x128 .f32 := spec3_1.stage ((cfgR3 V).slots t 1)
abbrev hsR3_1 (t : Fin (cfgR3 V).N) : (msR3_1 V t).IsWhole := hstage3_1 (((cfgR3 V).slots t 1).cast nbuf3_1)

abbrev bodyAtR3 (t : Fin (cfgR3 V).N) : Prog (TpuEff nD τ sig (Elt F) Λ₀ .tc) PUnit :=
  cc3__embed_kernel (grid3.coords t) (Memref.whole main_v9) (Memref.isWhole_whole _) (Memref.whole main_v0) (Memref.isWhole_whole _)
    (spec3_0.stage ((cfgR3 V).slots t 0)) (hstage3_0 (((cfgR3 V).slots t 0).cast nbuf3_0))
    (spec3_1.stage ((cfgR3 V).slots t 1)) (hstage3_1 (((cfgR3 V).slots t 1).cast nbuf3_1))
    (Memref.whole cc3_scratch0) (Memref.isWhole_whole _) cc3_scratch1

def fsJR3 (c : Dev nD) : MBuf (F := F) c scMR3 := fun _ => Classical.arbitrary _

/-- What point t leaves in its output block. -/
def outsAtR3 (hH : HypsR3 V) (c : Dev nD) (t : Fin (cfgR3 V).N) : Vec F S8x128 .f32 :=
  outR3 c (grid3.coords t) (msR3_0 V t) (hsR3_0 V t) (msR3_1 V t) (hsR3_1 V t) (iblkR3 V c 0 t) (tblR3 V 0) (V c main_v0) (fsJR3 c) (hH c t)

abbrev osemR3 : Fin 8 → SemLoc sig := fun j => (![SemLoc.dma 36, SemLoc.dma 37, SemLoc.dma 38, SemLoc.dma 39, SemLoc.dma 40, SemLoc.dma 41, SemLoc.dma 42, SemLoc.dma 43] : Fin 8 → SemLoc sig) j
theorem ownSemFactsR3 : Pipeline.OwnSemFacts spec3 osemR3 := by decide
theorem ownSemsR3_eq (c : Dev nD) :
    (Pipeline.ownSems0 (Ix := Unit) (Name := ℕ) (U := Pipeline.UD sig nD τ) (Lvl := ℕ) (Val := Elt F) (τ := τ) osemR3 c : sProp 𝕄)
      = iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0) := by
  rw [Pipeline.ownSems0_eq_of_list c osemR3 [0, 1, 2, 3, 4, 5, 6, 7] (by decide) (by decide)]; rfl

def HR3 : Finset (Ref sig .tc) := {main_v0}
theorem HR3_sub : HR3 ⊆ Pipeline.restRefsP sig pre3 spec3 := by decide
theorem hbmPtsR3_eq (c : Dev nD) :
    (bigSep HR3 (fun b => ((c : Thread nD τ).loc b) ↦{fullShare} V c b) : sProp 𝕄) = iprop(mPt c hbM (V c main_v0)) := by
  rw [BI.bigSep_eq_bigSepL_of_eq [main_v0] (by decide) (by decide)]; rfl
theorem prefR3_eq (c : Dev nD) :
    (Pipeline.prefHeld (Ix := Unit) (Name := ℕ) (U := Pipeline.UD sig nD τ) (Lvl := ℕ) pre3 c (fun _ => fullShare) (tblR3 V) : sProp 𝕄) = iprop(mPt c tbMR3 (tblR3 V 0)) := by
  unfold Pipeline.prefHeld
  rw [show (Finset.univ : Finset (Fin 1)) = {(0 : Fin 1)} from by decide, bigSep_singleton]
  rfl

abbrev PhiR3 (c : Dev nD) : sProp 𝕄 :=
  iprop(Pipeline.ΦD osemR3 spec3 HR3 V c ∗ Pipeline.prefHeld (Ix := Unit) (Name := ℕ) (U := Pipeline.UD sig nD τ) (Lvl := ℕ) pre3 c (fun _ => fullShare) (tblR3 V))

theorem PhiR3_eq (c : Dev nD) :
    (PhiR3 V c : sProp 𝕄)
      = iprop(iprop(iprop((∃ d, owns (c : Thread nD τ) scMR3 fullShare d) ∗ Pipeline.scopedRestBut (Ix := Unit) (Name := ℕ) (U := Pipeline.UD sig nD τ) (Lvl := ℕ) (Val := Elt F) spec3 c [cc3_scratch0])
          ∗ (∃ r, prngReg c r) ∗ iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0) ∗ iprop(mPt c hbM (V c main_v0))) ∗ iprop(mPt c tbMR3 (tblR3 V 0))) := by
  unfold PhiR3
  rw [Pipeline.ΦD_eq, scopedRest3_split, ownSemsR3_eq, hbmPtsR3_eq, prefR3_eq]; simp only [scMR3, owns_whole]; try rfl

def datR3 (hH : HypsR3 V) (c : Dev nD) : Dat τ (Elt F) Unit ℕ (Pipeline.UD sig nD τ) ℕ (cfgR3 V) c where
  A w := V c (Pipeline.arrRef spec3 w)
  after w t := match w with
    | ⟨0, _⟩ => iblkR3 V c 0 t
    | ⟨1, _⟩ => outsAtR3 V hH c t
  Φ _ := PhiR3 V c
  q _ := fullShare
  owed _ := 0

theorem A_eqR3 (hH : HypsR3 V) (c : Dev nD) (w : Fin (cfgR3 V).W) : (datR3 V hH c).A w = V c (Pipeline.arrRef spec3 w) := by
  dsimp only [datR3]
theorem afterR3_0 (hH : HypsR3 V) (c : Dev nD) (t : Fin (cfgR3 V).N) : (datR3 V hH c).after 0 t = iblkR3 V c 0 t := by dsimp only [datR3]; try rfl
theorem afterR3_1 (hH : HypsR3 V) (c : Dev nD) (t : Fin (cfgR3 V).N) : (datR3 V hH c).after 1 t = outsAtR3 V hH c t := by dsimp only [datR3]; try rfl
theorem beforeR3_0 (hH : HypsR3 V) (c : Dev nD) (t : Fin (cfgR3 V).N) (d) : (datR3 V hH c).before 0 t d = iblkR3 V c 0 t :=
  beforeR3_0_of V (datR3 V hH c) (A_eqR3 V hH c 0) (afterR3_0 V hH c) t d

abbrev remR3 (c : Dev nD) (f : MBuf (F := F) c hbM) : sProp 𝕄 :=
  iprop((hbM.view.loc (c : Thread nD τ) ↦{Transfers.shareDrop fullShare (36 + 8)} f)
    ∗ BI.bigSep (Finset.range 36) (fun i => hbM.view.loc (c : Thread nD τ) ↦{Transfers.shareTokN fullShare i} f))

theorem tok_splitR3 (c : Dev nD) (f : MBuf (F := F) c hbM) :
    (mPt c hbM f : sProp 𝕄) ⊢ iprop(remR3 c f ∗ tokPt c hbM 36 f ∗ tokPt c hbM 37 f ∗ tokPt c hbM 38 f ∗ tokPt c hbM 39 f ∗ tokPt c hbM 40 f ∗ tokPt c hbM 41 f ∗ tokPt c hbM 42 f ∗ tokPt c hbM 43 f) :=
  Transfers.pointsTo_window_split (Ix := Unit) (Name := ℕ) (U := Pipeline.UD sig nD τ) (Lvl := ℕ) fullShare 36

theorem tok_joinR3 (c : Dev nD) (f : MBuf (F := F) c hbM) :
    iprop(remR3 c f ∗ tokPt c hbM 36 f ∗ tokPt c hbM 37 f ∗ tokPt c hbM 38 f ∗ tokPt c hbM 39 f ∗ tokPt c hbM 40 f ∗ tokPt c hbM 41 f ∗ tokPt c hbM 42 f ∗ tokPt c hbM 43 f) ⊢ (mPt c hbM f : sProp 𝕄) :=
  Transfers.pointsTo_window_join (Ix := Unit) (Name := ℕ) (U := Pipeline.UD sig nD τ) (Lvl := ℕ) fullShare 36

def bodyPreR3 (hH : HypsR3 V) (c : Dev nD) (t : Fin (cfgR3 V).N) : sProp 𝕄 :=
  iprop((datR3 V hH c).Φ t.castSucc ∗ (datR3 V hH c).owesAt () t.castSucc
    ∗ (∃ d, owns (c : Thread nD τ) (msR3_0 V t) fullShare ((datR3 V hH c).before 0 t d))
    ∗ (∃ d, owns (c : Thread nD τ) (msR3_1 V t) fullShare ((datR3 V hH c).before 1 t d)))

def bodyPostR3 (hH : HypsR3 V) (c : Dev nD) (t : Fin (cfgR3 V).N) : sProp 𝕄 :=
  iprop((datR3 V hH c).Φ t.succ ∗ (datR3 V hH c).owesAt () t.succ
    ∗ owns (c : Thread nD τ) (msR3_0 V t) fullShare ((datR3 V hH c).after 0 t)
    ∗ owns (c : Thread nD τ) (msR3_1 V t) fullShare ((datR3 V hH c).after 1 t))

set_option maxHeartbeats 2000000 in
/-- The body at any point leaves the output block at `outsAtR3`, whatever the scratch tile held before. -/
theorem sound_bodyR3 (hH : HypsR3 V) (c : Dev nD) (t : Fin (cfgR3 V).N) :
    bodyPreR3 V hH c t ⊢ wp frame (wpE (defs₀ (F := F)) Variants.none c none) Set.univ (bodyAtR3 V t) (fun _ => bodyPostR3 V hH c t) := by
  unfold bodyPreR3 bodyPostR3 bodyAtR3
  simp only [beforeR3_0]
  rw [show (datR3 V hH c).Φ t.succ = (datR3 V hH c).Φ t.castSucc from rfl, afterR3_0, afterR3_1]
  rw [show (datR3 V hH c).Φ t.castSucc = PhiR3 V c from rfl, PhiR3_eq]
  unfold Dat.owesAt Pipeline.owesWithin
  rw [show (datR3 V hH c).owed t.castSucc = 0 from rfl, show (datR3 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR3) $$ HS0
  icases HS0 with ⟨%fs0, HS0⟩
  ihave Hh := (tok_splitR3 c (V c main_v0)) $$ Hh
  icases Hh with ⟨Hhr, Hh0, Hh1, Hh2, Hh3, Hh4, Hh5, Hh6, Hh7⟩
  iapply ((kernelRunR3 c (grid3.coords t) (msR3_0 V t) (hsR3_0 V t) (msR3_1 V t) (hsR3_1 V t) (iblkR3 V c 0 t) (tblR3 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR3 c (V c main_v0)) $$ [Hhr Hh0 Hh1 Hh2 Hh3 Hh4 Hh5 Hh6 Hh7]
  · iframe
  ihave HS0 := (scr_close c scMR3) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR3
  rw [← outR3_indep c (grid3.coords t) (msR3_0 V t) (hsR3_0 V t) (msR3_1 V t) (hsR3_1 V t) (iblkR3 V c 0 t) (tblR3 V 0) (V c main_v0) fs0 (hH c t) (fsJR3 c)]
  unfold outR3
  exact View.read_writes_of_cover _ _ _ _ _ (coverR3 c (grid3.coords t) (msR3_0 V t) (hsR3_0 V t) (msR3_1 V t) (hsR3_1 V t) (iblkR3 V c 0 t) (tblR3 V 0) (V c main_v0) fs0 (hH c t))

theorem body_obligationR3 (hH : HypsR3 V) (c : Dev nD) :
    BodyObligation (datR3 (F := F) V hH c) (defs₀ (F := F)) Variants.none () Set.univ := fun t => by
  rw [bigSep_W3, bigSep_W3]
  exact sound_bodyR3 V hH c t

end Region

end Cert.Kernel.Emb

end
-- ==== Proof.Kernel.Hyp3.lean ====
import proofs.«418142_j33036888441229_2_alg».proof.Proof.Kernel.Reg3

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR3 (V : (c : Dev nD) → (b : Ref sig .tc) → Buf (Elt F) ((c : Thread nD τ).loc b))
    (h : ∀ p : S32768.Idx, BitVec.toNat (tbMR3.view.read (Elt F) (tblR3 V 0) p) < 50257) : HypsR3 V := by
  intro c t
  have r : ∀ (lr : LoadRect S32768) (i : lr.shape.Idx) (a : Fin 2),
      (![BitVec.toNat (tbMR3.view.readAt (Elt F) lr (tblR3 V 0) i), 0] : Fin 2 → ℕ) a + S1x128.size a ≤ S50257x128.size a :=
    fun lr i => row_inside _ (h (lr.idx i))
  unfold OkR3 k3_chk1 k3_chk2 k3_chk3 k3_chk4 k3_chk5 k3_chk6 k3_chk7 k3_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.Kernel.Emb

end
-- ==== Proof.Kernel.Run4.lean ====
import proofs.«418142_j33036888441229_2_alg».proof.Proof.Kernel.Common

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR4 : Memref sig .tc .smem S32768 .i32 := Memref.whole main_v11
abbrev htbMR4 : tbMR4.IsWhole := Memref.isWhole_whole _
abbrev scMR4 : Memref sig .tc .vmem S8x128 .f32 := Memref.whole cc4_scratch0
abbrev hscMR4 : scMR4.IsWhole := Memref.isWhole_whole _

section
variable (c : Dev nD) (i : grid4.Coords) (xt : MBuf (F := F) c tbMR4)

/-- The word of the index table at offsets `off`. -/
abbrev wordR4 (off : Fin 1 → ℕ) (inb : ∀ a, off a + S1.size a ≤ S32768.size a) : Elt F .i32 :=
  tbMR4.view.readAt (Elt F) (Rect.unit (s := S32768) off S1.size inb).toLoadRect xt (Shape.Idx.first (numel1_S1.symm ▸ Nat.one_pos))

/-- Each of the eight token ids the point at `i` reads is a row number of the gather table. -/
def OkR4 : Prop :=
  k4_chk1 (wordR4 c xt (k4_off1 i) (k4_off1_inb i)) ∧ k4_chk2 (wordR4 c xt (k4_off3 i) (k4_off3_inb i)) ∧ k4_chk3 (wordR4 c xt (k4_off5 i) (k4_off5_inb i)) ∧ k4_chk4 (wordR4 c xt (k4_off7 i) (k4_off7_inb i)) ∧ k4_chk5 (wordR4 c xt (k4_off9 i) (k4_off9_inb i)) ∧ k4_chk6 (wordR4 c xt (k4_off11 i) (k4_off11_inb i)) ∧ k4_chk7 (wordR4 c xt (k4_off13 i) (k4_off13_inb i)) ∧ k4_chk8 (wordR4 c xt (k4_off15 i) (k4_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR4 (c : Dev nD) (i : grid4.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR4) (fh : MBuf (F := F) c hbM) (fs0 : MBuf (F := F) c scMR4)
    (h : OkR4 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR4 fs0
            ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0
            ∗ tokPt c hbM 47 fh ∗ tokPt c hbM 48 fh ∗ tokPt c hbM 49 fh ∗ tokPt c hbM 50 fh ∗ tokPt c hbM 51 fh ∗ tokPt c hbM 52 fh ∗ tokPt c hbM 53 fh ∗ tokPt c hbM 54 fh ∗ mPt c tbMR4 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR4 f)
                ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0
                ∗ tokPt c hbM 47 fh ∗ tokPt c hbM 48 fh ∗ tokPt c hbM 49 fh ∗ tokPt c hbM 50 fh ∗ tokPt c hbM 51 fh ∗ tokPt c hbM 52 fh ∗ tokPt c hbM 53 fh ∗ tokPt c hbM 54 fh ∗ mPt c tbMR4 xt ∗ (∃ W', owes (c : Thread nD τ) 0 W')) -∗ K ⟨⟩))
          ⊢ wp frame (wpE (defs₀ (F := F)) Variants.none c none) Set.univ (cc4__embed_kernel i tbMR4 htbMR4 hbM hhbM arg3 harg3 arg4 harg4 scMR4 hscMR4 cc4_scratch1) K } := by
  refine ⟨?_, fun W K => ?run⟩
  case run =>
    simp only [cc4__embed_kernel_eq_skeleton]; unfold cc4__embed_kernel_skel
    simp only [k4_part1_eq_skeleton, k4_part2_eq_skeleton, k4_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid4.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR4) (fh : MBuf (F := F) c hbM) (fs0 : MBuf (F := F) c scMR4) (h : OkR4 c i xt)

/-- The run's one piece is a store of the whole 8 × 128 block. -/
theorem coverR4 (y : S8x128.Idx) : ∃ pc ∈ (kernelRunR4 c i arg3 harg3 arg4 harg4 x0 xt fh fs0 h).1, y ∈ pc.1.set :=
  View.cover_of_tiledL (kernelRunR4 c i arg3 harg3 arg4 harg4 x0 xt fh fs0 h).1 S8x128.size (by sl_kernel_rfl) y

abbrev VOR4 : View sig .tc .vmem S8x128 .f32 := (Memref.whole cc4_stg1_0 : Memref sig .tc .vmem S8x128 .f32).view

/-- What the run leaves in the output block: its pieces read back. -/
def outR4 : Vec F S8x128 .f32 :=
  VOR4.read (Elt F) (VOR4.writes (Elt F) VOR4.junk (kernelRunR4 c i arg3 harg3 arg4 harg4 x0 xt fh fs0 h).1)

end

end Cert.Kernel.Emb

end
-- ==== Proof.Kernel.Rows4.lean ====
import proofs.«418142_j33036888441229_2_alg».proof.Proof.Kernel.Run4
import proofs.«418142_j33036888441229_2_alg».proof.Proof.RowsLib
import Idealize.ShloMosaic.Lib.ValueIdx
import Idealize.ShloMosaic.Lib.Pipeline.Value

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid4.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR4) (fh : MBuf (F := F) c hbM) (fs0 : MBuf (F := F) c scMR4) (h : OkR4 c i xt)

/-- The gathered tile: row r is what the r-th copy brings. -/
def gatherR4 : Vec F S8x128 .f32 :=
  rows8 (kernelRunR4.sl.dma1 c i xt fh h) (kernelRunR4.sl.dma2 c i xt fh h) (kernelRunR4.sl.dma3 c i xt fh h) (kernelRunR4.sl.dma4 c i xt fh h)
    (kernelRunR4.sl.dma5 c i xt fh h) (kernelRunR4.sl.dma6 c i xt fh h) (kernelRunR4.sl.dma7 c i xt fh h) (kernelRunR4.sl.dma8 c i xt fh h)

set_option maxHeartbeats 400000 in
/-- The tile as loaded after the eight copies is the gathered tile: the eight rows cover it, so its earlier contents do not matter. -/
theorem tileR4_eq : kernelRunR4.sl.v121 c i xt fh fs0 h = gatherR4 c i xt fh h := by
  unfold kernelRunR4.sl.v121 gatherR4
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR4.view _ _ _ _ _ _ _ _ squeezes_S1x128_S128.numel_eq fs0 _ _ _ _ _ _ _ _ r j

/-- The block stored: the gathered tile plus the bias row. -/
theorem outR4_eq : outR4 c i arg3 harg3 arg4 harg4 x0 xt fh fs0 h = k4_pay1 (gatherR4 c i xt fh h) x0 := by
  unfold outR4
  rw [View.read_writes_eq_canon _ _ _ (coverR4 c i arg3 harg3 arg4 harg4 x0 xt fh fs0 h)]
  unfold kernelRunR4
  dsimp only
  rw [View.canon_unit_zero (S := S8x128) zero2, tileR4_eq c i xt fh fs0 h,
    View.readAt_eq_ld, harg3.read_unread, View.ld_unit_zero (S := S1x128) zero2]

theorem outR4_indep (fs0' : MBuf (F := F) c scMR4) :
    outR4 c i arg3 harg3 arg4 harg4 x0 xt fh fs0 h = outR4 c i arg3 harg3 arg4 harg4 x0 xt fh fs0' h :=
  (outR4_eq c i arg3 harg3 arg4 harg4 x0 xt fh fs0 h).trans (outR4_eq c i arg3 harg3 arg4 harg4 x0 xt fh fs0' h).symm

end

end Cert.Kernel.Emb

end
-- ==== Proof.Kernel.Reg4.lean ====
import proofs.«418142_j33036888441229_2_alg».proof.Proof.Kernel.Rows4
import proofs.«418142_j33036888441229_2_alg».proof.Proof.LibReadShares

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR4 : pre4.Contents (Elt F) := fun j => V (0 : Dev nD) (pre4.ref j)
theorem V_preR4 (c : Dev nD) (j : Fin 1) : V c (pre4.ref j) = tblR4 V j := by
  obtain rfl : c = 0 := Subsingleton.elim _ _; rfl

abbrev admR4 : (pcfg4 (F := F)).Adm := ⟨tblR4 V, (ok4.eq_1 (tblR4 V)).mpr trivial⟩
abbrev cfgR4 : Pipeline.Cfg sig Λ₀ := cfg4 (admR4 V)

/-- At every point the eight token ids read are row numbers of the gather table. -/
def HypsR4 : Prop := ∀ (c : Dev nD) (t : Fin (cfgR4 V).N), OkR4 c (grid4.coords t) (tblR4 V 0)

/-- Window w's block at point t, read off its array as entered. -/
def iblkR4 (c : Dev nD) (w : Fin (cfgR4 V).W) (t : Fin (cfgR4 V).N) : (((cfgR4 V).win w).xblock ((cfgR4 V).grid.coords t)).Idx → Elt F ((cfgR4 V).win w).elt :=
  (((cfgR4 V).win w).blk t).view.read (Elt F) (V c (Pipeline.arrRef spec4 w))

theorem beforeR4_0_of {c : Dev nD} (dat : Dat τ (Elt F) Unit ℕ (Pipeline.UD sig nD τ) ℕ (cfgR4 V) c) (hA : dat.A 0 = V c (Pipeline.arrRef spec4 0))
    (hafter : ∀ t, dat.after 0 t = iblkR4 V c 0 t) (t : Fin (cfgR4 V).N) (d) : dat.before 0 t d = iblkR4 V c 0 t :=
  (dat.before_in_eq_fetched 0 rfl (fun _ => rfl) (fun _ _ _ => rfl) (fun t => by rw [hafter]; unfold Dat.blockOf iblkR4; rw [hA]; try rfl) t d).trans
    (by unfold Dat.fetched Dat.blockOf iblkR4; rw [hA]; try rfl)

abbrev msR4_0 (t : Fin (cfgR4 V).N) : Memref sig .tc .vmem S1x128 .f32 := spec4_0.stage ((cfgR4 V).slots t 0)
abbrev hsR4_0 (t : Fin (cfgR4 V).N) : (msR4_0 V t).IsWhole := hstage4_0 (((cfgR4 V).slots t 0).cast nbuf4_0)
abbrev msR4_1 (t : Fin (cfgR4 V).N) : Memref sig .tc .vmem S8x128 .f32 := spec4_1.stage ((cfgR4 V).slots t 1)
abbrev hsR4_1 (t : Fin (cfgR4 V).N) : (msR4_1 V t).IsWhole := hstage4_1 (((cfgR4 V).slots t 1).cast nbuf4_1)

abbrev bodyAtR4 (t : Fin (cfgR4 V).N) : Prog (TpuEff nD τ sig (Elt F) Λ₀ .tc) PUnit :=
  cc4__embed_kernel (grid4.coords t) (Memref.whole main_v11) (Memref.isWhole_whole _) (Memref.whole main_v0) (Memref.isWhole_whole _)
    (spec4_0.stage ((cfgR4 V).slots t 0)) (hstage4_0 (((cfgR4 V).slots t 0).cast nbuf4_0))
    (spec4_1.stage ((cfgR4 V).slots t 1)) (hstage4_1 (((cfgR4 V).slots t 1).cast nbuf4_1))
    (Memref.whole cc4_scratch0) (Memref.isWhole_whole _) cc4_scratch1

def fsJR4 (c : Dev nD) : MBuf (F := F) c scMR4 := fun _ => Classical.arbitrary _

/-- What point t leaves in its output block. -/
def outsAtR4 (hH : HypsR4 V) (c : Dev nD) (t : Fin (cfgR4 V).N) : Vec F S8x128 .f32 :=
  outR4 c (grid4.coords t) (msR4_0 V t) (hsR4_0 V t) (msR4_1 V t) (hsR4_1 V t) (iblkR4 V c 0 t) (tblR4 V 0) (V c main_v0) (fsJR4 c) (hH c t)

abbrev osemR4 : Fin 8 → SemLoc sig := fun j => (![SemLoc.dma 47, SemLoc.dma 48, SemLoc.dma 49, SemLoc.dma 50, SemLoc.dma 51, SemLoc.dma 52, SemLoc.dma 53, SemLoc.dma 54] : Fin 8 → SemLoc sig) j
theorem ownSemFactsR4 : Pipeline.OwnSemFacts spec4 osemR4 := by decide
theorem ownSemsR4_eq (c : Dev nD) :
    (Pipeline.ownSems0 (Ix := Unit) (Name := ℕ) (U := Pipeline.UD sig nD τ) (Lvl := ℕ) (Val := Elt F) (τ := τ) osemR4 c : sProp 𝕄)
      = iprop(semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0) := by
  rw [Pipeline.ownSems0_eq_of_list c osemR4 [0, 1, 2, 3, 4, 5, 6, 7] (by decide) (by decide)]; rfl

def HR4 : Finset (Ref sig .tc) := {main_v0}
theorem HR4_sub : HR4 ⊆ Pipeline.restRefsP sig pre4 spec4 := by decide
theorem hbmPtsR4_eq (c : Dev nD) :
    (bigSep HR4 (fun b => ((c : Thread nD τ).loc b) ↦{fullShare} V c b) : sProp 𝕄) = iprop(mPt c hbM (V c main_v0)) := by
  rw [BI.bigSep_eq_bigSepL_of_eq [main_v0] (by decide) (by decide)]; rfl
theorem prefR4_eq (c : Dev nD) :
    (Pipeline.prefHeld (Ix := Unit) (Name := ℕ) (U := Pipeline.UD sig nD τ) (Lvl := ℕ) pre4 c (fun _ => fullShare) (tblR4 V) : sProp 𝕄) = iprop(mPt c tbMR4 (tblR4 V 0)) := by
  unfold Pipeline.prefHeld
  rw [show (Finset.univ : Finset (Fin 1)) = {(0 : Fin 1)} from by decide, bigSep_singleton]
  rfl

abbrev PhiR4 (c : Dev nD) : sProp 𝕄 :=
  iprop(Pipeline.ΦD osemR4 spec4 HR4 V c ∗ Pipeline.prefHeld (Ix := Unit) (Name := ℕ) (U := Pipeline.UD sig nD τ) (Lvl := ℕ) pre4 c (fun _ => fullShare) (tblR4 V))

theorem PhiR4_eq (c : Dev nD) :
    (PhiR4 V c : sProp 𝕄)
      = iprop(iprop(iprop((∃ d, owns (c : Thread nD τ) scMR4 fullShare d) ∗ Pipeline.scopedRestBut (Ix := Unit) (Name := ℕ) (U := Pipeline.UD sig nD τ) (Lvl := ℕ) (Val := Elt F) spec4 c [cc4_scratch0])
          ∗ (∃ r, prngReg c r) ∗ iprop(semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0) ∗ iprop(mPt c hbM (V c main_v0))) ∗ iprop(mPt c tbMR4 (tblR4 V 0))) := by
  unfold PhiR4
  rw [Pipeline.ΦD_eq, scopedRest4_split, ownSemsR4_eq, hbmPtsR4_eq, prefR4_eq]; simp only [scMR4, owns_whole]; try rfl

def datR4 (hH : HypsR4 V) (c : Dev nD) : Dat τ (Elt F) Unit ℕ (Pipeline.UD sig nD τ) ℕ (cfgR4 V) c where
  A w := V c (Pipeline.arrRef spec4 w)
  after w t := match w with
    | ⟨0, _⟩ => iblkR4 V c 0 t
    | ⟨1, _⟩ => outsAtR4 V hH c t
  Φ _ := PhiR4 V c
  q _ := fullShare
  owed _ := 0

theorem A_eqR4 (hH : HypsR4 V) (c : Dev nD) (w : Fin (cfgR4 V).W) : (datR4 V hH c).A w = V c (Pipeline.arrRef spec4 w) := by
  dsimp only [datR4]
theorem afterR4_0 (hH : HypsR4 V) (c : Dev nD) (t : Fin (cfgR4 V).N) : (datR4 V hH c).after 0 t = iblkR4 V c 0 t := by dsimp only [datR4]; try rfl
theorem afterR4_1 (hH : HypsR4 V) (c : Dev nD) (t : Fin (cfgR4 V).N) : (datR4 V hH c).after 1 t = outsAtR4 V hH c t := by dsimp only [datR4]; try rfl
theorem beforeR4_0 (hH : HypsR4 V) (c : Dev nD) (t : Fin (cfgR4 V).N) (d) : (datR4 V hH c).before 0 t d = iblkR4 V c 0 t :=
  beforeR4_0_of V (datR4 V hH c) (A_eqR4 V hH c 0) (afterR4_0 V hH c) t d

abbrev remR4 (c : Dev nD) (f : MBuf (F := F) c hbM) : sProp 𝕄 :=
  iprop((hbM.view.loc (c : Thread nD τ) ↦{Transfers.shareDrop fullShare (47 + 8)} f)
    ∗ BI.bigSep (Finset.range 47) (fun i => hbM.view.loc (c : Thread nD τ) ↦{Transfers.shareTokN fullShare i} f))

theorem tok_splitR4 (c : Dev nD) (f : MBuf (F := F) c hbM) :
    (mPt c hbM f : sProp 𝕄) ⊢ iprop(remR4 c f ∗ tokPt c hbM 47 f ∗ tokPt c hbM 48 f ∗ tokPt c hbM 49 f ∗ tokPt c hbM 50 f ∗ tokPt c hbM 51 f ∗ tokPt c hbM 52 f ∗ tokPt c hbM 53 f ∗ tokPt c hbM 54 f) :=
  Transfers.pointsTo_window_split (Ix := Unit) (Name := ℕ) (U := Pipeline.UD sig nD τ) (Lvl := ℕ) fullShare 47

theorem tok_joinR4 (c : Dev nD) (f : MBuf (F := F) c hbM) :
    iprop(remR4 c f ∗ tokPt c hbM 47 f ∗ tokPt c hbM 48 f ∗ tokPt c hbM 49 f ∗ tokPt c hbM 50 f ∗ tokPt c hbM 51 f ∗ tokPt c hbM 52 f ∗ tokPt c hbM 53 f ∗ tokPt c hbM 54 f) ⊢ (mPt c hbM f : sProp 𝕄) :=
  Transfers.pointsTo_window_join (Ix := Unit) (Name := ℕ) (U := Pipeline.UD sig nD τ) (Lvl := ℕ) fullShare 47

def bodyPreR4 (hH : HypsR4 V) (c : Dev nD) (t : Fin (cfgR4 V).N) : sProp 𝕄 :=
  iprop((datR4 V hH c).Φ t.castSucc ∗ (datR4 V hH c).owesAt () t.castSucc
    ∗ (∃ d, owns (c : Thread nD τ) (msR4_0 V t) fullShare ((datR4 V hH c).before 0 t d))
    ∗ (∃ d, owns (c : Thread nD τ) (msR4_1 V t) fullShare ((datR4 V hH c).before 1 t d)))

def bodyPostR4 (hH : HypsR4 V) (c : Dev nD) (t : Fin (cfgR4 V).N) : sProp 𝕄 :=
  iprop((datR4 V hH c).Φ t.succ ∗ (datR4 V hH c).owesAt () t.succ
    ∗ owns (c : Thread nD τ) (msR4_0 V t) fullShare ((datR4 V hH c).after 0 t)
    ∗ owns (c : Thread nD τ) (msR4_1 V t) fullShare ((datR4 V hH c).after 1 t))

set_option maxHeartbeats 2000000 in
/-- The body at any point leaves the output block at `outsAtR4`, whatever the scratch tile held before. -/
theorem sound_bodyR4 (hH : HypsR4 V) (c : Dev nD) (t : Fin (cfgR4 V).N) :
    bodyPreR4 V hH c t ⊢ wp frame (wpE (defs₀ (F := F)) Variants.none c none) Set.univ (bodyAtR4 V t) (fun _ => bodyPostR4 V hH c t) := by
  unfold bodyPreR4 bodyPostR4 bodyAtR4
  simp only [beforeR4_0]
  rw [show (datR4 V hH c).Φ t.succ = (datR4 V hH c).Φ t.castSucc from rfl, afterR4_0, afterR4_1]
  rw [show (datR4 V hH c).Φ t.castSucc = PhiR4 V c from rfl, PhiR4_eq]
  unfold Dat.owesAt Pipeline.owesWithin
  rw [show (datR4 V hH c).owed t.castSucc = 0 from rfl, show (datR4 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR4) $$ HS0
  icases HS0 with ⟨%fs0, HS0⟩
  ihave Hh := (tok_splitR4 c (V c main_v0)) $$ Hh
  icases Hh with ⟨Hhr, Hh0, Hh1, Hh2, Hh3, Hh4, Hh5, Hh6, Hh7⟩
  iapply ((kernelRunR4 c (grid4.coords t) (msR4_0 V t) (hsR4_0 V t) (msR4_1 V t) (hsR4_1 V t) (iblkR4 V c 0 t) (tblR4 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR4 c (V c main_v0)) $$ [Hhr Hh0 Hh1 Hh2 Hh3 Hh4 Hh5 Hh6 Hh7]
  · iframe
  ihave HS0 := (scr_close c scMR4) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR4
  rw [← outR4_indep c (grid4.coords t) (msR4_0 V t) (hsR4_0 V t) (msR4_1 V t) (hsR4_1 V t) (iblkR4 V c 0 t) (tblR4 V 0) (V c main_v0) fs0 (hH c t) (fsJR4 c)]
  unfold outR4
  exact View.read_writes_of_cover _ _ _ _ _ (coverR4 c (grid4.coords t) (msR4_0 V t) (hsR4_0 V t) (msR4_1 V t) (hsR4_1 V t) (iblkR4 V c 0 t) (tblR4 V 0) (V c main_v0) fs0 (hH c t))

theorem body_obligationR4 (hH : HypsR4 V) (c : Dev nD) :
    BodyObligation (datR4 (F := F) V hH c) (defs₀ (F := F)) Variants.none () Set.univ := fun t => by
  rw [bigSep_W4, bigSep_W4]
  exact sound_bodyR4 V hH c t

end Region

end Cert.Kernel.Emb

end
-- ==== Proof.Kernel.Hyp4.lean ====
import proofs.«418142_j33036888441229_2_alg».proof.Proof.Kernel.Reg4

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR4 (V : (c : Dev nD) → (b : Ref sig .tc) → Buf (Elt F) ((c : Thread nD τ).loc b))
    (h : ∀ p : S32768.Idx, BitVec.toNat (tbMR4.view.read (Elt F) (tblR4 V 0) p) < 50257) : HypsR4 V := by
  intro c t
  have r : ∀ (lr : LoadRect S32768) (i : lr.shape.Idx) (a : Fin 2),
      (![BitVec.toNat (tbMR4.view.readAt (Elt F) lr (tblR4 V 0) i), 0] : Fin 2 → ℕ) a + S1x128.size a ≤ S50257x128.size a :=
    fun lr i => row_inside _ (h (lr.idx i))
  unfold OkR4 k4_chk1 k4_chk2 k4_chk3 k4_chk4 k4_chk5 k4_chk6 k4_chk7 k4_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.Kernel.Emb

end
-- ==== Proof.Kernel.Run5.lean ====
import proofs.«418142_j33036888441229_2_alg».proof.Proof.Kernel.Common

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR5 : Memref sig .tc .smem S32768 .i32 := Memref.whole main_v13
abbrev htbMR5 : tbMR5.IsWhole := Memref.isWhole_whole _
abbrev scMR5 : Memref sig .tc .vmem S8x128 .f32 := Memref.whole cc5_scratch0
abbrev hscMR5 : scMR5.IsWhole := Memref.isWhole_whole _

section
variable (c : Dev nD) (i : grid5.Coords) (xt : MBuf (F := F) c tbMR5)

/-- The word of the index table at offsets `off`. -/
abbrev wordR5 (off : Fin 1 → ℕ) (inb : ∀ a, off a + S1.size a ≤ S32768.size a) : Elt F .i32 :=
  tbMR5.view.readAt (Elt F) (Rect.unit (s := S32768) off S1.size inb).toLoadRect xt (Shape.Idx.first (numel1_S1.symm ▸ Nat.one_pos))

/-- Each of the eight token ids the point at `i` reads is a row number of the gather table. -/
def OkR5 : Prop :=
  k5_chk1 (wordR5 c xt (k5_off1 i) (k5_off1_inb i)) ∧ k5_chk2 (wordR5 c xt (k5_off3 i) (k5_off3_inb i)) ∧ k5_chk3 (wordR5 c xt (k5_off5 i) (k5_off5_inb i)) ∧ k5_chk4 (wordR5 c xt (k5_off7 i) (k5_off7_inb i)) ∧ k5_chk5 (wordR5 c xt (k5_off9 i) (k5_off9_inb i)) ∧ k5_chk6 (wordR5 c xt (k5_off11 i) (k5_off11_inb i)) ∧ k5_chk7 (wordR5 c xt (k5_off13 i) (k5_off13_inb i)) ∧ k5_chk8 (wordR5 c xt (k5_off15 i) (k5_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR5 (c : Dev nD) (i : grid5.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR5) (fh : MBuf (F := F) c hbM) (fs0 : MBuf (F := F) c scMR5)
    (h : OkR5 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR5 fs0
            ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0
            ∗ tokPt c hbM 58 fh ∗ tokPt c hbM 59 fh ∗ tokPt c hbM 60 fh ∗ tokPt c hbM 61 fh ∗ tokPt c hbM 62 fh ∗ tokPt c hbM 63 fh ∗ tokPt c hbM 64 fh ∗ tokPt c hbM 65 fh ∗ mPt c tbMR5 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR5 f)
                ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0
                ∗ tokPt c hbM 58 fh ∗ tokPt c hbM 59 fh ∗ tokPt c hbM 60 fh ∗ tokPt c hbM 61 fh ∗ tokPt c hbM 62 fh ∗ tokPt c hbM 63 fh ∗ tokPt c hbM 64 fh ∗ tokPt c hbM 65 fh ∗ mPt c tbMR5 xt ∗ (∃ W', owes (c : Thread nD τ) 0 W')) -∗ K ⟨⟩))
          ⊢ wp frame (wpE (defs₀ (F := F)) Variants.none c none) Set.univ (cc5__embed_kernel i tbMR5 htbMR5 hbM hhbM arg3 harg3 arg4 harg4 scMR5 hscMR5 cc5_scratch1) K } := by
  refine ⟨?_, fun W K => ?run⟩
  case run =>
    simp only [cc5__embed_kernel_eq_skeleton]; unfold cc5__embed_kernel_skel
    simp only [k5_part1_eq_skeleton, k5_part2_eq_skeleton, k5_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid5.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR5) (fh : MBuf (F := F) c hbM) (fs0 : MBuf (F := F) c scMR5) (h : OkR5 c i xt)

/-- The run's one piece is a store of the whole 8 × 128 block. -/
theorem coverR5 (y : S8x128.Idx) : ∃ pc ∈ (kernelRunR5 c i arg3 harg3 arg4 harg4 x0 xt fh fs0 h).1, y ∈ pc.1.set :=
  View.cover_of_tiledL (kernelRunR5 c i arg3 harg3 arg4 harg4 x0 xt fh fs0 h).1 S8x128.size (by sl_kernel_rfl) y

abbrev VOR5 : View sig .tc .vmem S8x128 .f32 := (Memref.whole cc5_stg1_0 : Memref sig .tc .vmem S8x128 .f32).view

/-- What the run leaves in the output block: its pieces read back. -/
def outR5 : Vec F S8x128 .f32 :=
  VOR5.read (Elt F) (VOR5.writes (Elt F) VOR5.junk (kernelRunR5 c i arg3 harg3 arg4 harg4 x0 xt fh fs0 h).1)

end

end Cert.Kernel.Emb

end
-- ==== Proof.Kernel.Rows5.lean ====
import proofs.«418142_j33036888441229_2_alg».proof.Proof.Kernel.Run5
import proofs.«418142_j33036888441229_2_alg».proof.Proof.RowsLib
import Idealize.ShloMosaic.Lib.ValueIdx
import Idealize.ShloMosaic.Lib.Pipeline.Value

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid5.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR5) (fh : MBuf (F := F) c hbM) (fs0 : MBuf (F := F) c scMR5) (h : OkR5 c i xt)

/-- The gathered tile: row r is what the r-th copy brings. -/
def gatherR5 : Vec F S8x128 .f32 :=
  rows8 (kernelRunR5.sl.dma1 c i xt fh h) (kernelRunR5.sl.dma2 c i xt fh h) (kernelRunR5.sl.dma3 c i xt fh h) (kernelRunR5.sl.dma4 c i xt fh h)
    (kernelRunR5.sl.dma5 c i xt fh h) (kernelRunR5.sl.dma6 c i xt fh h) (kernelRunR5.sl.dma7 c i xt fh h) (kernelRunR5.sl.dma8 c i xt fh h)

set_option maxHeartbeats 400000 in
/-- The tile as loaded after the eight copies is the gathered tile: the eight rows cover it, so its earlier contents do not matter. -/
theorem tileR5_eq : kernelRunR5.sl.v121 c i xt fh fs0 h = gatherR5 c i xt fh h := by
  unfold kernelRunR5.sl.v121 gatherR5
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR5.view _ _ _ _ _ _ _ _ squeezes_S1x128_S128.numel_eq fs0 _ _ _ _ _ _ _ _ r j

/-- The block stored: the gathered tile plus the bias row. -/
theorem outR5_eq : outR5 c i arg3 harg3 arg4 harg4 x0 xt fh fs0 h = k5_pay1 (gatherR5 c i xt fh h) x0 := by
  unfold outR5
  rw [View.read_writes_eq_canon _ _ _ (coverR5 c i arg3 harg3 arg4 harg4 x0 xt fh fs0 h)]
  unfold kernelRunR5
  dsimp only
  rw [View.canon_unit_zero (S := S8x128) zero2, tileR5_eq c i xt fh fs0 h,
    View.readAt_eq_ld, harg3.read_unread, View.ld_unit_zero (S := S1x128) zero2]

theorem outR5_indep (fs0' : MBuf (F := F) c scMR5) :
    outR5 c i arg3 harg3 arg4 harg4 x0 xt fh fs0 h = outR5 c i arg3 harg3 arg4 harg4 x0 xt fh fs0' h :=
  (outR5_eq c i arg3 harg3 arg4 harg4 x0 xt fh fs0 h).trans (outR5_eq c i arg3 harg3 arg4 harg4 x0 xt fh fs0' h).symm

end

end Cert.Kernel.Emb

end
-- ==== Proof.Kernel.Reg5.lean ====
import proofs.«418142_j33036888441229_2_alg».proof.Proof.Kernel.Rows5
import proofs.«418142_j33036888441229_2_alg».proof.Proof.LibReadShares

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR5 : pre5.Contents (Elt F) := fun j => V (0 : Dev nD) (pre5.ref j)
theorem V_preR5 (c : Dev nD) (j : Fin 1) : V c (pre5.ref j) = tblR5 V j := by
  obtain rfl : c = 0 := Subsingleton.elim _ _; rfl

abbrev admR5 : (pcfg5 (F := F)).Adm := ⟨tblR5 V, (ok5.eq_1 (tblR5 V)).mpr trivial⟩
abbrev cfgR5 : Pipeline.Cfg sig Λ₀ := cfg5 (admR5 V)

/-- At every point the eight token ids read are row numbers of the gather table. -/
def HypsR5 : Prop := ∀ (c : Dev nD) (t : Fin (cfgR5 V).N), OkR5 c (grid5.coords t) (tblR5 V 0)

/-- Window w's block at point t, read off its array as entered. -/
def iblkR5 (c : Dev nD) (w : Fin (cfgR5 V).W) (t : Fin (cfgR5 V).N) : (((cfgR5 V).win w).xblock ((cfgR5 V).grid.coords t)).Idx → Elt F ((cfgR5 V).win w).elt :=
  (((cfgR5 V).win w).blk t).view.read (Elt F) (V c (Pipeline.arrRef spec5 w))

theorem beforeR5_0_of {c : Dev nD} (dat : Dat τ (Elt F) Unit ℕ (Pipeline.UD sig nD τ) ℕ (cfgR5 V) c) (hA : dat.A 0 = V c (Pipeline.arrRef spec5 0))
    (hafter : ∀ t, dat.after 0 t = iblkR5 V c 0 t) (t : Fin (cfgR5 V).N) (d) : dat.before 0 t d = iblkR5 V c 0 t :=
  (dat.before_in_eq_fetched 0 rfl (fun _ => rfl) (fun _ _ _ => rfl) (fun t => by rw [hafter]; unfold Dat.blockOf iblkR5; rw [hA]; try rfl) t d).trans
    (by unfold Dat.fetched Dat.blockOf iblkR5; rw [hA]; try rfl)

abbrev msR5_0 (t : Fin (cfgR5 V).N) : Memref sig .tc .vmem S1x128 .f32 := spec5_0.stage ((cfgR5 V).slots t 0)
abbrev hsR5_0 (t : Fin (cfgR5 V).N) : (msR5_0 V t).IsWhole := hstage5_0 (((cfgR5 V).slots t 0).cast nbuf5_0)
abbrev msR5_1 (t : Fin (cfgR5 V).N) : Memref sig .tc .vmem S8x128 .f32 := spec5_1.stage ((cfgR5 V).slots t 1)
abbrev hsR5_1 (t : Fin (cfgR5 V).N) : (msR5_1 V t).IsWhole := hstage5_1 (((cfgR5 V).slots t 1).cast nbuf5_1)

abbrev bodyAtR5 (t : Fin (cfgR5 V).N) : Prog (TpuEff nD τ sig (Elt F) Λ₀ .tc) PUnit :=
  cc5__embed_kernel (grid5.coords t) (Memref.whole main_v13) (Memref.isWhole_whole _) (Memref.whole main_v0) (Memref.isWhole_whole _)
    (spec5_0.stage ((cfgR5 V).slots t 0)) (hstage5_0 (((cfgR5 V).slots t 0).cast nbuf5_0))
    (spec5_1.stage ((cfgR5 V).slots t 1)) (hstage5_1 (((cfgR5 V).slots t 1).cast nbuf5_1))
    (Memref.whole cc5_scratch0) (Memref.isWhole_whole _) cc5_scratch1

def fsJR5 (c : Dev nD) : MBuf (F := F) c scMR5 := fun _ => Classical.arbitrary _

/-- What point t leaves in its output block. -/
def outsAtR5 (hH : HypsR5 V) (c : Dev nD) (t : Fin (cfgR5 V).N) : Vec F S8x128 .f32 :=
  outR5 c (grid5.coords t) (msR5_0 V t) (hsR5_0 V t) (msR5_1 V t) (hsR5_1 V t) (iblkR5 V c 0 t) (tblR5 V 0) (V c main_v0) (fsJR5 c) (hH c t)

abbrev osemR5 : Fin 8 → SemLoc sig := fun j => (![SemLoc.dma 58, SemLoc.dma 59, SemLoc.dma 60, SemLoc.dma 61, SemLoc.dma 62, SemLoc.dma 63, SemLoc.dma 64, SemLoc.dma 65] : Fin 8 → SemLoc sig) j
theorem ownSemFactsR5 : Pipeline.OwnSemFacts spec5 osemR5 := by decide
theorem ownSemsR5_eq (c : Dev nD) :
    (Pipeline.ownSems0 (Ix := Unit) (Name := ℕ) (U := Pipeline.UD sig nD τ) (Lvl := ℕ) (Val := Elt F) (τ := τ) osemR5 c : sProp 𝕄)
      = iprop(semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0) := by
  rw [Pipeline.ownSems0_eq_of_list c osemR5 [0, 1, 2, 3, 4, 5, 6, 7] (by decide) (by decide)]; rfl

def HR5 : Finset (Ref sig .tc) := {main_v0}
theorem HR5_sub : HR5 ⊆ Pipeline.restRefsP sig pre5 spec5 := by decide
theorem hbmPtsR5_eq (c : Dev nD) :
    (bigSep HR5 (fun b => ((c : Thread nD τ).loc b) ↦{fullShare} V c b) : sProp 𝕄) = iprop(mPt c hbM (V c main_v0)) := by
  rw [BI.bigSep_eq_bigSepL_of_eq [main_v0] (by decide) (by decide)]; rfl
theorem prefR5_eq (c : Dev nD) :
    (Pipeline.prefHeld (Ix := Unit) (Name := ℕ) (U := Pipeline.UD sig nD τ) (Lvl := ℕ) pre5 c (fun _ => fullShare) (tblR5 V) : sProp 𝕄) = iprop(mPt c tbMR5 (tblR5 V 0)) := by
  unfold Pipeline.prefHeld
  rw [show (Finset.univ : Finset (Fin 1)) = {(0 : Fin 1)} from by decide, bigSep_singleton]
  rfl

abbrev PhiR5 (c : Dev nD) : sProp 𝕄 :=
  iprop(Pipeline.ΦD osemR5 spec5 HR5 V c ∗ Pipeline.prefHeld (Ix := Unit) (Name := ℕ) (U := Pipeline.UD sig nD τ) (Lvl := ℕ) pre5 c (fun _ => fullShare) (tblR5 V))

theorem PhiR5_eq (c : Dev nD) :
    (PhiR5 V c : sProp 𝕄)
      = iprop(iprop(iprop((∃ d, owns (c : Thread nD τ) scMR5 fullShare d) ∗ Pipeline.scopedRestBut (Ix := Unit) (Name := ℕ) (U := Pipeline.UD sig nD τ) (Lvl := ℕ) (Val := Elt F) spec5 c [cc5_scratch0])
          ∗ (∃ r, prngReg c r) ∗ iprop(semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0) ∗ iprop(mPt c hbM (V c main_v0))) ∗ iprop(mPt c tbMR5 (tblR5 V 0))) := by
  unfold PhiR5
  rw [Pipeline.ΦD_eq, scopedRest5_split, ownSemsR5_eq, hbmPtsR5_eq, prefR5_eq]; simp only [scMR5, owns_whole]; try rfl

def datR5 (hH : HypsR5 V) (c : Dev nD) : Dat τ (Elt F) Unit ℕ (Pipeline.UD sig nD τ) ℕ (cfgR5 V) c where
  A w := V c (Pipeline.arrRef spec5 w)
  after w t := match w with
    | ⟨0, _⟩ => iblkR5 V c 0 t
    | ⟨1, _⟩ => outsAtR5 V hH c t
  Φ _ := PhiR5 V c
  q _ := fullShare
  owed _ := 0

theorem A_eqR5 (hH : HypsR5 V) (c : Dev nD) (w : Fin (cfgR5 V).W) : (datR5 V hH c).A w = V c (Pipeline.arrRef spec5 w) := by
  dsimp only [datR5]
theorem afterR5_0 (hH : HypsR5 V) (c : Dev nD) (t : Fin (cfgR5 V).N) : (datR5 V hH c).after 0 t = iblkR5 V c 0 t := by dsimp only [datR5]; try rfl
theorem afterR5_1 (hH : HypsR5 V) (c : Dev nD) (t : Fin (cfgR5 V).N) : (datR5 V hH c).after 1 t = outsAtR5 V hH c t := by dsimp only [datR5]; try rfl
theorem beforeR5_0 (hH : HypsR5 V) (c : Dev nD) (t : Fin (cfgR5 V).N) (d) : (datR5 V hH c).before 0 t d = iblkR5 V c 0 t :=
  beforeR5_0_of V (datR5 V hH c) (A_eqR5 V hH c 0) (afterR5_0 V hH c) t d

abbrev remR5 (c : Dev nD) (f : MBuf (F := F) c hbM) : sProp 𝕄 :=
  iprop((hbM.view.loc (c : Thread nD τ) ↦{Transfers.shareDrop fullShare (58 + 8)} f)
    ∗ BI.bigSep (Finset.range 58) (fun i => hbM.view.loc (c : Thread nD τ) ↦{Transfers.shareTokN fullShare i} f))

theorem tok_splitR5 (c : Dev nD) (f : MBuf (F := F) c hbM) :
    (mPt c hbM f : sProp 𝕄) ⊢ iprop(remR5 c f ∗ tokPt c hbM 58 f ∗ tokPt c hbM 59 f ∗ tokPt c hbM 60 f ∗ tokPt c hbM 61 f ∗ tokPt c hbM 62 f ∗ tokPt c hbM 63 f ∗ tokPt c hbM 64 f ∗ tokPt c hbM 65 f) :=
  Transfers.pointsTo_window_split (Ix := Unit) (Name := ℕ) (U := Pipeline.UD sig nD τ) (Lvl := ℕ) fullShare 58

theorem tok_joinR5 (c : Dev nD) (f : MBuf (F := F) c hbM) :
    iprop(remR5 c f ∗ tokPt c hbM 58 f ∗ tokPt c hbM 59 f ∗ tokPt c hbM 60 f ∗ tokPt c hbM 61 f ∗ tokPt c hbM 62 f ∗ tokPt c hbM 63 f ∗ tokPt c hbM 64 f ∗ tokPt c hbM 65 f) ⊢ (mPt c hbM f : sProp 𝕄) :=
  Transfers.pointsTo_window_join (Ix := Unit) (Name := ℕ) (U := Pipeline.UD sig nD τ) (Lvl := ℕ) fullShare 58

def bodyPreR5 (hH : HypsR5 V) (c : Dev nD) (t : Fin (cfgR5 V).N) : sProp 𝕄 :=
  iprop((datR5 V hH c).Φ t.castSucc ∗ (datR5 V hH c).owesAt () t.castSucc
    ∗ (∃ d, owns (c : Thread nD τ) (msR5_0 V t) fullShare ((datR5 V hH c).before 0 t d))
    ∗ (∃ d, owns (c : Thread nD τ) (msR5_1 V t) fullShare ((datR5 V hH c).before 1 t d)))

def bodyPostR5 (hH : HypsR5 V) (c : Dev nD) (t : Fin (cfgR5 V).N) : sProp 𝕄 :=
  iprop((datR5 V hH c).Φ t.succ ∗ (datR5 V hH c).owesAt () t.succ
    ∗ owns (c : Thread nD τ) (msR5_0 V t) fullShare ((datR5 V hH c).after 0 t)
    ∗ owns (c : Thread nD τ) (msR5_1 V t) fullShare ((datR5 V hH c).after 1 t))

set_option maxHeartbeats 2000000 in
/-- The body at any point leaves the output block at `outsAtR5`, whatever the scratch tile held before. -/
theorem sound_bodyR5 (hH : HypsR5 V) (c : Dev nD) (t : Fin (cfgR5 V).N) :
    bodyPreR5 V hH c t ⊢ wp frame (wpE (defs₀ (F := F)) Variants.none c none) Set.univ (bodyAtR5 V t) (fun _ => bodyPostR5 V hH c t) := by
  unfold bodyPreR5 bodyPostR5 bodyAtR5
  simp only [beforeR5_0]
  rw [show (datR5 V hH c).Φ t.succ = (datR5 V hH c).Φ t.castSucc from rfl, afterR5_0, afterR5_1]
  rw [show (datR5 V hH c).Φ t.castSucc = PhiR5 V c from rfl, PhiR5_eq]
  unfold Dat.owesAt Pipeline.owesWithin
  rw [show (datR5 V hH c).owed t.castSucc = 0 from rfl, show (datR5 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR5) $$ HS0
  icases HS0 with ⟨%fs0, HS0⟩
  ihave Hh := (tok_splitR5 c (V c main_v0)) $$ Hh
  icases Hh with ⟨Hhr, Hh0, Hh1, Hh2, Hh3, Hh4, Hh5, Hh6, Hh7⟩
  iapply ((kernelRunR5 c (grid5.coords t) (msR5_0 V t) (hsR5_0 V t) (msR5_1 V t) (hsR5_1 V t) (iblkR5 V c 0 t) (tblR5 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR5 c (V c main_v0)) $$ [Hhr Hh0 Hh1 Hh2 Hh3 Hh4 Hh5 Hh6 Hh7]
  · iframe
  ihave HS0 := (scr_close c scMR5) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR5
  rw [← outR5_indep c (grid5.coords t) (msR5_0 V t) (hsR5_0 V t) (msR5_1 V t) (hsR5_1 V t) (iblkR5 V c 0 t) (tblR5 V 0) (V c main_v0) fs0 (hH c t) (fsJR5 c)]
  unfold outR5
  exact View.read_writes_of_cover _ _ _ _ _ (coverR5 c (grid5.coords t) (msR5_0 V t) (hsR5_0 V t) (msR5_1 V t) (hsR5_1 V t) (iblkR5 V c 0 t) (tblR5 V 0) (V c main_v0) fs0 (hH c t))

theorem body_obligationR5 (hH : HypsR5 V) (c : Dev nD) :
    BodyObligation (datR5 (F := F) V hH c) (defs₀ (F := F)) Variants.none () Set.univ := fun t => by
  rw [bigSep_W5, bigSep_W5]
  exact sound_bodyR5 V hH c t

end Region

end Cert.Kernel.Emb

end
-- ==== Proof.Kernel.Hyp5.lean ====
import proofs.«418142_j33036888441229_2_alg».proof.Proof.Kernel.Reg5

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR5 (V : (c : Dev nD) → (b : Ref sig .tc) → Buf (Elt F) ((c : Thread nD τ).loc b))
    (h : ∀ p : S32768.Idx, BitVec.toNat (tbMR5.view.read (Elt F) (tblR5 V 0) p) < 50257) : HypsR5 V := by
  intro c t
  have r : ∀ (lr : LoadRect S32768) (i : lr.shape.Idx) (a : Fin 2),
      (![BitVec.toNat (tbMR5.view.readAt (Elt F) lr (tblR5 V 0) i), 0] : Fin 2 → ℕ) a + S1x128.size a ≤ S50257x128.size a :=
    fun lr i => row_inside _ (h (lr.idx i))
  unfold OkR5 k5_chk1 k5_chk2 k5_chk3 k5_chk4 k5_chk5 k5_chk6 k5_chk7 k5_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.Kernel.Emb

end
-- ==== Proof.Kernel.Run6.lean ====
import proofs.«418142_j33036888441229_2_alg».proof.Proof.Kernel.Common

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR6 : Memref sig .tc .smem S32768 .i32 := Memref.whole main_v15
abbrev htbMR6 : tbMR6.IsWhole := Memref.isWhole_whole _
abbrev scMR6 : Memref sig .tc .vmem S8x128 .f32 := Memref.whole cc6_scratch0
abbrev hscMR6 : scMR6.IsWhole := Memref.isWhole_whole _

section
variable (c : Dev nD) (i : grid6.Coords) (xt : MBuf (F := F) c tbMR6)

/-- The word of the index table at offsets `off`. -/
abbrev wordR6 (off : Fin 1 → ℕ) (inb : ∀ a, off a + S1.size a ≤ S32768.size a) : Elt F .i32 :=
  tbMR6.view.readAt (Elt F) (Rect.unit (s := S32768) off S1.size inb).toLoadRect xt (Shape.Idx.first (numel1_S1.symm ▸ Nat.one_pos))

/-- Each of the eight token ids the point at `i` reads is a row number of the gather table. -/
def OkR6 : Prop :=
  k6_chk1 (wordR6 c xt (k6_off1 i) (k6_off1_inb i)) ∧ k6_chk2 (wordR6 c xt (k6_off3 i) (k6_off3_inb i)) ∧ k6_chk3 (wordR6 c xt (k6_off5 i) (k6_off5_inb i)) ∧ k6_chk4 (wordR6 c xt (k6_off7 i) (k6_off7_inb i)) ∧ k6_chk5 (wordR6 c xt (k6_off9 i) (k6_off9_inb i)) ∧ k6_chk6 (wordR6 c xt (k6_off11 i) (k6_off11_inb i)) ∧ k6_chk7 (wordR6 c xt (k6_off13 i) (k6_off13_inb i)) ∧ k6_chk8 (wordR6 c xt (k6_off15 i) (k6_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR6 (c : Dev nD) (i : grid6.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR6) (fh : MBuf (F := F) c hbM) (fs0 : MBuf (F := F) c scMR6)
    (h : OkR6 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR6 fs0
            ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0
            ∗ tokPt c hbM 69 fh ∗ tokPt c hbM 70 fh ∗ tokPt c hbM 71 fh ∗ tokPt c hbM 72 fh ∗ tokPt c hbM 73 fh ∗ tokPt c hbM 74 fh ∗ tokPt c hbM 75 fh ∗ tokPt c hbM 76 fh ∗ mPt c tbMR6 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR6 f)
                ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0
                ∗ tokPt c hbM 69 fh ∗ tokPt c hbM 70 fh ∗ tokPt c hbM 71 fh ∗ tokPt c hbM 72 fh ∗ tokPt c hbM 73 fh ∗ tokPt c hbM 74 fh ∗ tokPt c hbM 75 fh ∗ tokPt c hbM 76 fh ∗ mPt c tbMR6 xt ∗ (∃ W', owes (c : Thread nD τ) 0 W')) -∗ K ⟨⟩))
          ⊢ wp frame (wpE (defs₀ (F := F)) Variants.none c none) Set.univ (cc6__embed_kernel i tbMR6 htbMR6 hbM hhbM arg3 harg3 arg4 harg4 scMR6 hscMR6 cc6_scratch1) K } := by
  refine ⟨?_, fun W K => ?run⟩
  case run =>
    simp only [cc6__embed_kernel_eq_skeleton]; unfold cc6__embed_kernel_skel
    simp only [k6_part1_eq_skeleton, k6_part2_eq_skeleton, k6_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid6.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR6) (fh : MBuf (F := F) c hbM) (fs0 : MBuf (F := F) c scMR6) (h : OkR6 c i xt)

/-- The run's one piece is a store of the whole 8 × 128 block. -/
theorem coverR6 (y : S8x128.Idx) : ∃ pc ∈ (kernelRunR6 c i arg3 harg3 arg4 harg4 x0 xt fh fs0 h).1, y ∈ pc.1.set :=
  View.cover_of_tiledL (kernelRunR6 c i arg3 harg3 arg4 harg4 x0 xt fh fs0 h).1 S8x128.size (by sl_kernel_rfl) y

abbrev VOR6 : View sig .tc .vmem S8x128 .f32 := (Memref.whole cc6_stg1_0 : Memref sig .tc .vmem S8x128 .f32).view

/-- What the run leaves in the output block: its pieces read back. -/
def outR6 : Vec F S8x128 .f32 :=
  VOR6.read (Elt F) (VOR6.writes (Elt F) VOR6.junk (kernelRunR6 c i arg3 harg3 arg4 harg4 x0 xt fh fs0 h).1)

end

end Cert.Kernel.Emb

end
-- ==== Proof.Kernel.Rows6.lean ====
import proofs.«418142_j33036888441229_2_alg».proof.Proof.Kernel.Run6
import proofs.«418142_j33036888441229_2_alg».proof.Proof.RowsLib
import Idealize.ShloMosaic.Lib.ValueIdx
import Idealize.ShloMosaic.Lib.Pipeline.Value

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid6.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR6) (fh : MBuf (F := F) c hbM) (fs0 : MBuf (F := F) c scMR6) (h : OkR6 c i xt)

/-- The gathered tile: row r is what the r-th copy brings. -/
def gatherR6 : Vec F S8x128 .f32 :=
  rows8 (kernelRunR6.sl.dma1 c i xt fh h) (kernelRunR6.sl.dma2 c i xt fh h) (kernelRunR6.sl.dma3 c i xt fh h) (kernelRunR6.sl.dma4 c i xt fh h)
    (kernelRunR6.sl.dma5 c i xt fh h) (kernelRunR6.sl.dma6 c i xt fh h) (kernelRunR6.sl.dma7 c i xt fh h) (kernelRunR6.sl.dma8 c i xt fh h)

set_option maxHeartbeats 400000 in
/-- The tile as loaded after the eight copies is the gathered tile: the eight rows cover it, so its earlier contents do not matter. -/
theorem tileR6_eq : kernelRunR6.sl.v121 c i xt fh fs0 h = gatherR6 c i xt fh h := by
  unfold kernelRunR6.sl.v121 gatherR6
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR6.view _ _ _ _ _ _ _ _ squeezes_S1x128_S128.numel_eq fs0 _ _ _ _ _ _ _ _ r j

/-- The block stored: the gathered tile plus the bias row. -/
theorem outR6_eq : outR6 c i arg3 harg3 arg4 harg4 x0 xt fh fs0 h = k6_pay1 (gatherR6 c i xt fh h) x0 := by
  unfold outR6
  rw [View.read_writes_eq_canon _ _ _ (coverR6 c i arg3 harg3 arg4 harg4 x0 xt fh fs0 h)]
  unfold kernelRunR6
  dsimp only
  rw [View.canon_unit_zero (S := S8x128) zero2, tileR6_eq c i xt fh fs0 h,
    View.readAt_eq_ld, harg3.read_unread, View.ld_unit_zero (S := S1x128) zero2]

theorem outR6_indep (fs0' : MBuf (F := F) c scMR6) :
    outR6 c i arg3 harg3 arg4 harg4 x0 xt fh fs0 h = outR6 c i arg3 harg3 arg4 harg4 x0 xt fh fs0' h :=
  (outR6_eq c i arg3 harg3 arg4 harg4 x0 xt fh fs0 h).trans (outR6_eq c i arg3 harg3 arg4 harg4 x0 xt fh fs0' h).symm

end

end Cert.Kernel.Emb

end
-- ==== Proof.Kernel.Reg6.lean ====
import proofs.«418142_j33036888441229_2_alg».proof.Proof.Kernel.Rows6
import proofs.«418142_j33036888441229_2_alg».proof.Proof.LibReadShares

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR6 : pre6.Contents (Elt F) := fun j => V (0 : Dev nD) (pre6.ref j)
theorem V_preR6 (c : Dev nD) (j : Fin 1) : V c (pre6.ref j) = tblR6 V j := by
  obtain rfl : c = 0 := Subsingleton.elim _ _; rfl

abbrev admR6 : (pcfg6 (F := F)).Adm := ⟨tblR6 V, (ok6.eq_1 (tblR6 V)).mpr trivial⟩
abbrev cfgR6 : Pipeline.Cfg sig Λ₀ := cfg6 (admR6 V)

/-- At every point the eight token ids read are row numbers of the gather table. -/
def HypsR6 : Prop := ∀ (c : Dev nD) (t : Fin (cfgR6 V).N), OkR6 c (grid6.coords t) (tblR6 V 0)

/-- Window w's block at point t, read off its array as entered. -/
def iblkR6 (c : Dev nD) (w : Fin (cfgR6 V).W) (t : Fin (cfgR6 V).N) : (((cfgR6 V).win w).xblock ((cfgR6 V).grid.coords t)).Idx → Elt F ((cfgR6 V).win w).elt :=
  (((cfgR6 V).win w).blk t).view.read (Elt F) (V c (Pipeline.arrRef spec6 w))

theorem beforeR6_0_of {c : Dev nD} (dat : Dat τ (Elt F) Unit ℕ (Pipeline.UD sig nD τ) ℕ (cfgR6 V) c) (hA : dat.A 0 = V c (Pipeline.arrRef spec6 0))
    (hafter : ∀ t, dat.after 0 t = iblkR6 V c 0 t) (t : Fin (cfgR6 V).N) (d) : dat.before 0 t d = iblkR6 V c 0 t :=
  (dat.before_in_eq_fetched 0 rfl (fun _ => rfl) (fun _ _ _ => rfl) (fun t => by rw [hafter]; unfold Dat.blockOf iblkR6; rw [hA]; try rfl) t d).trans
    (by unfold Dat.fetched Dat.blockOf iblkR6; rw [hA]; try rfl)

abbrev msR6_0 (t : Fin (cfgR6 V).N) : Memref sig .tc .vmem S1x128 .f32 := spec6_0.stage ((cfgR6 V).slots t 0)
abbrev hsR6_0 (t : Fin (cfgR6 V).N) : (msR6_0 V t).IsWhole := hstage6_0 (((cfgR6 V).slots t 0).cast nbuf6_0)
abbrev msR6_1 (t : Fin (cfgR6 V).N) : Memref sig .tc .vmem S8x128 .f32 := spec6_1.stage ((cfgR6 V).slots t 1)
abbrev hsR6_1 (t : Fin (cfgR6 V).N) : (msR6_1 V t).IsWhole := hstage6_1 (((cfgR6 V).slots t 1).cast nbuf6_1)

abbrev bodyAtR6 (t : Fin (cfgR6 V).N) : Prog (TpuEff nD τ sig (Elt F) Λ₀ .tc) PUnit :=
  cc6__embed_kernel (grid6.coords t) (Memref.whole main_v15) (Memref.isWhole_whole _) (Memref.whole main_v0) (Memref.isWhole_whole _)
    (spec6_0.stage ((cfgR6 V).slots t 0)) (hstage6_0 (((cfgR6 V).slots t 0).cast nbuf6_0))
    (spec6_1.stage ((cfgR6 V).slots t 1)) (hstage6_1 (((cfgR6 V).slots t 1).cast nbuf6_1))
    (Memref.whole cc6_scratch0) (Memref.isWhole_whole _) cc6_scratch1

def fsJR6 (c : Dev nD) : MBuf (F := F) c scMR6 := fun _ => Classical.arbitrary _

/-- What point t leaves in its output block. -/
def outsAtR6 (hH : HypsR6 V) (c : Dev nD) (t : Fin (cfgR6 V).N) : Vec F S8x128 .f32 :=
  outR6 c (grid6.coords t) (msR6_0 V t) (hsR6_0 V t) (msR6_1 V t) (hsR6_1 V t) (iblkR6 V c 0 t) (tblR6 V 0) (V c main_v0) (fsJR6 c) (hH c t)

abbrev osemR6 : Fin 8 → SemLoc sig := fun j => (![SemLoc.dma 69, SemLoc.dma 70, SemLoc.dma 71, SemLoc.dma 72, SemLoc.dma 73, SemLoc.dma 74, SemLoc.dma 75, SemLoc.dma 76] : Fin 8 → SemLoc sig) j
theorem ownSemFactsR6 : Pipeline.OwnSemFacts spec6 osemR6 := by decide
theorem ownSemsR6_eq (c : Dev nD) :
    (Pipeline.ownSems0 (Ix := Unit) (Name := ℕ) (U := Pipeline.UD sig nD τ) (Lvl := ℕ) (Val := Elt F) (τ := τ) osemR6 c : sProp 𝕄)
      = iprop(semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0) := by
  rw [Pipeline.ownSems0_eq_of_list c osemR6 [0, 1, 2, 3, 4, 5, 6, 7] (by decide) (by decide)]; rfl

def HR6 : Finset (Ref sig .tc) := {main_v0}
theorem HR6_sub : HR6 ⊆ Pipeline.restRefsP sig pre6 spec6 := by decide
theorem hbmPtsR6_eq (c : Dev nD) :
    (bigSep HR6 (fun b => ((c : Thread nD τ).loc b) ↦{fullShare} V c b) : sProp 𝕄) = iprop(mPt c hbM (V c main_v0)) := by
  rw [BI.bigSep_eq_bigSepL_of_eq [main_v0] (by decide) (by decide)]; rfl
theorem prefR6_eq (c : Dev nD) :
    (Pipeline.prefHeld (Ix := Unit) (Name := ℕ) (U := Pipeline.UD sig nD τ) (Lvl := ℕ) pre6 c (fun _ => fullShare) (tblR6 V) : sProp 𝕄) = iprop(mPt c tbMR6 (tblR6 V 0)) := by
  unfold Pipeline.prefHeld
  rw [show (Finset.univ : Finset (Fin 1)) = {(0 : Fin 1)} from by decide, bigSep_singleton]
  rfl

abbrev PhiR6 (c : Dev nD) : sProp 𝕄 :=
  iprop(Pipeline.ΦD osemR6 spec6 HR6 V c ∗ Pipeline.prefHeld (Ix := Unit) (Name := ℕ) (U := Pipeline.UD sig nD τ) (Lvl := ℕ) pre6 c (fun _ => fullShare) (tblR6 V))

theorem PhiR6_eq (c : Dev nD) :
    (PhiR6 V c : sProp 𝕄)
      = iprop(iprop(iprop((∃ d, owns (c : Thread nD τ) scMR6 fullShare d) ∗ Pipeline.scopedRestBut (Ix := Unit) (Name := ℕ) (U := Pipeline.UD sig nD τ) (Lvl := ℕ) (Val := Elt F) spec6 c [cc6_scratch0])
          ∗ (∃ r, prngReg c r) ∗ iprop(semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0) ∗ iprop(mPt c hbM (V c main_v0))) ∗ iprop(mPt c tbMR6 (tblR6 V 0))) := by
  unfold PhiR6
  rw [Pipeline.ΦD_eq, scopedRest6_split, ownSemsR6_eq, hbmPtsR6_eq, prefR6_eq]; simp only [scMR6, owns_whole]; try rfl

def datR6 (hH : HypsR6 V) (c : Dev nD) : Dat τ (Elt F) Unit ℕ (Pipeline.UD sig nD τ) ℕ (cfgR6 V) c where
  A w := V c (Pipeline.arrRef spec6 w)
  after w t := match w with
    | ⟨0, _⟩ => iblkR6 V c 0 t
    | ⟨1, _⟩ => outsAtR6 V hH c t
  Φ _ := PhiR6 V c
  q _ := fullShare
  owed _ := 0

theorem A_eqR6 (hH : HypsR6 V) (c : Dev nD) (w : Fin (cfgR6 V).W) : (datR6 V hH c).A w = V c (Pipeline.arrRef spec6 w) := by
  dsimp only [datR6]
theorem afterR6_0 (hH : HypsR6 V) (c : Dev nD) (t : Fin (cfgR6 V).N) : (datR6 V hH c).after 0 t = iblkR6 V c 0 t := by dsimp only [datR6]; try rfl
theorem afterR6_1 (hH : HypsR6 V) (c : Dev nD) (t : Fin (cfgR6 V).N) : (datR6 V hH c).after 1 t = outsAtR6 V hH c t := by dsimp only [datR6]; try rfl
theorem beforeR6_0 (hH : HypsR6 V) (c : Dev nD) (t : Fin (cfgR6 V).N) (d) : (datR6 V hH c).before 0 t d = iblkR6 V c 0 t :=
  beforeR6_0_of V (datR6 V hH c) (A_eqR6 V hH c 0) (afterR6_0 V hH c) t d

abbrev remR6 (c : Dev nD) (f : MBuf (F := F) c hbM) : sProp 𝕄 :=
  iprop((hbM.view.loc (c : Thread nD τ) ↦{Transfers.shareDrop fullShare (69 + 8)} f)
    ∗ BI.bigSep (Finset.range 69) (fun i => hbM.view.loc (c : Thread nD τ) ↦{Transfers.shareTokN fullShare i} f))

theorem tok_splitR6 (c : Dev nD) (f : MBuf (F := F) c hbM) :
    (mPt c hbM f : sProp 𝕄) ⊢ iprop(remR6 c f ∗ tokPt c hbM 69 f ∗ tokPt c hbM 70 f ∗ tokPt c hbM 71 f ∗ tokPt c hbM 72 f ∗ tokPt c hbM 73 f ∗ tokPt c hbM 74 f ∗ tokPt c hbM 75 f ∗ tokPt c hbM 76 f) :=
  Transfers.pointsTo_window_split (Ix := Unit) (Name := ℕ) (U := Pipeline.UD sig nD τ) (Lvl := ℕ) fullShare 69

theorem tok_joinR6 (c : Dev nD) (f : MBuf (F := F) c hbM) :
    iprop(remR6 c f ∗ tokPt c hbM 69 f ∗ tokPt c hbM 70 f ∗ tokPt c hbM 71 f ∗ tokPt c hbM 72 f ∗ tokPt c hbM 73 f ∗ tokPt c hbM 74 f ∗ tokPt c hbM 75 f ∗ tokPt c hbM 76 f) ⊢ (mPt c hbM f : sProp 𝕄) :=
  Transfers.pointsTo_window_join (Ix := Unit) (Name := ℕ) (U := Pipeline.UD sig nD τ) (Lvl := ℕ) fullShare 69

def bodyPreR6 (hH : HypsR6 V) (c : Dev nD) (t : Fin (cfgR6 V).N) : sProp 𝕄 :=
  iprop((datR6 V hH c).Φ t.castSucc ∗ (datR6 V hH c).owesAt () t.castSucc
    ∗ (∃ d, owns (c : Thread nD τ) (msR6_0 V t) fullShare ((datR6 V hH c).before 0 t d))
    ∗ (∃ d, owns (c : Thread nD τ) (msR6_1 V t) fullShare ((datR6 V hH c).before 1 t d)))

def bodyPostR6 (hH : HypsR6 V) (c : Dev nD) (t : Fin (cfgR6 V).N) : sProp 𝕄 :=
  iprop((datR6 V hH c).Φ t.succ ∗ (datR6 V hH c).owesAt () t.succ
    ∗ owns (c : Thread nD τ) (msR6_0 V t) fullShare ((datR6 V hH c).after 0 t)
    ∗ owns (c : Thread nD τ) (msR6_1 V t) fullShare ((datR6 V hH c).after 1 t))

set_option maxHeartbeats 2000000 in
/-- The body at any point leaves the output block at `outsAtR6`, whatever the scratch tile held before. -/
theorem sound_bodyR6 (hH : HypsR6 V) (c : Dev nD) (t : Fin (cfgR6 V).N) :
    bodyPreR6 V hH c t ⊢ wp frame (wpE (defs₀ (F := F)) Variants.none c none) Set.univ (bodyAtR6 V t) (fun _ => bodyPostR6 V hH c t) := by
  unfold bodyPreR6 bodyPostR6 bodyAtR6
  simp only [beforeR6_0]
  rw [show (datR6 V hH c).Φ t.succ = (datR6 V hH c).Φ t.castSucc from rfl, afterR6_0, afterR6_1]
  rw [show (datR6 V hH c).Φ t.castSucc = PhiR6 V c from rfl, PhiR6_eq]
  unfold Dat.owesAt Pipeline.owesWithin
  rw [show (datR6 V hH c).owed t.castSucc = 0 from rfl, show (datR6 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR6) $$ HS0
  icases HS0 with ⟨%fs0, HS0⟩
  ihave Hh := (tok_splitR6 c (V c main_v0)) $$ Hh
  icases Hh with ⟨Hhr, Hh0, Hh1, Hh2, Hh3, Hh4, Hh5, Hh6, Hh7⟩
  iapply ((kernelRunR6 c (grid6.coords t) (msR6_0 V t) (hsR6_0 V t) (msR6_1 V t) (hsR6_1 V t) (iblkR6 V c 0 t) (tblR6 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR6 c (V c main_v0)) $$ [Hhr Hh0 Hh1 Hh2 Hh3 Hh4 Hh5 Hh6 Hh7]
  · iframe
  ihave HS0 := (scr_close c scMR6) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR6
  rw [← outR6_indep c (grid6.coords t) (msR6_0 V t) (hsR6_0 V t) (msR6_1 V t) (hsR6_1 V t) (iblkR6 V c 0 t) (tblR6 V 0) (V c main_v0) fs0 (hH c t) (fsJR6 c)]
  unfold outR6
  exact View.read_writes_of_cover _ _ _ _ _ (coverR6 c (grid6.coords t) (msR6_0 V t) (hsR6_0 V t) (msR6_1 V t) (hsR6_1 V t) (iblkR6 V c 0 t) (tblR6 V 0) (V c main_v0) fs0 (hH c t))

theorem body_obligationR6 (hH : HypsR6 V) (c : Dev nD) :
    BodyObligation (datR6 (F := F) V hH c) (defs₀ (F := F)) Variants.none () Set.univ := fun t => by
  rw [bigSep_W6, bigSep_W6]
  exact sound_bodyR6 V hH c t

end Region

end Cert.Kernel.Emb

end
-- ==== Proof.Kernel.Hyp6.lean ====
import proofs.«418142_j33036888441229_2_alg».proof.Proof.Kernel.Reg6

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR6 (V : (c : Dev nD) → (b : Ref sig .tc) → Buf (Elt F) ((c : Thread nD τ).loc b))
    (h : ∀ p : S32768.Idx, BitVec.toNat (tbMR6.view.read (Elt F) (tblR6 V 0) p) < 50257) : HypsR6 V := by
  intro c t
  have r : ∀ (lr : LoadRect S32768) (i : lr.shape.Idx) (a : Fin 2),
      (![BitVec.toNat (tbMR6.view.readAt (Elt F) lr (tblR6 V 0) i), 0] : Fin 2 → ℕ) a + S1x128.size a ≤ S50257x128.size a :=
    fun lr i => row_inside _ (h (lr.idx i))
  unfold OkR6 k6_chk1 k6_chk2 k6_chk3 k6_chk4 k6_chk5 k6_chk6 k6_chk7 k6_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.Kernel.Emb

end
-- ==== Proof.Kernel.Run7.lean ====
import proofs.«418142_j33036888441229_2_alg».proof.Proof.Kernel.Common

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR7 : Memref sig .tc .smem S32768 .i32 := Memref.whole main_v17
abbrev htbMR7 : tbMR7.IsWhole := Memref.isWhole_whole _
abbrev scMR7 : Memref sig .tc .vmem S8x128 .f32 := Memref.whole cc7_scratch0
abbrev hscMR7 : scMR7.IsWhole := Memref.isWhole_whole _

section
variable (c : Dev nD) (i : grid7.Coords) (xt : MBuf (F := F) c tbMR7)

/-- The word of the index table at offsets `off`. -/
abbrev wordR7 (off : Fin 1 → ℕ) (inb : ∀ a, off a + S1.size a ≤ S32768.size a) : Elt F .i32 :=
  tbMR7.view.readAt (Elt F) (Rect.unit (s := S32768) off S1.size inb).toLoadRect xt (Shape.Idx.first (numel1_S1.symm ▸ Nat.one_pos))

/-- Each of the eight token ids the point at `i` reads is a row number of the gather table. -/
def OkR7 : Prop :=
  k7_chk1 (wordR7 c xt (k7_off1 i) (k7_off1_inb i)) ∧ k7_chk2 (wordR7 c xt (k7_off3 i) (k7_off3_inb i)) ∧ k7_chk3 (wordR7 c xt (k7_off5 i) (k7_off5_inb i)) ∧ k7_chk4 (wordR7 c xt (k7_off7 i) (k7_off7_inb i)) ∧ k7_chk5 (wordR7 c xt (k7_off9 i) (k7_off9_inb i)) ∧ k7_chk6 (wordR7 c xt (k7_off11 i) (k7_off11_inb i)) ∧ k7_chk7 (wordR7 c xt (k7_off13 i) (k7_off13_inb i)) ∧ k7_chk8 (wordR7 c xt (k7_off15 i) (k7_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR7 (c : Dev nD) (i : grid7.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR7) (fh : MBuf (F := F) c hbM) (fs0 : MBuf (F := F) c scMR7)
    (h : OkR7 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR7 fs0
            ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0
            ∗ tokPt c hbM 80 fh ∗ tokPt c hbM 81 fh ∗ tokPt c hbM 82 fh ∗ tokPt c hbM 83 fh ∗ tokPt c hbM 84 fh ∗ tokPt c hbM 85 fh ∗ tokPt c hbM 86 fh ∗ tokPt c hbM 87 fh ∗ mPt c tbMR7 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR7 f)
                ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0
                ∗ tokPt c hbM 80 fh ∗ tokPt c hbM 81 fh ∗ tokPt c hbM 82 fh ∗ tokPt c hbM 83 fh ∗ tokPt c hbM 84 fh ∗ tokPt c hbM 85 fh ∗ tokPt c hbM 86 fh ∗ tokPt c hbM 87 fh ∗ mPt c tbMR7 xt ∗ (∃ W', owes (c : Thread nD τ) 0 W')) -∗ K ⟨⟩))
          ⊢ wp frame (wpE (defs₀ (F := F)) Variants.none c none) Set.univ (cc7__embed_kernel i tbMR7 htbMR7 hbM hhbM arg3 harg3 arg4 harg4 scMR7 hscMR7 cc7_scratch1) K } := by
  refine ⟨?_, fun W K => ?run⟩
  case run =>
    simp only [cc7__embed_kernel_eq_skeleton]; unfold cc7__embed_kernel_skel
    simp only [k7_part1_eq_skeleton, k7_part2_eq_skeleton, k7_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid7.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR7) (fh : MBuf (F := F) c hbM) (fs0 : MBuf (F := F) c scMR7) (h : OkR7 c i xt)

/-- The run's one piece is a store of the whole 8 × 128 block. -/
theorem coverR7 (y : S8x128.Idx) : ∃ pc ∈ (kernelRunR7 c i arg3 harg3 arg4 harg4 x0 xt fh fs0 h).1, y ∈ pc.1.set :=
  View.cover_of_tiledL (kernelRunR7 c i arg3 harg3 arg4 harg4 x0 xt fh fs0 h).1 S8x128.size (by sl_kernel_rfl) y

abbrev VOR7 : View sig .tc .vmem S8x128 .f32 := (Memref.whole cc7_stg1_0 : Memref sig .tc .vmem S8x128 .f32).view

/-- What the run leaves in the output block: its pieces read back. -/
def outR7 : Vec F S8x128 .f32 :=
  VOR7.read (Elt F) (VOR7.writes (Elt F) VOR7.junk (kernelRunR7 c i arg3 harg3 arg4 harg4 x0 xt fh fs0 h).1)

end

end Cert.Kernel.Emb

end
-- ==== Proof.Kernel.Rows7.lean ====
import proofs.«418142_j33036888441229_2_alg».proof.Proof.Kernel.Run7
import proofs.«418142_j33036888441229_2_alg».proof.Proof.RowsLib
import Idealize.ShloMosaic.Lib.ValueIdx
import Idealize.ShloMosaic.Lib.Pipeline.Value

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid7.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR7) (fh : MBuf (F := F) c hbM) (fs0 : MBuf (F := F) c scMR7) (h : OkR7 c i xt)

/-- The gathered tile: row r is what the r-th copy brings. -/
def gatherR7 : Vec F S8x128 .f32 :=
  rows8 (kernelRunR7.sl.dma1 c i xt fh h) (kernelRunR7.sl.dma2 c i xt fh h) (kernelRunR7.sl.dma3 c i xt fh h) (kernelRunR7.sl.dma4 c i xt fh h)
    (kernelRunR7.sl.dma5 c i xt fh h) (kernelRunR7.sl.dma6 c i xt fh h) (kernelRunR7.sl.dma7 c i xt fh h) (kernelRunR7.sl.dma8 c i xt fh h)

set_option maxHeartbeats 400000 in
/-- The tile as loaded after the eight copies is the gathered tile: the eight rows cover it, so its earlier contents do not matter. -/
theorem tileR7_eq : kernelRunR7.sl.v121 c i xt fh fs0 h = gatherR7 c i xt fh h := by
  unfold kernelRunR7.sl.v121 gatherR7
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR7.view _ _ _ _ _ _ _ _ squeezes_S1x128_S128.numel_eq fs0 _ _ _ _ _ _ _ _ r j

/-- The block stored: the gathered tile plus the bias row. -/
theorem outR7_eq : outR7 c i arg3 harg3 arg4 harg4 x0 xt fh fs0 h = k7_pay1 (gatherR7 c i xt fh h) x0 := by
  unfold outR7
  rw [View.read_writes_eq_canon _ _ _ (coverR7 c i arg3 harg3 arg4 harg4 x0 xt fh fs0 h)]
  unfold kernelRunR7
  dsimp only
  rw [View.canon_unit_zero (S := S8x128) zero2, tileR7_eq c i xt fh fs0 h,
    View.readAt_eq_ld, harg3.read_unread, View.ld_unit_zero (S := S1x128) zero2]

theorem outR7_indep (fs0' : MBuf (F := F) c scMR7) :
    outR7 c i arg3 harg3 arg4 harg4 x0 xt fh fs0 h = outR7 c i arg3 harg3 arg4 harg4 x0 xt fh fs0' h :=
  (outR7_eq c i arg3 harg3 arg4 harg4 x0 xt fh fs0 h).trans (outR7_eq c i arg3 harg3 arg4 harg4 x0 xt fh fs0' h).symm

end

end Cert.Kernel.Emb

end
-- ==== Proof.Kernel.Reg7.lean ====
import proofs.«418142_j33036888441229_2_alg».proof.Proof.Kernel.Rows7
import proofs.«418142_j33036888441229_2_alg».proof.Proof.LibReadShares

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR7 : pre7.Contents (Elt F) := fun j => V (0 : Dev nD) (pre7.ref j)
theorem V_preR7 (c : Dev nD) (j : Fin 1) : V c (pre7.ref j) = tblR7 V j := by
  obtain rfl : c = 0 := Subsingleton.elim _ _; rfl

abbrev admR7 : (pcfg7 (F := F)).Adm := ⟨tblR7 V, (ok7.eq_1 (tblR7 V)).mpr trivial⟩
abbrev cfgR7 : Pipeline.Cfg sig Λ₀ := cfg7 (admR7 V)

/-- At every point the eight token ids read are row numbers of the gather table. -/
def HypsR7 : Prop := ∀ (c : Dev nD) (t : Fin (cfgR7 V).N), OkR7 c (grid7.coords t) (tblR7 V 0)

/-- Window w's block at point t, read off its array as entered. -/
def iblkR7 (c : Dev nD) (w : Fin (cfgR7 V).W) (t : Fin (cfgR7 V).N) : (((cfgR7 V).win w).xblock ((cfgR7 V).grid.coords t)).Idx → Elt F ((cfgR7 V).win w).elt :=
  (((cfgR7 V).win w).blk t).view.read (Elt F) (V c (Pipeline.arrRef spec7 w))

theorem beforeR7_0_of {c : Dev nD} (dat : Dat τ (Elt F) Unit ℕ (Pipeline.UD sig nD τ) ℕ (cfgR7 V) c) (hA : dat.A 0 = V c (Pipeline.arrRef spec7 0))
    (hafter : ∀ t, dat.after 0 t = iblkR7 V c 0 t) (t : Fin (cfgR7 V).N) (d) : dat.before 0 t d = iblkR7 V c 0 t :=
  (dat.before_in_eq_fetched 0 rfl (fun _ => rfl) (fun _ _ _ => rfl) (fun t => by rw [hafter]; unfold Dat.blockOf iblkR7; rw [hA]; try rfl) t d).trans
    (by unfold Dat.fetched Dat.blockOf iblkR7; rw [hA]; try rfl)

abbrev msR7_0 (t : Fin (cfgR7 V).N) : Memref sig .tc .vmem S1x128 .f32 := spec7_0.stage ((cfgR7 V).slots t 0)
abbrev hsR7_0 (t : Fin (cfgR7 V).N) : (msR7_0 V t).IsWhole := hstage7_0 (((cfgR7 V).slots t 0).cast nbuf7_0)
abbrev msR7_1 (t : Fin (cfgR7 V).N) : Memref sig .tc .vmem S8x128 .f32 := spec7_1.stage ((cfgR7 V).slots t 1)
abbrev hsR7_1 (t : Fin (cfgR7 V).N) : (msR7_1 V t).IsWhole := hstage7_1 (((cfgR7 V).slots t 1).cast nbuf7_1)

abbrev bodyAtR7 (t : Fin (cfgR7 V).N) : Prog (TpuEff nD τ sig (Elt F) Λ₀ .tc) PUnit :=
  cc7__embed_kernel (grid7.coords t) (Memref.whole main_v17) (Memref.isWhole_whole _) (Memref.whole main_v0) (Memref.isWhole_whole _)
    (spec7_0.stage ((cfgR7 V).slots t 0)) (hstage7_0 (((cfgR7 V).slots t 0).cast nbuf7_0))
    (spec7_1.stage ((cfgR7 V).slots t 1)) (hstage7_1 (((cfgR7 V).slots t 1).cast nbuf7_1))
    (Memref.whole cc7_scratch0) (Memref.isWhole_whole _) cc7_scratch1

def fsJR7 (c : Dev nD) : MBuf (F := F) c scMR7 := fun _ => Classical.arbitrary _

/-- What point t leaves in its output block. -/
def outsAtR7 (hH : HypsR7 V) (c : Dev nD) (t : Fin (cfgR7 V).N) : Vec F S8x128 .f32 :=
  outR7 c (grid7.coords t) (msR7_0 V t) (hsR7_0 V t) (msR7_1 V t) (hsR7_1 V t) (iblkR7 V c 0 t) (tblR7 V 0) (V c main_v0) (fsJR7 c) (hH c t)

abbrev osemR7 : Fin 8 → SemLoc sig := fun j => (![SemLoc.dma 80, SemLoc.dma 81, SemLoc.dma 82, SemLoc.dma 83, SemLoc.dma 84, SemLoc.dma 85, SemLoc.dma 86, SemLoc.dma 87] : Fin 8 → SemLoc sig) j
theorem ownSemFactsR7 : Pipeline.OwnSemFacts spec7 osemR7 := by decide
theorem ownSemsR7_eq (c : Dev nD) :
    (Pipeline.ownSems0 (Ix := Unit) (Name := ℕ) (U := Pipeline.UD sig nD τ) (Lvl := ℕ) (Val := Elt F) (τ := τ) osemR7 c : sProp 𝕄)
      = iprop(semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0) := by
  rw [Pipeline.ownSems0_eq_of_list c osemR7 [0, 1, 2, 3, 4, 5, 6, 7] (by decide) (by decide)]; rfl

def HR7 : Finset (Ref sig .tc) := {main_v0}
theorem HR7_sub : HR7 ⊆ Pipeline.restRefsP sig pre7 spec7 := by decide
theorem hbmPtsR7_eq (c : Dev nD) :
    (bigSep HR7 (fun b => ((c : Thread nD τ).loc b) ↦{fullShare} V c b) : sProp 𝕄) = iprop(mPt c hbM (V c main_v0)) := by
  rw [BI.bigSep_eq_bigSepL_of_eq [main_v0] (by decide) (by decide)]; rfl
theorem prefR7_eq (c : Dev nD) :
    (Pipeline.prefHeld (Ix := Unit) (Name := ℕ) (U := Pipeline.UD sig nD τ) (Lvl := ℕ) pre7 c (fun _ => fullShare) (tblR7 V) : sProp 𝕄) = iprop(mPt c tbMR7 (tblR7 V 0)) := by
  unfold Pipeline.prefHeld
  rw [show (Finset.univ : Finset (Fin 1)) = {(0 : Fin 1)} from by decide, bigSep_singleton]
  rfl

abbrev PhiR7 (c : Dev nD) : sProp 𝕄 :=
  iprop(Pipeline.ΦD osemR7 spec7 HR7 V c ∗ Pipeline.prefHeld (Ix := Unit) (Name := ℕ) (U := Pipeline.UD sig nD τ) (Lvl := ℕ) pre7 c (fun _ => fullShare) (tblR7 V))

theorem PhiR7_eq (c : Dev nD) :
    (PhiR7 V c : sProp 𝕄)
      = iprop(iprop(iprop((∃ d, owns (c : Thread nD τ) scMR7 fullShare d) ∗ Pipeline.scopedRestBut (Ix := Unit) (Name := ℕ) (U := Pipeline.UD sig nD τ) (Lvl := ℕ) (Val := Elt F) spec7 c [cc7_scratch0])
          ∗ (∃ r, prngReg c r) ∗ iprop(semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0) ∗ iprop(mPt c hbM (V c main_v0))) ∗ iprop(mPt c tbMR7 (tblR7 V 0))) := by
  unfold PhiR7
  rw [Pipeline.ΦD_eq, scopedRest7_split, ownSemsR7_eq, hbmPtsR7_eq, prefR7_eq]; simp only [scMR7, owns_whole]; try rfl

def datR7 (hH : HypsR7 V) (c : Dev nD) : Dat τ (Elt F) Unit ℕ (Pipeline.UD sig nD τ) ℕ (cfgR7 V) c where
  A w := V c (Pipeline.arrRef spec7 w)
  after w t := match w with
    | ⟨0, _⟩ => iblkR7 V c 0 t
    | ⟨1, _⟩ => outsAtR7 V hH c t
  Φ _ := PhiR7 V c
  q _ := fullShare
  owed _ := 0

theorem A_eqR7 (hH : HypsR7 V) (c : Dev nD) (w : Fin (cfgR7 V).W) : (datR7 V hH c).A w = V c (Pipeline.arrRef spec7 w) := by
  dsimp only [datR7]
theorem afterR7_0 (hH : HypsR7 V) (c : Dev nD) (t : Fin (cfgR7 V).N) : (datR7 V hH c).after 0 t = iblkR7 V c 0 t := by dsimp only [datR7]; try rfl
theorem afterR7_1 (hH : HypsR7 V) (c : Dev nD) (t : Fin (cfgR7 V).N) : (datR7 V hH c).after 1 t = outsAtR7 V hH c t := by dsimp only [datR7]; try rfl
theorem beforeR7_0 (hH : HypsR7 V) (c : Dev nD) (t : Fin (cfgR7 V).N) (d) : (datR7 V hH c).before 0 t d = iblkR7 V c 0 t :=
  beforeR7_0_of V (datR7 V hH c) (A_eqR7 V hH c 0) (afterR7_0 V hH c) t d

abbrev remR7 (c : Dev nD) (f : MBuf (F := F) c hbM) : sProp 𝕄 :=
  iprop((hbM.view.loc (c : Thread nD τ) ↦{Transfers.shareDrop fullShare (80 + 8)} f)
    ∗ BI.bigSep (Finset.range 80) (fun i => hbM.view.loc (c : Thread nD τ) ↦{Transfers.shareTokN fullShare i} f))

theorem tok_splitR7 (c : Dev nD) (f : MBuf (F := F) c hbM) :
    (mPt c hbM f : sProp 𝕄) ⊢ iprop(remR7 c f ∗ tokPt c hbM 80 f ∗ tokPt c hbM 81 f ∗ tokPt c hbM 82 f ∗ tokPt c hbM 83 f ∗ tokPt c hbM 84 f ∗ tokPt c hbM 85 f ∗ tokPt c hbM 86 f ∗ tokPt c hbM 87 f) :=
  Transfers.pointsTo_window_split (Ix := Unit) (Name := ℕ) (U := Pipeline.UD sig nD τ) (Lvl := ℕ) fullShare 80

theorem tok_joinR7 (c : Dev nD) (f : MBuf (F := F) c hbM) :
    iprop(remR7 c f ∗ tokPt c hbM 80 f ∗ tokPt c hbM 81 f ∗ tokPt c hbM 82 f ∗ tokPt c hbM 83 f ∗ tokPt c hbM 84 f ∗ tokPt c hbM 85 f ∗ tokPt c hbM 86 f ∗ tokPt c hbM 87 f) ⊢ (mPt c hbM f : sProp 𝕄) :=
  Transfers.pointsTo_window_join (Ix := Unit) (Name := ℕ) (U := Pipeline.UD sig nD τ) (Lvl := ℕ) fullShare 80

def bodyPreR7 (hH : HypsR7 V) (c : Dev nD) (t : Fin (cfgR7 V).N) : sProp 𝕄 :=
  iprop((datR7 V hH c).Φ t.castSucc ∗ (datR7 V hH c).owesAt () t.castSucc
    ∗ (∃ d, owns (c : Thread nD τ) (msR7_0 V t) fullShare ((datR7 V hH c).before 0 t d))
    ∗ (∃ d, owns (c : Thread nD τ) (msR7_1 V t) fullShare ((datR7 V hH c).before 1 t d)))

def bodyPostR7 (hH : HypsR7 V) (c : Dev nD) (t : Fin (cfgR7 V).N) : sProp 𝕄 :=
  iprop((datR7 V hH c).Φ t.succ ∗ (datR7 V hH c).owesAt () t.succ
    ∗ owns (c : Thread nD τ) (msR7_0 V t) fullShare ((datR7 V hH c).after 0 t)
    ∗ owns (c : Thread nD τ) (msR7_1 V t) fullShare ((datR7 V hH c).after 1 t))

set_option maxHeartbeats 2000000 in
/-- The body at any point leaves the output block at `outsAtR7`, whatever the scratch tile held before. -/
theorem sound_bodyR7 (hH : HypsR7 V) (c : Dev nD) (t : Fin (cfgR7 V).N) :
    bodyPreR7 V hH c t ⊢ wp frame (wpE (defs₀ (F := F)) Variants.none c none) Set.univ (bodyAtR7 V t) (fun _ => bodyPostR7 V hH c t) := by
  unfold bodyPreR7 bodyPostR7 bodyAtR7
  simp only [beforeR7_0]
  rw [show (datR7 V hH c).Φ t.succ = (datR7 V hH c).Φ t.castSucc from rfl, afterR7_0, afterR7_1]
  rw [show (datR7 V hH c).Φ t.castSucc = PhiR7 V c from rfl, PhiR7_eq]
  unfold Dat.owesAt Pipeline.owesWithin
  rw [show (datR7 V hH c).owed t.castSucc = 0 from rfl, show (datR7 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR7) $$ HS0
  icases HS0 with ⟨%fs0, HS0⟩
  ihave Hh := (tok_splitR7 c (V c main_v0)) $$ Hh
  icases Hh with ⟨Hhr, Hh0, Hh1, Hh2, Hh3, Hh4, Hh5, Hh6, Hh7⟩
  iapply ((kernelRunR7 c (grid7.coords t) (msR7_0 V t) (hsR7_0 V t) (msR7_1 V t) (hsR7_1 V t) (iblkR7 V c 0 t) (tblR7 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR7 c (V c main_v0)) $$ [Hhr Hh0 Hh1 Hh2 Hh3 Hh4 Hh5 Hh6 Hh7]
  · iframe
  ihave HS0 := (scr_close c scMR7) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR7
  rw [← outR7_indep c (grid7.coords t) (msR7_0 V t) (hsR7_0 V t) (msR7_1 V t) (hsR7_1 V t) (iblkR7 V c 0 t) (tblR7 V 0) (V c main_v0) fs0 (hH c t) (fsJR7 c)]
  unfold outR7
  exact View.read_writes_of_cover _ _ _ _ _ (coverR7 c (grid7.coords t) (msR7_0 V t) (hsR7_0 V t) (msR7_1 V t) (hsR7_1 V t) (iblkR7 V c 0 t) (tblR7 V 0) (V c main_v0) fs0 (hH c t))

theorem body_obligationR7 (hH : HypsR7 V) (c : Dev nD) :
    BodyObligation (datR7 (F := F) V hH c) (defs₀ (F := F)) Variants.none () Set.univ := fun t => by
  rw [bigSep_W7, bigSep_W7]
  exact sound_bodyR7 V hH c t

end Region

end Cert.Kernel.Emb

end
-- ==== Proof.Kernel.Hyp7.lean ====
import proofs.«418142_j33036888441229_2_alg».proof.Proof.Kernel.Reg7

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR7 (V : (c : Dev nD) → (b : Ref sig .tc) → Buf (Elt F) ((c : Thread nD τ).loc b))
    (h : ∀ p : S32768.Idx, BitVec.toNat (tbMR7.view.read (Elt F) (tblR7 V 0) p) < 50257) : HypsR7 V := by
  intro c t
  have r : ∀ (lr : LoadRect S32768) (i : lr.shape.Idx) (a : Fin 2),
      (![BitVec.toNat (tbMR7.view.readAt (Elt F) lr (tblR7 V 0) i), 0] : Fin 2 → ℕ) a + S1x128.size a ≤ S50257x128.size a :=
    fun lr i => row_inside _ (h (lr.idx i))
  unfold OkR7 k7_chk1 k7_chk2 k7_chk3 k7_chk4 k7_chk5 k7_chk6 k7_chk7 k7_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.Kernel.Emb

end
-- ==== Proof.Kernel.Fold.lean ====
import proofs.«418142_j33036888441229_2_alg».proof.Proof.Kernel.Hyp0
import proofs.«418142_j33036888441229_2_alg».proof.Proof.Kernel.Hyp1
import proofs.«418142_j33036888441229_2_alg».proof.Proof.Kernel.Hyp2
import proofs.«418142_j33036888441229_2_alg».proof.Proof.Kernel.Hyp3
import proofs.«418142_j33036888441229_2_alg».proof.Proof.Kernel.Hyp4
import proofs.«418142_j33036888441229_2_alg».proof.Proof.Kernel.Hyp5
import proofs.«418142_j33036888441229_2_alg».proof.Proof.Kernel.Hyp6
import proofs.«418142_j33036888441229_2_alg».proof.Proof.Kernel.Hyp7
import proofs.«418142_j33036888441229_2_alg».proof.Proof.Gen.Kernel.Regions
import Idealize.ShloMosaic.Lib.StableHlo.Run
import Idealize.ShloMosaic.Lib.Pipeline.Value

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Fold

variable (m : (ℓ : Loc nD τ sig) → Buf (Elt F) ℓ)
variable (hx : ∀ (c : Dev nD) (j : S64x4096.Idx), BitVec.toNat (m ((c.tc : Thread nD τ).loc main_arg0) j) < 50257)

abbrev W0 (c : Dev nD) : Valuation τ sig (Elt F) := fun b => m (c, b)

/-- After the first stretch: the weight transposed, the token ids flattened, the bias as a row, region 0's table. -/
def W1 (c : Dev nD) : Valuation τ sig (Elt F) := StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
abbrev U1 (c : Dev nD) (b : Ref sig .tc) : Buf (Elt F) ((c : Thread nD τ).loc b) := W1 m c (Proc.devRef .tc b)

theorem flat_eq (c : Dev nD) :
    W1 m c (Proc.devRef .tc main_v1) = (fun i => shapeCast S262144 (m (c, Proc.devRef .tc main_arg0)) shapeCasts_S64x4096_S262144 i) := by
  unfold W1; after_results <;> rfl

theorem v0_eq (c : Dev nD) :
    W1 m c (Proc.devRef .tc main_v0) = transpose S50257x128 [1, 0] (m (c, Proc.devRef .tc main_arg1)) transposes_S128x50257_S50257x128_1_0 := by
  unfold W1; after_results <;> rfl
theorem v2_eq (c : Dev nD) :
    W1 m c (Proc.devRef .tc main_v2) = (fun i => shapeCast S1x128 (m (c, Proc.devRef .tc main_arg2)) shapeCasts_S128_S1x128 i) := by
  unfold W1; after_results <;> rfl
include hx

theorem flat_lt (c : Dev nD) (q : S262144.Idx) : BitVec.toNat (W1 m c (Proc.devRef .tc main_v1) q) < 50257 := by
  rw [flat_eq]; unfold shapeCast; exact hx c _
theorem flat_W1 (c : Dev nD) : W1 m c (Proc.devRef .tc main_v1) = W1 m c (Proc.devRef .tc main_v1) := rfl

/-- Region 0's index table is the first 32768 of the flattened token ids, so each of its words is a token id of the input. -/
theorem tbl_eq0 : W1 m (0 : Dev nD) (Proc.devRef .tc main_v3) = extractStridedSlice S32768 ![0] (W1 m (0 : Dev nD) (Proc.devRef .tc main_v1)) slices_S262144_S32768_0 := by
  rw [flat_eq]; unfold W1; after_results <;> rfl

theorem tbl_lt0 : ∀ p : S32768.Idx, BitVec.toNat (tbMR0.view.read (Elt F) (tblR0 (U1 m) 0) p) < 50257 := by
  intro p
  show BitVec.toNat (W1 m (0 : Dev nD) (Proc.devRef .tc main_v3) p) < 50257
  rw [tbl_eq0 m hx]; unfold extractStridedSlice; exact flat_lt m hx 0 _
theorem hyps0 : HypsR0 (U1 m) := hyps_of_ltR0 _ (tbl_lt0 m hx)

/-- After region 0: its output array rewritten, nothing else. -/
def W2 (c : Dev nD) : Valuation τ sig (Elt F) :=
  Pipeline.withArrays spec0 c (W1 m c) fun w => (datR0 (U1 m) (hyps0 m hx) c).arrAt w (cfgR0 (U1 m)).N
theorem W2_arr (c : Dev nD) (w : Fin (cfgR0 (U1 m)).W) :
    W2 m hx c (Proc.devRef .tc (Pipeline.arrRef spec0 w)) = (datR0 (U1 m) (hyps0 m hx) c).arrAt w (cfgR0 (U1 m)).N := by
  unfold W2; exact Pipeline.withArrays_arr spec0 winFacts0.arr_inj c _ _ w
theorem W2_of_ne (c : Dev nD) (b : Ref sig .tc) (hb : ∀ w, Pipeline.arrRef spec0 w ≠ b) :
    W2 m hx c (Proc.devRef .tc b) = W1 m c (Proc.devRef .tc b) := by
  unfold W2; exact Pipeline.withArrays_of_ne spec0 c _ _ b hb
abbrev U2 (c : Dev nD) (b : Ref sig .tc) : Buf (Elt F) ((c : Thread nD τ).loc b) := W2 m hx c (Proc.devRef .tc b)
theorem hF0 (c : Dev nD) (w : Fin (cfgR0 (U1 m)).W) :
    (datR0 (U1 m) (hyps0 m hx) c).arrAt w (cfgR0 (U1 m)).N = U2 m hx c (Pipeline.arrRef spec0 w) :=
  (W2_arr m hx c w).symm
theorem hrest0 (c : Dev nD) : ∀ b, b ∉ Finset.univ.image (Pipeline.arrRef spec0) → U2 m hx c b = U1 m c b :=
  fun b hb => W2_of_ne m hx c b fun w e => hb (Finset.mem_image.mpr ⟨w, Finset.mem_univ _, e⟩)
theorem flat_W2 (c : Dev nD) : W2 m hx c (Proc.devRef .tc main_v1) = W1 m c (Proc.devRef .tc main_v1) :=
  (W2_of_ne m hx c main_v1 (by decide)).trans (flat_W1 m hx c)

def W3 (c : Dev nD) : Valuation τ sig (Elt F) := StableHlo.after hostOps1 (W2 m hx c)
theorem W3_of (c : Dev nD) (r : Ref sig .tc) (h : r ∉ hostOps1_W) : W3 m hx c (Proc.devRef .tc r) = W2 m hx c (Proc.devRef .tc r) :=
  StableHlo.after_of_writes_sub hostOps1 _ hostOps1_writes h
abbrev U3 (c : Dev nD) (b : Ref sig .tc) : Buf (Elt F) ((c : Thread nD τ).loc b) := W3 m hx c (Proc.devRef .tc b)
theorem flat_W3 (c : Dev nD) : W3 m hx c (Proc.devRef .tc main_v1) = W1 m c (Proc.devRef .tc main_v1) :=
  (W3_of m hx c main_v1 (by decide)).trans (flat_W2 m hx c)

theorem tbl_eq1 : W3 m hx (0 : Dev nD) (Proc.devRef .tc main_v5) = extractStridedSlice S32768 ![32768] (W1 m (0 : Dev nD) (Proc.devRef .tc main_v1)) slices_S262144_S32768_32768 := by
  rw [← flat_W2 m hx (0 : Dev nD)]; unfold W3; after_results <;> rfl

theorem tbl_lt1 : ∀ p : S32768.Idx, BitVec.toNat (tbMR1.view.read (Elt F) (tblR1 (U3 m hx) 0) p) < 50257 := by
  intro p
  show BitVec.toNat (W3 m hx (0 : Dev nD) (Proc.devRef .tc main_v5) p) < 50257
  rw [tbl_eq1 m hx]; unfold extractStridedSlice; exact flat_lt m hx 0 _
theorem hyps1 : HypsR1 (U3 m hx) := hyps_of_ltR1 _ (tbl_lt1 m hx)

def W4 (c : Dev nD) : Valuation τ sig (Elt F) :=
  Pipeline.withArrays spec1 c (W3 m hx c) fun w => (datR1 (U3 m hx) (hyps1 m hx) c).arrAt w (cfgR1 (U3 m hx)).N
theorem W4_arr (c : Dev nD) (w : Fin (cfgR1 (U3 m hx)).W) :
    W4 m hx c (Proc.devRef .tc (Pipeline.arrRef spec1 w)) = (datR1 (U3 m hx) (hyps1 m hx) c).arrAt w (cfgR1 (U3 m hx)).N := by
  unfold W4; exact Pipeline.withArrays_arr spec1 winFacts1.arr_inj c _ _ w
theorem W4_of_ne (c : Dev nD) (b : Ref sig .tc) (hb : ∀ w, Pipeline.arrRef spec1 w ≠ b) :
    W4 m hx c (Proc.devRef .tc b) = W3 m hx c (Proc.devRef .tc b) := by
  unfold W4; exact Pipeline.withArrays_of_ne spec1 c _ _ b hb
abbrev U4 (c : Dev nD) (b : Ref sig .tc) : Buf (Elt F) ((c : Thread nD τ).loc b) := W4 m hx c (Proc.devRef .tc b)
theorem hF1 (c : Dev nD) (w : Fin (cfgR1 (U3 m hx)).W) :
    (datR1 (U3 m hx) (hyps1 m hx) c).arrAt w (cfgR1 (U3 m hx)).N = U4 m hx c (Pipeline.arrRef spec1 w) :=
  (W4_arr m hx c w).symm
theorem hrest1 (c : Dev nD) : ∀ b, b ∉ Finset.univ.image (Pipeline.arrRef spec1) → U4 m hx c b = U3 m hx c b :=
  fun b hb => W4_of_ne m hx c b fun w e => hb (Finset.mem_image.mpr ⟨w, Finset.mem_univ _, e⟩)
theorem flat_W4 (c : Dev nD) : W4 m hx c (Proc.devRef .tc main_v1) = W1 m c (Proc.devRef .tc main_v1) :=
  (W4_of_ne m hx c main_v1 (by decide)).trans (flat_W3 m hx c)

def W5 (c : Dev nD) : Valuation τ sig (Elt F) := StableHlo.after hostOps2 (W4 m hx c)
theorem W5_of (c : Dev nD) (r : Ref sig .tc) (h : r ∉ hostOps2_W) : W5 m hx c (Proc.devRef .tc r) = W4 m hx c (Proc.devRef .tc r) :=
  StableHlo.after_of_writes_sub hostOps2 _ hostOps2_writes h
abbrev U5 (c : Dev nD) (b : Ref sig .tc) : Buf (Elt F) ((c : Thread nD τ).loc b) := W5 m hx c (Proc.devRef .tc b)
theorem flat_W5 (c : Dev nD) : W5 m hx c (Proc.devRef .tc main_v1) = W1 m c (Proc.devRef .tc main_v1) :=
  (W5_of m hx c main_v1 (by decide)).trans (flat_W4 m hx c)

theorem tbl_eq2 : W5 m hx (0 : Dev nD) (Proc.devRef .tc main_v7) = extractStridedSlice S32768 ![65536] (W1 m (0 : Dev nD) (Proc.devRef .tc main_v1)) slices_S262144_S32768_65536 := by
  rw [← flat_W4 m hx (0 : Dev nD)]; unfold W5; after_results <;> rfl

theorem tbl_lt2 : ∀ p : S32768.Idx, BitVec.toNat (tbMR2.view.read (Elt F) (tblR2 (U5 m hx) 0) p) < 50257 := by
  intro p
  show BitVec.toNat (W5 m hx (0 : Dev nD) (Proc.devRef .tc main_v7) p) < 50257
  rw [tbl_eq2 m hx]; unfold extractStridedSlice; exact flat_lt m hx 0 _
theorem hyps2 : HypsR2 (U5 m hx) := hyps_of_ltR2 _ (tbl_lt2 m hx)

def W6 (c : Dev nD) : Valuation τ sig (Elt F) :=
  Pipeline.withArrays spec2 c (W5 m hx c) fun w => (datR2 (U5 m hx) (hyps2 m hx) c).arrAt w (cfgR2 (U5 m hx)).N
theorem W6_arr (c : Dev nD) (w : Fin (cfgR2 (U5 m hx)).W) :
    W6 m hx c (Proc.devRef .tc (Pipeline.arrRef spec2 w)) = (datR2 (U5 m hx) (hyps2 m hx) c).arrAt w (cfgR2 (U5 m hx)).N := by
  unfold W6; exact Pipeline.withArrays_arr spec2 winFacts2.arr_inj c _ _ w
theorem W6_of_ne (c : Dev nD) (b : Ref sig .tc) (hb : ∀ w, Pipeline.arrRef spec2 w ≠ b) :
    W6 m hx c (Proc.devRef .tc b) = W5 m hx c (Proc.devRef .tc b) := by
  unfold W6; exact Pipeline.withArrays_of_ne spec2 c _ _ b hb
abbrev U6 (c : Dev nD) (b : Ref sig .tc) : Buf (Elt F) ((c : Thread nD τ).loc b) := W6 m hx c (Proc.devRef .tc b)
theorem hF2 (c : Dev nD) (w : Fin (cfgR2 (U5 m hx)).W) :
    (datR2 (U5 m hx) (hyps2 m hx) c).arrAt w (cfgR2 (U5 m hx)).N = U6 m hx c (Pipeline.arrRef spec2 w) :=
  (W6_arr m hx c w).symm
theorem hrest2 (c : Dev nD) : ∀ b, b ∉ Finset.univ.image (Pipeline.arrRef spec2) → U6 m hx c b = U5 m hx c b :=
  fun b hb => W6_of_ne m hx c b fun w e => hb (Finset.mem_image.mpr ⟨w, Finset.mem_univ _, e⟩)
theorem flat_W6 (c : Dev nD) : W6 m hx c (Proc.devRef .tc main_v1) = W1 m c (Proc.devRef .tc main_v1) :=
  (W6_of_ne m hx c main_v1 (by decide)).trans (flat_W5 m hx c)

def W7 (c : Dev nD) : Valuation τ sig (Elt F) := StableHlo.after hostOps3 (W6 m hx c)
theorem W7_of (c : Dev nD) (r : Ref sig .tc) (h : r ∉ hostOps3_W) : W7 m hx c (Proc.devRef .tc r) = W6 m hx c (Proc.devRef .tc r) :=
  StableHlo.after_of_writes_sub hostOps3 _ hostOps3_writes h
abbrev U7 (c : Dev nD) (b : Ref sig .tc) : Buf (Elt F) ((c : Thread nD τ).loc b) := W7 m hx c (Proc.devRef .tc b)
theorem flat_W7 (c : Dev nD) : W7 m hx c (Proc.devRef .tc main_v1) = W1 m c (Proc.devRef .tc main_v1) :=
  (W7_of m hx c main_v1 (by decide)).trans (flat_W6 m hx c)

theorem tbl_eq3 : W7 m hx (0 : Dev nD) (Proc.devRef .tc main_v9) = extractStridedSlice S32768 ![98304] (W1 m (0 : Dev nD) (Proc.devRef .tc main_v1)) slices_S262144_S32768_98304 := by
  rw [← flat_W6 m hx (0 : Dev nD)]; unfold W7; after_results <;> rfl

theorem tbl_lt3 : ∀ p : S32768.Idx, BitVec.toNat (tbMR3.view.read (Elt F) (tblR3 (U7 m hx) 0) p) < 50257 := by
  intro p
  show BitVec.toNat (W7 m hx (0 : Dev nD) (Proc.devRef .tc main_v9) p) < 50257
  rw [tbl_eq3 m hx]; unfold extractStridedSlice; exact flat_lt m hx 0 _
theorem hyps3 : HypsR3 (U7 m hx) := hyps_of_ltR3 _ (tbl_lt3 m hx)

def W8 (c : Dev nD) : Valuation τ sig (Elt F) :=
  Pipeline.withArrays spec3 c (W7 m hx c) fun w => (datR3 (U7 m hx) (hyps3 m hx) c).arrAt w (cfgR3 (U7 m hx)).N
theorem W8_arr (c : Dev nD) (w : Fin (cfgR3 (U7 m hx)).W) :
    W8 m hx c (Proc.devRef .tc (Pipeline.arrRef spec3 w)) = (datR3 (U7 m hx) (hyps3 m hx) c).arrAt w (cfgR3 (U7 m hx)).N := by
  unfold W8; exact Pipeline.withArrays_arr spec3 winFacts3.arr_inj c _ _ w
theorem W8_of_ne (c : Dev nD) (b : Ref sig .tc) (hb : ∀ w, Pipeline.arrRef spec3 w ≠ b) :
    W8 m hx c (Proc.devRef .tc b) = W7 m hx c (Proc.devRef .tc b) := by
  unfold W8; exact Pipeline.withArrays_of_ne spec3 c _ _ b hb
abbrev U8 (c : Dev nD) (b : Ref sig .tc) : Buf (Elt F) ((c : Thread nD τ).loc b) := W8 m hx c (Proc.devRef .tc b)
theorem hF3 (c : Dev nD) (w : Fin (cfgR3 (U7 m hx)).W) :
    (datR3 (U7 m hx) (hyps3 m hx) c).arrAt w (cfgR3 (U7 m hx)).N = U8 m hx c (Pipeline.arrRef spec3 w) :=
  (W8_arr m hx c w).symm
theorem hrest3 (c : Dev nD) : ∀ b, b ∉ Finset.univ.image (Pipeline.arrRef spec3) → U8 m hx c b = U7 m hx c b :=
  fun b hb => W8_of_ne m hx c b fun w e => hb (Finset.mem_image.mpr ⟨w, Finset.mem_univ _, e⟩)
theorem flat_W8 (c : Dev nD) : W8 m hx c (Proc.devRef .tc main_v1) = W1 m c (Proc.devRef .tc main_v1) :=
  (W8_of_ne m hx c main_v1 (by decide)).trans (flat_W7 m hx c)

def W9 (c : Dev nD) : Valuation τ sig (Elt F) := StableHlo.after hostOps4 (W8 m hx c)
theorem W9_of (c : Dev nD) (r : Ref sig .tc) (h : r ∉ hostOps4_W) : W9 m hx c (Proc.devRef .tc r) = W8 m hx c (Proc.devRef .tc r) :=
  StableHlo.after_of_writes_sub hostOps4 _ hostOps4_writes h
abbrev U9 (c : Dev nD) (b : Ref sig .tc) : Buf (Elt F) ((c : Thread nD τ).loc b) := W9 m hx c (Proc.devRef .tc b)
theorem flat_W9 (c : Dev nD) : W9 m hx c (Proc.devRef .tc main_v1) = W1 m c (Proc.devRef .tc main_v1) :=
  (W9_of m hx c main_v1 (by decide)).trans (flat_W8 m hx c)

theorem tbl_eq4 : W9 m hx (0 : Dev nD) (Proc.devRef .tc main_v11) = extractStridedSlice S32768 ![131072] (W1 m (0 : Dev nD) (Proc.devRef .tc main_v1)) slices_S262144_S32768_131072 := by
  rw [← flat_W8 m hx (0 : Dev nD)]; unfold W9; after_results <;> rfl

theorem tbl_lt4 : ∀ p : S32768.Idx, BitVec.toNat (tbMR4.view.read (Elt F) (tblR4 (U9 m hx) 0) p) < 50257 := by
  intro p
  show BitVec.toNat (W9 m hx (0 : Dev nD) (Proc.devRef .tc main_v11) p) < 50257
  rw [tbl_eq4 m hx]; unfold extractStridedSlice; exact flat_lt m hx 0 _
theorem hyps4 : HypsR4 (U9 m hx) := hyps_of_ltR4 _ (tbl_lt4 m hx)

def W10 (c : Dev nD) : Valuation τ sig (Elt F) :=
  Pipeline.withArrays spec4 c (W9 m hx c) fun w => (datR4 (U9 m hx) (hyps4 m hx) c).arrAt w (cfgR4 (U9 m hx)).N
theorem W10_arr (c : Dev nD) (w : Fin (cfgR4 (U9 m hx)).W) :
    W10 m hx c (Proc.devRef .tc (Pipeline.arrRef spec4 w)) = (datR4 (U9 m hx) (hyps4 m hx) c).arrAt w (cfgR4 (U9 m hx)).N := by
  unfold W10; exact Pipeline.withArrays_arr spec4 winFacts4.arr_inj c _ _ w
theorem W10_of_ne (c : Dev nD) (b : Ref sig .tc) (hb : ∀ w, Pipeline.arrRef spec4 w ≠ b) :
    W10 m hx c (Proc.devRef .tc b) = W9 m hx c (Proc.devRef .tc b) := by
  unfold W10; exact Pipeline.withArrays_of_ne spec4 c _ _ b hb
abbrev U10 (c : Dev nD) (b : Ref sig .tc) : Buf (Elt F) ((c : Thread nD τ).loc b) := W10 m hx c (Proc.devRef .tc b)
theorem hF4 (c : Dev nD) (w : Fin (cfgR4 (U9 m hx)).W) :
    (datR4 (U9 m hx) (hyps4 m hx) c).arrAt w (cfgR4 (U9 m hx)).N = U10 m hx c (Pipeline.arrRef spec4 w) :=
  (W10_arr m hx c w).symm
theorem hrest4 (c : Dev nD) : ∀ b, b ∉ Finset.univ.image (Pipeline.arrRef spec4) → U10 m hx c b = U9 m hx c b :=
  fun b hb => W10_of_ne m hx c b fun w e => hb (Finset.mem_image.mpr ⟨w, Finset.mem_univ _, e⟩)
theorem flat_W10 (c : Dev nD) : W10 m hx c (Proc.devRef .tc main_v1) = W1 m c (Proc.devRef .tc main_v1) :=
  (W10_of_ne m hx c main_v1 (by decide)).trans (flat_W9 m hx c)

def W11 (c : Dev nD) : Valuation τ sig (Elt F) := StableHlo.after hostOps5 (W10 m hx c)
theorem W11_of (c : Dev nD) (r : Ref sig .tc) (h : r ∉ hostOps5_W) : W11 m hx c (Proc.devRef .tc r) = W10 m hx c (Proc.devRef .tc r) :=
  StableHlo.after_of_writes_sub hostOps5 _ hostOps5_writes h
abbrev U11 (c : Dev nD) (b : Ref sig .tc) : Buf (Elt F) ((c : Thread nD τ).loc b) := W11 m hx c (Proc.devRef .tc b)
theorem flat_W11 (c : Dev nD) : W11 m hx c (Proc.devRef .tc main_v1) = W1 m c (Proc.devRef .tc main_v1) :=
  (W11_of m hx c main_v1 (by decide)).trans (flat_W10 m hx c)

theorem tbl_eq5 : W11 m hx (0 : Dev nD) (Proc.devRef .tc main_v13) = extractStridedSlice S32768 ![163840] (W1 m (0 : Dev nD) (Proc.devRef .tc main_v1)) slices_S262144_S32768_163840 := by
  rw [← flat_W10 m hx (0 : Dev nD)]; unfold W11; after_results <;> rfl

theorem tbl_lt5 : ∀ p : S32768.Idx, BitVec.toNat (tbMR5.view.read (Elt F) (tblR5 (U11 m hx) 0) p) < 50257 := by
  intro p
  show BitVec.toNat (W11 m hx (0 : Dev nD) (Proc.devRef .tc main_v13) p) < 50257
  rw [tbl_eq5 m hx]; unfold extractStridedSlice; exact flat_lt m hx 0 _
theorem hyps5 : HypsR5 (U11 m hx) := hyps_of_ltR5 _ (tbl_lt5 m hx)

def W12 (c : Dev nD) : Valuation τ sig (Elt F) :=
  Pipeline.withArrays spec5 c (W11 m hx c) fun w => (datR5 (U11 m hx) (hyps5 m hx) c).arrAt w (cfgR5 (U11 m hx)).N
theorem W12_arr (c : Dev nD) (w : Fin (cfgR5 (U11 m hx)).W) :
    W12 m hx c (Proc.devRef .tc (Pipeline.arrRef spec5 w)) = (datR5 (U11 m hx) (hyps5 m hx) c).arrAt w (cfgR5 (U11 m hx)).N := by
  unfold W12; exact Pipeline.withArrays_arr spec5 winFacts5.arr_inj c _ _ w
theorem W12_of_ne (c : Dev nD) (b : Ref sig .tc) (hb : ∀ w, Pipeline.arrRef spec5 w ≠ b) :
    W12 m hx c (Proc.devRef .tc b) = W11 m hx c (Proc.devRef .tc b) := by
  unfold W12; exact Pipeline.withArrays_of_ne spec5 c _ _ b hb
abbrev U12 (c : Dev nD) (b : Ref sig .tc) : Buf (Elt F) ((c : Thread nD τ).loc b) := W12 m hx c (Proc.devRef .tc b)
theorem hF5 (c : Dev nD) (w : Fin (cfgR5 (U11 m hx)).W) :
    (datR5 (U11 m hx) (hyps5 m hx) c).arrAt w (cfgR5 (U11 m hx)).N = U12 m hx c (Pipeline.arrRef spec5 w) :=
  (W12_arr m hx c w).symm
theorem hrest5 (c : Dev nD) : ∀ b, b ∉ Finset.univ.image (Pipeline.arrRef spec5) → U12 m hx c b = U11 m hx c b :=
  fun b hb => W12_of_ne m hx c b fun w e => hb (Finset.mem_image.mpr ⟨w, Finset.mem_univ _, e⟩)
theorem flat_W12 (c : Dev nD) : W12 m hx c (Proc.devRef .tc main_v1) = W1 m c (Proc.devRef .tc main_v1) :=
  (W12_of_ne m hx c main_v1 (by decide)).trans (flat_W11 m hx c)

def W13 (c : Dev nD) : Valuation τ sig (Elt F) := StableHlo.after hostOps6 (W12 m hx c)
theorem W13_of (c : Dev nD) (r : Ref sig .tc) (h : r ∉ hostOps6_W) : W13 m hx c (Proc.devRef .tc r) = W12 m hx c (Proc.devRef .tc r) :=
  StableHlo.after_of_writes_sub hostOps6 _ hostOps6_writes h
abbrev U13 (c : Dev nD) (b : Ref sig .tc) : Buf (Elt F) ((c : Thread nD τ).loc b) := W13 m hx c (Proc.devRef .tc b)
theorem flat_W13 (c : Dev nD) : W13 m hx c (Proc.devRef .tc main_v1) = W1 m c (Proc.devRef .tc main_v1) :=
  (W13_of m hx c main_v1 (by decide)).trans (flat_W12 m hx c)

theorem tbl_eq6 : W13 m hx (0 : Dev nD) (Proc.devRef .tc main_v15) = extractStridedSlice S32768 ![196608] (W1 m (0 : Dev nD) (Proc.devRef .tc main_v1)) slices_S262144_S32768_196608 := by
  rw [← flat_W12 m hx (0 : Dev nD)]; unfold W13; after_results <;> rfl

theorem tbl_lt6 : ∀ p : S32768.Idx, BitVec.toNat (tbMR6.view.read (Elt F) (tblR6 (U13 m hx) 0) p) < 50257 := by
  intro p
  show BitVec.toNat (W13 m hx (0 : Dev nD) (Proc.devRef .tc main_v15) p) < 50257
  rw [tbl_eq6 m hx]; unfold extractStridedSlice; exact flat_lt m hx 0 _
theorem hyps6 : HypsR6 (U13 m hx) := hyps_of_ltR6 _ (tbl_lt6 m hx)

def W14 (c : Dev nD) : Valuation τ sig (Elt F) :=
  Pipeline.withArrays spec6 c (W13 m hx c) fun w => (datR6 (U13 m hx) (hyps6 m hx) c).arrAt w (cfgR6 (U13 m hx)).N
theorem W14_arr (c : Dev nD) (w : Fin (cfgR6 (U13 m hx)).W) :
    W14 m hx c (Proc.devRef .tc (Pipeline.arrRef spec6 w)) = (datR6 (U13 m hx) (hyps6 m hx) c).arrAt w (cfgR6 (U13 m hx)).N := by
  unfold W14; exact Pipeline.withArrays_arr spec6 winFacts6.arr_inj c _ _ w
theorem W14_of_ne (c : Dev nD) (b : Ref sig .tc) (hb : ∀ w, Pipeline.arrRef spec6 w ≠ b) :
    W14 m hx c (Proc.devRef .tc b) = W13 m hx c (Proc.devRef .tc b) := by
  unfold W14; exact Pipeline.withArrays_of_ne spec6 c _ _ b hb
abbrev U14 (c : Dev nD) (b : Ref sig .tc) : Buf (Elt F) ((c : Thread nD τ).loc b) := W14 m hx c (Proc.devRef .tc b)
theorem hF6 (c : Dev nD) (w : Fin (cfgR6 (U13 m hx)).W) :
    (datR6 (U13 m hx) (hyps6 m hx) c).arrAt w (cfgR6 (U13 m hx)).N = U14 m hx c (Pipeline.arrRef spec6 w) :=
  (W14_arr m hx c w).symm
theorem hrest6 (c : Dev nD) : ∀ b, b ∉ Finset.univ.image (Pipeline.arrRef spec6) → U14 m hx c b = U13 m hx c b :=
  fun b hb => W14_of_ne m hx c b fun w e => hb (Finset.mem_image.mpr ⟨w, Finset.mem_univ _, e⟩)
theorem flat_W14 (c : Dev nD) : W14 m hx c (Proc.devRef .tc main_v1) = W1 m c (Proc.devRef .tc main_v1) :=
  (W14_of_ne m hx c main_v1 (by decide)).trans (flat_W13 m hx c)

def W15 (c : Dev nD) : Valuation τ sig (Elt F) := StableHlo.after hostOps7 (W14 m hx c)
theorem W15_of (c : Dev nD) (r : Ref sig .tc) (h : r ∉ hostOps7_W) : W15 m hx c (Proc.devRef .tc r) = W14 m hx c (Proc.devRef .tc r) :=
  StableHlo.after_of_writes_sub hostOps7 _ hostOps7_writes h
abbrev U15 (c : Dev nD) (b : Ref sig .tc) : Buf (Elt F) ((c : Thread nD τ).loc b) := W15 m hx c (Proc.devRef .tc b)
theorem flat_W15 (c : Dev nD) : W15 m hx c (Proc.devRef .tc main_v1) = W1 m c (Proc.devRef .tc main_v1) :=
  (W15_of m hx c main_v1 (by decide)).trans (flat_W14 m hx c)

theorem tbl_eq7 : W15 m hx (0 : Dev nD) (Proc.devRef .tc main_v17) = extractStridedSlice S32768 ![229376] (W1 m (0 : Dev nD) (Proc.devRef .tc main_v1)) slices_S262144_S32768_229376 := by
  rw [← flat_W14 m hx (0 : Dev nD)]; unfold W15; after_results <;> rfl

theorem tbl_lt7 : ∀ p : S32768.Idx, BitVec.toNat (tbMR7.view.read (Elt F) (tblR7 (U15 m hx) 0) p) < 50257 := by
  intro p
  show BitVec.toNat (W15 m hx (0 : Dev nD) (Proc.devRef .tc main_v17) p) < 50257
  rw [tbl_eq7 m hx]; unfold extractStridedSlice; exact flat_lt m hx 0 _
theorem hyps7 : HypsR7 (U15 m hx) := hyps_of_ltR7 _ (tbl_lt7 m hx)

def W16 (c : Dev nD) : Valuation τ sig (Elt F) :=
  Pipeline.withArrays spec7 c (W15 m hx c) fun w => (datR7 (U15 m hx) (hyps7 m hx) c).arrAt w (cfgR7 (U15 m hx)).N
theorem W16_arr (c : Dev nD) (w : Fin (cfgR7 (U15 m hx)).W) :
    W16 m hx c (Proc.devRef .tc (Pipeline.arrRef spec7 w)) = (datR7 (U15 m hx) (hyps7 m hx) c).arrAt w (cfgR7 (U15 m hx)).N := by
  unfold W16; exact Pipeline.withArrays_arr spec7 winFacts7.arr_inj c _ _ w
theorem W16_of_ne (c : Dev nD) (b : Ref sig .tc) (hb : ∀ w, Pipeline.arrRef spec7 w ≠ b) :
    W16 m hx c (Proc.devRef .tc b) = W15 m hx c (Proc.devRef .tc b) := by
  unfold W16; exact Pipeline.withArrays_of_ne spec7 c _ _ b hb
abbrev U16 (c : Dev nD) (b : Ref sig .tc) : Buf (Elt F) ((c : Thread nD τ).loc b) := W16 m hx c (Proc.devRef .tc b)
theorem hF7 (c : Dev nD) (w : Fin (cfgR7 (U15 m hx)).W) :
    (datR7 (U15 m hx) (hyps7 m hx) c).arrAt w (cfgR7 (U15 m hx)).N = U16 m hx c (Pipeline.arrRef spec7 w) :=
  (W16_arr m hx c w).symm
theorem hrest7 (c : Dev nD) : ∀ b, b ∉ Finset.univ.image (Pipeline.arrRef spec7) → U16 m hx c b = U15 m hx c b :=
  fun b hb => W16_of_ne m hx c b fun w e => hb (Finset.mem_image.mpr ⟨w, Finset.mem_univ _, e⟩)
theorem flat_W16 (c : Dev nD) : W16 m hx c (Proc.devRef .tc main_v1) = W1 m c (Proc.devRef .tc main_v1) :=
  (W16_of_ne m hx c main_v1 (by decide)).trans (flat_W15 m hx c)

def W17 (c : Dev nD) : Valuation τ sig (Elt F) := StableHlo.after hostOps8 (W16 m hx c)
theorem W17_of (c : Dev nD) (r : Ref sig .tc) (h : r ∉ hostOps8_W) : W17 m hx c (Proc.devRef .tc r) = W16 m hx c (Proc.devRef .tc r) :=
  StableHlo.after_of_writes_sub hostOps8 _ hostOps8_writes h

/-- The result: the regions' outputs stacked along the rows, reshaped to 64 × 4096 × 128. -/
theorem res_eq (c : Dev nD) :
    W17 m hx c (Proc.devRef .tc main_v20) = (fun i => shapeCast S64x4096x128
      (concatenate S262144x128 0 [⟨S32768x128, W16 m hx c (Proc.devRef .tc main_v4)⟩, ⟨S32768x128, W16 m hx c (Proc.devRef .tc main_v6)⟩, ⟨S32768x128, W16 m hx c (Proc.devRef .tc main_v8)⟩, ⟨S32768x128, W16 m hx c (Proc.devRef .tc main_v10)⟩, ⟨S32768x128, W16 m hx c (Proc.devRef .tc main_v12)⟩, ⟨S32768x128, W16 m hx c (Proc.devRef .tc main_v14)⟩, ⟨S32768x128, W16 m hx c (Proc.devRef .tc main_v16)⟩, ⟨S32768x128, W16 m hx c (Proc.devRef .tc main_v18)⟩]
        concatenates_S32768x128_S32768x128_S32768x128_S32768x128_S32768x128_S32768x128_S32768x128_S32768x128_S262144x128_d0)
      shapeCasts_S262144x128_S64x4096x128 i) := by
  unfold W17; after_results <;> rfl

/-- A buffer no stage writes holds its launch contents at the end. -/
theorem keep_W17 (c : Dev nD) (r : Ref sig .tc) (h1 : r ∉ hostOps0_W) (h2 : ∀ w, Pipeline.arrRef spec0 w ≠ r) (h3 : r ∉ hostOps1_W) (h4 : ∀ w, Pipeline.arrRef spec1 w ≠ r) (h5 : r ∉ hostOps2_W) (h6 : ∀ w, Pipeline.arrRef spec2 w ≠ r) (h7 : r ∉ hostOps3_W) (h8 : ∀ w, Pipeline.arrRef spec3 w ≠ r) (h9 : r ∉ hostOps4_W) (h10 : ∀ w, Pipeline.arrRef spec4 w ≠ r) (h11 : r ∉ hostOps5_W) (h12 : ∀ w, Pipeline.arrRef spec5 w ≠ r) (h13 : r ∉ hostOps6_W) (h14 : ∀ w, Pipeline.arrRef spec6 w ≠ r) (h15 : r ∉ hostOps7_W) (h16 : ∀ w, Pipeline.arrRef spec7 w ≠ r) (h17 : r ∉ hostOps8_W) :
    W17 m hx c (Proc.devRef .tc r) = m ((c : Thread nD τ).loc r) := by
  rw [W17_of m hx c r h17, W16_of_ne m hx c r h16, W15_of m hx c r h15, W14_of_ne m hx c r h14, W13_of m hx c r h13, W12_of_ne m hx c r h12, W11_of m hx c r h11, W10_of_ne m hx c r h10, W9_of m hx c r h9, W8_of_ne m hx c r h8, W7_of m hx c r h7, W6_of_ne m hx c r h6, W5_of m hx c r h5, W4_of_ne m hx c r h4, W3_of m hx c r h3, W2_of_ne m hx c r h2, W1_of m c r h1]
theorem keep_arg0_W17 (c : Dev nD) : W17 m hx c (Proc.devRef .tc main_arg0) = m ((c : Thread nD τ).loc main_arg0) :=
  keep_W17 m hx c main_arg0 (by decide) (by decide) (by decide) (by decide) (by decide) (by decide) (by decide) (by decide) (by decide) (by decide) (by decide) (by decide) (by decide) (by decide) (by decide) (by decide) (by decide)
theorem keep_arg1_W17 (c : Dev nD) : W17 m hx c (Proc.devRef .tc main_arg1) = m ((c : Thread nD τ).loc main_arg1) :=
  keep_W17 m hx c main_arg1 (by decide) (by decide) (by decide) (by decide) (by decide) (by decide) (by decide) (by decide) (by decide) (by decide) (by decide) (by decide) (by decide) (by decide) (by decide) (by decide) (by decide)
theorem keep_arg2_W17 (c : Dev nD) : W17 m hx c (Proc.devRef .tc main_arg2) = m ((c : Thread nD τ).loc main_arg2) :=
  keep_W17 m hx c main_arg2 (by decide) (by decide) (by decide) (by decide) (by decide) (by decide) (by decide) (by decide) (by decide) (by decide) (by decide) (by decide) (by decide) (by decide) (by decide) (by decide) (by decide)

/-- The gather table and the bias row are written by the first stretch only. -/
theorem keep_v0_W1 (c : Dev nD) : W1 m c (Proc.devRef .tc main_v0) = W1 m c (Proc.devRef .tc main_v0) := rfl
theorem keep_v0_W3 (c : Dev nD) : W3 m hx c (Proc.devRef .tc main_v0) = W1 m c (Proc.devRef .tc main_v0) := by
  rw [W3_of m hx c main_v0 (by decide), W2_of_ne m hx c main_v0 (by decide)]
theorem keep_v0_W5 (c : Dev nD) : W5 m hx c (Proc.devRef .tc main_v0) = W1 m c (Proc.devRef .tc main_v0) := by
  rw [W5_of m hx c main_v0 (by decide), W4_of_ne m hx c main_v0 (by decide), keep_v0_W3 m hx c]
theorem keep_v0_W7 (c : Dev nD) : W7 m hx c (Proc.devRef .tc main_v0) = W1 m c (Proc.devRef .tc main_v0) := by
  rw [W7_of m hx c main_v0 (by decide), W6_of_ne m hx c main_v0 (by decide), keep_v0_W5 m hx c]
theorem keep_v0_W9 (c : Dev nD) : W9 m hx c (Proc.devRef .tc main_v0) = W1 m c (Proc.devRef .tc main_v0) := by
  rw [W9_of m hx c main_v0 (by decide), W8_of_ne m hx c main_v0 (by decide), keep_v0_W7 m hx c]
theorem keep_v0_W11 (c : Dev nD) : W11 m hx c (Proc.devRef .tc main_v0) = W1 m c (Proc.devRef .tc main_v0) := by
  rw [W11_of m hx c main_v0 (by decide), W10_of_ne m hx c main_v0 (by decide), keep_v0_W9 m hx c]
theorem keep_v0_W13 (c : Dev nD) : W13 m hx c (Proc.devRef .tc main_v0) = W1 m c (Proc.devRef .tc main_v0) := by
  rw [W13_of m hx c main_v0 (by decide), W12_of_ne m hx c main_v0 (by decide), keep_v0_W11 m hx c]
theorem keep_v0_W15 (c : Dev nD) : W15 m hx c (Proc.devRef .tc main_v0) = W1 m c (Proc.devRef .tc main_v0) := by
  rw [W15_of m hx c main_v0 (by decide), W14_of_ne m hx c main_v0 (by decide), keep_v0_W13 m hx c]
theorem keep_v2_W1 (c : Dev nD) : W1 m c (Proc.devRef .tc main_v2) = W1 m c (Proc.devRef .tc main_v2) := rfl
theorem keep_v2_W3 (c : Dev nD) : W3 m hx c (Proc.devRef .tc main_v2) = W1 m c (Proc.devRef .tc main_v2) :=
  (W3_of m hx c main_v2 (by decide)).trans ((W2_arr m hx c 0).trans (((datR0 (U1 m) (hyps0 m hx) c).arrAt_in 0 rfl _).trans
    ((A_eqR0 (U1 m) (hyps0 m hx) c 0).trans (keep_v2_W1 m hx c))))
theorem keep_v2_W5 (c : Dev nD) : W5 m hx c (Proc.devRef .tc main_v2) = W1 m c (Proc.devRef .tc main_v2) :=
  (W5_of m hx c main_v2 (by decide)).trans ((W4_arr m hx c 0).trans (((datR1 (U3 m hx) (hyps1 m hx) c).arrAt_in 0 rfl _).trans
    ((A_eqR1 (U3 m hx) (hyps1 m hx) c 0).trans (keep_v2_W3 m hx c))))
theorem keep_v2_W7 (c : Dev nD) : W7 m hx c (Proc.devRef .tc main_v2) = W1 m c (Proc.devRef .tc main_v2) :=
  (W7_of m hx c main_v2 (by decide)).trans ((W6_arr m hx c 0).trans (((datR2 (U5 m hx) (hyps2 m hx) c).arrAt_in 0 rfl _).trans
    ((A_eqR2 (U5 m hx) (hyps2 m hx) c 0).trans (keep_v2_W5 m hx c))))
theorem keep_v2_W9 (c : Dev nD) : W9 m hx c (Proc.devRef .tc main_v2) = W1 m c (Proc.devRef .tc main_v2) :=
  (W9_of m hx c main_v2 (by decide)).trans ((W8_arr m hx c 0).trans (((datR3 (U7 m hx) (hyps3 m hx) c).arrAt_in 0 rfl _).trans
    ((A_eqR3 (U7 m hx) (hyps3 m hx) c 0).trans (keep_v2_W7 m hx c))))
theorem keep_v2_W11 (c : Dev nD) : W11 m hx c (Proc.devRef .tc main_v2) = W1 m c (Proc.devRef .tc main_v2) :=
  (W11_of m hx c main_v2 (by decide)).trans ((W10_arr m hx c 0).trans (((datR4 (U9 m hx) (hyps4 m hx) c).arrAt_in 0 rfl _).trans
    ((A_eqR4 (U9 m hx) (hyps4 m hx) c 0).trans (keep_v2_W9 m hx c))))
theorem keep_v2_W13 (c : Dev nD) : W13 m hx c (Proc.devRef .tc main_v2) = W1 m c (Proc.devRef .tc main_v2) :=
  (W13_of m hx c main_v2 (by decide)).trans ((W12_arr m hx c 0).trans (((datR5 (U11 m hx) (hyps5 m hx) c).arrAt_in 0 rfl _).trans
    ((A_eqR5 (U11 m hx) (hyps5 m hx) c 0).trans (keep_v2_W11 m hx c))))
theorem keep_v2_W15 (c : Dev nD) : W15 m hx c (Proc.devRef .tc main_v2) = W1 m c (Proc.devRef .tc main_v2) :=
  (W15_of m hx c main_v2 (by decide)).trans ((W14_arr m hx c 0).trans (((datR6 (U13 m hx) (hyps6 m hx) c).arrAt_in 0 rfl _).trans
    ((A_eqR6 (U13 m hx) (hyps6 m hx) c 0).trans (keep_v2_W13 m hx c))))

/-- Region k's output array is rewritten by region k only. -/
theorem keep_out0_W16 (c : Dev nD) : W16 m hx c (Proc.devRef .tc main_v4) = W2 m hx c (Proc.devRef .tc main_v4) := by
  rw [W16_of_ne m hx c main_v4 (by decide), W15_of m hx c main_v4 (by decide), W14_of_ne m hx c main_v4 (by decide), W13_of m hx c main_v4 (by decide), W12_of_ne m hx c main_v4 (by decide), W11_of m hx c main_v4 (by decide), W10_of_ne m hx c main_v4 (by decide), W9_of m hx c main_v4 (by decide), W8_of_ne m hx c main_v4 (by decide), W7_of m hx c main_v4 (by decide), W6_of_ne m hx c main_v4 (by decide), W5_of m hx c main_v4 (by decide), W4_of_ne m hx c main_v4 (by decide), W3_of m hx c main_v4 (by decide)]
theorem keep_out1_W16 (c : Dev nD) : W16 m hx c (Proc.devRef .tc main_v6) = W4 m hx c (Proc.devRef .tc main_v6) := by
  rw [W16_of_ne m hx c main_v6 (by decide), W15_of m hx c main_v6 (by decide), W14_of_ne m hx c main_v6 (by decide), W13_of m hx c main_v6 (by decide), W12_of_ne m hx c main_v6 (by decide), W11_of m hx c main_v6 (by decide), W10_of_ne m hx c main_v6 (by decide), W9_of m hx c main_v6 (by decide), W8_of_ne m hx c main_v6 (by decide), W7_of m hx c main_v6 (by decide), W6_of_ne m hx c main_v6 (by decide), W5_of m hx c main_v6 (by decide)]
theorem keep_out2_W16 (c : Dev nD) : W16 m hx c (Proc.devRef .tc main_v8) = W6 m hx c (Proc.devRef .tc main_v8) := by
  rw [W16_of_ne m hx c main_v8 (by decide), W15_of m hx c main_v8 (by decide), W14_of_ne m hx c main_v8 (by decide), W13_of m hx c main_v8 (by decide), W12_of_ne m hx c main_v8 (by decide), W11_of m hx c main_v8 (by decide), W10_of_ne m hx c main_v8 (by decide), W9_of m hx c main_v8 (by decide), W8_of_ne m hx c main_v8 (by decide), W7_of m hx c main_v8 (by decide)]
theorem keep_out3_W16 (c : Dev nD) : W16 m hx c (Proc.devRef .tc main_v10) = W8 m hx c (Proc.devRef .tc main_v10) := by
  rw [W16_of_ne m hx c main_v10 (by decide), W15_of m hx c main_v10 (by decide), W14_of_ne m hx c main_v10 (by decide), W13_of m hx c main_v10 (by decide), W12_of_ne m hx c main_v10 (by decide), W11_of m hx c main_v10 (by decide), W10_of_ne m hx c main_v10 (by decide), W9_of m hx c main_v10 (by decide)]
theorem keep_out4_W16 (c : Dev nD) : W16 m hx c (Proc.devRef .tc main_v12) = W10 m hx c (Proc.devRef .tc main_v12) := by
  rw [W16_of_ne m hx c main_v12 (by decide), W15_of m hx c main_v12 (by decide), W14_of_ne m hx c main_v12 (by decide), W13_of m hx c main_v12 (by decide), W12_of_ne m hx c main_v12 (by decide), W11_of m hx c main_v12 (by decide)]
theorem keep_out5_W16 (c : Dev nD) : W16 m hx c (Proc.devRef .tc main_v14) = W12 m hx c (Proc.devRef .tc main_v14) := by
  rw [W16_of_ne m hx c main_v14 (by decide), W15_of m hx c main_v14 (by decide), W14_of_ne m hx c main_v14 (by decide), W13_of m hx c main_v14 (by decide)]
theorem keep_out6_W16 (c : Dev nD) : W16 m hx c (Proc.devRef .tc main_v16) = W14 m hx c (Proc.devRef .tc main_v16) := by
  rw [W16_of_ne m hx c main_v16 (by decide), W15_of m hx c main_v16 (by decide)]
theorem keep_out7_W16 (c : Dev nD) : W16 m hx c (Proc.devRef .tc main_v18) = W16 m hx c (Proc.devRef .tc main_v18) := rfl

end Fold

end Cert.Kernel.Emb

end
-- ==== Proof.Kernel.Launch.lean ====
import proofs.«418142_j33036888441229_2_alg».proof.Proof.Kernel.Fold
import Idealize.ShloMosaic.Lib.Pipeline.RegionsLoop
import Idealize.ShloMosaic.Lib.Pipeline.FrameSuffix

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What a region finds beside its arrays: its tables at `tbl`, the buffers of `H` it takes whole, and the rest. -/
theorem rest_split {gr W : ℕ} {win : Fin W → Pipeline.WinSpec sig gr} {pre : Pipeline.Prefetch sig} (hp : Pipeline.PreFacts win pre)
    (H : Finset (Ref sig .tc)) (hH : H ⊆ Pipeline.restRefsP sig pre win) (c : Dev nD)
    (V : (b : Ref sig .tc) → Buf (Elt F) ((c : Thread nD τ).loc b)) (tbl : pre.Contents (Elt F)) (hP : (fun k => V (pre.ref k)) = tbl) :
    (Pipeline.unscopedRest (Ix := Unit) (Name := ℕ) (U := Pipeline.UD sig nD τ) (Lvl := ℕ) win c V : sProp 𝕄)
      = iprop(Pipeline.prefHeld (Ix := Unit) (Name := ℕ) (U := Pipeline.UD sig nD τ) (Lvl := ℕ) pre c (fun _ => fullShare) tbl
          ∗ (bigSep H fun b => ((c : Thread nD τ).loc b) ↦{fullShare} V b)
          ∗ bigSep (Pipeline.restRefsP sig pre win \ H) fun b => ((c : Thread nD τ).loc b) ↦{fullShare} V b) := by
  subst hP
  rw [Pipeline.unscopedRest_split hp c V, Pipeline.unscopedRestP_sdiff pre win H hH c V]

section Run

variable (m : (ℓ : Loc nD τ sig) → Buf (Elt F) ℓ) (ρ : Dev nD → PrngReg)
variable (hx : ∀ (c : Dev nD) (j : S64x4096.Idx), BitVec.toNat (m ((c.tc : Thread nD τ).loc main_arg0) j) < 50257)
include hx

/-- Each region's index table as it is entered. -/
abbrev adm : (p : Fin 8) → (pcfgs (F := F) p).Adm
  | ⟨0, _⟩ => admR0 (U1 m)
  | ⟨1, _⟩ => admR1 (U3 m hx)
  | ⟨2, _⟩ => admR2 (U5 m hx)
  | ⟨3, _⟩ => admR3 (U7 m hx)
  | ⟨4, _⟩ => admR4 (U9 m hx)
  | ⟨5, _⟩ => admR5 (U11 m hx)
  | ⟨6, _⟩ => admR6 (U13 m hx)
  | ⟨7, _⟩ => admR7 (U15 m hx)

/-- Every region's proof data, each at its entry contents. -/
def pdats : (p : Fin 8) → (c : Dev nD) → Dat τ (Elt F) Unit ℕ (Pipeline.UD sig nD τ) ℕ (Pipeline.pin (pcfgs (F := F)) (adm m hx) p) c
  | ⟨0, _⟩ => fun c => datR0 (U1 m) (hyps0 m hx) c
  | ⟨1, _⟩ => fun c => datR1 (U3 m hx) (hyps1 m hx) c
  | ⟨2, _⟩ => fun c => datR2 (U5 m hx) (hyps2 m hx) c
  | ⟨3, _⟩ => fun c => datR3 (U7 m hx) (hyps3 m hx) c
  | ⟨4, _⟩ => fun c => datR4 (U9 m hx) (hyps4 m hx) c
  | ⟨5, _⟩ => fun c => datR5 (U11 m hx) (hyps5 m hx) c
  | ⟨6, _⟩ => fun c => datR6 (U13 m hx) (hyps6 m hx) c
  | ⟨7, _⟩ => fun c => datR7 (U15 m hx) (hyps7 m hx) c
omit hx in
abbrev Vr : Variants := Variants.none
omit hx in

abbrev Lev : GSem nD τ sig → Finset Unit := fun _ => ∅
omit hx in
abbrev lev : GSem nD τ sig → Unit → ℕ := fun _ _ => 0
omit hx in

/-- What rides beside the buffers through every segment. -/
abbrev Rst (c : Dev nD) : sProp 𝕄 := iprop((∃ r, prngReg c r) ∗ ∃ W, owes (c : Thread nD τ) (0 : CellTallies nD τ sig Unit) W)
omit hx in

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ Vr Lev lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

set_option backward.isDefEq.respectTransparency.types false in
set_option maxHeartbeats 1000000 in
def reg0 : Pipeline.RegionSeg (pcfgs (F := F)) (adm m hx) (pdats m hx) () defs₀ Vr Lev lev 0 where
  win := winFacts0.to₀
  block_pos := block_pos0
  stage_whole := stage_whole0
  K := Fin 8
  osem := osemR0
  ho := ownSemFactsR0
  hbody c := (body_obligationR0 (U1 m) (hyps0 m hx) c).loose
  hwaits := Pipeline.hwaits_of_owed_zero _ _ _ _ Lev lev 0 fun _ _ => rfl
  pre c := iprop(StableHlo.held (c : Thread nD τ) (Pipeline.ucRefs τ sig) (W1 m c) ∗ Rst c)
  post c := iprop(StableHlo.held (c : Thread nD τ) (Pipeline.ucRefs τ sig) (W2 m hx c) ∗ Rst c)
  X c := iprop((∃ r, prngReg c r) ∗ Pipeline.ownSems0 (Ix := Unit) (Name := ℕ) (U := Pipeline.UD sig nD τ) (Lvl := ℕ) (Val := Elt F) (τ := τ) osemR0 c ∗ (bigSep HR0 fun b => (((c : Thread nD τ)).loc b) ↦{fullShare} U1 m c b))
  Y c := iprop((∃ r, prngReg c r) ∗ (bigSep HR0 fun b => (((c : Thread nD τ)).loc b) ↦{fullShare} U1 m c b) ∗ Pipeline.prefHeld (Ix := Unit) (Name := ℕ) (U := Pipeline.UD sig nD τ) (Lvl := ℕ) pre0 c (fun _ => fullShare) (tblR0 (U1 m)))
  Z c := (bigSep (Pipeline.restRefsP sig pre0 spec0 \ HR0) fun b => (((c : Thread nD τ)).loc b) ↦{fullShare} U1 m c b)
  hentry c := by
    have hsplit := Pipeline.arrays_of_unscopedBufs (p := 0) (pcfgs (F := F)) (adm m hx) (pdats m hx) winFacts0 arr_whole0 c
      ((pdats m hx 0 c).share_full fun _ => rfl) (U1 m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts0 HR0 HR0_sub c (U1 m c) _ (funext fun j => V_preR0 (U1 m) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 0 c).Φ 0 = PhiR0 (U1 m) c from rfl]; unfold PhiR0; rw [Pipeline.ΦD_eq]
    iintro ⟨⟨Hp, Ho, HH⟩, HT, Hr⟩
    iframe
  hout c := by
    rw [show (pdats m hx 0 c).Φ (Fin.last _) = PhiR0 (U1 m) c from rfl]; unfold PhiR0; rw [Pipeline.ΦD_eq]
    iintro ⟨⟨Hr, Hp, Ho, HH⟩, HT⟩
    iframe
  hexit c := by
    have hjoin := Pipeline.unscopedBufs_of_arrays (p := 0) (pcfgs (F := F)) (adm m hx) (Ix := Unit) (Name := ℕ) (U := Pipeline.UD sig nD τ) (Lvl := ℕ)
      winFacts0 arr_whole0 c (pdats m hx) ((pdats m hx 0 c).share_full fun _ => rfl)
      (U1 m c) (U2 m hx c) ((pdats m hx 0 c).arrAt · (cfgR0 (U1 m)).N) (hF0 m hx c) (hrest0 m hx c)
    rw [Pipeline.unscopedBufs_held] at hjoin
    iintro ⟨Ha, HO, ⟨HY, HH, HT⟩, HR⟩
    ihave Hrest := (Entails.of_eq (rest_split preFacts0 HR0 HR0_sub c (U1 m c) _ (funext fun j => V_preR0 (U1 m) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg1 : Pipeline.RegionSeg (pcfgs (F := F)) (adm m hx) (pdats m hx) () defs₀ Vr Lev lev 1 where
  win := winFacts1.to₀
  block_pos := block_pos1
  stage_whole := stage_whole1
  K := Fin 8
  osem := osemR1
  ho := ownSemFactsR1
  hbody c := (body_obligationR1 (U3 m hx) (hyps1 m hx) c).loose
  hwaits := Pipeline.hwaits_of_owed_zero _ _ _ _ Lev lev 1 fun _ _ => rfl
  pre c := iprop(StableHlo.held (c : Thread nD τ) (Pipeline.ucRefs τ sig) (W3 m hx c) ∗ Rst c)
  post c := iprop(StableHlo.held (c : Thread nD τ) (Pipeline.ucRefs τ sig) (W4 m hx c) ∗ Rst c)
  X c := iprop((∃ r, prngReg c r) ∗ Pipeline.ownSems0 (Ix := Unit) (Name := ℕ) (U := Pipeline.UD sig nD τ) (Lvl := ℕ) (Val := Elt F) (τ := τ) osemR1 c ∗ (bigSep HR1 fun b => (((c : Thread nD τ)).loc b) ↦{fullShare} U3 m hx c b))
  Y c := iprop((∃ r, prngReg c r) ∗ (bigSep HR1 fun b => (((c : Thread nD τ)).loc b) ↦{fullShare} U3 m hx c b) ∗ Pipeline.prefHeld (Ix := Unit) (Name := ℕ) (U := Pipeline.UD sig nD τ) (Lvl := ℕ) pre1 c (fun _ => fullShare) (tblR1 (U3 m hx)))
  Z c := (bigSep (Pipeline.restRefsP sig pre1 spec1 \ HR1) fun b => (((c : Thread nD τ)).loc b) ↦{fullShare} U3 m hx c b)
  hentry c := by
    have hsplit := Pipeline.arrays_of_unscopedBufs (p := 1) (pcfgs (F := F)) (adm m hx) (pdats m hx) winFacts1 arr_whole1 c
      ((pdats m hx 1 c).share_full fun _ => rfl) (U3 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts1 HR1 HR1_sub c (U3 m hx c) _ (funext fun j => V_preR1 (U3 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 1 c).Φ 0 = PhiR1 (U3 m hx) c from rfl]; unfold PhiR1; rw [Pipeline.ΦD_eq]
    iintro ⟨⟨Hp, Ho, HH⟩, HT, Hr⟩
    iframe
  hout c := by
    rw [show (pdats m hx 1 c).Φ (Fin.last _) = PhiR1 (U3 m hx) c from rfl]; unfold PhiR1; rw [Pipeline.ΦD_eq]
    iintro ⟨⟨Hr, Hp, Ho, HH⟩, HT⟩
    iframe
  hexit c := by
    have hjoin := Pipeline.unscopedBufs_of_arrays (p := 1) (pcfgs (F := F)) (adm m hx) (Ix := Unit) (Name := ℕ) (U := Pipeline.UD sig nD τ) (Lvl := ℕ)
      winFacts1 arr_whole1 c (pdats m hx) ((pdats m hx 1 c).share_full fun _ => rfl)
      (U3 m hx c) (U4 m hx c) ((pdats m hx 1 c).arrAt · (cfgR1 (U3 m hx)).N) (hF1 m hx c) (hrest1 m hx c)
    rw [Pipeline.unscopedBufs_held] at hjoin
    iintro ⟨Ha, HO, ⟨HY, HH, HT⟩, HR⟩
    ihave Hrest := (Entails.of_eq (rest_split preFacts1 HR1 HR1_sub c (U3 m hx c) _ (funext fun j => V_preR1 (U3 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg2 : Pipeline.RegionSeg (pcfgs (F := F)) (adm m hx) (pdats m hx) () defs₀ Vr Lev lev 2 where
  win := winFacts2.to₀
  block_pos := block_pos2
  stage_whole := stage_whole2
  K := Fin 8
  osem := osemR2
  ho := ownSemFactsR2
  hbody c := (body_obligationR2 (U5 m hx) (hyps2 m hx) c).loose
  hwaits := Pipeline.hwaits_of_owed_zero _ _ _ _ Lev lev 2 fun _ _ => rfl
  pre c := iprop(StableHlo.held (c : Thread nD τ) (Pipeline.ucRefs τ sig) (W5 m hx c) ∗ Rst c)
  post c := iprop(StableHlo.held (c : Thread nD τ) (Pipeline.ucRefs τ sig) (W6 m hx c) ∗ Rst c)
  X c := iprop((∃ r, prngReg c r) ∗ Pipeline.ownSems0 (Ix := Unit) (Name := ℕ) (U := Pipeline.UD sig nD τ) (Lvl := ℕ) (Val := Elt F) (τ := τ) osemR2 c ∗ (bigSep HR2 fun b => (((c : Thread nD τ)).loc b) ↦{fullShare} U5 m hx c b))
  Y c := iprop((∃ r, prngReg c r) ∗ (bigSep HR2 fun b => (((c : Thread nD τ)).loc b) ↦{fullShare} U5 m hx c b) ∗ Pipeline.prefHeld (Ix := Unit) (Name := ℕ) (U := Pipeline.UD sig nD τ) (Lvl := ℕ) pre2 c (fun _ => fullShare) (tblR2 (U5 m hx)))
  Z c := (bigSep (Pipeline.restRefsP sig pre2 spec2 \ HR2) fun b => (((c : Thread nD τ)).loc b) ↦{fullShare} U5 m hx c b)
  hentry c := by
    have hsplit := Pipeline.arrays_of_unscopedBufs (p := 2) (pcfgs (F := F)) (adm m hx) (pdats m hx) winFacts2 arr_whole2 c
      ((pdats m hx 2 c).share_full fun _ => rfl) (U5 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts2 HR2 HR2_sub c (U5 m hx c) _ (funext fun j => V_preR2 (U5 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 2 c).Φ 0 = PhiR2 (U5 m hx) c from rfl]; unfold PhiR2; rw [Pipeline.ΦD_eq]
    iintro ⟨⟨Hp, Ho, HH⟩, HT, Hr⟩
    iframe
  hout c := by
    rw [show (pdats m hx 2 c).Φ (Fin.last _) = PhiR2 (U5 m hx) c from rfl]; unfold PhiR2; rw [Pipeline.ΦD_eq]
    iintro ⟨⟨Hr, Hp, Ho, HH⟩, HT⟩
    iframe
  hexit c := by
    have hjoin := Pipeline.unscopedBufs_of_arrays (p := 2) (pcfgs (F := F)) (adm m hx) (Ix := Unit) (Name := ℕ) (U := Pipeline.UD sig nD τ) (Lvl := ℕ)
      winFacts2 arr_whole2 c (pdats m hx) ((pdats m hx 2 c).share_full fun _ => rfl)
      (U5 m hx c) (U6 m hx c) ((pdats m hx 2 c).arrAt · (cfgR2 (U5 m hx)).N) (hF2 m hx c) (hrest2 m hx c)
    rw [Pipeline.unscopedBufs_held] at hjoin
    iintro ⟨Ha, HO, ⟨HY, HH, HT⟩, HR⟩
    ihave Hrest := (Entails.of_eq (rest_split preFacts2 HR2 HR2_sub c (U5 m hx c) _ (funext fun j => V_preR2 (U5 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg3 : Pipeline.RegionSeg (pcfgs (F := F)) (adm m hx) (pdats m hx) () defs₀ Vr Lev lev 3 where
  win := winFacts3.to₀
  block_pos := block_pos3
  stage_whole := stage_whole3
  K := Fin 8
  osem := osemR3
  ho := ownSemFactsR3
  hbody c := (body_obligationR3 (U7 m hx) (hyps3 m hx) c).loose
  hwaits := Pipeline.hwaits_of_owed_zero _ _ _ _ Lev lev 3 fun _ _ => rfl
  pre c := iprop(StableHlo.held (c : Thread nD τ) (Pipeline.ucRefs τ sig) (W7 m hx c) ∗ Rst c)
  post c := iprop(StableHlo.held (c : Thread nD τ) (Pipeline.ucRefs τ sig) (W8 m hx c) ∗ Rst c)
  X c := iprop((∃ r, prngReg c r) ∗ Pipeline.ownSems0 (Ix := Unit) (Name := ℕ) (U := Pipeline.UD sig nD τ) (Lvl := ℕ) (Val := Elt F) (τ := τ) osemR3 c ∗ (bigSep HR3 fun b => (((c : Thread nD τ)).loc b) ↦{fullShare} U7 m hx c b))
  Y c := iprop((∃ r, prngReg c r) ∗ (bigSep HR3 fun b => (((c : Thread nD τ)).loc b) ↦{fullShare} U7 m hx c b) ∗ Pipeline.prefHeld (Ix := Unit) (Name := ℕ) (U := Pipeline.UD sig nD τ) (Lvl := ℕ) pre3 c (fun _ => fullShare) (tblR3 (U7 m hx)))
  Z c := (bigSep (Pipeline.restRefsP sig pre3 spec3 \ HR3) fun b => (((c : Thread nD τ)).loc b) ↦{fullShare} U7 m hx c b)
  hentry c := by
    have hsplit := Pipeline.arrays_of_unscopedBufs (p := 3) (pcfgs (F := F)) (adm m hx) (pdats m hx) winFacts3 arr_whole3 c
      ((pdats m hx 3 c).share_full fun _ => rfl) (U7 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts3 HR3 HR3_sub c (U7 m hx c) _ (funext fun j => V_preR3 (U7 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 3 c).Φ 0 = PhiR3 (U7 m hx) c from rfl]; unfold PhiR3; rw [Pipeline.ΦD_eq]
    iintro ⟨⟨Hp, Ho, HH⟩, HT, Hr⟩
    iframe
  hout c := by
    rw [show (pdats m hx 3 c).Φ (Fin.last _) = PhiR3 (U7 m hx) c from rfl]; unfold PhiR3; rw [Pipeline.ΦD_eq]
    iintro ⟨⟨Hr, Hp, Ho, HH⟩, HT⟩
    iframe
  hexit c := by
    have hjoin := Pipeline.unscopedBufs_of_arrays (p := 3) (pcfgs (F := F)) (adm m hx) (Ix := Unit) (Name := ℕ) (U := Pipeline.UD sig nD τ) (Lvl := ℕ)
      winFacts3 arr_whole3 c (pdats m hx) ((pdats m hx 3 c).share_full fun _ => rfl)
      (U7 m hx c) (U8 m hx c) ((pdats m hx 3 c).arrAt · (cfgR3 (U7 m hx)).N) (hF3 m hx c) (hrest3 m hx c)
    rw [Pipeline.unscopedBufs_held] at hjoin
    iintro ⟨Ha, HO, ⟨HY, HH, HT⟩, HR⟩
    ihave Hrest := (Entails.of_eq (rest_split preFacts3 HR3 HR3_sub c (U7 m hx c) _ (funext fun j => V_preR3 (U7 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg4 : Pipeline.RegionSeg (pcfgs (F := F)) (adm m hx) (pdats m hx) () defs₀ Vr Lev lev 4 where
  win := winFacts4.to₀
  block_pos := block_pos4
  stage_whole := stage_whole4
  K := Fin 8
  osem := osemR4
  ho := ownSemFactsR4
  hbody c := (body_obligationR4 (U9 m hx) (hyps4 m hx) c).loose
  hwaits := Pipeline.hwaits_of_owed_zero _ _ _ _ Lev lev 4 fun _ _ => rfl
  pre c := iprop(StableHlo.held (c : Thread nD τ) (Pipeline.ucRefs τ sig) (W9 m hx c) ∗ Rst c)
  post c := iprop(StableHlo.held (c : Thread nD τ) (Pipeline.ucRefs τ sig) (W10 m hx c) ∗ Rst c)
  X c := iprop((∃ r, prngReg c r) ∗ Pipeline.ownSems0 (Ix := Unit) (Name := ℕ) (U := Pipeline.UD sig nD τ) (Lvl := ℕ) (Val := Elt F) (τ := τ) osemR4 c ∗ (bigSep HR4 fun b => (((c : Thread nD τ)).loc b) ↦{fullShare} U9 m hx c b))
  Y c := iprop((∃ r, prngReg c r) ∗ (bigSep HR4 fun b => (((c : Thread nD τ)).loc b) ↦{fullShare} U9 m hx c b) ∗ Pipeline.prefHeld (Ix := Unit) (Name := ℕ) (U := Pipeline.UD sig nD τ) (Lvl := ℕ) pre4 c (fun _ => fullShare) (tblR4 (U9 m hx)))
  Z c := (bigSep (Pipeline.restRefsP sig pre4 spec4 \ HR4) fun b => (((c : Thread nD τ)).loc b) ↦{fullShare} U9 m hx c b)
  hentry c := by
    have hsplit := Pipeline.arrays_of_unscopedBufs (p := 4) (pcfgs (F := F)) (adm m hx) (pdats m hx) winFacts4 arr_whole4 c
      ((pdats m hx 4 c).share_full fun _ => rfl) (U9 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts4 HR4 HR4_sub c (U9 m hx c) _ (funext fun j => V_preR4 (U9 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 4 c).Φ 0 = PhiR4 (U9 m hx) c from rfl]; unfold PhiR4; rw [Pipeline.ΦD_eq]
    iintro ⟨⟨Hp, Ho, HH⟩, HT, Hr⟩
    iframe
  hout c := by
    rw [show (pdats m hx 4 c).Φ (Fin.last _) = PhiR4 (U9 m hx) c from rfl]; unfold PhiR4; rw [Pipeline.ΦD_eq]
    iintro ⟨⟨Hr, Hp, Ho, HH⟩, HT⟩
    iframe
  hexit c := by
    have hjoin := Pipeline.unscopedBufs_of_arrays (p := 4) (pcfgs (F := F)) (adm m hx) (Ix := Unit) (Name := ℕ) (U := Pipeline.UD sig nD τ) (Lvl := ℕ)
      winFacts4 arr_whole4 c (pdats m hx) ((pdats m hx 4 c).share_full fun _ => rfl)
      (U9 m hx c) (U10 m hx c) ((pdats m hx 4 c).arrAt · (cfgR4 (U9 m hx)).N) (hF4 m hx c) (hrest4 m hx c)
    rw [Pipeline.unscopedBufs_held] at hjoin
    iintro ⟨Ha, HO, ⟨HY, HH, HT⟩, HR⟩
    ihave Hrest := (Entails.of_eq (rest_split preFacts4 HR4 HR4_sub c (U9 m hx c) _ (funext fun j => V_preR4 (U9 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg5 : Pipeline.RegionSeg (pcfgs (F := F)) (adm m hx) (pdats m hx) () defs₀ Vr Lev lev 5 where
  win := winFacts5.to₀
  block_pos := block_pos5
  stage_whole := stage_whole5
  K := Fin 8
  osem := osemR5
  ho := ownSemFactsR5
  hbody c := (body_obligationR5 (U11 m hx) (hyps5 m hx) c).loose
  hwaits := Pipeline.hwaits_of_owed_zero _ _ _ _ Lev lev 5 fun _ _ => rfl
  pre c := iprop(StableHlo.held (c : Thread nD τ) (Pipeline.ucRefs τ sig) (W11 m hx c) ∗ Rst c)
  post c := iprop(StableHlo.held (c : Thread nD τ) (Pipeline.ucRefs τ sig) (W12 m hx c) ∗ Rst c)
  X c := iprop((∃ r, prngReg c r) ∗ Pipeline.ownSems0 (Ix := Unit) (Name := ℕ) (U := Pipeline.UD sig nD τ) (Lvl := ℕ) (Val := Elt F) (τ := τ) osemR5 c ∗ (bigSep HR5 fun b => (((c : Thread nD τ)).loc b) ↦{fullShare} U11 m hx c b))
  Y c := iprop((∃ r, prngReg c r) ∗ (bigSep HR5 fun b => (((c : Thread nD τ)).loc b) ↦{fullShare} U11 m hx c b) ∗ Pipeline.prefHeld (Ix := Unit) (Name := ℕ) (U := Pipeline.UD sig nD τ) (Lvl := ℕ) pre5 c (fun _ => fullShare) (tblR5 (U11 m hx)))
  Z c := (bigSep (Pipeline.restRefsP sig pre5 spec5 \ HR5) fun b => (((c : Thread nD τ)).loc b) ↦{fullShare} U11 m hx c b)
  hentry c := by
    have hsplit := Pipeline.arrays_of_unscopedBufs (p := 5) (pcfgs (F := F)) (adm m hx) (pdats m hx) winFacts5 arr_whole5 c
      ((pdats m hx 5 c).share_full fun _ => rfl) (U11 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts5 HR5 HR5_sub c (U11 m hx c) _ (funext fun j => V_preR5 (U11 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 5 c).Φ 0 = PhiR5 (U11 m hx) c from rfl]; unfold PhiR5; rw [Pipeline.ΦD_eq]
    iintro ⟨⟨Hp, Ho, HH⟩, HT, Hr⟩
    iframe
  hout c := by
    rw [show (pdats m hx 5 c).Φ (Fin.last _) = PhiR5 (U11 m hx) c from rfl]; unfold PhiR5; rw [Pipeline.ΦD_eq]
    iintro ⟨⟨Hr, Hp, Ho, HH⟩, HT⟩
    iframe
  hexit c := by
    have hjoin := Pipeline.unscopedBufs_of_arrays (p := 5) (pcfgs (F := F)) (adm m hx) (Ix := Unit) (Name := ℕ) (U := Pipeline.UD sig nD τ) (Lvl := ℕ)
      winFacts5 arr_whole5 c (pdats m hx) ((pdats m hx 5 c).share_full fun _ => rfl)
      (U11 m hx c) (U12 m hx c) ((pdats m hx 5 c).arrAt · (cfgR5 (U11 m hx)).N) (hF5 m hx c) (hrest5 m hx c)
    rw [Pipeline.unscopedBufs_held] at hjoin
    iintro ⟨Ha, HO, ⟨HY, HH, HT⟩, HR⟩
    ihave Hrest := (Entails.of_eq (rest_split preFacts5 HR5 HR5_sub c (U11 m hx c) _ (funext fun j => V_preR5 (U11 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg6 : Pipeline.RegionSeg (pcfgs (F := F)) (adm m hx) (pdats m hx) () defs₀ Vr Lev lev 6 where
  win := winFacts6.to₀
  block_pos := block_pos6
  stage_whole := stage_whole6
  K := Fin 8
  osem := osemR6
  ho := ownSemFactsR6
  hbody c := (body_obligationR6 (U13 m hx) (hyps6 m hx) c).loose
  hwaits := Pipeline.hwaits_of_owed_zero _ _ _ _ Lev lev 6 fun _ _ => rfl
  pre c := iprop(StableHlo.held (c : Thread nD τ) (Pipeline.ucRefs τ sig) (W13 m hx c) ∗ Rst c)
  post c := iprop(StableHlo.held (c : Thread nD τ) (Pipeline.ucRefs τ sig) (W14 m hx c) ∗ Rst c)
  X c := iprop((∃ r, prngReg c r) ∗ Pipeline.ownSems0 (Ix := Unit) (Name := ℕ) (U := Pipeline.UD sig nD τ) (Lvl := ℕ) (Val := Elt F) (τ := τ) osemR6 c ∗ (bigSep HR6 fun b => (((c : Thread nD τ)).loc b) ↦{fullShare} U13 m hx c b))
  Y c := iprop((∃ r, prngReg c r) ∗ (bigSep HR6 fun b => (((c : Thread nD τ)).loc b) ↦{fullShare} U13 m hx c b) ∗ Pipeline.prefHeld (Ix := Unit) (Name := ℕ) (U := Pipeline.UD sig nD τ) (Lvl := ℕ) pre6 c (fun _ => fullShare) (tblR6 (U13 m hx)))
  Z c := (bigSep (Pipeline.restRefsP sig pre6 spec6 \ HR6) fun b => (((c : Thread nD τ)).loc b) ↦{fullShare} U13 m hx c b)
  hentry c := by
    have hsplit := Pipeline.arrays_of_unscopedBufs (p := 6) (pcfgs (F := F)) (adm m hx) (pdats m hx) winFacts6 arr_whole6 c
      ((pdats m hx 6 c).share_full fun _ => rfl) (U13 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts6 HR6 HR6_sub c (U13 m hx c) _ (funext fun j => V_preR6 (U13 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 6 c).Φ 0 = PhiR6 (U13 m hx) c from rfl]; unfold PhiR6; rw [Pipeline.ΦD_eq]
    iintro ⟨⟨Hp, Ho, HH⟩, HT, Hr⟩
    iframe
  hout c := by
    rw [show (pdats m hx 6 c).Φ (Fin.last _) = PhiR6 (U13 m hx) c from rfl]; unfold PhiR6; rw [Pipeline.ΦD_eq]
    iintro ⟨⟨Hr, Hp, Ho, HH⟩, HT⟩
    iframe
  hexit c := by
    have hjoin := Pipeline.unscopedBufs_of_arrays (p := 6) (pcfgs (F := F)) (adm m hx) (Ix := Unit) (Name := ℕ) (U := Pipeline.UD sig nD τ) (Lvl := ℕ)
      winFacts6 arr_whole6 c (pdats m hx) ((pdats m hx 6 c).share_full fun _ => rfl)
      (U13 m hx c) (U14 m hx c) ((pdats m hx 6 c).arrAt · (cfgR6 (U13 m hx)).N) (hF6 m hx c) (hrest6 m hx c)
    rw [Pipeline.unscopedBufs_held] at hjoin
    iintro ⟨Ha, HO, ⟨HY, HH, HT⟩, HR⟩
    ihave Hrest := (Entails.of_eq (rest_split preFacts6 HR6 HR6_sub c (U13 m hx c) _ (funext fun j => V_preR6 (U13 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg7 : Pipeline.RegionSeg (pcfgs (F := F)) (adm m hx) (pdats m hx) () defs₀ Vr Lev lev 7 where
  win := winFacts7.to₀
  block_pos := block_pos7
  stage_whole := stage_whole7
  K := Fin 8
  osem := osemR7
  ho := ownSemFactsR7
  hbody c := (body_obligationR7 (U15 m hx) (hyps7 m hx) c).loose
  hwaits := Pipeline.hwaits_of_owed_zero _ _ _ _ Lev lev 7 fun _ _ => rfl
  pre c := iprop(StableHlo.held (c : Thread nD τ) (Pipeline.ucRefs τ sig) (W15 m hx c) ∗ Rst c)
  post c := iprop(StableHlo.held (c : Thread nD τ) (Pipeline.ucRefs τ sig) (W16 m hx c) ∗ Rst c)
  X c := iprop((∃ r, prngReg c r) ∗ Pipeline.ownSems0 (Ix := Unit) (Name := ℕ) (U := Pipeline.UD sig nD τ) (Lvl := ℕ) (Val := Elt F) (τ := τ) osemR7 c ∗ (bigSep HR7 fun b => (((c : Thread nD τ)).loc b) ↦{fullShare} U15 m hx c b))
  Y c := iprop((∃ r, prngReg c r) ∗ (bigSep HR7 fun b => (((c : Thread nD τ)).loc b) ↦{fullShare} U15 m hx c b) ∗ Pipeline.prefHeld (Ix := Unit) (Name := ℕ) (U := Pipeline.UD sig nD τ) (Lvl := ℕ) pre7 c (fun _ => fullShare) (tblR7 (U15 m hx)))
  Z c := (bigSep (Pipeline.restRefsP sig pre7 spec7 \ HR7) fun b => (((c : Thread nD τ)).loc b) ↦{fullShare} U15 m hx c b)
  hentry c := by
    have hsplit := Pipeline.arrays_of_unscopedBufs (p := 7) (pcfgs (F := F)) (adm m hx) (pdats m hx) winFacts7 arr_whole7 c
      ((pdats m hx 7 c).share_full fun _ => rfl) (U15 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts7 HR7 HR7_sub c (U15 m hx c) _ (funext fun j => V_preR7 (U15 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 7 c).Φ 0 = PhiR7 (U15 m hx) c from rfl]; unfold PhiR7; rw [Pipeline.ΦD_eq]
    iintro ⟨⟨Hp, Ho, HH⟩, HT, Hr⟩
    iframe
  hout c := by
    rw [show (pdats m hx 7 c).Φ (Fin.last _) = PhiR7 (U15 m hx) c from rfl]; unfold PhiR7; rw [Pipeline.ΦD_eq]
    iintro ⟨⟨Hr, Hp, Ho, HH⟩, HT⟩
    iframe
  hexit c := by
    have hjoin := Pipeline.unscopedBufs_of_arrays (p := 7) (pcfgs (F := F)) (adm m hx) (Ix := Unit) (Name := ℕ) (U := Pipeline.UD sig nD τ) (Lvl := ℕ)
      winFacts7 arr_whole7 c (pdats m hx) ((pdats m hx 7 c).share_full fun _ => rfl)
      (U15 m hx c) (U16 m hx c) ((pdats m hx 7 c).arrAt · (cfgR7 (U15 m hx)).N) (hF7 m hx c) (hrest7 m hx c)
    rw [Pipeline.unscopedBufs_held] at hjoin
    iintro ⟨Ha, HO, ⟨HY, HH, HT⟩, HR⟩
    ihave Hrest := (Entails.of_eq (rest_split preFacts7 HR7 HR7_sub c (U15 m hx c) _ (funext fun j => V_preR7 (U15 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

abbrev segs : List (Pipeline.Seg (pcfgs (F := F)) (adm m hx) (pdats m hx) () defs₀ Vr Lev lev) :=
  [ .host (hseg hostOps0 hostOps0_sub hostOps0_fresh (W0 m)),
    .region (reg0 m hx),
    .host (hseg hostOps1 hostOps1_sub hostOps1_fresh (W2 m hx)),
    .region (reg1 m hx),
    .host (hseg hostOps2 hostOps2_sub hostOps2_fresh (W4 m hx)),
    .region (reg2 m hx),
    .host (hseg hostOps3 hostOps3_sub hostOps3_fresh (W6 m hx)),
    .region (reg3 m hx),
    .host (hseg hostOps4 hostOps4_sub hostOps4_fresh (W8 m hx)),
    .region (reg4 m hx),
    .host (hseg hostOps5 hostOps5_sub hostOps5_fresh (W10 m hx)),
    .region (reg5 m hx),
    .host (hseg hostOps6 hostOps6_sub hostOps6_fresh (W12 m hx)),
    .region (reg6 m hx),
    .host (hseg hostOps7 hostOps7_sub hostOps7_fresh (W14 m hx)),
    .region (reg7 m hx),
    .host (hseg hostOps8 hostOps8_sub hostOps8_fresh (W16 m hx)) ]

/-- @main is the run of the segments. -/
theorem main_run (c : Dev nD) : main (F := F) c = Pipeline.Seg.run (segs m hx) := (main_chain c).trans (by chain_rfl)

set_option backward.isDefEq.respectTransparency.types false in
set_option maxHeartbeats 2000000 in
/-- Every weakly fair execution of @main terminates with every unscoped buffer at the last stage's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W17 m hx c b) :=
  Pipeline.θ_run_regions_kit (pcfgs (F := F)) (adm m hx) (pdats m hx) () (cellOf_inj (adm m hx)) embL defs₀ Vr Lev lev m ρ main (segs m hx)
    (fun c Q => by rw [main_run m hx c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m hx)) (cellOf_inj (adm m hx))) (Pipeline.launchToks (Pipeline.pin (pcfgs (F := F)) (adm m hx)) (cellOf_inj (adm m hx))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => StableHlo.held (c : Thread nD τ) (Pipeline.ucRefs τ sig) (W17 m hx c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => sep_mono .rfl (show (Rst c : sProp 𝕄) ⊢ iprop(∃ W, owes (c : Thread nD τ) (0 : CellTallies nD τ sig Unit) W) from by
      iintro ⟨-, HO⟩
      iexact HO)⟩)
    (hinit := by
      refine Pipeline.initEach Lev lev fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m hx c b)
    (hfin := fun c s' => by
      iintro ⟨Hh, HSI⟩
      unfold StableHlo.held
      imodintro
      iapply (pointsTo_read_all (Pipeline.ucRefs τ sig) (fun b => (((c : Thread nD τ)).1, b)) (W17 m hx c) s')
      isplitl [Hh] <;> iassumption)
    (hQ := fun s h c => h c)

end Run

end Cert.Kernel.Emb

end
-- ==== Proof.Kernel.Frame.lean ====
import proofs.«418142_j33036888441229_2_alg».proof.Proof.Kernel.Launch

set_option maxRecDepth 16384

noncomputable section

namespace Cert.Kernel.Emb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Frame

variable (m : (ℓ : Loc nD τ sig) → Buf (Elt F) ℓ) (ρ : Dev nD → PrngReg)
variable (hx : ∀ (c : Dev nD) (j : S64x4096.Idx), BitVec.toNat (m ((c.tc : Thread nD τ).loc main_arg0) j) < 50257)

/-- An unscoped reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hx in

/-- @main ends with its three arguments as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (keep_arg0_W17 m hx c),
     (h c _ (mem_uc main_arg1 (by decide))).trans (keep_arg1_W17 m hx c),
     (h c _ (mem_uc main_arg2 (by decide))).trans (keep_arg2_W17 m hx c)⟩) (run_main m ρ hx)

end Frame

end Cert.Kernel.Emb

end
-- ==== Proof.KernelIdeal.Common.lean ====
import proofs.«418142_j33036888441229_2_alg».proof.Proof.Gen.KernelIdeal.Launch
import proofs.«418142_j33036888441229_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The gather table: the weight transposed, one row of 128 per vocabulary entry. -/
abbrev hbM : Memref sig .tc .hbm S50257x128 .f32 := Memref.whole main_v0
abbrev hhbM : hbM.IsWhole := Memref.isWhole_whole _

abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (f : MBuf (F := F) c M) : sProp 𝕄 :=
  M.view.loc (c : Thread nD τ) ↦{fullShare} f
abbrev rawPt (c : Dev nD) {sp : Space} {S : Shape} {e : EltTy} (M : Memref sig .tc sp S e) (f : MBuf (F := F) c M) : sProp 𝕄 :=
  M.view.loc (c : Thread nD τ) ↦[M.view.set]{fullShare} f
abbrev tokPt (c : Dev nD) {sp : Space} {S : Shape} {e : EltTy} (M : Memref sig .tc sp S e) (k : ℕ) (f : MBuf (F := F) c M) : sProp 𝕄 :=
  M.view.loc (c : Thread nD τ) ↦{Transfers.shareTokN fullShare k} f

theorem scr_open (c : Dev nD) {sp : Space} {S : Shape} {e : EltTy} (M : Memref sig .tc sp S e) :
    (iprop(∃ d, owns (c : Thread nD τ) M fullShare d) : sProp 𝕄) ⊢ iprop(∃ f, rawPt c M f) := by
  unfold owns
  iintro ⟨%d, %f, -, H⟩
  iexists f; iexact H

theorem scr_close (c : Dev nD) {sp : Space} {S : Shape} {e : EltTy} (M : Memref sig .tc sp S e) :
    (iprop(∃ f, rawPt c M f) : sProp 𝕄) ⊢ iprop(∃ d, owns (c : Thread nD τ) M fullShare d) := by
  unfold owns
  iintro ⟨%f, H⟩
  iexists _, f; isplitr; · ipureintro; rfl
  iexact H

end Cert.KernelIdeal.Emb

end
-- ==== Proof.KernelIdeal.Run0.lean ====
import proofs.«418142_j33036888441229_2_alg».proof.Proof.KernelIdeal.Common

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR0 : Memref sig .tc .smem S32768 .i32 := Memref.whole main_v3
abbrev htbMR0 : tbMR0.IsWhole := Memref.isWhole_whole _
abbrev scMR0 : Memref sig .tc .vmem S8x128 .f32 := Memref.whole cc0_scratch0
abbrev hscMR0 : scMR0.IsWhole := Memref.isWhole_whole _

section
variable (c : Dev nD) (i : grid0.Coords) (xt : MBuf (F := F) c tbMR0)

/-- The word of the index table at offsets `off`. -/
abbrev wordR0 (off : Fin 1 → ℕ) (inb : ∀ a, off a + S1.size a ≤ S32768.size a) : Elt F .i32 :=
  tbMR0.view.readAt (Elt F) (Rect.unit (s := S32768) off S1.size inb).toLoadRect xt (Shape.Idx.first (numel1_S1.symm ▸ Nat.one_pos))

/-- Each of the eight token ids the point at `i` reads is a row number of the gather table. -/
def OkR0 : Prop :=
  k0_chk1 (wordR0 c xt (k0_off1 i) (k0_off1_inb i)) ∧ k0_chk2 (wordR0 c xt (k0_off3 i) (k0_off3_inb i)) ∧ k0_chk3 (wordR0 c xt (k0_off5 i) (k0_off5_inb i)) ∧ k0_chk4 (wordR0 c xt (k0_off7 i) (k0_off7_inb i)) ∧ k0_chk5 (wordR0 c xt (k0_off9 i) (k0_off9_inb i)) ∧ k0_chk6 (wordR0 c xt (k0_off11 i) (k0_off11_inb i)) ∧ k0_chk7 (wordR0 c xt (k0_off13 i) (k0_off13_inb i)) ∧ k0_chk8 (wordR0 c xt (k0_off15 i) (k0_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR0 (c : Dev nD) (i : grid0.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR0) (fh : MBuf (F := F) c hbM) (fs0 : MBuf (F := F) c scMR0)
    (h : OkR0 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR0 fs0
            ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0
            ∗ tokPt c hbM 3 fh ∗ tokPt c hbM 4 fh ∗ tokPt c hbM 5 fh ∗ tokPt c hbM 6 fh ∗ tokPt c hbM 7 fh ∗ tokPt c hbM 8 fh ∗ tokPt c hbM 9 fh ∗ tokPt c hbM 10 fh ∗ mPt c tbMR0 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR0 f)
                ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0
                ∗ tokPt c hbM 3 fh ∗ tokPt c hbM 4 fh ∗ tokPt c hbM 5 fh ∗ tokPt c hbM 6 fh ∗ tokPt c hbM 7 fh ∗ tokPt c hbM 8 fh ∗ tokPt c hbM 9 fh ∗ tokPt c hbM 10 fh ∗ mPt c tbMR0 xt ∗ (∃ W', owes (c : Thread nD τ) 0 W')) -∗ K ⟨⟩))
          ⊢ wp frame (wpE (defs₀ (F := F)) Variants.none c none) Set.univ (cc0__embed_kernel i tbMR0 htbMR0 hbM hhbM arg3 harg3 arg4 harg4 scMR0 hscMR0 cc0_scratch1) K } := by
  refine ⟨?_, fun W K => ?run⟩
  case run =>
    simp only [cc0__embed_kernel_eq_skeleton]; unfold cc0__embed_kernel_skel
    simp only [k0_part1_eq_skeleton, k0_part2_eq_skeleton, k0_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid0.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR0) (fh : MBuf (F := F) c hbM) (fs0 : MBuf (F := F) c scMR0) (h : OkR0 c i xt)

/-- The run's one piece is a store of the whole 8 × 128 block. -/
theorem coverR0 (y : S8x128.Idx) : ∃ pc ∈ (kernelRunR0 c i arg3 harg3 arg4 harg4 x0 xt fh fs0 h).1, y ∈ pc.1.set :=
  View.cover_of_tiledL (kernelRunR0 c i arg3 harg3 arg4 harg4 x0 xt fh fs0 h).1 S8x128.size (by sl_kernel_rfl) y

abbrev VOR0 : View sig .tc .vmem S8x128 .f32 := (Memref.whole cc0_stg1_0 : Memref sig .tc .vmem S8x128 .f32).view

/-- What the run leaves in the output block: its pieces read back. -/
def outR0 : Vec F S8x128 .f32 :=
  VOR0.read (Elt F) (VOR0.writes (Elt F) VOR0.junk (kernelRunR0 c i arg3 harg3 arg4 harg4 x0 xt fh fs0 h).1)

end

end Cert.KernelIdeal.Emb

end
-- ==== Proof.KernelIdeal.Rows0.lean ====
import proofs.«418142_j33036888441229_2_alg».proof.Proof.KernelIdeal.Run0
import proofs.«418142_j33036888441229_2_alg».proof.Proof.RowsLib
import Idealize.ShloMosaic.Lib.ValueIdx
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid0.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR0) (fh : MBuf (F := F) c hbM) (fs0 : MBuf (F := F) c scMR0) (h : OkR0 c i xt)

/-- The gathered tile: row r is what the r-th copy brings. -/
def gatherR0 : Vec F S8x128 .f32 :=
  rows8 (kernelRunR0.sl.dma1 c i xt fh h) (kernelRunR0.sl.dma2 c i xt fh h) (kernelRunR0.sl.dma3 c i xt fh h) (kernelRunR0.sl.dma4 c i xt fh h)
    (kernelRunR0.sl.dma5 c i xt fh h) (kernelRunR0.sl.dma6 c i xt fh h) (kernelRunR0.sl.dma7 c i xt fh h) (kernelRunR0.sl.dma8 c i xt fh h)

set_option maxHeartbeats 400000 in
/-- The tile as loaded after the eight copies is the gathered tile: the eight rows cover it, so its earlier contents do not matter. -/
theorem tileR0_eq : kernelRunR0.sl.v121 c i xt fh fs0 h = gatherR0 c i xt fh h := by
  unfold kernelRunR0.sl.v121 gatherR0
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR0.view _ _ _ _ _ _ _ _ squeezes_S1x128_S128.numel_eq fs0 _ _ _ _ _ _ _ _ r j

/-- The block stored: the gathered tile plus the bias row. -/
theorem outR0_eq : outR0 c i arg3 harg3 arg4 harg4 x0 xt fh fs0 h = k0_pay1 (gatherR0 c i xt fh h) x0 := by
  unfold outR0
  rw [View.read_writes_eq_canon _ _ _ (coverR0 c i arg3 harg3 arg4 harg4 x0 xt fh fs0 h)]
  unfold kernelRunR0
  dsimp only
  rw [View.canon_unit_zero (S := S8x128) zero2, tileR0_eq c i xt fh fs0 h,
    View.readAt_eq_ld, harg3.read_unread, View.ld_unit_zero (S := S1x128) zero2]

theorem outR0_indep (fs0' : MBuf (F := F) c scMR0) :
    outR0 c i arg3 harg3 arg4 harg4 x0 xt fh fs0 h = outR0 c i arg3 harg3 arg4 harg4 x0 xt fh fs0' h :=
  (outR0_eq c i arg3 harg3 arg4 harg4 x0 xt fh fs0 h).trans (outR0_eq c i arg3 harg3 arg4 harg4 x0 xt fh fs0' h).symm

end

end Cert.KernelIdeal.Emb

end
-- ==== Proof.KernelIdeal.Reg0.lean ====
import proofs.«418142_j33036888441229_2_alg».proof.Proof.KernelIdeal.Rows0
import proofs.«418142_j33036888441229_2_alg».proof.Proof.LibReadShares

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR0 : pre0.Contents (Elt F) := fun j => V (0 : Dev nD) (pre0.ref j)
theorem V_preR0 (c : Dev nD) (j : Fin 1) : V c (pre0.ref j) = tblR0 V j := by
  obtain rfl : c = 0 := Subsingleton.elim _ _; rfl

abbrev admR0 : (pcfg0 (F := F)).Adm := ⟨tblR0 V, (ok0.eq_1 (tblR0 V)).mpr trivial⟩
abbrev cfgR0 : Pipeline.Cfg sig Λ₀ := cfg0 (admR0 V)

/-- At every point the eight token ids read are row numbers of the gather table. -/
def HypsR0 : Prop := ∀ (c : Dev nD) (t : Fin (cfgR0 V).N), OkR0 c (grid0.coords t) (tblR0 V 0)

/-- Window w's block at point t, read off its array as entered. -/
def iblkR0 (c : Dev nD) (w : Fin (cfgR0 V).W) (t : Fin (cfgR0 V).N) : (((cfgR0 V).win w).xblock ((cfgR0 V).grid.coords t)).Idx → Elt F ((cfgR0 V).win w).elt :=
  (((cfgR0 V).win w).blk t).view.read (Elt F) (V c (Pipeline.arrRef spec0 w))

theorem beforeR0_0_of {c : Dev nD} (dat : Dat τ (Elt F) Unit ℕ (Pipeline.UD sig nD τ) ℕ (cfgR0 V) c) (hA : dat.A 0 = V c (Pipeline.arrRef spec0 0))
    (hafter : ∀ t, dat.after 0 t = iblkR0 V c 0 t) (t : Fin (cfgR0 V).N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)

abbrev msR0_0 (t : Fin (cfgR0 V).N) : Memref sig .tc .vmem S1x128 .f32 := spec0_0.stage ((cfgR0 V).slots t 0)
abbrev hsR0_0 (t : Fin (cfgR0 V).N) : (msR0_0 V t).IsWhole := hstage0_0 (((cfgR0 V).slots t 0).cast nbuf0_0)
abbrev msR0_1 (t : Fin (cfgR0 V).N) : Memref sig .tc .vmem S8x128 .f32 := spec0_1.stage ((cfgR0 V).slots t 1)
abbrev hsR0_1 (t : Fin (cfgR0 V).N) : (msR0_1 V t).IsWhole := hstage0_1 (((cfgR0 V).slots t 1).cast nbuf0_1)

abbrev bodyAtR0 (t : Fin (cfgR0 V).N) : Prog (TpuEff nD τ sig (Elt F) Λ₀ .tc) PUnit :=
  cc0__embed_kernel (grid0.coords t) (Memref.whole main_v3) (Memref.isWhole_whole _) (Memref.whole main_v0) (Memref.isWhole_whole _)
    (spec0_0.stage ((cfgR0 V).slots t 0)) (hstage0_0 (((cfgR0 V).slots t 0).cast nbuf0_0))
    (spec0_1.stage ((cfgR0 V).slots t 1)) (hstage0_1 (((cfgR0 V).slots t 1).cast nbuf0_1))
    (Memref.whole cc0_scratch0) (Memref.isWhole_whole _) cc0_scratch1

def fsJR0 (c : Dev nD) : MBuf (F := F) c scMR0 := fun _ => Classical.arbitrary _

/-- What point t leaves in its output block. -/
def outsAtR0 (hH : HypsR0 V) (c : Dev nD) (t : Fin (cfgR0 V).N) : Vec F S8x128 .f32 :=
  outR0 c (grid0.coords t) (msR0_0 V t) (hsR0_0 V t) (msR0_1 V t) (hsR0_1 V t) (iblkR0 V c 0 t) (tblR0 V 0) (V c main_v0) (fsJR0 c) (hH c t)

abbrev osemR0 : Fin 8 → SemLoc sig := fun j => (![SemLoc.dma 3, SemLoc.dma 4, SemLoc.dma 5, SemLoc.dma 6, SemLoc.dma 7, SemLoc.dma 8, SemLoc.dma 9, SemLoc.dma 10] : Fin 8 → SemLoc sig) j
theorem ownSemFactsR0 : Pipeline.OwnSemFacts spec0 osemR0 := by decide
theorem ownSemsR0_eq (c : Dev nD) :
    (Pipeline.ownSems0 (Ix := Unit) (Name := ℕ) (U := Pipeline.UD sig nD τ) (Lvl := ℕ) (Val := Elt F) (τ := τ) osemR0 c : sProp 𝕄)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osemR0 [0, 1, 2, 3, 4, 5, 6, 7] (by decide) (by decide)]; rfl

def HR0 : Finset (Ref sig .tc) := {main_v0}
theorem HR0_sub : HR0 ⊆ Pipeline.restRefsP sig pre0 spec0 := by decide
theorem hbmPtsR0_eq (c : Dev nD) :
    (bigSep HR0 (fun b => ((c : Thread nD τ).loc b) ↦{fullShare} V c b) : sProp 𝕄) = iprop(mPt c hbM (V c main_v0)) := by
  rw [BI.bigSep_eq_bigSepL_of_eq [main_v0] (by decide) (by decide)]; rfl
theorem prefR0_eq (c : Dev nD) :
    (Pipeline.prefHeld (Ix := Unit) (Name := ℕ) (U := Pipeline.UD sig nD τ) (Lvl := ℕ) pre0 c (fun _ => fullShare) (tblR0 V) : sProp 𝕄) = iprop(mPt c tbMR0 (tblR0 V 0)) := by
  unfold Pipeline.prefHeld
  rw [show (Finset.univ : Finset (Fin 1)) = {(0 : Fin 1)} from by decide, bigSep_singleton]
  rfl

abbrev PhiR0 (c : Dev nD) : sProp 𝕄 :=
  iprop(Pipeline.ΦD osemR0 spec0 HR0 V c ∗ Pipeline.prefHeld (Ix := Unit) (Name := ℕ) (U := Pipeline.UD sig nD τ) (Lvl := ℕ) pre0 c (fun _ => fullShare) (tblR0 V))

theorem PhiR0_eq (c : Dev nD) :
    (PhiR0 V c : sProp 𝕄)
      = iprop(iprop(iprop((∃ d, owns (c : Thread nD τ) scMR0 fullShare d) ∗ Pipeline.scopedRestBut (Ix := Unit) (Name := ℕ) (U := Pipeline.UD sig nD τ) (Lvl := ℕ) (Val := Elt F) spec0 c [cc0_scratch0])
          ∗ (∃ r, prngReg c r) ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(mPt c hbM (V c main_v0))) ∗ iprop(mPt c tbMR0 (tblR0 V 0))) := by
  unfold PhiR0
  rw [Pipeline.ΦD_eq, scopedRest0_split, ownSemsR0_eq, hbmPtsR0_eq, prefR0_eq]; simp only [scMR0, owns_whole]; try rfl

def datR0 (hH : HypsR0 V) (c : Dev nD) : Dat τ (Elt F) Unit ℕ (Pipeline.UD sig nD τ) ℕ (cfgR0 V) c where
  A w := V c (Pipeline.arrRef spec0 w)
  after w t := match w with
    | ⟨0, _⟩ => iblkR0 V c 0 t
    | ⟨1, _⟩ => outsAtR0 V hH c t
  Φ _ := PhiR0 V c
  q _ := fullShare
  owed _ := 0

theorem A_eqR0 (hH : HypsR0 V) (c : Dev nD) (w : Fin (cfgR0 V).W) : (datR0 V hH c).A w = V c (Pipeline.arrRef spec0 w) := by
  dsimp only [datR0]
theorem afterR0_0 (hH : HypsR0 V) (c : Dev nD) (t : Fin (cfgR0 V).N) : (datR0 V hH c).after 0 t = iblkR0 V c 0 t := by dsimp only [datR0]; try rfl
theorem afterR0_1 (hH : HypsR0 V) (c : Dev nD) (t : Fin (cfgR0 V).N) : (datR0 V hH c).after 1 t = outsAtR0 V hH c t := by dsimp only [datR0]; try rfl
theorem beforeR0_0 (hH : HypsR0 V) (c : Dev nD) (t : Fin (cfgR0 V).N) (d) : (datR0 V hH c).before 0 t d = iblkR0 V c 0 t :=
  beforeR0_0_of V (datR0 V hH c) (A_eqR0 V hH c 0) (afterR0_0 V hH c) t d

abbrev remR0 (c : Dev nD) (f : MBuf (F := F) c hbM) : sProp 𝕄 :=
  iprop((hbM.view.loc (c : Thread nD τ) ↦{Transfers.shareDrop fullShare (3 + 8)} f)
    ∗ BI.bigSep (Finset.range 3) (fun i => hbM.view.loc (c : Thread nD τ) ↦{Transfers.shareTokN fullShare i} f))

theorem tok_splitR0 (c : Dev nD) (f : MBuf (F := F) c hbM) :
    (mPt c hbM f : sProp 𝕄) ⊢ iprop(remR0 c f ∗ tokPt c hbM 3 f ∗ tokPt c hbM 4 f ∗ tokPt c hbM 5 f ∗ tokPt c hbM 6 f ∗ tokPt c hbM 7 f ∗ tokPt c hbM 8 f ∗ tokPt c hbM 9 f ∗ tokPt c hbM 10 f) :=
  Transfers.pointsTo_window_split (Ix := Unit) (Name := ℕ) (U := Pipeline.UD sig nD τ) (Lvl := ℕ) fullShare 3

theorem tok_joinR0 (c : Dev nD) (f : MBuf (F := F) c hbM) :
    iprop(remR0 c f ∗ tokPt c hbM 3 f ∗ tokPt c hbM 4 f ∗ tokPt c hbM 5 f ∗ tokPt c hbM 6 f ∗ tokPt c hbM 7 f ∗ tokPt c hbM 8 f ∗ tokPt c hbM 9 f ∗ tokPt c hbM 10 f) ⊢ (mPt c hbM f : sProp 𝕄) :=
  Transfers.pointsTo_window_join (Ix := Unit) (Name := ℕ) (U := Pipeline.UD sig nD τ) (Lvl := ℕ) fullShare 3

def bodyPreR0 (hH : HypsR0 V) (c : Dev nD) (t : Fin (cfgR0 V).N) : sProp 𝕄 :=
  iprop((datR0 V hH c).Φ t.castSucc ∗ (datR0 V hH c).owesAt () t.castSucc
    ∗ (∃ d, owns (c : Thread nD τ) (msR0_0 V t) fullShare ((datR0 V hH c).before 0 t d))
    ∗ (∃ d, owns (c : Thread nD τ) (msR0_1 V t) fullShare ((datR0 V hH c).before 1 t d)))

def bodyPostR0 (hH : HypsR0 V) (c : Dev nD) (t : Fin (cfgR0 V).N) : sProp 𝕄 :=
  iprop((datR0 V hH c).Φ t.succ ∗ (datR0 V hH c).owesAt () t.succ
    ∗ owns (c : Thread nD τ) (msR0_0 V t) fullShare ((datR0 V hH c).after 0 t)
    ∗ owns (c : Thread nD τ) (msR0_1 V t) fullShare ((datR0 V hH c).after 1 t))

set_option maxHeartbeats 2000000 in
/-- The body at any point leaves the output block at `outsAtR0`, whatever the scratch tile held before. -/
theorem sound_bodyR0 (hH : HypsR0 V) (c : Dev nD) (t : Fin (cfgR0 V).N) :
    bodyPreR0 V hH c t ⊢ wp frame (wpE (defs₀ (F := F)) Variants.none c none) Set.univ (bodyAtR0 V t) (fun _ => bodyPostR0 V hH c t) := by
  unfold bodyPreR0 bodyPostR0 bodyAtR0
  simp only [beforeR0_0]
  rw [show (datR0 V hH c).Φ t.succ = (datR0 V hH c).Φ t.castSucc from rfl, afterR0_0, afterR0_1]
  rw [show (datR0 V hH c).Φ t.castSucc = PhiR0 V c from rfl, PhiR0_eq]
  unfold Dat.owesAt Pipeline.owesWithin
  rw [show (datR0 V hH c).owed t.castSucc = 0 from rfl, show (datR0 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR0) $$ HS0
  icases HS0 with ⟨%fs0, HS0⟩
  ihave Hh := (tok_splitR0 c (V c main_v0)) $$ Hh
  icases Hh with ⟨Hhr, Hh0, Hh1, Hh2, Hh3, Hh4, Hh5, Hh6, Hh7⟩
  iapply ((kernelRunR0 c (grid0.coords t) (msR0_0 V t) (hsR0_0 V t) (msR0_1 V t) (hsR0_1 V t) (iblkR0 V c 0 t) (tblR0 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR0 c (V c main_v0)) $$ [Hhr Hh0 Hh1 Hh2 Hh3 Hh4 Hh5 Hh6 Hh7]
  · iframe
  ihave HS0 := (scr_close c scMR0) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR0
  rw [← outR0_indep c (grid0.coords t) (msR0_0 V t) (hsR0_0 V t) (msR0_1 V t) (hsR0_1 V t) (iblkR0 V c 0 t) (tblR0 V 0) (V c main_v0) fs0 (hH c t) (fsJR0 c)]
  unfold outR0
  exact View.read_writes_of_cover _ _ _ _ _ (coverR0 c (grid0.coords t) (msR0_0 V t) (hsR0_0 V t) (msR0_1 V t) (hsR0_1 V t) (iblkR0 V c 0 t) (tblR0 V 0) (V c main_v0) fs0 (hH c t))

theorem body_obligationR0 (hH : HypsR0 V) (c : Dev nD) :
    BodyObligation (datR0 (F := F) V hH c) (defs₀ (F := F)) Variants.none () Set.univ := fun t => by
  rw [bigSep_W0, bigSep_W0]
  exact sound_bodyR0 V hH c t

end Region

end Cert.KernelIdeal.Emb

end
-- ==== Proof.KernelIdeal.Hyp0.lean ====
import proofs.«418142_j33036888441229_2_alg».proof.Proof.KernelIdeal.Reg0

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR0 (V : (c : Dev nD) → (b : Ref sig .tc) → Buf (Elt F) ((c : Thread nD τ).loc b))
    (h : ∀ p : S32768.Idx, BitVec.toNat (tbMR0.view.read (Elt F) (tblR0 V 0) p) < 50257) : HypsR0 V := by
  intro c t
  have r : ∀ (lr : LoadRect S32768) (i : lr.shape.Idx) (a : Fin 2),
      (![BitVec.toNat (tbMR0.view.readAt (Elt F) lr (tblR0 V 0) i), 0] : Fin 2 → ℕ) a + S1x128.size a ≤ S50257x128.size a :=
    fun lr i => row_inside _ (h (lr.idx i))
  unfold OkR0 k0_chk1 k0_chk2 k0_chk3 k0_chk4 k0_chk5 k0_chk6 k0_chk7 k0_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.KernelIdeal.Emb

end
-- ==== Proof.KernelIdeal.Run1.lean ====
import proofs.«418142_j33036888441229_2_alg».proof.Proof.KernelIdeal.Common

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR1 : Memref sig .tc .smem S32768 .i32 := Memref.whole main_v5
abbrev htbMR1 : tbMR1.IsWhole := Memref.isWhole_whole _
abbrev scMR1 : Memref sig .tc .vmem S8x128 .f32 := Memref.whole cc1_scratch0
abbrev hscMR1 : scMR1.IsWhole := Memref.isWhole_whole _

section
variable (c : Dev nD) (i : grid1.Coords) (xt : MBuf (F := F) c tbMR1)

/-- The word of the index table at offsets `off`. -/
abbrev wordR1 (off : Fin 1 → ℕ) (inb : ∀ a, off a + S1.size a ≤ S32768.size a) : Elt F .i32 :=
  tbMR1.view.readAt (Elt F) (Rect.unit (s := S32768) off S1.size inb).toLoadRect xt (Shape.Idx.first (numel1_S1.symm ▸ Nat.one_pos))

/-- Each of the eight token ids the point at `i` reads is a row number of the gather table. -/
def OkR1 : Prop :=
  k1_chk1 (wordR1 c xt (k1_off1 i) (k1_off1_inb i)) ∧ k1_chk2 (wordR1 c xt (k1_off3 i) (k1_off3_inb i)) ∧ k1_chk3 (wordR1 c xt (k1_off5 i) (k1_off5_inb i)) ∧ k1_chk4 (wordR1 c xt (k1_off7 i) (k1_off7_inb i)) ∧ k1_chk5 (wordR1 c xt (k1_off9 i) (k1_off9_inb i)) ∧ k1_chk6 (wordR1 c xt (k1_off11 i) (k1_off11_inb i)) ∧ k1_chk7 (wordR1 c xt (k1_off13 i) (k1_off13_inb i)) ∧ k1_chk8 (wordR1 c xt (k1_off15 i) (k1_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR1 (c : Dev nD) (i : grid1.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR1) (fh : MBuf (F := F) c hbM) (fs0 : MBuf (F := F) c scMR1)
    (h : OkR1 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR1 fs0
            ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0
            ∗ tokPt c hbM 14 fh ∗ tokPt c hbM 15 fh ∗ tokPt c hbM 16 fh ∗ tokPt c hbM 17 fh ∗ tokPt c hbM 18 fh ∗ tokPt c hbM 19 fh ∗ tokPt c hbM 20 fh ∗ tokPt c hbM 21 fh ∗ mPt c tbMR1 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR1 f)
                ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0
                ∗ tokPt c hbM 14 fh ∗ tokPt c hbM 15 fh ∗ tokPt c hbM 16 fh ∗ tokPt c hbM 17 fh ∗ tokPt c hbM 18 fh ∗ tokPt c hbM 19 fh ∗ tokPt c hbM 20 fh ∗ tokPt c hbM 21 fh ∗ mPt c tbMR1 xt ∗ (∃ W', owes (c : Thread nD τ) 0 W')) -∗ K ⟨⟩))
          ⊢ wp frame (wpE (defs₀ (F := F)) Variants.none c none) Set.univ (cc1__embed_kernel i tbMR1 htbMR1 hbM hhbM arg3 harg3 arg4 harg4 scMR1 hscMR1 cc1_scratch1) K } := by
  refine ⟨?_, fun W K => ?run⟩
  case run =>
    simp only [cc1__embed_kernel_eq_skeleton]; unfold cc1__embed_kernel_skel
    simp only [k1_part1_eq_skeleton, k1_part2_eq_skeleton, k1_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid1.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR1) (fh : MBuf (F := F) c hbM) (fs0 : MBuf (F := F) c scMR1) (h : OkR1 c i xt)

/-- The run's one piece is a store of the whole 8 × 128 block. -/
theorem coverR1 (y : S8x128.Idx) : ∃ pc ∈ (kernelRunR1 c i arg3 harg3 arg4 harg4 x0 xt fh fs0 h).1, y ∈ pc.1.set :=
  View.cover_of_tiledL (kernelRunR1 c i arg3 harg3 arg4 harg4 x0 xt fh fs0 h).1 S8x128.size (by sl_kernel_rfl) y

abbrev VOR1 : View sig .tc .vmem S8x128 .f32 := (Memref.whole cc1_stg1_0 : Memref sig .tc .vmem S8x128 .f32).view

/-- What the run leaves in the output block: its pieces read back. -/
def outR1 : Vec F S8x128 .f32 :=
  VOR1.read (Elt F) (VOR1.writes (Elt F) VOR1.junk (kernelRunR1 c i arg3 harg3 arg4 harg4 x0 xt fh fs0 h).1)

end

end Cert.KernelIdeal.Emb

end
-- ==== Proof.KernelIdeal.Rows1.lean ====
import proofs.«418142_j33036888441229_2_alg».proof.Proof.KernelIdeal.Run1
import proofs.«418142_j33036888441229_2_alg».proof.Proof.RowsLib
import Idealize.ShloMosaic.Lib.ValueIdx
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid1.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR1) (fh : MBuf (F := F) c hbM) (fs0 : MBuf (F := F) c scMR1) (h : OkR1 c i xt)

/-- The gathered tile: row r is what the r-th copy brings. -/
def gatherR1 : Vec F S8x128 .f32 :=
  rows8 (kernelRunR1.sl.dma1 c i xt fh h) (kernelRunR1.sl.dma2 c i xt fh h) (kernelRunR1.sl.dma3 c i xt fh h) (kernelRunR1.sl.dma4 c i xt fh h)
    (kernelRunR1.sl.dma5 c i xt fh h) (kernelRunR1.sl.dma6 c i xt fh h) (kernelRunR1.sl.dma7 c i xt fh h) (kernelRunR1.sl.dma8 c i xt fh h)

set_option maxHeartbeats 400000 in
/-- The tile as loaded after the eight copies is the gathered tile: the eight rows cover it, so its earlier contents do not matter. -/
theorem tileR1_eq : kernelRunR1.sl.v121 c i xt fh fs0 h = gatherR1 c i xt fh h := by
  unfold kernelRunR1.sl.v121 gatherR1
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR1.view _ _ _ _ _ _ _ _ squeezes_S1x128_S128.numel_eq fs0 _ _ _ _ _ _ _ _ r j

/-- The block stored: the gathered tile plus the bias row. -/
theorem outR1_eq : outR1 c i arg3 harg3 arg4 harg4 x0 xt fh fs0 h = k1_pay1 (gatherR1 c i xt fh h) x0 := by
  unfold outR1
  rw [View.read_writes_eq_canon _ _ _ (coverR1 c i arg3 harg3 arg4 harg4 x0 xt fh fs0 h)]
  unfold kernelRunR1
  dsimp only
  rw [View.canon_unit_zero (S := S8x128) zero2, tileR1_eq c i xt fh fs0 h,
    View.readAt_eq_ld, harg3.read_unread, View.ld_unit_zero (S := S1x128) zero2]

theorem outR1_indep (fs0' : MBuf (F := F) c scMR1) :
    outR1 c i arg3 harg3 arg4 harg4 x0 xt fh fs0 h = outR1 c i arg3 harg3 arg4 harg4 x0 xt fh fs0' h :=
  (outR1_eq c i arg3 harg3 arg4 harg4 x0 xt fh fs0 h).trans (outR1_eq c i arg3 harg3 arg4 harg4 x0 xt fh fs0' h).symm

end

end Cert.KernelIdeal.Emb

end
-- ==== Proof.KernelIdeal.Reg1.lean ====
import proofs.«418142_j33036888441229_2_alg».proof.Proof.KernelIdeal.Rows1
import proofs.«418142_j33036888441229_2_alg».proof.Proof.LibReadShares

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR1 : pre1.Contents (Elt F) := fun j => V (0 : Dev nD) (pre1.ref j)
theorem V_preR1 (c : Dev nD) (j : Fin 1) : V c (pre1.ref j) = tblR1 V j := by
  obtain rfl : c = 0 := Subsingleton.elim _ _; rfl

abbrev admR1 : (pcfg1 (F := F)).Adm := ⟨tblR1 V, (ok1.eq_1 (tblR1 V)).mpr trivial⟩
abbrev cfgR1 : Pipeline.Cfg sig Λ₀ := cfg1 (admR1 V)

/-- At every point the eight token ids read are row numbers of the gather table. -/
def HypsR1 : Prop := ∀ (c : Dev nD) (t : Fin (cfgR1 V).N), OkR1 c (grid1.coords t) (tblR1 V 0)

/-- Window w's block at point t, read off its array as entered. -/
def iblkR1 (c : Dev nD) (w : Fin (cfgR1 V).W) (t : Fin (cfgR1 V).N) : (((cfgR1 V).win w).xblock ((cfgR1 V).grid.coords t)).Idx → Elt F ((cfgR1 V).win w).elt :=
  (((cfgR1 V).win w).blk t).view.read (Elt F) (V c (Pipeline.arrRef spec1 w))

theorem beforeR1_0_of {c : Dev nD} (dat : Dat τ (Elt F) Unit ℕ (Pipeline.UD sig nD τ) ℕ (cfgR1 V) c) (hA : dat.A 0 = V c (Pipeline.arrRef spec1 0))
    (hafter : ∀ t, dat.after 0 t = iblkR1 V c 0 t) (t : Fin (cfgR1 V).N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)

abbrev msR1_0 (t : Fin (cfgR1 V).N) : Memref sig .tc .vmem S1x128 .f32 := spec1_0.stage ((cfgR1 V).slots t 0)
abbrev hsR1_0 (t : Fin (cfgR1 V).N) : (msR1_0 V t).IsWhole := hstage1_0 (((cfgR1 V).slots t 0).cast nbuf1_0)
abbrev msR1_1 (t : Fin (cfgR1 V).N) : Memref sig .tc .vmem S8x128 .f32 := spec1_1.stage ((cfgR1 V).slots t 1)
abbrev hsR1_1 (t : Fin (cfgR1 V).N) : (msR1_1 V t).IsWhole := hstage1_1 (((cfgR1 V).slots t 1).cast nbuf1_1)

abbrev bodyAtR1 (t : Fin (cfgR1 V).N) : Prog (TpuEff nD τ sig (Elt F) Λ₀ .tc) PUnit :=
  cc1__embed_kernel (grid1.coords t) (Memref.whole main_v5) (Memref.isWhole_whole _) (Memref.whole main_v0) (Memref.isWhole_whole _)
    (spec1_0.stage ((cfgR1 V).slots t 0)) (hstage1_0 (((cfgR1 V).slots t 0).cast nbuf1_0))
    (spec1_1.stage ((cfgR1 V).slots t 1)) (hstage1_1 (((cfgR1 V).slots t 1).cast nbuf1_1))
    (Memref.whole cc1_scratch0) (Memref.isWhole_whole _) cc1_scratch1

def fsJR1 (c : Dev nD) : MBuf (F := F) c scMR1 := fun _ => Classical.arbitrary _

/-- What point t leaves in its output block. -/
def outsAtR1 (hH : HypsR1 V) (c : Dev nD) (t : Fin (cfgR1 V).N) : Vec F S8x128 .f32 :=
  outR1 c (grid1.coords t) (msR1_0 V t) (hsR1_0 V t) (msR1_1 V t) (hsR1_1 V t) (iblkR1 V c 0 t) (tblR1 V 0) (V c main_v0) (fsJR1 c) (hH c t)

abbrev osemR1 : Fin 8 → SemLoc sig := fun j => (![SemLoc.dma 14, SemLoc.dma 15, SemLoc.dma 16, SemLoc.dma 17, SemLoc.dma 18, SemLoc.dma 19, SemLoc.dma 20, SemLoc.dma 21] : Fin 8 → SemLoc sig) j
theorem ownSemFactsR1 : Pipeline.OwnSemFacts spec1 osemR1 := by decide
theorem ownSemsR1_eq (c : Dev nD) :
    (Pipeline.ownSems0 (Ix := Unit) (Name := ℕ) (U := Pipeline.UD sig nD τ) (Lvl := ℕ) (Val := Elt F) (τ := τ) osemR1 c : sProp 𝕄)
      = iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osemR1 [0, 1, 2, 3, 4, 5, 6, 7] (by decide) (by decide)]; rfl

def HR1 : Finset (Ref sig .tc) := {main_v0}
theorem HR1_sub : HR1 ⊆ Pipeline.restRefsP sig pre1 spec1 := by decide
theorem hbmPtsR1_eq (c : Dev nD) :
    (bigSep HR1 (fun b => ((c : Thread nD τ).loc b) ↦{fullShare} V c b) : sProp 𝕄) = iprop(mPt c hbM (V c main_v0)) := by
  rw [BI.bigSep_eq_bigSepL_of_eq [main_v0] (by decide) (by decide)]; rfl
theorem prefR1_eq (c : Dev nD) :
    (Pipeline.prefHeld (Ix := Unit) (Name := ℕ) (U := Pipeline.UD sig nD τ) (Lvl := ℕ) pre1 c (fun _ => fullShare) (tblR1 V) : sProp 𝕄) = iprop(mPt c tbMR1 (tblR1 V 0)) := by
  unfold Pipeline.prefHeld
  rw [show (Finset.univ : Finset (Fin 1)) = {(0 : Fin 1)} from by decide, bigSep_singleton]
  rfl

abbrev PhiR1 (c : Dev nD) : sProp 𝕄 :=
  iprop(Pipeline.ΦD osemR1 spec1 HR1 V c ∗ Pipeline.prefHeld (Ix := Unit) (Name := ℕ) (U := Pipeline.UD sig nD τ) (Lvl := ℕ) pre1 c (fun _ => fullShare) (tblR1 V))

theorem PhiR1_eq (c : Dev nD) :
    (PhiR1 V c : sProp 𝕄)
      = iprop(iprop(iprop((∃ d, owns (c : Thread nD τ) scMR1 fullShare d) ∗ Pipeline.scopedRestBut (Ix := Unit) (Name := ℕ) (U := Pipeline.UD sig nD τ) (Lvl := ℕ) (Val := Elt F) spec1 c [cc1_scratch0])
          ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(mPt c hbM (V c main_v0))) ∗ iprop(mPt c tbMR1 (tblR1 V 0))) := by
  unfold PhiR1
  rw [Pipeline.ΦD_eq, scopedRest1_split, ownSemsR1_eq, hbmPtsR1_eq, prefR1_eq]; simp only [scMR1, owns_whole]; try rfl

def datR1 (hH : HypsR1 V) (c : Dev nD) : Dat τ (Elt F) Unit ℕ (Pipeline.UD sig nD τ) ℕ (cfgR1 V) c where
  A w := V c (Pipeline.arrRef spec1 w)
  after w t := match w with
    | ⟨0, _⟩ => iblkR1 V c 0 t
    | ⟨1, _⟩ => outsAtR1 V hH c t
  Φ _ := PhiR1 V c
  q _ := fullShare
  owed _ := 0

theorem A_eqR1 (hH : HypsR1 V) (c : Dev nD) (w : Fin (cfgR1 V).W) : (datR1 V hH c).A w = V c (Pipeline.arrRef spec1 w) := by
  dsimp only [datR1]
theorem afterR1_0 (hH : HypsR1 V) (c : Dev nD) (t : Fin (cfgR1 V).N) : (datR1 V hH c).after 0 t = iblkR1 V c 0 t := by dsimp only [datR1]; try rfl
theorem afterR1_1 (hH : HypsR1 V) (c : Dev nD) (t : Fin (cfgR1 V).N) : (datR1 V hH c).after 1 t = outsAtR1 V hH c t := by dsimp only [datR1]; try rfl
theorem beforeR1_0 (hH : HypsR1 V) (c : Dev nD) (t : Fin (cfgR1 V).N) (d) : (datR1 V hH c).before 0 t d = iblkR1 V c 0 t :=
  beforeR1_0_of V (datR1 V hH c) (A_eqR1 V hH c 0) (afterR1_0 V hH c) t d

abbrev remR1 (c : Dev nD) (f : MBuf (F := F) c hbM) : sProp 𝕄 :=
  iprop((hbM.view.loc (c : Thread nD τ) ↦{Transfers.shareDrop fullShare (14 + 8)} f)
    ∗ BI.bigSep (Finset.range 14) (fun i => hbM.view.loc (c : Thread nD τ) ↦{Transfers.shareTokN fullShare i} f))

theorem tok_splitR1 (c : Dev nD) (f : MBuf (F := F) c hbM) :
    (mPt c hbM f : sProp 𝕄) ⊢ iprop(remR1 c f ∗ tokPt c hbM 14 f ∗ tokPt c hbM 15 f ∗ tokPt c hbM 16 f ∗ tokPt c hbM 17 f ∗ tokPt c hbM 18 f ∗ tokPt c hbM 19 f ∗ tokPt c hbM 20 f ∗ tokPt c hbM 21 f) :=
  Transfers.pointsTo_window_split (Ix := Unit) (Name := ℕ) (U := Pipeline.UD sig nD τ) (Lvl := ℕ) fullShare 14

theorem tok_joinR1 (c : Dev nD) (f : MBuf (F := F) c hbM) :
    iprop(remR1 c f ∗ tokPt c hbM 14 f ∗ tokPt c hbM 15 f ∗ tokPt c hbM 16 f ∗ tokPt c hbM 17 f ∗ tokPt c hbM 18 f ∗ tokPt c hbM 19 f ∗ tokPt c hbM 20 f ∗ tokPt c hbM 21 f) ⊢ (mPt c hbM f : sProp 𝕄) :=
  Transfers.pointsTo_window_join (Ix := Unit) (Name := ℕ) (U := Pipeline.UD sig nD τ) (Lvl := ℕ) fullShare 14

def bodyPreR1 (hH : HypsR1 V) (c : Dev nD) (t : Fin (cfgR1 V).N) : sProp 𝕄 :=
  iprop((datR1 V hH c).Φ t.castSucc ∗ (datR1 V hH c).owesAt () t.castSucc
    ∗ (∃ d, owns (c : Thread nD τ) (msR1_0 V t) fullShare ((datR1 V hH c).before 0 t d))
    ∗ (∃ d, owns (c : Thread nD τ) (msR1_1 V t) fullShare ((datR1 V hH c).before 1 t d)))

def bodyPostR1 (hH : HypsR1 V) (c : Dev nD) (t : Fin (cfgR1 V).N) : sProp 𝕄 :=
  iprop((datR1 V hH c).Φ t.succ ∗ (datR1 V hH c).owesAt () t.succ
    ∗ owns (c : Thread nD τ) (msR1_0 V t) fullShare ((datR1 V hH c).after 0 t)
    ∗ owns (c : Thread nD τ) (msR1_1 V t) fullShare ((datR1 V hH c).after 1 t))

set_option maxHeartbeats 2000000 in
/-- The body at any point leaves the output block at `outsAtR1`, whatever the scratch tile held before. -/
theorem sound_bodyR1 (hH : HypsR1 V) (c : Dev nD) (t : Fin (cfgR1 V).N) :
    bodyPreR1 V hH c t ⊢ wp frame (wpE (defs₀ (F := F)) Variants.none c none) Set.univ (bodyAtR1 V t) (fun _ => bodyPostR1 V hH c t) := by
  unfold bodyPreR1 bodyPostR1 bodyAtR1
  simp only [beforeR1_0]
  rw [show (datR1 V hH c).Φ t.succ = (datR1 V hH c).Φ t.castSucc from rfl, afterR1_0, afterR1_1]
  rw [show (datR1 V hH c).Φ t.castSucc = PhiR1 V c from rfl, PhiR1_eq]
  unfold Dat.owesAt Pipeline.owesWithin
  rw [show (datR1 V hH c).owed t.castSucc = 0 from rfl, show (datR1 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR1) $$ HS0
  icases HS0 with ⟨%fs0, HS0⟩
  ihave Hh := (tok_splitR1 c (V c main_v0)) $$ Hh
  icases Hh with ⟨Hhr, Hh0, Hh1, Hh2, Hh3, Hh4, Hh5, Hh6, Hh7⟩
  iapply ((kernelRunR1 c (grid1.coords t) (msR1_0 V t) (hsR1_0 V t) (msR1_1 V t) (hsR1_1 V t) (iblkR1 V c 0 t) (tblR1 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR1 c (V c main_v0)) $$ [Hhr Hh0 Hh1 Hh2 Hh3 Hh4 Hh5 Hh6 Hh7]
  · iframe
  ihave HS0 := (scr_close c scMR1) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR1
  rw [← outR1_indep c (grid1.coords t) (msR1_0 V t) (hsR1_0 V t) (msR1_1 V t) (hsR1_1 V t) (iblkR1 V c 0 t) (tblR1 V 0) (V c main_v0) fs0 (hH c t) (fsJR1 c)]
  unfold outR1
  exact View.read_writes_of_cover _ _ _ _ _ (coverR1 c (grid1.coords t) (msR1_0 V t) (hsR1_0 V t) (msR1_1 V t) (hsR1_1 V t) (iblkR1 V c 0 t) (tblR1 V 0) (V c main_v0) fs0 (hH c t))

theorem body_obligationR1 (hH : HypsR1 V) (c : Dev nD) :
    BodyObligation (datR1 (F := F) V hH c) (defs₀ (F := F)) Variants.none () Set.univ := fun t => by
  rw [bigSep_W1, bigSep_W1]
  exact sound_bodyR1 V hH c t

end Region

end Cert.KernelIdeal.Emb

end
-- ==== Proof.KernelIdeal.Hyp1.lean ====
import proofs.«418142_j33036888441229_2_alg».proof.Proof.KernelIdeal.Reg1

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR1 (V : (c : Dev nD) → (b : Ref sig .tc) → Buf (Elt F) ((c : Thread nD τ).loc b))
    (h : ∀ p : S32768.Idx, BitVec.toNat (tbMR1.view.read (Elt F) (tblR1 V 0) p) < 50257) : HypsR1 V := by
  intro c t
  have r : ∀ (lr : LoadRect S32768) (i : lr.shape.Idx) (a : Fin 2),
      (![BitVec.toNat (tbMR1.view.readAt (Elt F) lr (tblR1 V 0) i), 0] : Fin 2 → ℕ) a + S1x128.size a ≤ S50257x128.size a :=
    fun lr i => row_inside _ (h (lr.idx i))
  unfold OkR1 k1_chk1 k1_chk2 k1_chk3 k1_chk4 k1_chk5 k1_chk6 k1_chk7 k1_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.KernelIdeal.Emb

end
-- ==== Proof.KernelIdeal.Run2.lean ====
import proofs.«418142_j33036888441229_2_alg».proof.Proof.KernelIdeal.Common

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR2 : Memref sig .tc .smem S32768 .i32 := Memref.whole main_v7
abbrev htbMR2 : tbMR2.IsWhole := Memref.isWhole_whole _
abbrev scMR2 : Memref sig .tc .vmem S8x128 .f32 := Memref.whole cc2_scratch0
abbrev hscMR2 : scMR2.IsWhole := Memref.isWhole_whole _

section
variable (c : Dev nD) (i : grid2.Coords) (xt : MBuf (F := F) c tbMR2)

/-- The word of the index table at offsets `off`. -/
abbrev wordR2 (off : Fin 1 → ℕ) (inb : ∀ a, off a + S1.size a ≤ S32768.size a) : Elt F .i32 :=
  tbMR2.view.readAt (Elt F) (Rect.unit (s := S32768) off S1.size inb).toLoadRect xt (Shape.Idx.first (numel1_S1.symm ▸ Nat.one_pos))

/-- Each of the eight token ids the point at `i` reads is a row number of the gather table. -/
def OkR2 : Prop :=
  k2_chk1 (wordR2 c xt (k2_off1 i) (k2_off1_inb i)) ∧ k2_chk2 (wordR2 c xt (k2_off3 i) (k2_off3_inb i)) ∧ k2_chk3 (wordR2 c xt (k2_off5 i) (k2_off5_inb i)) ∧ k2_chk4 (wordR2 c xt (k2_off7 i) (k2_off7_inb i)) ∧ k2_chk5 (wordR2 c xt (k2_off9 i) (k2_off9_inb i)) ∧ k2_chk6 (wordR2 c xt (k2_off11 i) (k2_off11_inb i)) ∧ k2_chk7 (wordR2 c xt (k2_off13 i) (k2_off13_inb i)) ∧ k2_chk8 (wordR2 c xt (k2_off15 i) (k2_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR2 (c : Dev nD) (i : grid2.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR2) (fh : MBuf (F := F) c hbM) (fs0 : MBuf (F := F) c scMR2)
    (h : OkR2 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR2 fs0
            ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0
            ∗ tokPt c hbM 25 fh ∗ tokPt c hbM 26 fh ∗ tokPt c hbM 27 fh ∗ tokPt c hbM 28 fh ∗ tokPt c hbM 29 fh ∗ tokPt c hbM 30 fh ∗ tokPt c hbM 31 fh ∗ tokPt c hbM 32 fh ∗ mPt c tbMR2 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR2 f)
                ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0
                ∗ tokPt c hbM 25 fh ∗ tokPt c hbM 26 fh ∗ tokPt c hbM 27 fh ∗ tokPt c hbM 28 fh ∗ tokPt c hbM 29 fh ∗ tokPt c hbM 30 fh ∗ tokPt c hbM 31 fh ∗ tokPt c hbM 32 fh ∗ mPt c tbMR2 xt ∗ (∃ W', owes (c : Thread nD τ) 0 W')) -∗ K ⟨⟩))
          ⊢ wp frame (wpE (defs₀ (F := F)) Variants.none c none) Set.univ (cc2__embed_kernel i tbMR2 htbMR2 hbM hhbM arg3 harg3 arg4 harg4 scMR2 hscMR2 cc2_scratch1) K } := by
  refine ⟨?_, fun W K => ?run⟩
  case run =>
    simp only [cc2__embed_kernel_eq_skeleton]; unfold cc2__embed_kernel_skel
    simp only [k2_part1_eq_skeleton, k2_part2_eq_skeleton, k2_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid2.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR2) (fh : MBuf (F := F) c hbM) (fs0 : MBuf (F := F) c scMR2) (h : OkR2 c i xt)

/-- The run's one piece is a store of the whole 8 × 128 block. -/
theorem coverR2 (y : S8x128.Idx) : ∃ pc ∈ (kernelRunR2 c i arg3 harg3 arg4 harg4 x0 xt fh fs0 h).1, y ∈ pc.1.set :=
  View.cover_of_tiledL (kernelRunR2 c i arg3 harg3 arg4 harg4 x0 xt fh fs0 h).1 S8x128.size (by sl_kernel_rfl) y

abbrev VOR2 : View sig .tc .vmem S8x128 .f32 := (Memref.whole cc2_stg1_0 : Memref sig .tc .vmem S8x128 .f32).view

/-- What the run leaves in the output block: its pieces read back. -/
def outR2 : Vec F S8x128 .f32 :=
  VOR2.read (Elt F) (VOR2.writes (Elt F) VOR2.junk (kernelRunR2 c i arg3 harg3 arg4 harg4 x0 xt fh fs0 h).1)

end

end Cert.KernelIdeal.Emb

end
-- ==== Proof.KernelIdeal.Rows2.lean ====
import proofs.«418142_j33036888441229_2_alg».proof.Proof.KernelIdeal.Run2
import proofs.«418142_j33036888441229_2_alg».proof.Proof.RowsLib
import Idealize.ShloMosaic.Lib.ValueIdx
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid2.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR2) (fh : MBuf (F := F) c hbM) (fs0 : MBuf (F := F) c scMR2) (h : OkR2 c i xt)

/-- The gathered tile: row r is what the r-th copy brings. -/
def gatherR2 : Vec F S8x128 .f32 :=
  rows8 (kernelRunR2.sl.dma1 c i xt fh h) (kernelRunR2.sl.dma2 c i xt fh h) (kernelRunR2.sl.dma3 c i xt fh h) (kernelRunR2.sl.dma4 c i xt fh h)
    (kernelRunR2.sl.dma5 c i xt fh h) (kernelRunR2.sl.dma6 c i xt fh h) (kernelRunR2.sl.dma7 c i xt fh h) (kernelRunR2.sl.dma8 c i xt fh h)

set_option maxHeartbeats 400000 in
/-- The tile as loaded after the eight copies is the gathered tile: the eight rows cover it, so its earlier contents do not matter. -/
theorem tileR2_eq : kernelRunR2.sl.v121 c i xt fh fs0 h = gatherR2 c i xt fh h := by
  unfold kernelRunR2.sl.v121 gatherR2
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR2.view _ _ _ _ _ _ _ _ squeezes_S1x128_S128.numel_eq fs0 _ _ _ _ _ _ _ _ r j

/-- The block stored: the gathered tile plus the bias row. -/
theorem outR2_eq : outR2 c i arg3 harg3 arg4 harg4 x0 xt fh fs0 h = k2_pay1 (gatherR2 c i xt fh h) x0 := by
  unfold outR2
  rw [View.read_writes_eq_canon _ _ _ (coverR2 c i arg3 harg3 arg4 harg4 x0 xt fh fs0 h)]
  unfold kernelRunR2
  dsimp only
  rw [View.canon_unit_zero (S := S8x128) zero2, tileR2_eq c i xt fh fs0 h,
    View.readAt_eq_ld, harg3.read_unread, View.ld_unit_zero (S := S1x128) zero2]

theorem outR2_indep (fs0' : MBuf (F := F) c scMR2) :
    outR2 c i arg3 harg3 arg4 harg4 x0 xt fh fs0 h = outR2 c i arg3 harg3 arg4 harg4 x0 xt fh fs0' h :=
  (outR2_eq c i arg3 harg3 arg4 harg4 x0 xt fh fs0 h).trans (outR2_eq c i arg3 harg3 arg4 harg4 x0 xt fh fs0' h).symm

end

end Cert.KernelIdeal.Emb

end
-- ==== Proof.KernelIdeal.Reg2.lean ====
import proofs.«418142_j33036888441229_2_alg».proof.Proof.KernelIdeal.Rows2
import proofs.«418142_j33036888441229_2_alg».proof.Proof.LibReadShares

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR2 : pre2.Contents (Elt F) := fun j => V (0 : Dev nD) (pre2.ref j)
theorem V_preR2 (c : Dev nD) (j : Fin 1) : V c (pre2.ref j) = tblR2 V j := by
  obtain rfl : c = 0 := Subsingleton.elim _ _; rfl

abbrev admR2 : (pcfg2 (F := F)).Adm := ⟨tblR2 V, (ok2.eq_1 (tblR2 V)).mpr trivial⟩
abbrev cfgR2 : Pipeline.Cfg sig Λ₀ := cfg2 (admR2 V)

/-- At every point the eight token ids read are row numbers of the gather table. -/
def HypsR2 : Prop := ∀ (c : Dev nD) (t : Fin (cfgR2 V).N), OkR2 c (grid2.coords t) (tblR2 V 0)

/-- Window w's block at point t, read off its array as entered. -/
def iblkR2 (c : Dev nD) (w : Fin (cfgR2 V).W) (t : Fin (cfgR2 V).N) : (((cfgR2 V).win w).xblock ((cfgR2 V).grid.coords t)).Idx → Elt F ((cfgR2 V).win w).elt :=
  (((cfgR2 V).win w).blk t).view.read (Elt F) (V c (Pipeline.arrRef spec2 w))

theorem beforeR2_0_of {c : Dev nD} (dat : Dat τ (Elt F) Unit ℕ (Pipeline.UD sig nD τ) ℕ (cfgR2 V) c) (hA : dat.A 0 = V c (Pipeline.arrRef spec2 0))
    (hafter : ∀ t, dat.after 0 t = iblkR2 V c 0 t) (t : Fin (cfgR2 V).N) (d) : dat.before 0 t d = iblkR2 V c 0 t :=
  (dat.before_in_eq_fetched 0 rfl (fun _ => rfl) (fun _ _ _ => rfl) (fun t => by rw [hafter]; unfold Dat.blockOf iblkR2; rw [hA]; try rfl) t d).trans
    (by unfold Dat.fetched Dat.blockOf iblkR2; rw [hA]; try rfl)

abbrev msR2_0 (t : Fin (cfgR2 V).N) : Memref sig .tc .vmem S1x128 .f32 := spec2_0.stage ((cfgR2 V).slots t 0)
abbrev hsR2_0 (t : Fin (cfgR2 V).N) : (msR2_0 V t).IsWhole := hstage2_0 (((cfgR2 V).slots t 0).cast nbuf2_0)
abbrev msR2_1 (t : Fin (cfgR2 V).N) : Memref sig .tc .vmem S8x128 .f32 := spec2_1.stage ((cfgR2 V).slots t 1)
abbrev hsR2_1 (t : Fin (cfgR2 V).N) : (msR2_1 V t).IsWhole := hstage2_1 (((cfgR2 V).slots t 1).cast nbuf2_1)

abbrev bodyAtR2 (t : Fin (cfgR2 V).N) : Prog (TpuEff nD τ sig (Elt F) Λ₀ .tc) PUnit :=
  cc2__embed_kernel (grid2.coords t) (Memref.whole main_v7) (Memref.isWhole_whole _) (Memref.whole main_v0) (Memref.isWhole_whole _)
    (spec2_0.stage ((cfgR2 V).slots t 0)) (hstage2_0 (((cfgR2 V).slots t 0).cast nbuf2_0))
    (spec2_1.stage ((cfgR2 V).slots t 1)) (hstage2_1 (((cfgR2 V).slots t 1).cast nbuf2_1))
    (Memref.whole cc2_scratch0) (Memref.isWhole_whole _) cc2_scratch1

def fsJR2 (c : Dev nD) : MBuf (F := F) c scMR2 := fun _ => Classical.arbitrary _

/-- What point t leaves in its output block. -/
def outsAtR2 (hH : HypsR2 V) (c : Dev nD) (t : Fin (cfgR2 V).N) : Vec F S8x128 .f32 :=
  outR2 c (grid2.coords t) (msR2_0 V t) (hsR2_0 V t) (msR2_1 V t) (hsR2_1 V t) (iblkR2 V c 0 t) (tblR2 V 0) (V c main_v0) (fsJR2 c) (hH c t)

abbrev osemR2 : Fin 8 → SemLoc sig := fun j => (![SemLoc.dma 25, SemLoc.dma 26, SemLoc.dma 27, SemLoc.dma 28, SemLoc.dma 29, SemLoc.dma 30, SemLoc.dma 31, SemLoc.dma 32] : Fin 8 → SemLoc sig) j
theorem ownSemFactsR2 : Pipeline.OwnSemFacts spec2 osemR2 := by decide
theorem ownSemsR2_eq (c : Dev nD) :
    (Pipeline.ownSems0 (Ix := Unit) (Name := ℕ) (U := Pipeline.UD sig nD τ) (Lvl := ℕ) (Val := Elt F) (τ := τ) osemR2 c : sProp 𝕄)
      = iprop(semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) := by
  rw [Pipeline.ownSems0_eq_of_list c osemR2 [0, 1, 2, 3, 4, 5, 6, 7] (by decide) (by decide)]; rfl

def HR2 : Finset (Ref sig .tc) := {main_v0}
theorem HR2_sub : HR2 ⊆ Pipeline.restRefsP sig pre2 spec2 := by decide
theorem hbmPtsR2_eq (c : Dev nD) :
    (bigSep HR2 (fun b => ((c : Thread nD τ).loc b) ↦{fullShare} V c b) : sProp 𝕄) = iprop(mPt c hbM (V c main_v0)) := by
  rw [BI.bigSep_eq_bigSepL_of_eq [main_v0] (by decide) (by decide)]; rfl
theorem prefR2_eq (c : Dev nD) :
    (Pipeline.prefHeld (Ix := Unit) (Name := ℕ) (U := Pipeline.UD sig nD τ) (Lvl := ℕ) pre2 c (fun _ => fullShare) (tblR2 V) : sProp 𝕄) = iprop(mPt c tbMR2 (tblR2 V 0)) := by
  unfold Pipeline.prefHeld
  rw [show (Finset.univ : Finset (Fin 1)) = {(0 : Fin 1)} from by decide, bigSep_singleton]
  rfl

abbrev PhiR2 (c : Dev nD) : sProp 𝕄 :=
  iprop(Pipeline.ΦD osemR2 spec2 HR2 V c ∗ Pipeline.prefHeld (Ix := Unit) (Name := ℕ) (U := Pipeline.UD sig nD τ) (Lvl := ℕ) pre2 c (fun _ => fullShare) (tblR2 V))

theorem PhiR2_eq (c : Dev nD) :
    (PhiR2 V c : sProp 𝕄)
      = iprop(iprop(iprop((∃ d, owns (c : Thread nD τ) scMR2 fullShare d) ∗ Pipeline.scopedRestBut (Ix := Unit) (Name := ℕ) (U := Pipeline.UD sig nD τ) (Lvl := ℕ) (Val := Elt F) spec2 c [cc2_scratch0])
          ∗ (∃ r, prngReg c r) ∗ iprop(semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(mPt c hbM (V c main_v0))) ∗ iprop(mPt c tbMR2 (tblR2 V 0))) := by
  unfold PhiR2
  rw [Pipeline.ΦD_eq, scopedRest2_split, ownSemsR2_eq, hbmPtsR2_eq, prefR2_eq]; simp only [scMR2, owns_whole]; try rfl

def datR2 (hH : HypsR2 V) (c : Dev nD) : Dat τ (Elt F) Unit ℕ (Pipeline.UD sig nD τ) ℕ (cfgR2 V) c where
  A w := V c (Pipeline.arrRef spec2 w)
  after w t := match w with
    | ⟨0, _⟩ => iblkR2 V c 0 t
    | ⟨1, _⟩ => outsAtR2 V hH c t
  Φ _ := PhiR2 V c
  q _ := fullShare
  owed _ := 0

theorem A_eqR2 (hH : HypsR2 V) (c : Dev nD) (w : Fin (cfgR2 V).W) : (datR2 V hH c).A w = V c (Pipeline.arrRef spec2 w) := by
  dsimp only [datR2]
theorem afterR2_0 (hH : HypsR2 V) (c : Dev nD) (t : Fin (cfgR2 V).N) : (datR2 V hH c).after 0 t = iblkR2 V c 0 t := by dsimp only [datR2]; try rfl
theorem afterR2_1 (hH : HypsR2 V) (c : Dev nD) (t : Fin (cfgR2 V).N) : (datR2 V hH c).after 1 t = outsAtR2 V hH c t := by dsimp only [datR2]; try rfl
theorem beforeR2_0 (hH : HypsR2 V) (c : Dev nD) (t : Fin (cfgR2 V).N) (d) : (datR2 V hH c).before 0 t d = iblkR2 V c 0 t :=
  beforeR2_0_of V (datR2 V hH c) (A_eqR2 V hH c 0) (afterR2_0 V hH c) t d

abbrev remR2 (c : Dev nD) (f : MBuf (F := F) c hbM) : sProp 𝕄 :=
  iprop((hbM.view.loc (c : Thread nD τ) ↦{Transfers.shareDrop fullShare (25 + 8)} f)
    ∗ BI.bigSep (Finset.range 25) (fun i => hbM.view.loc (c : Thread nD τ) ↦{Transfers.shareTokN fullShare i} f))

theorem tok_splitR2 (c : Dev nD) (f : MBuf (F := F) c hbM) :
    (mPt c hbM f : sProp 𝕄) ⊢ iprop(remR2 c f ∗ tokPt c hbM 25 f ∗ tokPt c hbM 26 f ∗ tokPt c hbM 27 f ∗ tokPt c hbM 28 f ∗ tokPt c hbM 29 f ∗ tokPt c hbM 30 f ∗ tokPt c hbM 31 f ∗ tokPt c hbM 32 f) :=
  Transfers.pointsTo_window_split (Ix := Unit) (Name := ℕ) (U := Pipeline.UD sig nD τ) (Lvl := ℕ) fullShare 25

theorem tok_joinR2 (c : Dev nD) (f : MBuf (F := F) c hbM) :
    iprop(remR2 c f ∗ tokPt c hbM 25 f ∗ tokPt c hbM 26 f ∗ tokPt c hbM 27 f ∗ tokPt c hbM 28 f ∗ tokPt c hbM 29 f ∗ tokPt c hbM 30 f ∗ tokPt c hbM 31 f ∗ tokPt c hbM 32 f) ⊢ (mPt c hbM f : sProp 𝕄) :=
  Transfers.pointsTo_window_join (Ix := Unit) (Name := ℕ) (U := Pipeline.UD sig nD τ) (Lvl := ℕ) fullShare 25

def bodyPreR2 (hH : HypsR2 V) (c : Dev nD) (t : Fin (cfgR2 V).N) : sProp 𝕄 :=
  iprop((datR2 V hH c).Φ t.castSucc ∗ (datR2 V hH c).owesAt () t.castSucc
    ∗ (∃ d, owns (c : Thread nD τ) (msR2_0 V t) fullShare ((datR2 V hH c).before 0 t d))
    ∗ (∃ d, owns (c : Thread nD τ) (msR2_1 V t) fullShare ((datR2 V hH c).before 1 t d)))

def bodyPostR2 (hH : HypsR2 V) (c : Dev nD) (t : Fin (cfgR2 V).N) : sProp 𝕄 :=
  iprop((datR2 V hH c).Φ t.succ ∗ (datR2 V hH c).owesAt () t.succ
    ∗ owns (c : Thread nD τ) (msR2_0 V t) fullShare ((datR2 V hH c).after 0 t)
    ∗ owns (c : Thread nD τ) (msR2_1 V t) fullShare ((datR2 V hH c).after 1 t))

set_option maxHeartbeats 2000000 in
/-- The body at any point leaves the output block at `outsAtR2`, whatever the scratch tile held before. -/
theorem sound_bodyR2 (hH : HypsR2 V) (c : Dev nD) (t : Fin (cfgR2 V).N) :
    bodyPreR2 V hH c t ⊢ wp frame (wpE (defs₀ (F := F)) Variants.none c none) Set.univ (bodyAtR2 V t) (fun _ => bodyPostR2 V hH c t) := by
  unfold bodyPreR2 bodyPostR2 bodyAtR2
  simp only [beforeR2_0]
  rw [show (datR2 V hH c).Φ t.succ = (datR2 V hH c).Φ t.castSucc from rfl, afterR2_0, afterR2_1]
  rw [show (datR2 V hH c).Φ t.castSucc = PhiR2 V c from rfl, PhiR2_eq]
  unfold Dat.owesAt Pipeline.owesWithin
  rw [show (datR2 V hH c).owed t.castSucc = 0 from rfl, show (datR2 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR2) $$ HS0
  icases HS0 with ⟨%fs0, HS0⟩
  ihave Hh := (tok_splitR2 c (V c main_v0)) $$ Hh
  icases Hh with ⟨Hhr, Hh0, Hh1, Hh2, Hh3, Hh4, Hh5, Hh6, Hh7⟩
  iapply ((kernelRunR2 c (grid2.coords t) (msR2_0 V t) (hsR2_0 V t) (msR2_1 V t) (hsR2_1 V t) (iblkR2 V c 0 t) (tblR2 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR2 c (V c main_v0)) $$ [Hhr Hh0 Hh1 Hh2 Hh3 Hh4 Hh5 Hh6 Hh7]
  · iframe
  ihave HS0 := (scr_close c scMR2) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR2
  rw [← outR2_indep c (grid2.coords t) (msR2_0 V t) (hsR2_0 V t) (msR2_1 V t) (hsR2_1 V t) (iblkR2 V c 0 t) (tblR2 V 0) (V c main_v0) fs0 (hH c t) (fsJR2 c)]
  unfold outR2
  exact View.read_writes_of_cover _ _ _ _ _ (coverR2 c (grid2.coords t) (msR2_0 V t) (hsR2_0 V t) (msR2_1 V t) (hsR2_1 V t) (iblkR2 V c 0 t) (tblR2 V 0) (V c main_v0) fs0 (hH c t))

theorem body_obligationR2 (hH : HypsR2 V) (c : Dev nD) :
    BodyObligation (datR2 (F := F) V hH c) (defs₀ (F := F)) Variants.none () Set.univ := fun t => by
  rw [bigSep_W2, bigSep_W2]
  exact sound_bodyR2 V hH c t

end Region

end Cert.KernelIdeal.Emb

end
-- ==== Proof.KernelIdeal.Hyp2.lean ====
import proofs.«418142_j33036888441229_2_alg».proof.Proof.KernelIdeal.Reg2

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR2 (V : (c : Dev nD) → (b : Ref sig .tc) → Buf (Elt F) ((c : Thread nD τ).loc b))
    (h : ∀ p : S32768.Idx, BitVec.toNat (tbMR2.view.read (Elt F) (tblR2 V 0) p) < 50257) : HypsR2 V := by
  intro c t
  have r : ∀ (lr : LoadRect S32768) (i : lr.shape.Idx) (a : Fin 2),
      (![BitVec.toNat (tbMR2.view.readAt (Elt F) lr (tblR2 V 0) i), 0] : Fin 2 → ℕ) a + S1x128.size a ≤ S50257x128.size a :=
    fun lr i => row_inside _ (h (lr.idx i))
  unfold OkR2 k2_chk1 k2_chk2 k2_chk3 k2_chk4 k2_chk5 k2_chk6 k2_chk7 k2_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.KernelIdeal.Emb

end
-- ==== Proof.KernelIdeal.Run3.lean ====
import proofs.«418142_j33036888441229_2_alg».proof.Proof.KernelIdeal.Common

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR3 : Memref sig .tc .smem S32768 .i32 := Memref.whole main_v9
abbrev htbMR3 : tbMR3.IsWhole := Memref.isWhole_whole _
abbrev scMR3 : Memref sig .tc .vmem S8x128 .f32 := Memref.whole cc3_scratch0
abbrev hscMR3 : scMR3.IsWhole := Memref.isWhole_whole _

section
variable (c : Dev nD) (i : grid3.Coords) (xt : MBuf (F := F) c tbMR3)

/-- The word of the index table at offsets `off`. -/
abbrev wordR3 (off : Fin 1 → ℕ) (inb : ∀ a, off a + S1.size a ≤ S32768.size a) : Elt F .i32 :=
  tbMR3.view.readAt (Elt F) (Rect.unit (s := S32768) off S1.size inb).toLoadRect xt (Shape.Idx.first (numel1_S1.symm ▸ Nat.one_pos))

/-- Each of the eight token ids the point at `i` reads is a row number of the gather table. -/
def OkR3 : Prop :=
  k3_chk1 (wordR3 c xt (k3_off1 i) (k3_off1_inb i)) ∧ k3_chk2 (wordR3 c xt (k3_off3 i) (k3_off3_inb i)) ∧ k3_chk3 (wordR3 c xt (k3_off5 i) (k3_off5_inb i)) ∧ k3_chk4 (wordR3 c xt (k3_off7 i) (k3_off7_inb i)) ∧ k3_chk5 (wordR3 c xt (k3_off9 i) (k3_off9_inb i)) ∧ k3_chk6 (wordR3 c xt (k3_off11 i) (k3_off11_inb i)) ∧ k3_chk7 (wordR3 c xt (k3_off13 i) (k3_off13_inb i)) ∧ k3_chk8 (wordR3 c xt (k3_off15 i) (k3_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR3 (c : Dev nD) (i : grid3.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR3) (fh : MBuf (F := F) c hbM) (fs0 : MBuf (F := F) c scMR3)
    (h : OkR3 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR3 fs0
            ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0
            ∗ tokPt c hbM 36 fh ∗ tokPt c hbM 37 fh ∗ tokPt c hbM 38 fh ∗ tokPt c hbM 39 fh ∗ tokPt c hbM 40 fh ∗ tokPt c hbM 41 fh ∗ tokPt c hbM 42 fh ∗ tokPt c hbM 43 fh ∗ mPt c tbMR3 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR3 f)
                ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0
                ∗ tokPt c hbM 36 fh ∗ tokPt c hbM 37 fh ∗ tokPt c hbM 38 fh ∗ tokPt c hbM 39 fh ∗ tokPt c hbM 40 fh ∗ tokPt c hbM 41 fh ∗ tokPt c hbM 42 fh ∗ tokPt c hbM 43 fh ∗ mPt c tbMR3 xt ∗ (∃ W', owes (c : Thread nD τ) 0 W')) -∗ K ⟨⟩))
          ⊢ wp frame (wpE (defs₀ (F := F)) Variants.none c none) Set.univ (cc3__embed_kernel i tbMR3 htbMR3 hbM hhbM arg3 harg3 arg4 harg4 scMR3 hscMR3 cc3_scratch1) K } := by
  refine ⟨?_, fun W K => ?run⟩
  case run =>
    simp only [cc3__embed_kernel_eq_skeleton]; unfold cc3__embed_kernel_skel
    simp only [k3_part1_eq_skeleton, k3_part2_eq_skeleton, k3_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid3.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR3) (fh : MBuf (F := F) c hbM) (fs0 : MBuf (F := F) c scMR3) (h : OkR3 c i xt)

/-- The run's one piece is a store of the whole 8 × 128 block. -/
theorem coverR3 (y : S8x128.Idx) : ∃ pc ∈ (kernelRunR3 c i arg3 harg3 arg4 harg4 x0 xt fh fs0 h).1, y ∈ pc.1.set :=
  View.cover_of_tiledL (kernelRunR3 c i arg3 harg3 arg4 harg4 x0 xt fh fs0 h).1 S8x128.size (by sl_kernel_rfl) y

abbrev VOR3 : View sig .tc .vmem S8x128 .f32 := (Memref.whole cc3_stg1_0 : Memref sig .tc .vmem S8x128 .f32).view

/-- What the run leaves in the output block: its pieces read back. -/
def outR3 : Vec F S8x128 .f32 :=
  VOR3.read (Elt F) (VOR3.writes (Elt F) VOR3.junk (kernelRunR3 c i arg3 harg3 arg4 harg4 x0 xt fh fs0 h).1)

end

end Cert.KernelIdeal.Emb

end
-- ==== Proof.KernelIdeal.Rows3.lean ====
import proofs.«418142_j33036888441229_2_alg».proof.Proof.KernelIdeal.Run3
import proofs.«418142_j33036888441229_2_alg».proof.Proof.RowsLib
import Idealize.ShloMosaic.Lib.ValueIdx
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid3.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR3) (fh : MBuf (F := F) c hbM) (fs0 : MBuf (F := F) c scMR3) (h : OkR3 c i xt)

/-- The gathered tile: row r is what the r-th copy brings. -/
def gatherR3 : Vec F S8x128 .f32 :=
  rows8 (kernelRunR3.sl.dma1 c i xt fh h) (kernelRunR3.sl.dma2 c i xt fh h) (kernelRunR3.sl.dma3 c i xt fh h) (kernelRunR3.sl.dma4 c i xt fh h)
    (kernelRunR3.sl.dma5 c i xt fh h) (kernelRunR3.sl.dma6 c i xt fh h) (kernelRunR3.sl.dma7 c i xt fh h) (kernelRunR3.sl.dma8 c i xt fh h)

set_option maxHeartbeats 400000 in
/-- The tile as loaded after the eight copies is the gathered tile: the eight rows cover it, so its earlier contents do not matter. -/
theorem tileR3_eq : kernelRunR3.sl.v121 c i xt fh fs0 h = gatherR3 c i xt fh h := by
  unfold kernelRunR3.sl.v121 gatherR3
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR3.view _ _ _ _ _ _ _ _ squeezes_S1x128_S128.numel_eq fs0 _ _ _ _ _ _ _ _ r j

/-- The block stored: the gathered tile plus the bias row. -/
theorem outR3_eq : outR3 c i arg3 harg3 arg4 harg4 x0 xt fh fs0 h = k3_pay1 (gatherR3 c i xt fh h) x0 := by
  unfold outR3
  rw [View.read_writes_eq_canon _ _ _ (coverR3 c i arg3 harg3 arg4 harg4 x0 xt fh fs0 h)]
  unfold kernelRunR3
  dsimp only
  rw [View.canon_unit_zero (S := S8x128) zero2, tileR3_eq c i xt fh fs0 h,
    View.readAt_eq_ld, harg3.read_unread, View.ld_unit_zero (S := S1x128) zero2]

theorem outR3_indep (fs0' : MBuf (F := F) c scMR3) :
    outR3 c i arg3 harg3 arg4 harg4 x0 xt fh fs0 h = outR3 c i arg3 harg3 arg4 harg4 x0 xt fh fs0' h :=
  (outR3_eq c i arg3 harg3 arg4 harg4 x0 xt fh fs0 h).trans (outR3_eq c i arg3 harg3 arg4 harg4 x0 xt fh fs0' h).symm

end

end Cert.KernelIdeal.Emb

end
-- ==== Proof.KernelIdeal.Reg3.lean ====
import proofs.«418142_j33036888441229_2_alg».proof.Proof.KernelIdeal.Rows3
import proofs.«418142_j33036888441229_2_alg».proof.Proof.LibReadShares

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR3 : pre3.Contents (Elt F) := fun j => V (0 : Dev nD) (pre3.ref j)
theorem V_preR3 (c : Dev nD) (j : Fin 1) : V c (pre3.ref j) = tblR3 V j := by
  obtain rfl : c = 0 := Subsingleton.elim _ _; rfl

abbrev admR3 : (pcfg3 (F := F)).Adm := ⟨tblR3 V, (ok3.eq_1 (tblR3 V)).mpr trivial⟩
abbrev cfgR3 : Pipeline.Cfg sig Λ₀ := cfg3 (admR3 V)

/-- At every point the eight token ids read are row numbers of the gather table. -/
def HypsR3 : Prop := ∀ (c : Dev nD) (t : Fin (cfgR3 V).N), OkR3 c (grid3.coords t) (tblR3 V 0)

/-- Window w's block at point t, read off its array as entered. -/
def iblkR3 (c : Dev nD) (w : Fin (cfgR3 V).W) (t : Fin (cfgR3 V).N) : (((cfgR3 V).win w).xblock ((cfgR3 V).grid.coords t)).Idx → Elt F ((cfgR3 V).win w).elt :=
  (((cfgR3 V).win w).blk t).view.read (Elt F) (V c (Pipeline.arrRef spec3 w))

theorem beforeR3_0_of {c : Dev nD} (dat : Dat τ (Elt F) Unit ℕ (Pipeline.UD sig nD τ) ℕ (cfgR3 V) c) (hA : dat.A 0 = V c (Pipeline.arrRef spec3 0))
    (hafter : ∀ t, dat.after 0 t = iblkR3 V c 0 t) (t : Fin (cfgR3 V).N) (d) : dat.before 0 t d = iblkR3 V c 0 t :=
  (dat.before_in_eq_fetched 0 rfl (fun _ => rfl) (fun _ _ _ => rfl) (fun t => by rw [hafter]; unfold Dat.blockOf iblkR3; rw [hA]; try rfl) t d).trans
    (by unfold Dat.fetched Dat.blockOf iblkR3; rw [hA]; try rfl)

abbrev msR3_0 (t : Fin (cfgR3 V).N) : Memref sig .tc .vmem S1x128 .f32 := spec3_0.stage ((cfgR3 V).slots t 0)
abbrev hsR3_0 (t : Fin (cfgR3 V).N) : (msR3_0 V t).IsWhole := hstage3_0 (((cfgR3 V).slots t 0).cast nbuf3_0)
abbrev msR3_1 (t : Fin (cfgR3 V).N) : Memref sig .tc .vmem S8x128 .f32 := spec3_1.stage ((cfgR3 V).slots t 1)
abbrev hsR3_1 (t : Fin (cfgR3 V).N) : (msR3_1 V t).IsWhole := hstage3_1 (((cfgR3 V).slots t 1).cast nbuf3_1)

abbrev bodyAtR3 (t : Fin (cfgR3 V).N) : Prog (TpuEff nD τ sig (Elt F) Λ₀ .tc) PUnit :=
  cc3__embed_kernel (grid3.coords t) (Memref.whole main_v9) (Memref.isWhole_whole _) (Memref.whole main_v0) (Memref.isWhole_whole _)
    (spec3_0.stage ((cfgR3 V).slots t 0)) (hstage3_0 (((cfgR3 V).slots t 0).cast nbuf3_0))
    (spec3_1.stage ((cfgR3 V).slots t 1)) (hstage3_1 (((cfgR3 V).slots t 1).cast nbuf3_1))
    (Memref.whole cc3_scratch0) (Memref.isWhole_whole _) cc3_scratch1

def fsJR3 (c : Dev nD) : MBuf (F := F) c scMR3 := fun _ => Classical.arbitrary _

/-- What point t leaves in its output block. -/
def outsAtR3 (hH : HypsR3 V) (c : Dev nD) (t : Fin (cfgR3 V).N) : Vec F S8x128 .f32 :=
  outR3 c (grid3.coords t) (msR3_0 V t) (hsR3_0 V t) (msR3_1 V t) (hsR3_1 V t) (iblkR3 V c 0 t) (tblR3 V 0) (V c main_v0) (fsJR3 c) (hH c t)

abbrev osemR3 : Fin 8 → SemLoc sig := fun j => (![SemLoc.dma 36, SemLoc.dma 37, SemLoc.dma 38, SemLoc.dma 39, SemLoc.dma 40, SemLoc.dma 41, SemLoc.dma 42, SemLoc.dma 43] : Fin 8 → SemLoc sig) j
theorem ownSemFactsR3 : Pipeline.OwnSemFacts spec3 osemR3 := by decide
theorem ownSemsR3_eq (c : Dev nD) :
    (Pipeline.ownSems0 (Ix := Unit) (Name := ℕ) (U := Pipeline.UD sig nD τ) (Lvl := ℕ) (Val := Elt F) (τ := τ) osemR3 c : sProp 𝕄)
      = iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0) := by
  rw [Pipeline.ownSems0_eq_of_list c osemR3 [0, 1, 2, 3, 4, 5, 6, 7] (by decide) (by decide)]; rfl

def HR3 : Finset (Ref sig .tc) := {main_v0}
theorem HR3_sub : HR3 ⊆ Pipeline.restRefsP sig pre3 spec3 := by decide
theorem hbmPtsR3_eq (c : Dev nD) :
    (bigSep HR3 (fun b => ((c : Thread nD τ).loc b) ↦{fullShare} V c b) : sProp 𝕄) = iprop(mPt c hbM (V c main_v0)) := by
  rw [BI.bigSep_eq_bigSepL_of_eq [main_v0] (by decide) (by decide)]; rfl
theorem prefR3_eq (c : Dev nD) :
    (Pipeline.prefHeld (Ix := Unit) (Name := ℕ) (U := Pipeline.UD sig nD τ) (Lvl := ℕ) pre3 c (fun _ => fullShare) (tblR3 V) : sProp 𝕄) = iprop(mPt c tbMR3 (tblR3 V 0)) := by
  unfold Pipeline.prefHeld
  rw [show (Finset.univ : Finset (Fin 1)) = {(0 : Fin 1)} from by decide, bigSep_singleton]
  rfl

abbrev PhiR3 (c : Dev nD) : sProp 𝕄 :=
  iprop(Pipeline.ΦD osemR3 spec3 HR3 V c ∗ Pipeline.prefHeld (Ix := Unit) (Name := ℕ) (U := Pipeline.UD sig nD τ) (Lvl := ℕ) pre3 c (fun _ => fullShare) (tblR3 V))

theorem PhiR3_eq (c : Dev nD) :
    (PhiR3 V c : sProp 𝕄)
      = iprop(iprop(iprop((∃ d, owns (c : Thread nD τ) scMR3 fullShare d) ∗ Pipeline.scopedRestBut (Ix := Unit) (Name := ℕ) (U := Pipeline.UD sig nD τ) (Lvl := ℕ) (Val := Elt F) spec3 c [cc3_scratch0])
          ∗ (∃ r, prngReg c r) ∗ iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0) ∗ iprop(mPt c hbM (V c main_v0))) ∗ iprop(mPt c tbMR3 (tblR3 V 0))) := by
  unfold PhiR3
  rw [Pipeline.ΦD_eq, scopedRest3_split, ownSemsR3_eq, hbmPtsR3_eq, prefR3_eq]; simp only [scMR3, owns_whole]; try rfl

def datR3 (hH : HypsR3 V) (c : Dev nD) : Dat τ (Elt F) Unit ℕ (Pipeline.UD sig nD τ) ℕ (cfgR3 V) c where
  A w := V c (Pipeline.arrRef spec3 w)
  after w t := match w with
    | ⟨0, _⟩ => iblkR3 V c 0 t
    | ⟨1, _⟩ => outsAtR3 V hH c t
  Φ _ := PhiR3 V c
  q _ := fullShare
  owed _ := 0

theorem A_eqR3 (hH : HypsR3 V) (c : Dev nD) (w : Fin (cfgR3 V).W) : (datR3 V hH c).A w = V c (Pipeline.arrRef spec3 w) := by
  dsimp only [datR3]
theorem afterR3_0 (hH : HypsR3 V) (c : Dev nD) (t : Fin (cfgR3 V).N) : (datR3 V hH c).after 0 t = iblkR3 V c 0 t := by dsimp only [datR3]; try rfl
theorem afterR3_1 (hH : HypsR3 V) (c : Dev nD) (t : Fin (cfgR3 V).N) : (datR3 V hH c).after 1 t = outsAtR3 V hH c t := by dsimp only [datR3]; try rfl
theorem beforeR3_0 (hH : HypsR3 V) (c : Dev nD) (t : Fin (cfgR3 V).N) (d) : (datR3 V hH c).before 0 t d = iblkR3 V c 0 t :=
  beforeR3_0_of V (datR3 V hH c) (A_eqR3 V hH c 0) (afterR3_0 V hH c) t d

abbrev remR3 (c : Dev nD) (f : MBuf (F := F) c hbM) : sProp 𝕄 :=
  iprop((hbM.view.loc (c : Thread nD τ) ↦{Transfers.shareDrop fullShare (36 + 8)} f)
    ∗ BI.bigSep (Finset.range 36) (fun i => hbM.view.loc (c : Thread nD τ) ↦{Transfers.shareTokN fullShare i} f))

theorem tok_splitR3 (c : Dev nD) (f : MBuf (F := F) c hbM) :
    (mPt c hbM f : sProp 𝕄) ⊢ iprop(remR3 c f ∗ tokPt c hbM 36 f ∗ tokPt c hbM 37 f ∗ tokPt c hbM 38 f ∗ tokPt c hbM 39 f ∗ tokPt c hbM 40 f ∗ tokPt c hbM 41 f ∗ tokPt c hbM 42 f ∗ tokPt c hbM 43 f) :=
  Transfers.pointsTo_window_split (Ix := Unit) (Name := ℕ) (U := Pipeline.UD sig nD τ) (Lvl := ℕ) fullShare 36

theorem tok_joinR3 (c : Dev nD) (f : MBuf (F := F) c hbM) :
    iprop(remR3 c f ∗ tokPt c hbM 36 f ∗ tokPt c hbM 37 f ∗ tokPt c hbM 38 f ∗ tokPt c hbM 39 f ∗ tokPt c hbM 40 f ∗ tokPt c hbM 41 f ∗ tokPt c hbM 42 f ∗ tokPt c hbM 43 f) ⊢ (mPt c hbM f : sProp 𝕄) :=
  Transfers.pointsTo_window_join (Ix := Unit) (Name := ℕ) (U := Pipeline.UD sig nD τ) (Lvl := ℕ) fullShare 36

def bodyPreR3 (hH : HypsR3 V) (c : Dev nD) (t : Fin (cfgR3 V).N) : sProp 𝕄 :=
  iprop((datR3 V hH c).Φ t.castSucc ∗ (datR3 V hH c).owesAt () t.castSucc
    ∗ (∃ d, owns (c : Thread nD τ) (msR3_0 V t) fullShare ((datR3 V hH c).before 0 t d))
    ∗ (∃ d, owns (c : Thread nD τ) (msR3_1 V t) fullShare ((datR3 V hH c).before 1 t d)))

def bodyPostR3 (hH : HypsR3 V) (c : Dev nD) (t : Fin (cfgR3 V).N) : sProp 𝕄 :=
  iprop((datR3 V hH c).Φ t.succ ∗ (datR3 V hH c).owesAt () t.succ
    ∗ owns (c : Thread nD τ) (msR3_0 V t) fullShare ((datR3 V hH c).after 0 t)
    ∗ owns (c : Thread nD τ) (msR3_1 V t) fullShare ((datR3 V hH c).after 1 t))

set_option maxHeartbeats 2000000 in
/-- The body at any point leaves the output block at `outsAtR3`, whatever the scratch tile held before. -/
theorem sound_bodyR3 (hH : HypsR3 V) (c : Dev nD) (t : Fin (cfgR3 V).N) :
    bodyPreR3 V hH c t ⊢ wp frame (wpE (defs₀ (F := F)) Variants.none c none) Set.univ (bodyAtR3 V t) (fun _ => bodyPostR3 V hH c t) := by
  unfold bodyPreR3 bodyPostR3 bodyAtR3
  simp only [beforeR3_0]
  rw [show (datR3 V hH c).Φ t.succ = (datR3 V hH c).Φ t.castSucc from rfl, afterR3_0, afterR3_1]
  rw [show (datR3 V hH c).Φ t.castSucc = PhiR3 V c from rfl, PhiR3_eq]
  unfold Dat.owesAt Pipeline.owesWithin
  rw [show (datR3 V hH c).owed t.castSucc = 0 from rfl, show (datR3 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR3) $$ HS0
  icases HS0 with ⟨%fs0, HS0⟩
  ihave Hh := (tok_splitR3 c (V c main_v0)) $$ Hh
  icases Hh with ⟨Hhr, Hh0, Hh1, Hh2, Hh3, Hh4, Hh5, Hh6, Hh7⟩
  iapply ((kernelRunR3 c (grid3.coords t) (msR3_0 V t) (hsR3_0 V t) (msR3_1 V t) (hsR3_1 V t) (iblkR3 V c 0 t) (tblR3 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR3 c (V c main_v0)) $$ [Hhr Hh0 Hh1 Hh2 Hh3 Hh4 Hh5 Hh6 Hh7]
  · iframe
  ihave HS0 := (scr_close c scMR3) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR3
  rw [← outR3_indep c (grid3.coords t) (msR3_0 V t) (hsR3_0 V t) (msR3_1 V t) (hsR3_1 V t) (iblkR3 V c 0 t) (tblR3 V 0) (V c main_v0) fs0 (hH c t) (fsJR3 c)]
  unfold outR3
  exact View.read_writes_of_cover _ _ _ _ _ (coverR3 c (grid3.coords t) (msR3_0 V t) (hsR3_0 V t) (msR3_1 V t) (hsR3_1 V t) (iblkR3 V c 0 t) (tblR3 V 0) (V c main_v0) fs0 (hH c t))

theorem body_obligationR3 (hH : HypsR3 V) (c : Dev nD) :
    BodyObligation (datR3 (F := F) V hH c) (defs₀ (F := F)) Variants.none () Set.univ := fun t => by
  rw [bigSep_W3, bigSep_W3]
  exact sound_bodyR3 V hH c t

end Region

end Cert.KernelIdeal.Emb

end
-- ==== Proof.KernelIdeal.Hyp3.lean ====
import proofs.«418142_j33036888441229_2_alg».proof.Proof.KernelIdeal.Reg3

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR3 (V : (c : Dev nD) → (b : Ref sig .tc) → Buf (Elt F) ((c : Thread nD τ).loc b))
    (h : ∀ p : S32768.Idx, BitVec.toNat (tbMR3.view.read (Elt F) (tblR3 V 0) p) < 50257) : HypsR3 V := by
  intro c t
  have r : ∀ (lr : LoadRect S32768) (i : lr.shape.Idx) (a : Fin 2),
      (![BitVec.toNat (tbMR3.view.readAt (Elt F) lr (tblR3 V 0) i), 0] : Fin 2 → ℕ) a + S1x128.size a ≤ S50257x128.size a :=
    fun lr i => row_inside _ (h (lr.idx i))
  unfold OkR3 k3_chk1 k3_chk2 k3_chk3 k3_chk4 k3_chk5 k3_chk6 k3_chk7 k3_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.KernelIdeal.Emb

end
-- ==== Proof.KernelIdeal.Run4.lean ====
import proofs.«418142_j33036888441229_2_alg».proof.Proof.KernelIdeal.Common

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR4 : Memref sig .tc .smem S32768 .i32 := Memref.whole main_v11
abbrev htbMR4 : tbMR4.IsWhole := Memref.isWhole_whole _
abbrev scMR4 : Memref sig .tc .vmem S8x128 .f32 := Memref.whole cc4_scratch0
abbrev hscMR4 : scMR4.IsWhole := Memref.isWhole_whole _

section
variable (c : Dev nD) (i : grid4.Coords) (xt : MBuf (F := F) c tbMR4)

/-- The word of the index table at offsets `off`. -/
abbrev wordR4 (off : Fin 1 → ℕ) (inb : ∀ a, off a + S1.size a ≤ S32768.size a) : Elt F .i32 :=
  tbMR4.view.readAt (Elt F) (Rect.unit (s := S32768) off S1.size inb).toLoadRect xt (Shape.Idx.first (numel1_S1.symm ▸ Nat.one_pos))

/-- Each of the eight token ids the point at `i` reads is a row number of the gather table. -/
def OkR4 : Prop :=
  k4_chk1 (wordR4 c xt (k4_off1 i) (k4_off1_inb i)) ∧ k4_chk2 (wordR4 c xt (k4_off3 i) (k4_off3_inb i)) ∧ k4_chk3 (wordR4 c xt (k4_off5 i) (k4_off5_inb i)) ∧ k4_chk4 (wordR4 c xt (k4_off7 i) (k4_off7_inb i)) ∧ k4_chk5 (wordR4 c xt (k4_off9 i) (k4_off9_inb i)) ∧ k4_chk6 (wordR4 c xt (k4_off11 i) (k4_off11_inb i)) ∧ k4_chk7 (wordR4 c xt (k4_off13 i) (k4_off13_inb i)) ∧ k4_chk8 (wordR4 c xt (k4_off15 i) (k4_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR4 (c : Dev nD) (i : grid4.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR4) (fh : MBuf (F := F) c hbM) (fs0 : MBuf (F := F) c scMR4)
    (h : OkR4 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR4 fs0
            ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0
            ∗ tokPt c hbM 47 fh ∗ tokPt c hbM 48 fh ∗ tokPt c hbM 49 fh ∗ tokPt c hbM 50 fh ∗ tokPt c hbM 51 fh ∗ tokPt c hbM 52 fh ∗ tokPt c hbM 53 fh ∗ tokPt c hbM 54 fh ∗ mPt c tbMR4 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR4 f)
                ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0
                ∗ tokPt c hbM 47 fh ∗ tokPt c hbM 48 fh ∗ tokPt c hbM 49 fh ∗ tokPt c hbM 50 fh ∗ tokPt c hbM 51 fh ∗ tokPt c hbM 52 fh ∗ tokPt c hbM 53 fh ∗ tokPt c hbM 54 fh ∗ mPt c tbMR4 xt ∗ (∃ W', owes (c : Thread nD τ) 0 W')) -∗ K ⟨⟩))
          ⊢ wp frame (wpE (defs₀ (F := F)) Variants.none c none) Set.univ (cc4__embed_kernel i tbMR4 htbMR4 hbM hhbM arg3 harg3 arg4 harg4 scMR4 hscMR4 cc4_scratch1) K } := by
  refine ⟨?_, fun W K => ?run⟩
  case run =>
    simp only [cc4__embed_kernel_eq_skeleton]; unfold cc4__embed_kernel_skel
    simp only [k4_part1_eq_skeleton, k4_part2_eq_skeleton, k4_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid4.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR4) (fh : MBuf (F := F) c hbM) (fs0 : MBuf (F := F) c scMR4) (h : OkR4 c i xt)

/-- The run's one piece is a store of the whole 8 × 128 block. -/
theorem coverR4 (y : S8x128.Idx) : ∃ pc ∈ (kernelRunR4 c i arg3 harg3 arg4 harg4 x0 xt fh fs0 h).1, y ∈ pc.1.set :=
  View.cover_of_tiledL (kernelRunR4 c i arg3 harg3 arg4 harg4 x0 xt fh fs0 h).1 S8x128.size (by sl_kernel_rfl) y

abbrev VOR4 : View sig .tc .vmem S8x128 .f32 := (Memref.whole cc4_stg1_0 : Memref sig .tc .vmem S8x128 .f32).view

/-- What the run leaves in the output block: its pieces read back. -/
def outR4 : Vec F S8x128 .f32 :=
  VOR4.read (Elt F) (VOR4.writes (Elt F) VOR4.junk (kernelRunR4 c i arg3 harg3 arg4 harg4 x0 xt fh fs0 h).1)

end

end Cert.KernelIdeal.Emb

end
-- ==== Proof.KernelIdeal.Rows4.lean ====
import proofs.«418142_j33036888441229_2_alg».proof.Proof.KernelIdeal.Run4
import proofs.«418142_j33036888441229_2_alg».proof.Proof.RowsLib
import Idealize.ShloMosaic.Lib.ValueIdx
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid4.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR4) (fh : MBuf (F := F) c hbM) (fs0 : MBuf (F := F) c scMR4) (h : OkR4 c i xt)

/-- The gathered tile: row r is what the r-th copy brings. -/
def gatherR4 : Vec F S8x128 .f32 :=
  rows8 (kernelRunR4.sl.dma1 c i xt fh h) (kernelRunR4.sl.dma2 c i xt fh h) (kernelRunR4.sl.dma3 c i xt fh h) (kernelRunR4.sl.dma4 c i xt fh h)
    (kernelRunR4.sl.dma5 c i xt fh h) (kernelRunR4.sl.dma6 c i xt fh h) (kernelRunR4.sl.dma7 c i xt fh h) (kernelRunR4.sl.dma8 c i xt fh h)

set_option maxHeartbeats 400000 in
/-- The tile as loaded after the eight copies is the gathered tile: the eight rows cover it, so its earlier contents do not matter. -/
theorem tileR4_eq : kernelRunR4.sl.v121 c i xt fh fs0 h = gatherR4 c i xt fh h := by
  unfold kernelRunR4.sl.v121 gatherR4
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR4.view _ _ _ _ _ _ _ _ squeezes_S1x128_S128.numel_eq fs0 _ _ _ _ _ _ _ _ r j

/-- The block stored: the gathered tile plus the bias row. -/
theorem outR4_eq : outR4 c i arg3 harg3 arg4 harg4 x0 xt fh fs0 h = k4_pay1 (gatherR4 c i xt fh h) x0 := by
  unfold outR4
  rw [View.read_writes_eq_canon _ _ _ (coverR4 c i arg3 harg3 arg4 harg4 x0 xt fh fs0 h)]
  unfold kernelRunR4
  dsimp only
  rw [View.canon_unit_zero (S := S8x128) zero2, tileR4_eq c i xt fh fs0 h,
    View.readAt_eq_ld, harg3.read_unread, View.ld_unit_zero (S := S1x128) zero2]

theorem outR4_indep (fs0' : MBuf (F := F) c scMR4) :
    outR4 c i arg3 harg3 arg4 harg4 x0 xt fh fs0 h = outR4 c i arg3 harg3 arg4 harg4 x0 xt fh fs0' h :=
  (outR4_eq c i arg3 harg3 arg4 harg4 x0 xt fh fs0 h).trans (outR4_eq c i arg3 harg3 arg4 harg4 x0 xt fh fs0' h).symm

end

end Cert.KernelIdeal.Emb

end
-- ==== Proof.KernelIdeal.Reg4.lean ====
import proofs.«418142_j33036888441229_2_alg».proof.Proof.KernelIdeal.Rows4
import proofs.«418142_j33036888441229_2_alg».proof.Proof.LibReadShares

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR4 : pre4.Contents (Elt F) := fun j => V (0 : Dev nD) (pre4.ref j)
theorem V_preR4 (c : Dev nD) (j : Fin 1) : V c (pre4.ref j) = tblR4 V j := by
  obtain rfl : c = 0 := Subsingleton.elim _ _; rfl

abbrev admR4 : (pcfg4 (F := F)).Adm := ⟨tblR4 V, (ok4.eq_1 (tblR4 V)).mpr trivial⟩
abbrev cfgR4 : Pipeline.Cfg sig Λ₀ := cfg4 (admR4 V)

/-- At every point the eight token ids read are row numbers of the gather table. -/
def HypsR4 : Prop := ∀ (c : Dev nD) (t : Fin (cfgR4 V).N), OkR4 c (grid4.coords t) (tblR4 V 0)

/-- Window w's block at point t, read off its array as entered. -/
def iblkR4 (c : Dev nD) (w : Fin (cfgR4 V).W) (t : Fin (cfgR4 V).N) : (((cfgR4 V).win w).xblock ((cfgR4 V).grid.coords t)).Idx → Elt F ((cfgR4 V).win w).elt :=
  (((cfgR4 V).win w).blk t).view.read (Elt F) (V c (Pipeline.arrRef spec4 w))

theorem beforeR4_0_of {c : Dev nD} (dat : Dat τ (Elt F) Unit ℕ (Pipeline.UD sig nD τ) ℕ (cfgR4 V) c) (hA : dat.A 0 = V c (Pipeline.arrRef spec4 0))
    (hafter : ∀ t, dat.after 0 t = iblkR4 V c 0 t) (t : Fin (cfgR4 V).N) (d) : dat.before 0 t d = iblkR4 V c 0 t :=
  (dat.before_in_eq_fetched 0 rfl (fun _ => rfl) (fun _ _ _ => rfl) (fun t => by rw [hafter]; unfold Dat.blockOf iblkR4; rw [hA]; try rfl) t d).trans
    (by unfold Dat.fetched Dat.blockOf iblkR4; rw [hA]; try rfl)

abbrev msR4_0 (t : Fin (cfgR4 V).N) : Memref sig .tc .vmem S1x128 .f32 := spec4_0.stage ((cfgR4 V).slots t 0)
abbrev hsR4_0 (t : Fin (cfgR4 V).N) : (msR4_0 V t).IsWhole := hstage4_0 (((cfgR4 V).slots t 0).cast nbuf4_0)
abbrev msR4_1 (t : Fin (cfgR4 V).N) : Memref sig .tc .vmem S8x128 .f32 := spec4_1.stage ((cfgR4 V).slots t 1)
abbrev hsR4_1 (t : Fin (cfgR4 V).N) : (msR4_1 V t).IsWhole := hstage4_1 (((cfgR4 V).slots t 1).cast nbuf4_1)

abbrev bodyAtR4 (t : Fin (cfgR4 V).N) : Prog (TpuEff nD τ sig (Elt F) Λ₀ .tc) PUnit :=
  cc4__embed_kernel (grid4.coords t) (Memref.whole main_v11) (Memref.isWhole_whole _) (Memref.whole main_v0) (Memref.isWhole_whole _)
    (spec4_0.stage ((cfgR4 V).slots t 0)) (hstage4_0 (((cfgR4 V).slots t 0).cast nbuf4_0))
    (spec4_1.stage ((cfgR4 V).slots t 1)) (hstage4_1 (((cfgR4 V).slots t 1).cast nbuf4_1))
    (Memref.whole cc4_scratch0) (Memref.isWhole_whole _) cc4_scratch1

def fsJR4 (c : Dev nD) : MBuf (F := F) c scMR4 := fun _ => Classical.arbitrary _

/-- What point t leaves in its output block. -/
def outsAtR4 (hH : HypsR4 V) (c : Dev nD) (t : Fin (cfgR4 V).N) : Vec F S8x128 .f32 :=
  outR4 c (grid4.coords t) (msR4_0 V t) (hsR4_0 V t) (msR4_1 V t) (hsR4_1 V t) (iblkR4 V c 0 t) (tblR4 V 0) (V c main_v0) (fsJR4 c) (hH c t)

abbrev osemR4 : Fin 8 → SemLoc sig := fun j => (![SemLoc.dma 47, SemLoc.dma 48, SemLoc.dma 49, SemLoc.dma 50, SemLoc.dma 51, SemLoc.dma 52, SemLoc.dma 53, SemLoc.dma 54] : Fin 8 → SemLoc sig) j
theorem ownSemFactsR4 : Pipeline.OwnSemFacts spec4 osemR4 := by decide
theorem ownSemsR4_eq (c : Dev nD) :
    (Pipeline.ownSems0 (Ix := Unit) (Name := ℕ) (U := Pipeline.UD sig nD τ) (Lvl := ℕ) (Val := Elt F) (τ := τ) osemR4 c : sProp 𝕄)
      = iprop(semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0) := by
  rw [Pipeline.ownSems0_eq_of_list c osemR4 [0, 1, 2, 3, 4, 5, 6, 7] (by decide) (by decide)]; rfl

def HR4 : Finset (Ref sig .tc) := {main_v0}
theorem HR4_sub : HR4 ⊆ Pipeline.restRefsP sig pre4 spec4 := by decide
theorem hbmPtsR4_eq (c : Dev nD) :
    (bigSep HR4 (fun b => ((c : Thread nD τ).loc b) ↦{fullShare} V c b) : sProp 𝕄) = iprop(mPt c hbM (V c main_v0)) := by
  rw [BI.bigSep_eq_bigSepL_of_eq [main_v0] (by decide) (by decide)]; rfl
theorem prefR4_eq (c : Dev nD) :
    (Pipeline.prefHeld (Ix := Unit) (Name := ℕ) (U := Pipeline.UD sig nD τ) (Lvl := ℕ) pre4 c (fun _ => fullShare) (tblR4 V) : sProp 𝕄) = iprop(mPt c tbMR4 (tblR4 V 0)) := by
  unfold Pipeline.prefHeld
  rw [show (Finset.univ : Finset (Fin 1)) = {(0 : Fin 1)} from by decide, bigSep_singleton]
  rfl

abbrev PhiR4 (c : Dev nD) : sProp 𝕄 :=
  iprop(Pipeline.ΦD osemR4 spec4 HR4 V c ∗ Pipeline.prefHeld (Ix := Unit) (Name := ℕ) (U := Pipeline.UD sig nD τ) (Lvl := ℕ) pre4 c (fun _ => fullShare) (tblR4 V))

theorem PhiR4_eq (c : Dev nD) :
    (PhiR4 V c : sProp 𝕄)
      = iprop(iprop(iprop((∃ d, owns (c : Thread nD τ) scMR4 fullShare d) ∗ Pipeline.scopedRestBut (Ix := Unit) (Name := ℕ) (U := Pipeline.UD sig nD τ) (Lvl := ℕ) (Val := Elt F) spec4 c [cc4_scratch0])
          ∗ (∃ r, prngReg c r) ∗ iprop(semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0) ∗ iprop(mPt c hbM (V c main_v0))) ∗ iprop(mPt c tbMR4 (tblR4 V 0))) := by
  unfold PhiR4
  rw [Pipeline.ΦD_eq, scopedRest4_split, ownSemsR4_eq, hbmPtsR4_eq, prefR4_eq]; simp only [scMR4, owns_whole]; try rfl

def datR4 (hH : HypsR4 V) (c : Dev nD) : Dat τ (Elt F) Unit ℕ (Pipeline.UD sig nD τ) ℕ (cfgR4 V) c where
  A w := V c (Pipeline.arrRef spec4 w)
  after w t := match w with
    | ⟨0, _⟩ => iblkR4 V c 0 t
    | ⟨1, _⟩ => outsAtR4 V hH c t
  Φ _ := PhiR4 V c
  q _ := fullShare
  owed _ := 0

theorem A_eqR4 (hH : HypsR4 V) (c : Dev nD) (w : Fin (cfgR4 V).W) : (datR4 V hH c).A w = V c (Pipeline.arrRef spec4 w) := by
  dsimp only [datR4]
theorem afterR4_0 (hH : HypsR4 V) (c : Dev nD) (t : Fin (cfgR4 V).N) : (datR4 V hH c).after 0 t = iblkR4 V c 0 t := by dsimp only [datR4]; try rfl
theorem afterR4_1 (hH : HypsR4 V) (c : Dev nD) (t : Fin (cfgR4 V).N) : (datR4 V hH c).after 1 t = outsAtR4 V hH c t := by dsimp only [datR4]; try rfl
theorem beforeR4_0 (hH : HypsR4 V) (c : Dev nD) (t : Fin (cfgR4 V).N) (d) : (datR4 V hH c).before 0 t d = iblkR4 V c 0 t :=
  beforeR4_0_of V (datR4 V hH c) (A_eqR4 V hH c 0) (afterR4_0 V hH c) t d

abbrev remR4 (c : Dev nD) (f : MBuf (F := F) c hbM) : sProp 𝕄 :=
  iprop((hbM.view.loc (c : Thread nD τ) ↦{Transfers.shareDrop fullShare (47 + 8)} f)
    ∗ BI.bigSep (Finset.range 47) (fun i => hbM.view.loc (c : Thread nD τ) ↦{Transfers.shareTokN fullShare i} f))

theorem tok_splitR4 (c : Dev nD) (f : MBuf (F := F) c hbM) :
    (mPt c hbM f : sProp 𝕄) ⊢ iprop(remR4 c f ∗ tokPt c hbM 47 f ∗ tokPt c hbM 48 f ∗ tokPt c hbM 49 f ∗ tokPt c hbM 50 f ∗ tokPt c hbM 51 f ∗ tokPt c hbM 52 f ∗ tokPt c hbM 53 f ∗ tokPt c hbM 54 f) :=
  Transfers.pointsTo_window_split (Ix := Unit) (Name := ℕ) (U := Pipeline.UD sig nD τ) (Lvl := ℕ) fullShare 47

theorem tok_joinR4 (c : Dev nD) (f : MBuf (F := F) c hbM) :
    iprop(remR4 c f ∗ tokPt c hbM 47 f ∗ tokPt c hbM 48 f ∗ tokPt c hbM 49 f ∗ tokPt c hbM 50 f ∗ tokPt c hbM 51 f ∗ tokPt c hbM 52 f ∗ tokPt c hbM 53 f ∗ tokPt c hbM 54 f) ⊢ (mPt c hbM f : sProp 𝕄) :=
  Transfers.pointsTo_window_join (Ix := Unit) (Name := ℕ) (U := Pipeline.UD sig nD τ) (Lvl := ℕ) fullShare 47

def bodyPreR4 (hH : HypsR4 V) (c : Dev nD) (t : Fin (cfgR4 V).N) : sProp 𝕄 :=
  iprop((datR4 V hH c).Φ t.castSucc ∗ (datR4 V hH c).owesAt () t.castSucc
    ∗ (∃ d, owns (c : Thread nD τ) (msR4_0 V t) fullShare ((datR4 V hH c).before 0 t d))
    ∗ (∃ d, owns (c : Thread nD τ) (msR4_1 V t) fullShare ((datR4 V hH c).before 1 t d)))

def bodyPostR4 (hH : HypsR4 V) (c : Dev nD) (t : Fin (cfgR4 V).N) : sProp 𝕄 :=
  iprop((datR4 V hH c).Φ t.succ ∗ (datR4 V hH c).owesAt () t.succ
    ∗ owns (c : Thread nD τ) (msR4_0 V t) fullShare ((datR4 V hH c).after 0 t)
    ∗ owns (c : Thread nD τ) (msR4_1 V t) fullShare ((datR4 V hH c).after 1 t))

set_option maxHeartbeats 2000000 in
/-- The body at any point leaves the output block at `outsAtR4`, whatever the scratch tile held before. -/
theorem sound_bodyR4 (hH : HypsR4 V) (c : Dev nD) (t : Fin (cfgR4 V).N) :
    bodyPreR4 V hH c t ⊢ wp frame (wpE (defs₀ (F := F)) Variants.none c none) Set.univ (bodyAtR4 V t) (fun _ => bodyPostR4 V hH c t) := by
  unfold bodyPreR4 bodyPostR4 bodyAtR4
  simp only [beforeR4_0]
  rw [show (datR4 V hH c).Φ t.succ = (datR4 V hH c).Φ t.castSucc from rfl, afterR4_0, afterR4_1]
  rw [show (datR4 V hH c).Φ t.castSucc = PhiR4 V c from rfl, PhiR4_eq]
  unfold Dat.owesAt Pipeline.owesWithin
  rw [show (datR4 V hH c).owed t.castSucc = 0 from rfl, show (datR4 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR4) $$ HS0
  icases HS0 with ⟨%fs0, HS0⟩
  ihave Hh := (tok_splitR4 c (V c main_v0)) $$ Hh
  icases Hh with ⟨Hhr, Hh0, Hh1, Hh2, Hh3, Hh4, Hh5, Hh6, Hh7⟩
  iapply ((kernelRunR4 c (grid4.coords t) (msR4_0 V t) (hsR4_0 V t) (msR4_1 V t) (hsR4_1 V t) (iblkR4 V c 0 t) (tblR4 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR4 c (V c main_v0)) $$ [Hhr Hh0 Hh1 Hh2 Hh3 Hh4 Hh5 Hh6 Hh7]
  · iframe
  ihave HS0 := (scr_close c scMR4) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR4
  rw [← outR4_indep c (grid4.coords t) (msR4_0 V t) (hsR4_0 V t) (msR4_1 V t) (hsR4_1 V t) (iblkR4 V c 0 t) (tblR4 V 0) (V c main_v0) fs0 (hH c t) (fsJR4 c)]
  unfold outR4
  exact View.read_writes_of_cover _ _ _ _ _ (coverR4 c (grid4.coords t) (msR4_0 V t) (hsR4_0 V t) (msR4_1 V t) (hsR4_1 V t) (iblkR4 V c 0 t) (tblR4 V 0) (V c main_v0) fs0 (hH c t))

theorem body_obligationR4 (hH : HypsR4 V) (c : Dev nD) :
    BodyObligation (datR4 (F := F) V hH c) (defs₀ (F := F)) Variants.none () Set.univ := fun t => by
  rw [bigSep_W4, bigSep_W4]
  exact sound_bodyR4 V hH c t

end Region

end Cert.KernelIdeal.Emb

end
-- ==== Proof.KernelIdeal.Hyp4.lean ====
import proofs.«418142_j33036888441229_2_alg».proof.Proof.KernelIdeal.Reg4

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR4 (V : (c : Dev nD) → (b : Ref sig .tc) → Buf (Elt F) ((c : Thread nD τ).loc b))
    (h : ∀ p : S32768.Idx, BitVec.toNat (tbMR4.view.read (Elt F) (tblR4 V 0) p) < 50257) : HypsR4 V := by
  intro c t
  have r : ∀ (lr : LoadRect S32768) (i : lr.shape.Idx) (a : Fin 2),
      (![BitVec.toNat (tbMR4.view.readAt (Elt F) lr (tblR4 V 0) i), 0] : Fin 2 → ℕ) a + S1x128.size a ≤ S50257x128.size a :=
    fun lr i => row_inside _ (h (lr.idx i))
  unfold OkR4 k4_chk1 k4_chk2 k4_chk3 k4_chk4 k4_chk5 k4_chk6 k4_chk7 k4_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.KernelIdeal.Emb

end
-- ==== Proof.KernelIdeal.Run5.lean ====
import proofs.«418142_j33036888441229_2_alg».proof.Proof.KernelIdeal.Common

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR5 : Memref sig .tc .smem S32768 .i32 := Memref.whole main_v13
abbrev htbMR5 : tbMR5.IsWhole := Memref.isWhole_whole _
abbrev scMR5 : Memref sig .tc .vmem S8x128 .f32 := Memref.whole cc5_scratch0
abbrev hscMR5 : scMR5.IsWhole := Memref.isWhole_whole _

section
variable (c : Dev nD) (i : grid5.Coords) (xt : MBuf (F := F) c tbMR5)

/-- The word of the index table at offsets `off`. -/
abbrev wordR5 (off : Fin 1 → ℕ) (inb : ∀ a, off a + S1.size a ≤ S32768.size a) : Elt F .i32 :=
  tbMR5.view.readAt (Elt F) (Rect.unit (s := S32768) off S1.size inb).toLoadRect xt (Shape.Idx.first (numel1_S1.symm ▸ Nat.one_pos))

/-- Each of the eight token ids the point at `i` reads is a row number of the gather table. -/
def OkR5 : Prop :=
  k5_chk1 (wordR5 c xt (k5_off1 i) (k5_off1_inb i)) ∧ k5_chk2 (wordR5 c xt (k5_off3 i) (k5_off3_inb i)) ∧ k5_chk3 (wordR5 c xt (k5_off5 i) (k5_off5_inb i)) ∧ k5_chk4 (wordR5 c xt (k5_off7 i) (k5_off7_inb i)) ∧ k5_chk5 (wordR5 c xt (k5_off9 i) (k5_off9_inb i)) ∧ k5_chk6 (wordR5 c xt (k5_off11 i) (k5_off11_inb i)) ∧ k5_chk7 (wordR5 c xt (k5_off13 i) (k5_off13_inb i)) ∧ k5_chk8 (wordR5 c xt (k5_off15 i) (k5_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR5 (c : Dev nD) (i : grid5.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR5) (fh : MBuf (F := F) c hbM) (fs0 : MBuf (F := F) c scMR5)
    (h : OkR5 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR5 fs0
            ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0
            ∗ tokPt c hbM 58 fh ∗ tokPt c hbM 59 fh ∗ tokPt c hbM 60 fh ∗ tokPt c hbM 61 fh ∗ tokPt c hbM 62 fh ∗ tokPt c hbM 63 fh ∗ tokPt c hbM 64 fh ∗ tokPt c hbM 65 fh ∗ mPt c tbMR5 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR5 f)
                ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0
                ∗ tokPt c hbM 58 fh ∗ tokPt c hbM 59 fh ∗ tokPt c hbM 60 fh ∗ tokPt c hbM 61 fh ∗ tokPt c hbM 62 fh ∗ tokPt c hbM 63 fh ∗ tokPt c hbM 64 fh ∗ tokPt c hbM 65 fh ∗ mPt c tbMR5 xt ∗ (∃ W', owes (c : Thread nD τ) 0 W')) -∗ K ⟨⟩))
          ⊢ wp frame (wpE (defs₀ (F := F)) Variants.none c none) Set.univ (cc5__embed_kernel i tbMR5 htbMR5 hbM hhbM arg3 harg3 arg4 harg4 scMR5 hscMR5 cc5_scratch1) K } := by
  refine ⟨?_, fun W K => ?run⟩
  case run =>
    simp only [cc5__embed_kernel_eq_skeleton]; unfold cc5__embed_kernel_skel
    simp only [k5_part1_eq_skeleton, k5_part2_eq_skeleton, k5_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid5.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR5) (fh : MBuf (F := F) c hbM) (fs0 : MBuf (F := F) c scMR5) (h : OkR5 c i xt)

/-- The run's one piece is a store of the whole 8 × 128 block. -/
theorem coverR5 (y : S8x128.Idx) : ∃ pc ∈ (kernelRunR5 c i arg3 harg3 arg4 harg4 x0 xt fh fs0 h).1, y ∈ pc.1.set :=
  View.cover_of_tiledL (kernelRunR5 c i arg3 harg3 arg4 harg4 x0 xt fh fs0 h).1 S8x128.size (by sl_kernel_rfl) y

abbrev VOR5 : View sig .tc .vmem S8x128 .f32 := (Memref.whole cc5_stg1_0 : Memref sig .tc .vmem S8x128 .f32).view

/-- What the run leaves in the output block: its pieces read back. -/
def outR5 : Vec F S8x128 .f32 :=
  VOR5.read (Elt F) (VOR5.writes (Elt F) VOR5.junk (kernelRunR5 c i arg3 harg3 arg4 harg4 x0 xt fh fs0 h).1)

end

end Cert.KernelIdeal.Emb

end
-- ==== Proof.KernelIdeal.Rows5.lean ====
import proofs.«418142_j33036888441229_2_alg».proof.Proof.KernelIdeal.Run5
import proofs.«418142_j33036888441229_2_alg».proof.Proof.RowsLib
import Idealize.ShloMosaic.Lib.ValueIdx
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid5.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR5) (fh : MBuf (F := F) c hbM) (fs0 : MBuf (F := F) c scMR5) (h : OkR5 c i xt)

/-- The gathered tile: row r is what the r-th copy brings. -/
def gatherR5 : Vec F S8x128 .f32 :=
  rows8 (kernelRunR5.sl.dma1 c i xt fh h) (kernelRunR5.sl.dma2 c i xt fh h) (kernelRunR5.sl.dma3 c i xt fh h) (kernelRunR5.sl.dma4 c i xt fh h)
    (kernelRunR5.sl.dma5 c i xt fh h) (kernelRunR5.sl.dma6 c i xt fh h) (kernelRunR5.sl.dma7 c i xt fh h) (kernelRunR5.sl.dma8 c i xt fh h)

set_option maxHeartbeats 400000 in
/-- The tile as loaded after the eight copies is the gathered tile: the eight rows cover it, so its earlier contents do not matter. -/
theorem tileR5_eq : kernelRunR5.sl.v121 c i xt fh fs0 h = gatherR5 c i xt fh h := by
  unfold kernelRunR5.sl.v121 gatherR5
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR5.view _ _ _ _ _ _ _ _ squeezes_S1x128_S128.numel_eq fs0 _ _ _ _ _ _ _ _ r j

/-- The block stored: the gathered tile plus the bias row. -/
theorem outR5_eq : outR5 c i arg3 harg3 arg4 harg4 x0 xt fh fs0 h = k5_pay1 (gatherR5 c i xt fh h) x0 := by
  unfold outR5
  rw [View.read_writes_eq_canon _ _ _ (coverR5 c i arg3 harg3 arg4 harg4 x0 xt fh fs0 h)]
  unfold kernelRunR5
  dsimp only
  rw [View.canon_unit_zero (S := S8x128) zero2, tileR5_eq c i xt fh fs0 h,
    View.readAt_eq_ld, harg3.read_unread, View.ld_unit_zero (S := S1x128) zero2]

theorem outR5_indep (fs0' : MBuf (F := F) c scMR5) :
    outR5 c i arg3 harg3 arg4 harg4 x0 xt fh fs0 h = outR5 c i arg3 harg3 arg4 harg4 x0 xt fh fs0' h :=
  (outR5_eq c i arg3 harg3 arg4 harg4 x0 xt fh fs0 h).trans (outR5_eq c i arg3 harg3 arg4 harg4 x0 xt fh fs0' h).symm

end

end Cert.KernelIdeal.Emb

end
-- ==== Proof.KernelIdeal.Reg5.lean ====
import proofs.«418142_j33036888441229_2_alg».proof.Proof.KernelIdeal.Rows5
import proofs.«418142_j33036888441229_2_alg».proof.Proof.LibReadShares

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR5 : pre5.Contents (Elt F) := fun j => V (0 : Dev nD) (pre5.ref j)
theorem V_preR5 (c : Dev nD) (j : Fin 1) : V c (pre5.ref j) = tblR5 V j := by
  obtain rfl : c = 0 := Subsingleton.elim _ _; rfl

abbrev admR5 : (pcfg5 (F := F)).Adm := ⟨tblR5 V, (ok5.eq_1 (tblR5 V)).mpr trivial⟩
abbrev cfgR5 : Pipeline.Cfg sig Λ₀ := cfg5 (admR5 V)

/-- At every point the eight token ids read are row numbers of the gather table. -/
def HypsR5 : Prop := ∀ (c : Dev nD) (t : Fin (cfgR5 V).N), OkR5 c (grid5.coords t) (tblR5 V 0)

/-- Window w's block at point t, read off its array as entered. -/
def iblkR5 (c : Dev nD) (w : Fin (cfgR5 V).W) (t : Fin (cfgR5 V).N) : (((cfgR5 V).win w).xblock ((cfgR5 V).grid.coords t)).Idx → Elt F ((cfgR5 V).win w).elt :=
  (((cfgR5 V).win w).blk t).view.read (Elt F) (V c (Pipeline.arrRef spec5 w))

theorem beforeR5_0_of {c : Dev nD} (dat : Dat τ (Elt F) Unit ℕ (Pipeline.UD sig nD τ) ℕ (cfgR5 V) c) (hA : dat.A 0 = V c (Pipeline.arrRef spec5 0))
    (hafter : ∀ t, dat.after 0 t = iblkR5 V c 0 t) (t : Fin (cfgR5 V).N) (d) : dat.before 0 t d = iblkR5 V c 0 t :=
  (dat.before_in_eq_fetched 0 rfl (fun _ => rfl) (fun _ _ _ => rfl) (fun t => by rw [hafter]; unfold Dat.blockOf iblkR5; rw [hA]; try rfl) t d).trans
    (by unfold Dat.fetched Dat.blockOf iblkR5; rw [hA]; try rfl)

abbrev msR5_0 (t : Fin (cfgR5 V).N) : Memref sig .tc .vmem S1x128 .f32 := spec5_0.stage ((cfgR5 V).slots t 0)
abbrev hsR5_0 (t : Fin (cfgR5 V).N) : (msR5_0 V t).IsWhole := hstage5_0 (((cfgR5 V).slots t 0).cast nbuf5_0)
abbrev msR5_1 (t : Fin (cfgR5 V).N) : Memref sig .tc .vmem S8x128 .f32 := spec5_1.stage ((cfgR5 V).slots t 1)
abbrev hsR5_1 (t : Fin (cfgR5 V).N) : (msR5_1 V t).IsWhole := hstage5_1 (((cfgR5 V).slots t 1).cast nbuf5_1)

abbrev bodyAtR5 (t : Fin (cfgR5 V).N) : Prog (TpuEff nD τ sig (Elt F) Λ₀ .tc) PUnit :=
  cc5__embed_kernel (grid5.coords t) (Memref.whole main_v13) (Memref.isWhole_whole _) (Memref.whole main_v0) (Memref.isWhole_whole _)
    (spec5_0.stage ((cfgR5 V).slots t 0)) (hstage5_0 (((cfgR5 V).slots t 0).cast nbuf5_0))
    (spec5_1.stage ((cfgR5 V).slots t 1)) (hstage5_1 (((cfgR5 V).slots t 1).cast nbuf5_1))
    (Memref.whole cc5_scratch0) (Memref.isWhole_whole _) cc5_scratch1

def fsJR5 (c : Dev nD) : MBuf (F := F) c scMR5 := fun _ => Classical.arbitrary _

/-- What point t leaves in its output block. -/
def outsAtR5 (hH : HypsR5 V) (c : Dev nD) (t : Fin (cfgR5 V).N) : Vec F S8x128 .f32 :=
  outR5 c (grid5.coords t) (msR5_0 V t) (hsR5_0 V t) (msR5_1 V t) (hsR5_1 V t) (iblkR5 V c 0 t) (tblR5 V 0) (V c main_v0) (fsJR5 c) (hH c t)

abbrev osemR5 : Fin 8 → SemLoc sig := fun j => (![SemLoc.dma 58, SemLoc.dma 59, SemLoc.dma 60, SemLoc.dma 61, SemLoc.dma 62, SemLoc.dma 63, SemLoc.dma 64, SemLoc.dma 65] : Fin 8 → SemLoc sig) j
theorem ownSemFactsR5 : Pipeline.OwnSemFacts spec5 osemR5 := by decide
theorem ownSemsR5_eq (c : Dev nD) :
    (Pipeline.ownSems0 (Ix := Unit) (Name := ℕ) (U := Pipeline.UD sig nD τ) (Lvl := ℕ) (Val := Elt F) (τ := τ) osemR5 c : sProp 𝕄)
      = iprop(semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0) := by
  rw [Pipeline.ownSems0_eq_of_list c osemR5 [0, 1, 2, 3, 4, 5, 6, 7] (by decide) (by decide)]; rfl

def HR5 : Finset (Ref sig .tc) := {main_v0}
theorem HR5_sub : HR5 ⊆ Pipeline.restRefsP sig pre5 spec5 := by decide
theorem hbmPtsR5_eq (c : Dev nD) :
    (bigSep HR5 (fun b => ((c : Thread nD τ).loc b) ↦{fullShare} V c b) : sProp 𝕄) = iprop(mPt c hbM (V c main_v0)) := by
  rw [BI.bigSep_eq_bigSepL_of_eq [main_v0] (by decide) (by decide)]; rfl
theorem prefR5_eq (c : Dev nD) :
    (Pipeline.prefHeld (Ix := Unit) (Name := ℕ) (U := Pipeline.UD sig nD τ) (Lvl := ℕ) pre5 c (fun _ => fullShare) (tblR5 V) : sProp 𝕄) = iprop(mPt c tbMR5 (tblR5 V 0)) := by
  unfold Pipeline.prefHeld
  rw [show (Finset.univ : Finset (Fin 1)) = {(0 : Fin 1)} from by decide, bigSep_singleton]
  rfl

abbrev PhiR5 (c : Dev nD) : sProp 𝕄 :=
  iprop(Pipeline.ΦD osemR5 spec5 HR5 V c ∗ Pipeline.prefHeld (Ix := Unit) (Name := ℕ) (U := Pipeline.UD sig nD τ) (Lvl := ℕ) pre5 c (fun _ => fullShare) (tblR5 V))

theorem PhiR5_eq (c : Dev nD) :
    (PhiR5 V c : sProp 𝕄)
      = iprop(iprop(iprop((∃ d, owns (c : Thread nD τ) scMR5 fullShare d) ∗ Pipeline.scopedRestBut (Ix := Unit) (Name := ℕ) (U := Pipeline.UD sig nD τ) (Lvl := ℕ) (Val := Elt F) spec5 c [cc5_scratch0])
          ∗ (∃ r, prngReg c r) ∗ iprop(semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0) ∗ iprop(mPt c hbM (V c main_v0))) ∗ iprop(mPt c tbMR5 (tblR5 V 0))) := by
  unfold PhiR5
  rw [Pipeline.ΦD_eq, scopedRest5_split, ownSemsR5_eq, hbmPtsR5_eq, prefR5_eq]; simp only [scMR5, owns_whole]; try rfl

def datR5 (hH : HypsR5 V) (c : Dev nD) : Dat τ (Elt F) Unit ℕ (Pipeline.UD sig nD τ) ℕ (cfgR5 V) c where
  A w := V c (Pipeline.arrRef spec5 w)
  after w t := match w with
    | ⟨0, _⟩ => iblkR5 V c 0 t
    | ⟨1, _⟩ => outsAtR5 V hH c t
  Φ _ := PhiR5 V c
  q _ := fullShare
  owed _ := 0

theorem A_eqR5 (hH : HypsR5 V) (c : Dev nD) (w : Fin (cfgR5 V).W) : (datR5 V hH c).A w = V c (Pipeline.arrRef spec5 w) := by
  dsimp only [datR5]
theorem afterR5_0 (hH : HypsR5 V) (c : Dev nD) (t : Fin (cfgR5 V).N) : (datR5 V hH c).after 0 t = iblkR5 V c 0 t := by dsimp only [datR5]; try rfl
theorem afterR5_1 (hH : HypsR5 V) (c : Dev nD) (t : Fin (cfgR5 V).N) : (datR5 V hH c).after 1 t = outsAtR5 V hH c t := by dsimp only [datR5]; try rfl
theorem beforeR5_0 (hH : HypsR5 V) (c : Dev nD) (t : Fin (cfgR5 V).N) (d) : (datR5 V hH c).before 0 t d = iblkR5 V c 0 t :=
  beforeR5_0_of V (datR5 V hH c) (A_eqR5 V hH c 0) (afterR5_0 V hH c) t d

abbrev remR5 (c : Dev nD) (f : MBuf (F := F) c hbM) : sProp 𝕄 :=
  iprop((hbM.view.loc (c : Thread nD τ) ↦{Transfers.shareDrop fullShare (58 + 8)} f)
    ∗ BI.bigSep (Finset.range 58) (fun i => hbM.view.loc (c : Thread nD τ) ↦{Transfers.shareTokN fullShare i} f))

theorem tok_splitR5 (c : Dev nD) (f : MBuf (F := F) c hbM) :
    (mPt c hbM f : sProp 𝕄) ⊢ iprop(remR5 c f ∗ tokPt c hbM 58 f ∗ tokPt c hbM 59 f ∗ tokPt c hbM 60 f ∗ tokPt c hbM 61 f ∗ tokPt c hbM 62 f ∗ tokPt c hbM 63 f ∗ tokPt c hbM 64 f ∗ tokPt c hbM 65 f) :=
  Transfers.pointsTo_window_split (Ix := Unit) (Name := ℕ) (U := Pipeline.UD sig nD τ) (Lvl := ℕ) fullShare 58

theorem tok_joinR5 (c : Dev nD) (f : MBuf (F := F) c hbM) :
    iprop(remR5 c f ∗ tokPt c hbM 58 f ∗ tokPt c hbM 59 f ∗ tokPt c hbM 60 f ∗ tokPt c hbM 61 f ∗ tokPt c hbM 62 f ∗ tokPt c hbM 63 f ∗ tokPt c hbM 64 f ∗ tokPt c hbM 65 f) ⊢ (mPt c hbM f : sProp 𝕄) :=
  Transfers.pointsTo_window_join (Ix := Unit) (Name := ℕ) (U := Pipeline.UD sig nD τ) (Lvl := ℕ) fullShare 58

def bodyPreR5 (hH : HypsR5 V) (c : Dev nD) (t : Fin (cfgR5 V).N) : sProp 𝕄 :=
  iprop((datR5 V hH c).Φ t.castSucc ∗ (datR5 V hH c).owesAt () t.castSucc
    ∗ (∃ d, owns (c : Thread nD τ) (msR5_0 V t) fullShare ((datR5 V hH c).before 0 t d))
    ∗ (∃ d, owns (c : Thread nD τ) (msR5_1 V t) fullShare ((datR5 V hH c).before 1 t d)))

def bodyPostR5 (hH : HypsR5 V) (c : Dev nD) (t : Fin (cfgR5 V).N) : sProp 𝕄 :=
  iprop((datR5 V hH c).Φ t.succ ∗ (datR5 V hH c).owesAt () t.succ
    ∗ owns (c : Thread nD τ) (msR5_0 V t) fullShare ((datR5 V hH c).after 0 t)
    ∗ owns (c : Thread nD τ) (msR5_1 V t) fullShare ((datR5 V hH c).after 1 t))

set_option maxHeartbeats 2000000 in
/-- The body at any point leaves the output block at `outsAtR5`, whatever the scratch tile held before. -/
theorem sound_bodyR5 (hH : HypsR5 V) (c : Dev nD) (t : Fin (cfgR5 V).N) :
    bodyPreR5 V hH c t ⊢ wp frame (wpE (defs₀ (F := F)) Variants.none c none) Set.univ (bodyAtR5 V t) (fun _ => bodyPostR5 V hH c t) := by
  unfold bodyPreR5 bodyPostR5 bodyAtR5
  simp only [beforeR5_0]
  rw [show (datR5 V hH c).Φ t.succ = (datR5 V hH c).Φ t.castSucc from rfl, afterR5_0, afterR5_1]
  rw [show (datR5 V hH c).Φ t.castSucc = PhiR5 V c from rfl, PhiR5_eq]
  unfold Dat.owesAt Pipeline.owesWithin
  rw [show (datR5 V hH c).owed t.castSucc = 0 from rfl, show (datR5 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR5) $$ HS0
  icases HS0 with ⟨%fs0, HS0⟩
  ihave Hh := (tok_splitR5 c (V c main_v0)) $$ Hh
  icases Hh with ⟨Hhr, Hh0, Hh1, Hh2, Hh3, Hh4, Hh5, Hh6, Hh7⟩
  iapply ((kernelRunR5 c (grid5.coords t) (msR5_0 V t) (hsR5_0 V t) (msR5_1 V t) (hsR5_1 V t) (iblkR5 V c 0 t) (tblR5 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR5 c (V c main_v0)) $$ [Hhr Hh0 Hh1 Hh2 Hh3 Hh4 Hh5 Hh6 Hh7]
  · iframe
  ihave HS0 := (scr_close c scMR5) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR5
  rw [← outR5_indep c (grid5.coords t) (msR5_0 V t) (hsR5_0 V t) (msR5_1 V t) (hsR5_1 V t) (iblkR5 V c 0 t) (tblR5 V 0) (V c main_v0) fs0 (hH c t) (fsJR5 c)]
  unfold outR5
  exact View.read_writes_of_cover _ _ _ _ _ (coverR5 c (grid5.coords t) (msR5_0 V t) (hsR5_0 V t) (msR5_1 V t) (hsR5_1 V t) (iblkR5 V c 0 t) (tblR5 V 0) (V c main_v0) fs0 (hH c t))

theorem body_obligationR5 (hH : HypsR5 V) (c : Dev nD) :
    BodyObligation (datR5 (F := F) V hH c) (defs₀ (F := F)) Variants.none () Set.univ := fun t => by
  rw [bigSep_W5, bigSep_W5]
  exact sound_bodyR5 V hH c t

end Region

end Cert.KernelIdeal.Emb

end
-- ==== Proof.KernelIdeal.Hyp5.lean ====
import proofs.«418142_j33036888441229_2_alg».proof.Proof.KernelIdeal.Reg5

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR5 (V : (c : Dev nD) → (b : Ref sig .tc) → Buf (Elt F) ((c : Thread nD τ).loc b))
    (h : ∀ p : S32768.Idx, BitVec.toNat (tbMR5.view.read (Elt F) (tblR5 V 0) p) < 50257) : HypsR5 V := by
  intro c t
  have r : ∀ (lr : LoadRect S32768) (i : lr.shape.Idx) (a : Fin 2),
      (![BitVec.toNat (tbMR5.view.readAt (Elt F) lr (tblR5 V 0) i), 0] : Fin 2 → ℕ) a + S1x128.size a ≤ S50257x128.size a :=
    fun lr i => row_inside _ (h (lr.idx i))
  unfold OkR5 k5_chk1 k5_chk2 k5_chk3 k5_chk4 k5_chk5 k5_chk6 k5_chk7 k5_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.KernelIdeal.Emb

end
-- ==== Proof.KernelIdeal.Run6.lean ====
import proofs.«418142_j33036888441229_2_alg».proof.Proof.KernelIdeal.Common

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR6 : Memref sig .tc .smem S32768 .i32 := Memref.whole main_v15
abbrev htbMR6 : tbMR6.IsWhole := Memref.isWhole_whole _
abbrev scMR6 : Memref sig .tc .vmem S8x128 .f32 := Memref.whole cc6_scratch0
abbrev hscMR6 : scMR6.IsWhole := Memref.isWhole_whole _

section
variable (c : Dev nD) (i : grid6.Coords) (xt : MBuf (F := F) c tbMR6)

/-- The word of the index table at offsets `off`. -/
abbrev wordR6 (off : Fin 1 → ℕ) (inb : ∀ a, off a + S1.size a ≤ S32768.size a) : Elt F .i32 :=
  tbMR6.view.readAt (Elt F) (Rect.unit (s := S32768) off S1.size inb).toLoadRect xt (Shape.Idx.first (numel1_S1.symm ▸ Nat.one_pos))

/-- Each of the eight token ids the point at `i` reads is a row number of the gather table. -/
def OkR6 : Prop :=
  k6_chk1 (wordR6 c xt (k6_off1 i) (k6_off1_inb i)) ∧ k6_chk2 (wordR6 c xt (k6_off3 i) (k6_off3_inb i)) ∧ k6_chk3 (wordR6 c xt (k6_off5 i) (k6_off5_inb i)) ∧ k6_chk4 (wordR6 c xt (k6_off7 i) (k6_off7_inb i)) ∧ k6_chk5 (wordR6 c xt (k6_off9 i) (k6_off9_inb i)) ∧ k6_chk6 (wordR6 c xt (k6_off11 i) (k6_off11_inb i)) ∧ k6_chk7 (wordR6 c xt (k6_off13 i) (k6_off13_inb i)) ∧ k6_chk8 (wordR6 c xt (k6_off15 i) (k6_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR6 (c : Dev nD) (i : grid6.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR6) (fh : MBuf (F := F) c hbM) (fs0 : MBuf (F := F) c scMR6)
    (h : OkR6 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR6 fs0
            ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0
            ∗ tokPt c hbM 69 fh ∗ tokPt c hbM 70 fh ∗ tokPt c hbM 71 fh ∗ tokPt c hbM 72 fh ∗ tokPt c hbM 73 fh ∗ tokPt c hbM 74 fh ∗ tokPt c hbM 75 fh ∗ tokPt c hbM 76 fh ∗ mPt c tbMR6 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR6 f)
                ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0
                ∗ tokPt c hbM 69 fh ∗ tokPt c hbM 70 fh ∗ tokPt c hbM 71 fh ∗ tokPt c hbM 72 fh ∗ tokPt c hbM 73 fh ∗ tokPt c hbM 74 fh ∗ tokPt c hbM 75 fh ∗ tokPt c hbM 76 fh ∗ mPt c tbMR6 xt ∗ (∃ W', owes (c : Thread nD τ) 0 W')) -∗ K ⟨⟩))
          ⊢ wp frame (wpE (defs₀ (F := F)) Variants.none c none) Set.univ (cc6__embed_kernel i tbMR6 htbMR6 hbM hhbM arg3 harg3 arg4 harg4 scMR6 hscMR6 cc6_scratch1) K } := by
  refine ⟨?_, fun W K => ?run⟩
  case run =>
    simp only [cc6__embed_kernel_eq_skeleton]; unfold cc6__embed_kernel_skel
    simp only [k6_part1_eq_skeleton, k6_part2_eq_skeleton, k6_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid6.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR6) (fh : MBuf (F := F) c hbM) (fs0 : MBuf (F := F) c scMR6) (h : OkR6 c i xt)

/-- The run's one piece is a store of the whole 8 × 128 block. -/
theorem coverR6 (y : S8x128.Idx) : ∃ pc ∈ (kernelRunR6 c i arg3 harg3 arg4 harg4 x0 xt fh fs0 h).1, y ∈ pc.1.set :=
  View.cover_of_tiledL (kernelRunR6 c i arg3 harg3 arg4 harg4 x0 xt fh fs0 h).1 S8x128.size (by sl_kernel_rfl) y

abbrev VOR6 : View sig .tc .vmem S8x128 .f32 := (Memref.whole cc6_stg1_0 : Memref sig .tc .vmem S8x128 .f32).view

/-- What the run leaves in the output block: its pieces read back. -/
def outR6 : Vec F S8x128 .f32 :=
  VOR6.read (Elt F) (VOR6.writes (Elt F) VOR6.junk (kernelRunR6 c i arg3 harg3 arg4 harg4 x0 xt fh fs0 h).1)

end

end Cert.KernelIdeal.Emb

end
-- ==== Proof.KernelIdeal.Rows6.lean ====
import proofs.«418142_j33036888441229_2_alg».proof.Proof.KernelIdeal.Run6
import proofs.«418142_j33036888441229_2_alg».proof.Proof.RowsLib
import Idealize.ShloMosaic.Lib.ValueIdx
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid6.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR6) (fh : MBuf (F := F) c hbM) (fs0 : MBuf (F := F) c scMR6) (h : OkR6 c i xt)

/-- The gathered tile: row r is what the r-th copy brings. -/
def gatherR6 : Vec F S8x128 .f32 :=
  rows8 (kernelRunR6.sl.dma1 c i xt fh h) (kernelRunR6.sl.dma2 c i xt fh h) (kernelRunR6.sl.dma3 c i xt fh h) (kernelRunR6.sl.dma4 c i xt fh h)
    (kernelRunR6.sl.dma5 c i xt fh h) (kernelRunR6.sl.dma6 c i xt fh h) (kernelRunR6.sl.dma7 c i xt fh h) (kernelRunR6.sl.dma8 c i xt fh h)

set_option maxHeartbeats 400000 in
/-- The tile as loaded after the eight copies is the gathered tile: the eight rows cover it, so its earlier contents do not matter. -/
theorem tileR6_eq : kernelRunR6.sl.v121 c i xt fh fs0 h = gatherR6 c i xt fh h := by
  unfold kernelRunR6.sl.v121 gatherR6
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR6.view _ _ _ _ _ _ _ _ squeezes_S1x128_S128.numel_eq fs0 _ _ _ _ _ _ _ _ r j

/-- The block stored: the gathered tile plus the bias row. -/
theorem outR6_eq : outR6 c i arg3 harg3 arg4 harg4 x0 xt fh fs0 h = k6_pay1 (gatherR6 c i xt fh h) x0 := by
  unfold outR6
  rw [View.read_writes_eq_canon _ _ _ (coverR6 c i arg3 harg3 arg4 harg4 x0 xt fh fs0 h)]
  unfold kernelRunR6
  dsimp only
  rw [View.canon_unit_zero (S := S8x128) zero2, tileR6_eq c i xt fh fs0 h,
    View.readAt_eq_ld, harg3.read_unread, View.ld_unit_zero (S := S1x128) zero2]

theorem outR6_indep (fs0' : MBuf (F := F) c scMR6) :
    outR6 c i arg3 harg3 arg4 harg4 x0 xt fh fs0 h = outR6 c i arg3 harg3 arg4 harg4 x0 xt fh fs0' h :=
  (outR6_eq c i arg3 harg3 arg4 harg4 x0 xt fh fs0 h).trans (outR6_eq c i arg3 harg3 arg4 harg4 x0 xt fh fs0' h).symm

end

end Cert.KernelIdeal.Emb

end
-- ==== Proof.KernelIdeal.Reg6.lean ====
import proofs.«418142_j33036888441229_2_alg».proof.Proof.KernelIdeal.Rows6
import proofs.«418142_j33036888441229_2_alg».proof.Proof.LibReadShares

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR6 : pre6.Contents (Elt F) := fun j => V (0 : Dev nD) (pre6.ref j)
theorem V_preR6 (c : Dev nD) (j : Fin 1) : V c (pre6.ref j) = tblR6 V j := by
  obtain rfl : c = 0 := Subsingleton.elim _ _; rfl

abbrev admR6 : (pcfg6 (F := F)).Adm := ⟨tblR6 V, (ok6.eq_1 (tblR6 V)).mpr trivial⟩
abbrev cfgR6 : Pipeline.Cfg sig Λ₀ := cfg6 (admR6 V)

/-- At every point the eight token ids read are row numbers of the gather table. -/
def HypsR6 : Prop := ∀ (c : Dev nD) (t : Fin (cfgR6 V).N), OkR6 c (grid6.coords t) (tblR6 V 0)

/-- Window w's block at point t, read off its array as entered. -/
def iblkR6 (c : Dev nD) (w : Fin (cfgR6 V).W) (t : Fin (cfgR6 V).N) : (((cfgR6 V).win w).xblock ((cfgR6 V).grid.coords t)).Idx → Elt F ((cfgR6 V).win w).elt :=
  (((cfgR6 V).win w).blk t).view.read (Elt F) (V c (Pipeline.arrRef spec6 w))

theorem beforeR6_0_of {c : Dev nD} (dat : Dat τ (Elt F) Unit ℕ (Pipeline.UD sig nD τ) ℕ (cfgR6 V) c) (hA : dat.A 0 = V c (Pipeline.arrRef spec6 0))
    (hafter : ∀ t, dat.after 0 t = iblkR6 V c 0 t) (t : Fin (cfgR6 V).N) (d) : dat.before 0 t d = iblkR6 V c 0 t :=
  (dat.before_in_eq_fetched 0 rfl (fun _ => rfl) (fun _ _ _ => rfl) (fun t => by rw [hafter]; unfold Dat.blockOf iblkR6; rw [hA]; try rfl) t d).trans
    (by unfold Dat.fetched Dat.blockOf iblkR6; rw [hA]; try rfl)

abbrev msR6_0 (t : Fin (cfgR6 V).N) : Memref sig .tc .vmem S1x128 .f32 := spec6_0.stage ((cfgR6 V).slots t 0)
abbrev hsR6_0 (t : Fin (cfgR6 V).N) : (msR6_0 V t).IsWhole := hstage6_0 (((cfgR6 V).slots t 0).cast nbuf6_0)
abbrev msR6_1 (t : Fin (cfgR6 V).N) : Memref sig .tc .vmem S8x128 .f32 := spec6_1.stage ((cfgR6 V).slots t 1)
abbrev hsR6_1 (t : Fin (cfgR6 V).N) : (msR6_1 V t).IsWhole := hstage6_1 (((cfgR6 V).slots t 1).cast nbuf6_1)

abbrev bodyAtR6 (t : Fin (cfgR6 V).N) : Prog (TpuEff nD τ sig (Elt F) Λ₀ .tc) PUnit :=
  cc6__embed_kernel (grid6.coords t) (Memref.whole main_v15) (Memref.isWhole_whole _) (Memref.whole main_v0) (Memref.isWhole_whole _)
    (spec6_0.stage ((cfgR6 V).slots t 0)) (hstage6_0 (((cfgR6 V).slots t 0).cast nbuf6_0))
    (spec6_1.stage ((cfgR6 V).slots t 1)) (hstage6_1 (((cfgR6 V).slots t 1).cast nbuf6_1))
    (Memref.whole cc6_scratch0) (Memref.isWhole_whole _) cc6_scratch1

def fsJR6 (c : Dev nD) : MBuf (F := F) c scMR6 := fun _ => Classical.arbitrary _

/-- What point t leaves in its output block. -/
def outsAtR6 (hH : HypsR6 V) (c : Dev nD) (t : Fin (cfgR6 V).N) : Vec F S8x128 .f32 :=
  outR6 c (grid6.coords t) (msR6_0 V t) (hsR6_0 V t) (msR6_1 V t) (hsR6_1 V t) (iblkR6 V c 0 t) (tblR6 V 0) (V c main_v0) (fsJR6 c) (hH c t)

abbrev osemR6 : Fin 8 → SemLoc sig := fun j => (![SemLoc.dma 69, SemLoc.dma 70, SemLoc.dma 71, SemLoc.dma 72, SemLoc.dma 73, SemLoc.dma 74, SemLoc.dma 75, SemLoc.dma 76] : Fin 8 → SemLoc sig) j
theorem ownSemFactsR6 : Pipeline.OwnSemFacts spec6 osemR6 := by decide
theorem ownSemsR6_eq (c : Dev nD) :
    (Pipeline.ownSems0 (Ix := Unit) (Name := ℕ) (U := Pipeline.UD sig nD τ) (Lvl := ℕ) (Val := Elt F) (τ := τ) osemR6 c : sProp 𝕄)
      = iprop(semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0) := by
  rw [Pipeline.ownSems0_eq_of_list c osemR6 [0, 1, 2, 3, 4, 5, 6, 7] (by decide) (by decide)]; rfl

def HR6 : Finset (Ref sig .tc) := {main_v0}
theorem HR6_sub : HR6 ⊆ Pipeline.restRefsP sig pre6 spec6 := by decide
theorem hbmPtsR6_eq (c : Dev nD) :
    (bigSep HR6 (fun b => ((c : Thread nD τ).loc b) ↦{fullShare} V c b) : sProp 𝕄) = iprop(mPt c hbM (V c main_v0)) := by
  rw [BI.bigSep_eq_bigSepL_of_eq [main_v0] (by decide) (by decide)]; rfl
theorem prefR6_eq (c : Dev nD) :
    (Pipeline.prefHeld (Ix := Unit) (Name := ℕ) (U := Pipeline.UD sig nD τ) (Lvl := ℕ) pre6 c (fun _ => fullShare) (tblR6 V) : sProp 𝕄) = iprop(mPt c tbMR6 (tblR6 V 0)) := by
  unfold Pipeline.prefHeld
  rw [show (Finset.univ : Finset (Fin 1)) = {(0 : Fin 1)} from by decide, bigSep_singleton]
  rfl

abbrev PhiR6 (c : Dev nD) : sProp 𝕄 :=
  iprop(Pipeline.ΦD osemR6 spec6 HR6 V c ∗ Pipeline.prefHeld (Ix := Unit) (Name := ℕ) (U := Pipeline.UD sig nD τ) (Lvl := ℕ) pre6 c (fun _ => fullShare) (tblR6 V))

theorem PhiR6_eq (c : Dev nD) :
    (PhiR6 V c : sProp 𝕄)
      = iprop(iprop(iprop((∃ d, owns (c : Thread nD τ) scMR6 fullShare d) ∗ Pipeline.scopedRestBut (Ix := Unit) (Name := ℕ) (U := Pipeline.UD sig nD τ) (Lvl := ℕ) (Val := Elt F) spec6 c [cc6_scratch0])
          ∗ (∃ r, prngReg c r) ∗ iprop(semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0) ∗ iprop(mPt c hbM (V c main_v0))) ∗ iprop(mPt c tbMR6 (tblR6 V 0))) := by
  unfold PhiR6
  rw [Pipeline.ΦD_eq, scopedRest6_split, ownSemsR6_eq, hbmPtsR6_eq, prefR6_eq]; simp only [scMR6, owns_whole]; try rfl

def datR6 (hH : HypsR6 V) (c : Dev nD) : Dat τ (Elt F) Unit ℕ (Pipeline.UD sig nD τ) ℕ (cfgR6 V) c where
  A w := V c (Pipeline.arrRef spec6 w)
  after w t := match w with
    | ⟨0, _⟩ => iblkR6 V c 0 t
    | ⟨1, _⟩ => outsAtR6 V hH c t
  Φ _ := PhiR6 V c
  q _ := fullShare
  owed _ := 0

theorem A_eqR6 (hH : HypsR6 V) (c : Dev nD) (w : Fin (cfgR6 V).W) : (datR6 V hH c).A w = V c (Pipeline.arrRef spec6 w) := by
  dsimp only [datR6]
theorem afterR6_0 (hH : HypsR6 V) (c : Dev nD) (t : Fin (cfgR6 V).N) : (datR6 V hH c).after 0 t = iblkR6 V c 0 t := by dsimp only [datR6]; try rfl
theorem afterR6_1 (hH : HypsR6 V) (c : Dev nD) (t : Fin (cfgR6 V).N) : (datR6 V hH c).after 1 t = outsAtR6 V hH c t := by dsimp only [datR6]; try rfl
theorem beforeR6_0 (hH : HypsR6 V) (c : Dev nD) (t : Fin (cfgR6 V).N) (d) : (datR6 V hH c).before 0 t d = iblkR6 V c 0 t :=
  beforeR6_0_of V (datR6 V hH c) (A_eqR6 V hH c 0) (afterR6_0 V hH c) t d

abbrev remR6 (c : Dev nD) (f : MBuf (F := F) c hbM) : sProp 𝕄 :=
  iprop((hbM.view.loc (c : Thread nD τ) ↦{Transfers.shareDrop fullShare (69 + 8)} f)
    ∗ BI.bigSep (Finset.range 69) (fun i => hbM.view.loc (c : Thread nD τ) ↦{Transfers.shareTokN fullShare i} f))

theorem tok_splitR6 (c : Dev nD) (f : MBuf (F := F) c hbM) :
    (mPt c hbM f : sProp 𝕄) ⊢ iprop(remR6 c f ∗ tokPt c hbM 69 f ∗ tokPt c hbM 70 f ∗ tokPt c hbM 71 f ∗ tokPt c hbM 72 f ∗ tokPt c hbM 73 f ∗ tokPt c hbM 74 f ∗ tokPt c hbM 75 f ∗ tokPt c hbM 76 f) :=
  Transfers.pointsTo_window_split (Ix := Unit) (Name := ℕ) (U := Pipeline.UD sig nD τ) (Lvl := ℕ) fullShare 69

theorem tok_joinR6 (c : Dev nD) (f : MBuf (F := F) c hbM) :
    iprop(remR6 c f ∗ tokPt c hbM 69 f ∗ tokPt c hbM 70 f ∗ tokPt c hbM 71 f ∗ tokPt c hbM 72 f ∗ tokPt c hbM 73 f ∗ tokPt c hbM 74 f ∗ tokPt c hbM 75 f ∗ tokPt c hbM 76 f) ⊢ (mPt c hbM f : sProp 𝕄) :=
  Transfers.pointsTo_window_join (Ix := Unit) (Name := ℕ) (U := Pipeline.UD sig nD τ) (Lvl := ℕ) fullShare 69

def bodyPreR6 (hH : HypsR6 V) (c : Dev nD) (t : Fin (cfgR6 V).N) : sProp 𝕄 :=
  iprop((datR6 V hH c).Φ t.castSucc ∗ (datR6 V hH c).owesAt () t.castSucc
    ∗ (∃ d, owns (c : Thread nD τ) (msR6_0 V t) fullShare ((datR6 V hH c).before 0 t d))
    ∗ (∃ d, owns (c : Thread nD τ) (msR6_1 V t) fullShare ((datR6 V hH c).before 1 t d)))

def bodyPostR6 (hH : HypsR6 V) (c : Dev nD) (t : Fin (cfgR6 V).N) : sProp 𝕄 :=
  iprop((datR6 V hH c).Φ t.succ ∗ (datR6 V hH c).owesAt () t.succ
    ∗ owns (c : Thread nD τ) (msR6_0 V t) fullShare ((datR6 V hH c).after 0 t)
    ∗ owns (c : Thread nD τ) (msR6_1 V t) fullShare ((datR6 V hH c).after 1 t))

set_option maxHeartbeats 2000000 in
/-- The body at any point leaves the output block at `outsAtR6`, whatever the scratch tile held before. -/
theorem sound_bodyR6 (hH : HypsR6 V) (c : Dev nD) (t : Fin (cfgR6 V).N) :
    bodyPreR6 V hH c t ⊢ wp frame (wpE (defs₀ (F := F)) Variants.none c none) Set.univ (bodyAtR6 V t) (fun _ => bodyPostR6 V hH c t) := by
  unfold bodyPreR6 bodyPostR6 bodyAtR6
  simp only [beforeR6_0]
  rw [show (datR6 V hH c).Φ t.succ = (datR6 V hH c).Φ t.castSucc from rfl, afterR6_0, afterR6_1]
  rw [show (datR6 V hH c).Φ t.castSucc = PhiR6 V c from rfl, PhiR6_eq]
  unfold Dat.owesAt Pipeline.owesWithin
  rw [show (datR6 V hH c).owed t.castSucc = 0 from rfl, show (datR6 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR6) $$ HS0
  icases HS0 with ⟨%fs0, HS0⟩
  ihave Hh := (tok_splitR6 c (V c main_v0)) $$ Hh
  icases Hh with ⟨Hhr, Hh0, Hh1, Hh2, Hh3, Hh4, Hh5, Hh6, Hh7⟩
  iapply ((kernelRunR6 c (grid6.coords t) (msR6_0 V t) (hsR6_0 V t) (msR6_1 V t) (hsR6_1 V t) (iblkR6 V c 0 t) (tblR6 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR6 c (V c main_v0)) $$ [Hhr Hh0 Hh1 Hh2 Hh3 Hh4 Hh5 Hh6 Hh7]
  · iframe
  ihave HS0 := (scr_close c scMR6) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR6
  rw [← outR6_indep c (grid6.coords t) (msR6_0 V t) (hsR6_0 V t) (msR6_1 V t) (hsR6_1 V t) (iblkR6 V c 0 t) (tblR6 V 0) (V c main_v0) fs0 (hH c t) (fsJR6 c)]
  unfold outR6
  exact View.read_writes_of_cover _ _ _ _ _ (coverR6 c (grid6.coords t) (msR6_0 V t) (hsR6_0 V t) (msR6_1 V t) (hsR6_1 V t) (iblkR6 V c 0 t) (tblR6 V 0) (V c main_v0) fs0 (hH c t))

theorem body_obligationR6 (hH : HypsR6 V) (c : Dev nD) :
    BodyObligation (datR6 (F := F) V hH c) (defs₀ (F := F)) Variants.none () Set.univ := fun t => by
  rw [bigSep_W6, bigSep_W6]
  exact sound_bodyR6 V hH c t

end Region

end Cert.KernelIdeal.Emb

end
-- ==== Proof.KernelIdeal.Hyp6.lean ====
import proofs.«418142_j33036888441229_2_alg».proof.Proof.KernelIdeal.Reg6

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR6 (V : (c : Dev nD) → (b : Ref sig .tc) → Buf (Elt F) ((c : Thread nD τ).loc b))
    (h : ∀ p : S32768.Idx, BitVec.toNat (tbMR6.view.read (Elt F) (tblR6 V 0) p) < 50257) : HypsR6 V := by
  intro c t
  have r : ∀ (lr : LoadRect S32768) (i : lr.shape.Idx) (a : Fin 2),
      (![BitVec.toNat (tbMR6.view.readAt (Elt F) lr (tblR6 V 0) i), 0] : Fin 2 → ℕ) a + S1x128.size a ≤ S50257x128.size a :=
    fun lr i => row_inside _ (h (lr.idx i))
  unfold OkR6 k6_chk1 k6_chk2 k6_chk3 k6_chk4 k6_chk5 k6_chk6 k6_chk7 k6_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.KernelIdeal.Emb

end
-- ==== Proof.KernelIdeal.Run7.lean ====
import proofs.«418142_j33036888441229_2_alg».proof.Proof.KernelIdeal.Common

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbMR7 : Memref sig .tc .smem S32768 .i32 := Memref.whole main_v17
abbrev htbMR7 : tbMR7.IsWhole := Memref.isWhole_whole _
abbrev scMR7 : Memref sig .tc .vmem S8x128 .f32 := Memref.whole cc7_scratch0
abbrev hscMR7 : scMR7.IsWhole := Memref.isWhole_whole _

section
variable (c : Dev nD) (i : grid7.Coords) (xt : MBuf (F := F) c tbMR7)

/-- The word of the index table at offsets `off`. -/
abbrev wordR7 (off : Fin 1 → ℕ) (inb : ∀ a, off a + S1.size a ≤ S32768.size a) : Elt F .i32 :=
  tbMR7.view.readAt (Elt F) (Rect.unit (s := S32768) off S1.size inb).toLoadRect xt (Shape.Idx.first (numel1_S1.symm ▸ Nat.one_pos))

/-- Each of the eight token ids the point at `i` reads is a row number of the gather table. -/
def OkR7 : Prop :=
  k7_chk1 (wordR7 c xt (k7_off1 i) (k7_off1_inb i)) ∧ k7_chk2 (wordR7 c xt (k7_off3 i) (k7_off3_inb i)) ∧ k7_chk3 (wordR7 c xt (k7_off5 i) (k7_off5_inb i)) ∧ k7_chk4 (wordR7 c xt (k7_off7 i) (k7_off7_inb i)) ∧ k7_chk5 (wordR7 c xt (k7_off9 i) (k7_off9_inb i)) ∧ k7_chk6 (wordR7 c xt (k7_off11 i) (k7_off11_inb i)) ∧ k7_chk7 (wordR7 c xt (k7_off13 i) (k7_off13_inb i)) ∧ k7_chk8 (wordR7 c xt (k7_off15 i) (k7_off15_inb i))

end

set_option sl_exec.dmaWindow true in
set_option sl_exec.dmaWindowSet true in
set_option maxHeartbeats 4000000 in
/-- One grid point's body, given that each of the eight token ids it reads is a row number of the gather table: it ends, and
    the output block then holds the listed piece. -/
noncomputable def kernelRunR7 (c : Dev nD) (i : grid7.Coords)
    (arg3 : Memref sig .tc .vmem S1x128 .f32) (harg3 : arg3.IsWhole) (arg4 : Memref sig .tc .vmem S8x128 .f32) (harg4 : arg4.IsWhole)
    (x0 : Vec F S1x128 .f32) (xt : MBuf (F := F) c tbMR7) (fh : MBuf (F := F) c hbM) (fs0 : MBuf (F := F) c scMR7)
    (h : OkR7 c i xt) :
    { L1 : List (View.Piece (Elt F) S8x128 .f32) //
      ∀ (W : Waits sig Unit) (K : PUnit → sProp 𝕄),
        iprop(owns (c : Thread nD τ) arg3 fullShare x0 ∗ (∃ d, owns (c : Thread nD τ) arg4 fullShare d) ∗ rawPt c scMR7 fs0
            ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0
            ∗ tokPt c hbM 80 fh ∗ tokPt c hbM 81 fh ∗ tokPt c hbM 82 fh ∗ tokPt c hbM 83 fh ∗ tokPt c hbM 84 fh ∗ tokPt c hbM 85 fh ∗ tokPt c hbM 86 fh ∗ tokPt c hbM 87 fh ∗ mPt c tbMR7 xt ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ f, rawPt c scMR7 f)
                ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0
                ∗ tokPt c hbM 80 fh ∗ tokPt c hbM 81 fh ∗ tokPt c hbM 82 fh ∗ tokPt c hbM 83 fh ∗ tokPt c hbM 84 fh ∗ tokPt c hbM 85 fh ∗ tokPt c hbM 86 fh ∗ tokPt c hbM 87 fh ∗ mPt c tbMR7 xt ∗ (∃ W', owes (c : Thread nD τ) 0 W')) -∗ K ⟨⟩))
          ⊢ wp frame (wpE (defs₀ (F := F)) Variants.none c none) Set.univ (cc7__embed_kernel i tbMR7 htbMR7 hbM hhbM arg3 harg3 arg4 harg4 scMR7 hscMR7 cc7_scratch1) K } := by
  refine ⟨?_, fun W K => ?run⟩
  case run =>
    simp only [cc7__embed_kernel_eq_skeleton]; unfold cc7__embed_kernel_skel
    simp only [k7_part1_eq_skeleton, k7_part2_eq_skeleton, k7_part3_eq_skeleton]
    unfold owns
    iintro ⟨⟨%f0, %hf0, H0⟩, ⟨%d1, %f1, -, H1⟩, HS0, Hq0, Hq1, Hq2, Hq3, Hq4, Hq5, Hq6, Hq7, Hh0, Hh1, Hh2, Hh3, Hh4, Hh5, Hh6, Hh7, Ht, HW, Hk⟩
    obtain rfl := harg3.eq_unread hf0
    sl_exec (disch := first | sl_exact h.1 | sl_exact h.2.1 | sl_exact h.2.2.1 | sl_exact h.2.2.2.1 | sl_exact h.2.2.2.2.1 | sl_exact h.2.2.2.2.2.1 | sl_exact h.2.2.2.2.2.2.1 | sl_exact h.2.2.2.2.2.2.2)
    sl_step
    iapply Hk
    isplitl [H0]
    · iexists _; isplitr; · ipureintro; exact harg3.read_unread _
      iexact H0
    isplitl [H1]; · iexists _; iexact H1
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Ht]; · iexact Ht
    iexists _; iexact HW

section
variable (c : Dev nD) (i : grid7.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR7) (fh : MBuf (F := F) c hbM) (fs0 : MBuf (F := F) c scMR7) (h : OkR7 c i xt)

/-- The run's one piece is a store of the whole 8 × 128 block. -/
theorem coverR7 (y : S8x128.Idx) : ∃ pc ∈ (kernelRunR7 c i arg3 harg3 arg4 harg4 x0 xt fh fs0 h).1, y ∈ pc.1.set :=
  View.cover_of_tiledL (kernelRunR7 c i arg3 harg3 arg4 harg4 x0 xt fh fs0 h).1 S8x128.size (by sl_kernel_rfl) y

abbrev VOR7 : View sig .tc .vmem S8x128 .f32 := (Memref.whole cc7_stg1_0 : Memref sig .tc .vmem S8x128 .f32).view

/-- What the run leaves in the output block: its pieces read back. -/
def outR7 : Vec F S8x128 .f32 :=
  VOR7.read (Elt F) (VOR7.writes (Elt F) VOR7.junk (kernelRunR7 c i arg3 harg3 arg4 harg4 x0 xt fh fs0 h).1)

end

end Cert.KernelIdeal.Emb

end
-- ==== Proof.KernelIdeal.Rows7.lean ====
import proofs.«418142_j33036888441229_2_alg».proof.Proof.KernelIdeal.Run7
import proofs.«418142_j33036888441229_2_alg».proof.Proof.RowsLib
import Idealize.ShloMosaic.Lib.ValueIdx
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Emb

variable {F : FTy → Type} [FloatOps F]

local notation "𝕄" => MT nD τ sig Unit (Elt F) ℕ (Pipeline.UD sig nD τ) ℕ

section
variable (c : Dev nD) (i : grid7.Coords)
  (arg3 : Memref sig .tc .vmem S1x128 .f32) (harg3 : arg3.IsWhole) (arg4 : Memref sig .tc .vmem S8x128 .f32) (harg4 : arg4.IsWhole)
  (x0 : Vec F S1x128 .f32) (xt : MBuf (F := F) c tbMR7) (fh : MBuf (F := F) c hbM) (fs0 : MBuf (F := F) c scMR7) (h : OkR7 c i xt)

/-- The gathered tile: row r is what the r-th copy brings. -/
def gatherR7 : Vec F S8x128 .f32 :=
  rows8 (kernelRunR7.sl.dma1 c i xt fh h) (kernelRunR7.sl.dma2 c i xt fh h) (kernelRunR7.sl.dma3 c i xt fh h) (kernelRunR7.sl.dma4 c i xt fh h)
    (kernelRunR7.sl.dma5 c i xt fh h) (kernelRunR7.sl.dma6 c i xt fh h) (kernelRunR7.sl.dma7 c i xt fh h) (kernelRunR7.sl.dma8 c i xt fh h)

set_option maxHeartbeats 400000 in
/-- The tile as loaded after the eight copies is the gathered tile: the eight rows cover it, so its earlier contents do not matter. -/
theorem tileR7_eq : kernelRunR7.sl.v121 c i xt fh fs0 h = gatherR7 c i xt fh h := by
  unfold kernelRunR7.sl.v121 gatherR7
  rw [View.readAt_eq_ld, View.ld_unit_zero (S := S8x128) zero2]
  funext y
  obtain ⟨r, j, rfl⟩ : ∃ (r : Fin 8) (j : Fin 128), y = Idealize.ShloMosaic.ValueIdx.ix2 r j := ⟨y 0, y 1, Idealize.ShloMosaic.ValueIdx.eq_ix2 y⟩
  exact read_rows8 scMR7.view _ _ _ _ _ _ _ _ squeezes_S1x128_S128.numel_eq fs0 _ _ _ _ _ _ _ _ r j

/-- The block stored: the gathered tile plus the bias row. -/
theorem outR7_eq : outR7 c i arg3 harg3 arg4 harg4 x0 xt fh fs0 h = k7_pay1 (gatherR7 c i xt fh h) x0 := by
  unfold outR7
  rw [View.read_writes_eq_canon _ _ _ (coverR7 c i arg3 harg3 arg4 harg4 x0 xt fh fs0 h)]
  unfold kernelRunR7
  dsimp only
  rw [View.canon_unit_zero (S := S8x128) zero2, tileR7_eq c i xt fh fs0 h,
    View.readAt_eq_ld, harg3.read_unread, View.ld_unit_zero (S := S1x128) zero2]

theorem outR7_indep (fs0' : MBuf (F := F) c scMR7) :
    outR7 c i arg3 harg3 arg4 harg4 x0 xt fh fs0 h = outR7 c i arg3 harg3 arg4 harg4 x0 xt fh fs0' h :=
  (outR7_eq c i arg3 harg3 arg4 harg4 x0 xt fh fs0 h).trans (outR7_eq c i arg3 harg3 arg4 harg4 x0 xt fh fs0' h).symm

end

end Cert.KernelIdeal.Emb

end
-- ==== Proof.KernelIdeal.Reg7.lean ====
import proofs.«418142_j33036888441229_2_alg».proof.Proof.KernelIdeal.Rows7
import proofs.«418142_j33036888441229_2_alg».proof.Proof.LibReadShares

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

/-- The region's index table as entered. -/
def tblR7 : pre7.Contents (Elt F) := fun j => V (0 : Dev nD) (pre7.ref j)
theorem V_preR7 (c : Dev nD) (j : Fin 1) : V c (pre7.ref j) = tblR7 V j := by
  obtain rfl : c = 0 := Subsingleton.elim _ _; rfl

abbrev admR7 : (pcfg7 (F := F)).Adm := ⟨tblR7 V, (ok7.eq_1 (tblR7 V)).mpr trivial⟩
abbrev cfgR7 : Pipeline.Cfg sig Λ₀ := cfg7 (admR7 V)

/-- At every point the eight token ids read are row numbers of the gather table. -/
def HypsR7 : Prop := ∀ (c : Dev nD) (t : Fin (cfgR7 V).N), OkR7 c (grid7.coords t) (tblR7 V 0)

/-- Window w's block at point t, read off its array as entered. -/
def iblkR7 (c : Dev nD) (w : Fin (cfgR7 V).W) (t : Fin (cfgR7 V).N) : (((cfgR7 V).win w).xblock ((cfgR7 V).grid.coords t)).Idx → Elt F ((cfgR7 V).win w).elt :=
  (((cfgR7 V).win w).blk t).view.read (Elt F) (V c (Pipeline.arrRef spec7 w))

theorem beforeR7_0_of {c : Dev nD} (dat : Dat τ (Elt F) Unit ℕ (Pipeline.UD sig nD τ) ℕ (cfgR7 V) c) (hA : dat.A 0 = V c (Pipeline.arrRef spec7 0))
    (hafter : ∀ t, dat.after 0 t = iblkR7 V c 0 t) (t : Fin (cfgR7 V).N) (d) : dat.before 0 t d = iblkR7 V c 0 t :=
  (dat.before_in_eq_fetched 0 rfl (fun _ => rfl) (fun _ _ _ => rfl) (fun t => by rw [hafter]; unfold Dat.blockOf iblkR7; rw [hA]; try rfl) t d).trans
    (by unfold Dat.fetched Dat.blockOf iblkR7; rw [hA]; try rfl)

abbrev msR7_0 (t : Fin (cfgR7 V).N) : Memref sig .tc .vmem S1x128 .f32 := spec7_0.stage ((cfgR7 V).slots t 0)
abbrev hsR7_0 (t : Fin (cfgR7 V).N) : (msR7_0 V t).IsWhole := hstage7_0 (((cfgR7 V).slots t 0).cast nbuf7_0)
abbrev msR7_1 (t : Fin (cfgR7 V).N) : Memref sig .tc .vmem S8x128 .f32 := spec7_1.stage ((cfgR7 V).slots t 1)
abbrev hsR7_1 (t : Fin (cfgR7 V).N) : (msR7_1 V t).IsWhole := hstage7_1 (((cfgR7 V).slots t 1).cast nbuf7_1)

abbrev bodyAtR7 (t : Fin (cfgR7 V).N) : Prog (TpuEff nD τ sig (Elt F) Λ₀ .tc) PUnit :=
  cc7__embed_kernel (grid7.coords t) (Memref.whole main_v17) (Memref.isWhole_whole _) (Memref.whole main_v0) (Memref.isWhole_whole _)
    (spec7_0.stage ((cfgR7 V).slots t 0)) (hstage7_0 (((cfgR7 V).slots t 0).cast nbuf7_0))
    (spec7_1.stage ((cfgR7 V).slots t 1)) (hstage7_1 (((cfgR7 V).slots t 1).cast nbuf7_1))
    (Memref.whole cc7_scratch0) (Memref.isWhole_whole _) cc7_scratch1

def fsJR7 (c : Dev nD) : MBuf (F := F) c scMR7 := fun _ => Classical.arbitrary _

/-- What point t leaves in its output block. -/
def outsAtR7 (hH : HypsR7 V) (c : Dev nD) (t : Fin (cfgR7 V).N) : Vec F S8x128 .f32 :=
  outR7 c (grid7.coords t) (msR7_0 V t) (hsR7_0 V t) (msR7_1 V t) (hsR7_1 V t) (iblkR7 V c 0 t) (tblR7 V 0) (V c main_v0) (fsJR7 c) (hH c t)

abbrev osemR7 : Fin 8 → SemLoc sig := fun j => (![SemLoc.dma 80, SemLoc.dma 81, SemLoc.dma 82, SemLoc.dma 83, SemLoc.dma 84, SemLoc.dma 85, SemLoc.dma 86, SemLoc.dma 87] : Fin 8 → SemLoc sig) j
theorem ownSemFactsR7 : Pipeline.OwnSemFacts spec7 osemR7 := by decide
theorem ownSemsR7_eq (c : Dev nD) :
    (Pipeline.ownSems0 (Ix := Unit) (Name := ℕ) (U := Pipeline.UD sig nD τ) (Lvl := ℕ) (Val := Elt F) (τ := τ) osemR7 c : sProp 𝕄)
      = iprop(semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0) := by
  rw [Pipeline.ownSems0_eq_of_list c osemR7 [0, 1, 2, 3, 4, 5, 6, 7] (by decide) (by decide)]; rfl

def HR7 : Finset (Ref sig .tc) := {main_v0}
theorem HR7_sub : HR7 ⊆ Pipeline.restRefsP sig pre7 spec7 := by decide
theorem hbmPtsR7_eq (c : Dev nD) :
    (bigSep HR7 (fun b => ((c : Thread nD τ).loc b) ↦{fullShare} V c b) : sProp 𝕄) = iprop(mPt c hbM (V c main_v0)) := by
  rw [BI.bigSep_eq_bigSepL_of_eq [main_v0] (by decide) (by decide)]; rfl
theorem prefR7_eq (c : Dev nD) :
    (Pipeline.prefHeld (Ix := Unit) (Name := ℕ) (U := Pipeline.UD sig nD τ) (Lvl := ℕ) pre7 c (fun _ => fullShare) (tblR7 V) : sProp 𝕄) = iprop(mPt c tbMR7 (tblR7 V 0)) := by
  unfold Pipeline.prefHeld
  rw [show (Finset.univ : Finset (Fin 1)) = {(0 : Fin 1)} from by decide, bigSep_singleton]
  rfl

abbrev PhiR7 (c : Dev nD) : sProp 𝕄 :=
  iprop(Pipeline.ΦD osemR7 spec7 HR7 V c ∗ Pipeline.prefHeld (Ix := Unit) (Name := ℕ) (U := Pipeline.UD sig nD τ) (Lvl := ℕ) pre7 c (fun _ => fullShare) (tblR7 V))

theorem PhiR7_eq (c : Dev nD) :
    (PhiR7 V c : sProp 𝕄)
      = iprop(iprop(iprop((∃ d, owns (c : Thread nD τ) scMR7 fullShare d) ∗ Pipeline.scopedRestBut (Ix := Unit) (Name := ℕ) (U := Pipeline.UD sig nD τ) (Lvl := ℕ) (Val := Elt F) spec7 c [cc7_scratch0])
          ∗ (∃ r, prngReg c r) ∗ iprop(semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0) ∗ iprop(mPt c hbM (V c main_v0))) ∗ iprop(mPt c tbMR7 (tblR7 V 0))) := by
  unfold PhiR7
  rw [Pipeline.ΦD_eq, scopedRest7_split, ownSemsR7_eq, hbmPtsR7_eq, prefR7_eq]; simp only [scMR7, owns_whole]; try rfl

def datR7 (hH : HypsR7 V) (c : Dev nD) : Dat τ (Elt F) Unit ℕ (Pipeline.UD sig nD τ) ℕ (cfgR7 V) c where
  A w := V c (Pipeline.arrRef spec7 w)
  after w t := match w with
    | ⟨0, _⟩ => iblkR7 V c 0 t
    | ⟨1, _⟩ => outsAtR7 V hH c t
  Φ _ := PhiR7 V c
  q _ := fullShare
  owed _ := 0

theorem A_eqR7 (hH : HypsR7 V) (c : Dev nD) (w : Fin (cfgR7 V).W) : (datR7 V hH c).A w = V c (Pipeline.arrRef spec7 w) := by
  dsimp only [datR7]
theorem afterR7_0 (hH : HypsR7 V) (c : Dev nD) (t : Fin (cfgR7 V).N) : (datR7 V hH c).after 0 t = iblkR7 V c 0 t := by dsimp only [datR7]; try rfl
theorem afterR7_1 (hH : HypsR7 V) (c : Dev nD) (t : Fin (cfgR7 V).N) : (datR7 V hH c).after 1 t = outsAtR7 V hH c t := by dsimp only [datR7]; try rfl
theorem beforeR7_0 (hH : HypsR7 V) (c : Dev nD) (t : Fin (cfgR7 V).N) (d) : (datR7 V hH c).before 0 t d = iblkR7 V c 0 t :=
  beforeR7_0_of V (datR7 V hH c) (A_eqR7 V hH c 0) (afterR7_0 V hH c) t d

abbrev remR7 (c : Dev nD) (f : MBuf (F := F) c hbM) : sProp 𝕄 :=
  iprop((hbM.view.loc (c : Thread nD τ) ↦{Transfers.shareDrop fullShare (80 + 8)} f)
    ∗ BI.bigSep (Finset.range 80) (fun i => hbM.view.loc (c : Thread nD τ) ↦{Transfers.shareTokN fullShare i} f))

theorem tok_splitR7 (c : Dev nD) (f : MBuf (F := F) c hbM) :
    (mPt c hbM f : sProp 𝕄) ⊢ iprop(remR7 c f ∗ tokPt c hbM 80 f ∗ tokPt c hbM 81 f ∗ tokPt c hbM 82 f ∗ tokPt c hbM 83 f ∗ tokPt c hbM 84 f ∗ tokPt c hbM 85 f ∗ tokPt c hbM 86 f ∗ tokPt c hbM 87 f) :=
  Transfers.pointsTo_window_split (Ix := Unit) (Name := ℕ) (U := Pipeline.UD sig nD τ) (Lvl := ℕ) fullShare 80

theorem tok_joinR7 (c : Dev nD) (f : MBuf (F := F) c hbM) :
    iprop(remR7 c f ∗ tokPt c hbM 80 f ∗ tokPt c hbM 81 f ∗ tokPt c hbM 82 f ∗ tokPt c hbM 83 f ∗ tokPt c hbM 84 f ∗ tokPt c hbM 85 f ∗ tokPt c hbM 86 f ∗ tokPt c hbM 87 f) ⊢ (mPt c hbM f : sProp 𝕄) :=
  Transfers.pointsTo_window_join (Ix := Unit) (Name := ℕ) (U := Pipeline.UD sig nD τ) (Lvl := ℕ) fullShare 80

def bodyPreR7 (hH : HypsR7 V) (c : Dev nD) (t : Fin (cfgR7 V).N) : sProp 𝕄 :=
  iprop((datR7 V hH c).Φ t.castSucc ∗ (datR7 V hH c).owesAt () t.castSucc
    ∗ (∃ d, owns (c : Thread nD τ) (msR7_0 V t) fullShare ((datR7 V hH c).before 0 t d))
    ∗ (∃ d, owns (c : Thread nD τ) (msR7_1 V t) fullShare ((datR7 V hH c).before 1 t d)))

def bodyPostR7 (hH : HypsR7 V) (c : Dev nD) (t : Fin (cfgR7 V).N) : sProp 𝕄 :=
  iprop((datR7 V hH c).Φ t.succ ∗ (datR7 V hH c).owesAt () t.succ
    ∗ owns (c : Thread nD τ) (msR7_0 V t) fullShare ((datR7 V hH c).after 0 t)
    ∗ owns (c : Thread nD τ) (msR7_1 V t) fullShare ((datR7 V hH c).after 1 t))

set_option maxHeartbeats 2000000 in
/-- The body at any point leaves the output block at `outsAtR7`, whatever the scratch tile held before. -/
theorem sound_bodyR7 (hH : HypsR7 V) (c : Dev nD) (t : Fin (cfgR7 V).N) :
    bodyPreR7 V hH c t ⊢ wp frame (wpE (defs₀ (F := F)) Variants.none c none) Set.univ (bodyAtR7 V t) (fun _ => bodyPostR7 V hH c t) := by
  unfold bodyPreR7 bodyPostR7 bodyAtR7
  simp only [beforeR7_0]
  rw [show (datR7 V hH c).Φ t.succ = (datR7 V hH c).Φ t.castSucc from rfl, afterR7_0, afterR7_1]
  rw [show (datR7 V hH c).Φ t.castSucc = PhiR7 V c from rfl, PhiR7_eq]
  unfold Dat.owesAt Pipeline.owesWithin
  rw [show (datR7 V hH c).owed t.castSucc = 0 from rfl, show (datR7 V hH c).owed t.succ = 0 from rfl]
  iintro ⟨⟨⟨⟨HS0, HRB⟩, Hg, ⟨Hq0, Hq1, Hq2, Hq3, Hq4, Hq5, Hq6, Hq7⟩, Hh⟩, Ht⟩, ⟨%W, -, HW⟩, ⟨%d0, H0⟩, ⟨%d1, H1⟩⟩
  ihave HS0 := (scr_open c scMR7) $$ HS0
  icases HS0 with ⟨%fs0, HS0⟩
  ihave Hh := (tok_splitR7 c (V c main_v0)) $$ Hh
  icases Hh with ⟨Hhr, Hh0, Hh1, Hh2, Hh3, Hh4, Hh5, Hh6, Hh7⟩
  iapply ((kernelRunR7 c (grid7.coords t) (msR7_0 V t) (hsR7_0 V t) (msR7_1 V t) (hsR7_1 V t) (iblkR7 V c 0 t) (tblR7 V 0) (V c main_v0) fs0 (hH c t)).2 W _)
  isplitl [H0]; · iexact H0
  isplitl [H1]; · iexists _; iexact H1
  iframe HS0 Hq0 Hq1 Hq2 Hq3 Hq4 Hq5 Hq6 Hq7 Hh0 Hh1 Hh2 Hh3 Hh4 Hh5 Hh6 Hh7 Ht HW
  iintro ⟨H0, ⟨%e1, H1⟩, HS0, Hq0, Hq1, Hq2, Hq3, Hq4, Hq5, Hq6, Hq7, Hh0, Hh1, Hh2, Hh3, Hh4, Hh5, Hh6, Hh7, Ht, ⟨%W', HW'⟩⟩
  ihave Hh := (tok_joinR7 c (V c main_v0)) $$ [Hhr Hh0 Hh1 Hh2 Hh3 Hh4 Hh5 Hh6 Hh7]
  · iframe
  ihave HS0 := (scr_close c scMR7) $$ HS0
  iframe HS0 HRB Hg Hq0 Hq1 Hq2 Hq3 Hq4 Hq5 Hq6 Hq7 Hh Ht H0
  isplitl [HW']
  · iexists W'; isplitr; · ipureintro; exact fun _ _ => Or.inl trivial
    iexact HW'
  unfold owns; iexists _; isplitr
  swap; · iexact H1
  ipureintro
  unfold outsAtR7
  rw [← outR7_indep c (grid7.coords t) (msR7_0 V t) (hsR7_0 V t) (msR7_1 V t) (hsR7_1 V t) (iblkR7 V c 0 t) (tblR7 V 0) (V c main_v0) fs0 (hH c t) (fsJR7 c)]
  unfold outR7
  exact View.read_writes_of_cover _ _ _ _ _ (coverR7 c (grid7.coords t) (msR7_0 V t) (hsR7_0 V t) (msR7_1 V t) (hsR7_1 V t) (iblkR7 V c 0 t) (tblR7 V 0) (V c main_v0) fs0 (hH c t))

theorem body_obligationR7 (hH : HypsR7 V) (c : Dev nD) :
    BodyObligation (datR7 (F := F) V hH c) (defs₀ (F := F)) Variants.none () Set.univ := fun t => by
  rw [bigSep_W7, bigSep_W7]
  exact sound_bodyR7 V hH c t

end Region

end Cert.KernelIdeal.Emb

end
-- ==== Proof.KernelIdeal.Hyp7.lean ====
import proofs.«418142_j33036888441229_2_alg».proof.Proof.KernelIdeal.Reg7

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Emb

/-- Every word of the index table below 50257: each row a point's token ids name lies inside the gather table. -/
theorem hyps_of_ltR7 (V : (c : Dev nD) → (b : Ref sig .tc) → Buf (Elt F) ((c : Thread nD τ).loc b))
    (h : ∀ p : S32768.Idx, BitVec.toNat (tbMR7.view.read (Elt F) (tblR7 V 0) p) < 50257) : HypsR7 V := by
  intro c t
  have r : ∀ (lr : LoadRect S32768) (i : lr.shape.Idx) (a : Fin 2),
      (![BitVec.toNat (tbMR7.view.readAt (Elt F) lr (tblR7 V 0) i), 0] : Fin 2 → ℕ) a + S1x128.size a ≤ S50257x128.size a :=
    fun lr i => row_inside _ (h (lr.idx i))
  unfold OkR7 k7_chk1 k7_chk2 k7_chk3 k7_chk4 k7_chk5 k7_chk6 k7_chk7 k7_chk8
  exact ⟨⟨r _ _, r _ _⟩, ⟨r _ _, r _ _⟩, ⟨r _ _, r _ _⟩, ⟨r _ _, r _ _⟩, ⟨r _ _, r _ _⟩, ⟨r _ _, r _ _⟩, ⟨r _ _, r _ _⟩, r _ _⟩

end Cert.KernelIdeal.Emb

end
-- ==== Proof.KernelIdeal.Fold.lean ====
import proofs.«418142_j33036888441229_2_alg».proof.Proof.KernelIdeal.Hyp0
import proofs.«418142_j33036888441229_2_alg».proof.Proof.KernelIdeal.Hyp1
import proofs.«418142_j33036888441229_2_alg».proof.Proof.KernelIdeal.Hyp2
import proofs.«418142_j33036888441229_2_alg».proof.Proof.KernelIdeal.Hyp3
import proofs.«418142_j33036888441229_2_alg».proof.Proof.KernelIdeal.Hyp4
import proofs.«418142_j33036888441229_2_alg».proof.Proof.KernelIdeal.Hyp5
import proofs.«418142_j33036888441229_2_alg».proof.Proof.KernelIdeal.Hyp6
import proofs.«418142_j33036888441229_2_alg».proof.Proof.KernelIdeal.Hyp7
import proofs.«418142_j33036888441229_2_alg».proof.Proof.Gen.KernelIdeal.Regions
import Idealize.ShloMosaic.Lib.StableHlo.Run
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Fold

variable (m : (ℓ : Loc nD τ sig) → Buf (Elt F) ℓ)
variable (hx : ∀ (c : Dev nD) (j : S64x4096.Idx), BitVec.toNat (m ((c.tc : Thread nD τ).loc main_arg0) j) < 50257)

abbrev W0 (c : Dev nD) : Valuation τ sig (Elt F) := fun b => m (c, b)

/-- After the first stretch: the weight transposed, the token ids flattened, the bias as a row, region 0's table. -/
def W1 (c : Dev nD) : Valuation τ sig (Elt F) := StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
abbrev U1 (c : Dev nD) (b : Ref sig .tc) : Buf (Elt F) ((c : Thread nD τ).loc b) := W1 m c (Proc.devRef .tc b)

theorem flat_eq (c : Dev nD) :
    W1 m c (Proc.devRef .tc main_v1) = (fun i => shapeCast S262144 (m (c, Proc.devRef .tc main_arg0)) shapeCasts_S64x4096_S262144 i) := by
  unfold W1; after_results <;> rfl

theorem v0_eq (c : Dev nD) :
    W1 m c (Proc.devRef .tc main_v0) = transpose S50257x128 [1, 0] (m (c, Proc.devRef .tc main_arg1)) transposes_S128x50257_S50257x128_1_0 := by
  unfold W1; after_results <;> rfl
theorem v2_eq (c : Dev nD) :
    W1 m c (Proc.devRef .tc main_v2) = (fun i => shapeCast S1x128 (m (c, Proc.devRef .tc main_arg2)) shapeCasts_S128_S1x128 i) := by
  unfold W1; after_results <;> rfl
include hx

theorem flat_lt (c : Dev nD) (q : S262144.Idx) : BitVec.toNat (W1 m c (Proc.devRef .tc main_v1) q) < 50257 := by
  rw [flat_eq]; unfold shapeCast; exact hx c _
theorem flat_W1 (c : Dev nD) : W1 m c (Proc.devRef .tc main_v1) = W1 m c (Proc.devRef .tc main_v1) := rfl

/-- Region 0's index table is the first 32768 of the flattened token ids, so each of its words is a token id of the input. -/
theorem tbl_eq0 : W1 m (0 : Dev nD) (Proc.devRef .tc main_v3) = extractStridedSlice S32768 ![0] (W1 m (0 : Dev nD) (Proc.devRef .tc main_v1)) slices_S262144_S32768_0 := by
  rw [flat_eq]; unfold W1; after_results <;> rfl

theorem tbl_lt0 : ∀ p : S32768.Idx, BitVec.toNat (tbMR0.view.read (Elt F) (tblR0 (U1 m) 0) p) < 50257 := by
  intro p
  show BitVec.toNat (W1 m (0 : Dev nD) (Proc.devRef .tc main_v3) p) < 50257
  rw [tbl_eq0 m hx]; unfold extractStridedSlice; exact flat_lt m hx 0 _
theorem hyps0 : HypsR0 (U1 m) := hyps_of_ltR0 _ (tbl_lt0 m hx)

/-- After region 0: its output array rewritten, nothing else. -/
def W2 (c : Dev nD) : Valuation τ sig (Elt F) :=
  Pipeline.withArrays spec0 c (W1 m c) fun w => (datR0 (U1 m) (hyps0 m hx) c).arrAt w (cfgR0 (U1 m)).N
theorem W2_arr (c : Dev nD) (w : Fin (cfgR0 (U1 m)).W) :
    W2 m hx c (Proc.devRef .tc (Pipeline.arrRef spec0 w)) = (datR0 (U1 m) (hyps0 m hx) c).arrAt w (cfgR0 (U1 m)).N := by
  unfold W2; exact Pipeline.withArrays_arr spec0 winFacts0.arr_inj c _ _ w
theorem W2_of_ne (c : Dev nD) (b : Ref sig .tc) (hb : ∀ w, Pipeline.arrRef spec0 w ≠ b) :
    W2 m hx c (Proc.devRef .tc b) = W1 m c (Proc.devRef .tc b) := by
  unfold W2; exact Pipeline.withArrays_of_ne spec0 c _ _ b hb
abbrev U2 (c : Dev nD) (b : Ref sig .tc) : Buf (Elt F) ((c : Thread nD τ).loc b) := W2 m hx c (Proc.devRef .tc b)
theorem hF0 (c : Dev nD) (w : Fin (cfgR0 (U1 m)).W) :
    (datR0 (U1 m) (hyps0 m hx) c).arrAt w (cfgR0 (U1 m)).N = U2 m hx c (Pipeline.arrRef spec0 w) :=
  (W2_arr m hx c w).symm
theorem hrest0 (c : Dev nD) : ∀ b, b ∉ Finset.univ.image (Pipeline.arrRef spec0) → U2 m hx c b = U1 m c b :=
  fun b hb => W2_of_ne m hx c b fun w e => hb (Finset.mem_image.mpr ⟨w, Finset.mem_univ _, e⟩)
theorem flat_W2 (c : Dev nD) : W2 m hx c (Proc.devRef .tc main_v1) = W1 m c (Proc.devRef .tc main_v1) :=
  (W2_of_ne m hx c main_v1 (by decide)).trans (flat_W1 m hx c)

def W3 (c : Dev nD) : Valuation τ sig (Elt F) := StableHlo.after hostOps1 (W2 m hx c)
theorem W3_of (c : Dev nD) (r : Ref sig .tc) (h : r ∉ hostOps1_W) : W3 m hx c (Proc.devRef .tc r) = W2 m hx c (Proc.devRef .tc r) :=
  StableHlo.after_of_writes_sub hostOps1 _ hostOps1_writes h
abbrev U3 (c : Dev nD) (b : Ref sig .tc) : Buf (Elt F) ((c : Thread nD τ).loc b) := W3 m hx c (Proc.devRef .tc b)
theorem flat_W3 (c : Dev nD) : W3 m hx c (Proc.devRef .tc main_v1) = W1 m c (Proc.devRef .tc main_v1) :=
  (W3_of m hx c main_v1 (by decide)).trans (flat_W2 m hx c)

theorem tbl_eq1 : W3 m hx (0 : Dev nD) (Proc.devRef .tc main_v5) = extractStridedSlice S32768 ![32768] (W1 m (0 : Dev nD) (Proc.devRef .tc main_v1)) slices_S262144_S32768_32768 := by
  rw [← flat_W2 m hx (0 : Dev nD)]; unfold W3; after_results <;> rfl

theorem tbl_lt1 : ∀ p : S32768.Idx, BitVec.toNat (tbMR1.view.read (Elt F) (tblR1 (U3 m hx) 0) p) < 50257 := by
  intro p
  show BitVec.toNat (W3 m hx (0 : Dev nD) (Proc.devRef .tc main_v5) p) < 50257
  rw [tbl_eq1 m hx]; unfold extractStridedSlice; exact flat_lt m hx 0 _
theorem hyps1 : HypsR1 (U3 m hx) := hyps_of_ltR1 _ (tbl_lt1 m hx)

def W4 (c : Dev nD) : Valuation τ sig (Elt F) :=
  Pipeline.withArrays spec1 c (W3 m hx c) fun w => (datR1 (U3 m hx) (hyps1 m hx) c).arrAt w (cfgR1 (U3 m hx)).N
theorem W4_arr (c : Dev nD) (w : Fin (cfgR1 (U3 m hx)).W) :
    W4 m hx c (Proc.devRef .tc (Pipeline.arrRef spec1 w)) = (datR1 (U3 m hx) (hyps1 m hx) c).arrAt w (cfgR1 (U3 m hx)).N := by
  unfold W4; exact Pipeline.withArrays_arr spec1 winFacts1.arr_inj c _ _ w
theorem W4_of_ne (c : Dev nD) (b : Ref sig .tc) (hb : ∀ w, Pipeline.arrRef spec1 w ≠ b) :
    W4 m hx c (Proc.devRef .tc b) = W3 m hx c (Proc.devRef .tc b) := by
  unfold W4; exact Pipeline.withArrays_of_ne spec1 c _ _ b hb
abbrev U4 (c : Dev nD) (b : Ref sig .tc) : Buf (Elt F) ((c : Thread nD τ).loc b) := W4 m hx c (Proc.devRef .tc b)
theorem hF1 (c : Dev nD) (w : Fin (cfgR1 (U3 m hx)).W) :
    (datR1 (U3 m hx) (hyps1 m hx) c).arrAt w (cfgR1 (U3 m hx)).N = U4 m hx c (Pipeline.arrRef spec1 w) :=
  (W4_arr m hx c w).symm
theorem hrest1 (c : Dev nD) : ∀ b, b ∉ Finset.univ.image (Pipeline.arrRef spec1) → U4 m hx c b = U3 m hx c b :=
  fun b hb => W4_of_ne m hx c b fun w e => hb (Finset.mem_image.mpr ⟨w, Finset.mem_univ _, e⟩)
theorem flat_W4 (c : Dev nD) : W4 m hx c (Proc.devRef .tc main_v1) = W1 m c (Proc.devRef .tc main_v1) :=
  (W4_of_ne m hx c main_v1 (by decide)).trans (flat_W3 m hx c)

def W5 (c : Dev nD) : Valuation τ sig (Elt F) := StableHlo.after hostOps2 (W4 m hx c)
theorem W5_of (c : Dev nD) (r : Ref sig .tc) (h : r ∉ hostOps2_W) : W5 m hx c (Proc.devRef .tc r) = W4 m hx c (Proc.devRef .tc r) :=
  StableHlo.after_of_writes_sub hostOps2 _ hostOps2_writes h
abbrev U5 (c : Dev nD) (b : Ref sig .tc) : Buf (Elt F) ((c : Thread nD τ).loc b) := W5 m hx c (Proc.devRef .tc b)
theorem flat_W5 (c : Dev nD) : W5 m hx c (Proc.devRef .tc main_v1) = W1 m c (Proc.devRef .tc main_v1) :=
  (W5_of m hx c main_v1 (by decide)).trans (flat_W4 m hx c)

theorem tbl_eq2 : W5 m hx (0 : Dev nD) (Proc.devRef .tc main_v7) = extractStridedSlice S32768 ![65536] (W1 m (0 : Dev nD) (Proc.devRef .tc main_v1)) slices_S262144_S32768_65536 := by
  rw [← flat_W4 m hx (0 : Dev nD)]; unfold W5; after_results <;> rfl

theorem tbl_lt2 : ∀ p : S32768.Idx, BitVec.toNat (tbMR2.view.read (Elt F) (tblR2 (U5 m hx) 0) p) < 50257 := by
  intro p
  show BitVec.toNat (W5 m hx (0 : Dev nD) (Proc.devRef .tc main_v7) p) < 50257
  rw [tbl_eq2 m hx]; unfold extractStridedSlice; exact flat_lt m hx 0 _
theorem hyps2 : HypsR2 (U5 m hx) := hyps_of_ltR2 _ (tbl_lt2 m hx)

def W6 (c : Dev nD) : Valuation τ sig (Elt F) :=
  Pipeline.withArrays spec2 c (W5 m hx c) fun w => (datR2 (U5 m hx) (hyps2 m hx) c).arrAt w (cfgR2 (U5 m hx)).N
theorem W6_arr (c : Dev nD) (w : Fin (cfgR2 (U5 m hx)).W) :
    W6 m hx c (Proc.devRef .tc (Pipeline.arrRef spec2 w)) = (datR2 (U5 m hx) (hyps2 m hx) c).arrAt w (cfgR2 (U5 m hx)).N := by
  unfold W6; exact Pipeline.withArrays_arr spec2 winFacts2.arr_inj c _ _ w
theorem W6_of_ne (c : Dev nD) (b : Ref sig .tc) (hb : ∀ w, Pipeline.arrRef spec2 w ≠ b) :
    W6 m hx c (Proc.devRef .tc b) = W5 m hx c (Proc.devRef .tc b) := by
  unfold W6; exact Pipeline.withArrays_of_ne spec2 c _ _ b hb
abbrev U6 (c : Dev nD) (b : Ref sig .tc) : Buf (Elt F) ((c : Thread nD τ).loc b) := W6 m hx c (Proc.devRef .tc b)
theorem hF2 (c : Dev nD) (w : Fin (cfgR2 (U5 m hx)).W) :
    (datR2 (U5 m hx) (hyps2 m hx) c).arrAt w (cfgR2 (U5 m hx)).N = U6 m hx c (Pipeline.arrRef spec2 w) :=
  (W6_arr m hx c w).symm
theorem hrest2 (c : Dev nD) : ∀ b, b ∉ Finset.univ.image (Pipeline.arrRef spec2) → U6 m hx c b = U5 m hx c b :=
  fun b hb => W6_of_ne m hx c b fun w e => hb (Finset.mem_image.mpr ⟨w, Finset.mem_univ _, e⟩)
theorem flat_W6 (c : Dev nD) : W6 m hx c (Proc.devRef .tc main_v1) = W1 m c (Proc.devRef .tc main_v1) :=
  (W6_of_ne m hx c main_v1 (by decide)).trans (flat_W5 m hx c)

def W7 (c : Dev nD) : Valuation τ sig (Elt F) := StableHlo.after hostOps3 (W6 m hx c)
theorem W7_of (c : Dev nD) (r : Ref sig .tc) (h : r ∉ hostOps3_W) : W7 m hx c (Proc.devRef .tc r) = W6 m hx c (Proc.devRef .tc r) :=
  StableHlo.after_of_writes_sub hostOps3 _ hostOps3_writes h
abbrev U7 (c : Dev nD) (b : Ref sig .tc) : Buf (Elt F) ((c : Thread nD τ).loc b) := W7 m hx c (Proc.devRef .tc b)
theorem flat_W7 (c : Dev nD) : W7 m hx c (Proc.devRef .tc main_v1) = W1 m c (Proc.devRef .tc main_v1) :=
  (W7_of m hx c main_v1 (by decide)).trans (flat_W6 m hx c)

theorem tbl_eq3 : W7 m hx (0 : Dev nD) (Proc.devRef .tc main_v9) = extractStridedSlice S32768 ![98304] (W1 m (0 : Dev nD) (Proc.devRef .tc main_v1)) slices_S262144_S32768_98304 := by
  rw [← flat_W6 m hx (0 : Dev nD)]; unfold W7; after_results <;> rfl

theorem tbl_lt3 : ∀ p : S32768.Idx, BitVec.toNat (tbMR3.view.read (Elt F) (tblR3 (U7 m hx) 0) p) < 50257 := by
  intro p
  show BitVec.toNat (W7 m hx (0 : Dev nD) (Proc.devRef .tc main_v9) p) < 50257
  rw [tbl_eq3 m hx]; unfold extractStridedSlice; exact flat_lt m hx 0 _
theorem hyps3 : HypsR3 (U7 m hx) := hyps_of_ltR3 _ (tbl_lt3 m hx)

def W8 (c : Dev nD) : Valuation τ sig (Elt F) :=
  Pipeline.withArrays spec3 c (W7 m hx c) fun w => (datR3 (U7 m hx) (hyps3 m hx) c).arrAt w (cfgR3 (U7 m hx)).N
theorem W8_arr (c : Dev nD) (w : Fin (cfgR3 (U7 m hx)).W) :
    W8 m hx c (Proc.devRef .tc (Pipeline.arrRef spec3 w)) = (datR3 (U7 m hx) (hyps3 m hx) c).arrAt w (cfgR3 (U7 m hx)).N := by
  unfold W8; exact Pipeline.withArrays_arr spec3 winFacts3.arr_inj c _ _ w
theorem W8_of_ne (c : Dev nD) (b : Ref sig .tc) (hb : ∀ w, Pipeline.arrRef spec3 w ≠ b) :
    W8 m hx c (Proc.devRef .tc b) = W7 m hx c (Proc.devRef .tc b) := by
  unfold W8; exact Pipeline.withArrays_of_ne spec3 c _ _ b hb
abbrev U8 (c : Dev nD) (b : Ref sig .tc) : Buf (Elt F) ((c : Thread nD τ).loc b) := W8 m hx c (Proc.devRef .tc b)
theorem hF3 (c : Dev nD) (w : Fin (cfgR3 (U7 m hx)).W) :
    (datR3 (U7 m hx) (hyps3 m hx) c).arrAt w (cfgR3 (U7 m hx)).N = U8 m hx c (Pipeline.arrRef spec3 w) :=
  (W8_arr m hx c w).symm
theorem hrest3 (c : Dev nD) : ∀ b, b ∉ Finset.univ.image (Pipeline.arrRef spec3) → U8 m hx c b = U7 m hx c b :=
  fun b hb => W8_of_ne m hx c b fun w e => hb (Finset.mem_image.mpr ⟨w, Finset.mem_univ _, e⟩)
theorem flat_W8 (c : Dev nD) : W8 m hx c (Proc.devRef .tc main_v1) = W1 m c (Proc.devRef .tc main_v1) :=
  (W8_of_ne m hx c main_v1 (by decide)).trans (flat_W7 m hx c)

def W9 (c : Dev nD) : Valuation τ sig (Elt F) := StableHlo.after hostOps4 (W8 m hx c)
theorem W9_of (c : Dev nD) (r : Ref sig .tc) (h : r ∉ hostOps4_W) : W9 m hx c (Proc.devRef .tc r) = W8 m hx c (Proc.devRef .tc r) :=
  StableHlo.after_of_writes_sub hostOps4 _ hostOps4_writes h
abbrev U9 (c : Dev nD) (b : Ref sig .tc) : Buf (Elt F) ((c : Thread nD τ).loc b) := W9 m hx c (Proc.devRef .tc b)
theorem flat_W9 (c : Dev nD) : W9 m hx c (Proc.devRef .tc main_v1) = W1 m c (Proc.devRef .tc main_v1) :=
  (W9_of m hx c main_v1 (by decide)).trans (flat_W8 m hx c)

theorem tbl_eq4 : W9 m hx (0 : Dev nD) (Proc.devRef .tc main_v11) = extractStridedSlice S32768 ![131072] (W1 m (0 : Dev nD) (Proc.devRef .tc main_v1)) slices_S262144_S32768_131072 := by
  rw [← flat_W8 m hx (0 : Dev nD)]; unfold W9; after_results <;> rfl

theorem tbl_lt4 : ∀ p : S32768.Idx, BitVec.toNat (tbMR4.view.read (Elt F) (tblR4 (U9 m hx) 0) p) < 50257 := by
  intro p
  show BitVec.toNat (W9 m hx (0 : Dev nD) (Proc.devRef .tc main_v11) p) < 50257
  rw [tbl_eq4 m hx]; unfold extractStridedSlice; exact flat_lt m hx 0 _
theorem hyps4 : HypsR4 (U9 m hx) := hyps_of_ltR4 _ (tbl_lt4 m hx)

def W10 (c : Dev nD) : Valuation τ sig (Elt F) :=
  Pipeline.withArrays spec4 c (W9 m hx c) fun w => (datR4 (U9 m hx) (hyps4 m hx) c).arrAt w (cfgR4 (U9 m hx)).N
theorem W10_arr (c : Dev nD) (w : Fin (cfgR4 (U9 m hx)).W) :
    W10 m hx c (Proc.devRef .tc (Pipeline.arrRef spec4 w)) = (datR4 (U9 m hx) (hyps4 m hx) c).arrAt w (cfgR4 (U9 m hx)).N := by
  unfold W10; exact Pipeline.withArrays_arr spec4 winFacts4.arr_inj c _ _ w
theorem W10_of_ne (c : Dev nD) (b : Ref sig .tc) (hb : ∀ w, Pipeline.arrRef spec4 w ≠ b) :
    W10 m hx c (Proc.devRef .tc b) = W9 m hx c (Proc.devRef .tc b) := by
  unfold W10; exact Pipeline.withArrays_of_ne spec4 c _ _ b hb
abbrev U10 (c : Dev nD) (b : Ref sig .tc) : Buf (Elt F) ((c : Thread nD τ).loc b) := W10 m hx c (Proc.devRef .tc b)
theorem hF4 (c : Dev nD) (w : Fin (cfgR4 (U9 m hx)).W) :
    (datR4 (U9 m hx) (hyps4 m hx) c).arrAt w (cfgR4 (U9 m hx)).N = U10 m hx c (Pipeline.arrRef spec4 w) :=
  (W10_arr m hx c w).symm
theorem hrest4 (c : Dev nD) : ∀ b, b ∉ Finset.univ.image (Pipeline.arrRef spec4) → U10 m hx c b = U9 m hx c b :=
  fun b hb => W10_of_ne m hx c b fun w e => hb (Finset.mem_image.mpr ⟨w, Finset.mem_univ _, e⟩)
theorem flat_W10 (c : Dev nD) : W10 m hx c (Proc.devRef .tc main_v1) = W1 m c (Proc.devRef .tc main_v1) :=
  (W10_of_ne m hx c main_v1 (by decide)).trans (flat_W9 m hx c)

def W11 (c : Dev nD) : Valuation τ sig (Elt F) := StableHlo.after hostOps5 (W10 m hx c)
theorem W11_of (c : Dev nD) (r : Ref sig .tc) (h : r ∉ hostOps5_W) : W11 m hx c (Proc.devRef .tc r) = W10 m hx c (Proc.devRef .tc r) :=
  StableHlo.after_of_writes_sub hostOps5 _ hostOps5_writes h
abbrev U11 (c : Dev nD) (b : Ref sig .tc) : Buf (Elt F) ((c : Thread nD τ).loc b) := W11 m hx c (Proc.devRef .tc b)
theorem flat_W11 (c : Dev nD) : W11 m hx c (Proc.devRef .tc main_v1) = W1 m c (Proc.devRef .tc main_v1) :=
  (W11_of m hx c main_v1 (by decide)).trans (flat_W10 m hx c)

theorem tbl_eq5 : W11 m hx (0 : Dev nD) (Proc.devRef .tc main_v13) = extractStridedSlice S32768 ![163840] (W1 m (0 : Dev nD) (Proc.devRef .tc main_v1)) slices_S262144_S32768_163840 := by
  rw [← flat_W10 m hx (0 : Dev nD)]; unfold W11; after_results <;> rfl

theorem tbl_lt5 : ∀ p : S32768.Idx, BitVec.toNat (tbMR5.view.read (Elt F) (tblR5 (U11 m hx) 0) p) < 50257 := by
  intro p
  show BitVec.toNat (W11 m hx (0 : Dev nD) (Proc.devRef .tc main_v13) p) < 50257
  rw [tbl_eq5 m hx]; unfold extractStridedSlice; exact flat_lt m hx 0 _
theorem hyps5 : HypsR5 (U11 m hx) := hyps_of_ltR5 _ (tbl_lt5 m hx)

def W12 (c : Dev nD) : Valuation τ sig (Elt F) :=
  Pipeline.withArrays spec5 c (W11 m hx c) fun w => (datR5 (U11 m hx) (hyps5 m hx) c).arrAt w (cfgR5 (U11 m hx)).N
theorem W12_arr (c : Dev nD) (w : Fin (cfgR5 (U11 m hx)).W) :
    W12 m hx c (Proc.devRef .tc (Pipeline.arrRef spec5 w)) = (datR5 (U11 m hx) (hyps5 m hx) c).arrAt w (cfgR5 (U11 m hx)).N := by
  unfold W12; exact Pipeline.withArrays_arr spec5 winFacts5.arr_inj c _ _ w
theorem W12_of_ne (c : Dev nD) (b : Ref sig .tc) (hb : ∀ w, Pipeline.arrRef spec5 w ≠ b) :
    W12 m hx c (Proc.devRef .tc b) = W11 m hx c (Proc.devRef .tc b) := by
  unfold W12; exact Pipeline.withArrays_of_ne spec5 c _ _ b hb
abbrev U12 (c : Dev nD) (b : Ref sig .tc) : Buf (Elt F) ((c : Thread nD τ).loc b) := W12 m hx c (Proc.devRef .tc b)
theorem hF5 (c : Dev nD) (w : Fin (cfgR5 (U11 m hx)).W) :
    (datR5 (U11 m hx) (hyps5 m hx) c).arrAt w (cfgR5 (U11 m hx)).N = U12 m hx c (Pipeline.arrRef spec5 w) :=
  (W12_arr m hx c w).symm
theorem hrest5 (c : Dev nD) : ∀ b, b ∉ Finset.univ.image (Pipeline.arrRef spec5) → U12 m hx c b = U11 m hx c b :=
  fun b hb => W12_of_ne m hx c b fun w e => hb (Finset.mem_image.mpr ⟨w, Finset.mem_univ _, e⟩)
theorem flat_W12 (c : Dev nD) : W12 m hx c (Proc.devRef .tc main_v1) = W1 m c (Proc.devRef .tc main_v1) :=
  (W12_of_ne m hx c main_v1 (by decide)).trans (flat_W11 m hx c)

def W13 (c : Dev nD) : Valuation τ sig (Elt F) := StableHlo.after hostOps6 (W12 m hx c)
theorem W13_of (c : Dev nD) (r : Ref sig .tc) (h : r ∉ hostOps6_W) : W13 m hx c (Proc.devRef .tc r) = W12 m hx c (Proc.devRef .tc r) :=
  StableHlo.after_of_writes_sub hostOps6 _ hostOps6_writes h
abbrev U13 (c : Dev nD) (b : Ref sig .tc) : Buf (Elt F) ((c : Thread nD τ).loc b) := W13 m hx c (Proc.devRef .tc b)
theorem flat_W13 (c : Dev nD) : W13 m hx c (Proc.devRef .tc main_v1) = W1 m c (Proc.devRef .tc main_v1) :=
  (W13_of m hx c main_v1 (by decide)).trans (flat_W12 m hx c)

theorem tbl_eq6 : W13 m hx (0 : Dev nD) (Proc.devRef .tc main_v15) = extractStridedSlice S32768 ![196608] (W1 m (0 : Dev nD) (Proc.devRef .tc main_v1)) slices_S262144_S32768_196608 := by
  rw [← flat_W12 m hx (0 : Dev nD)]; unfold W13; after_results <;> rfl

theorem tbl_lt6 : ∀ p : S32768.Idx, BitVec.toNat (tbMR6.view.read (Elt F) (tblR6 (U13 m hx) 0) p) < 50257 := by
  intro p
  show BitVec.toNat (W13 m hx (0 : Dev nD) (Proc.devRef .tc main_v15) p) < 50257
  rw [tbl_eq6 m hx]; unfold extractStridedSlice; exact flat_lt m hx 0 _
theorem hyps6 : HypsR6 (U13 m hx) := hyps_of_ltR6 _ (tbl_lt6 m hx)

def W14 (c : Dev nD) : Valuation τ sig (Elt F) :=
  Pipeline.withArrays spec6 c (W13 m hx c) fun w => (datR6 (U13 m hx) (hyps6 m hx) c).arrAt w (cfgR6 (U13 m hx)).N
theorem W14_arr (c : Dev nD) (w : Fin (cfgR6 (U13 m hx)).W) :
    W14 m hx c (Proc.devRef .tc (Pipeline.arrRef spec6 w)) = (datR6 (U13 m hx) (hyps6 m hx) c).arrAt w (cfgR6 (U13 m hx)).N := by
  unfold W14; exact Pipeline.withArrays_arr spec6 winFacts6.arr_inj c _ _ w
theorem W14_of_ne (c : Dev nD) (b : Ref sig .tc) (hb : ∀ w, Pipeline.arrRef spec6 w ≠ b) :
    W14 m hx c (Proc.devRef .tc b) = W13 m hx c (Proc.devRef .tc b) := by
  unfold W14; exact Pipeline.withArrays_of_ne spec6 c _ _ b hb
abbrev U14 (c : Dev nD) (b : Ref sig .tc) : Buf (Elt F) ((c : Thread nD τ).loc b) := W14 m hx c (Proc.devRef .tc b)
theorem hF6 (c : Dev nD) (w : Fin (cfgR6 (U13 m hx)).W) :
    (datR6 (U13 m hx) (hyps6 m hx) c).arrAt w (cfgR6 (U13 m hx)).N = U14 m hx c (Pipeline.arrRef spec6 w) :=
  (W14_arr m hx c w).symm
theorem hrest6 (c : Dev nD) : ∀ b, b ∉ Finset.univ.image (Pipeline.arrRef spec6) → U14 m hx c b = U13 m hx c b :=
  fun b hb => W14_of_ne m hx c b fun w e => hb (Finset.mem_image.mpr ⟨w, Finset.mem_univ _, e⟩)
theorem flat_W14 (c : Dev nD) : W14 m hx c (Proc.devRef .tc main_v1) = W1 m c (Proc.devRef .tc main_v1) :=
  (W14_of_ne m hx c main_v1 (by decide)).trans (flat_W13 m hx c)

def W15 (c : Dev nD) : Valuation τ sig (Elt F) := StableHlo.after hostOps7 (W14 m hx c)
theorem W15_of (c : Dev nD) (r : Ref sig .tc) (h : r ∉ hostOps7_W) : W15 m hx c (Proc.devRef .tc r) = W14 m hx c (Proc.devRef .tc r) :=
  StableHlo.after_of_writes_sub hostOps7 _ hostOps7_writes h
abbrev U15 (c : Dev nD) (b : Ref sig .tc) : Buf (Elt F) ((c : Thread nD τ).loc b) := W15 m hx c (Proc.devRef .tc b)
theorem flat_W15 (c : Dev nD) : W15 m hx c (Proc.devRef .tc main_v1) = W1 m c (Proc.devRef .tc main_v1) :=
  (W15_of m hx c main_v1 (by decide)).trans (flat_W14 m hx c)

theorem tbl_eq7 : W15 m hx (0 : Dev nD) (Proc.devRef .tc main_v17) = extractStridedSlice S32768 ![229376] (W1 m (0 : Dev nD) (Proc.devRef .tc main_v1)) slices_S262144_S32768_229376 := by
  rw [← flat_W14 m hx (0 : Dev nD)]; unfold W15; after_results <;> rfl

theorem tbl_lt7 : ∀ p : S32768.Idx, BitVec.toNat (tbMR7.view.read (Elt F) (tblR7 (U15 m hx) 0) p) < 50257 := by
  intro p
  show BitVec.toNat (W15 m hx (0 : Dev nD) (Proc.devRef .tc main_v17) p) < 50257
  rw [tbl_eq7 m hx]; unfold extractStridedSlice; exact flat_lt m hx 0 _
theorem hyps7 : HypsR7 (U15 m hx) := hyps_of_ltR7 _ (tbl_lt7 m hx)

def W16 (c : Dev nD) : Valuation τ sig (Elt F) :=
  Pipeline.withArrays spec7 c (W15 m hx c) fun w => (datR7 (U15 m hx) (hyps7 m hx) c).arrAt w (cfgR7 (U15 m hx)).N
theorem W16_arr (c : Dev nD) (w : Fin (cfgR7 (U15 m hx)).W) :
    W16 m hx c (Proc.devRef .tc (Pipeline.arrRef spec7 w)) = (datR7 (U15 m hx) (hyps7 m hx) c).arrAt w (cfgR7 (U15 m hx)).N := by
  unfold W16; exact Pipeline.withArrays_arr spec7 winFacts7.arr_inj c _ _ w
theorem W16_of_ne (c : Dev nD) (b : Ref sig .tc) (hb : ∀ w, Pipeline.arrRef spec7 w ≠ b) :
    W16 m hx c (Proc.devRef .tc b) = W15 m hx c (Proc.devRef .tc b) := by
  unfold W16; exact Pipeline.withArrays_of_ne spec7 c _ _ b hb
abbrev U16 (c : Dev nD) (b : Ref sig .tc) : Buf (Elt F) ((c : Thread nD τ).loc b) := W16 m hx c (Proc.devRef .tc b)
theorem hF7 (c : Dev nD) (w : Fin (cfgR7 (U15 m hx)).W) :
    (datR7 (U15 m hx) (hyps7 m hx) c).arrAt w (cfgR7 (U15 m hx)).N = U16 m hx c (Pipeline.arrRef spec7 w) :=
  (W16_arr m hx c w).symm
theorem hrest7 (c : Dev nD) : ∀ b, b ∉ Finset.univ.image (Pipeline.arrRef spec7) → U16 m hx c b = U15 m hx c b :=
  fun b hb => W16_of_ne m hx c b fun w e => hb (Finset.mem_image.mpr ⟨w, Finset.mem_univ _, e⟩)
theorem flat_W16 (c : Dev nD) : W16 m hx c (Proc.devRef .tc main_v1) = W1 m c (Proc.devRef .tc main_v1) :=
  (W16_of_ne m hx c main_v1 (by decide)).trans (flat_W15 m hx c)

def W17 (c : Dev nD) : Valuation τ sig (Elt F) := StableHlo.after hostOps8 (W16 m hx c)
theorem W17_of (c : Dev nD) (r : Ref sig .tc) (h : r ∉ hostOps8_W) : W17 m hx c (Proc.devRef .tc r) = W16 m hx c (Proc.devRef .tc r) :=
  StableHlo.after_of_writes_sub hostOps8 _ hostOps8_writes h

/-- The result: the regions' outputs stacked along the rows, reshaped to 64 × 4096 × 128. -/
theorem res_eq (c : Dev nD) :
    W17 m hx c (Proc.devRef .tc main_v20) = (fun i => shapeCast S64x4096x128
      (concatenate S262144x128 0 [⟨S32768x128, W16 m hx c (Proc.devRef .tc main_v4)⟩, ⟨S32768x128, W16 m hx c (Proc.devRef .tc main_v6)⟩, ⟨S32768x128, W16 m hx c (Proc.devRef .tc main_v8)⟩, ⟨S32768x128, W16 m hx c (Proc.devRef .tc main_v10)⟩, ⟨S32768x128, W16 m hx c (Proc.devRef .tc main_v12)⟩, ⟨S32768x128, W16 m hx c (Proc.devRef .tc main_v14)⟩, ⟨S32768x128, W16 m hx c (Proc.devRef .tc main_v16)⟩, ⟨S32768x128, W16 m hx c (Proc.devRef .tc main_v18)⟩]
        concatenates_S32768x128_S32768x128_S32768x128_S32768x128_S32768x128_S32768x128_S32768x128_S32768x128_S262144x128_d0)
      shapeCasts_S262144x128_S64x4096x128 i) := by
  unfold W17; after_results <;> rfl

/-- A buffer no stage writes holds its launch contents at the end. -/
theorem keep_W17 (c : Dev nD) (r : Ref sig .tc) (h1 : r ∉ hostOps0_W) (h2 : ∀ w, Pipeline.arrRef spec0 w ≠ r) (h3 : r ∉ hostOps1_W) (h4 : ∀ w, Pipeline.arrRef spec1 w ≠ r) (h5 : r ∉ hostOps2_W) (h6 : ∀ w, Pipeline.arrRef spec2 w ≠ r) (h7 : r ∉ hostOps3_W) (h8 : ∀ w, Pipeline.arrRef spec3 w ≠ r) (h9 : r ∉ hostOps4_W) (h10 : ∀ w, Pipeline.arrRef spec4 w ≠ r) (h11 : r ∉ hostOps5_W) (h12 : ∀ w, Pipeline.arrRef spec5 w ≠ r) (h13 : r ∉ hostOps6_W) (h14 : ∀ w, Pipeline.arrRef spec6 w ≠ r) (h15 : r ∉ hostOps7_W) (h16 : ∀ w, Pipeline.arrRef spec7 w ≠ r) (h17 : r ∉ hostOps8_W) :
    W17 m hx c (Proc.devRef .tc r) = m ((c : Thread nD τ).loc r) := by
  rw [W17_of m hx c r h17, W16_of_ne m hx c r h16, W15_of m hx c r h15, W14_of_ne m hx c r h14, W13_of m hx c r h13, W12_of_ne m hx c r h12, W11_of m hx c r h11, W10_of_ne m hx c r h10, W9_of m hx c r h9, W8_of_ne m hx c r h8, W7_of m hx c r h7, W6_of_ne m hx c r h6, W5_of m hx c r h5, W4_of_ne m hx c r h4, W3_of m hx c r h3, W2_of_ne m hx c r h2, W1_of m c r h1]
theorem keep_arg0_W17 (c : Dev nD) : W17 m hx c (Proc.devRef .tc main_arg0) = m ((c : Thread nD τ).loc main_arg0) :=
  keep_W17 m hx c main_arg0 (by decide) (by decide) (by decide) (by decide) (by decide) (by decide) (by decide) (by decide) (by decide) (by decide) (by decide) (by decide) (by decide) (by decide) (by decide) (by decide) (by decide)
theorem keep_arg1_W17 (c : Dev nD) : W17 m hx c (Proc.devRef .tc main_arg1) = m ((c : Thread nD τ).loc main_arg1) :=
  keep_W17 m hx c main_arg1 (by decide) (by decide) (by decide) (by decide) (by decide) (by decide) (by decide) (by decide) (by decide) (by decide) (by decide) (by decide) (by decide) (by decide) (by decide) (by decide) (by decide)
theorem keep_arg2_W17 (c : Dev nD) : W17 m hx c (Proc.devRef .tc main_arg2) = m ((c : Thread nD τ).loc main_arg2) :=
  keep_W17 m hx c main_arg2 (by decide) (by decide) (by decide) (by decide) (by decide) (by decide) (by decide) (by decide) (by decide) (by decide) (by decide) (by decide) (by decide) (by decide) (by decide) (by decide) (by decide)

/-- The gather table and the bias row are written by the first stretch only. -/
theorem keep_v0_W1 (c : Dev nD) : W1 m c (Proc.devRef .tc main_v0) = W1 m c (Proc.devRef .tc main_v0) := rfl
theorem keep_v0_W3 (c : Dev nD) : W3 m hx c (Proc.devRef .tc main_v0) = W1 m c (Proc.devRef .tc main_v0) := by
  rw [W3_of m hx c main_v0 (by decide), W2_of_ne m hx c main_v0 (by decide)]
theorem keep_v0_W5 (c : Dev nD) : W5 m hx c (Proc.devRef .tc main_v0) = W1 m c (Proc.devRef .tc main_v0) := by
  rw [W5_of m hx c main_v0 (by decide), W4_of_ne m hx c main_v0 (by decide), keep_v0_W3 m hx c]
theorem keep_v0_W7 (c : Dev nD) : W7 m hx c (Proc.devRef .tc main_v0) = W1 m c (Proc.devRef .tc main_v0) := by
  rw [W7_of m hx c main_v0 (by decide), W6_of_ne m hx c main_v0 (by decide), keep_v0_W5 m hx c]
theorem keep_v0_W9 (c : Dev nD) : W9 m hx c (Proc.devRef .tc main_v0) = W1 m c (Proc.devRef .tc main_v0) := by
  rw [W9_of m hx c main_v0 (by decide), W8_of_ne m hx c main_v0 (by decide), keep_v0_W7 m hx c]
theorem keep_v0_W11 (c : Dev nD) : W11 m hx c (Proc.devRef .tc main_v0) = W1 m c (Proc.devRef .tc main_v0) := by
  rw [W11_of m hx c main_v0 (by decide), W10_of_ne m hx c main_v0 (by decide), keep_v0_W9 m hx c]
theorem keep_v0_W13 (c : Dev nD) : W13 m hx c (Proc.devRef .tc main_v0) = W1 m c (Proc.devRef .tc main_v0) := by
  rw [W13_of m hx c main_v0 (by decide), W12_of_ne m hx c main_v0 (by decide), keep_v0_W11 m hx c]
theorem keep_v0_W15 (c : Dev nD) : W15 m hx c (Proc.devRef .tc main_v0) = W1 m c (Proc.devRef .tc main_v0) := by
  rw [W15_of m hx c main_v0 (by decide), W14_of_ne m hx c main_v0 (by decide), keep_v0_W13 m hx c]
theorem keep_v2_W1 (c : Dev nD) : W1 m c (Proc.devRef .tc main_v2) = W1 m c (Proc.devRef .tc main_v2) := rfl
theorem keep_v2_W3 (c : Dev nD) : W3 m hx c (Proc.devRef .tc main_v2) = W1 m c (Proc.devRef .tc main_v2) :=
  (W3_of m hx c main_v2 (by decide)).trans ((W2_arr m hx c 0).trans (((datR0 (U1 m) (hyps0 m hx) c).arrAt_in 0 rfl _).trans
    ((A_eqR0 (U1 m) (hyps0 m hx) c 0).trans (keep_v2_W1 m hx c))))
theorem keep_v2_W5 (c : Dev nD) : W5 m hx c (Proc.devRef .tc main_v2) = W1 m c (Proc.devRef .tc main_v2) :=
  (W5_of m hx c main_v2 (by decide)).trans ((W4_arr m hx c 0).trans (((datR1 (U3 m hx) (hyps1 m hx) c).arrAt_in 0 rfl _).trans
    ((A_eqR1 (U3 m hx) (hyps1 m hx) c 0).trans (keep_v2_W3 m hx c))))
theorem keep_v2_W7 (c : Dev nD) : W7 m hx c (Proc.devRef .tc main_v2) = W1 m c (Proc.devRef .tc main_v2) :=
  (W7_of m hx c main_v2 (by decide)).trans ((W6_arr m hx c 0).trans (((datR2 (U5 m hx) (hyps2 m hx) c).arrAt_in 0 rfl _).trans
    ((A_eqR2 (U5 m hx) (hyps2 m hx) c 0).trans (keep_v2_W5 m hx c))))
theorem keep_v2_W9 (c : Dev nD) : W9 m hx c (Proc.devRef .tc main_v2) = W1 m c (Proc.devRef .tc main_v2) :=
  (W9_of m hx c main_v2 (by decide)).trans ((W8_arr m hx c 0).trans (((datR3 (U7 m hx) (hyps3 m hx) c).arrAt_in 0 rfl _).trans
    ((A_eqR3 (U7 m hx) (hyps3 m hx) c 0).trans (keep_v2_W7 m hx c))))
theorem keep_v2_W11 (c : Dev nD) : W11 m hx c (Proc.devRef .tc main_v2) = W1 m c (Proc.devRef .tc main_v2) :=
  (W11_of m hx c main_v2 (by decide)).trans ((W10_arr m hx c 0).trans (((datR4 (U9 m hx) (hyps4 m hx) c).arrAt_in 0 rfl _).trans
    ((A_eqR4 (U9 m hx) (hyps4 m hx) c 0).trans (keep_v2_W9 m hx c))))
theorem keep_v2_W13 (c : Dev nD) : W13 m hx c (Proc.devRef .tc main_v2) = W1 m c (Proc.devRef .tc main_v2) :=
  (W13_of m hx c main_v2 (by decide)).trans ((W12_arr m hx c 0).trans (((datR5 (U11 m hx) (hyps5 m hx) c).arrAt_in 0 rfl _).trans
    ((A_eqR5 (U11 m hx) (hyps5 m hx) c 0).trans (keep_v2_W11 m hx c))))
theorem keep_v2_W15 (c : Dev nD) : W15 m hx c (Proc.devRef .tc main_v2) = W1 m c (Proc.devRef .tc main_v2) :=
  (W15_of m hx c main_v2 (by decide)).trans ((W14_arr m hx c 0).trans (((datR6 (U13 m hx) (hyps6 m hx) c).arrAt_in 0 rfl _).trans
    ((A_eqR6 (U13 m hx) (hyps6 m hx) c 0).trans (keep_v2_W13 m hx c))))

/-- Region k's output array is rewritten by region k only. -/
theorem keep_out0_W16 (c : Dev nD) : W16 m hx c (Proc.devRef .tc main_v4) = W2 m hx c (Proc.devRef .tc main_v4) := by
  rw [W16_of_ne m hx c main_v4 (by decide), W15_of m hx c main_v4 (by decide), W14_of_ne m hx c main_v4 (by decide), W13_of m hx c main_v4 (by decide), W12_of_ne m hx c main_v4 (by decide), W11_of m hx c main_v4 (by decide), W10_of_ne m hx c main_v4 (by decide), W9_of m hx c main_v4 (by decide), W8_of_ne m hx c main_v4 (by decide), W7_of m hx c main_v4 (by decide), W6_of_ne m hx c main_v4 (by decide), W5_of m hx c main_v4 (by decide), W4_of_ne m hx c main_v4 (by decide), W3_of m hx c main_v4 (by decide)]
theorem keep_out1_W16 (c : Dev nD) : W16 m hx c (Proc.devRef .tc main_v6) = W4 m hx c (Proc.devRef .tc main_v6) := by
  rw [W16_of_ne m hx c main_v6 (by decide), W15_of m hx c main_v6 (by decide), W14_of_ne m hx c main_v6 (by decide), W13_of m hx c main_v6 (by decide), W12_of_ne m hx c main_v6 (by decide), W11_of m hx c main_v6 (by decide), W10_of_ne m hx c main_v6 (by decide), W9_of m hx c main_v6 (by decide), W8_of_ne m hx c main_v6 (by decide), W7_of m hx c main_v6 (by decide), W6_of_ne m hx c main_v6 (by decide), W5_of m hx c main_v6 (by decide)]
theorem keep_out2_W16 (c : Dev nD) : W16 m hx c (Proc.devRef .tc main_v8) = W6 m hx c (Proc.devRef .tc main_v8) := by
  rw [W16_of_ne m hx c main_v8 (by decide), W15_of m hx c main_v8 (by decide), W14_of_ne m hx c main_v8 (by decide), W13_of m hx c main_v8 (by decide), W12_of_ne m hx c main_v8 (by decide), W11_of m hx c main_v8 (by decide), W10_of_ne m hx c main_v8 (by decide), W9_of m hx c main_v8 (by decide), W8_of_ne m hx c main_v8 (by decide), W7_of m hx c main_v8 (by decide)]
theorem keep_out3_W16 (c : Dev nD) : W16 m hx c (Proc.devRef .tc main_v10) = W8 m hx c (Proc.devRef .tc main_v10) := by
  rw [W16_of_ne m hx c main_v10 (by decide), W15_of m hx c main_v10 (by decide), W14_of_ne m hx c main_v10 (by decide), W13_of m hx c main_v10 (by decide), W12_of_ne m hx c main_v10 (by decide), W11_of m hx c main_v10 (by decide), W10_of_ne m hx c main_v10 (by decide), W9_of m hx c main_v10 (by decide)]
theorem keep_out4_W16 (c : Dev nD) : W16 m hx c (Proc.devRef .tc main_v12) = W10 m hx c (Proc.devRef .tc main_v12) := by
  rw [W16_of_ne m hx c main_v12 (by decide), W15_of m hx c main_v12 (by decide), W14_of_ne m hx c main_v12 (by decide), W13_of m hx c main_v12 (by decide), W12_of_ne m hx c main_v12 (by decide), W11_of m hx c main_v12 (by decide)]
theorem keep_out5_W16 (c : Dev nD) : W16 m hx c (Proc.devRef .tc main_v14) = W12 m hx c (Proc.devRef .tc main_v14) := by
  rw [W16_of_ne m hx c main_v14 (by decide), W15_of m hx c main_v14 (by decide), W14_of_ne m hx c main_v14 (by decide), W13_of m hx c main_v14 (by decide)]
theorem keep_out6_W16 (c : Dev nD) : W16 m hx c (Proc.devRef .tc main_v16) = W14 m hx c (Proc.devRef .tc main_v16) := by
  rw [W16_of_ne m hx c main_v16 (by decide), W15_of m hx c main_v16 (by decide)]
theorem keep_out7_W16 (c : Dev nD) : W16 m hx c (Proc.devRef .tc main_v18) = W16 m hx c (Proc.devRef .tc main_v18) := rfl

end Fold

end Cert.KernelIdeal.Emb

end
-- ==== Proof.KernelIdeal.ArrVal0.lean ====
import proofs.«418142_j33036888441229_2_alg».proof.Proof.KernelIdeal.Reg0
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe
open Idealize.SL.Sem
open Idealize.ShloMosaic.Pipeline (Dat Cfg Window)

section
variable {F : FTy → Type} [FloatOps F] (c : Dev nD) (i : grid0.Coords) (xt : MBuf (F := F) c tbMR0) (fh : MBuf (F := F) c hbM) (h : OkR0 c i xt)
open Cert.Emb

set_option maxHeartbeats 400000 in
/-- The gathered tile at (r, j): entry j of the table's row named by token 8·i + r of the index table. -/
theorem gatherR0_apply (r : Fin 8) (j : Fin 128) :
    gatherR0 c i xt fh h (Idealize.ShloMosaic.ValueIdx.ix2 r j)
      = hbM.view.read (Elt F) fh (Idealize.ShloMosaic.ValueIdx.ix2 (Cert.Spec.colOf (tbMR0.view.read (Elt F) xt (Idealize.ShloMosaic.ValueIdx.ix1 (⟨(8 * (i 0).val + r.val) % 32768, Nat.mod_lt _ (by decide)⟩ : Fin 32768)))) j) := by
  have hi : (i 0).val < 4096 := (i 0).isLt
  unfold gatherR0
  match r with
  | ⟨0, _⟩ => exact gathered_read tbMR0.view hbM.view (k0_off1 i) (k0_off1_inb i) _ xt (i 0).val 0 (tokenOff_toNat _ 0 hi (by decide)) (k0_off2 _) (k0_off2_inb _ h.1) squeezes_S1x128_S128.numel_eq rfl rfl fh j
  | ⟨1, _⟩ => exact gathered_read tbMR0.view hbM.view (k0_off3 i) (k0_off3_inb i) _ xt (i 0).val 1 (tokenOff_toNat _ 1 hi (by decide)) (k0_off4 _) (k0_off4_inb _ h.2.1) squeezes_S1x128_S128.numel_eq rfl rfl fh j
  | ⟨2, _⟩ => exact gathered_read tbMR0.view hbM.view (k0_off5 i) (k0_off5_inb i) _ xt (i 0).val 2 (tokenOff_toNat _ 2 hi (by decide)) (k0_off6 _) (k0_off6_inb _ h.2.2.1) squeezes_S1x128_S128.numel_eq rfl rfl fh j
  | ⟨3, _⟩ => exact gathered_read tbMR0.view hbM.view (k0_off7 i) (k0_off7_inb i) _ xt (i 0).val 3 (tokenOff_toNat _ 3 hi (by decide)) (k0_off8 _) (k0_off8_inb _ h.2.2.2.1) squeezes_S1x128_S128.numel_eq rfl rfl fh j
  | ⟨4, _⟩ => exact gathered_read tbMR0.view hbM.view (k0_off9 i) (k0_off9_inb i) _ xt (i 0).val 4 (tokenOff_toNat _ 4 hi (by decide)) (k0_off10 _) (k0_off10_inb _ h.2.2.2.2.1) squeezes_S1x128_S128.numel_eq rfl rfl fh j
  | ⟨5, _⟩ => exact gathered_read tbMR0.view hbM.view (k0_off11 i) (k0_off11_inb i) _ xt (i 0).val 5 (tokenOff_toNat _ 5 hi (by decide)) (k0_off12 _) (k0_off12_inb _ h.2.2.2.2.2.1) squeezes_S1x128_S128.numel_eq rfl rfl fh j
  | ⟨6, _⟩ => exact gathered_read tbMR0.view hbM.view (k0_off13 i) (k0_off13_inb i) _ xt (i 0).val 6 (tokenOff_toNat _ 6 hi (by decide)) (k0_off14 _) (k0_off14_inb _ h.2.2.2.2.2.2.1) squeezes_S1x128_S128.numel_eq rfl rfl fh j
  | ⟨7, _⟩ => exact gathered_read tbMR0.view hbM.view (k0_off15 i) (k0_off15_inb i) _ xt (i 0).val 7 (tokenOff_toNat _ 7 hi (by decide)) (k0_off16 _) (k0_off16_inb _ h.2.2.2.2.2.2.2) squeezes_S1x128_S128.numel_eq rfl rfl fh j

end

abbrev outMR0 : Memref sig .tc .hbm S32768x128 .f32 := Memref.whole main_v4
abbrev biasMR0 : Memref sig .tc .hbm S1x128 .f32 := Memref.whole main_v2

/-- Point t of the one-axis grid has coordinate t. -/
theorem coordR0 (t : Fin grid0.N) : (grid0.coords t 0).val = t.val := by
  have hN : grid0.N = 4096 := by decide
  have ht : t.val < 4096 := hN ▸ t.isLt
  show t.val / grid0.stride 0 % 4096 = t.val
  rw [show grid0.stride 0 = 1 from by decide, Nat.div_one, Nat.mod_eq_of_lt ht]

theorem outIdxR0 (i : grid0.Coords) : cc0_transform_2 i 0 = (i 0).val ∧ cc0_transform_2 i 1 = 0 := by
  have hi : (i 0).val < 4096 := (i 0).isLt
  unfold cc0_transform_2
  refine ⟨?_, rfl⟩
  show (BitVec.ofNat 32 (i 0).val).toNat = (i 0).val
  rw [BitVec.toNat_ofNat]
  omega

theorem biasIdxR0 (i : grid0.Coords) : cc0_transform_1 i 0 = 0 ∧ cc0_transform_1 i 1 = 0 := ⟨rfl, rfl⟩

/-- The stored block at (r, j): the tile's entry plus the bias row's entry j. -/
theorem payApplyR0 (v121 : Vec Ideal S8x128 .f32) (v122 : Vec Ideal S1x128 .f32) (r : Fin 8) (j : Fin 128) :
    k0_pay1 v121 v122 (Idealize.ShloMosaic.ValueIdx.ix2 r j)
      = v121 (Idealize.ShloMosaic.ValueIdx.ix2 r j) + v122 (Idealize.ShloMosaic.ValueIdx.ix2 (0 : Fin 1) j) := by
  unfold k0_pay1
  refine (Idealize.ShloMosaic.ValueIdx.addf_apply _ _ _).trans ?_
  refine congrArg (fun z => v121 (Idealize.ShloMosaic.ValueIdx.ix2 r j) + z) ?_
  refine (broadcastTo_apply _ _ (Idealize.ShloMosaic.ValueIdx.ix2 r j) (Idealize.ShloMosaic.ValueIdx.ix2 (0 : Fin 1) j) (fun a => ?_)).trans ?_
  · match a with
    | ⟨0, _⟩ => rfl
    | ⟨1, _⟩ => rfl
  · rw [shapeCast_self]

section Region
variable (V : (c : Dev nD) → (b : Ref sig .tc) → Buf (Elt Ideal) ((c : Thread nD τ).loc b))

/-- Every point adds the same bias row. -/
theorem biasBlkR0 (c : Dev nD) (t : Fin (cfgR0 V).N) (j : Fin 128) :
    (iblkR0 V c 0 t : Vec Ideal S1x128 .f32) (Idealize.ShloMosaic.ValueIdx.ix2 (0 : Fin 1) j)
      = biasMR0.view.read (Elt Ideal) (V c main_v2) (Idealize.ShloMosaic.ValueIdx.ix2 (0 : Fin 1) j) := by
  unfold iblkR0
  show V c main_v2 ((((cfgR0 V).win 0).blk t).view.emb (Idealize.ShloMosaic.ValueIdx.ix2 (0 : Fin 1) j)) = V c main_v2 (Idealize.ShloMosaic.ValueIdx.ix2 (0 : Fin 1) j)
  refine congrArg (V c main_v2) (funext fun a => Fin.ext ?_)
  match a with
  | ⟨0, _⟩ => show cc0_transform_1 (grid0.coords t) 0 * 1 + 1 * 0 = 0; rw [(biasIdxR0 _).1]
  | ⟨1, _⟩ => show cc0_transform_1 (grid0.coords t) 1 * 128 + 1 * j.val = j.val; rw [(biasIdxR0 _).2]; omega

/-- What point t leaves at (r, j): entry j of the table's row named by token 8·t + r, plus the bias entry. -/
theorem outsAtApplyR0 (hH : HypsR0 V) (c : Dev nD) (t : Fin (cfgR0 V).N) (r : Fin 8) (j : Fin 128) :
    outsAtR0 V hH c t (Idealize.ShloMosaic.ValueIdx.ix2 r j)
      = hbM.view.read (Elt Ideal) (V c main_v0)
            (Idealize.ShloMosaic.ValueIdx.ix2 (Cert.Spec.colOf (tbMR0.view.read (Elt Ideal) (tblR0 V 0)
              (Idealize.ShloMosaic.ValueIdx.ix1 (⟨(8 * (grid0.coords t 0).val + r.val) % 32768, Nat.mod_lt _ (by decide)⟩ : Fin 32768)))) j)
        + biasMR0.view.read (Elt Ideal) (V c main_v2) (Idealize.ShloMosaic.ValueIdx.ix2 (0 : Fin 1) j) := by
  unfold outsAtR0
  refine (congrFun (outR0_eq c (grid0.coords t) (msR0_0 V t) (hsR0_0 V t) (msR0_1 V t) (hsR0_1 V t) (iblkR0 V c 0 t) (tblR0 V 0) (V c main_v0) (fsJR0 c) (hH c t)) (Idealize.ShloMosaic.ValueIdx.ix2 r j)).trans ?_
  refine (payApplyR0 _ _ r j).trans ?_
  exact congrArg₂ (· + ·)
    (gatherR0_apply c (grid0.coords t) (tblR0 V 0) (V c main_v0) (hH c t) r j)
    (biasBlkR0 V c t j)

/-- The region's output array as one function: entry (n, j) is table[ids[n], j] + bias[0, j]. -/
def arrGR0 (c : Dev nD) : S32768x128.Idx → Elt Ideal .f32 := fun i =>
  hbM.view.read (Elt Ideal) (V c main_v0)
      (Idealize.ShloMosaic.ValueIdx.ix2 (Cert.Spec.colOf (tbMR0.view.read (Elt Ideal) (tblR0 V 0) (Idealize.ShloMosaic.ValueIdx.ix1 (n := 32768) (i 0)))) (n1 := 128) (i 1))
    + biasMR0.view.read (Elt Ideal) (V c main_v2) (Idealize.ShloMosaic.ValueIdx.ix2 (0 : Fin 1) (n1 := 128) (i 1))

theorem indexR0 (t : Fin (cfgR0 V).N) :
    ((cfgR0 V).win 1).index t (0 : Fin 2) = t.val ∧ ((cfgR0 V).win 1).index t (1 : Fin 2) = 0 := by
  show cc0_transform_2 (grid0.coords t) 0 = t.val ∧ cc0_transform_2 (grid0.coords t) 1 = 0
  exact ⟨(outIdxR0 _).1.trans (coordR0 t), (outIdxR0 _).2⟩

theorem flushR0 (t : Fin (cfgR0 V).N) : ((cfgR0 V).win 1).flush t = true := by
  unfold Pipeline.Window.flush
  simp only [Bool.and_eq_true, Bool.or_eq_true, decide_eq_true_eq]
  refine ⟨rfl, ?_⟩
  by_cases h : t.val + 1 = (cfgR0 V).grid.N
  · exact Or.inl h
  · have hlt : t.val + 1 < (cfgR0 V).grid.N := by have ht : t.val < (cfgR0 V).grid.N := t.isLt; omega
    refine Or.inr ⟨hlt, fun e => ?_⟩
    have e0 := congrFun e (0 : Fin 2)
    rw [(indexR0 V t).1, (indexR0 V ⟨t.val + 1, hlt⟩).1] at e0
    exact absurd e0 (by show t.val + 1 ≠ t.val; omega)

theorem flushedEqR0 (hH : HypsR0 V) (c : Dev nD) (t : Fin (cfgR0 V).N) :
    (datR0 V hH c).flushed 1 t = (((cfgR0 V).win 1).blk t).view.read (Elt Ideal) (arrGR0 V c) := by
  show ((cfgR0 V).win 1).cut ((cfgR0 V).grid.coords t) ((datR0 V hH c).after 1 t) = _
  rw [afterR0_1]
  refine funext fun (y : S8x128.Idx) => ?_
  show outsAtR0 V hH c t y = arrGR0 V c ((((cfgR0 V).win 1).blk t).view.emb y)
  have hr : (y 0).val < 8 := (y 0).isLt
  have hj : (y 1).val < 128 := (y 1).isLt
  have ht : t.val < 4096 := t.isLt
  obtain ⟨q0, q1⟩ := indexR0 V t
  have hy : (y : S8x128.Idx) = Idealize.ShloMosaic.ValueIdx.ix2 (n0 := 8) (n1 := 128) (y 0) (y 1) := Idealize.ShloMosaic.ValueIdx.eq_ix2 (n0 := 8) (n1 := 128) y
  have he : (((cfgR0 V).win 1).blk t).view.emb y
      = Idealize.ShloMosaic.ValueIdx.ix2 (⟨(8 * (grid0.coords t 0).val + (y 0).val) % 32768, Nat.mod_lt _ (by decide)⟩ : Fin 32768) (n1 := 128) (y 1) := by
    funext a; apply Fin.ext
    match a with
    | ⟨0, _⟩ =>
      show ((cfgR0 V).win 1).index t (0 : Fin 2) * 8 + 1 * (y 0).val = (8 * (grid0.coords t 0).val + (y 0).val) % 32768
      rw [q0, coordR0 t]; omega
    | ⟨1, _⟩ =>
      show ((cfgR0 V).win 1).index t (1 : Fin 2) * 128 + 1 * (y 1).val = (y 1).val
      rw [q1]; omega
  exact ((congrArg (outsAtR0 V hH c t) hy).trans (outsAtApplyR0 V hH c t (y 0) (y 1))).trans (congrArg (arrGR0 V c) he).symm

theorem memBlkR0 (t : Fin (cfgR0 V).N) (i : S32768x128.Idx) :
    i ∈ (((cfgR0 V).win 1).blk t).view.set ↔ ∀ a : Fin 2, ((cfgR0 V).win 1).index t a * S8x128.size a ≤ (i a).val ∧ (i a).val < ((cfgR0 V).win 1).index t a * S8x128.size a + S8x128.size a := by
  have h : (((cfgR0 V).win 1).blk t).view.set = (((cfgR0 V).win 1).rect t : Rect main_v4.ty.shape).set := View.set_slice_whole main_v4 _
  refine (Finset.ext_iff.mp h i).trans ?_
  exact Rect.mem_set_unit

/-- The blocks tile the array: row n lies in the block of point n / 8. -/
theorem arrCoverR0 (i : S32768x128.Idx) :
    ∃ t : Fin (cfgR0 V).N, ((cfgR0 V).win 1).flush t = true ∧ i ∈ (((cfgR0 V).win 1).blk t).view.set := by
  have hi0 : (i 0).val < 32768 := (i 0).isLt
  have hi1 : (i 1).val < 128 := (i 1).isLt
  have hlt : (i 0).val / 8 < (cfgR0 V).N := by show (i 0).val / 8 < 4096; omega
  obtain ⟨q0, q1⟩ := indexR0 V ⟨(i 0).val / 8, hlt⟩
  refine ⟨⟨(i 0).val / 8, hlt⟩, flushR0 V _, ?_⟩
  rw [memBlkR0]
  intro a
  match a with
  | ⟨0, _⟩ =>
    show ((cfgR0 V).win 1).index ⟨(i 0).val / 8, hlt⟩ (0 : Fin 2) * 8 ≤ (i 0).val ∧ (i 0).val < ((cfgR0 V).win 1).index ⟨(i 0).val / 8, hlt⟩ (0 : Fin 2) * 8 + 8
    rw [q0]; show (i 0).val / 8 * 8 ≤ (i 0).val ∧ (i 0).val < (i 0).val / 8 * 8 + 8; omega
  | ⟨1, _⟩ =>
    show ((cfgR0 V).win 1).index ⟨(i 0).val / 8, hlt⟩ (1 : Fin 2) * 128 ≤ (i 1).val ∧ (i 1).val < ((cfgR0 V).win 1).index ⟨(i 0).val / 8, hlt⟩ (1 : Fin 2) * 128 + 128
    rw [q1]; omega

theorem arrAtEqR0 (hH : HypsR0 V) (c : Dev nD) : (datR0 V hH c).arrAt 1 (cfgR0 V).N = arrGR0 V c :=
  (datR0 V hH c).arrAt_eq_of_cover 1 (arrGR0 V c) (fun t _ => flushedEqR0 V hH c t) (arrCoverR0 V)

end Region

theorem arrAtR0_apply (V : (c : Dev nD) → (b : Ref sig .tc) → Buf (Elt Ideal) ((c : Thread nD τ).loc b)) (hH : HypsR0 V) (c : Dev nD)
    (n : Fin 32768) (j : Fin 128) :
    outMR0.view.read (Elt Ideal) ((datR0 (F := Ideal) V hH c).arrAt 1 (cfgR0 V).N) (Idealize.ShloMosaic.ValueIdx.ix2 n j)
      = hbM.view.read (Elt Ideal) (V c main_v0)
            (Idealize.ShloMosaic.ValueIdx.ix2 (Cert.Spec.colOf (tbMR0.view.read (Elt Ideal) (tblR0 V 0) (Idealize.ShloMosaic.ValueIdx.ix1 n))) j)
        + biasMR0.view.read (Elt Ideal) (V c main_v2) (Idealize.ShloMosaic.ValueIdx.ix2 (0 : Fin 1) j) :=
  (congrArg (fun f => outMR0.view.read (Elt Ideal) f (Idealize.ShloMosaic.ValueIdx.ix2 n j)) (arrAtEqR0 V hH c)).trans rfl

end Cert.KernelIdeal.Emb

end
-- ==== Proof.KernelIdeal.ArrVal1.lean ====
import proofs.«418142_j33036888441229_2_alg».proof.Proof.KernelIdeal.Reg1
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe
open Idealize.SL.Sem
open Idealize.ShloMosaic.Pipeline (Dat Cfg Window)

section
variable {F : FTy → Type} [FloatOps F] (c : Dev nD) (i : grid1.Coords) (xt : MBuf (F := F) c tbMR1) (fh : MBuf (F := F) c hbM) (h : OkR1 c i xt)
open Cert.Emb

set_option maxHeartbeats 400000 in
/-- The gathered tile at (r, j): entry j of the table's row named by token 8·i + r of the index table. -/
theorem gatherR1_apply (r : Fin 8) (j : Fin 128) :
    gatherR1 c i xt fh h (Idealize.ShloMosaic.ValueIdx.ix2 r j)
      = hbM.view.read (Elt F) fh (Idealize.ShloMosaic.ValueIdx.ix2 (Cert.Spec.colOf (tbMR1.view.read (Elt F) xt (Idealize.ShloMosaic.ValueIdx.ix1 (⟨(8 * (i 0).val + r.val) % 32768, Nat.mod_lt _ (by decide)⟩ : Fin 32768)))) j) := by
  have hi : (i 0).val < 4096 := (i 0).isLt
  unfold gatherR1
  match r with
  | ⟨0, _⟩ => exact gathered_read tbMR1.view hbM.view (k1_off1 i) (k1_off1_inb i) _ xt (i 0).val 0 (tokenOff_toNat _ 0 hi (by decide)) (k1_off2 _) (k1_off2_inb _ h.1) squeezes_S1x128_S128.numel_eq rfl rfl fh j
  | ⟨1, _⟩ => exact gathered_read tbMR1.view hbM.view (k1_off3 i) (k1_off3_inb i) _ xt (i 0).val 1 (tokenOff_toNat _ 1 hi (by decide)) (k1_off4 _) (k1_off4_inb _ h.2.1) squeezes_S1x128_S128.numel_eq rfl rfl fh j
  | ⟨2, _⟩ => exact gathered_read tbMR1.view hbM.view (k1_off5 i) (k1_off5_inb i) _ xt (i 0).val 2 (tokenOff_toNat _ 2 hi (by decide)) (k1_off6 _) (k1_off6_inb _ h.2.2.1) squeezes_S1x128_S128.numel_eq rfl rfl fh j
  | ⟨3, _⟩ => exact gathered_read tbMR1.view hbM.view (k1_off7 i) (k1_off7_inb i) _ xt (i 0).val 3 (tokenOff_toNat _ 3 hi (by decide)) (k1_off8 _) (k1_off8_inb _ h.2.2.2.1) squeezes_S1x128_S128.numel_eq rfl rfl fh j
  | ⟨4, _⟩ => exact gathered_read tbMR1.view hbM.view (k1_off9 i) (k1_off9_inb i) _ xt (i 0).val 4 (tokenOff_toNat _ 4 hi (by decide)) (k1_off10 _) (k1_off10_inb _ h.2.2.2.2.1) squeezes_S1x128_S128.numel_eq rfl rfl fh j
  | ⟨5, _⟩ => exact gathered_read tbMR1.view hbM.view (k1_off11 i) (k1_off11_inb i) _ xt (i 0).val 5 (tokenOff_toNat _ 5 hi (by decide)) (k1_off12 _) (k1_off12_inb _ h.2.2.2.2.2.1) squeezes_S1x128_S128.numel_eq rfl rfl fh j
  | ⟨6, _⟩ => exact gathered_read tbMR1.view hbM.view (k1_off13 i) (k1_off13_inb i) _ xt (i 0).val 6 (tokenOff_toNat _ 6 hi (by decide)) (k1_off14 _) (k1_off14_inb _ h.2.2.2.2.2.2.1) squeezes_S1x128_S128.numel_eq rfl rfl fh j
  | ⟨7, _⟩ => exact gathered_read tbMR1.view hbM.view (k1_off15 i) (k1_off15_inb i) _ xt (i 0).val 7 (tokenOff_toNat _ 7 hi (by decide)) (k1_off16 _) (k1_off16_inb _ h.2.2.2.2.2.2.2) squeezes_S1x128_S128.numel_eq rfl rfl fh j

end

abbrev outMR1 : Memref sig .tc .hbm S32768x128 .f32 := Memref.whole main_v6
abbrev biasMR1 : Memref sig .tc .hbm S1x128 .f32 := Memref.whole main_v2

/-- Point t of the one-axis grid has coordinate t. -/
theorem coordR1 (t : Fin grid1.N) : (grid1.coords t 0).val = t.val := by
  have hN : grid1.N = 4096 := by decide
  have ht : t.val < 4096 := hN ▸ t.isLt
  show t.val / grid1.stride 0 % 4096 = t.val
  rw [show grid1.stride 0 = 1 from by decide, Nat.div_one, Nat.mod_eq_of_lt ht]

theorem outIdxR1 (i : grid1.Coords) : cc1_transform_2 i 0 = (i 0).val ∧ cc1_transform_2 i 1 = 0 := by
  have hi : (i 0).val < 4096 := (i 0).isLt
  unfold cc1_transform_2
  refine ⟨?_, rfl⟩
  show (BitVec.ofNat 32 (i 0).val).toNat = (i 0).val
  rw [BitVec.toNat_ofNat]
  omega

theorem biasIdxR1 (i : grid1.Coords) : cc1_transform_1 i 0 = 0 ∧ cc1_transform_1 i 1 = 0 := ⟨rfl, rfl⟩

/-- The stored block at (r, j): the tile's entry plus the bias row's entry j. -/
theorem payApplyR1 (v121 : Vec Ideal S8x128 .f32) (v122 : Vec Ideal S1x128 .f32) (r : Fin 8) (j : Fin 128) :
    k1_pay1 v121 v122 (Idealize.ShloMosaic.ValueIdx.ix2 r j)
      = v121 (Idealize.ShloMosaic.ValueIdx.ix2 r j) + v122 (Idealize.ShloMosaic.ValueIdx.ix2 (0 : Fin 1) j) := by
  unfold k1_pay1
  refine (Idealize.ShloMosaic.ValueIdx.addf_apply _ _ _).trans ?_
  refine congrArg (fun z => v121 (Idealize.ShloMosaic.ValueIdx.ix2 r j) + z) ?_
  refine (broadcastTo_apply _ _ (Idealize.ShloMosaic.ValueIdx.ix2 r j) (Idealize.ShloMosaic.ValueIdx.ix2 (0 : Fin 1) j) (fun a => ?_)).trans ?_
  · match a with
    | ⟨0, _⟩ => rfl
    | ⟨1, _⟩ => rfl
  · rw [shapeCast_self]

section Region
variable (V : (c : Dev nD) → (b : Ref sig .tc) → Buf (Elt Ideal) ((c : Thread nD τ).loc b))

/-- Every point adds the same bias row. -/
theorem biasBlkR1 (c : Dev nD) (t : Fin (cfgR1 V).N) (j : Fin 128) :
    (iblkR1 V c 0 t : Vec Ideal S1x128 .f32) (Idealize.ShloMosaic.ValueIdx.ix2 (0 : Fin 1) j)
      = biasMR1.view.read (Elt Ideal) (V c main_v2) (Idealize.ShloMosaic.ValueIdx.ix2 (0 : Fin 1) j) := by
  unfold iblkR1
  show V c main_v2 ((((cfgR1 V).win 0).blk t).view.emb (Idealize.ShloMosaic.ValueIdx.ix2 (0 : Fin 1) j)) = V c main_v2 (Idealize.ShloMosaic.ValueIdx.ix2 (0 : Fin 1) j)
  refine congrArg (V c main_v2) (funext fun a => Fin.ext ?_)
  match a with
  | ⟨0, _⟩ => show cc1_transform_1 (grid1.coords t) 0 * 1 + 1 * 0 = 0; rw [(biasIdxR1 _).1]
  | ⟨1, _⟩ => show cc1_transform_1 (grid1.coords t) 1 * 128 + 1 * j.val = j.val; rw [(biasIdxR1 _).2]; omega

/-- What point t leaves at (r, j): entry j of the table's row named by token 8·t + r, plus the bias entry. -/
theorem outsAtApplyR1 (hH : HypsR1 V) (c : Dev nD) (t : Fin (cfgR1 V).N) (r : Fin 8) (j : Fin 128) :
    outsAtR1 V hH c t (Idealize.ShloMosaic.ValueIdx.ix2 r j)
      = hbM.view.read (Elt Ideal) (V c main_v0)
            (Idealize.ShloMosaic.ValueIdx.ix2 (Cert.Spec.colOf (tbMR1.view.read (Elt Ideal) (tblR1 V 0)
              (Idealize.ShloMosaic.ValueIdx.ix1 (⟨(8 * (grid1.coords t 0).val + r.val) % 32768, Nat.mod_lt _ (by decide)⟩ : Fin 32768)))) j)
        + biasMR1.view.read (Elt Ideal) (V c main_v2) (Idealize.ShloMosaic.ValueIdx.ix2 (0 : Fin 1) j) := by
  unfold outsAtR1
  refine (congrFun (outR1_eq c (grid1.coords t) (msR1_0 V t) (hsR1_0 V t) (msR1_1 V t) (hsR1_1 V t) (iblkR1 V c 0 t) (tblR1 V 0) (V c main_v0) (fsJR1 c) (hH c t)) (Idealize.ShloMosaic.ValueIdx.ix2 r j)).trans ?_
  refine (payApplyR1 _ _ r j).trans ?_
  exact congrArg₂ (· + ·)
    (gatherR1_apply c (grid1.coords t) (tblR1 V 0) (V c main_v0) (hH c t) r j)
    (biasBlkR1 V c t j)

/-- The region's output array as one function: entry (n, j) is table[ids[n], j] + bias[0, j]. -/
def arrGR1 (c : Dev nD) : S32768x128.Idx → Elt Ideal .f32 := fun i =>
  hbM.view.read (Elt Ideal) (V c main_v0)
      (Idealize.ShloMosaic.ValueIdx.ix2 (Cert.Spec.colOf (tbMR1.view.read (Elt Ideal) (tblR1 V 0) (Idealize.ShloMosaic.ValueIdx.ix1 (n := 32768) (i 0)))) (n1 := 128) (i 1))
    + biasMR1.view.read (Elt Ideal) (V c main_v2) (Idealize.ShloMosaic.ValueIdx.ix2 (0 : Fin 1) (n1 := 128) (i 1))

theorem indexR1 (t : Fin (cfgR1 V).N) :
    ((cfgR1 V).win 1).index t (0 : Fin 2) = t.val ∧ ((cfgR1 V).win 1).index t (1 : Fin 2) = 0 := by
  show cc1_transform_2 (grid1.coords t) 0 = t.val ∧ cc1_transform_2 (grid1.coords t) 1 = 0
  exact ⟨(outIdxR1 _).1.trans (coordR1 t), (outIdxR1 _).2⟩

theorem flushR1 (t : Fin (cfgR1 V).N) : ((cfgR1 V).win 1).flush t = true := by
  unfold Pipeline.Window.flush
  simp only [Bool.and_eq_true, Bool.or_eq_true, decide_eq_true_eq]
  refine ⟨rfl, ?_⟩
  by_cases h : t.val + 1 = (cfgR1 V).grid.N
  · exact Or.inl h
  · have hlt : t.val + 1 < (cfgR1 V).grid.N := by have ht : t.val < (cfgR1 V).grid.N := t.isLt; omega
    refine Or.inr ⟨hlt, fun e => ?_⟩
    have e0 := congrFun e (0 : Fin 2)
    rw [(indexR1 V t).1, (indexR1 V ⟨t.val + 1, hlt⟩).1] at e0
    exact absurd e0 (by show t.val + 1 ≠ t.val; omega)

theorem flushedEqR1 (hH : HypsR1 V) (c : Dev nD) (t : Fin (cfgR1 V).N) :
    (datR1 V hH c).flushed 1 t = (((cfgR1 V).win 1).blk t).view.read (Elt Ideal) (arrGR1 V c) := by
  show ((cfgR1 V).win 1).cut ((cfgR1 V).grid.coords t) ((datR1 V hH c).after 1 t) = _
  rw [afterR1_1]
  refine funext fun (y : S8x128.Idx) => ?_
  show outsAtR1 V hH c t y = arrGR1 V c ((((cfgR1 V).win 1).blk t).view.emb y)
  have hr : (y 0).val < 8 := (y 0).isLt
  have hj : (y 1).val < 128 := (y 1).isLt
  have ht : t.val < 4096 := t.isLt
  obtain ⟨q0, q1⟩ := indexR1 V t
  have hy : (y : S8x128.Idx) = Idealize.ShloMosaic.ValueIdx.ix2 (n0 := 8) (n1 := 128) (y 0) (y 1) := Idealize.ShloMosaic.ValueIdx.eq_ix2 (n0 := 8) (n1 := 128) y
  have he : (((cfgR1 V).win 1).blk t).view.emb y
      = Idealize.ShloMosaic.ValueIdx.ix2 (⟨(8 * (grid1.coords t 0).val + (y 0).val) % 32768, Nat.mod_lt _ (by decide)⟩ : Fin 32768) (n1 := 128) (y 1) := by
    funext a; apply Fin.ext
    match a with
    | ⟨0, _⟩ =>
      show ((cfgR1 V).win 1).index t (0 : Fin 2) * 8 + 1 * (y 0).val = (8 * (grid1.coords t 0).val + (y 0).val) % 32768
      rw [q0, coordR1 t]; omega
    | ⟨1, _⟩ =>
      show ((cfgR1 V).win 1).index t (1 : Fin 2) * 128 + 1 * (y 1).val = (y 1).val
      rw [q1]; omega
  exact ((congrArg (outsAtR1 V hH c t) hy).trans (outsAtApplyR1 V hH c t (y 0) (y 1))).trans (congrArg (arrGR1 V c) he).symm

theorem memBlkR1 (t : Fin (cfgR1 V).N) (i : S32768x128.Idx) :
    i ∈ (((cfgR1 V).win 1).blk t).view.set ↔ ∀ a : Fin 2, ((cfgR1 V).win 1).index t a * S8x128.size a ≤ (i a).val ∧ (i a).val < ((cfgR1 V).win 1).index t a * S8x128.size a + S8x128.size a := by
  have h : (((cfgR1 V).win 1).blk t).view.set = (((cfgR1 V).win 1).rect t : Rect main_v6.ty.shape).set := View.set_slice_whole main_v6 _
  refine (Finset.ext_iff.mp h i).trans ?_
  exact Rect.mem_set_unit

/-- The blocks tile the array: row n lies in the block of point n / 8. -/
theorem arrCoverR1 (i : S32768x128.Idx) :
    ∃ t : Fin (cfgR1 V).N, ((cfgR1 V).win 1).flush t = true ∧ i ∈ (((cfgR1 V).win 1).blk t).view.set := by
  have hi0 : (i 0).val < 32768 := (i 0).isLt
  have hi1 : (i 1).val < 128 := (i 1).isLt
  have hlt : (i 0).val / 8 < (cfgR1 V).N := by show (i 0).val / 8 < 4096; omega
  obtain ⟨q0, q1⟩ := indexR1 V ⟨(i 0).val / 8, hlt⟩
  refine ⟨⟨(i 0).val / 8, hlt⟩, flushR1 V _, ?_⟩
  rw [memBlkR1]
  intro a
  match a with
  | ⟨0, _⟩ =>
    show ((cfgR1 V).win 1).index ⟨(i 0).val / 8, hlt⟩ (0 : Fin 2) * 8 ≤ (i 0).val ∧ (i 0).val < ((cfgR1 V).win 1).index ⟨(i 0).val / 8, hlt⟩ (0 : Fin 2) * 8 + 8
    rw [q0]; show (i 0).val / 8 * 8 ≤ (i 0).val ∧ (i 0).val < (i 0).val / 8 * 8 + 8; omega
  | ⟨1, _⟩ =>
    show ((cfgR1 V).win 1).index ⟨(i 0).val / 8, hlt⟩ (1 : Fin 2) * 128 ≤ (i 1).val ∧ (i 1).val < ((cfgR1 V).win 1).index ⟨(i 0).val / 8, hlt⟩ (1 : Fin 2) * 128 + 128
    rw [q1]; omega

theorem arrAtEqR1 (hH : HypsR1 V) (c : Dev nD) : (datR1 V hH c).arrAt 1 (cfgR1 V).N = arrGR1 V c :=
  (datR1 V hH c).arrAt_eq_of_cover 1 (arrGR1 V c) (fun t _ => flushedEqR1 V hH c t) (arrCoverR1 V)

end Region

theorem arrAtR1_apply (V : (c : Dev nD) → (b : Ref sig .tc) → Buf (Elt Ideal) ((c : Thread nD τ).loc b)) (hH : HypsR1 V) (c : Dev nD)
    (n : Fin 32768) (j : Fin 128) :
    outMR1.view.read (Elt Ideal) ((datR1 (F := Ideal) V hH c).arrAt 1 (cfgR1 V).N) (Idealize.ShloMosaic.ValueIdx.ix2 n j)
      = hbM.view.read (Elt Ideal) (V c main_v0)
            (Idealize.ShloMosaic.ValueIdx.ix2 (Cert.Spec.colOf (tbMR1.view.read (Elt Ideal) (tblR1 V 0) (Idealize.ShloMosaic.ValueIdx.ix1 n))) j)
        + biasMR1.view.read (Elt Ideal) (V c main_v2) (Idealize.ShloMosaic.ValueIdx.ix2 (0 : Fin 1) j) :=
  (congrArg (fun f => outMR1.view.read (Elt Ideal) f (Idealize.ShloMosaic.ValueIdx.ix2 n j)) (arrAtEqR1 V hH c)).trans rfl

end Cert.KernelIdeal.Emb

end
-- ==== Proof.KernelIdeal.ArrVal2.lean ====
import proofs.«418142_j33036888441229_2_alg».proof.Proof.KernelIdeal.Reg2
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe
open Idealize.SL.Sem
open Idealize.ShloMosaic.Pipeline (Dat Cfg Window)

section
variable {F : FTy → Type} [FloatOps F] (c : Dev nD) (i : grid2.Coords) (xt : MBuf (F := F) c tbMR2) (fh : MBuf (F := F) c hbM) (h : OkR2 c i xt)
open Cert.Emb

set_option maxHeartbeats 400000 in
/-- The gathered tile at (r, j): entry j of the table's row named by token 8·i + r of the index table. -/
theorem gatherR2_apply (r : Fin 8) (j : Fin 128) :
    gatherR2 c i xt fh h (Idealize.ShloMosaic.ValueIdx.ix2 r j)
      = hbM.view.read (Elt F) fh (Idealize.ShloMosaic.ValueIdx.ix2 (Cert.Spec.colOf (tbMR2.view.read (Elt F) xt (Idealize.ShloMosaic.ValueIdx.ix1 (⟨(8 * (i 0).val + r.val) % 32768, Nat.mod_lt _ (by decide)⟩ : Fin 32768)))) j) := by
  have hi : (i 0).val < 4096 := (i 0).isLt
  unfold gatherR2
  match r with
  | ⟨0, _⟩ => exact gathered_read tbMR2.view hbM.view (k2_off1 i) (k2_off1_inb i) _ xt (i 0).val 0 (tokenOff_toNat _ 0 hi (by decide)) (k2_off2 _) (k2_off2_inb _ h.1) squeezes_S1x128_S128.numel_eq rfl rfl fh j
  | ⟨1, _⟩ => exact gathered_read tbMR2.view hbM.view (k2_off3 i) (k2_off3_inb i) _ xt (i 0).val 1 (tokenOff_toNat _ 1 hi (by decide)) (k2_off4 _) (k2_off4_inb _ h.2.1) squeezes_S1x128_S128.numel_eq rfl rfl fh j
  | ⟨2, _⟩ => exact gathered_read tbMR2.view hbM.view (k2_off5 i) (k2_off5_inb i) _ xt (i 0).val 2 (tokenOff_toNat _ 2 hi (by decide)) (k2_off6 _) (k2_off6_inb _ h.2.2.1) squeezes_S1x128_S128.numel_eq rfl rfl fh j
  | ⟨3, _⟩ => exact gathered_read tbMR2.view hbM.view (k2_off7 i) (k2_off7_inb i) _ xt (i 0).val 3 (tokenOff_toNat _ 3 hi (by decide)) (k2_off8 _) (k2_off8_inb _ h.2.2.2.1) squeezes_S1x128_S128.numel_eq rfl rfl fh j
  | ⟨4, _⟩ => exact gathered_read tbMR2.view hbM.view (k2_off9 i) (k2_off9_inb i) _ xt (i 0).val 4 (tokenOff_toNat _ 4 hi (by decide)) (k2_off10 _) (k2_off10_inb _ h.2.2.2.2.1) squeezes_S1x128_S128.numel_eq rfl rfl fh j
  | ⟨5, _⟩ => exact gathered_read tbMR2.view hbM.view (k2_off11 i) (k2_off11_inb i) _ xt (i 0).val 5 (tokenOff_toNat _ 5 hi (by decide)) (k2_off12 _) (k2_off12_inb _ h.2.2.2.2.2.1) squeezes_S1x128_S128.numel_eq rfl rfl fh j
  | ⟨6, _⟩ => exact gathered_read tbMR2.view hbM.view (k2_off13 i) (k2_off13_inb i) _ xt (i 0).val 6 (tokenOff_toNat _ 6 hi (by decide)) (k2_off14 _) (k2_off14_inb _ h.2.2.2.2.2.2.1) squeezes_S1x128_S128.numel_eq rfl rfl fh j
  | ⟨7, _⟩ => exact gathered_read tbMR2.view hbM.view (k2_off15 i) (k2_off15_inb i) _ xt (i 0).val 7 (tokenOff_toNat _ 7 hi (by decide)) (k2_off16 _) (k2_off16_inb _ h.2.2.2.2.2.2.2) squeezes_S1x128_S128.numel_eq rfl rfl fh j

end

abbrev outMR2 : Memref sig .tc .hbm S32768x128 .f32 := Memref.whole main_v8
abbrev biasMR2 : Memref sig .tc .hbm S1x128 .f32 := Memref.whole main_v2

/-- Point t of the one-axis grid has coordinate t. -/
theorem coordR2 (t : Fin grid2.N) : (grid2.coords t 0).val = t.val := by
  have hN : grid2.N = 4096 := by decide
  have ht : t.val < 4096 := hN ▸ t.isLt
  show t.val / grid2.stride 0 % 4096 = t.val
  rw [show grid2.stride 0 = 1 from by decide, Nat.div_one, Nat.mod_eq_of_lt ht]

theorem outIdxR2 (i : grid2.Coords) : cc2_transform_2 i 0 = (i 0).val ∧ cc2_transform_2 i 1 = 0 := by
  have hi : (i 0).val < 4096 := (i 0).isLt
  unfold cc2_transform_2
  refine ⟨?_, rfl⟩
  show (BitVec.ofNat 32 (i 0).val).toNat = (i 0).val
  rw [BitVec.toNat_ofNat]
  omega

theorem biasIdxR2 (i : grid2.Coords) : cc2_transform_1 i 0 = 0 ∧ cc2_transform_1 i 1 = 0 := ⟨rfl, rfl⟩

/-- The stored block at (r, j): the tile's entry plus the bias row's entry j. -/
theorem payApplyR2 (v121 : Vec Ideal S8x128 .f32) (v122 : Vec Ideal S1x128 .f32) (r : Fin 8) (j : Fin 128) :
    k2_pay1 v121 v122 (Idealize.ShloMosaic.ValueIdx.ix2 r j)
      = v121 (Idealize.ShloMosaic.ValueIdx.ix2 r j) + v122 (Idealize.ShloMosaic.ValueIdx.ix2 (0 : Fin 1) j) := by
  unfold k2_pay1
  refine (Idealize.ShloMosaic.ValueIdx.addf_apply _ _ _).trans ?_
  refine congrArg (fun z => v121 (Idealize.ShloMosaic.ValueIdx.ix2 r j) + z) ?_
  refine (broadcastTo_apply _ _ (Idealize.ShloMosaic.ValueIdx.ix2 r j) (Idealize.ShloMosaic.ValueIdx.ix2 (0 : Fin 1) j) (fun a => ?_)).trans ?_
  · match a with
    | ⟨0, _⟩ => rfl
    | ⟨1, _⟩ => rfl
  · rw [shapeCast_self]

section Region
variable (V : (c : Dev nD) → (b : Ref sig .tc) → Buf (Elt Ideal) ((c : Thread nD τ).loc b))

/-- Every point adds the same bias row. -/
theorem biasBlkR2 (c : Dev nD) (t : Fin (cfgR2 V).N) (j : Fin 128) :
    (iblkR2 V c 0 t : Vec Ideal S1x128 .f32) (Idealize.ShloMosaic.ValueIdx.ix2 (0 : Fin 1) j)
      = biasMR2.view.read (Elt Ideal) (V c main_v2) (Idealize.ShloMosaic.ValueIdx.ix2 (0 : Fin 1) j) := by
  unfold iblkR2
  show V c main_v2 ((((cfgR2 V).win 0).blk t).view.emb (Idealize.ShloMosaic.ValueIdx.ix2 (0 : Fin 1) j)) = V c main_v2 (Idealize.ShloMosaic.ValueIdx.ix2 (0 : Fin 1) j)
  refine congrArg (V c main_v2) (funext fun a => Fin.ext ?_)
  match a with
  | ⟨0, _⟩ => show cc2_transform_1 (grid2.coords t) 0 * 1 + 1 * 0 = 0; rw [(biasIdxR2 _).1]
  | ⟨1, _⟩ => show cc2_transform_1 (grid2.coords t) 1 * 128 + 1 * j.val = j.val; rw [(biasIdxR2 _).2]; omega

/-- What point t leaves at (r, j): entry j of the table's row named by token 8·t + r, plus the bias entry. -/
theorem outsAtApplyR2 (hH : HypsR2 V) (c : Dev nD) (t : Fin (cfgR2 V).N) (r : Fin 8) (j : Fin 128) :
    outsAtR2 V hH c t (Idealize.ShloMosaic.ValueIdx.ix2 r j)
      = hbM.view.read (Elt Ideal) (V c main_v0)
            (Idealize.ShloMosaic.ValueIdx.ix2 (Cert.Spec.colOf (tbMR2.view.read (Elt Ideal) (tblR2 V 0)
              (Idealize.ShloMosaic.ValueIdx.ix1 (⟨(8 * (grid2.coords t 0).val + r.val) % 32768, Nat.mod_lt _ (by decide)⟩ : Fin 32768)))) j)
        + biasMR2.view.read (Elt Ideal) (V c main_v2) (Idealize.ShloMosaic.ValueIdx.ix2 (0 : Fin 1) j) := by
  unfold outsAtR2
  refine (congrFun (outR2_eq c (grid2.coords t) (msR2_0 V t) (hsR2_0 V t) (msR2_1 V t) (hsR2_1 V t) (iblkR2 V c 0 t) (tblR2 V 0) (V c main_v0) (fsJR2 c) (hH c t)) (Idealize.ShloMosaic.ValueIdx.ix2 r j)).trans ?_
  refine (payApplyR2 _ _ r j).trans ?_
  exact congrArg₂ (· + ·)
    (gatherR2_apply c (grid2.coords t) (tblR2 V 0) (V c main_v0) (hH c t) r j)
    (biasBlkR2 V c t j)

/-- The region's output array as one function: entry (n, j) is table[ids[n], j] + bias[0, j]. -/
def arrGR2 (c : Dev nD) : S32768x128.Idx → Elt Ideal .f32 := fun i =>
  hbM.view.read (Elt Ideal) (V c main_v0)
      (Idealize.ShloMosaic.ValueIdx.ix2 (Cert.Spec.colOf (tbMR2.view.read (Elt Ideal) (tblR2 V 0) (Idealize.ShloMosaic.ValueIdx.ix1 (n := 32768) (i 0)))) (n1 := 128) (i 1))
    + biasMR2.view.read (Elt Ideal) (V c main_v2) (Idealize.ShloMosaic.ValueIdx.ix2 (0 : Fin 1) (n1 := 128) (i 1))

theorem indexR2 (t : Fin (cfgR2 V).N) :
    ((cfgR2 V).win 1).index t (0 : Fin 2) = t.val ∧ ((cfgR2 V).win 1).index t (1 : Fin 2) = 0 := by
  show cc2_transform_2 (grid2.coords t) 0 = t.val ∧ cc2_transform_2 (grid2.coords t) 1 = 0
  exact ⟨(outIdxR2 _).1.trans (coordR2 t), (outIdxR2 _).2⟩

theorem flushR2 (t : Fin (cfgR2 V).N) : ((cfgR2 V).win 1).flush t = true := by
  unfold Pipeline.Window.flush
  simp only [Bool.and_eq_true, Bool.or_eq_true, decide_eq_true_eq]
  refine ⟨rfl, ?_⟩
  by_cases h : t.val + 1 = (cfgR2 V).grid.N
  · exact Or.inl h
  · have hlt : t.val + 1 < (cfgR2 V).grid.N := by have ht : t.val < (cfgR2 V).grid.N := t.isLt; omega
    refine Or.inr ⟨hlt, fun e => ?_⟩
    have e0 := congrFun e (0 : Fin 2)
    rw [(indexR2 V t).1, (indexR2 V ⟨t.val + 1, hlt⟩).1] at e0
    exact absurd e0 (by show t.val + 1 ≠ t.val; omega)

theorem flushedEqR2 (hH : HypsR2 V) (c : Dev nD) (t : Fin (cfgR2 V).N) :
    (datR2 V hH c).flushed 1 t = (((cfgR2 V).win 1).blk t).view.read (Elt Ideal) (arrGR2 V c) := by
  show ((cfgR2 V).win 1).cut ((cfgR2 V).grid.coords t) ((datR2 V hH c).after 1 t) = _
  rw [afterR2_1]
  refine funext fun (y : S8x128.Idx) => ?_
  show outsAtR2 V hH c t y = arrGR2 V c ((((cfgR2 V).win 1).blk t).view.emb y)
  have hr : (y 0).val < 8 := (y 0).isLt
  have hj : (y 1).val < 128 := (y 1).isLt
  have ht : t.val < 4096 := t.isLt
  obtain ⟨q0, q1⟩ := indexR2 V t
  have hy : (y : S8x128.Idx) = Idealize.ShloMosaic.ValueIdx.ix2 (n0 := 8) (n1 := 128) (y 0) (y 1) := Idealize.ShloMosaic.ValueIdx.eq_ix2 (n0 := 8) (n1 := 128) y
  have he : (((cfgR2 V).win 1).blk t).view.emb y
      = Idealize.ShloMosaic.ValueIdx.ix2 (⟨(8 * (grid2.coords t 0).val + (y 0).val) % 32768, Nat.mod_lt _ (by decide)⟩ : Fin 32768) (n1 := 128) (y 1) := by
    funext a; apply Fin.ext
    match a with
    | ⟨0, _⟩ =>
      show ((cfgR2 V).win 1).index t (0 : Fin 2) * 8 + 1 * (y 0).val = (8 * (grid2.coords t 0).val + (y 0).val) % 32768
      rw [q0, coordR2 t]; omega
    | ⟨1, _⟩ =>
      show ((cfgR2 V).win 1).index t (1 : Fin 2) * 128 + 1 * (y 1).val = (y 1).val
      rw [q1]; omega
  exact ((congrArg (outsAtR2 V hH c t) hy).trans (outsAtApplyR2 V hH c t (y 0) (y 1))).trans (congrArg (arrGR2 V c) he).symm

theorem memBlkR2 (t : Fin (cfgR2 V).N) (i : S32768x128.Idx) :
    i ∈ (((cfgR2 V).win 1).blk t).view.set ↔ ∀ a : Fin 2, ((cfgR2 V).win 1).index t a * S8x128.size a ≤ (i a).val ∧ (i a).val < ((cfgR2 V).win 1).index t a * S8x128.size a + S8x128.size a := by
  have h : (((cfgR2 V).win 1).blk t).view.set = (((cfgR2 V).win 1).rect t : Rect main_v8.ty.shape).set := View.set_slice_whole main_v8 _
  refine (Finset.ext_iff.mp h i).trans ?_
  exact Rect.mem_set_unit

/-- The blocks tile the array: row n lies in the block of point n / 8. -/
theorem arrCoverR2 (i : S32768x128.Idx) :
    ∃ t : Fin (cfgR2 V).N, ((cfgR2 V).win 1).flush t = true ∧ i ∈ (((cfgR2 V).win 1).blk t).view.set := by
  have hi0 : (i 0).val < 32768 := (i 0).isLt
  have hi1 : (i 1).val < 128 := (i 1).isLt
  have hlt : (i 0).val / 8 < (cfgR2 V).N := by show (i 0).val / 8 < 4096; omega
  obtain ⟨q0, q1⟩ := indexR2 V ⟨(i 0).val / 8, hlt⟩
  refine ⟨⟨(i 0).val / 8, hlt⟩, flushR2 V _, ?_⟩
  rw [memBlkR2]
  intro a
  match a with
  | ⟨0, _⟩ =>
    show ((cfgR2 V).win 1).index ⟨(i 0).val / 8, hlt⟩ (0 : Fin 2) * 8 ≤ (i 0).val ∧ (i 0).val < ((cfgR2 V).win 1).index ⟨(i 0).val / 8, hlt⟩ (0 : Fin 2) * 8 + 8
    rw [q0]; show (i 0).val / 8 * 8 ≤ (i 0).val ∧ (i 0).val < (i 0).val / 8 * 8 + 8; omega
  | ⟨1, _⟩ =>
    show ((cfgR2 V).win 1).index ⟨(i 0).val / 8, hlt⟩ (1 : Fin 2) * 128 ≤ (i 1).val ∧ (i 1).val < ((cfgR2 V).win 1).index ⟨(i 0).val / 8, hlt⟩ (1 : Fin 2) * 128 + 128
    rw [q1]; omega

theorem arrAtEqR2 (hH : HypsR2 V) (c : Dev nD) : (datR2 V hH c).arrAt 1 (cfgR2 V).N = arrGR2 V c :=
  (datR2 V hH c).arrAt_eq_of_cover 1 (arrGR2 V c) (fun t _ => flushedEqR2 V hH c t) (arrCoverR2 V)

end Region

theorem arrAtR2_apply (V : (c : Dev nD) → (b : Ref sig .tc) → Buf (Elt Ideal) ((c : Thread nD τ).loc b)) (hH : HypsR2 V) (c : Dev nD)
    (n : Fin 32768) (j : Fin 128) :
    outMR2.view.read (Elt Ideal) ((datR2 (F := Ideal) V hH c).arrAt 1 (cfgR2 V).N) (Idealize.ShloMosaic.ValueIdx.ix2 n j)
      = hbM.view.read (Elt Ideal) (V c main_v0)
            (Idealize.ShloMosaic.ValueIdx.ix2 (Cert.Spec.colOf (tbMR2.view.read (Elt Ideal) (tblR2 V 0) (Idealize.ShloMosaic.ValueIdx.ix1 n))) j)
        + biasMR2.view.read (Elt Ideal) (V c main_v2) (Idealize.ShloMosaic.ValueIdx.ix2 (0 : Fin 1) j) :=
  (congrArg (fun f => outMR2.view.read (Elt Ideal) f (Idealize.ShloMosaic.ValueIdx.ix2 n j)) (arrAtEqR2 V hH c)).trans rfl

end Cert.KernelIdeal.Emb

end
-- ==== Proof.KernelIdeal.ArrVal3.lean ====
import proofs.«418142_j33036888441229_2_alg».proof.Proof.KernelIdeal.Reg3
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe
open Idealize.SL.Sem
open Idealize.ShloMosaic.Pipeline (Dat Cfg Window)

section
variable {F : FTy → Type} [FloatOps F] (c : Dev nD) (i : grid3.Coords) (xt : MBuf (F := F) c tbMR3) (fh : MBuf (F := F) c hbM) (h : OkR3 c i xt)
open Cert.Emb

set_option maxHeartbeats 400000 in
/-- The gathered tile at (r, j): entry j of the table's row named by token 8·i + r of the index table. -/
theorem gatherR3_apply (r : Fin 8) (j : Fin 128) :
    gatherR3 c i xt fh h (Idealize.ShloMosaic.ValueIdx.ix2 r j)
      = hbM.view.read (Elt F) fh (Idealize.ShloMosaic.ValueIdx.ix2 (Cert.Spec.colOf (tbMR3.view.read (Elt F) xt (Idealize.ShloMosaic.ValueIdx.ix1 (⟨(8 * (i 0).val + r.val) % 32768, Nat.mod_lt _ (by decide)⟩ : Fin 32768)))) j) := by
  have hi : (i 0).val < 4096 := (i 0).isLt
  unfold gatherR3
  match r with
  | ⟨0, _⟩ => exact gathered_read tbMR3.view hbM.view (k3_off1 i) (k3_off1_inb i) _ xt (i 0).val 0 (tokenOff_toNat _ 0 hi (by decide)) (k3_off2 _) (k3_off2_inb _ h.1) squeezes_S1x128_S128.numel_eq rfl rfl fh j
  | ⟨1, _⟩ => exact gathered_read tbMR3.view hbM.view (k3_off3 i) (k3_off3_inb i) _ xt (i 0).val 1 (tokenOff_toNat _ 1 hi (by decide)) (k3_off4 _) (k3_off4_inb _ h.2.1) squeezes_S1x128_S128.numel_eq rfl rfl fh j
  | ⟨2, _⟩ => exact gathered_read tbMR3.view hbM.view (k3_off5 i) (k3_off5_inb i) _ xt (i 0).val 2 (tokenOff_toNat _ 2 hi (by decide)) (k3_off6 _) (k3_off6_inb _ h.2.2.1) squeezes_S1x128_S128.numel_eq rfl rfl fh j
  | ⟨3, _⟩ => exact gathered_read tbMR3.view hbM.view (k3_off7 i) (k3_off7_inb i) _ xt (i 0).val 3 (tokenOff_toNat _ 3 hi (by decide)) (k3_off8 _) (k3_off8_inb _ h.2.2.2.1) squeezes_S1x128_S128.numel_eq rfl rfl fh j
  | ⟨4, _⟩ => exact gathered_read tbMR3.view hbM.view (k3_off9 i) (k3_off9_inb i) _ xt (i 0).val 4 (tokenOff_toNat _ 4 hi (by decide)) (k3_off10 _) (k3_off10_inb _ h.2.2.2.2.1) squeezes_S1x128_S128.numel_eq rfl rfl fh j
  | ⟨5, _⟩ => exact gathered_read tbMR3.view hbM.view (k3_off11 i) (k3_off11_inb i) _ xt (i 0).val 5 (tokenOff_toNat _ 5 hi (by decide)) (k3_off12 _) (k3_off12_inb _ h.2.2.2.2.2.1) squeezes_S1x128_S128.numel_eq rfl rfl fh j
  | ⟨6, _⟩ => exact gathered_read tbMR3.view hbM.view (k3_off13 i) (k3_off13_inb i) _ xt (i 0).val 6 (tokenOff_toNat _ 6 hi (by decide)) (k3_off14 _) (k3_off14_inb _ h.2.2.2.2.2.2.1) squeezes_S1x128_S128.numel_eq rfl rfl fh j
  | ⟨7, _⟩ => exact gathered_read tbMR3.view hbM.view (k3_off15 i) (k3_off15_inb i) _ xt (i 0).val 7 (tokenOff_toNat _ 7 hi (by decide)) (k3_off16 _) (k3_off16_inb _ h.2.2.2.2.2.2.2) squeezes_S1x128_S128.numel_eq rfl rfl fh j

end

abbrev outMR3 : Memref sig .tc .hbm S32768x128 .f32 := Memref.whole main_v10
abbrev biasMR3 : Memref sig .tc .hbm S1x128 .f32 := Memref.whole main_v2

/-- Point t of the one-axis grid has coordinate t. -/
theorem coordR3 (t : Fin grid3.N) : (grid3.coords t 0).val = t.val := by
  have hN : grid3.N = 4096 := by decide
  have ht : t.val < 4096 := hN ▸ t.isLt
  show t.val / grid3.stride 0 % 4096 = t.val
  rw [show grid3.stride 0 = 1 from by decide, Nat.div_one, Nat.mod_eq_of_lt ht]

theorem outIdxR3 (i : grid3.Coords) : cc3_transform_2 i 0 = (i 0).val ∧ cc3_transform_2 i 1 = 0 := by
  have hi : (i 0).val < 4096 := (i 0).isLt
  unfold cc3_transform_2
  refine ⟨?_, rfl⟩
  show (BitVec.ofNat 32 (i 0).val).toNat = (i 0).val
  rw [BitVec.toNat_ofNat]
  omega

theorem biasIdxR3 (i : grid3.Coords) : cc3_transform_1 i 0 = 0 ∧ cc3_transform_1 i 1 = 0 := ⟨rfl, rfl⟩

/-- The stored block at (r, j): the tile's entry plus the bias row's entry j. -/
theorem payApplyR3 (v121 : Vec Ideal S8x128 .f32) (v122 : Vec Ideal S1x128 .f32) (r : Fin 8) (j : Fin 128) :
    k3_pay1 v121 v122 (Idealize.ShloMosaic.ValueIdx.ix2 r j)
      = v121 (Idealize.ShloMosaic.ValueIdx.ix2 r j) + v122 (Idealize.ShloMosaic.ValueIdx.ix2 (0 : Fin 1) j) := by
  unfold k3_pay1
  refine (Idealize.ShloMosaic.ValueIdx.addf_apply _ _ _).trans ?_
  refine congrArg (fun z => v121 (Idealize.ShloMosaic.ValueIdx.ix2 r j) + z) ?_
  refine (broadcastTo_apply _ _ (Idealize.ShloMosaic.ValueIdx.ix2 r j) (Idealize.ShloMosaic.ValueIdx.ix2 (0 : Fin 1) j) (fun a => ?_)).trans ?_
  · match a with
    | ⟨0, _⟩ => rfl
    | ⟨1, _⟩ => rfl
  · rw [shapeCast_self]

section Region
variable (V : (c : Dev nD) → (b : Ref sig .tc) → Buf (Elt Ideal) ((c : Thread nD τ).loc b))

/-- Every point adds the same bias row. -/
theorem biasBlkR3 (c : Dev nD) (t : Fin (cfgR3 V).N) (j : Fin 128) :
    (iblkR3 V c 0 t : Vec Ideal S1x128 .f32) (Idealize.ShloMosaic.ValueIdx.ix2 (0 : Fin 1) j)
      = biasMR3.view.read (Elt Ideal) (V c main_v2) (Idealize.ShloMosaic.ValueIdx.ix2 (0 : Fin 1) j) := by
  unfold iblkR3
  show V c main_v2 ((((cfgR3 V).win 0).blk t).view.emb (Idealize.ShloMosaic.ValueIdx.ix2 (0 : Fin 1) j)) = V c main_v2 (Idealize.ShloMosaic.ValueIdx.ix2 (0 : Fin 1) j)
  refine congrArg (V c main_v2) (funext fun a => Fin.ext ?_)
  match a with
  | ⟨0, _⟩ => show cc3_transform_1 (grid3.coords t) 0 * 1 + 1 * 0 = 0; rw [(biasIdxR3 _).1]
  | ⟨1, _⟩ => show cc3_transform_1 (grid3.coords t) 1 * 128 + 1 * j.val = j.val; rw [(biasIdxR3 _).2]; omega

/-- What point t leaves at (r, j): entry j of the table's row named by token 8·t + r, plus the bias entry. -/
theorem outsAtApplyR3 (hH : HypsR3 V) (c : Dev nD) (t : Fin (cfgR3 V).N) (r : Fin 8) (j : Fin 128) :
    outsAtR3 V hH c t (Idealize.ShloMosaic.ValueIdx.ix2 r j)
      = hbM.view.read (Elt Ideal) (V c main_v0)
            (Idealize.ShloMosaic.ValueIdx.ix2 (Cert.Spec.colOf (tbMR3.view.read (Elt Ideal) (tblR3 V 0)
              (Idealize.ShloMosaic.ValueIdx.ix1 (⟨(8 * (grid3.coords t 0).val + r.val) % 32768, Nat.mod_lt _ (by decide)⟩ : Fin 32768)))) j)
        + biasMR3.view.read (Elt Ideal) (V c main_v2) (Idealize.ShloMosaic.ValueIdx.ix2 (0 : Fin 1) j) := by
  unfold outsAtR3
  refine (congrFun (outR3_eq c (grid3.coords t) (msR3_0 V t) (hsR3_0 V t) (msR3_1 V t) (hsR3_1 V t) (iblkR3 V c 0 t) (tblR3 V 0) (V c main_v0) (fsJR3 c) (hH c t)) (Idealize.ShloMosaic.ValueIdx.ix2 r j)).trans ?_
  refine (payApplyR3 _ _ r j).trans ?_
  exact congrArg₂ (· + ·)
    (gatherR3_apply c (grid3.coords t) (tblR3 V 0) (V c main_v0) (hH c t) r j)
    (biasBlkR3 V c t j)

/-- The region's output array as one function: entry (n, j) is table[ids[n], j] + bias[0, j]. -/
def arrGR3 (c : Dev nD) : S32768x128.Idx → Elt Ideal .f32 := fun i =>
  hbM.view.read (Elt Ideal) (V c main_v0)
      (Idealize.ShloMosaic.ValueIdx.ix2 (Cert.Spec.colOf (tbMR3.view.read (Elt Ideal) (tblR3 V 0) (Idealize.ShloMosaic.ValueIdx.ix1 (n := 32768) (i 0)))) (n1 := 128) (i 1))
    + biasMR3.view.read (Elt Ideal) (V c main_v2) (Idealize.ShloMosaic.ValueIdx.ix2 (0 : Fin 1) (n1 := 128) (i 1))

theorem indexR3 (t : Fin (cfgR3 V).N) :
    ((cfgR3 V).win 1).index t (0 : Fin 2) = t.val ∧ ((cfgR3 V).win 1).index t (1 : Fin 2) = 0 := by
  show cc3_transform_2 (grid3.coords t) 0 = t.val ∧ cc3_transform_2 (grid3.coords t) 1 = 0
  exact ⟨(outIdxR3 _).1.trans (coordR3 t), (outIdxR3 _).2⟩

theorem flushR3 (t : Fin (cfgR3 V).N) : ((cfgR3 V).win 1).flush t = true := by
  unfold Pipeline.Window.flush
  simp only [Bool.and_eq_true, Bool.or_eq_true, decide_eq_true_eq]
  refine ⟨rfl, ?_⟩
  by_cases h : t.val + 1 = (cfgR3 V).grid.N
  · exact Or.inl h
  · have hlt : t.val + 1 < (cfgR3 V).grid.N := by have ht : t.val < (cfgR3 V).grid.N := t.isLt; omega
    refine Or.inr ⟨hlt, fun e => ?_⟩
    have e0 := congrFun e (0 : Fin 2)
    rw [(indexR3 V t).1, (indexR3 V ⟨t.val + 1, hlt⟩).1] at e0
    exact absurd e0 (by show t.val + 1 ≠ t.val; omega)

theorem flushedEqR3 (hH : HypsR3 V) (c : Dev nD) (t : Fin (cfgR3 V).N) :
    (datR3 V hH c).flushed 1 t = (((cfgR3 V).win 1).blk t).view.read (Elt Ideal) (arrGR3 V c) := by
  show ((cfgR3 V).win 1).cut ((cfgR3 V).grid.coords t) ((datR3 V hH c).after 1 t) = _
  rw [afterR3_1]
  refine funext fun (y : S8x128.Idx) => ?_
  show outsAtR3 V hH c t y = arrGR3 V c ((((cfgR3 V).win 1).blk t).view.emb y)
  have hr : (y 0).val < 8 := (y 0).isLt
  have hj : (y 1).val < 128 := (y 1).isLt
  have ht : t.val < 4096 := t.isLt
  obtain ⟨q0, q1⟩ := indexR3 V t
  have hy : (y : S8x128.Idx) = Idealize.ShloMosaic.ValueIdx.ix2 (n0 := 8) (n1 := 128) (y 0) (y 1) := Idealize.ShloMosaic.ValueIdx.eq_ix2 (n0 := 8) (n1 := 128) y
  have he : (((cfgR3 V).win 1).blk t).view.emb y
      = Idealize.ShloMosaic.ValueIdx.ix2 (⟨(8 * (grid3.coords t 0).val + (y 0).val) % 32768, Nat.mod_lt _ (by decide)⟩ : Fin 32768) (n1 := 128) (y 1) := by
    funext a; apply Fin.ext
    match a with
    | ⟨0, _⟩ =>
      show ((cfgR3 V).win 1).index t (0 : Fin 2) * 8 + 1 * (y 0).val = (8 * (grid3.coords t 0).val + (y 0).val) % 32768
      rw [q0, coordR3 t]; omega
    | ⟨1, _⟩ =>
      show ((cfgR3 V).win 1).index t (1 : Fin 2) * 128 + 1 * (y 1).val = (y 1).val
      rw [q1]; omega
  exact ((congrArg (outsAtR3 V hH c t) hy).trans (outsAtApplyR3 V hH c t (y 0) (y 1))).trans (congrArg (arrGR3 V c) he).symm

theorem memBlkR3 (t : Fin (cfgR3 V).N) (i : S32768x128.Idx) :
    i ∈ (((cfgR3 V).win 1).blk t).view.set ↔ ∀ a : Fin 2, ((cfgR3 V).win 1).index t a * S8x128.size a ≤ (i a).val ∧ (i a).val < ((cfgR3 V).win 1).index t a * S8x128.size a + S8x128.size a := by
  have h : (((cfgR3 V).win 1).blk t).view.set = (((cfgR3 V).win 1).rect t : Rect main_v10.ty.shape).set := View.set_slice_whole main_v10 _
  refine (Finset.ext_iff.mp h i).trans ?_
  exact Rect.mem_set_unit

/-- The blocks tile the array: row n lies in the block of point n / 8. -/
theorem arrCoverR3 (i : S32768x128.Idx) :
    ∃ t : Fin (cfgR3 V).N, ((cfgR3 V).win 1).flush t = true ∧ i ∈ (((cfgR3 V).win 1).blk t).view.set := by
  have hi0 : (i 0).val < 32768 := (i 0).isLt
  have hi1 : (i 1).val < 128 := (i 1).isLt
  have hlt : (i 0).val / 8 < (cfgR3 V).N := by show (i 0).val / 8 < 4096; omega
  obtain ⟨q0, q1⟩ := indexR3 V ⟨(i 0).val / 8, hlt⟩
  refine ⟨⟨(i 0).val / 8, hlt⟩, flushR3 V _, ?_⟩
  rw [memBlkR3]
  intro a
  match a with
  | ⟨0, _⟩ =>
    show ((cfgR3 V).win 1).index ⟨(i 0).val / 8, hlt⟩ (0 : Fin 2) * 8 ≤ (i 0).val ∧ (i 0).val < ((cfgR3 V).win 1).index ⟨(i 0).val / 8, hlt⟩ (0 : Fin 2) * 8 + 8
    rw [q0]; show (i 0).val / 8 * 8 ≤ (i 0).val ∧ (i 0).val < (i 0).val / 8 * 8 + 8; omega
  | ⟨1, _⟩ =>
    show ((cfgR3 V).win 1).index ⟨(i 0).val / 8, hlt⟩ (1 : Fin 2) * 128 ≤ (i 1).val ∧ (i 1).val < ((cfgR3 V).win 1).index ⟨(i 0).val / 8, hlt⟩ (1 : Fin 2) * 128 + 128
    rw [q1]; omega

theorem arrAtEqR3 (hH : HypsR3 V) (c : Dev nD) : (datR3 V hH c).arrAt 1 (cfgR3 V).N = arrGR3 V c :=
  (datR3 V hH c).arrAt_eq_of_cover 1 (arrGR3 V c) (fun t _ => flushedEqR3 V hH c t) (arrCoverR3 V)

end Region

theorem arrAtR3_apply (V : (c : Dev nD) → (b : Ref sig .tc) → Buf (Elt Ideal) ((c : Thread nD τ).loc b)) (hH : HypsR3 V) (c : Dev nD)
    (n : Fin 32768) (j : Fin 128) :
    outMR3.view.read (Elt Ideal) ((datR3 (F := Ideal) V hH c).arrAt 1 (cfgR3 V).N) (Idealize.ShloMosaic.ValueIdx.ix2 n j)
      = hbM.view.read (Elt Ideal) (V c main_v0)
            (Idealize.ShloMosaic.ValueIdx.ix2 (Cert.Spec.colOf (tbMR3.view.read (Elt Ideal) (tblR3 V 0) (Idealize.ShloMosaic.ValueIdx.ix1 n))) j)
        + biasMR3.view.read (Elt Ideal) (V c main_v2) (Idealize.ShloMosaic.ValueIdx.ix2 (0 : Fin 1) j) :=
  (congrArg (fun f => outMR3.view.read (Elt Ideal) f (Idealize.ShloMosaic.ValueIdx.ix2 n j)) (arrAtEqR3 V hH c)).trans rfl

end Cert.KernelIdeal.Emb

end
-- ==== Proof.KernelIdeal.ArrVal4.lean ====
import proofs.«418142_j33036888441229_2_alg».proof.Proof.KernelIdeal.Reg4
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe
open Idealize.SL.Sem
open Idealize.ShloMosaic.Pipeline (Dat Cfg Window)

section
variable {F : FTy → Type} [FloatOps F] (c : Dev nD) (i : grid4.Coords) (xt : MBuf (F := F) c tbMR4) (fh : MBuf (F := F) c hbM) (h : OkR4 c i xt)
open Cert.Emb

set_option maxHeartbeats 400000 in
/-- The gathered tile at (r, j): entry j of the table's row named by token 8·i + r of the index table. -/
theorem gatherR4_apply (r : Fin 8) (j : Fin 128) :
    gatherR4 c i xt fh h (Idealize.ShloMosaic.ValueIdx.ix2 r j)
      = hbM.view.read (Elt F) fh (Idealize.ShloMosaic.ValueIdx.ix2 (Cert.Spec.colOf (tbMR4.view.read (Elt F) xt (Idealize.ShloMosaic.ValueIdx.ix1 (⟨(8 * (i 0).val + r.val) % 32768, Nat.mod_lt _ (by decide)⟩ : Fin 32768)))) j) := by
  have hi : (i 0).val < 4096 := (i 0).isLt
  unfold gatherR4
  match r with
  | ⟨0, _⟩ => exact gathered_read tbMR4.view hbM.view (k4_off1 i) (k4_off1_inb i) _ xt (i 0).val 0 (tokenOff_toNat _ 0 hi (by decide)) (k4_off2 _) (k4_off2_inb _ h.1) squeezes_S1x128_S128.numel_eq rfl rfl fh j
  | ⟨1, _⟩ => exact gathered_read tbMR4.view hbM.view (k4_off3 i) (k4_off3_inb i) _ xt (i 0).val 1 (tokenOff_toNat _ 1 hi (by decide)) (k4_off4 _) (k4_off4_inb _ h.2.1) squeezes_S1x128_S128.numel_eq rfl rfl fh j
  | ⟨2, _⟩ => exact gathered_read tbMR4.view hbM.view (k4_off5 i) (k4_off5_inb i) _ xt (i 0).val 2 (tokenOff_toNat _ 2 hi (by decide)) (k4_off6 _) (k4_off6_inb _ h.2.2.1) squeezes_S1x128_S128.numel_eq rfl rfl fh j
  | ⟨3, _⟩ => exact gathered_read tbMR4.view hbM.view (k4_off7 i) (k4_off7_inb i) _ xt (i 0).val 3 (tokenOff_toNat _ 3 hi (by decide)) (k4_off8 _) (k4_off8_inb _ h.2.2.2.1) squeezes_S1x128_S128.numel_eq rfl rfl fh j
  | ⟨4, _⟩ => exact gathered_read tbMR4.view hbM.view (k4_off9 i) (k4_off9_inb i) _ xt (i 0).val 4 (tokenOff_toNat _ 4 hi (by decide)) (k4_off10 _) (k4_off10_inb _ h.2.2.2.2.1) squeezes_S1x128_S128.numel_eq rfl rfl fh j
  | ⟨5, _⟩ => exact gathered_read tbMR4.view hbM.view (k4_off11 i) (k4_off11_inb i) _ xt (i 0).val 5 (tokenOff_toNat _ 5 hi (by decide)) (k4_off12 _) (k4_off12_inb _ h.2.2.2.2.2.1) squeezes_S1x128_S128.numel_eq rfl rfl fh j
  | ⟨6, _⟩ => exact gathered_read tbMR4.view hbM.view (k4_off13 i) (k4_off13_inb i) _ xt (i 0).val 6 (tokenOff_toNat _ 6 hi (by decide)) (k4_off14 _) (k4_off14_inb _ h.2.2.2.2.2.2.1) squeezes_S1x128_S128.numel_eq rfl rfl fh j
  | ⟨7, _⟩ => exact gathered_read tbMR4.view hbM.view (k4_off15 i) (k4_off15_inb i) _ xt (i 0).val 7 (tokenOff_toNat _ 7 hi (by decide)) (k4_off16 _) (k4_off16_inb _ h.2.2.2.2.2.2.2) squeezes_S1x128_S128.numel_eq rfl rfl fh j

end

abbrev outMR4 : Memref sig .tc .hbm S32768x128 .f32 := Memref.whole main_v12
abbrev biasMR4 : Memref sig .tc .hbm S1x128 .f32 := Memref.whole main_v2

/-- Point t of the one-axis grid has coordinate t. -/
theorem coordR4 (t : Fin grid4.N) : (grid4.coords t 0).val = t.val := by
  have hN : grid4.N = 4096 := by decide
  have ht : t.val < 4096 := hN ▸ t.isLt
  show t.val / grid4.stride 0 % 4096 = t.val
  rw [show grid4.stride 0 = 1 from by decide, Nat.div_one, Nat.mod_eq_of_lt ht]

theorem outIdxR4 (i : grid4.Coords) : cc4_transform_2 i 0 = (i 0).val ∧ cc4_transform_2 i 1 = 0 := by
  have hi : (i 0).val < 4096 := (i 0).isLt
  unfold cc4_transform_2
  refine ⟨?_, rfl⟩
  show (BitVec.ofNat 32 (i 0).val).toNat = (i 0).val
  rw [BitVec.toNat_ofNat]
  omega

theorem biasIdxR4 (i : grid4.Coords) : cc4_transform_1 i 0 = 0 ∧ cc4_transform_1 i 1 = 0 := ⟨rfl, rfl⟩

/-- The stored block at (r, j): the tile's entry plus the bias row's entry j. -/
theorem payApplyR4 (v121 : Vec Ideal S8x128 .f32) (v122 : Vec Ideal S1x128 .f32) (r : Fin 8) (j : Fin 128) :
    k4_pay1 v121 v122 (Idealize.ShloMosaic.ValueIdx.ix2 r j)
      = v121 (Idealize.ShloMosaic.ValueIdx.ix2 r j) + v122 (Idealize.ShloMosaic.ValueIdx.ix2 (0 : Fin 1) j) := by
  unfold k4_pay1
  refine (Idealize.ShloMosaic.ValueIdx.addf_apply _ _ _).trans ?_
  refine congrArg (fun z => v121 (Idealize.ShloMosaic.ValueIdx.ix2 r j) + z) ?_
  refine (broadcastTo_apply _ _ (Idealize.ShloMosaic.ValueIdx.ix2 r j) (Idealize.ShloMosaic.ValueIdx.ix2 (0 : Fin 1) j) (fun a => ?_)).trans ?_
  · match a with
    | ⟨0, _⟩ => rfl
    | ⟨1, _⟩ => rfl
  · rw [shapeCast_self]

section Region
variable (V : (c : Dev nD) → (b : Ref sig .tc) → Buf (Elt Ideal) ((c : Thread nD τ).loc b))

/-- Every point adds the same bias row. -/
theorem biasBlkR4 (c : Dev nD) (t : Fin (cfgR4 V).N) (j : Fin 128) :
    (iblkR4 V c 0 t : Vec Ideal S1x128 .f32) (Idealize.ShloMosaic.ValueIdx.ix2 (0 : Fin 1) j)
      = biasMR4.view.read (Elt Ideal) (V c main_v2) (Idealize.ShloMosaic.ValueIdx.ix2 (0 : Fin 1) j) := by
  unfold iblkR4
  show V c main_v2 ((((cfgR4 V).win 0).blk t).view.emb (Idealize.ShloMosaic.ValueIdx.ix2 (0 : Fin 1) j)) = V c main_v2 (Idealize.ShloMosaic.ValueIdx.ix2 (0 : Fin 1) j)
  refine congrArg (V c main_v2) (funext fun a => Fin.ext ?_)
  match a with
  | ⟨0, _⟩ => show cc4_transform_1 (grid4.coords t) 0 * 1 + 1 * 0 = 0; rw [(biasIdxR4 _).1]
  | ⟨1, _⟩ => show cc4_transform_1 (grid4.coords t) 1 * 128 + 1 * j.val = j.val; rw [(biasIdxR4 _).2]; omega

/-- What point t leaves at (r, j): entry j of the table's row named by token 8·t + r, plus the bias entry. -/
theorem outsAtApplyR4 (hH : HypsR4 V) (c : Dev nD) (t : Fin (cfgR4 V).N) (r : Fin 8) (j : Fin 128) :
    outsAtR4 V hH c t (Idealize.ShloMosaic.ValueIdx.ix2 r j)
      = hbM.view.read (Elt Ideal) (V c main_v0)
            (Idealize.ShloMosaic.ValueIdx.ix2 (Cert.Spec.colOf (tbMR4.view.read (Elt Ideal) (tblR4 V 0)
              (Idealize.ShloMosaic.ValueIdx.ix1 (⟨(8 * (grid4.coords t 0).val + r.val) % 32768, Nat.mod_lt _ (by decide)⟩ : Fin 32768)))) j)
        + biasMR4.view.read (Elt Ideal) (V c main_v2) (Idealize.ShloMosaic.ValueIdx.ix2 (0 : Fin 1) j) := by
  unfold outsAtR4
  refine (congrFun (outR4_eq c (grid4.coords t) (msR4_0 V t) (hsR4_0 V t) (msR4_1 V t) (hsR4_1 V t) (iblkR4 V c 0 t) (tblR4 V 0) (V c main_v0) (fsJR4 c) (hH c t)) (Idealize.ShloMosaic.ValueIdx.ix2 r j)).trans ?_
  refine (payApplyR4 _ _ r j).trans ?_
  exact congrArg₂ (· + ·)
    (gatherR4_apply c (grid4.coords t) (tblR4 V 0) (V c main_v0) (hH c t) r j)
    (biasBlkR4 V c t j)

/-- The region's output array as one function: entry (n, j) is table[ids[n], j] + bias[0, j]. -/
def arrGR4 (c : Dev nD) : S32768x128.Idx → Elt Ideal .f32 := fun i =>
  hbM.view.read (Elt Ideal) (V c main_v0)
      (Idealize.ShloMosaic.ValueIdx.ix2 (Cert.Spec.colOf (tbMR4.view.read (Elt Ideal) (tblR4 V 0) (Idealize.ShloMosaic.ValueIdx.ix1 (n := 32768) (i 0)))) (n1 := 128) (i 1))
    + biasMR4.view.read (Elt Ideal) (V c main_v2) (Idealize.ShloMosaic.ValueIdx.ix2 (0 : Fin 1) (n1 := 128) (i 1))

theorem indexR4 (t : Fin (cfgR4 V).N) :
    ((cfgR4 V).win 1).index t (0 : Fin 2) = t.val ∧ ((cfgR4 V).win 1).index t (1 : Fin 2) = 0 := by
  show cc4_transform_2 (grid4.coords t) 0 = t.val ∧ cc4_transform_2 (grid4.coords t) 1 = 0
  exact ⟨(outIdxR4 _).1.trans (coordR4 t), (outIdxR4 _).2⟩

theorem flushR4 (t : Fin (cfgR4 V).N) : ((cfgR4 V).win 1).flush t = true := by
  unfold Pipeline.Window.flush
  simp only [Bool.and_eq_true, Bool.or_eq_true, decide_eq_true_eq]
  refine ⟨rfl, ?_⟩
  by_cases h : t.val + 1 = (cfgR4 V).grid.N
  · exact Or.inl h
  · have hlt : t.val + 1 < (cfgR4 V).grid.N := by have ht : t.val < (cfgR4 V).grid.N := t.isLt; omega
    refine Or.inr ⟨hlt, fun e => ?_⟩
    have e0 := congrFun e (0 : Fin 2)
    rw [(indexR4 V t).1, (indexR4 V ⟨t.val + 1, hlt⟩).1] at e0
    exact absurd e0 (by show t.val + 1 ≠ t.val; omega)

theorem flushedEqR4 (hH : HypsR4 V) (c : Dev nD) (t : Fin (cfgR4 V).N) :
    (datR4 V hH c).flushed 1 t = (((cfgR4 V).win 1).blk t).view.read (Elt Ideal) (arrGR4 V c) := by
  show ((cfgR4 V).win 1).cut ((cfgR4 V).grid.coords t) ((datR4 V hH c).after 1 t) = _
  rw [afterR4_1]
  refine funext fun (y : S8x128.Idx) => ?_
  show outsAtR4 V hH c t y = arrGR4 V c ((((cfgR4 V).win 1).blk t).view.emb y)
  have hr : (y 0).val < 8 := (y 0).isLt
  have hj : (y 1).val < 128 := (y 1).isLt
  have ht : t.val < 4096 := t.isLt
  obtain ⟨q0, q1⟩ := indexR4 V t
  have hy : (y : S8x128.Idx) = Idealize.ShloMosaic.ValueIdx.ix2 (n0 := 8) (n1 := 128) (y 0) (y 1) := Idealize.ShloMosaic.ValueIdx.eq_ix2 (n0 := 8) (n1 := 128) y
  have he : (((cfgR4 V).win 1).blk t).view.emb y
      = Idealize.ShloMosaic.ValueIdx.ix2 (⟨(8 * (grid4.coords t 0).val + (y 0).val) % 32768, Nat.mod_lt _ (by decide)⟩ : Fin 32768) (n1 := 128) (y 1) := by
    funext a; apply Fin.ext
    match a with
    | ⟨0, _⟩ =>
      show ((cfgR4 V).win 1).index t (0 : Fin 2) * 8 + 1 * (y 0).val = (8 * (grid4.coords t 0).val + (y 0).val) % 32768
      rw [q0, coordR4 t]; omega
    | ⟨1, _⟩ =>
      show ((cfgR4 V).win 1).index t (1 : Fin 2) * 128 + 1 * (y 1).val = (y 1).val
      rw [q1]; omega
  exact ((congrArg (outsAtR4 V hH c t) hy).trans (outsAtApplyR4 V hH c t (y 0) (y 1))).trans (congrArg (arrGR4 V c) he).symm

theorem memBlkR4 (t : Fin (cfgR4 V).N) (i : S32768x128.Idx) :
    i ∈ (((cfgR4 V).win 1).blk t).view.set ↔ ∀ a : Fin 2, ((cfgR4 V).win 1).index t a * S8x128.size a ≤ (i a).val ∧ (i a).val < ((cfgR4 V).win 1).index t a * S8x128.size a + S8x128.size a := by
  have h : (((cfgR4 V).win 1).blk t).view.set = (((cfgR4 V).win 1).rect t : Rect main_v12.ty.shape).set := View.set_slice_whole main_v12 _
  refine (Finset.ext_iff.mp h i).trans ?_
  exact Rect.mem_set_unit

/-- The blocks tile the array: row n lies in the block of point n / 8. -/
theorem arrCoverR4 (i : S32768x128.Idx) :
    ∃ t : Fin (cfgR4 V).N, ((cfgR4 V).win 1).flush t = true ∧ i ∈ (((cfgR4 V).win 1).blk t).view.set := by
  have hi0 : (i 0).val < 32768 := (i 0).isLt
  have hi1 : (i 1).val < 128 := (i 1).isLt
  have hlt : (i 0).val / 8 < (cfgR4 V).N := by show (i 0).val / 8 < 4096; omega
  obtain ⟨q0, q1⟩ := indexR4 V ⟨(i 0).val / 8, hlt⟩
  refine ⟨⟨(i 0).val / 8, hlt⟩, flushR4 V _, ?_⟩
  rw [memBlkR4]
  intro a
  match a with
  | ⟨0, _⟩ =>
    show ((cfgR4 V).win 1).index ⟨(i 0).val / 8, hlt⟩ (0 : Fin 2) * 8 ≤ (i 0).val ∧ (i 0).val < ((cfgR4 V).win 1).index ⟨(i 0).val / 8, hlt⟩ (0 : Fin 2) * 8 + 8
    rw [q0]; show (i 0).val / 8 * 8 ≤ (i 0).val ∧ (i 0).val < (i 0).val / 8 * 8 + 8; omega
  | ⟨1, _⟩ =>
    show ((cfgR4 V).win 1).index ⟨(i 0).val / 8, hlt⟩ (1 : Fin 2) * 128 ≤ (i 1).val ∧ (i 1).val < ((cfgR4 V).win 1).index ⟨(i 0).val / 8, hlt⟩ (1 : Fin 2) * 128 + 128
    rw [q1]; omega

theorem arrAtEqR4 (hH : HypsR4 V) (c : Dev nD) : (datR4 V hH c).arrAt 1 (cfgR4 V).N = arrGR4 V c :=
  (datR4 V hH c).arrAt_eq_of_cover 1 (arrGR4 V c) (fun t _ => flushedEqR4 V hH c t) (arrCoverR4 V)

end Region

theorem arrAtR4_apply (V : (c : Dev nD) → (b : Ref sig .tc) → Buf (Elt Ideal) ((c : Thread nD τ).loc b)) (hH : HypsR4 V) (c : Dev nD)
    (n : Fin 32768) (j : Fin 128) :
    outMR4.view.read (Elt Ideal) ((datR4 (F := Ideal) V hH c).arrAt 1 (cfgR4 V).N) (Idealize.ShloMosaic.ValueIdx.ix2 n j)
      = hbM.view.read (Elt Ideal) (V c main_v0)
            (Idealize.ShloMosaic.ValueIdx.ix2 (Cert.Spec.colOf (tbMR4.view.read (Elt Ideal) (tblR4 V 0) (Idealize.ShloMosaic.ValueIdx.ix1 n))) j)
        + biasMR4.view.read (Elt Ideal) (V c main_v2) (Idealize.ShloMosaic.ValueIdx.ix2 (0 : Fin 1) j) :=
  (congrArg (fun f => outMR4.view.read (Elt Ideal) f (Idealize.ShloMosaic.ValueIdx.ix2 n j)) (arrAtEqR4 V hH c)).trans rfl

end Cert.KernelIdeal.Emb

end
-- ==== Proof.KernelIdeal.ArrVal5.lean ====
import proofs.«418142_j33036888441229_2_alg».proof.Proof.KernelIdeal.Reg5
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe
open Idealize.SL.Sem
open Idealize.ShloMosaic.Pipeline (Dat Cfg Window)

section
variable {F : FTy → Type} [FloatOps F] (c : Dev nD) (i : grid5.Coords) (xt : MBuf (F := F) c tbMR5) (fh : MBuf (F := F) c hbM) (h : OkR5 c i xt)
open Cert.Emb

set_option maxHeartbeats 400000 in
/-- The gathered tile at (r, j): entry j of the table's row named by token 8·i + r of the index table. -/
theorem gatherR5_apply (r : Fin 8) (j : Fin 128) :
    gatherR5 c i xt fh h (Idealize.ShloMosaic.ValueIdx.ix2 r j)
      = hbM.view.read (Elt F) fh (Idealize.ShloMosaic.ValueIdx.ix2 (Cert.Spec.colOf (tbMR5.view.read (Elt F) xt (Idealize.ShloMosaic.ValueIdx.ix1 (⟨(8 * (i 0).val + r.val) % 32768, Nat.mod_lt _ (by decide)⟩ : Fin 32768)))) j) := by
  have hi : (i 0).val < 4096 := (i 0).isLt
  unfold gatherR5
  match r with
  | ⟨0, _⟩ => exact gathered_read tbMR5.view hbM.view (k5_off1 i) (k5_off1_inb i) _ xt (i 0).val 0 (tokenOff_toNat _ 0 hi (by decide)) (k5_off2 _) (k5_off2_inb _ h.1) squeezes_S1x128_S128.numel_eq rfl rfl fh j
  | ⟨1, _⟩ => exact gathered_read tbMR5.view hbM.view (k5_off3 i) (k5_off3_inb i) _ xt (i 0).val 1 (tokenOff_toNat _ 1 hi (by decide)) (k5_off4 _) (k5_off4_inb _ h.2.1) squeezes_S1x128_S128.numel_eq rfl rfl fh j
  | ⟨2, _⟩ => exact gathered_read tbMR5.view hbM.view (k5_off5 i) (k5_off5_inb i) _ xt (i 0).val 2 (tokenOff_toNat _ 2 hi (by decide)) (k5_off6 _) (k5_off6_inb _ h.2.2.1) squeezes_S1x128_S128.numel_eq rfl rfl fh j
  | ⟨3, _⟩ => exact gathered_read tbMR5.view hbM.view (k5_off7 i) (k5_off7_inb i) _ xt (i 0).val 3 (tokenOff_toNat _ 3 hi (by decide)) (k5_off8 _) (k5_off8_inb _ h.2.2.2.1) squeezes_S1x128_S128.numel_eq rfl rfl fh j
  | ⟨4, _⟩ => exact gathered_read tbMR5.view hbM.view (k5_off9 i) (k5_off9_inb i) _ xt (i 0).val 4 (tokenOff_toNat _ 4 hi (by decide)) (k5_off10 _) (k5_off10_inb _ h.2.2.2.2.1) squeezes_S1x128_S128.numel_eq rfl rfl fh j
  | ⟨5, _⟩ => exact gathered_read tbMR5.view hbM.view (k5_off11 i) (k5_off11_inb i) _ xt (i 0).val 5 (tokenOff_toNat _ 5 hi (by decide)) (k5_off12 _) (k5_off12_inb _ h.2.2.2.2.2.1) squeezes_S1x128_S128.numel_eq rfl rfl fh j
  | ⟨6, _⟩ => exact gathered_read tbMR5.view hbM.view (k5_off13 i) (k5_off13_inb i) _ xt (i 0).val 6 (tokenOff_toNat _ 6 hi (by decide)) (k5_off14 _) (k5_off14_inb _ h.2.2.2.2.2.2.1) squeezes_S1x128_S128.numel_eq rfl rfl fh j
  | ⟨7, _⟩ => exact gathered_read tbMR5.view hbM.view (k5_off15 i) (k5_off15_inb i) _ xt (i 0).val 7 (tokenOff_toNat _ 7 hi (by decide)) (k5_off16 _) (k5_off16_inb _ h.2.2.2.2.2.2.2) squeezes_S1x128_S128.numel_eq rfl rfl fh j

end

abbrev outMR5 : Memref sig .tc .hbm S32768x128 .f32 := Memref.whole main_v14
abbrev biasMR5 : Memref sig .tc .hbm S1x128 .f32 := Memref.whole main_v2

/-- Point t of the one-axis grid has coordinate t. -/
theorem coordR5 (t : Fin grid5.N) : (grid5.coords t 0).val = t.val := by
  have hN : grid5.N = 4096 := by decide
  have ht : t.val < 4096 := hN ▸ t.isLt
  show t.val / grid5.stride 0 % 4096 = t.val
  rw [show grid5.stride 0 = 1 from by decide, Nat.div_one, Nat.mod_eq_of_lt ht]

theorem outIdxR5 (i : grid5.Coords) : cc5_transform_2 i 0 = (i 0).val ∧ cc5_transform_2 i 1 = 0 := by
  have hi : (i 0).val < 4096 := (i 0).isLt
  unfold cc5_transform_2
  refine ⟨?_, rfl⟩
  show (BitVec.ofNat 32 (i 0).val).toNat = (i 0).val
  rw [BitVec.toNat_ofNat]
  omega

theorem biasIdxR5 (i : grid5.Coords) : cc5_transform_1 i 0 = 0 ∧ cc5_transform_1 i 1 = 0 := ⟨rfl, rfl⟩

/-- The stored block at (r, j): the tile's entry plus the bias row's entry j. -/
theorem payApplyR5 (v121 : Vec Ideal S8x128 .f32) (v122 : Vec Ideal S1x128 .f32) (r : Fin 8) (j : Fin 128) :
    k5_pay1 v121 v122 (Idealize.ShloMosaic.ValueIdx.ix2 r j)
      = v121 (Idealize.ShloMosaic.ValueIdx.ix2 r j) + v122 (Idealize.ShloMosaic.ValueIdx.ix2 (0 : Fin 1) j) := by
  unfold k5_pay1
  refine (Idealize.ShloMosaic.ValueIdx.addf_apply _ _ _).trans ?_
  refine congrArg (fun z => v121 (Idealize.ShloMosaic.ValueIdx.ix2 r j) + z) ?_
  refine (broadcastTo_apply _ _ (Idealize.ShloMosaic.ValueIdx.ix2 r j) (Idealize.ShloMosaic.ValueIdx.ix2 (0 : Fin 1) j) (fun a => ?_)).trans ?_
  · match a with
    | ⟨0, _⟩ => rfl
    | ⟨1, _⟩ => rfl
  · rw [shapeCast_self]

section Region
variable (V : (c : Dev nD) → (b : Ref sig .tc) → Buf (Elt Ideal) ((c : Thread nD τ).loc b))

/-- Every point adds the same bias row. -/
theorem biasBlkR5 (c : Dev nD) (t : Fin (cfgR5 V).N) (j : Fin 128) :
    (iblkR5 V c 0 t : Vec Ideal S1x128 .f32) (Idealize.ShloMosaic.ValueIdx.ix2 (0 : Fin 1) j)
      = biasMR5.view.read (Elt Ideal) (V c main_v2) (Idealize.ShloMosaic.ValueIdx.ix2 (0 : Fin 1) j) := by
  unfold iblkR5
  show V c main_v2 ((((cfgR5 V).win 0).blk t).view.emb (Idealize.ShloMosaic.ValueIdx.ix2 (0 : Fin 1) j)) = V c main_v2 (Idealize.ShloMosaic.ValueIdx.ix2 (0 : Fin 1) j)
  refine congrArg (V c main_v2) (funext fun a => Fin.ext ?_)
  match a with
  | ⟨0, _⟩ => show cc5_transform_1 (grid5.coords t) 0 * 1 + 1 * 0 = 0; rw [(biasIdxR5 _).1]
  | ⟨1, _⟩ => show cc5_transform_1 (grid5.coords t) 1 * 128 + 1 * j.val = j.val; rw [(biasIdxR5 _).2]; omega

/-- What point t leaves at (r, j): entry j of the table's row named by token 8·t + r, plus the bias entry. -/
theorem outsAtApplyR5 (hH : HypsR5 V) (c : Dev nD) (t : Fin (cfgR5 V).N) (r : Fin 8) (j : Fin 128) :
    outsAtR5 V hH c t (Idealize.ShloMosaic.ValueIdx.ix2 r j)
      = hbM.view.read (Elt Ideal) (V c main_v0)
            (Idealize.ShloMosaic.ValueIdx.ix2 (Cert.Spec.colOf (tbMR5.view.read (Elt Ideal) (tblR5 V 0)
              (Idealize.ShloMosaic.ValueIdx.ix1 (⟨(8 * (grid5.coords t 0).val + r.val) % 32768, Nat.mod_lt _ (by decide)⟩ : Fin 32768)))) j)
        + biasMR5.view.read (Elt Ideal) (V c main_v2) (Idealize.ShloMosaic.ValueIdx.ix2 (0 : Fin 1) j) := by
  unfold outsAtR5
  refine (congrFun (outR5_eq c (grid5.coords t) (msR5_0 V t) (hsR5_0 V t) (msR5_1 V t) (hsR5_1 V t) (iblkR5 V c 0 t) (tblR5 V 0) (V c main_v0) (fsJR5 c) (hH c t)) (Idealize.ShloMosaic.ValueIdx.ix2 r j)).trans ?_
  refine (payApplyR5 _ _ r j).trans ?_
  exact congrArg₂ (· + ·)
    (gatherR5_apply c (grid5.coords t) (tblR5 V 0) (V c main_v0) (hH c t) r j)
    (biasBlkR5 V c t j)

/-- The region's output array as one function: entry (n, j) is table[ids[n], j] + bias[0, j]. -/
def arrGR5 (c : Dev nD) : S32768x128.Idx → Elt Ideal .f32 := fun i =>
  hbM.view.read (Elt Ideal) (V c main_v0)
      (Idealize.ShloMosaic.ValueIdx.ix2 (Cert.Spec.colOf (tbMR5.view.read (Elt Ideal) (tblR5 V 0) (Idealize.ShloMosaic.ValueIdx.ix1 (n := 32768) (i 0)))) (n1 := 128) (i 1))
    + biasMR5.view.read (Elt Ideal) (V c main_v2) (Idealize.ShloMosaic.ValueIdx.ix2 (0 : Fin 1) (n1 := 128) (i 1))

theorem indexR5 (t : Fin (cfgR5 V).N) :
    ((cfgR5 V).win 1).index t (0 : Fin 2) = t.val ∧ ((cfgR5 V).win 1).index t (1 : Fin 2) = 0 := by
  show cc5_transform_2 (grid5.coords t) 0 = t.val ∧ cc5_transform_2 (grid5.coords t) 1 = 0
  exact ⟨(outIdxR5 _).1.trans (coordR5 t), (outIdxR5 _).2⟩

theorem flushR5 (t : Fin (cfgR5 V).N) : ((cfgR5 V).win 1).flush t = true := by
  unfold Pipeline.Window.flush
  simp only [Bool.and_eq_true, Bool.or_eq_true, decide_eq_true_eq]
  refine ⟨rfl, ?_⟩
  by_cases h : t.val + 1 = (cfgR5 V).grid.N
  · exact Or.inl h
  · have hlt : t.val + 1 < (cfgR5 V).grid.N := by have ht : t.val < (cfgR5 V).grid.N := t.isLt; omega
    refine Or.inr ⟨hlt, fun e => ?_⟩
    have e0 := congrFun e (0 : Fin 2)
    rw [(indexR5 V t).1, (indexR5 V ⟨t.val + 1, hlt⟩).1] at e0
    exact absurd e0 (by show t.val + 1 ≠ t.val; omega)

theorem flushedEqR5 (hH : HypsR5 V) (c : Dev nD) (t : Fin (cfgR5 V).N) :
    (datR5 V hH c).flushed 1 t = (((cfgR5 V).win 1).blk t).view.read (Elt Ideal) (arrGR5 V c) := by
  show ((cfgR5 V).win 1).cut ((cfgR5 V).grid.coords t) ((datR5 V hH c).after 1 t) = _
  rw [afterR5_1]
  refine funext fun (y : S8x128.Idx) => ?_
  show outsAtR5 V hH c t y = arrGR5 V c ((((cfgR5 V).win 1).blk t).view.emb y)
  have hr : (y 0).val < 8 := (y 0).isLt
  have hj : (y 1).val < 128 := (y 1).isLt
  have ht : t.val < 4096 := t.isLt
  obtain ⟨q0, q1⟩ := indexR5 V t
  have hy : (y : S8x128.Idx) = Idealize.ShloMosaic.ValueIdx.ix2 (n0 := 8) (n1 := 128) (y 0) (y 1) := Idealize.ShloMosaic.ValueIdx.eq_ix2 (n0 := 8) (n1 := 128) y
  have he : (((cfgR5 V).win 1).blk t).view.emb y
      = Idealize.ShloMosaic.ValueIdx.ix2 (⟨(8 * (grid5.coords t 0).val + (y 0).val) % 32768, Nat.mod_lt _ (by decide)⟩ : Fin 32768) (n1 := 128) (y 1) := by
    funext a; apply Fin.ext
    match a with
    | ⟨0, _⟩ =>
      show ((cfgR5 V).win 1).index t (0 : Fin 2) * 8 + 1 * (y 0).val = (8 * (grid5.coords t 0).val + (y 0).val) % 32768
      rw [q0, coordR5 t]; omega
    | ⟨1, _⟩ =>
      show ((cfgR5 V).win 1).index t (1 : Fin 2) * 128 + 1 * (y 1).val = (y 1).val
      rw [q1]; omega
  exact ((congrArg (outsAtR5 V hH c t) hy).trans (outsAtApplyR5 V hH c t (y 0) (y 1))).trans (congrArg (arrGR5 V c) he).symm

theorem memBlkR5 (t : Fin (cfgR5 V).N) (i : S32768x128.Idx) :
    i ∈ (((cfgR5 V).win 1).blk t).view.set ↔ ∀ a : Fin 2, ((cfgR5 V).win 1).index t a * S8x128.size a ≤ (i a).val ∧ (i a).val < ((cfgR5 V).win 1).index t a * S8x128.size a + S8x128.size a := by
  have h : (((cfgR5 V).win 1).blk t).view.set = (((cfgR5 V).win 1).rect t : Rect main_v14.ty.shape).set := View.set_slice_whole main_v14 _
  refine (Finset.ext_iff.mp h i).trans ?_
  exact Rect.mem_set_unit

/-- The blocks tile the array: row n lies in the block of point n / 8. -/
theorem arrCoverR5 (i : S32768x128.Idx) :
    ∃ t : Fin (cfgR5 V).N, ((cfgR5 V).win 1).flush t = true ∧ i ∈ (((cfgR5 V).win 1).blk t).view.set := by
  have hi0 : (i 0).val < 32768 := (i 0).isLt
  have hi1 : (i 1).val < 128 := (i 1).isLt
  have hlt : (i 0).val / 8 < (cfgR5 V).N := by show (i 0).val / 8 < 4096; omega
  obtain ⟨q0, q1⟩ := indexR5 V ⟨(i 0).val / 8, hlt⟩
  refine ⟨⟨(i 0).val / 8, hlt⟩, flushR5 V _, ?_⟩
  rw [memBlkR5]
  intro a
  match a with
  | ⟨0, _⟩ =>
    show ((cfgR5 V).win 1).index ⟨(i 0).val / 8, hlt⟩ (0 : Fin 2) * 8 ≤ (i 0).val ∧ (i 0).val < ((cfgR5 V).win 1).index ⟨(i 0).val / 8, hlt⟩ (0 : Fin 2) * 8 + 8
    rw [q0]; show (i 0).val / 8 * 8 ≤ (i 0).val ∧ (i 0).val < (i 0).val / 8 * 8 + 8; omega
  | ⟨1, _⟩ =>
    show ((cfgR5 V).win 1).index ⟨(i 0).val / 8, hlt⟩ (1 : Fin 2) * 128 ≤ (i 1).val ∧ (i 1).val < ((cfgR5 V).win 1).index ⟨(i 0).val / 8, hlt⟩ (1 : Fin 2) * 128 + 128
    rw [q1]; omega

theorem arrAtEqR5 (hH : HypsR5 V) (c : Dev nD) : (datR5 V hH c).arrAt 1 (cfgR5 V).N = arrGR5 V c :=
  (datR5 V hH c).arrAt_eq_of_cover 1 (arrGR5 V c) (fun t _ => flushedEqR5 V hH c t) (arrCoverR5 V)

end Region

theorem arrAtR5_apply (V : (c : Dev nD) → (b : Ref sig .tc) → Buf (Elt Ideal) ((c : Thread nD τ).loc b)) (hH : HypsR5 V) (c : Dev nD)
    (n : Fin 32768) (j : Fin 128) :
    outMR5.view.read (Elt Ideal) ((datR5 (F := Ideal) V hH c).arrAt 1 (cfgR5 V).N) (Idealize.ShloMosaic.ValueIdx.ix2 n j)
      = hbM.view.read (Elt Ideal) (V c main_v0)
            (Idealize.ShloMosaic.ValueIdx.ix2 (Cert.Spec.colOf (tbMR5.view.read (Elt Ideal) (tblR5 V 0) (Idealize.ShloMosaic.ValueIdx.ix1 n))) j)
        + biasMR5.view.read (Elt Ideal) (V c main_v2) (Idealize.ShloMosaic.ValueIdx.ix2 (0 : Fin 1) j) :=
  (congrArg (fun f => outMR5.view.read (Elt Ideal) f (Idealize.ShloMosaic.ValueIdx.ix2 n j)) (arrAtEqR5 V hH c)).trans rfl

end Cert.KernelIdeal.Emb

end
-- ==== Proof.KernelIdeal.ArrVal6.lean ====
import proofs.«418142_j33036888441229_2_alg».proof.Proof.KernelIdeal.Reg6
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe
open Idealize.SL.Sem
open Idealize.ShloMosaic.Pipeline (Dat Cfg Window)

section
variable {F : FTy → Type} [FloatOps F] (c : Dev nD) (i : grid6.Coords) (xt : MBuf (F := F) c tbMR6) (fh : MBuf (F := F) c hbM) (h : OkR6 c i xt)
open Cert.Emb

set_option maxHeartbeats 400000 in
/-- The gathered tile at (r, j): entry j of the table's row named by token 8·i + r of the index table. -/
theorem gatherR6_apply (r : Fin 8) (j : Fin 128) :
    gatherR6 c i xt fh h (Idealize.ShloMosaic.ValueIdx.ix2 r j)
      = hbM.view.read (Elt F) fh (Idealize.ShloMosaic.ValueIdx.ix2 (Cert.Spec.colOf (tbMR6.view.read (Elt F) xt (Idealize.ShloMosaic.ValueIdx.ix1 (⟨(8 * (i 0).val + r.val) % 32768, Nat.mod_lt _ (by decide)⟩ : Fin 32768)))) j) := by
  have hi : (i 0).val < 4096 := (i 0).isLt
  unfold gatherR6
  match r with
  | ⟨0, _⟩ => exact gathered_read tbMR6.view hbM.view (k6_off1 i) (k6_off1_inb i) _ xt (i 0).val 0 (tokenOff_toNat _ 0 hi (by decide)) (k6_off2 _) (k6_off2_inb _ h.1) squeezes_S1x128_S128.numel_eq rfl rfl fh j
  | ⟨1, _⟩ => exact gathered_read tbMR6.view hbM.view (k6_off3 i) (k6_off3_inb i) _ xt (i 0).val 1 (tokenOff_toNat _ 1 hi (by decide)) (k6_off4 _) (k6_off4_inb _ h.2.1) squeezes_S1x128_S128.numel_eq rfl rfl fh j
  | ⟨2, _⟩ => exact gathered_read tbMR6.view hbM.view (k6_off5 i) (k6_off5_inb i) _ xt (i 0).val 2 (tokenOff_toNat _ 2 hi (by decide)) (k6_off6 _) (k6_off6_inb _ h.2.2.1) squeezes_S1x128_S128.numel_eq rfl rfl fh j
  | ⟨3, _⟩ => exact gathered_read tbMR6.view hbM.view (k6_off7 i) (k6_off7_inb i) _ xt (i 0).val 3 (tokenOff_toNat _ 3 hi (by decide)) (k6_off8 _) (k6_off8_inb _ h.2.2.2.1) squeezes_S1x128_S128.numel_eq rfl rfl fh j
  | ⟨4, _⟩ => exact gathered_read tbMR6.view hbM.view (k6_off9 i) (k6_off9_inb i) _ xt (i 0).val 4 (tokenOff_toNat _ 4 hi (by decide)) (k6_off10 _) (k6_off10_inb _ h.2.2.2.2.1) squeezes_S1x128_S128.numel_eq rfl rfl fh j
  | ⟨5, _⟩ => exact gathered_read tbMR6.view hbM.view (k6_off11 i) (k6_off11_inb i) _ xt (i 0).val 5 (tokenOff_toNat _ 5 hi (by decide)) (k6_off12 _) (k6_off12_inb _ h.2.2.2.2.2.1) squeezes_S1x128_S128.numel_eq rfl rfl fh j
  | ⟨6, _⟩ => exact gathered_read tbMR6.view hbM.view (k6_off13 i) (k6_off13_inb i) _ xt (i 0).val 6 (tokenOff_toNat _ 6 hi (by decide)) (k6_off14 _) (k6_off14_inb _ h.2.2.2.2.2.2.1) squeezes_S1x128_S128.numel_eq rfl rfl fh j
  | ⟨7, _⟩ => exact gathered_read tbMR6.view hbM.view (k6_off15 i) (k6_off15_inb i) _ xt (i 0).val 7 (tokenOff_toNat _ 7 hi (by decide)) (k6_off16 _) (k6_off16_inb _ h.2.2.2.2.2.2.2) squeezes_S1x128_S128.numel_eq rfl rfl fh j

end

abbrev outMR6 : Memref sig .tc .hbm S32768x128 .f32 := Memref.whole main_v16
abbrev biasMR6 : Memref sig .tc .hbm S1x128 .f32 := Memref.whole main_v2

/-- Point t of the one-axis grid has coordinate t. -/
theorem coordR6 (t : Fin grid6.N) : (grid6.coords t 0).val = t.val := by
  have hN : grid6.N = 4096 := by decide
  have ht : t.val < 4096 := hN ▸ t.isLt
  show t.val / grid6.stride 0 % 4096 = t.val
  rw [show grid6.stride 0 = 1 from by decide, Nat.div_one, Nat.mod_eq_of_lt ht]

theorem outIdxR6 (i : grid6.Coords) : cc6_transform_2 i 0 = (i 0).val ∧ cc6_transform_2 i 1 = 0 := by
  have hi : (i 0).val < 4096 := (i 0).isLt
  unfold cc6_transform_2
  refine ⟨?_, rfl⟩
  show (BitVec.ofNat 32 (i 0).val).toNat = (i 0).val
  rw [BitVec.toNat_ofNat]
  omega

theorem biasIdxR6 (i : grid6.Coords) : cc6_transform_1 i 0 = 0 ∧ cc6_transform_1 i 1 = 0 := ⟨rfl, rfl⟩

/-- The stored block at (r, j): the tile's entry plus the bias row's entry j. -/
theorem payApplyR6 (v121 : Vec Ideal S8x128 .f32) (v122 : Vec Ideal S1x128 .f32) (r : Fin 8) (j : Fin 128) :
    k6_pay1 v121 v122 (Idealize.ShloMosaic.ValueIdx.ix2 r j)
      = v121 (Idealize.ShloMosaic.ValueIdx.ix2 r j) + v122 (Idealize.ShloMosaic.ValueIdx.ix2 (0 : Fin 1) j) := by
  unfold k6_pay1
  refine (Idealize.ShloMosaic.ValueIdx.addf_apply _ _ _).trans ?_
  refine congrArg (fun z => v121 (Idealize.ShloMosaic.ValueIdx.ix2 r j) + z) ?_
  refine (broadcastTo_apply _ _ (Idealize.ShloMosaic.ValueIdx.ix2 r j) (Idealize.ShloMosaic.ValueIdx.ix2 (0 : Fin 1) j) (fun a => ?_)).trans ?_
  · match a with
    | ⟨0, _⟩ => rfl
    | ⟨1, _⟩ => rfl
  · rw [shapeCast_self]

section Region
variable (V : (c : Dev nD) → (b : Ref sig .tc) → Buf (Elt Ideal) ((c : Thread nD τ).loc b))

/-- Every point adds the same bias row. -/
theorem biasBlkR6 (c : Dev nD) (t : Fin (cfgR6 V).N) (j : Fin 128) :
    (iblkR6 V c 0 t : Vec Ideal S1x128 .f32) (Idealize.ShloMosaic.ValueIdx.ix2 (0 : Fin 1) j)
      = biasMR6.view.read (Elt Ideal) (V c main_v2) (Idealize.ShloMosaic.ValueIdx.ix2 (0 : Fin 1) j) := by
  unfold iblkR6
  show V c main_v2 ((((cfgR6 V).win 0).blk t).view.emb (Idealize.ShloMosaic.ValueIdx.ix2 (0 : Fin 1) j)) = V c main_v2 (Idealize.ShloMosaic.ValueIdx.ix2 (0 : Fin 1) j)
  refine congrArg (V c main_v2) (funext fun a => Fin.ext ?_)
  match a with
  | ⟨0, _⟩ => show cc6_transform_1 (grid6.coords t) 0 * 1 + 1 * 0 = 0; rw [(biasIdxR6 _).1]
  | ⟨1, _⟩ => show cc6_transform_1 (grid6.coords t) 1 * 128 + 1 * j.val = j.val; rw [(biasIdxR6 _).2]; omega

/-- What point t leaves at (r, j): entry j of the table's row named by token 8·t + r, plus the bias entry. -/
theorem outsAtApplyR6 (hH : HypsR6 V) (c : Dev nD) (t : Fin (cfgR6 V).N) (r : Fin 8) (j : Fin 128) :
    outsAtR6 V hH c t (Idealize.ShloMosaic.ValueIdx.ix2 r j)
      = hbM.view.read (Elt Ideal) (V c main_v0)
            (Idealize.ShloMosaic.ValueIdx.ix2 (Cert.Spec.colOf (tbMR6.view.read (Elt Ideal) (tblR6 V 0)
              (Idealize.ShloMosaic.ValueIdx.ix1 (⟨(8 * (grid6.coords t 0).val + r.val) % 32768, Nat.mod_lt _ (by decide)⟩ : Fin 32768)))) j)
        + biasMR6.view.read (Elt Ideal) (V c main_v2) (Idealize.ShloMosaic.ValueIdx.ix2 (0 : Fin 1) j) := by
  unfold outsAtR6
  refine (congrFun (outR6_eq c (grid6.coords t) (msR6_0 V t) (hsR6_0 V t) (msR6_1 V t) (hsR6_1 V t) (iblkR6 V c 0 t) (tblR6 V 0) (V c main_v0) (fsJR6 c) (hH c t)) (Idealize.ShloMosaic.ValueIdx.ix2 r j)).trans ?_
  refine (payApplyR6 _ _ r j).trans ?_
  exact congrArg₂ (· + ·)
    (gatherR6_apply c (grid6.coords t) (tblR6 V 0) (V c main_v0) (hH c t) r j)
    (biasBlkR6 V c t j)

/-- The region's output array as one function: entry (n, j) is table[ids[n], j] + bias[0, j]. -/
def arrGR6 (c : Dev nD) : S32768x128.Idx → Elt Ideal .f32 := fun i =>
  hbM.view.read (Elt Ideal) (V c main_v0)
      (Idealize.ShloMosaic.ValueIdx.ix2 (Cert.Spec.colOf (tbMR6.view.read (Elt Ideal) (tblR6 V 0) (Idealize.ShloMosaic.ValueIdx.ix1 (n := 32768) (i 0)))) (n1 := 128) (i 1))
    + biasMR6.view.read (Elt Ideal) (V c main_v2) (Idealize.ShloMosaic.ValueIdx.ix2 (0 : Fin 1) (n1 := 128) (i 1))

theorem indexR6 (t : Fin (cfgR6 V).N) :
    ((cfgR6 V).win 1).index t (0 : Fin 2) = t.val ∧ ((cfgR6 V).win 1).index t (1 : Fin 2) = 0 := by
  show cc6_transform_2 (grid6.coords t) 0 = t.val ∧ cc6_transform_2 (grid6.coords t) 1 = 0
  exact ⟨(outIdxR6 _).1.trans (coordR6 t), (outIdxR6 _).2⟩

theorem flushR6 (t : Fin (cfgR6 V).N) : ((cfgR6 V).win 1).flush t = true := by
  unfold Pipeline.Window.flush
  simp only [Bool.and_eq_true, Bool.or_eq_true, decide_eq_true_eq]
  refine ⟨rfl, ?_⟩
  by_cases h : t.val + 1 = (cfgR6 V).grid.N
  · exact Or.inl h
  · have hlt : t.val + 1 < (cfgR6 V).grid.N := by have ht : t.val < (cfgR6 V).grid.N := t.isLt; omega
    refine Or.inr ⟨hlt, fun e => ?_⟩
    have e0 := congrFun e (0 : Fin 2)
    rw [(indexR6 V t).1, (indexR6 V ⟨t.val + 1, hlt⟩).1] at e0
    exact absurd e0 (by show t.val + 1 ≠ t.val; omega)

theorem flushedEqR6 (hH : HypsR6 V) (c : Dev nD) (t : Fin (cfgR6 V).N) :
    (datR6 V hH c).flushed 1 t = (((cfgR6 V).win 1).blk t).view.read (Elt Ideal) (arrGR6 V c) := by
  show ((cfgR6 V).win 1).cut ((cfgR6 V).grid.coords t) ((datR6 V hH c).after 1 t) = _
  rw [afterR6_1]
  refine funext fun (y : S8x128.Idx) => ?_
  show outsAtR6 V hH c t y = arrGR6 V c ((((cfgR6 V).win 1).blk t).view.emb y)
  have hr : (y 0).val < 8 := (y 0).isLt
  have hj : (y 1).val < 128 := (y 1).isLt
  have ht : t.val < 4096 := t.isLt
  obtain ⟨q0, q1⟩ := indexR6 V t
  have hy : (y : S8x128.Idx) = Idealize.ShloMosaic.ValueIdx.ix2 (n0 := 8) (n1 := 128) (y 0) (y 1) := Idealize.ShloMosaic.ValueIdx.eq_ix2 (n0 := 8) (n1 := 128) y
  have he : (((cfgR6 V).win 1).blk t).view.emb y
      = Idealize.ShloMosaic.ValueIdx.ix2 (⟨(8 * (grid6.coords t 0).val + (y 0).val) % 32768, Nat.mod_lt _ (by decide)⟩ : Fin 32768) (n1 := 128) (y 1) := by
    funext a; apply Fin.ext
    match a with
    | ⟨0, _⟩ =>
      show ((cfgR6 V).win 1).index t (0 : Fin 2) * 8 + 1 * (y 0).val = (8 * (grid6.coords t 0).val + (y 0).val) % 32768
      rw [q0, coordR6 t]; omega
    | ⟨1, _⟩ =>
      show ((cfgR6 V).win 1).index t (1 : Fin 2) * 128 + 1 * (y 1).val = (y 1).val
      rw [q1]; omega
  exact ((congrArg (outsAtR6 V hH c t) hy).trans (outsAtApplyR6 V hH c t (y 0) (y 1))).trans (congrArg (arrGR6 V c) he).symm

theorem memBlkR6 (t : Fin (cfgR6 V).N) (i : S32768x128.Idx) :
    i ∈ (((cfgR6 V).win 1).blk t).view.set ↔ ∀ a : Fin 2, ((cfgR6 V).win 1).index t a * S8x128.size a ≤ (i a).val ∧ (i a).val < ((cfgR6 V).win 1).index t a * S8x128.size a + S8x128.size a := by
  have h : (((cfgR6 V).win 1).blk t).view.set = (((cfgR6 V).win 1).rect t : Rect main_v16.ty.shape).set := View.set_slice_whole main_v16 _
  refine (Finset.ext_iff.mp h i).trans ?_
  exact Rect.mem_set_unit

/-- The blocks tile the array: row n lies in the block of point n / 8. -/
theorem arrCoverR6 (i : S32768x128.Idx) :
    ∃ t : Fin (cfgR6 V).N, ((cfgR6 V).win 1).flush t = true ∧ i ∈ (((cfgR6 V).win 1).blk t).view.set := by
  have hi0 : (i 0).val < 32768 := (i 0).isLt
  have hi1 : (i 1).val < 128 := (i 1).isLt
  have hlt : (i 0).val / 8 < (cfgR6 V).N := by show (i 0).val / 8 < 4096; omega
  obtain ⟨q0, q1⟩ := indexR6 V ⟨(i 0).val / 8, hlt⟩
  refine ⟨⟨(i 0).val / 8, hlt⟩, flushR6 V _, ?_⟩
  rw [memBlkR6]
  intro a
  match a with
  | ⟨0, _⟩ =>
    show ((cfgR6 V).win 1).index ⟨(i 0).val / 8, hlt⟩ (0 : Fin 2) * 8 ≤ (i 0).val ∧ (i 0).val < ((cfgR6 V).win 1).index ⟨(i 0).val / 8, hlt⟩ (0 : Fin 2) * 8 + 8
    rw [q0]; show (i 0).val / 8 * 8 ≤ (i 0).val ∧ (i 0).val < (i 0).val / 8 * 8 + 8; omega
  | ⟨1, _⟩ =>
    show ((cfgR6 V).win 1).index ⟨(i 0).val / 8, hlt⟩ (1 : Fin 2) * 128 ≤ (i 1).val ∧ (i 1).val < ((cfgR6 V).win 1).index ⟨(i 0).val / 8, hlt⟩ (1 : Fin 2) * 128 + 128
    rw [q1]; omega

theorem arrAtEqR6 (hH : HypsR6 V) (c : Dev nD) : (datR6 V hH c).arrAt 1 (cfgR6 V).N = arrGR6 V c :=
  (datR6 V hH c).arrAt_eq_of_cover 1 (arrGR6 V c) (fun t _ => flushedEqR6 V hH c t) (arrCoverR6 V)

end Region

theorem arrAtR6_apply (V : (c : Dev nD) → (b : Ref sig .tc) → Buf (Elt Ideal) ((c : Thread nD τ).loc b)) (hH : HypsR6 V) (c : Dev nD)
    (n : Fin 32768) (j : Fin 128) :
    outMR6.view.read (Elt Ideal) ((datR6 (F := Ideal) V hH c).arrAt 1 (cfgR6 V).N) (Idealize.ShloMosaic.ValueIdx.ix2 n j)
      = hbM.view.read (Elt Ideal) (V c main_v0)
            (Idealize.ShloMosaic.ValueIdx.ix2 (Cert.Spec.colOf (tbMR6.view.read (Elt Ideal) (tblR6 V 0) (Idealize.ShloMosaic.ValueIdx.ix1 n))) j)
        + biasMR6.view.read (Elt Ideal) (V c main_v2) (Idealize.ShloMosaic.ValueIdx.ix2 (0 : Fin 1) j) :=
  (congrArg (fun f => outMR6.view.read (Elt Ideal) f (Idealize.ShloMosaic.ValueIdx.ix2 n j)) (arrAtEqR6 V hH c)).trans rfl

end Cert.KernelIdeal.Emb

end
-- ==== Proof.KernelIdeal.ArrVal7.lean ====
import proofs.«418142_j33036888441229_2_alg».proof.Proof.KernelIdeal.Reg7
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Emb

open Cert.KernelIdeal Cert.KernelIdeal.Gen
open Idealize.ShloMosaic Idealize.ShloMosaic.TcCoe
open Idealize.SL.Sem
open Idealize.ShloMosaic.Pipeline (Dat Cfg Window)

section
variable {F : FTy → Type} [FloatOps F] (c : Dev nD) (i : grid7.Coords) (xt : MBuf (F := F) c tbMR7) (fh : MBuf (F := F) c hbM) (h : OkR7 c i xt)
open Cert.Emb

set_option maxHeartbeats 400000 in
/-- The gathered tile at (r, j): entry j of the table's row named by token 8·i + r of the index table. -/
theorem gatherR7_apply (r : Fin 8) (j : Fin 128) :
    gatherR7 c i xt fh h (Idealize.ShloMosaic.ValueIdx.ix2 r j)
      = hbM.view.read (Elt F) fh (Idealize.ShloMosaic.ValueIdx.ix2 (Cert.Spec.colOf (tbMR7.view.read (Elt F) xt (Idealize.ShloMosaic.ValueIdx.ix1 (⟨(8 * (i 0).val + r.val) % 32768, Nat.mod_lt _ (by decide)⟩ : Fin 32768)))) j) := by
  have hi : (i 0).val < 4096 := (i 0).isLt
  unfold gatherR7
  match r with
  | ⟨0, _⟩ => exact gathered_read tbMR7.view hbM.view (k7_off1 i) (k7_off1_inb i) _ xt (i 0).val 0 (tokenOff_toNat _ 0 hi (by decide)) (k7_off2 _) (k7_off2_inb _ h.1) squeezes_S1x128_S128.numel_eq rfl rfl fh j
  | ⟨1, _⟩ => exact gathered_read tbMR7.view hbM.view (k7_off3 i) (k7_off3_inb i) _ xt (i 0).val 1 (tokenOff_toNat _ 1 hi (by decide)) (k7_off4 _) (k7_off4_inb _ h.2.1) squeezes_S1x128_S128.numel_eq rfl rfl fh j
  | ⟨2, _⟩ => exact gathered_read tbMR7.view hbM.view (k7_off5 i) (k7_off5_inb i) _ xt (i 0).val 2 (tokenOff_toNat _ 2 hi (by decide)) (k7_off6 _) (k7_off6_inb _ h.2.2.1) squeezes_S1x128_S128.numel_eq rfl rfl fh j
  | ⟨3, _⟩ => exact gathered_read tbMR7.view hbM.view (k7_off7 i) (k7_off7_inb i) _ xt (i 0).val 3 (tokenOff_toNat _ 3 hi (by decide)) (k7_off8 _) (k7_off8_inb _ h.2.2.2.1) squeezes_S1x128_S128.numel_eq rfl rfl fh j
  | ⟨4, _⟩ => exact gathered_read tbMR7.view hbM.view (k7_off9 i) (k7_off9_inb i) _ xt (i 0).val 4 (tokenOff_toNat _ 4 hi (by decide)) (k7_off10 _) (k7_off10_inb _ h.2.2.2.2.1) squeezes_S1x128_S128.numel_eq rfl rfl fh j
  | ⟨5, _⟩ => exact gathered_read tbMR7.view hbM.view (k7_off11 i) (k7_off11_inb i) _ xt (i 0).val 5 (tokenOff_toNat _ 5 hi (by decide)) (k7_off12 _) (k7_off12_inb _ h.2.2.2.2.2.1) squeezes_S1x128_S128.numel_eq rfl rfl fh j
  | ⟨6, _⟩ => exact gathered_read tbMR7.view hbM.view (k7_off13 i) (k7_off13_inb i) _ xt (i 0).val 6 (tokenOff_toNat _ 6 hi (by decide)) (k7_off14 _) (k7_off14_inb _ h.2.2.2.2.2.2.1) squeezes_S1x128_S128.numel_eq rfl rfl fh j
  | ⟨7, _⟩ => exact gathered_read tbMR7.view hbM.view (k7_off15 i) (k7_off15_inb i) _ xt (i 0).val 7 (tokenOff_toNat _ 7 hi (by decide)) (k7_off16 _) (k7_off16_inb _ h.2.2.2.2.2.2.2) squeezes_S1x128_S128.numel_eq rfl rfl fh j

end

abbrev outMR7 : Memref sig .tc .hbm S32768x128 .f32 := Memref.whole main_v18
abbrev biasMR7 : Memref sig .tc .hbm S1x128 .f32 := Memref.whole main_v2

/-- Point t of the one-axis grid has coordinate t. -/
theorem coordR7 (t : Fin grid7.N) : (grid7.coords t 0).val = t.val := by
  have hN : grid7.N = 4096 := by decide
  have ht : t.val < 4096 := hN ▸ t.isLt
  show t.val / grid7.stride 0 % 4096 = t.val
  rw [show grid7.stride 0 = 1 from by decide, Nat.div_one, Nat.mod_eq_of_lt ht]

theorem outIdxR7 (i : grid7.Coords) : cc7_transform_2 i 0 = (i 0).val ∧ cc7_transform_2 i 1 = 0 := by
  have hi : (i 0).val < 4096 := (i 0).isLt
  unfold cc7_transform_2
  refine ⟨?_, rfl⟩
  show (BitVec.ofNat 32 (i 0).val).toNat = (i 0).val
  rw [BitVec.toNat_ofNat]
  omega

theorem biasIdxR7 (i : grid7.Coords) : cc7_transform_1 i 0 = 0 ∧ cc7_transform_1 i 1 = 0 := ⟨rfl, rfl⟩

/-- The stored block at (r, j): the tile's entry plus the bias row's entry j. -/
theorem payApplyR7 (v121 : Vec Ideal S8x128 .f32) (v122 : Vec Ideal S1x128 .f32) (r : Fin 8) (j : Fin 128) :
    k7_pay1 v121 v122 (Idealize.ShloMosaic.ValueIdx.ix2 r j)
      = v121 (Idealize.ShloMosaic.ValueIdx.ix2 r j) + v122 (Idealize.ShloMosaic.ValueIdx.ix2 (0 : Fin 1) j) := by
  unfold k7_pay1
  refine (Idealize.ShloMosaic.ValueIdx.addf_apply _ _ _).trans ?_
  refine congrArg (fun z => v121 (Idealize.ShloMosaic.ValueIdx.ix2 r j) + z) ?_
  refine (broadcastTo_apply _ _ (Idealize.ShloMosaic.ValueIdx.ix2 r j) (Idealize.ShloMosaic.ValueIdx.ix2 (0 : Fin 1) j) (fun a => ?_)).trans ?_
  · match a with
    | ⟨0, _⟩ => rfl
    | ⟨1, _⟩ => rfl
  · rw [shapeCast_self]

section Region
variable (V : (c : Dev nD) → (b : Ref sig .tc) → Buf (Elt Ideal) ((c : Thread nD τ).loc b))

/-- Every point adds the same bias row. -/
theorem biasBlkR7 (c : Dev nD) (t : Fin (cfgR7 V).N) (j : Fin 128) :
    (iblkR7 V c 0 t : Vec Ideal S1x128 .f32) (Idealize.ShloMosaic.ValueIdx.ix2 (0 : Fin 1) j)
      = biasMR7.view.read (Elt Ideal) (V c main_v2) (Idealize.ShloMosaic.ValueIdx.ix2 (0 : Fin 1) j) := by
  unfold iblkR7
  show V c main_v2 ((((cfgR7 V).win 0).blk t).view.emb (Idealize.ShloMosaic.ValueIdx.ix2 (0 : Fin 1) j)) = V c main_v2 (Idealize.ShloMosaic.ValueIdx.ix2 (0 : Fin 1) j)
  refine congrArg (V c main_v2) (funext fun a => Fin.ext ?_)
  match a with
  | ⟨0, _⟩ => show cc7_transform_1 (grid7.coords t) 0 * 1 + 1 * 0 = 0; rw [(biasIdxR7 _).1]
  | ⟨1, _⟩ => show cc7_transform_1 (grid7.coords t) 1 * 128 + 1 * j.val = j.val; rw [(biasIdxR7 _).2]; omega

/-- What point t leaves at (r, j): entry j of the table's row named by token 8·t + r, plus the bias entry. -/
theorem outsAtApplyR7 (hH : HypsR7 V) (c : Dev nD) (t : Fin (cfgR7 V).N) (r : Fin 8) (j : Fin 128) :
    outsAtR7 V hH c t (Idealize.ShloMosaic.ValueIdx.ix2 r j)
      = hbM.view.read (Elt Ideal) (V c main_v0)
            (Idealize.ShloMosaic.ValueIdx.ix2 (Cert.Spec.colOf (tbMR7.view.read (Elt Ideal) (tblR7 V 0)
              (Idealize.ShloMosaic.ValueIdx.ix1 (⟨(8 * (grid7.coords t 0).val + r.val) % 32768, Nat.mod_lt _ (by decide)⟩ : Fin 32768)))) j)
        + biasMR7.view.read (Elt Ideal) (V c main_v2) (Idealize.ShloMosaic.ValueIdx.ix2 (0 : Fin 1) j) := by
  unfold outsAtR7
  refine (congrFun (outR7_eq c (grid7.coords t) (msR7_0 V t) (hsR7_0 V t) (msR7_1 V t) (hsR7_1 V t) (iblkR7 V c 0 t) (tblR7 V 0) (V c main_v0) (fsJR7 c) (hH c t)) (Idealize.ShloMosaic.ValueIdx.ix2 r j)).trans ?_
  refine (payApplyR7 _ _ r j).trans ?_
  exact congrArg₂ (· + ·)
    (gatherR7_apply c (grid7.coords t) (tblR7 V 0) (V c main_v0) (hH c t) r j)
    (biasBlkR7 V c t j)

/-- The region's output array as one function: entry (n, j) is table[ids[n], j] + bias[0, j]. -/
def arrGR7 (c : Dev nD) : S32768x128.Idx → Elt Ideal .f32 := fun i =>
  hbM.view.read (Elt Ideal) (V c main_v0)
      (Idealize.ShloMosaic.ValueIdx.ix2 (Cert.Spec.colOf (tbMR7.view.read (Elt Ideal) (tblR7 V 0) (Idealize.ShloMosaic.ValueIdx.ix1 (n := 32768) (i 0)))) (n1 := 128) (i 1))
    + biasMR7.view.read (Elt Ideal) (V c main_v2) (Idealize.ShloMosaic.ValueIdx.ix2 (0 : Fin 1) (n1 := 128) (i 1))

theorem indexR7 (t : Fin (cfgR7 V).N) :
    ((cfgR7 V).win 1).index t (0 : Fin 2) = t.val ∧ ((cfgR7 V).win 1).index t (1 : Fin 2) = 0 := by
  show cc7_transform_2 (grid7.coords t) 0 = t.val ∧ cc7_transform_2 (grid7.coords t) 1 = 0
  exact ⟨(outIdxR7 _).1.trans (coordR7 t), (outIdxR7 _).2⟩

theorem flushR7 (t : Fin (cfgR7 V).N) : ((cfgR7 V).win 1).flush t = true := by
  unfold Pipeline.Window.flush
  simp only [Bool.and_eq_true, Bool.or_eq_true, decide_eq_true_eq]
  refine ⟨rfl, ?_⟩
  by_cases h : t.val + 1 = (cfgR7 V).grid.N
  · exact Or.inl h
  · have hlt : t.val + 1 < (cfgR7 V).grid.N := by have ht : t.val < (cfgR7 V).grid.N := t.isLt; omega
    refine Or.inr ⟨hlt, fun e => ?_⟩
    have e0 := congrFun e (0 : Fin 2)
    rw [(indexR7 V t).1, (indexR7 V ⟨t.val + 1, hlt⟩).1] at e0
    exact absurd e0 (by show t.val + 1 ≠ t.val; omega)

theorem flushedEqR7 (hH : HypsR7 V) (c : Dev nD) (t : Fin (cfgR7 V).N) :
    (datR7 V hH c).flushed 1 t = (((cfgR7 V).win 1).blk t).view.read (Elt Ideal) (arrGR7 V c) := by
  show ((cfgR7 V).win 1).cut ((cfgR7 V).grid.coords t) ((datR7 V hH c).after 1 t) = _
  rw [afterR7_1]
  refine funext fun (y : S8x128.Idx) => ?_
  show outsAtR7 V hH c t y = arrGR7 V c ((((cfgR7 V).win 1).blk t).view.emb y)
  have hr : (y 0).val < 8 := (y 0).isLt
  have hj : (y 1).val < 128 := (y 1).isLt
  have ht : t.val < 4096 := t.isLt
  obtain ⟨q0, q1⟩ := indexR7 V t
  have hy : (y : S8x128.Idx) = Idealize.ShloMosaic.ValueIdx.ix2 (n0 := 8) (n1 := 128) (y 0) (y 1) := Idealize.ShloMosaic.ValueIdx.eq_ix2 (n0 := 8) (n1 := 128) y
  have he : (((cfgR7 V).win 1).blk t).view.emb y
      = Idealize.ShloMosaic.ValueIdx.ix2 (⟨(8 * (grid7.coords t 0).val + (y 0).val) % 32768, Nat.mod_lt _ (by decide)⟩ : Fin 32768) (n1 := 128) (y 1) := by
    funext a; apply Fin.ext
    match a with
    | ⟨0, _⟩ =>
      show ((cfgR7 V).win 1).index t (0 : Fin 2) * 8 + 1 * (y 0).val = (8 * (grid7.coords t 0).val + (y 0).val) % 32768
      rw [q0, coordR7 t]; omega
    | ⟨1, _⟩ =>
      show ((cfgR7 V).win 1).index t (1 : Fin 2) * 128 + 1 * (y 1).val = (y 1).val
      rw [q1]; omega
  exact ((congrArg (outsAtR7 V hH c t) hy).trans (outsAtApplyR7 V hH c t (y 0) (y 1))).trans (congrArg (arrGR7 V c) he).symm

theorem memBlkR7 (t : Fin (cfgR7 V).N) (i : S32768x128.Idx) :
    i ∈ (((cfgR7 V).win 1).blk t).view.set ↔ ∀ a : Fin 2, ((cfgR7 V).win 1).index t a * S8x128.size a ≤ (i a).val ∧ (i a).val < ((cfgR7 V).win 1).index t a * S8x128.size a + S8x128.size a := by
  have h : (((cfgR7 V).win 1).blk t).view.set = (((cfgR7 V).win 1).rect t : Rect main_v18.ty.shape).set := View.set_slice_whole main_v18 _
  refine (Finset.ext_iff.mp h i).trans ?_
  exact Rect.mem_set_unit

/-- The blocks tile the array: row n lies in the block of point n / 8. -/
theorem arrCoverR7 (i : S32768x128.Idx) :
    ∃ t : Fin (cfgR7 V).N, ((cfgR7 V).win 1).flush t = true ∧ i ∈ (((cfgR7 V).win 1).blk t).view.set := by
  have hi0 : (i 0).val < 32768 := (i 0).isLt
  have hi1 : (i 1).val < 128 := (i 1).isLt
  have hlt : (i 0).val / 8 < (cfgR7 V).N := by show (i 0).val / 8 < 4096; omega
  obtain ⟨q0, q1⟩ := indexR7 V ⟨(i 0).val / 8, hlt⟩
  refine ⟨⟨(i 0).val / 8, hlt⟩, flushR7 V _, ?_⟩
  rw [memBlkR7]
  intro a
  match a with
  | ⟨0, _⟩ =>
    show ((cfgR7 V).win 1).index ⟨(i 0).val / 8, hlt⟩ (0 : Fin 2) * 8 ≤ (i 0).val ∧ (i 0).val < ((cfgR7 V).win 1).index ⟨(i 0).val / 8, hlt⟩ (0 : Fin 2) * 8 + 8
    rw [q0]; show (i 0).val / 8 * 8 ≤ (i 0).val ∧ (i 0).val < (i 0).val / 8 * 8 + 8; omega
  | ⟨1, _⟩ =>
    show ((cfgR7 V).win 1).index ⟨(i 0).val / 8, hlt⟩ (1 : Fin 2) * 128 ≤ (i 1).val ∧ (i 1).val < ((cfgR7 V).win 1).index ⟨(i 0).val / 8, hlt⟩ (1 : Fin 2) * 128 + 128
    rw [q1]; omega

theorem arrAtEqR7 (hH : HypsR7 V) (c : Dev nD) : (datR7 V hH c).arrAt 1 (cfgR7 V).N = arrGR7 V c :=
  (datR7 V hH c).arrAt_eq_of_cover 1 (arrGR7 V c) (fun t _ => flushedEqR7 V hH c t) (arrCoverR7 V)

end Region

theorem arrAtR7_apply (V : (c : Dev nD) → (b : Ref sig .tc) → Buf (Elt Ideal) ((c : Thread nD τ).loc b)) (hH : HypsR7 V) (c : Dev nD)
    (n : Fin 32768) (j : Fin 128) :
    outMR7.view.read (Elt Ideal) ((datR7 (F := Ideal) V hH c).arrAt 1 (cfgR7 V).N) (Idealize.ShloMosaic.ValueIdx.ix2 n j)
      = hbM.view.read (Elt Ideal) (V c main_v0)
            (Idealize.ShloMosaic.ValueIdx.ix2 (Cert.Spec.colOf (tbMR7.view.read (Elt Ideal) (tblR7 V 0) (Idealize.ShloMosaic.ValueIdx.ix1 n))) j)
        + biasMR7.view.read (Elt Ideal) (V c main_v2) (Idealize.ShloMosaic.ValueIdx.ix2 (0 : Fin 1) j) :=
  (congrArg (fun f => outMR7.view.read (Elt Ideal) f (Idealize.ShloMosaic.ValueIdx.ix2 n j)) (arrAtEqR7 V hH c)).trans rfl

end Cert.KernelIdeal.Emb

end
-- ==== Proof.KernelIdeal.Layout.lean ====
import proofs.«418142_j33036888441229_2_alg».proof.Proof.Gen.KernelIdeal
import Idealize.ShloMosaic.Lib.ValueIdx
import Idealize.ShloMosaic.Lib.Pipeline.Value

noncomputable section

namespace Cert.KernelIdeal.Emb

open Cert.KernelIdeal Cert.KernelIdeal.Gen
open Idealize.ShloMosaic

variable {α : Type}

/-- Word n of the 32768-word slice at `off` of the flattened ids is x at the row and column of flat position off + n. -/
theorem slice_flat_apply (x : S64x4096.Idx → α) (off : ℕ) (hs : S262144.Slices ![off] S32768) (n : Fin 32768) :
    extractStridedSlice S32768 ![off] (fun i => shapeCast S262144 x shapeCasts_S64x4096_S262144 i) hs (Idealize.ShloMosaic.ValueIdx.ix1 n)
      = x (Idealize.ShloMosaic.ValueIdx.ix2 (⟨(off + n.val) / 4096 % 64, Nat.mod_lt _ (by decide)⟩ : Fin 64) (⟨(off + n.val) % 4096, Nat.mod_lt _ (by decide)⟩ : Fin 4096)) := by
  have hoff : off + 32768 ≤ 262144 := by
    obtain ⟨_, h'⟩ := hs
    exact h' 0
  have hn : n.val < 32768 := n.isLt
  have hlt : off + n.val < 262144 := by omega

  refine (extractStridedSlice_apply ![off] _ hs (Idealize.ShloMosaic.ValueIdx.ix1 n) (Idealize.ShloMosaic.ValueIdx.ix1 (⟨off + n.val, hlt⟩ : Fin 262144))
    (fun a => match a with | ⟨0, _⟩ => rfl)).trans ?_

  refine shapeCast_apply x shapeCasts_S64x4096_S262144 _ _ ?_
  rw [Shape.rowMajor_val_two, Shape.rowMajor_val_one]
  show (off + n.val) / 4096 % 64 * 4096 + (off + n.val) % 4096 = off + n.val
  omega

/-- Transposing swaps the two coordinates. -/
theorem transpose_weight_apply (W : S128x50257.Idx → α) (v : Fin 50257) (j : Fin 128) :
    transpose S50257x128 [1, 0] W transposes_S128x50257_S50257x128_1_0 (Idealize.ShloMosaic.ValueIdx.ix2 v j) = W (Idealize.ShloMosaic.ValueIdx.ix2 j v) :=
  transpose_apply [1, 0] W transposes_S128x50257_S50257x128_1_0 (Idealize.ShloMosaic.ValueIdx.ix2 v j) (Idealize.ShloMosaic.ValueIdx.ix2 j v)
    (fun b => match b with | ⟨0, _⟩ => rfl | ⟨1, _⟩ => rfl)

/-- Reshaping 128 to 1 × 128 keeps entry j at (0, j). -/
theorem bias_row_apply (b : S128.Idx → α) (j : Fin 128) :
    shapeCast S1x128 b shapeCasts_S128_S1x128 (Idealize.ShloMosaic.ValueIdx.ix2 (0 : Fin 1) j) = b (Idealize.ShloMosaic.ValueIdx.ix1 j) := by
  refine shapeCast_apply b shapeCasts_S128_S1x128 _ _ ?_
  rw [Shape.rowMajor_val_one, Shape.rowMajor_val_two]
  show j.val = 0 * 128 + j.val
  omega

/-- k pieces of 32768 rows end at row 32768·k. -/
theorem stack_pre : ∀ k : ℕ, k < 8 →
    ((([S32768x128, S32768x128, S32768x128, S32768x128, S32768x128, S32768x128, S32768x128, S32768x128] : List Shape).take k).map
      fun s => if h : s.rank = S262144x128.rank then s.size ((0 : Fin S262144x128.rank).cast h.symm) else 0).sum = 32768 * k := by
  decide

/-- Row r of the eight stacked outputs is row r mod 32768 of output r / 32768. -/
theorem stack_apply (u : Fin 8 → S32768x128.Idx → α) (k : Fin 8) (r : ℕ) (hr : r < 262144) (hk : r / 32768 = k.val) (j : Fin 128) :
    concatenate S262144x128 0 [⟨S32768x128, u 0⟩, ⟨S32768x128, u 1⟩, ⟨S32768x128, u 2⟩, ⟨S32768x128, u 3⟩, ⟨S32768x128, u 4⟩, ⟨S32768x128, u 5⟩, ⟨S32768x128, u 6⟩, ⟨S32768x128, u 7⟩]
        concatenates_S32768x128_S32768x128_S32768x128_S32768x128_S32768x128_S32768x128_S32768x128_S32768x128_S262144x128_d0 (Idealize.ShloMosaic.ValueIdx.ix2 (⟨r, hr⟩ : Fin 262144) j)
      = u k (Idealize.ShloMosaic.ValueIdx.ix2 (⟨r % 32768, Nat.mod_lt _ (by decide)⟩ : Fin 32768) j) := by

  have hxk : ([⟨S32768x128, u 0⟩, ⟨S32768x128, u 1⟩, ⟨S32768x128, u 2⟩, ⟨S32768x128, u 3⟩, ⟨S32768x128, u 4⟩, ⟨S32768x128, u 5⟩, ⟨S32768x128, u 6⟩, ⟨S32768x128, u 7⟩] : List ((s : Shape) × (s.Idx → α)))[k.val]'k.isLt = ⟨S32768x128, u k⟩ :=
    match k with
    | ⟨0, _⟩ => rfl | ⟨1, _⟩ => rfl | ⟨2, _⟩ => rfl | ⟨3, _⟩ => rfl
    | ⟨4, _⟩ => rfl | ⟨5, _⟩ => rfl | ⟨6, _⟩ => rfl | ⟨7, _⟩ => rfl
  have hpre : (((([⟨S32768x128, u 0⟩, ⟨S32768x128, u 1⟩, ⟨S32768x128, u 2⟩, ⟨S32768x128, u 3⟩, ⟨S32768x128, u 4⟩, ⟨S32768x128, u 5⟩, ⟨S32768x128, u 6⟩, ⟨S32768x128, u 7⟩] : List ((s : Shape) × (s.Idx → α))).take k.val).map (·.1)).map
      fun s => if h : s.rank = S262144x128.rank then s.size ((0 : Fin S262144x128.rank).cast h.symm) else 0).sum = 32768 * k.val := by
    rw [List.map_take]
    exact stack_pre k.val k.isLt
  refine concatenate_apply_piece (t := S262144x128) 0 [⟨S32768x128, u 0⟩, ⟨S32768x128, u 1⟩, ⟨S32768x128, u 2⟩, ⟨S32768x128, u 3⟩, ⟨S32768x128, u 4⟩, ⟨S32768x128, u 5⟩, ⟨S32768x128, u 6⟩, ⟨S32768x128, u 7⟩]
    concatenates_S32768x128_S32768x128_S32768x128_S32768x128_S32768x128_S32768x128_S32768x128_S32768x128_S262144x128_d0 _ k.val k.isLt S32768x128 (u k) hxk rfl (32768 * k.val) hpre _
    (fun b hb => match b, hb with
      | ⟨0, _⟩, hb => absurd rfl hb
      | ⟨1, _⟩, _ => rfl) ?_
  show 32768 * k.val + r % 32768 = r
  omega

/-- Entry (b, s, j) of the reshaped stack sits at flat row 4096·b + s. -/
theorem result_apply (u : Fin 8 → S32768x128.Idx → α) (bq : Fin 64) (s : Fin 4096) (j : Fin 128) :
    shapeCast S64x4096x128
        (concatenate S262144x128 0 [⟨S32768x128, u 0⟩, ⟨S32768x128, u 1⟩, ⟨S32768x128, u 2⟩, ⟨S32768x128, u 3⟩, ⟨S32768x128, u 4⟩, ⟨S32768x128, u 5⟩, ⟨S32768x128, u 6⟩, ⟨S32768x128, u 7⟩]
          concatenates_S32768x128_S32768x128_S32768x128_S32768x128_S32768x128_S32768x128_S32768x128_S32768x128_S262144x128_d0)
        shapeCasts_S262144x128_S64x4096x128 (Idealize.ShloMosaic.ValueIdx.ix3 bq s j)
      = u (⟨(4096 * bq.val + s.val) / 32768 % 8, Nat.mod_lt _ (by decide)⟩ : Fin 8)
          (Idealize.ShloMosaic.ValueIdx.ix2 (⟨(4096 * bq.val + s.val) % 32768, Nat.mod_lt _ (by decide)⟩ : Fin 32768) j) := by
  have hb : bq.val < 64 := bq.isLt
  have hs : s.val < 4096 := s.isLt
  have hr : 4096 * bq.val + s.val < 262144 := by omega
  have hq : (4096 * bq.val + s.val) / 32768 < 8 := by omega

  refine (shapeCast_apply _ shapeCasts_S262144x128_S64x4096x128 (Idealize.ShloMosaic.ValueIdx.ix3 bq s j)
    (Idealize.ShloMosaic.ValueIdx.ix2 (⟨4096 * bq.val + s.val, hr⟩ : Fin 262144) j) ?_).trans ?_
  · rw [Shape.rowMajor_val_two, Shape.rowMajor_val_three]
    show (4096 * bq.val + s.val) * 128 + j.val = (bq.val * 4096 + s.val) * 128 + j.val
    omega

  refine (stack_apply u (⟨(4096 * bq.val + s.val) / 32768, hq⟩ : Fin 8) _ hr rfl j).trans ?_
  exact congrArg (fun k => u k _) (Fin.ext (Nat.mod_eq_of_lt hq).symm)

end Cert.KernelIdeal.Emb

end
-- ==== Proof.KernelIdeal.Pieces.lean ====
/-
  The kernel's result, index by index, over the extended reals. Region K's output array at (n, j) is the gather
  table's row named by its table's n-th word, plus the bias row; that word is the token id at flat position
  32768·K + n of the input, the gather table is the weight transposed and the bias row is the bias. The result stacks
  the eight outputs and reshapes them, so its entry (b, s, j) lies in output (4096·b + s) / 32768 at row
  (4096·b + s) mod 32768, whose flat position is 4096·b + s again: the token id is x[b, s], and the entry is
  W[j, x[b, s]] + bias[j] — the specification.
-/
import proofs.«418142_j33036888441229_2_alg».proof.Proof.KernelIdeal.Fold
import proofs.«418142_j33036888441229_2_alg».proof.Proof.KernelIdeal.ArrVal0
import proofs.«418142_j33036888441229_2_alg».proof.Proof.KernelIdeal.ArrVal1
import proofs.«418142_j33036888441229_2_alg».proof.Proof.KernelIdeal.ArrVal2
import proofs.«418142_j33036888441229_2_alg».proof.Proof.KernelIdeal.ArrVal3
import proofs.«418142_j33036888441229_2_alg».proof.Proof.KernelIdeal.ArrVal4
import proofs.«418142_j33036888441229_2_alg».proof.Proof.KernelIdeal.ArrVal5
import proofs.«418142_j33036888441229_2_alg».proof.Proof.KernelIdeal.ArrVal6
import proofs.«418142_j33036888441229_2_alg».proof.Proof.KernelIdeal.ArrVal7
import proofs.«418142_j33036888441229_2_alg».proof.Proof.KernelIdeal.Layout
import proofs.«418142_j33036888441229_2_alg».proof.Proof.Spec

set_option maxRecDepth 16384

noncomputable section

namespace Cert.KernelIdeal.Emb

open Cert.KernelIdeal Cert.KernelIdeal.Gen
open Idealize.ShloMosaic Idealize.ShloMosaic.TcCoe
open Idealize.SL.Sem

section Value

variable (m : (ℓ : Loc nD τ sig) → Buf (Elt Ideal) ℓ)
variable (hx : ∀ (c : Dev nD) (j : S64x4096.Idx), BitVec.toNat (m ((c.tc : Thread nD τ).loc main_arg0) j) < 50257)

/-- The three arguments on a core, as functions of an index: the token ids, the weight, the bias. -/
abbrev xA (c : Dev nD) : S64x4096.Idx → BitVec 32 := m ((c.tc : Thread nD τ).loc main_arg0)
abbrev wA (c : Dev nD) : S128x50257.Idx → EReal := m ((c.tc : Thread nD τ).loc main_arg1)
abbrev bA (c : Dev nD) : S128.Idx → EReal := m ((c.tc : Thread nD τ).loc main_arg2)

include hx

/-! ## Region 0 -/

/-- Word n of region 0's index table is the token id at flat position 0 + n. -/
theorem tbl_word0 (n : Fin 32768) :
    tbMR0.view.read (Elt Ideal) (tblR0 (U1 m) 0) (Idealize.ShloMosaic.ValueIdx.ix1 n) = xA m (0 : Dev nD) (Idealize.ShloMosaic.ValueIdx.ix2 (⟨(0 + n.val) / 4096 % 64, Nat.mod_lt _ (by decide)⟩ : Fin 64) (⟨(0 + n.val) % 4096, Nat.mod_lt _ (by decide)⟩ : Fin 4096)) := by
  show W1 m (0 : Dev nD) (Proc.devRef .tc main_v3) (Idealize.ShloMosaic.ValueIdx.ix1 n) = _
  rw [tbl_eq0 m hx, flat_eq]
  exact slice_flat_apply _ 0 slices_S262144_S32768_0 n

/-- The gather table as region 0 finds it: the weight transposed. -/
theorem gt_read0 (c : Dev nD) (v : Fin 50257) (j : Fin 128) :
    hbM.view.read (Elt Ideal) (U1 m c main_v0) (Idealize.ShloMosaic.ValueIdx.ix2 v j) = wA m c (Idealize.ShloMosaic.ValueIdx.ix2 j v) := by
  show W1 m c (Proc.devRef .tc main_v0) (Idealize.ShloMosaic.ValueIdx.ix2 v j) = _
  rw [keep_v0_W1 m hx c, v0_eq]
  exact transpose_weight_apply _ v j

/-- The bias row as region 0 finds it. -/
theorem bias_read0 (c : Dev nD) (j : Fin 128) :
    biasMR0.view.read (Elt Ideal) (U1 m c main_v2) (Idealize.ShloMosaic.ValueIdx.ix2 (0 : Fin 1) j) = bA m c (Idealize.ShloMosaic.ValueIdx.ix1 j) := by
  show W1 m c (Proc.devRef .tc main_v2) (Idealize.ShloMosaic.ValueIdx.ix2 (0 : Fin 1) j) = _
  rw [keep_v2_W1 m hx c, v2_eq]
  exact bias_row_apply _ j

/-- Region 0's output, as the last stretch finds it, at (n, j). -/
theorem piece0 (n : Fin 32768) (j : Fin 128) :
    outMR0.view.read (Elt Ideal) (W16 m hx (0 : Dev nD) (Proc.devRef .tc main_v4)) (Idealize.ShloMosaic.ValueIdx.ix2 n j)
      = wA m (0 : Dev nD) (Idealize.ShloMosaic.ValueIdx.ix2 j (Cert.Spec.colOf (xA m (0 : Dev nD) (Idealize.ShloMosaic.ValueIdx.ix2 (⟨(0 + n.val) / 4096 % 64, Nat.mod_lt _ (by decide)⟩ : Fin 64) (⟨(0 + n.val) % 4096, Nat.mod_lt _ (by decide)⟩ : Fin 4096)))))
        + bA m (0 : Dev nD) (Idealize.ShloMosaic.ValueIdx.ix1 j) := by
  rw [keep_out0_W16 m hx (0 : Dev nD)]
  rw [show W2 m hx (0 : Dev nD) (Proc.devRef .tc main_v4) = (datR0 (U1 m) (hyps0 m hx) (0 : Dev nD)).arrAt 1 (cfgR0 (U1 m)).N from W2_arr m hx (0 : Dev nD) 1]
  refine (arrAtR0_apply (U1 m) (hyps0 m hx) (0 : Dev nD) n j).trans ?_
  rw [tbl_word0 m hx n, gt_read0 m hx (0 : Dev nD), bias_read0 m hx (0 : Dev nD)]

/-! ## Region 1 -/

/-- Word n of region 1's index table is the token id at flat position 32768 + n. -/
theorem tbl_word1 (n : Fin 32768) :
    tbMR1.view.read (Elt Ideal) (tblR1 (U3 m hx) 0) (Idealize.ShloMosaic.ValueIdx.ix1 n) = xA m (0 : Dev nD) (Idealize.ShloMosaic.ValueIdx.ix2 (⟨(32768 + n.val) / 4096 % 64, Nat.mod_lt _ (by decide)⟩ : Fin 64) (⟨(32768 + n.val) % 4096, Nat.mod_lt _ (by decide)⟩ : Fin 4096)) := by
  show W3 m hx (0 : Dev nD) (Proc.devRef .tc main_v5) (Idealize.ShloMosaic.ValueIdx.ix1 n) = _
  rw [tbl_eq1 m hx, flat_eq]
  exact slice_flat_apply _ 32768 slices_S262144_S32768_32768 n

/-- The gather table as region 1 finds it: the weight transposed. -/
theorem gt_read1 (c : Dev nD) (v : Fin 50257) (j : Fin 128) :
    hbM.view.read (Elt Ideal) (U3 m hx c main_v0) (Idealize.ShloMosaic.ValueIdx.ix2 v j) = wA m c (Idealize.ShloMosaic.ValueIdx.ix2 j v) := by
  show W3 m hx c (Proc.devRef .tc main_v0) (Idealize.ShloMosaic.ValueIdx.ix2 v j) = _
  rw [keep_v0_W3 m hx c, v0_eq]
  exact transpose_weight_apply _ v j

/-- The bias row as region 1 finds it. -/
theorem bias_read1 (c : Dev nD) (j : Fin 128) :
    biasMR1.view.read (Elt Ideal) (U3 m hx c main_v2) (Idealize.ShloMosaic.ValueIdx.ix2 (0 : Fin 1) j) = bA m c (Idealize.ShloMosaic.ValueIdx.ix1 j) := by
  show W3 m hx c (Proc.devRef .tc main_v2) (Idealize.ShloMosaic.ValueIdx.ix2 (0 : Fin 1) j) = _
  rw [keep_v2_W3 m hx c, v2_eq]
  exact bias_row_apply _ j

/-- Region 1's output, as the last stretch finds it, at (n, j). -/
theorem piece1 (n : Fin 32768) (j : Fin 128) :
    outMR1.view.read (Elt Ideal) (W16 m hx (0 : Dev nD) (Proc.devRef .tc main_v6)) (Idealize.ShloMosaic.ValueIdx.ix2 n j)
      = wA m (0 : Dev nD) (Idealize.ShloMosaic.ValueIdx.ix2 j (Cert.Spec.colOf (xA m (0 : Dev nD) (Idealize.ShloMosaic.ValueIdx.ix2 (⟨(32768 + n.val) / 4096 % 64, Nat.mod_lt _ (by decide)⟩ : Fin 64) (⟨(32768 + n.val) % 4096, Nat.mod_lt _ (by decide)⟩ : Fin 4096)))))
        + bA m (0 : Dev nD) (Idealize.ShloMosaic.ValueIdx.ix1 j) := by
  rw [keep_out1_W16 m hx (0 : Dev nD)]
  rw [show W4 m hx (0 : Dev nD) (Proc.devRef .tc main_v6) = (datR1 (U3 m hx) (hyps1 m hx) (0 : Dev nD)).arrAt 1 (cfgR1 (U3 m hx)).N from W4_arr m hx (0 : Dev nD) 1]
  refine (arrAtR1_apply (U3 m hx) (hyps1 m hx) (0 : Dev nD) n j).trans ?_
  rw [tbl_word1 m hx n, gt_read1 m hx (0 : Dev nD), bias_read1 m hx (0 : Dev nD)]

/-! ## Region 2 -/

/-- Word n of region 2's index table is the token id at flat position 65536 + n. -/
theorem tbl_word2 (n : Fin 32768) :
    tbMR2.view.read (Elt Ideal) (tblR2 (U5 m hx) 0) (Idealize.ShloMosaic.ValueIdx.ix1 n) = xA m (0 : Dev nD) (Idealize.ShloMosaic.ValueIdx.ix2 (⟨(65536 + n.val) / 4096 % 64, Nat.mod_lt _ (by decide)⟩ : Fin 64) (⟨(65536 + n.val) % 4096, Nat.mod_lt _ (by decide)⟩ : Fin 4096)) := by
  show W5 m hx (0 : Dev nD) (Proc.devRef .tc main_v7) (Idealize.ShloMosaic.ValueIdx.ix1 n) = _
  rw [tbl_eq2 m hx, flat_eq]
  exact slice_flat_apply _ 65536 slices_S262144_S32768_65536 n

/-- The gather table as region 2 finds it: the weight transposed. -/
theorem gt_read2 (c : Dev nD) (v : Fin 50257) (j : Fin 128) :
    hbM.view.read (Elt Ideal) (U5 m hx c main_v0) (Idealize.ShloMosaic.ValueIdx.ix2 v j) = wA m c (Idealize.ShloMosaic.ValueIdx.ix2 j v) := by
  show W5 m hx c (Proc.devRef .tc main_v0) (Idealize.ShloMosaic.ValueIdx.ix2 v j) = _
  rw [keep_v0_W5 m hx c, v0_eq]
  exact transpose_weight_apply _ v j

/-- The bias row as region 2 finds it. -/
theorem bias_read2 (c : Dev nD) (j : Fin 128) :
    biasMR2.view.read (Elt Ideal) (U5 m hx c main_v2) (Idealize.ShloMosaic.ValueIdx.ix2 (0 : Fin 1) j) = bA m c (Idealize.ShloMosaic.ValueIdx.ix1 j) := by
  show W5 m hx c (Proc.devRef .tc main_v2) (Idealize.ShloMosaic.ValueIdx.ix2 (0 : Fin 1) j) = _
  rw [keep_v2_W5 m hx c, v2_eq]
  exact bias_row_apply _ j

/-- Region 2's output, as the last stretch finds it, at (n, j). -/
theorem piece2 (n : Fin 32768) (j : Fin 128) :
    outMR2.view.read (Elt Ideal) (W16 m hx (0 : Dev nD) (Proc.devRef .tc main_v8)) (Idealize.ShloMosaic.ValueIdx.ix2 n j)
      = wA m (0 : Dev nD) (Idealize.ShloMosaic.ValueIdx.ix2 j (Cert.Spec.colOf (xA m (0 : Dev nD) (Idealize.ShloMosaic.ValueIdx.ix2 (⟨(65536 + n.val) / 4096 % 64, Nat.mod_lt _ (by decide)⟩ : Fin 64) (⟨(65536 + n.val) % 4096, Nat.mod_lt _ (by decide)⟩ : Fin 4096)))))
        + bA m (0 : Dev nD) (Idealize.ShloMosaic.ValueIdx.ix1 j) := by
  rw [keep_out2_W16 m hx (0 : Dev nD)]
  rw [show W6 m hx (0 : Dev nD) (Proc.devRef .tc main_v8) = (datR2 (U5 m hx) (hyps2 m hx) (0 : Dev nD)).arrAt 1 (cfgR2 (U5 m hx)).N from W6_arr m hx (0 : Dev nD) 1]
  refine (arrAtR2_apply (U5 m hx) (hyps2 m hx) (0 : Dev nD) n j).trans ?_
  rw [tbl_word2 m hx n, gt_read2 m hx (0 : Dev nD), bias_read2 m hx (0 : Dev nD)]

/-! ## Region 3 -/

/-- Word n of region 3's index table is the token id at flat position 98304 + n. -/
theorem tbl_word3 (n : Fin 32768) :
    tbMR3.view.read (Elt Ideal) (tblR3 (U7 m hx) 0) (Idealize.ShloMosaic.ValueIdx.ix1 n) = xA m (0 : Dev nD) (Idealize.ShloMosaic.ValueIdx.ix2 (⟨(98304 + n.val) / 4096 % 64, Nat.mod_lt _ (by decide)⟩ : Fin 64) (⟨(98304 + n.val) % 4096, Nat.mod_lt _ (by decide)⟩ : Fin 4096)) := by
  show W7 m hx (0 : Dev nD) (Proc.devRef .tc main_v9) (Idealize.ShloMosaic.ValueIdx.ix1 n) = _
  rw [tbl_eq3 m hx, flat_eq]
  exact slice_flat_apply _ 98304 slices_S262144_S32768_98304 n

/-- The gather table as region 3 finds it: the weight transposed. -/
theorem gt_read3 (c : Dev nD) (v : Fin 50257) (j : Fin 128) :
    hbM.view.read (Elt Ideal) (U7 m hx c main_v0) (Idealize.ShloMosaic.ValueIdx.ix2 v j) = wA m c (Idealize.ShloMosaic.ValueIdx.ix2 j v) := by
  show W7 m hx c (Proc.devRef .tc main_v0) (Idealize.ShloMosaic.ValueIdx.ix2 v j) = _
  rw [keep_v0_W7 m hx c, v0_eq]
  exact transpose_weight_apply _ v j

/-- The bias row as region 3 finds it. -/
theorem bias_read3 (c : Dev nD) (j : Fin 128) :
    biasMR3.view.read (Elt Ideal) (U7 m hx c main_v2) (Idealize.ShloMosaic.ValueIdx.ix2 (0 : Fin 1) j) = bA m c (Idealize.ShloMosaic.ValueIdx.ix1 j) := by
  show W7 m hx c (Proc.devRef .tc main_v2) (Idealize.ShloMosaic.ValueIdx.ix2 (0 : Fin 1) j) = _
  rw [keep_v2_W7 m hx c, v2_eq]
  exact bias_row_apply _ j

/-- Region 3's output, as the last stretch finds it, at (n, j). -/
theorem piece3 (n : Fin 32768) (j : Fin 128) :
    outMR3.view.read (Elt Ideal) (W16 m hx (0 : Dev nD) (Proc.devRef .tc main_v10)) (Idealize.ShloMosaic.ValueIdx.ix2 n j)
      = wA m (0 : Dev nD) (Idealize.ShloMosaic.ValueIdx.ix2 j (Cert.Spec.colOf (xA m (0 : Dev nD) (Idealize.ShloMosaic.ValueIdx.ix2 (⟨(98304 + n.val) / 4096 % 64, Nat.mod_lt _ (by decide)⟩ : Fin 64) (⟨(98304 + n.val) % 4096, Nat.mod_lt _ (by decide)⟩ : Fin 4096)))))
        + bA m (0 : Dev nD) (Idealize.ShloMosaic.ValueIdx.ix1 j) := by
  rw [keep_out3_W16 m hx (0 : Dev nD)]
  rw [show W8 m hx (0 : Dev nD) (Proc.devRef .tc main_v10) = (datR3 (U7 m hx) (hyps3 m hx) (0 : Dev nD)).arrAt 1 (cfgR3 (U7 m hx)).N from W8_arr m hx (0 : Dev nD) 1]
  refine (arrAtR3_apply (U7 m hx) (hyps3 m hx) (0 : Dev nD) n j).trans ?_
  rw [tbl_word3 m hx n, gt_read3 m hx (0 : Dev nD), bias_read3 m hx (0 : Dev nD)]

/-! ## Region 4 -/

/-- Word n of region 4's index table is the token id at flat position 131072 + n. -/
theorem tbl_word4 (n : Fin 32768) :
    tbMR4.view.read (Elt Ideal) (tblR4 (U9 m hx) 0) (Idealize.ShloMosaic.ValueIdx.ix1 n) = xA m (0 : Dev nD) (Idealize.ShloMosaic.ValueIdx.ix2 (⟨(131072 + n.val) / 4096 % 64, Nat.mod_lt _ (by decide)⟩ : Fin 64) (⟨(131072 + n.val) % 4096, Nat.mod_lt _ (by decide)⟩ : Fin 4096)) := by
  show W9 m hx (0 : Dev nD) (Proc.devRef .tc main_v11) (Idealize.ShloMosaic.ValueIdx.ix1 n) = _
  rw [tbl_eq4 m hx, flat_eq]
  exact slice_flat_apply _ 131072 slices_S262144_S32768_131072 n

/-- The gather table as region 4 finds it: the weight transposed. -/
theorem gt_read4 (c : Dev nD) (v : Fin 50257) (j : Fin 128) :
    hbM.view.read (Elt Ideal) (U9 m hx c main_v0) (Idealize.ShloMosaic.ValueIdx.ix2 v j) = wA m c (Idealize.ShloMosaic.ValueIdx.ix2 j v) := by
  show W9 m hx c (Proc.devRef .tc main_v0) (Idealize.ShloMosaic.ValueIdx.ix2 v j) = _
  rw [keep_v0_W9 m hx c, v0_eq]
  exact transpose_weight_apply _ v j

/-- The bias row as region 4 finds it. -/
theorem bias_read4 (c : Dev nD) (j : Fin 128) :
    biasMR4.view.read (Elt Ideal) (U9 m hx c main_v2) (Idealize.ShloMosaic.ValueIdx.ix2 (0 : Fin 1) j) = bA m c (Idealize.ShloMosaic.ValueIdx.ix1 j) := by
  show W9 m hx c (Proc.devRef .tc main_v2) (Idealize.ShloMosaic.ValueIdx.ix2 (0 : Fin 1) j) = _
  rw [keep_v2_W9 m hx c, v2_eq]
  exact bias_row_apply _ j

/-- Region 4's output, as the last stretch finds it, at (n, j). -/
theorem piece4 (n : Fin 32768) (j : Fin 128) :
    outMR4.view.read (Elt Ideal) (W16 m hx (0 : Dev nD) (Proc.devRef .tc main_v12)) (Idealize.ShloMosaic.ValueIdx.ix2 n j)
      = wA m (0 : Dev nD) (Idealize.ShloMosaic.ValueIdx.ix2 j (Cert.Spec.colOf (xA m (0 : Dev nD) (Idealize.ShloMosaic.ValueIdx.ix2 (⟨(131072 + n.val) / 4096 % 64, Nat.mod_lt _ (by decide)⟩ : Fin 64) (⟨(131072 + n.val) % 4096, Nat.mod_lt _ (by decide)⟩ : Fin 4096)))))
        + bA m (0 : Dev nD) (Idealize.ShloMosaic.ValueIdx.ix1 j) := by
  rw [keep_out4_W16 m hx (0 : Dev nD)]
  rw [show W10 m hx (0 : Dev nD) (Proc.devRef .tc main_v12) = (datR4 (U9 m hx) (hyps4 m hx) (0 : Dev nD)).arrAt 1 (cfgR4 (U9 m hx)).N from W10_arr m hx (0 : Dev nD) 1]
  refine (arrAtR4_apply (U9 m hx) (hyps4 m hx) (0 : Dev nD) n j).trans ?_
  rw [tbl_word4 m hx n, gt_read4 m hx (0 : Dev nD), bias_read4 m hx (0 : Dev nD)]

/-! ## Region 5 -/

/-- Word n of region 5's index table is the token id at flat position 163840 + n. -/
theorem tbl_word5 (n : Fin 32768) :
    tbMR5.view.read (Elt Ideal) (tblR5 (U11 m hx) 0) (Idealize.ShloMosaic.ValueIdx.ix1 n) = xA m (0 : Dev nD) (Idealize.ShloMosaic.ValueIdx.ix2 (⟨(163840 + n.val) / 4096 % 64, Nat.mod_lt _ (by decide)⟩ : Fin 64) (⟨(163840 + n.val) % 4096, Nat.mod_lt _ (by decide)⟩ : Fin 4096)) := by
  show W11 m hx (0 : Dev nD) (Proc.devRef .tc main_v13) (Idealize.ShloMosaic.ValueIdx.ix1 n) = _
  rw [tbl_eq5 m hx, flat_eq]
  exact slice_flat_apply _ 163840 slices_S262144_S32768_163840 n

/-- The gather table as region 5 finds it: the weight transposed. -/
theorem gt_read5 (c : Dev nD) (v : Fin 50257) (j : Fin 128) :
    hbM.view.read (Elt Ideal) (U11 m hx c main_v0) (Idealize.ShloMosaic.ValueIdx.ix2 v j) = wA m c (Idealize.ShloMosaic.ValueIdx.ix2 j v) := by
  show W11 m hx c (Proc.devRef .tc main_v0) (Idealize.ShloMosaic.ValueIdx.ix2 v j) = _
  rw [keep_v0_W11 m hx c, v0_eq]
  exact transpose_weight_apply _ v j

/-- The bias row as region 5 finds it. -/
theorem bias_read5 (c : Dev nD) (j : Fin 128) :
    biasMR5.view.read (Elt Ideal) (U11 m hx c main_v2) (Idealize.ShloMosaic.ValueIdx.ix2 (0 : Fin 1) j) = bA m c (Idealize.ShloMosaic.ValueIdx.ix1 j) := by
  show W11 m hx c (Proc.devRef .tc main_v2) (Idealize.ShloMosaic.ValueIdx.ix2 (0 : Fin 1) j) = _
  rw [keep_v2_W11 m hx c, v2_eq]
  exact bias_row_apply _ j

/-- Region 5's output, as the last stretch finds it, at (n, j). -/
theorem piece5 (n : Fin 32768) (j : Fin 128) :
    outMR5.view.read (Elt Ideal) (W16 m hx (0 : Dev nD) (Proc.devRef .tc main_v14)) (Idealize.ShloMosaic.ValueIdx.ix2 n j)
      = wA m (0 : Dev nD) (Idealize.ShloMosaic.ValueIdx.ix2 j (Cert.Spec.colOf (xA m (0 : Dev nD) (Idealize.ShloMosaic.ValueIdx.ix2 (⟨(163840 + n.val) / 4096 % 64, Nat.mod_lt _ (by decide)⟩ : Fin 64) (⟨(163840 + n.val) % 4096, Nat.mod_lt _ (by decide)⟩ : Fin 4096)))))
        + bA m (0 : Dev nD) (Idealize.ShloMosaic.ValueIdx.ix1 j) := by
  rw [keep_out5_W16 m hx (0 : Dev nD)]
  rw [show W12 m hx (0 : Dev nD) (Proc.devRef .tc main_v14) = (datR5 (U11 m hx) (hyps5 m hx) (0 : Dev nD)).arrAt 1 (cfgR5 (U11 m hx)).N from W12_arr m hx (0 : Dev nD) 1]
  refine (arrAtR5_apply (U11 m hx) (hyps5 m hx) (0 : Dev nD) n j).trans ?_
  rw [tbl_word5 m hx n, gt_read5 m hx (0 : Dev nD), bias_read5 m hx (0 : Dev nD)]

/-! ## Region 6 -/

/-- Word n of region 6's index table is the token id at flat position 196608 + n. -/
theorem tbl_word6 (n : Fin 32768) :
    tbMR6.view.read (Elt Ideal) (tblR6 (U13 m hx) 0) (Idealize.ShloMosaic.ValueIdx.ix1 n) = xA m (0 : Dev nD) (Idealize.ShloMosaic.ValueIdx.ix2 (⟨(196608 + n.val) / 4096 % 64, Nat.mod_lt _ (by decide)⟩ : Fin 64) (⟨(196608 + n.val) % 4096, Nat.mod_lt _ (by decide)⟩ : Fin 4096)) := by
  show W13 m hx (0 : Dev nD) (Proc.devRef .tc main_v15) (Idealize.ShloMosaic.ValueIdx.ix1 n) = _
  rw [tbl_eq6 m hx, flat_eq]
  exact slice_flat_apply _ 196608 slices_S262144_S32768_196608 n

/-- The gather table as region 6 finds it: the weight transposed. -/
theorem gt_read6 (c : Dev nD) (v : Fin 50257) (j : Fin 128) :
    hbM.view.read (Elt Ideal) (U13 m hx c main_v0) (Idealize.ShloMosaic.ValueIdx.ix2 v j) = wA m c (Idealize.ShloMosaic.ValueIdx.ix2 j v) := by
  show W13 m hx c (Proc.devRef .tc main_v0) (Idealize.ShloMosaic.ValueIdx.ix2 v j) = _
  rw [keep_v0_W13 m hx c, v0_eq]
  exact transpose_weight_apply _ v j

/-- The bias row as region 6 finds it. -/
theorem bias_read6 (c : Dev nD) (j : Fin 128) :
    biasMR6.view.read (Elt Ideal) (U13 m hx c main_v2) (Idealize.ShloMosaic.ValueIdx.ix2 (0 : Fin 1) j) = bA m c (Idealize.ShloMosaic.ValueIdx.ix1 j) := by
  show W13 m hx c (Proc.devRef .tc main_v2) (Idealize.ShloMosaic.ValueIdx.ix2 (0 : Fin 1) j) = _
  rw [keep_v2_W13 m hx c, v2_eq]
  exact bias_row_apply _ j

/-- Region 6's output, as the last stretch finds it, at (n, j). -/
theorem piece6 (n : Fin 32768) (j : Fin 128) :
    outMR6.view.read (Elt Ideal) (W16 m hx (0 : Dev nD) (Proc.devRef .tc main_v16)) (Idealize.ShloMosaic.ValueIdx.ix2 n j)
      = wA m (0 : Dev nD) (Idealize.ShloMosaic.ValueIdx.ix2 j (Cert.Spec.colOf (xA m (0 : Dev nD) (Idealize.ShloMosaic.ValueIdx.ix2 (⟨(196608 + n.val) / 4096 % 64, Nat.mod_lt _ (by decide)⟩ : Fin 64) (⟨(196608 + n.val) % 4096, Nat.mod_lt _ (by decide)⟩ : Fin 4096)))))
        + bA m (0 : Dev nD) (Idealize.ShloMosaic.ValueIdx.ix1 j) := by
  rw [keep_out6_W16 m hx (0 : Dev nD)]
  rw [show W14 m hx (0 : Dev nD) (Proc.devRef .tc main_v16) = (datR6 (U13 m hx) (hyps6 m hx) (0 : Dev nD)).arrAt 1 (cfgR6 (U13 m hx)).N from W14_arr m hx (0 : Dev nD) 1]
  refine (arrAtR6_apply (U13 m hx) (hyps6 m hx) (0 : Dev nD) n j).trans ?_
  rw [tbl_word6 m hx n, gt_read6 m hx (0 : Dev nD), bias_read6 m hx (0 : Dev nD)]

/-! ## Region 7 -/

/-- Word n of region 7's index table is the token id at flat position 229376 + n. -/
theorem tbl_word7 (n : Fin 32768) :
    tbMR7.view.read (Elt Ideal) (tblR7 (U15 m hx) 0) (Idealize.ShloMosaic.ValueIdx.ix1 n) = xA m (0 : Dev nD) (Idealize.ShloMosaic.ValueIdx.ix2 (⟨(229376 + n.val) / 4096 % 64, Nat.mod_lt _ (by decide)⟩ : Fin 64) (⟨(229376 + n.val) % 4096, Nat.mod_lt _ (by decide)⟩ : Fin 4096)) := by
  show W15 m hx (0 : Dev nD) (Proc.devRef .tc main_v17) (Idealize.ShloMosaic.ValueIdx.ix1 n) = _
  rw [tbl_eq7 m hx, flat_eq]
  exact slice_flat_apply _ 229376 slices_S262144_S32768_229376 n

/-- The gather table as region 7 finds it: the weight transposed. -/
theorem gt_read7 (c : Dev nD) (v : Fin 50257) (j : Fin 128) :
    hbM.view.read (Elt Ideal) (U15 m hx c main_v0) (Idealize.ShloMosaic.ValueIdx.ix2 v j) = wA m c (Idealize.ShloMosaic.ValueIdx.ix2 j v) := by
  show W15 m hx c (Proc.devRef .tc main_v0) (Idealize.ShloMosaic.ValueIdx.ix2 v j) = _
  rw [keep_v0_W15 m hx c, v0_eq]
  exact transpose_weight_apply _ v j

/-- The bias row as region 7 finds it. -/
theorem bias_read7 (c : Dev nD) (j : Fin 128) :
    biasMR7.view.read (Elt Ideal) (U15 m hx c main_v2) (Idealize.ShloMosaic.ValueIdx.ix2 (0 : Fin 1) j) = bA m c (Idealize.ShloMosaic.ValueIdx.ix1 j) := by
  show W15 m hx c (Proc.devRef .tc main_v2) (Idealize.ShloMosaic.ValueIdx.ix2 (0 : Fin 1) j) = _
  rw [keep_v2_W15 m hx c, v2_eq]
  exact bias_row_apply _ j

/-- Region 7's output, as the last stretch finds it, at (n, j). -/
theorem piece7 (n : Fin 32768) (j : Fin 128) :
    outMR7.view.read (Elt Ideal) (W16 m hx (0 : Dev nD) (Proc.devRef .tc main_v18)) (Idealize.ShloMosaic.ValueIdx.ix2 n j)
      = wA m (0 : Dev nD) (Idealize.ShloMosaic.ValueIdx.ix2 j (Cert.Spec.colOf (xA m (0 : Dev nD) (Idealize.ShloMosaic.ValueIdx.ix2 (⟨(229376 + n.val) / 4096 % 64, Nat.mod_lt _ (by decide)⟩ : Fin 64) (⟨(229376 + n.val) % 4096, Nat.mod_lt _ (by decide)⟩ : Fin 4096)))))
        + bA m (0 : Dev nD) (Idealize.ShloMosaic.ValueIdx.ix1 j) := by
  rw [keep_out7_W16 m hx (0 : Dev nD)]
  rw [show W16 m hx (0 : Dev nD) (Proc.devRef .tc main_v18) = (datR7 (U15 m hx) (hyps7 m hx) (0 : Dev nD)).arrAt 1 (cfgR7 (U15 m hx)).N from W16_arr m hx (0 : Dev nD) 1]
  refine (arrAtR7_apply (U15 m hx) (hyps7 m hx) (0 : Dev nD) n j).trans ?_
  rw [tbl_word7 m hx n, gt_read7 m hx (0 : Dev nD), bias_read7 m hx (0 : Dev nD)]

end Value

end Cert.KernelIdeal.Emb

end
-- ==== Proof.KernelIdeal.Launch.lean ====
import proofs.«418142_j33036888441229_2_alg».proof.Proof.KernelIdeal.Fold
import Idealize.ShloMosaic.Lib.Pipeline.RegionsLoop
import Idealize.ShloMosaic.Lib.Pipeline.FrameSuffix

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What a region finds beside its arrays: its tables at `tbl`, the buffers of `H` it takes whole, and the rest. -/
theorem rest_split {gr W : ℕ} {win : Fin W → Pipeline.WinSpec sig gr} {pre : Pipeline.Prefetch sig} (hp : Pipeline.PreFacts win pre)
    (H : Finset (Ref sig .tc)) (hH : H ⊆ Pipeline.restRefsP sig pre win) (c : Dev nD)
    (V : (b : Ref sig .tc) → Buf (Elt F) ((c : Thread nD τ).loc b)) (tbl : pre.Contents (Elt F)) (hP : (fun k => V (pre.ref k)) = tbl) :
    (Pipeline.unscopedRest (Ix := Unit) (Name := ℕ) (U := Pipeline.UD sig nD τ) (Lvl := ℕ) win c V : sProp 𝕄)
      = iprop(Pipeline.prefHeld (Ix := Unit) (Name := ℕ) (U := Pipeline.UD sig nD τ) (Lvl := ℕ) pre c (fun _ => fullShare) tbl
          ∗ (bigSep H fun b => ((c : Thread nD τ).loc b) ↦{fullShare} V b)
          ∗ bigSep (Pipeline.restRefsP sig pre win \ H) fun b => ((c : Thread nD τ).loc b) ↦{fullShare} V b) := by
  subst hP
  rw [Pipeline.unscopedRest_split hp c V, Pipeline.unscopedRestP_sdiff pre win H hH c V]

section Run

variable (m : (ℓ : Loc nD τ sig) → Buf (Elt F) ℓ) (ρ : Dev nD → PrngReg)
variable (hx : ∀ (c : Dev nD) (j : S64x4096.Idx), BitVec.toNat (m ((c.tc : Thread nD τ).loc main_arg0) j) < 50257)
include hx

/-- Each region's index table as it is entered. -/
abbrev adm : (p : Fin 8) → (pcfgs (F := F) p).Adm
  | ⟨0, _⟩ => admR0 (U1 m)
  | ⟨1, _⟩ => admR1 (U3 m hx)
  | ⟨2, _⟩ => admR2 (U5 m hx)
  | ⟨3, _⟩ => admR3 (U7 m hx)
  | ⟨4, _⟩ => admR4 (U9 m hx)
  | ⟨5, _⟩ => admR5 (U11 m hx)
  | ⟨6, _⟩ => admR6 (U13 m hx)
  | ⟨7, _⟩ => admR7 (U15 m hx)

/-- Every region's proof data, each at its entry contents. -/
def pdats : (p : Fin 8) → (c : Dev nD) → Dat τ (Elt F) Unit ℕ (Pipeline.UD sig nD τ) ℕ (Pipeline.pin (pcfgs (F := F)) (adm m hx) p) c
  | ⟨0, _⟩ => fun c => datR0 (U1 m) (hyps0 m hx) c
  | ⟨1, _⟩ => fun c => datR1 (U3 m hx) (hyps1 m hx) c
  | ⟨2, _⟩ => fun c => datR2 (U5 m hx) (hyps2 m hx) c
  | ⟨3, _⟩ => fun c => datR3 (U7 m hx) (hyps3 m hx) c
  | ⟨4, _⟩ => fun c => datR4 (U9 m hx) (hyps4 m hx) c
  | ⟨5, _⟩ => fun c => datR5 (U11 m hx) (hyps5 m hx) c
  | ⟨6, _⟩ => fun c => datR6 (U13 m hx) (hyps6 m hx) c
  | ⟨7, _⟩ => fun c => datR7 (U15 m hx) (hyps7 m hx) c
omit hx in
abbrev Vr : Variants := Variants.none
omit hx in

abbrev Lev : GSem nD τ sig → Finset Unit := fun _ => ∅
omit hx in
abbrev lev : GSem nD τ sig → Unit → ℕ := fun _ _ => 0
omit hx in

/-- What rides beside the buffers through every segment. -/
abbrev Rst (c : Dev nD) : sProp 𝕄 := iprop((∃ r, prngReg c r) ∗ ∃ W, owes (c : Thread nD τ) (0 : CellTallies nD τ sig Unit) W)
omit hx in

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ Vr Lev lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

set_option backward.isDefEq.respectTransparency.types false in
set_option maxHeartbeats 1000000 in
def reg0 : Pipeline.RegionSeg (pcfgs (F := F)) (adm m hx) (pdats m hx) () defs₀ Vr Lev lev 0 where
  win := winFacts0.to₀
  block_pos := block_pos0
  stage_whole := stage_whole0
  K := Fin 8
  osem := osemR0
  ho := ownSemFactsR0
  hbody c := (body_obligationR0 (U1 m) (hyps0 m hx) c).loose
  hwaits := Pipeline.hwaits_of_owed_zero _ _ _ _ Lev lev 0 fun _ _ => rfl
  pre c := iprop(StableHlo.held (c : Thread nD τ) (Pipeline.ucRefs τ sig) (W1 m c) ∗ Rst c)
  post c := iprop(StableHlo.held (c : Thread nD τ) (Pipeline.ucRefs τ sig) (W2 m hx c) ∗ Rst c)
  X c := iprop((∃ r, prngReg c r) ∗ Pipeline.ownSems0 (Ix := Unit) (Name := ℕ) (U := Pipeline.UD sig nD τ) (Lvl := ℕ) (Val := Elt F) (τ := τ) osemR0 c ∗ (bigSep HR0 fun b => (((c : Thread nD τ)).loc b) ↦{fullShare} U1 m c b))
  Y c := iprop((∃ r, prngReg c r) ∗ (bigSep HR0 fun b => (((c : Thread nD τ)).loc b) ↦{fullShare} U1 m c b) ∗ Pipeline.prefHeld (Ix := Unit) (Name := ℕ) (U := Pipeline.UD sig nD τ) (Lvl := ℕ) pre0 c (fun _ => fullShare) (tblR0 (U1 m)))
  Z c := (bigSep (Pipeline.restRefsP sig pre0 spec0 \ HR0) fun b => (((c : Thread nD τ)).loc b) ↦{fullShare} U1 m c b)
  hentry c := by
    have hsplit := Pipeline.arrays_of_unscopedBufs (p := 0) (pcfgs (F := F)) (adm m hx) (pdats m hx) winFacts0 arr_whole0 c
      ((pdats m hx 0 c).share_full fun _ => rfl) (U1 m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts0 HR0 HR0_sub c (U1 m c) _ (funext fun j => V_preR0 (U1 m) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 0 c).Φ 0 = PhiR0 (U1 m) c from rfl]; unfold PhiR0; rw [Pipeline.ΦD_eq]
    iintro ⟨⟨Hp, Ho, HH⟩, HT, Hr⟩
    iframe
  hout c := by
    rw [show (pdats m hx 0 c).Φ (Fin.last _) = PhiR0 (U1 m) c from rfl]; unfold PhiR0; rw [Pipeline.ΦD_eq]
    iintro ⟨⟨Hr, Hp, Ho, HH⟩, HT⟩
    iframe
  hexit c := by
    have hjoin := Pipeline.unscopedBufs_of_arrays (p := 0) (pcfgs (F := F)) (adm m hx) (Ix := Unit) (Name := ℕ) (U := Pipeline.UD sig nD τ) (Lvl := ℕ)
      winFacts0 arr_whole0 c (pdats m hx) ((pdats m hx 0 c).share_full fun _ => rfl)
      (U1 m c) (U2 m hx c) ((pdats m hx 0 c).arrAt · (cfgR0 (U1 m)).N) (hF0 m hx c) (hrest0 m hx c)
    rw [Pipeline.unscopedBufs_held] at hjoin
    iintro ⟨Ha, HO, ⟨HY, HH, HT⟩, HR⟩
    ihave Hrest := (Entails.of_eq (rest_split preFacts0 HR0 HR0_sub c (U1 m c) _ (funext fun j => V_preR0 (U1 m) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg1 : Pipeline.RegionSeg (pcfgs (F := F)) (adm m hx) (pdats m hx) () defs₀ Vr Lev lev 1 where
  win := winFacts1.to₀
  block_pos := block_pos1
  stage_whole := stage_whole1
  K := Fin 8
  osem := osemR1
  ho := ownSemFactsR1
  hbody c := (body_obligationR1 (U3 m hx) (hyps1 m hx) c).loose
  hwaits := Pipeline.hwaits_of_owed_zero _ _ _ _ Lev lev 1 fun _ _ => rfl
  pre c := iprop(StableHlo.held (c : Thread nD τ) (Pipeline.ucRefs τ sig) (W3 m hx c) ∗ Rst c)
  post c := iprop(StableHlo.held (c : Thread nD τ) (Pipeline.ucRefs τ sig) (W4 m hx c) ∗ Rst c)
  X c := iprop((∃ r, prngReg c r) ∗ Pipeline.ownSems0 (Ix := Unit) (Name := ℕ) (U := Pipeline.UD sig nD τ) (Lvl := ℕ) (Val := Elt F) (τ := τ) osemR1 c ∗ (bigSep HR1 fun b => (((c : Thread nD τ)).loc b) ↦{fullShare} U3 m hx c b))
  Y c := iprop((∃ r, prngReg c r) ∗ (bigSep HR1 fun b => (((c : Thread nD τ)).loc b) ↦{fullShare} U3 m hx c b) ∗ Pipeline.prefHeld (Ix := Unit) (Name := ℕ) (U := Pipeline.UD sig nD τ) (Lvl := ℕ) pre1 c (fun _ => fullShare) (tblR1 (U3 m hx)))
  Z c := (bigSep (Pipeline.restRefsP sig pre1 spec1 \ HR1) fun b => (((c : Thread nD τ)).loc b) ↦{fullShare} U3 m hx c b)
  hentry c := by
    have hsplit := Pipeline.arrays_of_unscopedBufs (p := 1) (pcfgs (F := F)) (adm m hx) (pdats m hx) winFacts1 arr_whole1 c
      ((pdats m hx 1 c).share_full fun _ => rfl) (U3 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts1 HR1 HR1_sub c (U3 m hx c) _ (funext fun j => V_preR1 (U3 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 1 c).Φ 0 = PhiR1 (U3 m hx) c from rfl]; unfold PhiR1; rw [Pipeline.ΦD_eq]
    iintro ⟨⟨Hp, Ho, HH⟩, HT, Hr⟩
    iframe
  hout c := by
    rw [show (pdats m hx 1 c).Φ (Fin.last _) = PhiR1 (U3 m hx) c from rfl]; unfold PhiR1; rw [Pipeline.ΦD_eq]
    iintro ⟨⟨Hr, Hp, Ho, HH⟩, HT⟩
    iframe
  hexit c := by
    have hjoin := Pipeline.unscopedBufs_of_arrays (p := 1) (pcfgs (F := F)) (adm m hx) (Ix := Unit) (Name := ℕ) (U := Pipeline.UD sig nD τ) (Lvl := ℕ)
      winFacts1 arr_whole1 c (pdats m hx) ((pdats m hx 1 c).share_full fun _ => rfl)
      (U3 m hx c) (U4 m hx c) ((pdats m hx 1 c).arrAt · (cfgR1 (U3 m hx)).N) (hF1 m hx c) (hrest1 m hx c)
    rw [Pipeline.unscopedBufs_held] at hjoin
    iintro ⟨Ha, HO, ⟨HY, HH, HT⟩, HR⟩
    ihave Hrest := (Entails.of_eq (rest_split preFacts1 HR1 HR1_sub c (U3 m hx c) _ (funext fun j => V_preR1 (U3 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg2 : Pipeline.RegionSeg (pcfgs (F := F)) (adm m hx) (pdats m hx) () defs₀ Vr Lev lev 2 where
  win := winFacts2.to₀
  block_pos := block_pos2
  stage_whole := stage_whole2
  K := Fin 8
  osem := osemR2
  ho := ownSemFactsR2
  hbody c := (body_obligationR2 (U5 m hx) (hyps2 m hx) c).loose
  hwaits := Pipeline.hwaits_of_owed_zero _ _ _ _ Lev lev 2 fun _ _ => rfl
  pre c := iprop(StableHlo.held (c : Thread nD τ) (Pipeline.ucRefs τ sig) (W5 m hx c) ∗ Rst c)
  post c := iprop(StableHlo.held (c : Thread nD τ) (Pipeline.ucRefs τ sig) (W6 m hx c) ∗ Rst c)
  X c := iprop((∃ r, prngReg c r) ∗ Pipeline.ownSems0 (Ix := Unit) (Name := ℕ) (U := Pipeline.UD sig nD τ) (Lvl := ℕ) (Val := Elt F) (τ := τ) osemR2 c ∗ (bigSep HR2 fun b => (((c : Thread nD τ)).loc b) ↦{fullShare} U5 m hx c b))
  Y c := iprop((∃ r, prngReg c r) ∗ (bigSep HR2 fun b => (((c : Thread nD τ)).loc b) ↦{fullShare} U5 m hx c b) ∗ Pipeline.prefHeld (Ix := Unit) (Name := ℕ) (U := Pipeline.UD sig nD τ) (Lvl := ℕ) pre2 c (fun _ => fullShare) (tblR2 (U5 m hx)))
  Z c := (bigSep (Pipeline.restRefsP sig pre2 spec2 \ HR2) fun b => (((c : Thread nD τ)).loc b) ↦{fullShare} U5 m hx c b)
  hentry c := by
    have hsplit := Pipeline.arrays_of_unscopedBufs (p := 2) (pcfgs (F := F)) (adm m hx) (pdats m hx) winFacts2 arr_whole2 c
      ((pdats m hx 2 c).share_full fun _ => rfl) (U5 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts2 HR2 HR2_sub c (U5 m hx c) _ (funext fun j => V_preR2 (U5 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 2 c).Φ 0 = PhiR2 (U5 m hx) c from rfl]; unfold PhiR2; rw [Pipeline.ΦD_eq]
    iintro ⟨⟨Hp, Ho, HH⟩, HT, Hr⟩
    iframe
  hout c := by
    rw [show (pdats m hx 2 c).Φ (Fin.last _) = PhiR2 (U5 m hx) c from rfl]; unfold PhiR2; rw [Pipeline.ΦD_eq]
    iintro ⟨⟨Hr, Hp, Ho, HH⟩, HT⟩
    iframe
  hexit c := by
    have hjoin := Pipeline.unscopedBufs_of_arrays (p := 2) (pcfgs (F := F)) (adm m hx) (Ix := Unit) (Name := ℕ) (U := Pipeline.UD sig nD τ) (Lvl := ℕ)
      winFacts2 arr_whole2 c (pdats m hx) ((pdats m hx 2 c).share_full fun _ => rfl)
      (U5 m hx c) (U6 m hx c) ((pdats m hx 2 c).arrAt · (cfgR2 (U5 m hx)).N) (hF2 m hx c) (hrest2 m hx c)
    rw [Pipeline.unscopedBufs_held] at hjoin
    iintro ⟨Ha, HO, ⟨HY, HH, HT⟩, HR⟩
    ihave Hrest := (Entails.of_eq (rest_split preFacts2 HR2 HR2_sub c (U5 m hx c) _ (funext fun j => V_preR2 (U5 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg3 : Pipeline.RegionSeg (pcfgs (F := F)) (adm m hx) (pdats m hx) () defs₀ Vr Lev lev 3 where
  win := winFacts3.to₀
  block_pos := block_pos3
  stage_whole := stage_whole3
  K := Fin 8
  osem := osemR3
  ho := ownSemFactsR3
  hbody c := (body_obligationR3 (U7 m hx) (hyps3 m hx) c).loose
  hwaits := Pipeline.hwaits_of_owed_zero _ _ _ _ Lev lev 3 fun _ _ => rfl
  pre c := iprop(StableHlo.held (c : Thread nD τ) (Pipeline.ucRefs τ sig) (W7 m hx c) ∗ Rst c)
  post c := iprop(StableHlo.held (c : Thread nD τ) (Pipeline.ucRefs τ sig) (W8 m hx c) ∗ Rst c)
  X c := iprop((∃ r, prngReg c r) ∗ Pipeline.ownSems0 (Ix := Unit) (Name := ℕ) (U := Pipeline.UD sig nD τ) (Lvl := ℕ) (Val := Elt F) (τ := τ) osemR3 c ∗ (bigSep HR3 fun b => (((c : Thread nD τ)).loc b) ↦{fullShare} U7 m hx c b))
  Y c := iprop((∃ r, prngReg c r) ∗ (bigSep HR3 fun b => (((c : Thread nD τ)).loc b) ↦{fullShare} U7 m hx c b) ∗ Pipeline.prefHeld (Ix := Unit) (Name := ℕ) (U := Pipeline.UD sig nD τ) (Lvl := ℕ) pre3 c (fun _ => fullShare) (tblR3 (U7 m hx)))
  Z c := (bigSep (Pipeline.restRefsP sig pre3 spec3 \ HR3) fun b => (((c : Thread nD τ)).loc b) ↦{fullShare} U7 m hx c b)
  hentry c := by
    have hsplit := Pipeline.arrays_of_unscopedBufs (p := 3) (pcfgs (F := F)) (adm m hx) (pdats m hx) winFacts3 arr_whole3 c
      ((pdats m hx 3 c).share_full fun _ => rfl) (U7 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts3 HR3 HR3_sub c (U7 m hx c) _ (funext fun j => V_preR3 (U7 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 3 c).Φ 0 = PhiR3 (U7 m hx) c from rfl]; unfold PhiR3; rw [Pipeline.ΦD_eq]
    iintro ⟨⟨Hp, Ho, HH⟩, HT, Hr⟩
    iframe
  hout c := by
    rw [show (pdats m hx 3 c).Φ (Fin.last _) = PhiR3 (U7 m hx) c from rfl]; unfold PhiR3; rw [Pipeline.ΦD_eq]
    iintro ⟨⟨Hr, Hp, Ho, HH⟩, HT⟩
    iframe
  hexit c := by
    have hjoin := Pipeline.unscopedBufs_of_arrays (p := 3) (pcfgs (F := F)) (adm m hx) (Ix := Unit) (Name := ℕ) (U := Pipeline.UD sig nD τ) (Lvl := ℕ)
      winFacts3 arr_whole3 c (pdats m hx) ((pdats m hx 3 c).share_full fun _ => rfl)
      (U7 m hx c) (U8 m hx c) ((pdats m hx 3 c).arrAt · (cfgR3 (U7 m hx)).N) (hF3 m hx c) (hrest3 m hx c)
    rw [Pipeline.unscopedBufs_held] at hjoin
    iintro ⟨Ha, HO, ⟨HY, HH, HT⟩, HR⟩
    ihave Hrest := (Entails.of_eq (rest_split preFacts3 HR3 HR3_sub c (U7 m hx c) _ (funext fun j => V_preR3 (U7 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg4 : Pipeline.RegionSeg (pcfgs (F := F)) (adm m hx) (pdats m hx) () defs₀ Vr Lev lev 4 where
  win := winFacts4.to₀
  block_pos := block_pos4
  stage_whole := stage_whole4
  K := Fin 8
  osem := osemR4
  ho := ownSemFactsR4
  hbody c := (body_obligationR4 (U9 m hx) (hyps4 m hx) c).loose
  hwaits := Pipeline.hwaits_of_owed_zero _ _ _ _ Lev lev 4 fun _ _ => rfl
  pre c := iprop(StableHlo.held (c : Thread nD τ) (Pipeline.ucRefs τ sig) (W9 m hx c) ∗ Rst c)
  post c := iprop(StableHlo.held (c : Thread nD τ) (Pipeline.ucRefs τ sig) (W10 m hx c) ∗ Rst c)
  X c := iprop((∃ r, prngReg c r) ∗ Pipeline.ownSems0 (Ix := Unit) (Name := ℕ) (U := Pipeline.UD sig nD τ) (Lvl := ℕ) (Val := Elt F) (τ := τ) osemR4 c ∗ (bigSep HR4 fun b => (((c : Thread nD τ)).loc b) ↦{fullShare} U9 m hx c b))
  Y c := iprop((∃ r, prngReg c r) ∗ (bigSep HR4 fun b => (((c : Thread nD τ)).loc b) ↦{fullShare} U9 m hx c b) ∗ Pipeline.prefHeld (Ix := Unit) (Name := ℕ) (U := Pipeline.UD sig nD τ) (Lvl := ℕ) pre4 c (fun _ => fullShare) (tblR4 (U9 m hx)))
  Z c := (bigSep (Pipeline.restRefsP sig pre4 spec4 \ HR4) fun b => (((c : Thread nD τ)).loc b) ↦{fullShare} U9 m hx c b)
  hentry c := by
    have hsplit := Pipeline.arrays_of_unscopedBufs (p := 4) (pcfgs (F := F)) (adm m hx) (pdats m hx) winFacts4 arr_whole4 c
      ((pdats m hx 4 c).share_full fun _ => rfl) (U9 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts4 HR4 HR4_sub c (U9 m hx c) _ (funext fun j => V_preR4 (U9 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 4 c).Φ 0 = PhiR4 (U9 m hx) c from rfl]; unfold PhiR4; rw [Pipeline.ΦD_eq]
    iintro ⟨⟨Hp, Ho, HH⟩, HT, Hr⟩
    iframe
  hout c := by
    rw [show (pdats m hx 4 c).Φ (Fin.last _) = PhiR4 (U9 m hx) c from rfl]; unfold PhiR4; rw [Pipeline.ΦD_eq]
    iintro ⟨⟨Hr, Hp, Ho, HH⟩, HT⟩
    iframe
  hexit c := by
    have hjoin := Pipeline.unscopedBufs_of_arrays (p := 4) (pcfgs (F := F)) (adm m hx) (Ix := Unit) (Name := ℕ) (U := Pipeline.UD sig nD τ) (Lvl := ℕ)
      winFacts4 arr_whole4 c (pdats m hx) ((pdats m hx 4 c).share_full fun _ => rfl)
      (U9 m hx c) (U10 m hx c) ((pdats m hx 4 c).arrAt · (cfgR4 (U9 m hx)).N) (hF4 m hx c) (hrest4 m hx c)
    rw [Pipeline.unscopedBufs_held] at hjoin
    iintro ⟨Ha, HO, ⟨HY, HH, HT⟩, HR⟩
    ihave Hrest := (Entails.of_eq (rest_split preFacts4 HR4 HR4_sub c (U9 m hx c) _ (funext fun j => V_preR4 (U9 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg5 : Pipeline.RegionSeg (pcfgs (F := F)) (adm m hx) (pdats m hx) () defs₀ Vr Lev lev 5 where
  win := winFacts5.to₀
  block_pos := block_pos5
  stage_whole := stage_whole5
  K := Fin 8
  osem := osemR5
  ho := ownSemFactsR5
  hbody c := (body_obligationR5 (U11 m hx) (hyps5 m hx) c).loose
  hwaits := Pipeline.hwaits_of_owed_zero _ _ _ _ Lev lev 5 fun _ _ => rfl
  pre c := iprop(StableHlo.held (c : Thread nD τ) (Pipeline.ucRefs τ sig) (W11 m hx c) ∗ Rst c)
  post c := iprop(StableHlo.held (c : Thread nD τ) (Pipeline.ucRefs τ sig) (W12 m hx c) ∗ Rst c)
  X c := iprop((∃ r, prngReg c r) ∗ Pipeline.ownSems0 (Ix := Unit) (Name := ℕ) (U := Pipeline.UD sig nD τ) (Lvl := ℕ) (Val := Elt F) (τ := τ) osemR5 c ∗ (bigSep HR5 fun b => (((c : Thread nD τ)).loc b) ↦{fullShare} U11 m hx c b))
  Y c := iprop((∃ r, prngReg c r) ∗ (bigSep HR5 fun b => (((c : Thread nD τ)).loc b) ↦{fullShare} U11 m hx c b) ∗ Pipeline.prefHeld (Ix := Unit) (Name := ℕ) (U := Pipeline.UD sig nD τ) (Lvl := ℕ) pre5 c (fun _ => fullShare) (tblR5 (U11 m hx)))
  Z c := (bigSep (Pipeline.restRefsP sig pre5 spec5 \ HR5) fun b => (((c : Thread nD τ)).loc b) ↦{fullShare} U11 m hx c b)
  hentry c := by
    have hsplit := Pipeline.arrays_of_unscopedBufs (p := 5) (pcfgs (F := F)) (adm m hx) (pdats m hx) winFacts5 arr_whole5 c
      ((pdats m hx 5 c).share_full fun _ => rfl) (U11 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts5 HR5 HR5_sub c (U11 m hx c) _ (funext fun j => V_preR5 (U11 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 5 c).Φ 0 = PhiR5 (U11 m hx) c from rfl]; unfold PhiR5; rw [Pipeline.ΦD_eq]
    iintro ⟨⟨Hp, Ho, HH⟩, HT, Hr⟩
    iframe
  hout c := by
    rw [show (pdats m hx 5 c).Φ (Fin.last _) = PhiR5 (U11 m hx) c from rfl]; unfold PhiR5; rw [Pipeline.ΦD_eq]
    iintro ⟨⟨Hr, Hp, Ho, HH⟩, HT⟩
    iframe
  hexit c := by
    have hjoin := Pipeline.unscopedBufs_of_arrays (p := 5) (pcfgs (F := F)) (adm m hx) (Ix := Unit) (Name := ℕ) (U := Pipeline.UD sig nD τ) (Lvl := ℕ)
      winFacts5 arr_whole5 c (pdats m hx) ((pdats m hx 5 c).share_full fun _ => rfl)
      (U11 m hx c) (U12 m hx c) ((pdats m hx 5 c).arrAt · (cfgR5 (U11 m hx)).N) (hF5 m hx c) (hrest5 m hx c)
    rw [Pipeline.unscopedBufs_held] at hjoin
    iintro ⟨Ha, HO, ⟨HY, HH, HT⟩, HR⟩
    ihave Hrest := (Entails.of_eq (rest_split preFacts5 HR5 HR5_sub c (U11 m hx c) _ (funext fun j => V_preR5 (U11 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg6 : Pipeline.RegionSeg (pcfgs (F := F)) (adm m hx) (pdats m hx) () defs₀ Vr Lev lev 6 where
  win := winFacts6.to₀
  block_pos := block_pos6
  stage_whole := stage_whole6
  K := Fin 8
  osem := osemR6
  ho := ownSemFactsR6
  hbody c := (body_obligationR6 (U13 m hx) (hyps6 m hx) c).loose
  hwaits := Pipeline.hwaits_of_owed_zero _ _ _ _ Lev lev 6 fun _ _ => rfl
  pre c := iprop(StableHlo.held (c : Thread nD τ) (Pipeline.ucRefs τ sig) (W13 m hx c) ∗ Rst c)
  post c := iprop(StableHlo.held (c : Thread nD τ) (Pipeline.ucRefs τ sig) (W14 m hx c) ∗ Rst c)
  X c := iprop((∃ r, prngReg c r) ∗ Pipeline.ownSems0 (Ix := Unit) (Name := ℕ) (U := Pipeline.UD sig nD τ) (Lvl := ℕ) (Val := Elt F) (τ := τ) osemR6 c ∗ (bigSep HR6 fun b => (((c : Thread nD τ)).loc b) ↦{fullShare} U13 m hx c b))
  Y c := iprop((∃ r, prngReg c r) ∗ (bigSep HR6 fun b => (((c : Thread nD τ)).loc b) ↦{fullShare} U13 m hx c b) ∗ Pipeline.prefHeld (Ix := Unit) (Name := ℕ) (U := Pipeline.UD sig nD τ) (Lvl := ℕ) pre6 c (fun _ => fullShare) (tblR6 (U13 m hx)))
  Z c := (bigSep (Pipeline.restRefsP sig pre6 spec6 \ HR6) fun b => (((c : Thread nD τ)).loc b) ↦{fullShare} U13 m hx c b)
  hentry c := by
    have hsplit := Pipeline.arrays_of_unscopedBufs (p := 6) (pcfgs (F := F)) (adm m hx) (pdats m hx) winFacts6 arr_whole6 c
      ((pdats m hx 6 c).share_full fun _ => rfl) (U13 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts6 HR6 HR6_sub c (U13 m hx c) _ (funext fun j => V_preR6 (U13 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 6 c).Φ 0 = PhiR6 (U13 m hx) c from rfl]; unfold PhiR6; rw [Pipeline.ΦD_eq]
    iintro ⟨⟨Hp, Ho, HH⟩, HT, Hr⟩
    iframe
  hout c := by
    rw [show (pdats m hx 6 c).Φ (Fin.last _) = PhiR6 (U13 m hx) c from rfl]; unfold PhiR6; rw [Pipeline.ΦD_eq]
    iintro ⟨⟨Hr, Hp, Ho, HH⟩, HT⟩
    iframe
  hexit c := by
    have hjoin := Pipeline.unscopedBufs_of_arrays (p := 6) (pcfgs (F := F)) (adm m hx) (Ix := Unit) (Name := ℕ) (U := Pipeline.UD sig nD τ) (Lvl := ℕ)
      winFacts6 arr_whole6 c (pdats m hx) ((pdats m hx 6 c).share_full fun _ => rfl)
      (U13 m hx c) (U14 m hx c) ((pdats m hx 6 c).arrAt · (cfgR6 (U13 m hx)).N) (hF6 m hx c) (hrest6 m hx c)
    rw [Pipeline.unscopedBufs_held] at hjoin
    iintro ⟨Ha, HO, ⟨HY, HH, HT⟩, HR⟩
    ihave Hrest := (Entails.of_eq (rest_split preFacts6 HR6 HR6_sub c (U13 m hx c) _ (funext fun j => V_preR6 (U13 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in
set_option maxHeartbeats 1000000 in
def reg7 : Pipeline.RegionSeg (pcfgs (F := F)) (adm m hx) (pdats m hx) () defs₀ Vr Lev lev 7 where
  win := winFacts7.to₀
  block_pos := block_pos7
  stage_whole := stage_whole7
  K := Fin 8
  osem := osemR7
  ho := ownSemFactsR7
  hbody c := (body_obligationR7 (U15 m hx) (hyps7 m hx) c).loose
  hwaits := Pipeline.hwaits_of_owed_zero _ _ _ _ Lev lev 7 fun _ _ => rfl
  pre c := iprop(StableHlo.held (c : Thread nD τ) (Pipeline.ucRefs τ sig) (W15 m hx c) ∗ Rst c)
  post c := iprop(StableHlo.held (c : Thread nD τ) (Pipeline.ucRefs τ sig) (W16 m hx c) ∗ Rst c)
  X c := iprop((∃ r, prngReg c r) ∗ Pipeline.ownSems0 (Ix := Unit) (Name := ℕ) (U := Pipeline.UD sig nD τ) (Lvl := ℕ) (Val := Elt F) (τ := τ) osemR7 c ∗ (bigSep HR7 fun b => (((c : Thread nD τ)).loc b) ↦{fullShare} U15 m hx c b))
  Y c := iprop((∃ r, prngReg c r) ∗ (bigSep HR7 fun b => (((c : Thread nD τ)).loc b) ↦{fullShare} U15 m hx c b) ∗ Pipeline.prefHeld (Ix := Unit) (Name := ℕ) (U := Pipeline.UD sig nD τ) (Lvl := ℕ) pre7 c (fun _ => fullShare) (tblR7 (U15 m hx)))
  Z c := (bigSep (Pipeline.restRefsP sig pre7 spec7 \ HR7) fun b => (((c : Thread nD τ)).loc b) ↦{fullShare} U15 m hx c b)
  hentry c := by
    have hsplit := Pipeline.arrays_of_unscopedBufs (p := 7) (pcfgs (F := F)) (adm m hx) (pdats m hx) winFacts7 arr_whole7 c
      ((pdats m hx 7 c).share_full fun _ => rfl) (U15 m hx c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest_split preFacts7 HR7 HR7_sub c (U15 m hx c) _ (funext fun j => V_preR7 (U15 m hx) c j))) $$ Hrest
    icases H' with ⟨HT, HH, HR⟩
    imodintro
    iframe Ha HT Hp Hos HH HR
    unfold Pipeline.Dat.owesAt Pipeline.owesWithin
    icases HO with ⟨%W, HO⟩; iexists W; isplitr; · ipureintro; exact fun _ _ => Or.inl trivial
    iexact HO
  hin c := by
    rw [show (pdats m hx 7 c).Φ 0 = PhiR7 (U15 m hx) c from rfl]; unfold PhiR7; rw [Pipeline.ΦD_eq]
    iintro ⟨⟨Hp, Ho, HH⟩, HT, Hr⟩
    iframe
  hout c := by
    rw [show (pdats m hx 7 c).Φ (Fin.last _) = PhiR7 (U15 m hx) c from rfl]; unfold PhiR7; rw [Pipeline.ΦD_eq]
    iintro ⟨⟨Hr, Hp, Ho, HH⟩, HT⟩
    iframe
  hexit c := by
    have hjoin := Pipeline.unscopedBufs_of_arrays (p := 7) (pcfgs (F := F)) (adm m hx) (Ix := Unit) (Name := ℕ) (U := Pipeline.UD sig nD τ) (Lvl := ℕ)
      winFacts7 arr_whole7 c (pdats m hx) ((pdats m hx 7 c).share_full fun _ => rfl)
      (U15 m hx c) (U16 m hx c) ((pdats m hx 7 c).arrAt · (cfgR7 (U15 m hx)).N) (hF7 m hx c) (hrest7 m hx c)
    rw [Pipeline.unscopedBufs_held] at hjoin
    iintro ⟨Ha, HO, ⟨HY, HH, HT⟩, HR⟩
    ihave Hrest := (Entails.of_eq (rest_split preFacts7 HR7 HR7_sub c (U15 m hx c) _ (funext fun j => V_preR7 (U15 m hx) c j)).symm) $$ [HT HH HR]
    · iframe
    imodintro
    isplitl [Ha Hrest]
    · iapply hjoin; iframe
    isplitl [HY]; · iexact HY
    unfold Pipeline.Dat.owesAt Pipeline.owesWithin
    icases HO with ⟨%W, -, HO⟩; iexists W; iexact HO

abbrev segs : List (Pipeline.Seg (pcfgs (F := F)) (adm m hx) (pdats m hx) () defs₀ Vr Lev lev) :=
  [ .host (hseg hostOps0 hostOps0_sub hostOps0_fresh (W0 m)),
    .region (reg0 m hx),
    .host (hseg hostOps1 hostOps1_sub hostOps1_fresh (W2 m hx)),
    .region (reg1 m hx),
    .host (hseg hostOps2 hostOps2_sub hostOps2_fresh (W4 m hx)),
    .region (reg2 m hx),
    .host (hseg hostOps3 hostOps3_sub hostOps3_fresh (W6 m hx)),
    .region (reg3 m hx),
    .host (hseg hostOps4 hostOps4_sub hostOps4_fresh (W8 m hx)),
    .region (reg4 m hx),
    .host (hseg hostOps5 hostOps5_sub hostOps5_fresh (W10 m hx)),
    .region (reg5 m hx),
    .host (hseg hostOps6 hostOps6_sub hostOps6_fresh (W12 m hx)),
    .region (reg6 m hx),
    .host (hseg hostOps7 hostOps7_sub hostOps7_fresh (W14 m hx)),
    .region (reg7 m hx),
    .host (hseg hostOps8 hostOps8_sub hostOps8_fresh (W16 m hx)) ]

/-- @main is the run of the segments. -/
theorem main_run (c : Dev nD) : main (F := F) c = Pipeline.Seg.run (segs m hx) := (main_chain c).trans (by chain_rfl)

set_option backward.isDefEq.respectTransparency.types false in
set_option maxHeartbeats 2000000 in
/-- Every weakly fair execution of @main terminates with every unscoped buffer at the last stage's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W17 m hx c b) :=
  Pipeline.θ_run_regions_kit (pcfgs (F := F)) (adm m hx) (pdats m hx) () (cellOf_inj (adm m hx)) embL defs₀ Vr Lev lev m ρ main (segs m hx)
    (fun c Q => by rw [main_run m hx c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m hx)) (cellOf_inj (adm m hx))) (Pipeline.launchToks (Pipeline.pin (pcfgs (F := F)) (adm m hx)) (cellOf_inj (adm m hx))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => StableHlo.held (c : Thread nD τ) (Pipeline.ucRefs τ sig) (W17 m hx c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => sep_mono .rfl (show (Rst c : sProp 𝕄) ⊢ iprop(∃ W, owes (c : Thread nD τ) (0 : CellTallies nD τ sig Unit) W) from by
      iintro ⟨-, HO⟩
      iexact HO)⟩)
    (hinit := by
      refine Pipeline.initEach Lev lev fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m hx c b)
    (hfin := fun c s' => by
      iintro ⟨Hh, HSI⟩
      unfold StableHlo.held
      imodintro
      iapply (pointsTo_read_all (Pipeline.ucRefs τ sig) (fun b => (((c : Thread nD τ)).1, b)) (W17 m hx c) s')
      isplitl [Hh] <;> iassumption)
    (hQ := fun s h c => h c)

end Run

end Cert.KernelIdeal.Emb

end
-- ==== Proof.KernelIdeal.Frame.lean ====
import proofs.«418142_j33036888441229_2_alg».proof.Proof.KernelIdeal.Launch

set_option maxRecDepth 16384

noncomputable section

namespace Cert.KernelIdeal.Emb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Frame

variable (m : (ℓ : Loc nD τ sig) → Buf (Elt F) ℓ) (ρ : Dev nD → PrngReg)
variable (hx : ∀ (c : Dev nD) (j : S64x4096.Idx), BitVec.toNat (m ((c.tc : Thread nD τ).loc main_arg0) j) < 50257)

/-- An unscoped reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hx in

/-- @main ends with its three arguments as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (keep_arg0_W17 m hx c),
     (h c _ (mem_uc main_arg1 (by decide))).trans (keep_arg1_W17 m hx c),
     (h c _ (mem_uc main_arg2 (by decide))).trans (keep_arg2_W17 m hx c)⟩) (run_main m ρ hx)

end Frame

end Cert.KernelIdeal.Emb

end
-- ==== Proof.KernelIdeal.Value.lean ====
import proofs.«418142_j33036888441229_2_alg».proof.Proof.KernelIdeal.Pieces
import proofs.«418142_j33036888441229_2_alg».proof.Proof.KernelIdeal.Frame

set_option maxRecDepth 16384

noncomputable section

namespace Cert.KernelIdeal.Emb

open Cert.KernelIdeal Cert.KernelIdeal.Gen
open Idealize.ShloMosaic Idealize.ShloMosaic.TcCoe
open Idealize.SL.Sem

section Result

variable (m : (ℓ : Loc nD τ sig) → Buf (Elt Ideal) ℓ)
variable (hx : ∀ (c : Dev nD) (j : S64x4096.Idx), BitVec.toNat (m ((c.tc : Thread nD τ).loc main_arg0) j) < 50257)
include hx

/-- The eight regions' output arrays at the end, as one family. -/
def outs16 : Fin 8 → S32768x128.Idx → Elt Ideal .f32 := fun k =>
  (![W16 m hx (0 : Dev nD) (Proc.devRef .tc main_v4),
      W16 m hx (0 : Dev nD) (Proc.devRef .tc main_v6),
      W16 m hx (0 : Dev nD) (Proc.devRef .tc main_v8),
      W16 m hx (0 : Dev nD) (Proc.devRef .tc main_v10),
      W16 m hx (0 : Dev nD) (Proc.devRef .tc main_v12),
      W16 m hx (0 : Dev nD) (Proc.devRef .tc main_v14),
      W16 m hx (0 : Dev nD) (Proc.devRef .tc main_v16),
      W16 m hx (0 : Dev nD) (Proc.devRef .tc main_v18)] : Fin 8 → S32768x128.Idx → Elt Ideal .f32) k

/-- Output K at (n, j) is W[j, id] + bias[j] for id the token at flat position 32768·K + n. -/
theorem outs16_apply (K : Fin 8) (n : Fin 32768) (j : Fin 128) :
    outs16 m hx K (Idealize.ShloMosaic.ValueIdx.ix2 n j)
      = wA m (0 : Dev nD) (Idealize.ShloMosaic.ValueIdx.ix2 j (Cert.Spec.colOf (xA m (0 : Dev nD)
            (Idealize.ShloMosaic.ValueIdx.ix2 (⟨(32768 * K.val + n.val) / 4096 % 64, Nat.mod_lt _ (by decide)⟩ : Fin 64) (⟨(32768 * K.val + n.val) % 4096, Nat.mod_lt _ (by decide)⟩ : Fin 4096)))))
        + bA m (0 : Dev nD) (Idealize.ShloMosaic.ValueIdx.ix1 j) := by
  match K with
  | ⟨0, _⟩ => exact piece0 m hx n j
  | ⟨1, _⟩ => exact piece1 m hx n j
  | ⟨2, _⟩ => exact piece2 m hx n j
  | ⟨3, _⟩ => exact piece3 m hx n j
  | ⟨4, _⟩ => exact piece4 m hx n j
  | ⟨5, _⟩ => exact piece5 m hx n j
  | ⟨6, _⟩ => exact piece6 m hx n j
  | ⟨7, _⟩ => exact piece7 m hx n j

/-- The result array equals the specification at every index: flat position 4096·b + s names the same token on both sides. -/
theorem result_eq (c : Dev nD) :
    W17 m hx c (Proc.devRef .tc main_v20)
      = Cert.Spec.G (m ((c.tc : Thread nD τ).loc main_arg0)) (m ((c.tc : Thread nD τ).loc main_arg1)) (m ((c.tc : Thread nD τ).loc main_arg2)) := by
  obtain rfl : c = 0 := Subsingleton.elim _ _
  rw [res_eq]
  funext i
  have hb : (i 0).val < 64 := (i 0).isLt
  have hs : (i 1).val < 4096 := (i 1).isLt
  have hj : (i 2).val < 128 := (i 2).isLt
  obtain ⟨bq, hbq⟩ : ∃ bq : Fin 64, bq.val = (i 0).val := ⟨⟨(i 0).val, hb⟩, rfl⟩
  obtain ⟨s, hsq⟩ : ∃ s : Fin 4096, s.val = (i 1).val := ⟨⟨(i 1).val, hs⟩, rfl⟩
  obtain ⟨j, hjq⟩ : ∃ j : Fin 128, j.val = (i 2).val := ⟨⟨(i 2).val, hj⟩, rfl⟩
  have hi : i = Idealize.ShloMosaic.ValueIdx.ix3 bq s j := by
    funext a
    match a with
    | ⟨0, _⟩ => exact Fin.ext hbq.symm
    | ⟨1, _⟩ => exact Fin.ext hsq.symm
    | ⟨2, _⟩ => exact Fin.ext hjq.symm
  rw [hi]
  refine (result_apply (outs16 m hx) bq s j).trans ?_
  rw [outs16_apply m hx]
  have hbv : bq.val < 64 := bq.isLt
  have hsv : s.val < 4096 := s.isLt
  have h0 : (32768 * ((4096 * bq.val + s.val) / 32768 % 8) + (4096 * bq.val + s.val) % 32768) / 4096 % 64 = bq.val := by omega
  have h1 : (32768 * ((4096 * bq.val + s.val) / 32768 % 8) + (4096 * bq.val + s.val) % 32768) % 4096 = s.val := by omega
  unfold Cert.Spec.G
  simp only [h0, h1]

/-- @main ends with its result at the specification of its arguments and the arguments unchanged. -/
theorem value_run (ρ : Dev nD → PrngReg) : θ_run defs (onTc (τ := τ) (main (F := Ideal))) ⟨m, fun _ => 0, ρ⟩ (fun r => ∀ c : Dev nD,
      r.2.mem ((c.tc : Thread nD τ).loc main_v20)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v20 (by decide))).trans (result_eq m hx c),
     (h c _ (mem_uc main_arg0 (by decide))).trans (keep_arg0_W17 m hx c),
     (h c _ (mem_uc main_arg1 (by decide))).trans (keep_arg1_W17 m hx c),
     (h c _ (mem_uc main_arg2 (by decide))).trans (keep_arg2_W17 m hx c)⟩) (run_main m ρ hx)

end Result

end Cert.KernelIdeal.Emb

end
-- ==== Proof.lean ====
import proofs.«418142_j33036888441229_2_alg».proof.Defs
import proofs.«418142_j33036888441229_2_alg».proof.Proof.Gen.Kernel
import proofs.«418142_j33036888441229_2_alg».proof.Proof.Gen.KernelIdeal
import proofs.«418142_j33036888441229_2_alg».proof.Proof.Gen.ReferenceIdeal
import proofs.«418142_j33036888441229_2_alg».proof.Proof.Gen.Pre_finite_inputs
import proofs.«418142_j33036888441229_2_alg».proof.Proof.PreRange
import proofs.«418142_j33036888441229_2_alg».proof.Proof.RefValue
import proofs.«418142_j33036888441229_2_alg».proof.Proof.Kernel.Frame
import proofs.«418142_j33036888441229_2_alg».proof.Proof.KernelIdeal.Value
import Idealize.ShloMosaic.Adequacy
import Idealize.ShloMosaic.Init

noncomputable section

namespace Cert.Proof

open Idealize.ShloMosaic Idealize.ShloMosaic.TcCoe Idealize.SL.Sem

/-- Under the precondition every token id is below the vocabulary size, at each instance. -/
theorem ids_k (m : (ℓ : Loc Cert.Kernel.nD Cert.Kernel.τ Cert.Kernel.sig) → Buf (Elt Bits) ℓ) (h : Cert.Pre_Kernel m) :
    ∀ (c : Dev Cert.Kernel.nD) (j : Cert.Kernel.S64x4096.Idx), BitVec.toNat (m ((c.tc : Thread Cert.Kernel.nD Cert.Kernel.τ).loc Cert.Kernel.main_arg0) j) < 50257 :=
  fun c j => Cert.PreRange.toNat_lt_of_pre _ _ _ (h c) j

theorem ids_ki (m : (ℓ : Loc Cert.KernelIdeal.nD Cert.KernelIdeal.τ Cert.KernelIdeal.sig) → Buf (Elt Ideal) ℓ) (h : Cert.Pre_KernelIdeal m) :
    ∀ (c : Dev Cert.KernelIdeal.nD) (j : Cert.KernelIdeal.S64x4096.Idx), BitVec.toNat (m ((c.tc : Thread Cert.KernelIdeal.nD Cert.KernelIdeal.τ).loc Cert.KernelIdeal.main_arg0) j) < 50257 :=
  fun c j => Cert.PreRange.toNat_lt_of_pre _ _ _ (h c) j

theorem ids_ri (m : (ℓ : Loc Cert.ReferenceIdeal.nD Cert.ReferenceIdeal.τ Cert.ReferenceIdeal.sig) → Buf (Elt Ideal) ℓ) (h : Cert.Pre_ReferenceIdeal m) :
    ∀ (c : Dev Cert.ReferenceIdeal.nD) (j : Cert.ReferenceIdeal.S64x4096.Idx), BitVec.toNat (m ((c.tc : Thread Cert.ReferenceIdeal.nD Cert.ReferenceIdeal.τ).loc Cert.ReferenceIdeal.main_arg0) j) < Cert.Spec.vocab :=
  fun c j => Cert.PreRange.toNat_lt_of_pre _ _ _ (h c) j

theorem frame_k : Cert.frame_Kernel := fun m g h => Cert.Kernel.Emb.frame_run m g (ids_k m h)
theorem frame_ki : Cert.frame_KernelIdeal := fun m g h => Cert.KernelIdeal.Emb.frame_run m g (ids_ki m h)
theorem frame_ri : Cert.frame_ReferenceIdeal := fun m g h =>
  (θ_run Cert.ReferenceIdeal.defs _ _).mono (fun _ hh c => (hh c).2) (Cert.ReferenceIdeal.RefValue.run_spec m g (ids_ri m h))

theorem preserves : Cert.preserves_Kernel_KernelIdeal := trivial

/-- Both programs end with their result at the specification of the agreeing arguments. -/
theorem algebraic : Cert.algebraic_KernelIdeal_ReferenceIdeal := by
  intro m g m' g' hpre hag
  have hx := ids_ki m hpre
  have hx' : ∀ (c : Dev Cert.ReferenceIdeal.nD) (j : Cert.ReferenceIdeal.S64x4096.Idx),
      BitVec.toNat (m' ((c.tc : Thread Cert.ReferenceIdeal.nD Cert.ReferenceIdeal.τ).loc Cert.ReferenceIdeal.main_arg0) j) < Cert.Spec.vocab := fun c j => by
    rw [(hag c).1]; exact hx c j
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Emb.value_run m hx g, ?_⟩
  refine (θ_run Cert.ReferenceIdeal.defs _ _).mono (fun r h c => ⟨(h c).1.trans ?_, (h c).2⟩)
    (Cert.ReferenceIdeal.RefValue.run_spec m' g' hx')
  rw [(hag c).1, (hag c).2.1, (hag c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
